-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S16384x16384 : Shape := ⟨2, ![16384, 16384]⟩
abbrev S16384x128 : Shape := ⟨2, ![16384, 128]⟩
abbrev S3x128x128 : Shape := ⟨3, ![3, 128, 128]⟩
abbrev S3x128 : Shape := ⟨2, ![3, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg1 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  let main_c_8 : IVec S_ 32 := constantI S_ 32 16384#32
  let main_v23 : IVec S8192 32 := broadcastInDim S8192 ![] bcast_S_S8192 main_c_8
  let main_v24 : IVec S8192 1 := cmpi .slt main_arg1 main_v23
  let main_c_9 : IVec S_ 1 := constantI S_ 1 1#1
  let main_v25 : IVec S_ 1 := (fun x v => Host.reduce IntOp.andi x v reducesTo_S8192_S_d0 h_S_) main_v24 main_c_9
  let main_v26 : IVec S_ 1 := andi main_v22 main_v25
  main_v26

def fn {F : FTy → Type} [FloatOps F] (main_arg0 : IVec S8192 32) (main_arg1 : IVec S8192 32) (main_arg2 : FVec F S16384x16384 .f32) (main_arg3 : FVec F S16384x128 .f32) (main_arg4 : FVec F S3x128x128 .f32) (main_arg5 : FVec F S3x128 .f32) : IVec S_ 1 :=
  let main_v0 : FVec F S16384x16384 .f32 := Host.absf main_arg2
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg3
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_v13 main_v16
-- ==== Kernel.lean ====
abbrev S8192 : Shape := ⟨1, ![8192]⟩
abbrev S16384x16384 : Shape := ⟨2, ![16384, 16384]⟩
abbrev S16384x128 : Shape := ⟨2, ![16384, 128]⟩
abbrev S3x128x128 : Shape := ⟨3, ![3, 128, 128]⟩
abbrev S3x128 : Shape := ⟨2, ![3, 128]⟩
abbrev S_ : Shape := ⟨0, ![]⟩
abbrev S4096 : Shape := ⟨1, ![4096]⟩
abbrev S8192x1 : Shape := ⟨2, ![8192, 1]⟩
abbrev S4096x1 : Shape := ⟨2, ![4096, 1]⟩
abbrev S4096x128 : Shape := ⟨2, ![4096, 128]⟩
abbrev S128x128 : Shape := ⟨2, ![128, 128]⟩
abbrev S128x16384 : Shape := ⟨2, ![128, 16384]⟩
abbrev S128 : Shape := ⟨1, ![128]⟩
abbrev S1 : Shape := ⟨1, ![1]⟩
abbrev S1x16384 : Shape := ⟨2, ![1, 16384]⟩
abbrev S16384 : Shape := ⟨1, ![16384]⟩
abbrev S256x128 : Shape := ⟨2, ![256, 128]⟩
abbrev S256 : Shape := ⟨1, ![256]⟩
abbrev S1x128 : Shape := ⟨2, ![1, 128]⟩
abbrev S8192x128 : Shape := ⟨2, ![8192, 128]⟩
abbrev S8192x384 : Shape := ⟨2, ![8192, 384]⟩
abbrev S2048x128 : Shape := ⟨2, ![2048, 128]⟩
abbrev S2048x384 : Shape := ⟨2, ![2048, 384]⟩
abbrev S1x128x128 : Shape := ⟨3, ![1, 128, 128]⟩

abbrev nBuf : Space → Nat
  | .hbm => 163
  | .vmem => 12
  | .smem => 2
  | _ => 0

abbrev hbmTy0_0 (i : Nat) : BufTy := match i % 128 with
  | 0 => ⟨S8192, .i32⟩
  | 1 => ⟨S8192, .i32⟩
  | 2 => ⟨S16384x16384, .f32⟩
  | 3 => ⟨S16384x128, .f32⟩
  | 4 => ⟨S3x128x128, .f32⟩
  | 5 => ⟨S3x128, .f32⟩
  | 6 => ⟨S_, .i32⟩
  | 7 => ⟨S8192, .i32⟩
  | 8 => ⟨S8192, .i1⟩
  | 9 => ⟨S8192, .i32⟩
  | 10 => ⟨S_, .i32⟩
  | 11 => ⟨S_, .i32⟩
  | 12 => ⟨S8192, .i32⟩
  | 13 => ⟨S_, .i32⟩
  | 14 => ⟨S4096, .i32⟩
  | 15 => ⟨S_, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S_, .i32⟩
  | 28 => ⟨S8192, .i32⟩
  | 29 => ⟨S4096, .i32⟩
  | 30 => ⟨S_, .i32⟩
  | 31 => ⟨S_, .i32⟩
  | 32 => ⟨S4096, .i32⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S4096, .i32⟩
  | 41 => ⟨S4096, .i32⟩
  | 42 => ⟨S_, .i32⟩
  | 43 => ⟨S4096, .i32⟩
  | 44 => ⟨S4096, .i1⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i1⟩
  | 64 => ⟨S_, .i32⟩
  | 65 => ⟨S_, .i1⟩
  | 66 => ⟨S4096, .i1⟩
  | 67 => ⟨S4096, .i1⟩
  | 68 => ⟨S4096, .i1⟩
  | 69 => ⟨S4096, .i32⟩
  | 70 => ⟨S4096, .i32⟩
  | 71 => ⟨S4096, .i32⟩
  | 72 => ⟨S_, .i32⟩
  | 73 => ⟨S8192, .i32⟩
  | 74 => ⟨S8192, .i1⟩
  | 75 => ⟨S8192, .i32⟩
  | 76 => ⟨S_, .i32⟩
  | 77 => ⟨S_, .i32⟩
  | 78 => ⟨S8192, .i32⟩
  | 79 => ⟨S_, .i32⟩
  | 80 => ⟨S4096, .i32⟩
  | 81 => ⟨S_, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S8192x1, .i32⟩
  | 93 => ⟨S_, .i32⟩
  | 94 => ⟨S8192, .i32⟩
  | 95 => ⟨S4096, .i32⟩
  | 96 => ⟨S_, .i32⟩
  | 97 => ⟨S_, .i32⟩
  | 98 => ⟨S4096, .i32⟩
  | 99 => ⟨S_, .i32⟩
  | 100 => ⟨S4096, .i32⟩
  | 101 => ⟨S4096, .i32⟩
  | 102 => ⟨S4096, .i32⟩
  | 103 => ⟨S_, .i32⟩
  | 104 => ⟨S4096, .i32⟩
  | 105 => ⟨S4096, .i1⟩
  | 106 => ⟨S4096, .i32⟩
  | 107 => ⟨S4096, .i32⟩
  | 108 => ⟨S_, .i32⟩
  | 109 => ⟨S4096, .i32⟩
  | 110 => ⟨S4096, .i1⟩
  | 111 => ⟨S4096, .i1⟩
  | 112 => ⟨S_, .i32⟩
  | 113 => ⟨S4096, .i32⟩
  | 114 => ⟨S4096, .i32⟩
  | 115 => ⟨S4096, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i1⟩
  | 127 => ⟨S_, .i32⟩
  | _ => ⟨S8192, .i32⟩

abbrev hbmTy0_1 (i : Nat) : BufTy := match i % 128 with
  | 0 => ⟨S4096, .i32⟩
  | 1 => ⟨S4096, .i1⟩
  | 2 => ⟨S_, .i32⟩
  | 3 => ⟨S_, .i1⟩
  | 4 => ⟨S4096, .i1⟩
  | 5 => ⟨S4096, .i1⟩
  | 6 => ⟨S4096, .i1⟩
  | 7 => ⟨S4096, .i32⟩
  | 8 => ⟨S4096, .i32⟩
  | 9 => ⟨S4096, .i32⟩
  | 10 => ⟨S_, .i32⟩
  | 11 => ⟨S4096, .i32⟩
  | 12 => ⟨S_, .i32⟩
  | 13 => ⟨S4096, .i32⟩
  | 14 => ⟨S8192, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x128, .f32⟩
  | 32 => ⟨S4096x128, .f32⟩
  | 33 => ⟨S8192x128, .f32⟩
  | 34 => ⟨S8192x384, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | .local _ .vmem, ⟨0, _⟩ => ⟨S16384x128, .f32⟩
  | .local _ .vmem, ⟨1, _⟩ => ⟨S128x128, .f32⟩
  | .local _ .vmem, ⟨2, _⟩ => ⟨S128x128, .f32⟩
  | .local _ .vmem, ⟨3, _⟩ => ⟨S128x16384, .f32⟩
  | .local _ .vmem, ⟨4, _⟩ => ⟨S256x128, .f32⟩
  | .local _ .vmem, ⟨5, _⟩ => ⟨S256x128, .f32⟩
  | .local _ .vmem, ⟨6, _⟩ => ⟨S2048x128, .f32⟩
  | .local _ .vmem, ⟨7, _⟩ => ⟨S2048x128, .f32⟩
  | .local _ .vmem, ⟨8, _⟩ => ⟨S3x128x128, .f32⟩
  | .local _ .vmem, ⟨9, _⟩ => ⟨S3x128, .f32⟩
  | .local _ .vmem, ⟨10, _⟩ => ⟨S2048x384, .f32⟩
  | .local _ .vmem, ⟨11, _⟩ => ⟨S2048x384, .f32⟩
  | .local _ .smem, ⟨0, _⟩ => ⟨S4096, .i32⟩
  | .local _ .smem, ⟨1, _⟩ => ⟨S4096, .i32⟩
  | _, _ => ⟨S8192, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 395 → Bool
  | ⟨i, _⟩ => dmaSemScopedAt i

abbrev sig : RefSig :=
  ofTc nBuf bufTy 0 395 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v4 : Ref sig .tc := ⟨.hbm, 18, rfl⟩
abbrev main_c_2 : Ref sig .tc := ⟨.hbm, 19, rfl⟩
abbrev main_v5 : Ref sig .tc := ⟨.hbm, 20, rfl⟩
abbrev main_v6 : Ref sig .tc := ⟨.hbm, 21, rfl⟩
abbrev main_c_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_call2_call0_c : Ref sig .tc := ⟨.hbm, 30, rfl⟩
abbrev main_call2_call0_v0 : Ref sig .tc := ⟨.hbm, 31, rfl⟩
abbrev main_v13 : Ref sig .tc := ⟨.hbm, 32, rfl⟩
abbrev main_c_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_c : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_c_0 : Ref sig .tc := ⟨.hbm, 46, rfl⟩
abbrev main_call3_v11 : Ref sig .tc := ⟨.hbm, 47, rfl⟩
abbrev main_call3_v12 : Ref sig .tc := ⟨.hbm, 48, rfl⟩
abbrev main_v14 : Ref sig .tc := ⟨.hbm, 49, rfl⟩
abbrev main_c_6 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_v5 : Ref sig .tc := ⟨.hbm, 59, rfl⟩
abbrev main_call4_v6 : Ref sig .tc := ⟨.hbm, 60, rfl⟩
abbrev main_call4_c_2 : Ref sig .tc := ⟨.hbm, 61, rfl⟩
abbrev main_call4_v7 : Ref sig .tc := ⟨.hbm, 62, rfl⟩
abbrev main_call4_v8 : Ref sig .tc := ⟨.hbm, 63, rfl⟩
abbrev main_call4_c_3 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_v15 : Ref sig .tc := ⟨.hbm, 71, rfl⟩
abbrev main_c_7 : Ref sig .tc := ⟨.hbm, 72, rfl⟩
abbrev main_v16 : Ref sig .tc := ⟨.hbm, 73, rfl⟩
abbrev main_v17 : Ref sig .tc := ⟨.hbm, 74, rfl⟩
abbrev main_call5_v0 : Ref sig .tc := ⟨.hbm, 75, rfl⟩
abbrev main_call5_call0_c : Ref sig .tc := ⟨.hbm, 76, rfl⟩
abbrev main_call5_call0_v0 : Ref sig .tc := ⟨.hbm, 77, rfl⟩
abbrev main_v18 : Ref sig .tc := ⟨.hbm, 78, rfl⟩
abbrev main_c_8 : Ref sig .tc := ⟨.hbm, 79, rfl⟩
abbrev main_v19 : Ref sig .tc := ⟨.hbm, 80, rfl⟩
abbrev main_c_9 : Ref sig .tc := ⟨.hbm, 81, rfl⟩
abbrev main_call6_v0 : Ref sig .tc := ⟨.hbm, 82, rfl⟩
abbrev main_call6_v1 : Ref sig .tc := ⟨.hbm, 83, rfl⟩
abbrev main_v20 : Ref sig .tc := ⟨.hbm, 84, rfl⟩
abbrev main_c_10 : Ref sig .tc := ⟨.hbm, 85, rfl⟩
abbrev main_v21 : Ref sig .tc := ⟨.hbm, 86, rfl⟩
abbrev main_v22 : Ref sig .tc := ⟨.hbm, 87, rfl⟩
abbrev main_c_11 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_c_12 : Ref sig .tc := ⟨.hbm, 93, rfl⟩
abbrev main_v27 : Ref sig .tc := ⟨.hbm, 94, rfl⟩
abbrev main_v28 : Ref sig .tc := ⟨.hbm, 95, rfl⟩
abbrev main_call7_call0_c : Ref sig .tc := ⟨.hbm, 96, rfl⟩
abbrev main_call7_call0_v0 : Ref sig .tc := ⟨.hbm, 97, rfl⟩
abbrev main_v29 : Ref sig .tc := ⟨.hbm, 98, rfl⟩
abbrev main_c_13 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_call8_v3 : Ref sig .tc := ⟨.hbm, 103, rfl⟩
abbrev main_call8_v4 : Ref sig .tc := ⟨.hbm, 104, rfl⟩
abbrev main_call8_v5 : Ref sig .tc := ⟨.hbm, 105, rfl⟩
abbrev main_call8_v6 : Ref sig .tc := ⟨.hbm, 106, rfl⟩
abbrev main_call8_v7 : Ref sig .tc := ⟨.hbm, 107, rfl⟩
abbrev main_call8_c : Ref sig .tc := ⟨.hbm, 108, rfl⟩
abbrev main_call8_v8 : Ref sig .tc := ⟨.hbm, 109, rfl⟩
abbrev main_call8_v9 : Ref sig .tc := ⟨.hbm, 110, rfl⟩
abbrev main_call8_v10 : Ref sig .tc := ⟨.hbm, 111, rfl⟩
abbrev main_call8_c_0 : Ref sig .tc := ⟨.hbm, 112, rfl⟩
abbrev main_call8_v11 : Ref sig .tc := ⟨.hbm, 113, rfl⟩
abbrev main_call8_v12 : Ref sig .tc := ⟨.hbm, 114, rfl⟩
abbrev main_v30 : Ref sig .tc := ⟨.hbm, 115, rfl⟩
abbrev main_c_14 : Ref sig .tc := ⟨.hbm, 116, rfl⟩
abbrev main_call9_v0 : Ref sig .tc := ⟨.hbm, 117, rfl⟩
abbrev main_call9_c : Ref sig .tc := ⟨.hbm, 118, rfl⟩
abbrev main_call9_v1 : Ref sig .tc := ⟨.hbm, 119, rfl⟩
abbrev main_call9_c_0 : Ref sig .tc := ⟨.hbm, 120, rfl⟩
abbrev main_call9_v2 : Ref sig .tc := ⟨.hbm, 121, rfl⟩
abbrev main_call9_v3 : Ref sig .tc := ⟨.hbm, 122, rfl⟩
abbrev main_call9_v4 : Ref sig .tc := ⟨.hbm, 123, rfl⟩
abbrev main_call9_c_1 : Ref sig .tc := ⟨.hbm, 124, rfl⟩
abbrev main_call9_v5 : Ref sig .tc := ⟨.hbm, 125, rfl⟩
abbrev main_call9_v6 : Ref sig .tc := ⟨.hbm, 126, rfl⟩
abbrev main_call9_c_2 : Ref sig .tc := ⟨.hbm, 127, rfl⟩
abbrev main_call9_v7 : Ref sig .tc := ⟨.hbm, 128, rfl⟩
abbrev main_call9_v8 : Ref sig .tc := ⟨.hbm, 129, rfl⟩
abbrev main_call9_c_3 : Ref sig .tc := ⟨.hbm, 130, rfl⟩
abbrev main_call9_v9 : Ref sig .tc := ⟨.hbm, 131, rfl⟩
abbrev main_call9_v10 : Ref sig .tc := ⟨.hbm, 132, rfl⟩
abbrev main_call9_v11 : Ref sig .tc := ⟨.hbm, 133, rfl⟩
abbrev main_call9_v12 : Ref sig .tc := ⟨.hbm, 134, rfl⟩
abbrev main_call9_v13 : Ref sig .tc := ⟨.hbm, 135, rfl⟩
abbrev main_call9_v14 : Ref sig .tc := ⟨.hbm, 136, rfl⟩
abbrev main_v31 : Ref sig .tc := ⟨.hbm, 137, rfl⟩
abbrev main_c_15 : Ref sig .tc := ⟨.hbm, 138, rfl⟩
abbrev main_v32 : Ref sig .tc := ⟨.hbm, 139, rfl⟩
abbrev main_c_16 : Ref sig .tc := ⟨.hbm, 140, rfl⟩
abbrev main_v33 : Ref sig .tc := ⟨.hbm, 141, rfl⟩
abbrev main_v34 : Ref sig .tc := ⟨.hbm, 142, rfl⟩
abbrev main_c_17 : Ref sig .tc := ⟨.hbm, 143, rfl⟩
abbrev main_v35 : Ref sig .tc := ⟨.hbm, 144, rfl⟩
abbrev main_v36 : Ref sig .tc := ⟨.hbm, 145, rfl⟩
abbrev main_c_18 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_c_19 : Ref sig .tc := ⟨.hbm, 151, rfl⟩
abbrev main_v42 : Ref sig .tc := ⟨.hbm, 152, rfl⟩
abbrev main_v43 : Ref sig .tc := ⟨.hbm, 153, rfl⟩
abbrev main_c_20 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v41 : Ref sig .tc := ⟨.smem, 0, rfl⟩
abbrev main_v48 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc0_sem0_0 : DmaSem sig := 0
abbrev cc0_sem1_0 : DmaSem sig := 1
abbrev cc0_sem1_1 : DmaSem sig := 2
abbrev cc1_sem0_0 : DmaSem sig := 131
abbrev cc1_sem0_1 : DmaSem sig := 132
abbrev cc2_sem0_0 : DmaSem sig := 389
abbrev cc2_sem0_1 : DmaSem sig := 390
abbrev cc2_sem1_0 : DmaSem sig := 391
abbrev cc2_sem2_0 : DmaSem sig := 392
abbrev cc2_sem3_0 : DmaSem sig := 393
abbrev cc2_sem3_1 : DmaSem sig := 394

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x16384.size a ≤ S16384x16384.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x16384.size a ≤ S16384x16384.size a := fun v3 k0_hw1 => k0_hw1

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_chk2 (v12 : BitVec 32) : Prop :=
  (∀ a, (k0_off4 v12) a + S1x16384.size a ≤ S16384x16384.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x16384.size a ≤ S16384x16384.size a := fun v12 k0_hw2 => k0_hw2

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_chk3 (v21 : BitVec 32) : Prop :=
  (∀ a, (k0_off6 v21) a + S1x16384.size a ≤ S16384x16384.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x16384.size a ≤ S16384x16384.size a := fun v21 k0_hw3 => k0_hw3

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_chk4 (v30 : BitVec 32) : Prop :=
  (∀ a, (k0_off8 v30) a + S1x16384.size a ≤ S16384x16384.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x16384.size a ≤ S16384x16384.size a := fun v30 k0_hw4 => k0_hw4

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_chk5 (v39 : BitVec 32) : Prop :=
  (∀ a, (k0_off10 v39) a + S1x16384.size a ≤ S16384x16384.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x16384.size a ≤ S16384x16384.size a := fun v39 k0_hw5 => k0_hw5

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_chk6 (v48 : BitVec 32) : Prop :=
  (∀ a, (k0_off12 v48) a + S1x16384.size a ≤ S16384x16384.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x16384.size a ≤ S16384x16384.size a := fun v48 k0_hw6 => k0_hw6

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_chk7 (v57 : BitVec 32) : Prop :=
  (∀ a, (k0_off14 v57) a + S1x16384.size a ≤ S16384x16384.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x16384.size a ≤ S16384x16384.size a := fun v57 k0_hw7 => k0_hw7

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x16384.size a ≤ S16384x16384.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x16384.size a ≤ S16384x16384.size a := fun v66 k0_hw8 => k0_hw8

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_chk9 (v75 : BitVec 32) : Prop :=
  (∀ a, (k0_off18 v75) a + S1x16384.size a ≤ S16384x16384.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x16384.size a ≤ S16384x16384.size a := fun v75 k0_hw9 => k0_hw9

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_chk10 (v84 : BitVec 32) : Prop :=
  (∀ a, (k0_off20 v84) a + S1x16384.size a ≤ S16384x16384.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x16384.size a ≤ S16384x16384.size a := fun v84 k0_hw10 => k0_hw10

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_chk11 (v93 : BitVec 32) : Prop :=
  (∀ a, (k0_off22 v93) a + S1x16384.size a ≤ S16384x16384.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x16384.size a ≤ S16384x16384.size a := fun v93 k0_hw11 => k0_hw11

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_chk12 (v102 : BitVec 32) : Prop :=
  (∀ a, (k0_off24 v102) a + S1x16384.size a ≤ S16384x16384.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x16384.size a ≤ S16384x16384.size a := fun v102 k0_hw12 => k0_hw12

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_chk13 (v111 : BitVec 32) : Prop :=
  (∀ a, (k0_off26 v111) a + S1x16384.size a ≤ S16384x16384.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x16384.size a ≤ S16384x16384.size a := fun v111 k0_hw13 => k0_hw13

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_chk14 (v120 : BitVec 32) : Prop :=
  (∀ a, (k0_off28 v120) a + S1x16384.size a ≤ S16384x16384.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x16384.size a ≤ S16384x16384.size a := fun v120 k0_hw14 => k0_hw14

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_chk15 (v129 : BitVec 32) : Prop :=
  (∀ a, (k0_off30 v129) a + S1x16384.size a ≤ S16384x16384.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x16384.size a ≤ S16384x16384.size a := fun v129 k0_hw15 => k0_hw15

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_chk16 (v138 : BitVec 32) : Prop :=
  (∀ a, (k0_off32 v138) a + S1x16384.size a ≤ S16384x16384.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x16384.size a ≤ S16384x16384.size a := fun v138 k0_hw16 => k0_hw16

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_chk17 (v147 : BitVec 32) : Prop :=
  (∀ a, (k0_off34 v147) a + S1x16384.size a ≤ S16384x16384.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x16384.size a ≤ S16384x16384.size a := fun v147 k0_hw17 => k0_hw17

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_chk18 (v156 : BitVec 32) : Prop :=
  (∀ a, (k0_off36 v156) a + S1x16384.size a ≤ S16384x16384.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x16384.size a ≤ S16384x16384.size a := fun v156 k0_hw18 => k0_hw18

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_chk19 (v165 : BitVec 32) : Prop :=
  (∀ a, (k0_off38 v165) a + S1x16384.size a ≤ S16384x16384.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x16384.size a ≤ S16384x16384.size a := fun v165 k0_hw19 => k0_hw19

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_chk20 (v174 : BitVec 32) : Prop :=
  (∀ a, (k0_off40 v174) a + S1x16384.size a ≤ S16384x16384.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x16384.size a ≤ S16384x16384.size a := fun v174 k0_hw20 => k0_hw20

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_chk21 (v183 : BitVec 32) : Prop :=
  (∀ a, (k0_off42 v183) a + S1x16384.size a ≤ S16384x16384.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x16384.size a ≤ S16384x16384.size a := fun v183 k0_hw21 => k0_hw21

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_chk22 (v192 : BitVec 32) : Prop :=
  (∀ a, (k0_off44 v192) a + S1x16384.size a ≤ S16384x16384.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x16384.size a ≤ S16384x16384.size a := fun v192 k0_hw22 => k0_hw22

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_chk23 (v201 : BitVec 32) : Prop :=
  (∀ a, (k0_off46 v201) a + S1x16384.size a ≤ S16384x16384.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x16384.size a ≤ S16384x16384.size a := fun v201 k0_hw23 => k0_hw23

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_chk24 (v210 : BitVec 32) : Prop :=
  (∀ a, (k0_off48 v210) a + S1x16384.size a ≤ S16384x16384.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x16384.size a ≤ S16384x16384.size a := fun v210 k0_hw24 => k0_hw24

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_chk25 (v219 : BitVec 32) : Prop :=
  (∀ a, (k0_off50 v219) a + S1x16384.size a ≤ S16384x16384.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x16384.size a ≤ S16384x16384.size a := fun v219 k0_hw25 => k0_hw25

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_chk26 (v228 : BitVec 32) : Prop :=
  (∀ a, (k0_off52 v228) a + S1x16384.size a ≤ S16384x16384.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x16384.size a ≤ S16384x16384.size a := fun v228 k0_hw26 => k0_hw26

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_chk27 (v237 : BitVec 32) : Prop :=
  (∀ a, (k0_off54 v237) a + S1x16384.size a ≤ S16384x16384.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x16384.size a ≤ S16384x16384.size a := fun v237 k0_hw27 => k0_hw27

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_chk28 (v246 : BitVec 32) : Prop :=
  (∀ a, (k0_off56 v246) a + S1x16384.size a ≤ S16384x16384.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x16384.size a ≤ S16384x16384.size a := fun v246 k0_hw28 => k0_hw28

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_chk29 (v255 : BitVec 32) : Prop :=
  (∀ a, (k0_off58 v255) a + S1x16384.size a ≤ S16384x16384.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x16384.size a ≤ S16384x16384.size a := fun v255 k0_hw29 => k0_hw29

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_chk30 (v264 : BitVec 32) : Prop :=
  (∀ a, (k0_off60 v264) a + S1x16384.size a ≤ S16384x16384.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x16384.size a ≤ S16384x16384.size a := fun v264 k0_hw30 => k0_hw30

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_chk31 (v273 : BitVec 32) : Prop :=
  (∀ a, (k0_off62 v273) a + S1x16384.size a ≤ S16384x16384.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x16384.size a ≤ S16384x16384.size a := fun v273 k0_hw31 => k0_hw31

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_chk32 (v282 : BitVec 32) : Prop :=
  (∀ a, (k0_off64 v282) a + S1x16384.size a ≤ S16384x16384.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x16384.size a ≤ S16384x16384.size a := fun v282 k0_hw32 => k0_hw32

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_chk33 (v291 : BitVec 32) : Prop :=
  (∀ a, (k0_off66 v291) a + S1x16384.size a ≤ S16384x16384.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x16384.size a ≤ S16384x16384.size a := fun v291 k0_hw33 => k0_hw33

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_chk34 (v300 : BitVec 32) : Prop :=
  (∀ a, (k0_off68 v300) a + S1x16384.size a ≤ S16384x16384.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x16384.size a ≤ S16384x16384.size a := fun v300 k0_hw34 => k0_hw34

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_chk35 (v309 : BitVec 32) : Prop :=
  (∀ a, (k0_off70 v309) a + S1x16384.size a ≤ S16384x16384.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x16384.size a ≤ S16384x16384.size a := fun v309 k0_hw35 => k0_hw35

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_chk36 (v318 : BitVec 32) : Prop :=
  (∀ a, (k0_off72 v318) a + S1x16384.size a ≤ S16384x16384.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x16384.size a ≤ S16384x16384.size a := fun v318 k0_hw36 => k0_hw36

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_chk37 (v327 : BitVec 32) : Prop :=
  (∀ a, (k0_off74 v327) a + S1x16384.size a ≤ S16384x16384.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x16384.size a ≤ S16384x16384.size a := fun v327 k0_hw37 => k0_hw37

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_chk38 (v336 : BitVec 32) : Prop :=
  (∀ a, (k0_off76 v336) a + S1x16384.size a ≤ S16384x16384.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x16384.size a ≤ S16384x16384.size a := fun v336 k0_hw38 => k0_hw38

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_chk39 (v345 : BitVec 32) : Prop :=
  (∀ a, (k0_off78 v345) a + S1x16384.size a ≤ S16384x16384.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x16384.size a ≤ S16384x16384.size a := fun v345 k0_hw39 => k0_hw39

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_chk40 (v354 : BitVec 32) : Prop :=
  (∀ a, (k0_off80 v354) a + S1x16384.size a ≤ S16384x16384.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x16384.size a ≤ S16384x16384.size a := fun v354 k0_hw40 => k0_hw40

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_chk41 (v363 : BitVec 32) : Prop :=
  (∀ a, (k0_off82 v363) a + S1x16384.size a ≤ S16384x16384.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x16384.size a ≤ S16384x16384.size a := fun v363 k0_hw41 => k0_hw41

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_chk42 (v372 : BitVec 32) : Prop :=
  (∀ a, (k0_off84 v372) a + S1x16384.size a ≤ S16384x16384.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x16384.size a ≤ S16384x16384.size a := fun v372 k0_hw42 => k0_hw42

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_chk43 (v381 : BitVec 32) : Prop :=
  (∀ a, (k0_off86 v381) a + S1x16384.size a ≤ S16384x16384.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x16384.size a ≤ S16384x16384.size a := fun v381 k0_hw43 => k0_hw43

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_chk44 (v390 : BitVec 32) : Prop :=
  (∀ a, (k0_off88 v390) a + S1x16384.size a ≤ S16384x16384.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x16384.size a ≤ S16384x16384.size a := fun v390 k0_hw44 => k0_hw44

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_chk45 (v399 : BitVec 32) : Prop :=
  (∀ a, (k0_off90 v399) a + S1x16384.size a ≤ S16384x16384.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x16384.size a ≤ S16384x16384.size a := fun v399 k0_hw45 => k0_hw45

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_chk46 (v408 : BitVec 32) : Prop :=
  (∀ a, (k0_off92 v408) a + S1x16384.size a ≤ S16384x16384.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x16384.size a ≤ S16384x16384.size a := fun v408 k0_hw46 => k0_hw46

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_chk47 (v417 : BitVec 32) : Prop :=
  (∀ a, (k0_off94 v417) a + S1x16384.size a ≤ S16384x16384.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x16384.size a ≤ S16384x16384.size a := fun v417 k0_hw47 => k0_hw47

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_chk48 (v426 : BitVec 32) : Prop :=
  (∀ a, (k0_off96 v426) a + S1x16384.size a ≤ S16384x16384.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x16384.size a ≤ S16384x16384.size a := fun v426 k0_hw48 => k0_hw48

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_chk49 (v435 : BitVec 32) : Prop :=
  (∀ a, (k0_off98 v435) a + S1x16384.size a ≤ S16384x16384.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x16384.size a ≤ S16384x16384.size a := fun v435 k0_hw49 => k0_hw49

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_chk50 (v444 : BitVec 32) : Prop :=
  (∀ a, (k0_off100 v444) a + S1x16384.size a ≤ S16384x16384.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x16384.size a ≤ S16384x16384.size a := fun v444 k0_hw50 => k0_hw50

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_chk51 (v453 : BitVec 32) : Prop :=
  (∀ a, (k0_off102 v453) a + S1x16384.size a ≤ S16384x16384.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x16384.size a ≤ S16384x16384.size a := fun v453 k0_hw51 => k0_hw51

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_chk52 (v462 : BitVec 32) : Prop :=
  (∀ a, (k0_off104 v462) a + S1x16384.size a ≤ S16384x16384.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x16384.size a ≤ S16384x16384.size a := fun v462 k0_hw52 => k0_hw52

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_chk53 (v471 : BitVec 32) : Prop :=
  (∀ a, (k0_off106 v471) a + S1x16384.size a ≤ S16384x16384.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x16384.size a ≤ S16384x16384.size a := fun v471 k0_hw53 => k0_hw53

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_chk54 (v480 : BitVec 32) : Prop :=
  (∀ a, (k0_off108 v480) a + S1x16384.size a ≤ S16384x16384.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x16384.size a ≤ S16384x16384.size a := fun v480 k0_hw54 => k0_hw54

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_chk55 (v489 : BitVec 32) : Prop :=
  (∀ a, (k0_off110 v489) a + S1x16384.size a ≤ S16384x16384.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x16384.size a ≤ S16384x16384.size a := fun v489 k0_hw55 => k0_hw55

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_chk56 (v498 : BitVec 32) : Prop :=
  (∀ a, (k0_off112 v498) a + S1x16384.size a ≤ S16384x16384.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x16384.size a ≤ S16384x16384.size a := fun v498 k0_hw56 => k0_hw56

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_chk57 (v507 : BitVec 32) : Prop :=
  (∀ a, (k0_off114 v507) a + S1x16384.size a ≤ S16384x16384.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x16384.size a ≤ S16384x16384.size a := fun v507 k0_hw57 => k0_hw57

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_chk58 (v516 : BitVec 32) : Prop :=
  (∀ a, (k0_off116 v516) a + S1x16384.size a ≤ S16384x16384.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x16384.size a ≤ S16384x16384.size a := fun v516 k0_hw58 => k0_hw58

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_chk59 (v525 : BitVec 32) : Prop :=
  (∀ a, (k0_off118 v525) a + S1x16384.size a ≤ S16384x16384.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x16384.size a ≤ S16384x16384.size a := fun v525 k0_hw59 => k0_hw59

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_chk60 (v534 : BitVec 32) : Prop :=
  (∀ a, (k0_off120 v534) a + S1x16384.size a ≤ S16384x16384.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x16384.size a ≤ S16384x16384.size a := fun v534 k0_hw60 => k0_hw60

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_chk61 (v543 : BitVec 32) : Prop :=
  (∀ a, (k0_off122 v543) a + S1x16384.size a ≤ S16384x16384.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x16384.size a ≤ S16384x16384.size a := fun v543 k0_hw61 => k0_hw61

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_chk62 (v552 : BitVec 32) : Prop :=
  (∀ a, (k0_off124 v552) a + S1x16384.size a ≤ S16384x16384.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x16384.size a ≤ S16384x16384.size a := fun v552 k0_hw62 => k0_hw62

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_chk63 (v561 : BitVec 32) : Prop :=
  (∀ a, (k0_off126 v561) a + S1x16384.size a ≤ S16384x16384.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x16384.size a ≤ S16384x16384.size a := fun v561 k0_hw63 => k0_hw63

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_chk64 (v570 : BitVec 32) : Prop :=
  (∀ a, (k0_off128 v570) a + S1x16384.size a ≤ S16384x16384.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x16384.size a ≤ S16384x16384.size a := fun v570 k0_hw64 => k0_hw64

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v577 : BitVec 32 := Scalar.addi v0 c64_i32
  let v578 : Index := Scalar.indexCast v577
  ![v578.toNat]
def k0_off130 (v579 : BitVec 32) : Fin 2 → Nat :=
  let c0_i32_259 : BitVec 32 := 0#32
  ![v579.toNat, 0]

def k0_chk65 (v579 : BitVec 32) : Prop :=
  (∀ a, (k0_off130 v579) a + S1x16384.size a ≤ S16384x16384.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x16384.size a ≤ S16384x16384.size a := fun v579 k0_hw65 => k0_hw65

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v586 : BitVec 32 := Scalar.addi v0 c65_i32
  let v587 : Index := Scalar.indexCast v586
  ![v587.toNat]
def k0_off132 (v588 : BitVec 32) : Fin 2 → Nat :=
  let c0_i32_263 : BitVec 32 := 0#32
  ![v588.toNat, 0]

def k0_chk66 (v588 : BitVec 32) : Prop :=
  (∀ a, (k0_off132 v588) a + S1x16384.size a ≤ S16384x16384.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x16384.size a ≤ S16384x16384.size a := fun v588 k0_hw66 => k0_hw66

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v595 : BitVec 32 := Scalar.addi v0 c66_i32
  let v596 : Index := Scalar.indexCast v595
  ![v596.toNat]
def k0_off134 (v597 : BitVec 32) : Fin 2 → Nat :=
  let c0_i32_267 : BitVec 32 := 0#32
  ![v597.toNat, 0]

def k0_chk67 (v597 : BitVec 32) : Prop :=
  (∀ a, (k0_off134 v597) a + S1x16384.size a ≤ S16384x16384.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x16384.size a ≤ S16384x16384.size a := fun v597 k0_hw67 => k0_hw67

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v604 : BitVec 32 := Scalar.addi v0 c67_i32
  let v605 : Index := Scalar.indexCast v604
  ![v605.toNat]
def k0_off136 (v606 : BitVec 32) : Fin 2 → Nat :=
  let c0_i32_271 : BitVec 32 := 0#32
  ![v606.toNat, 0]

def k0_chk68 (v606 : BitVec 32) : Prop :=
  (∀ a, (k0_off136 v606) a + S1x16384.size a ≤ S16384x16384.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x16384.size a ≤ S16384x16384.size a := fun v606 k0_hw68 => k0_hw68

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v613 : BitVec 32 := Scalar.addi v0 c68_i32
  let v614 : Index := Scalar.indexCast v613
  ![v614.toNat]
def k0_off138 (v615 : BitVec 32) : Fin 2 → Nat :=
  let c0_i32_275 : BitVec 32 := 0#32
  ![v615.toNat, 0]

def k0_chk69 (v615 : BitVec 32) : Prop :=
  (∀ a, (k0_off138 v615) a + S1x16384.size a ≤ S16384x16384.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x16384.size a ≤ S16384x16384.size a := fun v615 k0_hw69 => k0_hw69

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v622 : BitVec 32 := Scalar.addi v0 c69_i32
  let v623 : Index := Scalar.indexCast v622
  ![v623.toNat]
def k0_off140 (v624 : BitVec 32) : Fin 2 → Nat :=
  let c0_i32_279 : BitVec 32 := 0#32
  ![v624.toNat, 0]

def k0_chk70 (v624 : BitVec 32) : Prop :=
  (∀ a, (k0_off140 v624) a + S1x16384.size a ≤ S16384x16384.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x16384.size a ≤ S16384x16384.size a := fun v624 k0_hw70 => k0_hw70

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v631 : BitVec 32 := Scalar.addi v0 c70_i32
  let v632 : Index := Scalar.indexCast v631
  ![v632.toNat]
def k0_off142 (v633 : BitVec 32) : Fin 2 → Nat :=
  let c0_i32_283 : BitVec 32 := 0#32
  ![v633.toNat, 0]

def k0_chk71 (v633 : BitVec 32) : Prop :=
  (∀ a, (k0_off142 v633) a + S1x16384.size a ≤ S16384x16384.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x16384.size a ≤ S16384x16384.size a := fun v633 k0_hw71 => k0_hw71

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v640 : BitVec 32 := Scalar.addi v0 c71_i32
  let v641 : Index := Scalar.indexCast v640
  ![v641.toNat]
def k0_off144 (v642 : BitVec 32) : Fin 2 → Nat :=
  let c0_i32_287 : BitVec 32 := 0#32
  ![v642.toNat, 0]

def k0_chk72 (v642 : BitVec 32) : Prop :=
  (∀ a, (k0_off144 v642) a + S1x16384.size a ≤ S16384x16384.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x16384.size a ≤ S16384x16384.size a := fun v642 k0_hw72 => k0_hw72

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v649 : BitVec 32 := Scalar.addi v0 c72_i32
  let v650 : Index := Scalar.indexCast v649
  ![v650.toNat]
def k0_off146 (v651 : BitVec 32) : Fin 2 → Nat :=
  let c0_i32_291 : BitVec 32 := 0#32
  ![v651.toNat, 0]

def k0_chk73 (v651 : BitVec 32) : Prop :=
  (∀ a, (k0_off146 v651) a + S1x16384.size a ≤ S16384x16384.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x16384.size a ≤ S16384x16384.size a := fun v651 k0_hw73 => k0_hw73

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v658 : BitVec 32 := Scalar.addi v0 c73_i32
  let v659 : Index := Scalar.indexCast v658
  ![v659.toNat]
def k0_off148 (v660 : BitVec 32) : Fin 2 → Nat :=
  let c0_i32_295 : BitVec 32 := 0#32
  ![v660.toNat, 0]

def k0_chk74 (v660 : BitVec 32) : Prop :=
  (∀ a, (k0_off148 v660) a + S1x16384.size a ≤ S16384x16384.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x16384.size a ≤ S16384x16384.size a := fun v660 k0_hw74 => k0_hw74

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v667 : BitVec 32 := Scalar.addi v0 c74_i32
  let v668 : Index := Scalar.indexCast v667
  ![v668.toNat]
def k0_off150 (v669 : BitVec 32) : Fin 2 → Nat :=
  let c0_i32_299 : BitVec 32 := 0#32
  ![v669.toNat, 0]

def k0_chk75 (v669 : BitVec 32) : Prop :=
  (∀ a, (k0_off150 v669) a + S1x16384.size a ≤ S16384x16384.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x16384.size a ≤ S16384x16384.size a := fun v669 k0_hw75 => k0_hw75

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v676 : BitVec 32 := Scalar.addi v0 c75_i32
  let v677 : Index := Scalar.indexCast v676
  ![v677.toNat]
def k0_off152 (v678 : BitVec 32) : Fin 2 → Nat :=
  let c0_i32_303 : BitVec 32 := 0#32
  ![v678.toNat, 0]

def k0_chk76 (v678 : BitVec 32) : Prop :=
  (∀ a, (k0_off152 v678) a + S1x16384.size a ≤ S16384x16384.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x16384.size a ≤ S16384x16384.size a := fun v678 k0_hw76 => k0_hw76

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v685 : BitVec 32 := Scalar.addi v0 c76_i32
  let v686 : Index := Scalar.indexCast v685
  ![v686.toNat]
def k0_off154 (v687 : BitVec 32) : Fin 2 → Nat :=
  let c0_i32_307 : BitVec 32 := 0#32
  ![v687.toNat, 0]

def k0_chk77 (v687 : BitVec 32) : Prop :=
  (∀ a, (k0_off154 v687) a + S1x16384.size a ≤ S16384x16384.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x16384.size a ≤ S16384x16384.size a := fun v687 k0_hw77 => k0_hw77

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v694 : BitVec 32 := Scalar.addi v0 c77_i32
  let v695 : Index := Scalar.indexCast v694
  ![v695.toNat]
def k0_off156 (v696 : BitVec 32) : Fin 2 → Nat :=
  let c0_i32_311 : BitVec 32 := 0#32
  ![v696.toNat, 0]

def k0_chk78 (v696 : BitVec 32) : Prop :=
  (∀ a, (k0_off156 v696) a + S1x16384.size a ≤ S16384x16384.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x16384.size a ≤ S16384x16384.size a := fun v696 k0_hw78 => k0_hw78

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v703 : BitVec 32 := Scalar.addi v0 c78_i32
  let v704 : Index := Scalar.indexCast v703
  ![v704.toNat]
def k0_off158 (v705 : BitVec 32) : Fin 2 → Nat :=
  let c0_i32_315 : BitVec 32 := 0#32
  ![v705.toNat, 0]

def k0_chk79 (v705 : BitVec 32) : Prop :=
  (∀ a, (k0_off158 v705) a + S1x16384.size a ≤ S16384x16384.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x16384.size a ≤ S16384x16384.size a := fun v705 k0_hw79 => k0_hw79

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v712 : BitVec 32 := Scalar.addi v0 c79_i32
  let v713 : Index := Scalar.indexCast v712
  ![v713.toNat]
def k0_off160 (v714 : BitVec 32) : Fin 2 → Nat :=
  let c0_i32_319 : BitVec 32 := 0#32
  ![v714.toNat, 0]

def k0_chk80 (v714 : BitVec 32) : Prop :=
  (∀ a, (k0_off160 v714) a + S1x16384.size a ≤ S16384x16384.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x16384.size a ≤ S16384x16384.size a := fun v714 k0_hw80 => k0_hw80

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v721 : BitVec 32 := Scalar.addi v0 c80_i32
  let v722 : Index := Scalar.indexCast v721
  ![v722.toNat]
def k0_off162 (v723 : BitVec 32) : Fin 2 → Nat :=
  let c0_i32_323 : BitVec 32 := 0#32
  ![v723.toNat, 0]

def k0_chk81 (v723 : BitVec 32) : Prop :=
  (∀ a, (k0_off162 v723) a + S1x16384.size a ≤ S16384x16384.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x16384.size a ≤ S16384x16384.size a := fun v723 k0_hw81 => k0_hw81

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v730 : BitVec 32 := Scalar.addi v0 c81_i32
  let v731 : Index := Scalar.indexCast v730
  ![v731.toNat]
def k0_off164 (v732 : BitVec 32) : Fin 2 → Nat :=
  let c0_i32_327 : BitVec 32 := 0#32
  ![v732.toNat, 0]

def k0_chk82 (v732 : BitVec 32) : Prop :=
  (∀ a, (k0_off164 v732) a + S1x16384.size a ≤ S16384x16384.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x16384.size a ≤ S16384x16384.size a := fun v732 k0_hw82 => k0_hw82

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v739 : BitVec 32 := Scalar.addi v0 c82_i32
  let v740 : Index := Scalar.indexCast v739
  ![v740.toNat]
def k0_off166 (v741 : BitVec 32) : Fin 2 → Nat :=
  let c0_i32_331 : BitVec 32 := 0#32
  ![v741.toNat, 0]

def k0_chk83 (v741 : BitVec 32) : Prop :=
  (∀ a, (k0_off166 v741) a + S1x16384.size a ≤ S16384x16384.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x16384.size a ≤ S16384x16384.size a := fun v741 k0_hw83 => k0_hw83

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v748 : BitVec 32 := Scalar.addi v0 c83_i32
  let v749 : Index := Scalar.indexCast v748
  ![v749.toNat]
def k0_off168 (v750 : BitVec 32) : Fin 2 → Nat :=
  let c0_i32_335 : BitVec 32 := 0#32
  ![v750.toNat, 0]

def k0_chk84 (v750 : BitVec 32) : Prop :=
  (∀ a, (k0_off168 v750) a + S1x16384.size a ≤ S16384x16384.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x16384.size a ≤ S16384x16384.size a := fun v750 k0_hw84 => k0_hw84

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v757 : BitVec 32 := Scalar.addi v0 c84_i32
  let v758 : Index := Scalar.indexCast v757
  ![v758.toNat]
def k0_off170 (v759 : BitVec 32) : Fin 2 → Nat :=
  let c0_i32_339 : BitVec 32 := 0#32
  ![v759.toNat, 0]

def k0_chk85 (v759 : BitVec 32) : Prop :=
  (∀ a, (k0_off170 v759) a + S1x16384.size a ≤ S16384x16384.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x16384.size a ≤ S16384x16384.size a := fun v759 k0_hw85 => k0_hw85

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v766 : BitVec 32 := Scalar.addi v0 c85_i32
  let v767 : Index := Scalar.indexCast v766
  ![v767.toNat]
def k0_off172 (v768 : BitVec 32) : Fin 2 → Nat :=
  let c0_i32_343 : BitVec 32 := 0#32
  ![v768.toNat, 0]

def k0_chk86 (v768 : BitVec 32) : Prop :=
  (∀ a, (k0_off172 v768) a + S1x16384.size a ≤ S16384x16384.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x16384.size a ≤ S16384x16384.size a := fun v768 k0_hw86 => k0_hw86

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v775 : BitVec 32 := Scalar.addi v0 c86_i32
  let v776 : Index := Scalar.indexCast v775
  ![v776.toNat]
def k0_off174 (v777 : BitVec 32) : Fin 2 → Nat :=
  let c0_i32_347 : BitVec 32 := 0#32
  ![v777.toNat, 0]

def k0_chk87 (v777 : BitVec 32) : Prop :=
  (∀ a, (k0_off174 v777) a + S1x16384.size a ≤ S16384x16384.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x16384.size a ≤ S16384x16384.size a := fun v777 k0_hw87 => k0_hw87

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v784 : BitVec 32 := Scalar.addi v0 c87_i32
  let v785 : Index := Scalar.indexCast v784
  ![v785.toNat]
def k0_off176 (v786 : BitVec 32) : Fin 2 → Nat :=
  let c0_i32_351 : BitVec 32 := 0#32
  ![v786.toNat, 0]

def k0_chk88 (v786 : BitVec 32) : Prop :=
  (∀ a, (k0_off176 v786) a + S1x16384.size a ≤ S16384x16384.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x16384.size a ≤ S16384x16384.size a := fun v786 k0_hw88 => k0_hw88

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v793 : BitVec 32 := Scalar.addi v0 c88_i32
  let v794 : Index := Scalar.indexCast v793
  ![v794.toNat]
def k0_off178 (v795 : BitVec 32) : Fin 2 → Nat :=
  let c0_i32_355 : BitVec 32 := 0#32
  ![v795.toNat, 0]

def k0_chk89 (v795 : BitVec 32) : Prop :=
  (∀ a, (k0_off178 v795) a + S1x16384.size a ≤ S16384x16384.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x16384.size a ≤ S16384x16384.size a := fun v795 k0_hw89 => k0_hw89

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v802 : BitVec 32 := Scalar.addi v0 c89_i32
  let v803 : Index := Scalar.indexCast v802
  ![v803.toNat]
def k0_off180 (v804 : BitVec 32) : Fin 2 → Nat :=
  let c0_i32_359 : BitVec 32 := 0#32
  ![v804.toNat, 0]

def k0_chk90 (v804 : BitVec 32) : Prop :=
  (∀ a, (k0_off180 v804) a + S1x16384.size a ≤ S16384x16384.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x16384.size a ≤ S16384x16384.size a := fun v804 k0_hw90 => k0_hw90

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v811 : BitVec 32 := Scalar.addi v0 c90_i32
  let v812 : Index := Scalar.indexCast v811
  ![v812.toNat]
def k0_off182 (v813 : BitVec 32) : Fin 2 → Nat :=
  let c0_i32_363 : BitVec 32 := 0#32
  ![v813.toNat, 0]

def k0_chk91 (v813 : BitVec 32) : Prop :=
  (∀ a, (k0_off182 v813) a + S1x16384.size a ≤ S16384x16384.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x16384.size a ≤ S16384x16384.size a := fun v813 k0_hw91 => k0_hw91

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v820 : BitVec 32 := Scalar.addi v0 c91_i32
  let v821 : Index := Scalar.indexCast v820
  ![v821.toNat]
def k0_off184 (v822 : BitVec 32) : Fin 2 → Nat :=
  let c0_i32_367 : BitVec 32 := 0#32
  ![v822.toNat, 0]

def k0_chk92 (v822 : BitVec 32) : Prop :=
  (∀ a, (k0_off184 v822) a + S1x16384.size a ≤ S16384x16384.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x16384.size a ≤ S16384x16384.size a := fun v822 k0_hw92 => k0_hw92

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v829 : BitVec 32 := Scalar.addi v0 c92_i32
  let v830 : Index := Scalar.indexCast v829
  ![v830.toNat]
def k0_off186 (v831 : BitVec 32) : Fin 2 → Nat :=
  let c0_i32_371 : BitVec 32 := 0#32
  ![v831.toNat, 0]

def k0_chk93 (v831 : BitVec 32) : Prop :=
  (∀ a, (k0_off186 v831) a + S1x16384.size a ≤ S16384x16384.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x16384.size a ≤ S16384x16384.size a := fun v831 k0_hw93 => k0_hw93

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v838 : BitVec 32 := Scalar.addi v0 c93_i32
  let v839 : Index := Scalar.indexCast v838
  ![v839.toNat]
def k0_off188 (v840 : BitVec 32) : Fin 2 → Nat :=
  let c0_i32_375 : BitVec 32 := 0#32
  ![v840.toNat, 0]

def k0_chk94 (v840 : BitVec 32) : Prop :=
  (∀ a, (k0_off188 v840) a + S1x16384.size a ≤ S16384x16384.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x16384.size a ≤ S16384x16384.size a := fun v840 k0_hw94 => k0_hw94

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v847 : BitVec 32 := Scalar.addi v0 c94_i32
  let v848 : Index := Scalar.indexCast v847
  ![v848.toNat]
def k0_off190 (v849 : BitVec 32) : Fin 2 → Nat :=
  let c0_i32_379 : BitVec 32 := 0#32
  ![v849.toNat, 0]

def k0_chk95 (v849 : BitVec 32) : Prop :=
  (∀ a, (k0_off190 v849) a + S1x16384.size a ≤ S16384x16384.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x16384.size a ≤ S16384x16384.size a := fun v849 k0_hw95 => k0_hw95

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v856 : BitVec 32 := Scalar.addi v0 c95_i32
  let v857 : Index := Scalar.indexCast v856
  ![v857.toNat]
def k0_off192 (v858 : BitVec 32) : Fin 2 → Nat :=
  let c0_i32_383 : BitVec 32 := 0#32
  ![v858.toNat, 0]

def k0_chk96 (v858 : BitVec 32) : Prop :=
  (∀ a, (k0_off192 v858) a + S1x16384.size a ≤ S16384x16384.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x16384.size a ≤ S16384x16384.size a := fun v858 k0_hw96 => k0_hw96

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v865 : BitVec 32 := Scalar.addi v0 c96_i32
  let v866 : Index := Scalar.indexCast v865
  ![v866.toNat]
def k0_off194 (v867 : BitVec 32) : Fin 2 → Nat :=
  let c0_i32_387 : BitVec 32 := 0#32
  ![v867.toNat, 0]

def k0_chk97 (v867 : BitVec 32) : Prop :=
  (∀ a, (k0_off194 v867) a + S1x16384.size a ≤ S16384x16384.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x16384.size a ≤ S16384x16384.size a := fun v867 k0_hw97 => k0_hw97

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v874 : BitVec 32 := Scalar.addi v0 c97_i32
  let v875 : Index := Scalar.indexCast v874
  ![v875.toNat]
def k0_off196 (v876 : BitVec 32) : Fin 2 → Nat :=
  let c0_i32_391 : BitVec 32 := 0#32
  ![v876.toNat, 0]

def k0_chk98 (v876 : BitVec 32) : Prop :=
  (∀ a, (k0_off196 v876) a + S1x16384.size a ≤ S16384x16384.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x16384.size a ≤ S16384x16384.size a := fun v876 k0_hw98 => k0_hw98

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v883 : BitVec 32 := Scalar.addi v0 c98_i32
  let v884 : Index := Scalar.indexCast v883
  ![v884.toNat]
def k0_off198 (v885 : BitVec 32) : Fin 2 → Nat :=
  let c0_i32_395 : BitVec 32 := 0#32
  ![v885.toNat, 0]

def k0_chk99 (v885 : BitVec 32) : Prop :=
  (∀ a, (k0_off198 v885) a + S1x16384.size a ≤ S16384x16384.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x16384.size a ≤ S16384x16384.size a := fun v885 k0_hw99 => k0_hw99

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v892 : BitVec 32 := Scalar.addi v0 c99_i32
  let v893 : Index := Scalar.indexCast v892
  ![v893.toNat]
def k0_off200 (v894 : BitVec 32) : Fin 2 → Nat :=
  let c0_i32_399 : BitVec 32 := 0#32
  ![v894.toNat, 0]

def k0_chk100 (v894 : BitVec 32) : Prop :=
  (∀ a, (k0_off200 v894) a + S1x16384.size a ≤ S16384x16384.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x16384.size a ≤ S16384x16384.size a := fun v894 k0_hw100 => k0_hw100

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v901 : BitVec 32 := Scalar.addi v0 c100_i32
  let v902 : Index := Scalar.indexCast v901
  ![v902.toNat]
def k0_off202 (v903 : BitVec 32) : Fin 2 → Nat :=
  let c0_i32_403 : BitVec 32 := 0#32
  ![v903.toNat, 0]

def k0_chk101 (v903 : BitVec 32) : Prop :=
  (∀ a, (k0_off202 v903) a + S1x16384.size a ≤ S16384x16384.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x16384.size a ≤ S16384x16384.size a := fun v903 k0_hw101 => k0_hw101

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v910 : BitVec 32 := Scalar.addi v0 c101_i32
  let v911 : Index := Scalar.indexCast v910
  ![v911.toNat]
def k0_off204 (v912 : BitVec 32) : Fin 2 → Nat :=
  let c0_i32_407 : BitVec 32 := 0#32
  ![v912.toNat, 0]

def k0_chk102 (v912 : BitVec 32) : Prop :=
  (∀ a, (k0_off204 v912) a + S1x16384.size a ≤ S16384x16384.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x16384.size a ≤ S16384x16384.size a := fun v912 k0_hw102 => k0_hw102

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v919 : BitVec 32 := Scalar.addi v0 c102_i32
  let v920 : Index := Scalar.indexCast v919
  ![v920.toNat]
def k0_off206 (v921 : BitVec 32) : Fin 2 → Nat :=
  let c0_i32_411 : BitVec 32 := 0#32
  ![v921.toNat, 0]

def k0_chk103 (v921 : BitVec 32) : Prop :=
  (∀ a, (k0_off206 v921) a + S1x16384.size a ≤ S16384x16384.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x16384.size a ≤ S16384x16384.size a := fun v921 k0_hw103 => k0_hw103

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v928 : BitVec 32 := Scalar.addi v0 c103_i32
  let v929 : Index := Scalar.indexCast v928
  ![v929.toNat]
def k0_off208 (v930 : BitVec 32) : Fin 2 → Nat :=
  let c0_i32_415 : BitVec 32 := 0#32
  ![v930.toNat, 0]

def k0_chk104 (v930 : BitVec 32) : Prop :=
  (∀ a, (k0_off208 v930) a + S1x16384.size a ≤ S16384x16384.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x16384.size a ≤ S16384x16384.size a := fun v930 k0_hw104 => k0_hw104

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v937 : BitVec 32 := Scalar.addi v0 c104_i32
  let v938 : Index := Scalar.indexCast v937
  ![v938.toNat]
def k0_off210 (v939 : BitVec 32) : Fin 2 → Nat :=
  let c0_i32_419 : BitVec 32 := 0#32
  ![v939.toNat, 0]

def k0_chk105 (v939 : BitVec 32) : Prop :=
  (∀ a, (k0_off210 v939) a + S1x16384.size a ≤ S16384x16384.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x16384.size a ≤ S16384x16384.size a := fun v939 k0_hw105 => k0_hw105

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v946 : BitVec 32 := Scalar.addi v0 c105_i32
  let v947 : Index := Scalar.indexCast v946
  ![v947.toNat]
def k0_off212 (v948 : BitVec 32) : Fin 2 → Nat :=
  let c0_i32_423 : BitVec 32 := 0#32
  ![v948.toNat, 0]

def k0_chk106 (v948 : BitVec 32) : Prop :=
  (∀ a, (k0_off212 v948) a + S1x16384.size a ≤ S16384x16384.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x16384.size a ≤ S16384x16384.size a := fun v948 k0_hw106 => k0_hw106

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v955 : BitVec 32 := Scalar.addi v0 c106_i32
  let v956 : Index := Scalar.indexCast v955
  ![v956.toNat]
def k0_off214 (v957 : BitVec 32) : Fin 2 → Nat :=
  let c0_i32_427 : BitVec 32 := 0#32
  ![v957.toNat, 0]

def k0_chk107 (v957 : BitVec 32) : Prop :=
  (∀ a, (k0_off214 v957) a + S1x16384.size a ≤ S16384x16384.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x16384.size a ≤ S16384x16384.size a := fun v957 k0_hw107 => k0_hw107

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v964 : BitVec 32 := Scalar.addi v0 c107_i32
  let v965 : Index := Scalar.indexCast v964
  ![v965.toNat]
def k0_off216 (v966 : BitVec 32) : Fin 2 → Nat :=
  let c0_i32_431 : BitVec 32 := 0#32
  ![v966.toNat, 0]

def k0_chk108 (v966 : BitVec 32) : Prop :=
  (∀ a, (k0_off216 v966) a + S1x16384.size a ≤ S16384x16384.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x16384.size a ≤ S16384x16384.size a := fun v966 k0_hw108 => k0_hw108

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v973 : BitVec 32 := Scalar.addi v0 c108_i32
  let v974 : Index := Scalar.indexCast v973
  ![v974.toNat]
def k0_off218 (v975 : BitVec 32) : Fin 2 → Nat :=
  let c0_i32_435 : BitVec 32 := 0#32
  ![v975.toNat, 0]

def k0_chk109 (v975 : BitVec 32) : Prop :=
  (∀ a, (k0_off218 v975) a + S1x16384.size a ≤ S16384x16384.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x16384.size a ≤ S16384x16384.size a := fun v975 k0_hw109 => k0_hw109

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v982 : BitVec 32 := Scalar.addi v0 c109_i32
  let v983 : Index := Scalar.indexCast v982
  ![v983.toNat]
def k0_off220 (v984 : BitVec 32) : Fin 2 → Nat :=
  let c0_i32_439 : BitVec 32 := 0#32
  ![v984.toNat, 0]

def k0_chk110 (v984 : BitVec 32) : Prop :=
  (∀ a, (k0_off220 v984) a + S1x16384.size a ≤ S16384x16384.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x16384.size a ≤ S16384x16384.size a := fun v984 k0_hw110 => k0_hw110

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v991 : BitVec 32 := Scalar.addi v0 c110_i32
  let v992 : Index := Scalar.indexCast v991
  ![v992.toNat]
def k0_off222 (v993 : BitVec 32) : Fin 2 → Nat :=
  let c0_i32_443 : BitVec 32 := 0#32
  ![v993.toNat, 0]

def k0_chk111 (v993 : BitVec 32) : Prop :=
  (∀ a, (k0_off222 v993) a + S1x16384.size a ≤ S16384x16384.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x16384.size a ≤ S16384x16384.size a := fun v993 k0_hw111 => k0_hw111

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1000 : BitVec 32 := Scalar.addi v0 c111_i32
  let v1001 : Index := Scalar.indexCast v1000
  ![v1001.toNat]
def k0_off224 (v1002 : BitVec 32) : Fin 2 → Nat :=
  let c0_i32_447 : BitVec 32 := 0#32
  ![v1002.toNat, 0]

def k0_chk112 (v1002 : BitVec 32) : Prop :=
  (∀ a, (k0_off224 v1002) a + S1x16384.size a ≤ S16384x16384.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x16384.size a ≤ S16384x16384.size a := fun v1002 k0_hw112 => k0_hw112

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1009 : BitVec 32 := Scalar.addi v0 c112_i32
  let v1010 : Index := Scalar.indexCast v1009
  ![v1010.toNat]
def k0_off226 (v1011 : BitVec 32) : Fin 2 → Nat :=
  let c0_i32_451 : BitVec 32 := 0#32
  ![v1011.toNat, 0]

def k0_chk113 (v1011 : BitVec 32) : Prop :=
  (∀ a, (k0_off226 v1011) a + S1x16384.size a ≤ S16384x16384.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x16384.size a ≤ S16384x16384.size a := fun v1011 k0_hw113 => k0_hw113

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1018 : BitVec 32 := Scalar.addi v0 c113_i32
  let v1019 : Index := Scalar.indexCast v1018
  ![v1019.toNat]
def k0_off228 (v1020 : BitVec 32) : Fin 2 → Nat :=
  let c0_i32_455 : BitVec 32 := 0#32
  ![v1020.toNat, 0]

def k0_chk114 (v1020 : BitVec 32) : Prop :=
  (∀ a, (k0_off228 v1020) a + S1x16384.size a ≤ S16384x16384.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x16384.size a ≤ S16384x16384.size a := fun v1020 k0_hw114 => k0_hw114

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1027 : BitVec 32 := Scalar.addi v0 c114_i32
  let v1028 : Index := Scalar.indexCast v1027
  ![v1028.toNat]
def k0_off230 (v1029 : BitVec 32) : Fin 2 → Nat :=
  let c0_i32_459 : BitVec 32 := 0#32
  ![v1029.toNat, 0]

def k0_chk115 (v1029 : BitVec 32) : Prop :=
  (∀ a, (k0_off230 v1029) a + S1x16384.size a ≤ S16384x16384.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x16384.size a ≤ S16384x16384.size a := fun v1029 k0_hw115 => k0_hw115

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1036 : BitVec 32 := Scalar.addi v0 c115_i32
  let v1037 : Index := Scalar.indexCast v1036
  ![v1037.toNat]
def k0_off232 (v1038 : BitVec 32) : Fin 2 → Nat :=
  let c0_i32_463 : BitVec 32 := 0#32
  ![v1038.toNat, 0]

def k0_chk116 (v1038 : BitVec 32) : Prop :=
  (∀ a, (k0_off232 v1038) a + S1x16384.size a ≤ S16384x16384.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x16384.size a ≤ S16384x16384.size a := fun v1038 k0_hw116 => k0_hw116

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1045 : BitVec 32 := Scalar.addi v0 c116_i32
  let v1046 : Index := Scalar.indexCast v1045
  ![v1046.toNat]
def k0_off234 (v1047 : BitVec 32) : Fin 2 → Nat :=
  let c0_i32_467 : BitVec 32 := 0#32
  ![v1047.toNat, 0]

def k0_chk117 (v1047 : BitVec 32) : Prop :=
  (∀ a, (k0_off234 v1047) a + S1x16384.size a ≤ S16384x16384.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x16384.size a ≤ S16384x16384.size a := fun v1047 k0_hw117 => k0_hw117

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1054 : BitVec 32 := Scalar.addi v0 c117_i32
  let v1055 : Index := Scalar.indexCast v1054
  ![v1055.toNat]
def k0_off236 (v1056 : BitVec 32) : Fin 2 → Nat :=
  let c0_i32_471 : BitVec 32 := 0#32
  ![v1056.toNat, 0]

def k0_chk118 (v1056 : BitVec 32) : Prop :=
  (∀ a, (k0_off236 v1056) a + S1x16384.size a ≤ S16384x16384.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x16384.size a ≤ S16384x16384.size a := fun v1056 k0_hw118 => k0_hw118

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1063 : BitVec 32 := Scalar.addi v0 c118_i32
  let v1064 : Index := Scalar.indexCast v1063
  ![v1064.toNat]
def k0_off238 (v1065 : BitVec 32) : Fin 2 → Nat :=
  let c0_i32_475 : BitVec 32 := 0#32
  ![v1065.toNat, 0]

def k0_chk119 (v1065 : BitVec 32) : Prop :=
  (∀ a, (k0_off238 v1065) a + S1x16384.size a ≤ S16384x16384.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x16384.size a ≤ S16384x16384.size a := fun v1065 k0_hw119 => k0_hw119

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1072 : BitVec 32 := Scalar.addi v0 c119_i32
  let v1073 : Index := Scalar.indexCast v1072
  ![v1073.toNat]
def k0_off240 (v1074 : BitVec 32) : Fin 2 → Nat :=
  let c0_i32_479 : BitVec 32 := 0#32
  ![v1074.toNat, 0]

def k0_chk120 (v1074 : BitVec 32) : Prop :=
  (∀ a, (k0_off240 v1074) a + S1x16384.size a ≤ S16384x16384.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x16384.size a ≤ S16384x16384.size a := fun v1074 k0_hw120 => k0_hw120

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1081 : BitVec 32 := Scalar.addi v0 c120_i32
  let v1082 : Index := Scalar.indexCast v1081
  ![v1082.toNat]
def k0_off242 (v1083 : BitVec 32) : Fin 2 → Nat :=
  let c0_i32_483 : BitVec 32 := 0#32
  ![v1083.toNat, 0]

def k0_chk121 (v1083 : BitVec 32) : Prop :=
  (∀ a, (k0_off242 v1083) a + S1x16384.size a ≤ S16384x16384.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x16384.size a ≤ S16384x16384.size a := fun v1083 k0_hw121 => k0_hw121

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1090 : BitVec 32 := Scalar.addi v0 c121_i32
  let v1091 : Index := Scalar.indexCast v1090
  ![v1091.toNat]
def k0_off244 (v1092 : BitVec 32) : Fin 2 → Nat :=
  let c0_i32_487 : BitVec 32 := 0#32
  ![v1092.toNat, 0]

def k0_chk122 (v1092 : BitVec 32) : Prop :=
  (∀ a, (k0_off244 v1092) a + S1x16384.size a ≤ S16384x16384.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x16384.size a ≤ S16384x16384.size a := fun v1092 k0_hw122 => k0_hw122

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1099 : BitVec 32 := Scalar.addi v0 c122_i32
  let v1100 : Index := Scalar.indexCast v1099
  ![v1100.toNat]
def k0_off246 (v1101 : BitVec 32) : Fin 2 → Nat :=
  let c0_i32_491 : BitVec 32 := 0#32
  ![v1101.toNat, 0]

def k0_chk123 (v1101 : BitVec 32) : Prop :=
  (∀ a, (k0_off246 v1101) a + S1x16384.size a ≤ S16384x16384.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x16384.size a ≤ S16384x16384.size a := fun v1101 k0_hw123 => k0_hw123

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1108 : BitVec 32 := Scalar.addi v0 c123_i32
  let v1109 : Index := Scalar.indexCast v1108
  ![v1109.toNat]
def k0_off248 (v1110 : BitVec 32) : Fin 2 → Nat :=
  let c0_i32_495 : BitVec 32 := 0#32
  ![v1110.toNat, 0]

def k0_chk124 (v1110 : BitVec 32) : Prop :=
  (∀ a, (k0_off248 v1110) a + S1x16384.size a ≤ S16384x16384.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x16384.size a ≤ S16384x16384.size a := fun v1110 k0_hw124 => k0_hw124

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1117 : BitVec 32 := Scalar.addi v0 c124_i32
  let v1118 : Index := Scalar.indexCast v1117
  ![v1118.toNat]
def k0_off250 (v1119 : BitVec 32) : Fin 2 → Nat :=
  let c0_i32_499 : BitVec 32 := 0#32
  ![v1119.toNat, 0]

def k0_chk125 (v1119 : BitVec 32) : Prop :=
  (∀ a, (k0_off250 v1119) a + S1x16384.size a ≤ S16384x16384.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x16384.size a ≤ S16384x16384.size a := fun v1119 k0_hw125 => k0_hw125

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1126 : BitVec 32 := Scalar.addi v0 c125_i32
  let v1127 : Index := Scalar.indexCast v1126
  ![v1127.toNat]
def k0_off252 (v1128 : BitVec 32) : Fin 2 → Nat :=
  let c0_i32_503 : BitVec 32 := 0#32
  ![v1128.toNat, 0]

def k0_chk126 (v1128 : BitVec 32) : Prop :=
  (∀ a, (k0_off252 v1128) a + S1x16384.size a ≤ S16384x16384.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x16384.size a ≤ S16384x16384.size a := fun v1128 k0_hw126 => k0_hw126

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1135 : BitVec 32 := Scalar.addi v0 c126_i32
  let v1136 : Index := Scalar.indexCast v1135
  ![v1136.toNat]
def k0_off254 (v1137 : BitVec 32) : Fin 2 → Nat :=
  let c0_i32_507 : BitVec 32 := 0#32
  ![v1137.toNat, 0]

def k0_chk127 (v1137 : BitVec 32) : Prop :=
  (∀ a, (k0_off254 v1137) a + S1x16384.size a ≤ S16384x16384.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x16384.size a ≤ S16384x16384.size a := fun v1137 k0_hw127 => k0_hw127

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1144 : BitVec 32 := Scalar.addi v0 c127_i32
  let v1145 : Index := Scalar.indexCast v1144
  ![v1145.toNat]
def k0_off256 (v1146 : BitVec 32) : Fin 2 → Nat :=
  let c0_i32_511 : BitVec 32 := 0#32
  ![v1146.toNat, 0]

def k0_chk128 (v1146 : BitVec 32) : Prop :=
  (∀ a, (k0_off256 v1146) a + S1x16384.size a ≤ S16384x16384.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x16384.size a ≤ S16384x16384.size a := fun v1146 k0_hw128 => k0_hw128

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

abbrev pre1 : Pipeline.Prefetch sig := ⟨1, ![main_v48.idx], fun | 0 => main_v48.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_chk1 (v3 : BitVec 32) : Prop :=
  (∀ a, (k1_off2 v3) a + S1x128.size a ≤ S16384x128.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x128.size a ≤ S16384x128.size a := fun v3 k1_hw1 => k1_hw1

def k1_off3 (i : grid1.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_chk2 (v12 : BitVec 32) : Prop :=
  (∀ a, (k1_off4 v12) a + S1x128.size a ≤ S16384x128.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x128.size a ≤ S16384x128.size a := fun v12 k1_hw2 => k1_hw2

def k1_off5 (i : grid1.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_chk3 (v21 : BitVec 32) : Prop :=
  (∀ a, (k1_off6 v21) a + S1x128.size a ≤ S16384x128.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x128.size a ≤ S16384x128.size a := fun v21 k1_hw3 => k1_hw3

def k1_off7 (i : grid1.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_chk4 (v30 : BitVec 32) : Prop :=
  (∀ a, (k1_off8 v30) a + S1x128.size a ≤ S16384x128.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x128.size a ≤ S16384x128.size a := fun v30 k1_hw4 => k1_hw4

def k1_off9 (i : grid1.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_chk5 (v39 : BitVec 32) : Prop :=
  (∀ a, (k1_off10 v39) a + S1x128.size a ≤ S16384x128.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x128.size a ≤ S16384x128.size a := fun v39 k1_hw5 => k1_hw5

def k1_off11 (i : grid1.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_chk6 (v48 : BitVec 32) : Prop :=
  (∀ a, (k1_off12 v48) a + S1x128.size a ≤ S16384x128.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x128.size a ≤ S16384x128.size a := fun v48 k1_hw6 => k1_hw6

def k1_off13 (i : grid1.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_chk7 (v57 : BitVec 32) : Prop :=
  (∀ a, (k1_off14 v57) a + S1x128.size a ≤ S16384x128.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x128.size a ≤ S16384x128.size a := fun v57 k1_hw7 => k1_hw7

def k1_off15 (i : grid1.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_chk8 (v66 : BitVec 32) : Prop :=
  (∀ a, (k1_off16 v66) a + S1x128.size a ≤ S16384x128.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x128.size a ≤ S16384x128.size a := fun v66 k1_hw8 => k1_hw8

def k1_off17 (i : grid1.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v73 : BitVec 32 := Scalar.addi v0 c8_i32
  let v74 : Index := Scalar.indexCast v73
  ![v74.toNat]
def k1_off18 (v75 : BitVec 32) : Fin 2 → Nat :=
  let c0_i32_35 : BitVec 32 := 0#32
  ![v75.toNat, 0]

def k1_chk9 (v75 : BitVec 32) : Prop :=
  (∀ a, (k1_off18 v75) a + S1x128.size a ≤ S16384x128.size a)
instance k1_chk9.dec : ∀ (v75 : BitVec 32), Decidable (k1_chk9 v75) := fun v75 => decidable_of_iff' _ (Iff.of_eq (k1_chk9.eq_1 v75))
theorem k1_off18_inb : ∀ (v75 : BitVec 32) (k1_hw9 : k1_chk9 v75), ∀ a, (k1_off18 v75) a + S1x128.size a ≤ S16384x128.size a := fun v75 k1_hw9 => k1_hw9

def k1_off19 (i : grid1.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v82 : BitVec 32 := Scalar.addi v0 c9_i32
  let v83 : Index := Scalar.indexCast v82
  ![v83.toNat]
def k1_off20 (v84 : BitVec 32) : Fin 2 → Nat :=
  let c0_i32_39 : BitVec 32 := 0#32
  ![v84.toNat, 0]

def k1_chk10 (v84 : BitVec 32) : Prop :=
  (∀ a, (k1_off20 v84) a + S1x128.size a ≤ S16384x128.size a)
instance k1_chk10.dec : ∀ (v84 : BitVec 32), Decidable (k1_chk10 v84) := fun v84 => decidable_of_iff' _ (Iff.of_eq (k1_chk10.eq_1 v84))
theorem k1_off20_inb : ∀ (v84 : BitVec 32) (k1_hw10 : k1_chk10 v84), ∀ a, (k1_off20 v84) a + S1x128.size a ≤ S16384x128.size a := fun v84 k1_hw10 => k1_hw10

def k1_off21 (i : grid1.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v91 : BitVec 32 := Scalar.addi v0 c10_i32
  let v92 : Index := Scalar.indexCast v91
  ![v92.toNat]
def k1_off22 (v93 : BitVec 32) : Fin 2 → Nat :=
  let c0_i32_43 : BitVec 32 := 0#32
  ![v93.toNat, 0]

def k1_chk11 (v93 : BitVec 32) : Prop :=
  (∀ a, (k1_off22 v93) a + S1x128.size a ≤ S16384x128.size a)
instance k1_chk11.dec : ∀ (v93 : BitVec 32), Decidable (k1_chk11 v93) := fun v93 => decidable_of_iff' _ (Iff.of_eq (k1_chk11.eq_1 v93))
theorem k1_off22_inb : ∀ (v93 : BitVec 32) (k1_hw11 : k1_chk11 v93), ∀ a, (k1_off22 v93) a + S1x128.size a ≤ S16384x128.size a := fun v93 k1_hw11 => k1_hw11

def k1_off23 (i : grid1.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v100 : BitVec 32 := Scalar.addi v0 c11_i32
  let v101 : Index := Scalar.indexCast v100
  ![v101.toNat]
def k1_off24 (v102 : BitVec 32) : Fin 2 → Nat :=
  let c0_i32_47 : BitVec 32 := 0#32
  ![v102.toNat, 0]

def k1_chk12 (v102 : BitVec 32) : Prop :=
  (∀ a, (k1_off24 v102) a + S1x128.size a ≤ S16384x128.size a)
instance k1_chk12.dec : ∀ (v102 : BitVec 32), Decidable (k1_chk12 v102) := fun v102 => decidable_of_iff' _ (Iff.of_eq (k1_chk12.eq_1 v102))
theorem k1_off24_inb : ∀ (v102 : BitVec 32) (k1_hw12 : k1_chk12 v102), ∀ a, (k1_off24 v102) a + S1x128.size a ≤ S16384x128.size a := fun v102 k1_hw12 => k1_hw12

def k1_off25 (i : grid1.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v109 : BitVec 32 := Scalar.addi v0 c12_i32
  let v110 : Index := Scalar.indexCast v109
  ![v110.toNat]
def k1_off26 (v111 : BitVec 32) : Fin 2 → Nat :=
  let c0_i32_51 : BitVec 32 := 0#32
  ![v111.toNat, 0]

def k1_chk13 (v111 : BitVec 32) : Prop :=
  (∀ a, (k1_off26 v111) a + S1x128.size a ≤ S16384x128.size a)
instance k1_chk13.dec : ∀ (v111 : BitVec 32), Decidable (k1_chk13 v111) := fun v111 => decidable_of_iff' _ (Iff.of_eq (k1_chk13.eq_1 v111))
theorem k1_off26_inb : ∀ (v111 : BitVec 32) (k1_hw13 : k1_chk13 v111), ∀ a, (k1_off26 v111) a + S1x128.size a ≤ S16384x128.size a := fun v111 k1_hw13 => k1_hw13

def k1_off27 (i : grid1.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v118 : BitVec 32 := Scalar.addi v0 c13_i32
  let v119 : Index := Scalar.indexCast v118
  ![v119.toNat]
def k1_off28 (v120 : BitVec 32) : Fin 2 → Nat :=
  let c0_i32_55 : BitVec 32 := 0#32
  ![v120.toNat, 0]

def k1_chk14 (v120 : BitVec 32) : Prop :=
  (∀ a, (k1_off28 v120) a + S1x128.size a ≤ S16384x128.size a)
instance k1_chk14.dec : ∀ (v120 : BitVec 32), Decidable (k1_chk14 v120) := fun v120 => decidable_of_iff' _ (Iff.of_eq (k1_chk14.eq_1 v120))
theorem k1_off28_inb : ∀ (v120 : BitVec 32) (k1_hw14 : k1_chk14 v120), ∀ a, (k1_off28 v120) a + S1x128.size a ≤ S16384x128.size a := fun v120 k1_hw14 => k1_hw14

def k1_off29 (i : grid1.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v127 : BitVec 32 := Scalar.addi v0 c14_i32
  let v128 : Index := Scalar.indexCast v127
  ![v128.toNat]
def k1_off30 (v129 : BitVec 32) : Fin 2 → Nat :=
  let c0_i32_59 : BitVec 32 := 0#32
  ![v129.toNat, 0]

def k1_chk15 (v129 : BitVec 32) : Prop :=
  (∀ a, (k1_off30 v129) a + S1x128.size a ≤ S16384x128.size a)
instance k1_chk15.dec : ∀ (v129 : BitVec 32), Decidable (k1_chk15 v129) := fun v129 => decidable_of_iff' _ (Iff.of_eq (k1_chk15.eq_1 v129))
theorem k1_off30_inb : ∀ (v129 : BitVec 32) (k1_hw15 : k1_chk15 v129), ∀ a, (k1_off30 v129) a + S1x128.size a ≤ S16384x128.size a := fun v129 k1_hw15 => k1_hw15

def k1_off31 (i : grid1.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v136 : BitVec 32 := Scalar.addi v0 c15_i32
  let v137 : Index := Scalar.indexCast v136
  ![v137.toNat]
def k1_off32 (v138 : BitVec 32) : Fin 2 → Nat :=
  let c0_i32_63 : BitVec 32 := 0#32
  ![v138.toNat, 0]

def k1_chk16 (v138 : BitVec 32) : Prop :=
  (∀ a, (k1_off32 v138) a + S1x128.size a ≤ S16384x128.size a)
instance k1_chk16.dec : ∀ (v138 : BitVec 32), Decidable (k1_chk16 v138) := fun v138 => decidable_of_iff' _ (Iff.of_eq (k1_chk16.eq_1 v138))
theorem k1_off32_inb : ∀ (v138 : BitVec 32) (k1_hw16 : k1_chk16 v138), ∀ a, (k1_off32 v138) a + S1x128.size a ≤ S16384x128.size a := fun v138 k1_hw16 => k1_hw16

def k1_off33 (i : grid1.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v145 : BitVec 32 := Scalar.addi v0 c16_i32
  let v146 : Index := Scalar.indexCast v145
  ![v146.toNat]
def k1_off34 (v147 : BitVec 32) : Fin 2 → Nat :=
  let c0_i32_67 : BitVec 32 := 0#32
  ![v147.toNat, 0]

def k1_chk17 (v147 : BitVec 32) : Prop :=
  (∀ a, (k1_off34 v147) a + S1x128.size a ≤ S16384x128.size a)
instance k1_chk17.dec : ∀ (v147 : BitVec 32), Decidable (k1_chk17 v147) := fun v147 => decidable_of_iff' _ (Iff.of_eq (k1_chk17.eq_1 v147))
theorem k1_off34_inb : ∀ (v147 : BitVec 32) (k1_hw17 : k1_chk17 v147), ∀ a, (k1_off34 v147) a + S1x128.size a ≤ S16384x128.size a := fun v147 k1_hw17 => k1_hw17

def k1_off35 (i : grid1.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v154 : BitVec 32 := Scalar.addi v0 c17_i32
  let v155 : Index := Scalar.indexCast v154
  ![v155.toNat]
def k1_off36 (v156 : BitVec 32) : Fin 2 → Nat :=
  let c0_i32_71 : BitVec 32 := 0#32
  ![v156.toNat, 0]

def k1_chk18 (v156 : BitVec 32) : Prop :=
  (∀ a, (k1_off36 v156) a + S1x128.size a ≤ S16384x128.size a)
instance k1_chk18.dec : ∀ (v156 : BitVec 32), Decidable (k1_chk18 v156) := fun v156 => decidable_of_iff' _ (Iff.of_eq (k1_chk18.eq_1 v156))
theorem k1_off36_inb : ∀ (v156 : BitVec 32) (k1_hw18 : k1_chk18 v156), ∀ a, (k1_off36 v156) a + S1x128.size a ≤ S16384x128.size a := fun v156 k1_hw18 => k1_hw18

def k1_off37 (i : grid1.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v163 : BitVec 32 := Scalar.addi v0 c18_i32
  let v164 : Index := Scalar.indexCast v163
  ![v164.toNat]
def k1_off38 (v165 : BitVec 32) : Fin 2 → Nat :=
  let c0_i32_75 : BitVec 32 := 0#32
  ![v165.toNat, 0]

def k1_chk19 (v165 : BitVec 32) : Prop :=
  (∀ a, (k1_off38 v165) a + S1x128.size a ≤ S16384x128.size a)
instance k1_chk19.dec : ∀ (v165 : BitVec 32), Decidable (k1_chk19 v165) := fun v165 => decidable_of_iff' _ (Iff.of_eq (k1_chk19.eq_1 v165))
theorem k1_off38_inb : ∀ (v165 : BitVec 32) (k1_hw19 : k1_chk19 v165), ∀ a, (k1_off38 v165) a + S1x128.size a ≤ S16384x128.size a := fun v165 k1_hw19 => k1_hw19

def k1_off39 (i : grid1.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v172 : BitVec 32 := Scalar.addi v0 c19_i32
  let v173 : Index := Scalar.indexCast v172
  ![v173.toNat]
def k1_off40 (v174 : BitVec 32) : Fin 2 → Nat :=
  let c0_i32_79 : BitVec 32 := 0#32
  ![v174.toNat, 0]

def k1_chk20 (v174 : BitVec 32) : Prop :=
  (∀ a, (k1_off40 v174) a + S1x128.size a ≤ S16384x128.size a)
instance k1_chk20.dec : ∀ (v174 : BitVec 32), Decidable (k1_chk20 v174) := fun v174 => decidable_of_iff' _ (Iff.of_eq (k1_chk20.eq_1 v174))
theorem k1_off40_inb : ∀ (v174 : BitVec 32) (k1_hw20 : k1_chk20 v174), ∀ a, (k1_off40 v174) a + S1x128.size a ≤ S16384x128.size a := fun v174 k1_hw20 => k1_hw20

def k1_off41 (i : grid1.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v181 : BitVec 32 := Scalar.addi v0 c20_i32
  let v182 : Index := Scalar.indexCast v181
  ![v182.toNat]
def k1_off42 (v183 : BitVec 32) : Fin 2 → Nat :=
  let c0_i32_83 : BitVec 32 := 0#32
  ![v183.toNat, 0]

def k1_chk21 (v183 : BitVec 32) : Prop :=
  (∀ a, (k1_off42 v183) a + S1x128.size a ≤ S16384x128.size a)
instance k1_chk21.dec : ∀ (v183 : BitVec 32), Decidable (k1_chk21 v183) := fun v183 => decidable_of_iff' _ (Iff.of_eq (k1_chk21.eq_1 v183))
theorem k1_off42_inb : ∀ (v183 : BitVec 32) (k1_hw21 : k1_chk21 v183), ∀ a, (k1_off42 v183) a + S1x128.size a ≤ S16384x128.size a := fun v183 k1_hw21 => k1_hw21

def k1_off43 (i : grid1.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v190 : BitVec 32 := Scalar.addi v0 c21_i32
  let v191 : Index := Scalar.indexCast v190
  ![v191.toNat]
def k1_off44 (v192 : BitVec 32) : Fin 2 → Nat :=
  let c0_i32_87 : BitVec 32 := 0#32
  ![v192.toNat, 0]

def k1_chk22 (v192 : BitVec 32) : Prop :=
  (∀ a, (k1_off44 v192) a + S1x128.size a ≤ S16384x128.size a)
instance k1_chk22.dec : ∀ (v192 : BitVec 32), Decidable (k1_chk22 v192) := fun v192 => decidable_of_iff' _ (Iff.of_eq (k1_chk22.eq_1 v192))
theorem k1_off44_inb : ∀ (v192 : BitVec 32) (k1_hw22 : k1_chk22 v192), ∀ a, (k1_off44 v192) a + S1x128.size a ≤ S16384x128.size a := fun v192 k1_hw22 => k1_hw22

def k1_off45 (i : grid1.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v199 : BitVec 32 := Scalar.addi v0 c22_i32
  let v200 : Index := Scalar.indexCast v199
  ![v200.toNat]
def k1_off46 (v201 : BitVec 32) : Fin 2 → Nat :=
  let c0_i32_91 : BitVec 32 := 0#32
  ![v201.toNat, 0]

def k1_chk23 (v201 : BitVec 32) : Prop :=
  (∀ a, (k1_off46 v201) a + S1x128.size a ≤ S16384x128.size a)
instance k1_chk23.dec : ∀ (v201 : BitVec 32), Decidable (k1_chk23 v201) := fun v201 => decidable_of_iff' _ (Iff.of_eq (k1_chk23.eq_1 v201))
theorem k1_off46_inb : ∀ (v201 : BitVec 32) (k1_hw23 : k1_chk23 v201), ∀ a, (k1_off46 v201) a + S1x128.size a ≤ S16384x128.size a := fun v201 k1_hw23 => k1_hw23

def k1_off47 (i : grid1.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v208 : BitVec 32 := Scalar.addi v0 c23_i32
  let v209 : Index := Scalar.indexCast v208
  ![v209.toNat]
def k1_off48 (v210 : BitVec 32) : Fin 2 → Nat :=
  let c0_i32_95 : BitVec 32 := 0#32
  ![v210.toNat, 0]

def k1_chk24 (v210 : BitVec 32) : Prop :=
  (∀ a, (k1_off48 v210) a + S1x128.size a ≤ S16384x128.size a)
instance k1_chk24.dec : ∀ (v210 : BitVec 32), Decidable (k1_chk24 v210) := fun v210 => decidable_of_iff' _ (Iff.of_eq (k1_chk24.eq_1 v210))
theorem k1_off48_inb : ∀ (v210 : BitVec 32) (k1_hw24 : k1_chk24 v210), ∀ a, (k1_off48 v210) a + S1x128.size a ≤ S16384x128.size a := fun v210 k1_hw24 => k1_hw24

def k1_off49 (i : grid1.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v217 : BitVec 32 := Scalar.addi v0 c24_i32
  let v218 : Index := Scalar.indexCast v217
  ![v218.toNat]
def k1_off50 (v219 : BitVec 32) : Fin 2 → Nat :=
  let c0_i32_99 : BitVec 32 := 0#32
  ![v219.toNat, 0]

def k1_chk25 (v219 : BitVec 32) : Prop :=
  (∀ a, (k1_off50 v219) a + S1x128.size a ≤ S16384x128.size a)
instance k1_chk25.dec : ∀ (v219 : BitVec 32), Decidable (k1_chk25 v219) := fun v219 => decidable_of_iff' _ (Iff.of_eq (k1_chk25.eq_1 v219))
theorem k1_off50_inb : ∀ (v219 : BitVec 32) (k1_hw25 : k1_chk25 v219), ∀ a, (k1_off50 v219) a + S1x128.size a ≤ S16384x128.size a := fun v219 k1_hw25 => k1_hw25

def k1_off51 (i : grid1.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v226 : BitVec 32 := Scalar.addi v0 c25_i32
  let v227 : Index := Scalar.indexCast v226
  ![v227.toNat]
def k1_off52 (v228 : BitVec 32) : Fin 2 → Nat :=
  let c0_i32_103 : BitVec 32 := 0#32
  ![v228.toNat, 0]

def k1_chk26 (v228 : BitVec 32) : Prop :=
  (∀ a, (k1_off52 v228) a + S1x128.size a ≤ S16384x128.size a)
instance k1_chk26.dec : ∀ (v228 : BitVec 32), Decidable (k1_chk26 v228) := fun v228 => decidable_of_iff' _ (Iff.of_eq (k1_chk26.eq_1 v228))
theorem k1_off52_inb : ∀ (v228 : BitVec 32) (k1_hw26 : k1_chk26 v228), ∀ a, (k1_off52 v228) a + S1x128.size a ≤ S16384x128.size a := fun v228 k1_hw26 => k1_hw26

def k1_off53 (i : grid1.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v235 : BitVec 32 := Scalar.addi v0 c26_i32
  let v236 : Index := Scalar.indexCast v235
  ![v236.toNat]
def k1_off54 (v237 : BitVec 32) : Fin 2 → Nat :=
  let c0_i32_107 : BitVec 32 := 0#32
  ![v237.toNat, 0]

def k1_chk27 (v237 : BitVec 32) : Prop :=
  (∀ a, (k1_off54 v237) a + S1x128.size a ≤ S16384x128.size a)
instance k1_chk27.dec : ∀ (v237 : BitVec 32), Decidable (k1_chk27 v237) := fun v237 => decidable_of_iff' _ (Iff.of_eq (k1_chk27.eq_1 v237))
theorem k1_off54_inb : ∀ (v237 : BitVec 32) (k1_hw27 : k1_chk27 v237), ∀ a, (k1_off54 v237) a + S1x128.size a ≤ S16384x128.size a := fun v237 k1_hw27 => k1_hw27

def k1_off55 (i : grid1.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v244 : BitVec 32 := Scalar.addi v0 c27_i32
  let v245 : Index := Scalar.indexCast v244
  ![v245.toNat]
def k1_off56 (v246 : BitVec 32) : Fin 2 → Nat :=
  let c0_i32_111 : BitVec 32 := 0#32
  ![v246.toNat, 0]

def k1_chk28 (v246 : BitVec 32) : Prop :=
  (∀ a, (k1_off56 v246) a + S1x128.size a ≤ S16384x128.size a)
instance k1_chk28.dec : ∀ (v246 : BitVec 32), Decidable (k1_chk28 v246) := fun v246 => decidable_of_iff' _ (Iff.of_eq (k1_chk28.eq_1 v246))
theorem k1_off56_inb : ∀ (v246 : BitVec 32) (k1_hw28 : k1_chk28 v246), ∀ a, (k1_off56 v246) a + S1x128.size a ≤ S16384x128.size a := fun v246 k1_hw28 => k1_hw28

def k1_off57 (i : grid1.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v253 : BitVec 32 := Scalar.addi v0 c28_i32
  let v254 : Index := Scalar.indexCast v253
  ![v254.toNat]
def k1_off58 (v255 : BitVec 32) : Fin 2 → Nat :=
  let c0_i32_115 : BitVec 32 := 0#32
  ![v255.toNat, 0]

def k1_chk29 (v255 : BitVec 32) : Prop :=
  (∀ a, (k1_off58 v255) a + S1x128.size a ≤ S16384x128.size a)
instance k1_chk29.dec : ∀ (v255 : BitVec 32), Decidable (k1_chk29 v255) := fun v255 => decidable_of_iff' _ (Iff.of_eq (k1_chk29.eq_1 v255))
theorem k1_off58_inb : ∀ (v255 : BitVec 32) (k1_hw29 : k1_chk29 v255), ∀ a, (k1_off58 v255) a + S1x128.size a ≤ S16384x128.size a := fun v255 k1_hw29 => k1_hw29

def k1_off59 (i : grid1.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v262 : BitVec 32 := Scalar.addi v0 c29_i32
  let v263 : Index := Scalar.indexCast v262
  ![v263.toNat]
def k1_off60 (v264 : BitVec 32) : Fin 2 → Nat :=
  let c0_i32_119 : BitVec 32 := 0#32
  ![v264.toNat, 0]

def k1_chk30 (v264 : BitVec 32) : Prop :=
  (∀ a, (k1_off60 v264) a + S1x128.size a ≤ S16384x128.size a)
instance k1_chk30.dec : ∀ (v264 : BitVec 32), Decidable (k1_chk30 v264) := fun v264 => decidable_of_iff' _ (Iff.of_eq (k1_chk30.eq_1 v264))
theorem k1_off60_inb : ∀ (v264 : BitVec 32) (k1_hw30 : k1_chk30 v264), ∀ a, (k1_off60 v264) a + S1x128.size a ≤ S16384x128.size a := fun v264 k1_hw30 => k1_hw30

def k1_off61 (i : grid1.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v271 : BitVec 32 := Scalar.addi v0 c30_i32
  let v272 : Index := Scalar.indexCast v271
  ![v272.toNat]
def k1_off62 (v273 : BitVec 32) : Fin 2 → Nat :=
  let c0_i32_123 : BitVec 32 := 0#32
  ![v273.toNat, 0]

def k1_chk31 (v273 : BitVec 32) : Prop :=
  (∀ a, (k1_off62 v273) a + S1x128.size a ≤ S16384x128.size a)
instance k1_chk31.dec : ∀ (v273 : BitVec 32), Decidable (k1_chk31 v273) := fun v273 => decidable_of_iff' _ (Iff.of_eq (k1_chk31.eq_1 v273))
theorem k1_off62_inb : ∀ (v273 : BitVec 32) (k1_hw31 : k1_chk31 v273), ∀ a, (k1_off62 v273) a + S1x128.size a ≤ S16384x128.size a := fun v273 k1_hw31 => k1_hw31

def k1_off63 (i : grid1.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v280 : BitVec 32 := Scalar.addi v0 c31_i32
  let v281 : Index := Scalar.indexCast v280
  ![v281.toNat]
def k1_off64 (v282 : BitVec 32) : Fin 2 → Nat :=
  let c0_i32_127 : BitVec 32 := 0#32
  ![v282.toNat, 0]

def k1_chk32 (v282 : BitVec 32) : Prop :=
  (∀ a, (k1_off64 v282) a + S1x128.size a ≤ S16384x128.size a)
instance k1_chk32.dec : ∀ (v282 : BitVec 32), Decidable (k1_chk32 v282) := fun v282 => decidable_of_iff' _ (Iff.of_eq (k1_chk32.eq_1 v282))
theorem k1_off64_inb : ∀ (v282 : BitVec 32) (k1_hw32 : k1_chk32 v282), ∀ a, (k1_off64 v282) a + S1x128.size a ≤ S16384x128.size a := fun v282 k1_hw32 => k1_hw32

def k1_off65 (i : grid1.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v289 : BitVec 32 := Scalar.addi v0 c32_i32
  let v290 : Index := Scalar.indexCast v289
  ![v290.toNat]
def k1_off66 (v291 : BitVec 32) : Fin 2 → Nat :=
  let c0_i32_131 : BitVec 32 := 0#32
  ![v291.toNat, 0]

def k1_chk33 (v291 : BitVec 32) : Prop :=
  (∀ a, (k1_off66 v291) a + S1x128.size a ≤ S16384x128.size a)
instance k1_chk33.dec : ∀ (v291 : BitVec 32), Decidable (k1_chk33 v291) := fun v291 => decidable_of_iff' _ (Iff.of_eq (k1_chk33.eq_1 v291))
theorem k1_off66_inb : ∀ (v291 : BitVec 32) (k1_hw33 : k1_chk33 v291), ∀ a, (k1_off66 v291) a + S1x128.size a ≤ S16384x128.size a := fun v291 k1_hw33 => k1_hw33

def k1_off67 (i : grid1.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v298 : BitVec 32 := Scalar.addi v0 c33_i32
  let v299 : Index := Scalar.indexCast v298
  ![v299.toNat]
def k1_off68 (v300 : BitVec 32) : Fin 2 → Nat :=
  let c0_i32_135 : BitVec 32 := 0#32
  ![v300.toNat, 0]

def k1_chk34 (v300 : BitVec 32) : Prop :=
  (∀ a, (k1_off68 v300) a + S1x128.size a ≤ S16384x128.size a)
instance k1_chk34.dec : ∀ (v300 : BitVec 32), Decidable (k1_chk34 v300) := fun v300 => decidable_of_iff' _ (Iff.of_eq (k1_chk34.eq_1 v300))
theorem k1_off68_inb : ∀ (v300 : BitVec 32) (k1_hw34 : k1_chk34 v300), ∀ a, (k1_off68 v300) a + S1x128.size a ≤ S16384x128.size a := fun v300 k1_hw34 => k1_hw34

def k1_off69 (i : grid1.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v307 : BitVec 32 := Scalar.addi v0 c34_i32
  let v308 : Index := Scalar.indexCast v307
  ![v308.toNat]
def k1_off70 (v309 : BitVec 32) : Fin 2 → Nat :=
  let c0_i32_139 : BitVec 32 := 0#32
  ![v309.toNat, 0]

def k1_chk35 (v309 : BitVec 32) : Prop :=
  (∀ a, (k1_off70 v309) a + S1x128.size a ≤ S16384x128.size a)
instance k1_chk35.dec : ∀ (v309 : BitVec 32), Decidable (k1_chk35 v309) := fun v309 => decidable_of_iff' _ (Iff.of_eq (k1_chk35.eq_1 v309))
theorem k1_off70_inb : ∀ (v309 : BitVec 32) (k1_hw35 : k1_chk35 v309), ∀ a, (k1_off70 v309) a + S1x128.size a ≤ S16384x128.size a := fun v309 k1_hw35 => k1_hw35

def k1_off71 (i : grid1.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v316 : BitVec 32 := Scalar.addi v0 c35_i32
  let v317 : Index := Scalar.indexCast v316
  ![v317.toNat]
def k1_off72 (v318 : BitVec 32) : Fin 2 → Nat :=
  let c0_i32_143 : BitVec 32 := 0#32
  ![v318.toNat, 0]

def k1_chk36 (v318 : BitVec 32) : Prop :=
  (∀ a, (k1_off72 v318) a + S1x128.size a ≤ S16384x128.size a)
instance k1_chk36.dec : ∀ (v318 : BitVec 32), Decidable (k1_chk36 v318) := fun v318 => decidable_of_iff' _ (Iff.of_eq (k1_chk36.eq_1 v318))
theorem k1_off72_inb : ∀ (v318 : BitVec 32) (k1_hw36 : k1_chk36 v318), ∀ a, (k1_off72 v318) a + S1x128.size a ≤ S16384x128.size a := fun v318 k1_hw36 => k1_hw36

def k1_off73 (i : grid1.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v325 : BitVec 32 := Scalar.addi v0 c36_i32
  let v326 : Index := Scalar.indexCast v325
  ![v326.toNat]
def k1_off74 (v327 : BitVec 32) : Fin 2 → Nat :=
  let c0_i32_147 : BitVec 32 := 0#32
  ![v327.toNat, 0]

def k1_chk37 (v327 : BitVec 32) : Prop :=
  (∀ a, (k1_off74 v327) a + S1x128.size a ≤ S16384x128.size a)
instance k1_chk37.dec : ∀ (v327 : BitVec 32), Decidable (k1_chk37 v327) := fun v327 => decidable_of_iff' _ (Iff.of_eq (k1_chk37.eq_1 v327))
theorem k1_off74_inb : ∀ (v327 : BitVec 32) (k1_hw37 : k1_chk37 v327), ∀ a, (k1_off74 v327) a + S1x128.size a ≤ S16384x128.size a := fun v327 k1_hw37 => k1_hw37

def k1_off75 (i : grid1.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v334 : BitVec 32 := Scalar.addi v0 c37_i32
  let v335 : Index := Scalar.indexCast v334
  ![v335.toNat]
def k1_off76 (v336 : BitVec 32) : Fin 2 → Nat :=
  let c0_i32_151 : BitVec 32 := 0#32
  ![v336.toNat, 0]

def k1_chk38 (v336 : BitVec 32) : Prop :=
  (∀ a, (k1_off76 v336) a + S1x128.size a ≤ S16384x128.size a)
instance k1_chk38.dec : ∀ (v336 : BitVec 32), Decidable (k1_chk38 v336) := fun v336 => decidable_of_iff' _ (Iff.of_eq (k1_chk38.eq_1 v336))
theorem k1_off76_inb : ∀ (v336 : BitVec 32) (k1_hw38 : k1_chk38 v336), ∀ a, (k1_off76 v336) a + S1x128.size a ≤ S16384x128.size a := fun v336 k1_hw38 => k1_hw38

def k1_off77 (i : grid1.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v343 : BitVec 32 := Scalar.addi v0 c38_i32
  let v344 : Index := Scalar.indexCast v343
  ![v344.toNat]
def k1_off78 (v345 : BitVec 32) : Fin 2 → Nat :=
  let c0_i32_155 : BitVec 32 := 0#32
  ![v345.toNat, 0]

def k1_chk39 (v345 : BitVec 32) : Prop :=
  (∀ a, (k1_off78 v345) a + S1x128.size a ≤ S16384x128.size a)
instance k1_chk39.dec : ∀ (v345 : BitVec 32), Decidable (k1_chk39 v345) := fun v345 => decidable_of_iff' _ (Iff.of_eq (k1_chk39.eq_1 v345))
theorem k1_off78_inb : ∀ (v345 : BitVec 32) (k1_hw39 : k1_chk39 v345), ∀ a, (k1_off78 v345) a + S1x128.size a ≤ S16384x128.size a := fun v345 k1_hw39 => k1_hw39

def k1_off79 (i : grid1.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v352 : BitVec 32 := Scalar.addi v0 c39_i32
  let v353 : Index := Scalar.indexCast v352
  ![v353.toNat]
def k1_off80 (v354 : BitVec 32) : Fin 2 → Nat :=
  let c0_i32_159 : BitVec 32 := 0#32
  ![v354.toNat, 0]

def k1_chk40 (v354 : BitVec 32) : Prop :=
  (∀ a, (k1_off80 v354) a + S1x128.size a ≤ S16384x128.size a)
instance k1_chk40.dec : ∀ (v354 : BitVec 32), Decidable (k1_chk40 v354) := fun v354 => decidable_of_iff' _ (Iff.of_eq (k1_chk40.eq_1 v354))
theorem k1_off80_inb : ∀ (v354 : BitVec 32) (k1_hw40 : k1_chk40 v354), ∀ a, (k1_off80 v354) a + S1x128.size a ≤ S16384x128.size a := fun v354 k1_hw40 => k1_hw40

def k1_off81 (i : grid1.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v361 : BitVec 32 := Scalar.addi v0 c40_i32
  let v362 : Index := Scalar.indexCast v361
  ![v362.toNat]
def k1_off82 (v363 : BitVec 32) : Fin 2 → Nat :=
  let c0_i32_163 : BitVec 32 := 0#32
  ![v363.toNat, 0]

def k1_chk41 (v363 : BitVec 32) : Prop :=
  (∀ a, (k1_off82 v363) a + S1x128.size a ≤ S16384x128.size a)
instance k1_chk41.dec : ∀ (v363 : BitVec 32), Decidable (k1_chk41 v363) := fun v363 => decidable_of_iff' _ (Iff.of_eq (k1_chk41.eq_1 v363))
theorem k1_off82_inb : ∀ (v363 : BitVec 32) (k1_hw41 : k1_chk41 v363), ∀ a, (k1_off82 v363) a + S1x128.size a ≤ S16384x128.size a := fun v363 k1_hw41 => k1_hw41

def k1_off83 (i : grid1.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v370 : BitVec 32 := Scalar.addi v0 c41_i32
  let v371 : Index := Scalar.indexCast v370
  ![v371.toNat]
def k1_off84 (v372 : BitVec 32) : Fin 2 → Nat :=
  let c0_i32_167 : BitVec 32 := 0#32
  ![v372.toNat, 0]

def k1_chk42 (v372 : BitVec 32) : Prop :=
  (∀ a, (k1_off84 v372) a + S1x128.size a ≤ S16384x128.size a)
instance k1_chk42.dec : ∀ (v372 : BitVec 32), Decidable (k1_chk42 v372) := fun v372 => decidable_of_iff' _ (Iff.of_eq (k1_chk42.eq_1 v372))
theorem k1_off84_inb : ∀ (v372 : BitVec 32) (k1_hw42 : k1_chk42 v372), ∀ a, (k1_off84 v372) a + S1x128.size a ≤ S16384x128.size a := fun v372 k1_hw42 => k1_hw42

def k1_off85 (i : grid1.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v379 : BitVec 32 := Scalar.addi v0 c42_i32
  let v380 : Index := Scalar.indexCast v379
  ![v380.toNat]
def k1_off86 (v381 : BitVec 32) : Fin 2 → Nat :=
  let c0_i32_171 : BitVec 32 := 0#32
  ![v381.toNat, 0]

def k1_chk43 (v381 : BitVec 32) : Prop :=
  (∀ a, (k1_off86 v381) a + S1x128.size a ≤ S16384x128.size a)
instance k1_chk43.dec : ∀ (v381 : BitVec 32), Decidable (k1_chk43 v381) := fun v381 => decidable_of_iff' _ (Iff.of_eq (k1_chk43.eq_1 v381))
theorem k1_off86_inb : ∀ (v381 : BitVec 32) (k1_hw43 : k1_chk43 v381), ∀ a, (k1_off86 v381) a + S1x128.size a ≤ S16384x128.size a := fun v381 k1_hw43 => k1_hw43

def k1_off87 (i : grid1.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v388 : BitVec 32 := Scalar.addi v0 c43_i32
  let v389 : Index := Scalar.indexCast v388
  ![v389.toNat]
def k1_off88 (v390 : BitVec 32) : Fin 2 → Nat :=
  let c0_i32_175 : BitVec 32 := 0#32
  ![v390.toNat, 0]

def k1_chk44 (v390 : BitVec 32) : Prop :=
  (∀ a, (k1_off88 v390) a + S1x128.size a ≤ S16384x128.size a)
instance k1_chk44.dec : ∀ (v390 : BitVec 32), Decidable (k1_chk44 v390) := fun v390 => decidable_of_iff' _ (Iff.of_eq (k1_chk44.eq_1 v390))
theorem k1_off88_inb : ∀ (v390 : BitVec 32) (k1_hw44 : k1_chk44 v390), ∀ a, (k1_off88 v390) a + S1x128.size a ≤ S16384x128.size a := fun v390 k1_hw44 => k1_hw44

def k1_off89 (i : grid1.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v397 : BitVec 32 := Scalar.addi v0 c44_i32
  let v398 : Index := Scalar.indexCast v397
  ![v398.toNat]
def k1_off90 (v399 : BitVec 32) : Fin 2 → Nat :=
  let c0_i32_179 : BitVec 32 := 0#32
  ![v399.toNat, 0]

def k1_chk45 (v399 : BitVec 32) : Prop :=
  (∀ a, (k1_off90 v399) a + S1x128.size a ≤ S16384x128.size a)
instance k1_chk45.dec : ∀ (v399 : BitVec 32), Decidable (k1_chk45 v399) := fun v399 => decidable_of_iff' _ (Iff.of_eq (k1_chk45.eq_1 v399))
theorem k1_off90_inb : ∀ (v399 : BitVec 32) (k1_hw45 : k1_chk45 v399), ∀ a, (k1_off90 v399) a + S1x128.size a ≤ S16384x128.size a := fun v399 k1_hw45 => k1_hw45

def k1_off91 (i : grid1.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v406 : BitVec 32 := Scalar.addi v0 c45_i32
  let v407 : Index := Scalar.indexCast v406
  ![v407.toNat]
def k1_off92 (v408 : BitVec 32) : Fin 2 → Nat :=
  let c0_i32_183 : BitVec 32 := 0#32
  ![v408.toNat, 0]

def k1_chk46 (v408 : BitVec 32) : Prop :=
  (∀ a, (k1_off92 v408) a + S1x128.size a ≤ S16384x128.size a)
instance k1_chk46.dec : ∀ (v408 : BitVec 32), Decidable (k1_chk46 v408) := fun v408 => decidable_of_iff' _ (Iff.of_eq (k1_chk46.eq_1 v408))
theorem k1_off92_inb : ∀ (v408 : BitVec 32) (k1_hw46 : k1_chk46 v408), ∀ a, (k1_off92 v408) a + S1x128.size a ≤ S16384x128.size a := fun v408 k1_hw46 => k1_hw46

def k1_off93 (i : grid1.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v415 : BitVec 32 := Scalar.addi v0 c46_i32
  let v416 : Index := Scalar.indexCast v415
  ![v416.toNat]
def k1_off94 (v417 : BitVec 32) : Fin 2 → Nat :=
  let c0_i32_187 : BitVec 32 := 0#32
  ![v417.toNat, 0]

def k1_chk47 (v417 : BitVec 32) : Prop :=
  (∀ a, (k1_off94 v417) a + S1x128.size a ≤ S16384x128.size a)
instance k1_chk47.dec : ∀ (v417 : BitVec 32), Decidable (k1_chk47 v417) := fun v417 => decidable_of_iff' _ (Iff.of_eq (k1_chk47.eq_1 v417))
theorem k1_off94_inb : ∀ (v417 : BitVec 32) (k1_hw47 : k1_chk47 v417), ∀ a, (k1_off94 v417) a + S1x128.size a ≤ S16384x128.size a := fun v417 k1_hw47 => k1_hw47

def k1_off95 (i : grid1.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v424 : BitVec 32 := Scalar.addi v0 c47_i32
  let v425 : Index := Scalar.indexCast v424
  ![v425.toNat]
def k1_off96 (v426 : BitVec 32) : Fin 2 → Nat :=
  let c0_i32_191 : BitVec 32 := 0#32
  ![v426.toNat, 0]

def k1_chk48 (v426 : BitVec 32) : Prop :=
  (∀ a, (k1_off96 v426) a + S1x128.size a ≤ S16384x128.size a)
instance k1_chk48.dec : ∀ (v426 : BitVec 32), Decidable (k1_chk48 v426) := fun v426 => decidable_of_iff' _ (Iff.of_eq (k1_chk48.eq_1 v426))
theorem k1_off96_inb : ∀ (v426 : BitVec 32) (k1_hw48 : k1_chk48 v426), ∀ a, (k1_off96 v426) a + S1x128.size a ≤ S16384x128.size a := fun v426 k1_hw48 => k1_hw48

def k1_off97 (i : grid1.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v433 : BitVec 32 := Scalar.addi v0 c48_i32
  let v434 : Index := Scalar.indexCast v433
  ![v434.toNat]
def k1_off98 (v435 : BitVec 32) : Fin 2 → Nat :=
  let c0_i32_195 : BitVec 32 := 0#32
  ![v435.toNat, 0]

def k1_chk49 (v435 : BitVec 32) : Prop :=
  (∀ a, (k1_off98 v435) a + S1x128.size a ≤ S16384x128.size a)
instance k1_chk49.dec : ∀ (v435 : BitVec 32), Decidable (k1_chk49 v435) := fun v435 => decidable_of_iff' _ (Iff.of_eq (k1_chk49.eq_1 v435))
theorem k1_off98_inb : ∀ (v435 : BitVec 32) (k1_hw49 : k1_chk49 v435), ∀ a, (k1_off98 v435) a + S1x128.size a ≤ S16384x128.size a := fun v435 k1_hw49 => k1_hw49

def k1_off99 (i : grid1.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v442 : BitVec 32 := Scalar.addi v0 c49_i32
  let v443 : Index := Scalar.indexCast v442
  ![v443.toNat]
def k1_off100 (v444 : BitVec 32) : Fin 2 → Nat :=
  let c0_i32_199 : BitVec 32 := 0#32
  ![v444.toNat, 0]

def k1_chk50 (v444 : BitVec 32) : Prop :=
  (∀ a, (k1_off100 v444) a + S1x128.size a ≤ S16384x128.size a)
instance k1_chk50.dec : ∀ (v444 : BitVec 32), Decidable (k1_chk50 v444) := fun v444 => decidable_of_iff' _ (Iff.of_eq (k1_chk50.eq_1 v444))
theorem k1_off100_inb : ∀ (v444 : BitVec 32) (k1_hw50 : k1_chk50 v444), ∀ a, (k1_off100 v444) a + S1x128.size a ≤ S16384x128.size a := fun v444 k1_hw50 => k1_hw50

def k1_off101 (i : grid1.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v451 : BitVec 32 := Scalar.addi v0 c50_i32
  let v452 : Index := Scalar.indexCast v451
  ![v452.toNat]
def k1_off102 (v453 : BitVec 32) : Fin 2 → Nat :=
  let c0_i32_203 : BitVec 32 := 0#32
  ![v453.toNat, 0]

def k1_chk51 (v453 : BitVec 32) : Prop :=
  (∀ a, (k1_off102 v453) a + S1x128.size a ≤ S16384x128.size a)
instance k1_chk51.dec : ∀ (v453 : BitVec 32), Decidable (k1_chk51 v453) := fun v453 => decidable_of_iff' _ (Iff.of_eq (k1_chk51.eq_1 v453))
theorem k1_off102_inb : ∀ (v453 : BitVec 32) (k1_hw51 : k1_chk51 v453), ∀ a, (k1_off102 v453) a + S1x128.size a ≤ S16384x128.size a := fun v453 k1_hw51 => k1_hw51

def k1_off103 (i : grid1.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v460 : BitVec 32 := Scalar.addi v0 c51_i32
  let v461 : Index := Scalar.indexCast v460
  ![v461.toNat]
def k1_off104 (v462 : BitVec 32) : Fin 2 → Nat :=
  let c0_i32_207 : BitVec 32 := 0#32
  ![v462.toNat, 0]

def k1_chk52 (v462 : BitVec 32) : Prop :=
  (∀ a, (k1_off104 v462) a + S1x128.size a ≤ S16384x128.size a)
instance k1_chk52.dec : ∀ (v462 : BitVec 32), Decidable (k1_chk52 v462) := fun v462 => decidable_of_iff' _ (Iff.of_eq (k1_chk52.eq_1 v462))
theorem k1_off104_inb : ∀ (v462 : BitVec 32) (k1_hw52 : k1_chk52 v462), ∀ a, (k1_off104 v462) a + S1x128.size a ≤ S16384x128.size a := fun v462 k1_hw52 => k1_hw52

def k1_off105 (i : grid1.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v469 : BitVec 32 := Scalar.addi v0 c52_i32
  let v470 : Index := Scalar.indexCast v469
  ![v470.toNat]
def k1_off106 (v471 : BitVec 32) : Fin 2 → Nat :=
  let c0_i32_211 : BitVec 32 := 0#32
  ![v471.toNat, 0]

def k1_chk53 (v471 : BitVec 32) : Prop :=
  (∀ a, (k1_off106 v471) a + S1x128.size a ≤ S16384x128.size a)
instance k1_chk53.dec : ∀ (v471 : BitVec 32), Decidable (k1_chk53 v471) := fun v471 => decidable_of_iff' _ (Iff.of_eq (k1_chk53.eq_1 v471))
theorem k1_off106_inb : ∀ (v471 : BitVec 32) (k1_hw53 : k1_chk53 v471), ∀ a, (k1_off106 v471) a + S1x128.size a ≤ S16384x128.size a := fun v471 k1_hw53 => k1_hw53

def k1_off107 (i : grid1.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v478 : BitVec 32 := Scalar.addi v0 c53_i32
  let v479 : Index := Scalar.indexCast v478
  ![v479.toNat]
def k1_off108 (v480 : BitVec 32) : Fin 2 → Nat :=
  let c0_i32_215 : BitVec 32 := 0#32
  ![v480.toNat, 0]

def k1_chk54 (v480 : BitVec 32) : Prop :=
  (∀ a, (k1_off108 v480) a + S1x128.size a ≤ S16384x128.size a)
instance k1_chk54.dec : ∀ (v480 : BitVec 32), Decidable (k1_chk54 v480) := fun v480 => decidable_of_iff' _ (Iff.of_eq (k1_chk54.eq_1 v480))
theorem k1_off108_inb : ∀ (v480 : BitVec 32) (k1_hw54 : k1_chk54 v480), ∀ a, (k1_off108 v480) a + S1x128.size a ≤ S16384x128.size a := fun v480 k1_hw54 => k1_hw54

def k1_off109 (i : grid1.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v487 : BitVec 32 := Scalar.addi v0 c54_i32
  let v488 : Index := Scalar.indexCast v487
  ![v488.toNat]
def k1_off110 (v489 : BitVec 32) : Fin 2 → Nat :=
  let c0_i32_219 : BitVec 32 := 0#32
  ![v489.toNat, 0]

def k1_chk55 (v489 : BitVec 32) : Prop :=
  (∀ a, (k1_off110 v489) a + S1x128.size a ≤ S16384x128.size a)
instance k1_chk55.dec : ∀ (v489 : BitVec 32), Decidable (k1_chk55 v489) := fun v489 => decidable_of_iff' _ (Iff.of_eq (k1_chk55.eq_1 v489))
theorem k1_off110_inb : ∀ (v489 : BitVec 32) (k1_hw55 : k1_chk55 v489), ∀ a, (k1_off110 v489) a + S1x128.size a ≤ S16384x128.size a := fun v489 k1_hw55 => k1_hw55

def k1_off111 (i : grid1.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v496 : BitVec 32 := Scalar.addi v0 c55_i32
  let v497 : Index := Scalar.indexCast v496
  ![v497.toNat]
def k1_off112 (v498 : BitVec 32) : Fin 2 → Nat :=
  let c0_i32_223 : BitVec 32 := 0#32
  ![v498.toNat, 0]

def k1_chk56 (v498 : BitVec 32) : Prop :=
  (∀ a, (k1_off112 v498) a + S1x128.size a ≤ S16384x128.size a)
instance k1_chk56.dec : ∀ (v498 : BitVec 32), Decidable (k1_chk56 v498) := fun v498 => decidable_of_iff' _ (Iff.of_eq (k1_chk56.eq_1 v498))
theorem k1_off112_inb : ∀ (v498 : BitVec 32) (k1_hw56 : k1_chk56 v498), ∀ a, (k1_off112 v498) a + S1x128.size a ≤ S16384x128.size a := fun v498 k1_hw56 => k1_hw56

def k1_off113 (i : grid1.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v505 : BitVec 32 := Scalar.addi v0 c56_i32
  let v506 : Index := Scalar.indexCast v505
  ![v506.toNat]
def k1_off114 (v507 : BitVec 32) : Fin 2 → Nat :=
  let c0_i32_227 : BitVec 32 := 0#32
  ![v507.toNat, 0]

def k1_chk57 (v507 : BitVec 32) : Prop :=
  (∀ a, (k1_off114 v507) a + S1x128.size a ≤ S16384x128.size a)
instance k1_chk57.dec : ∀ (v507 : BitVec 32), Decidable (k1_chk57 v507) := fun v507 => decidable_of_iff' _ (Iff.of_eq (k1_chk57.eq_1 v507))
theorem k1_off114_inb : ∀ (v507 : BitVec 32) (k1_hw57 : k1_chk57 v507), ∀ a, (k1_off114 v507) a + S1x128.size a ≤ S16384x128.size a := fun v507 k1_hw57 => k1_hw57

def k1_off115 (i : grid1.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v514 : BitVec 32 := Scalar.addi v0 c57_i32
  let v515 : Index := Scalar.indexCast v514
  ![v515.toNat]
def k1_off116 (v516 : BitVec 32) : Fin 2 → Nat :=
  let c0_i32_231 : BitVec 32 := 0#32
  ![v516.toNat, 0]

def k1_chk58 (v516 : BitVec 32) : Prop :=
  (∀ a, (k1_off116 v516) a + S1x128.size a ≤ S16384x128.size a)
instance k1_chk58.dec : ∀ (v516 : BitVec 32), Decidable (k1_chk58 v516) := fun v516 => decidable_of_iff' _ (Iff.of_eq (k1_chk58.eq_1 v516))
theorem k1_off116_inb : ∀ (v516 : BitVec 32) (k1_hw58 : k1_chk58 v516), ∀ a, (k1_off116 v516) a + S1x128.size a ≤ S16384x128.size a := fun v516 k1_hw58 => k1_hw58

def k1_off117 (i : grid1.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v523 : BitVec 32 := Scalar.addi v0 c58_i32
  let v524 : Index := Scalar.indexCast v523
  ![v524.toNat]
def k1_off118 (v525 : BitVec 32) : Fin 2 → Nat :=
  let c0_i32_235 : BitVec 32 := 0#32
  ![v525.toNat, 0]

def k1_chk59 (v525 : BitVec 32) : Prop :=
  (∀ a, (k1_off118 v525) a + S1x128.size a ≤ S16384x128.size a)
instance k1_chk59.dec : ∀ (v525 : BitVec 32), Decidable (k1_chk59 v525) := fun v525 => decidable_of_iff' _ (Iff.of_eq (k1_chk59.eq_1 v525))
theorem k1_off118_inb : ∀ (v525 : BitVec 32) (k1_hw59 : k1_chk59 v525), ∀ a, (k1_off118 v525) a + S1x128.size a ≤ S16384x128.size a := fun v525 k1_hw59 => k1_hw59

def k1_off119 (i : grid1.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v532 : BitVec 32 := Scalar.addi v0 c59_i32
  let v533 : Index := Scalar.indexCast v532
  ![v533.toNat]
def k1_off120 (v534 : BitVec 32) : Fin 2 → Nat :=
  let c0_i32_239 : BitVec 32 := 0#32
  ![v534.toNat, 0]

def k1_chk60 (v534 : BitVec 32) : Prop :=
  (∀ a, (k1_off120 v534) a + S1x128.size a ≤ S16384x128.size a)
instance k1_chk60.dec : ∀ (v534 : BitVec 32), Decidable (k1_chk60 v534) := fun v534 => decidable_of_iff' _ (Iff.of_eq (k1_chk60.eq_1 v534))
theorem k1_off120_inb : ∀ (v534 : BitVec 32) (k1_hw60 : k1_chk60 v534), ∀ a, (k1_off120 v534) a + S1x128.size a ≤ S16384x128.size a := fun v534 k1_hw60 => k1_hw60

def k1_off121 (i : grid1.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v541 : BitVec 32 := Scalar.addi v0 c60_i32
  let v542 : Index := Scalar.indexCast v541
  ![v542.toNat]
def k1_off122 (v543 : BitVec 32) : Fin 2 → Nat :=
  let c0_i32_243 : BitVec 32 := 0#32
  ![v543.toNat, 0]

def k1_chk61 (v543 : BitVec 32) : Prop :=
  (∀ a, (k1_off122 v543) a + S1x128.size a ≤ S16384x128.size a)
instance k1_chk61.dec : ∀ (v543 : BitVec 32), Decidable (k1_chk61 v543) := fun v543 => decidable_of_iff' _ (Iff.of_eq (k1_chk61.eq_1 v543))
theorem k1_off122_inb : ∀ (v543 : BitVec 32) (k1_hw61 : k1_chk61 v543), ∀ a, (k1_off122 v543) a + S1x128.size a ≤ S16384x128.size a := fun v543 k1_hw61 => k1_hw61

def k1_off123 (i : grid1.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v550 : BitVec 32 := Scalar.addi v0 c61_i32
  let v551 : Index := Scalar.indexCast v550
  ![v551.toNat]
def k1_off124 (v552 : BitVec 32) : Fin 2 → Nat :=
  let c0_i32_247 : BitVec 32 := 0#32
  ![v552.toNat, 0]

def k1_chk62 (v552 : BitVec 32) : Prop :=
  (∀ a, (k1_off124 v552) a + S1x128.size a ≤ S16384x128.size a)
instance k1_chk62.dec : ∀ (v552 : BitVec 32), Decidable (k1_chk62 v552) := fun v552 => decidable_of_iff' _ (Iff.of_eq (k1_chk62.eq_1 v552))
theorem k1_off124_inb : ∀ (v552 : BitVec 32) (k1_hw62 : k1_chk62 v552), ∀ a, (k1_off124 v552) a + S1x128.size a ≤ S16384x128.size a := fun v552 k1_hw62 => k1_hw62

def k1_off125 (i : grid1.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v559 : BitVec 32 := Scalar.addi v0 c62_i32
  let v560 : Index := Scalar.indexCast v559
  ![v560.toNat]
def k1_off126 (v561 : BitVec 32) : Fin 2 → Nat :=
  let c0_i32_251 : BitVec 32 := 0#32
  ![v561.toNat, 0]

def k1_chk63 (v561 : BitVec 32) : Prop :=
  (∀ a, (k1_off126 v561) a + S1x128.size a ≤ S16384x128.size a)
instance k1_chk63.dec : ∀ (v561 : BitVec 32), Decidable (k1_chk63 v561) := fun v561 => decidable_of_iff' _ (Iff.of_eq (k1_chk63.eq_1 v561))
theorem k1_off126_inb : ∀ (v561 : BitVec 32) (k1_hw63 : k1_chk63 v561), ∀ a, (k1_off126 v561) a + S1x128.size a ≤ S16384x128.size a := fun v561 k1_hw63 => k1_hw63

def k1_off127 (i : grid1.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v568 : BitVec 32 := Scalar.addi v0 c63_i32
  let v569 : Index := Scalar.indexCast v568
  ![v569.toNat]
def k1_off128 (v570 : BitVec 32) : Fin 2 → Nat :=
  let c0_i32_255 : BitVec 32 := 0#32
  ![v570.toNat, 0]

def k1_chk64 (v570 : BitVec 32) : Prop :=
  (∀ a, (k1_off128 v570) a + S1x128.size a ≤ S16384x128.size a)
instance k1_chk64.dec : ∀ (v570 : BitVec 32), Decidable (k1_chk64 v570) := fun v570 => decidable_of_iff' _ (Iff.of_eq (k1_chk64.eq_1 v570))
theorem k1_off128_inb : ∀ (v570 : BitVec 32) (k1_hw64 : k1_chk64 v570), ∀ a, (k1_off128 v570) a + S1x128.size a ≤ S16384x128.size a := fun v570 k1_hw64 => k1_hw64

def k1_off129 (i : grid1.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v577 : BitVec 32 := Scalar.addi v0 c64_i32
  let v578 : Index := Scalar.indexCast v577
  ![v578.toNat]
def k1_off130 (v579 : BitVec 32) : Fin 2 → Nat :=
  let c0_i32_259 : BitVec 32 := 0#32
  ![v579.toNat, 0]

def k1_chk65 (v579 : BitVec 32) : Prop :=
  (∀ a, (k1_off130 v579) a + S1x128.size a ≤ S16384x128.size a)
instance k1_chk65.dec : ∀ (v579 : BitVec 32), Decidable (k1_chk65 v579) := fun v579 => decidable_of_iff' _ (Iff.of_eq (k1_chk65.eq_1 v579))
theorem k1_off130_inb : ∀ (v579 : BitVec 32) (k1_hw65 : k1_chk65 v579), ∀ a, (k1_off130 v579) a + S1x128.size a ≤ S16384x128.size a := fun v579 k1_hw65 => k1_hw65

def k1_off131 (i : grid1.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v586 : BitVec 32 := Scalar.addi v0 c65_i32
  let v587 : Index := Scalar.indexCast v586
  ![v587.toNat]
def k1_off132 (v588 : BitVec 32) : Fin 2 → Nat :=
  let c0_i32_263 : BitVec 32 := 0#32
  ![v588.toNat, 0]

def k1_chk66 (v588 : BitVec 32) : Prop :=
  (∀ a, (k1_off132 v588) a + S1x128.size a ≤ S16384x128.size a)
instance k1_chk66.dec : ∀ (v588 : BitVec 32), Decidable (k1_chk66 v588) := fun v588 => decidable_of_iff' _ (Iff.of_eq (k1_chk66.eq_1 v588))
theorem k1_off132_inb : ∀ (v588 : BitVec 32) (k1_hw66 : k1_chk66 v588), ∀ a, (k1_off132 v588) a + S1x128.size a ≤ S16384x128.size a := fun v588 k1_hw66 => k1_hw66

def k1_off133 (i : grid1.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v595 : BitVec 32 := Scalar.addi v0 c66_i32
  let v596 : Index := Scalar.indexCast v595
  ![v596.toNat]
def k1_off134 (v597 : BitVec 32) : Fin 2 → Nat :=
  let c0_i32_267 : BitVec 32 := 0#32
  ![v597.toNat, 0]

def k1_chk67 (v597 : BitVec 32) : Prop :=
  (∀ a, (k1_off134 v597) a + S1x128.size a ≤ S16384x128.size a)
instance k1_chk67.dec : ∀ (v597 : BitVec 32), Decidable (k1_chk67 v597) := fun v597 => decidable_of_iff' _ (Iff.of_eq (k1_chk67.eq_1 v597))
theorem k1_off134_inb : ∀ (v597 : BitVec 32) (k1_hw67 : k1_chk67 v597), ∀ a, (k1_off134 v597) a + S1x128.size a ≤ S16384x128.size a := fun v597 k1_hw67 => k1_hw67

def k1_off135 (i : grid1.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v604 : BitVec 32 := Scalar.addi v0 c67_i32
  let v605 : Index := Scalar.indexCast v604
  ![v605.toNat]
def k1_off136 (v606 : BitVec 32) : Fin 2 → Nat :=
  let c0_i32_271 : BitVec 32 := 0#32
  ![v606.toNat, 0]

def k1_chk68 (v606 : BitVec 32) : Prop :=
  (∀ a, (k1_off136 v606) a + S1x128.size a ≤ S16384x128.size a)
instance k1_chk68.dec : ∀ (v606 : BitVec 32), Decidable (k1_chk68 v606) := fun v606 => decidable_of_iff' _ (Iff.of_eq (k1_chk68.eq_1 v606))
theorem k1_off136_inb : ∀ (v606 : BitVec 32) (k1_hw68 : k1_chk68 v606), ∀ a, (k1_off136 v606) a + S1x128.size a ≤ S16384x128.size a := fun v606 k1_hw68 => k1_hw68

def k1_off137 (i : grid1.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v613 : BitVec 32 := Scalar.addi v0 c68_i32
  let v614 : Index := Scalar.indexCast v613
  ![v614.toNat]
def k1_off138 (v615 : BitVec 32) : Fin 2 → Nat :=
  let c0_i32_275 : BitVec 32 := 0#32
  ![v615.toNat, 0]

def k1_chk69 (v615 : BitVec 32) : Prop :=
  (∀ a, (k1_off138 v615) a + S1x128.size a ≤ S16384x128.size a)
instance k1_chk69.dec : ∀ (v615 : BitVec 32), Decidable (k1_chk69 v615) := fun v615 => decidable_of_iff' _ (Iff.of_eq (k1_chk69.eq_1 v615))
theorem k1_off138_inb : ∀ (v615 : BitVec 32) (k1_hw69 : k1_chk69 v615), ∀ a, (k1_off138 v615) a + S1x128.size a ≤ S16384x128.size a := fun v615 k1_hw69 => k1_hw69

def k1_off139 (i : grid1.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v622 : BitVec 32 := Scalar.addi v0 c69_i32
  let v623 : Index := Scalar.indexCast v622
  ![v623.toNat]
def k1_off140 (v624 : BitVec 32) : Fin 2 → Nat :=
  let c0_i32_279 : BitVec 32 := 0#32
  ![v624.toNat, 0]

def k1_chk70 (v624 : BitVec 32) : Prop :=
  (∀ a, (k1_off140 v624) a + S1x128.size a ≤ S16384x128.size a)
instance k1_chk70.dec : ∀ (v624 : BitVec 32), Decidable (k1_chk70 v624) := fun v624 => decidable_of_iff' _ (Iff.of_eq (k1_chk70.eq_1 v624))
theorem k1_off140_inb : ∀ (v624 : BitVec 32) (k1_hw70 : k1_chk70 v624), ∀ a, (k1_off140 v624) a + S1x128.size a ≤ S16384x128.size a := fun v624 k1_hw70 => k1_hw70

def k1_off141 (i : grid1.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v631 : BitVec 32 := Scalar.addi v0 c70_i32
  let v632 : Index := Scalar.indexCast v631
  ![v632.toNat]
def k1_off142 (v633 : BitVec 32) : Fin 2 → Nat :=
  let c0_i32_283 : BitVec 32 := 0#32
  ![v633.toNat, 0]

def k1_chk71 (v633 : BitVec 32) : Prop :=
  (∀ a, (k1_off142 v633) a + S1x128.size a ≤ S16384x128.size a)
instance k1_chk71.dec : ∀ (v633 : BitVec 32), Decidable (k1_chk71 v633) := fun v633 => decidable_of_iff' _ (Iff.of_eq (k1_chk71.eq_1 v633))
theorem k1_off142_inb : ∀ (v633 : BitVec 32) (k1_hw71 : k1_chk71 v633), ∀ a, (k1_off142 v633) a + S1x128.size a ≤ S16384x128.size a := fun v633 k1_hw71 => k1_hw71

def k1_off143 (i : grid1.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v640 : BitVec 32 := Scalar.addi v0 c71_i32
  let v641 : Index := Scalar.indexCast v640
  ![v641.toNat]
def k1_off144 (v642 : BitVec 32) : Fin 2 → Nat :=
  let c0_i32_287 : BitVec 32 := 0#32
  ![v642.toNat, 0]

def k1_chk72 (v642 : BitVec 32) : Prop :=
  (∀ a, (k1_off144 v642) a + S1x128.size a ≤ S16384x128.size a)
instance k1_chk72.dec : ∀ (v642 : BitVec 32), Decidable (k1_chk72 v642) := fun v642 => decidable_of_iff' _ (Iff.of_eq (k1_chk72.eq_1 v642))
theorem k1_off144_inb : ∀ (v642 : BitVec 32) (k1_hw72 : k1_chk72 v642), ∀ a, (k1_off144 v642) a + S1x128.size a ≤ S16384x128.size a := fun v642 k1_hw72 => k1_hw72

def k1_off145 (i : grid1.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v649 : BitVec 32 := Scalar.addi v0 c72_i32
  let v650 : Index := Scalar.indexCast v649
  ![v650.toNat]
def k1_off146 (v651 : BitVec 32) : Fin 2 → Nat :=
  let c0_i32_291 : BitVec 32 := 0#32
  ![v651.toNat, 0]

def k1_chk73 (v651 : BitVec 32) : Prop :=
  (∀ a, (k1_off146 v651) a + S1x128.size a ≤ S16384x128.size a)
instance k1_chk73.dec : ∀ (v651 : BitVec 32), Decidable (k1_chk73 v651) := fun v651 => decidable_of_iff' _ (Iff.of_eq (k1_chk73.eq_1 v651))
theorem k1_off146_inb : ∀ (v651 : BitVec 32) (k1_hw73 : k1_chk73 v651), ∀ a, (k1_off146 v651) a + S1x128.size a ≤ S16384x128.size a := fun v651 k1_hw73 => k1_hw73

def k1_off147 (i : grid1.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v658 : BitVec 32 := Scalar.addi v0 c73_i32
  let v659 : Index := Scalar.indexCast v658
  ![v659.toNat]
def k1_off148 (v660 : BitVec 32) : Fin 2 → Nat :=
  let c0_i32_295 : BitVec 32 := 0#32
  ![v660.toNat, 0]

def k1_chk74 (v660 : BitVec 32) : Prop :=
  (∀ a, (k1_off148 v660) a + S1x128.size a ≤ S16384x128.size a)
instance k1_chk74.dec : ∀ (v660 : BitVec 32), Decidable (k1_chk74 v660) := fun v660 => decidable_of_iff' _ (Iff.of_eq (k1_chk74.eq_1 v660))
theorem k1_off148_inb : ∀ (v660 : BitVec 32) (k1_hw74 : k1_chk74 v660), ∀ a, (k1_off148 v660) a + S1x128.size a ≤ S16384x128.size a := fun v660 k1_hw74 => k1_hw74

def k1_off149 (i : grid1.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v667 : BitVec 32 := Scalar.addi v0 c74_i32
  let v668 : Index := Scalar.indexCast v667
  ![v668.toNat]
def k1_off150 (v669 : BitVec 32) : Fin 2 → Nat :=
  let c0_i32_299 : BitVec 32 := 0#32
  ![v669.toNat, 0]

def k1_chk75 (v669 : BitVec 32) : Prop :=
  (∀ a, (k1_off150 v669) a + S1x128.size a ≤ S16384x128.size a)
instance k1_chk75.dec : ∀ (v669 : BitVec 32), Decidable (k1_chk75 v669) := fun v669 => decidable_of_iff' _ (Iff.of_eq (k1_chk75.eq_1 v669))
theorem k1_off150_inb : ∀ (v669 : BitVec 32) (k1_hw75 : k1_chk75 v669), ∀ a, (k1_off150 v669) a + S1x128.size a ≤ S16384x128.size a := fun v669 k1_hw75 => k1_hw75

def k1_off151 (i : grid1.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v676 : BitVec 32 := Scalar.addi v0 c75_i32
  let v677 : Index := Scalar.indexCast v676
  ![v677.toNat]
def k1_off152 (v678 : BitVec 32) : Fin 2 → Nat :=
  let c0_i32_303 : BitVec 32 := 0#32
  ![v678.toNat, 0]

def k1_chk76 (v678 : BitVec 32) : Prop :=
  (∀ a, (k1_off152 v678) a + S1x128.size a ≤ S16384x128.size a)
instance k1_chk76.dec : ∀ (v678 : BitVec 32), Decidable (k1_chk76 v678) := fun v678 => decidable_of_iff' _ (Iff.of_eq (k1_chk76.eq_1 v678))
theorem k1_off152_inb : ∀ (v678 : BitVec 32) (k1_hw76 : k1_chk76 v678), ∀ a, (k1_off152 v678) a + S1x128.size a ≤ S16384x128.size a := fun v678 k1_hw76 => k1_hw76

def k1_off153 (i : grid1.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v685 : BitVec 32 := Scalar.addi v0 c76_i32
  let v686 : Index := Scalar.indexCast v685
  ![v686.toNat]
def k1_off154 (v687 : BitVec 32) : Fin 2 → Nat :=
  let c0_i32_307 : BitVec 32 := 0#32
  ![v687.toNat, 0]

def k1_chk77 (v687 : BitVec 32) : Prop :=
  (∀ a, (k1_off154 v687) a + S1x128.size a ≤ S16384x128.size a)
instance k1_chk77.dec : ∀ (v687 : BitVec 32), Decidable (k1_chk77 v687) := fun v687 => decidable_of_iff' _ (Iff.of_eq (k1_chk77.eq_1 v687))
theorem k1_off154_inb : ∀ (v687 : BitVec 32) (k1_hw77 : k1_chk77 v687), ∀ a, (k1_off154 v687) a + S1x128.size a ≤ S16384x128.size a := fun v687 k1_hw77 => k1_hw77

def k1_off155 (i : grid1.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v694 : BitVec 32 := Scalar.addi v0 c77_i32
  let v695 : Index := Scalar.indexCast v694
  ![v695.toNat]
def k1_off156 (v696 : BitVec 32) : Fin 2 → Nat :=
  let c0_i32_311 : BitVec 32 := 0#32
  ![v696.toNat, 0]

def k1_chk78 (v696 : BitVec 32) : Prop :=
  (∀ a, (k1_off156 v696) a + S1x128.size a ≤ S16384x128.size a)
instance k1_chk78.dec : ∀ (v696 : BitVec 32), Decidable (k1_chk78 v696) := fun v696 => decidable_of_iff' _ (Iff.of_eq (k1_chk78.eq_1 v696))
theorem k1_off156_inb : ∀ (v696 : BitVec 32) (k1_hw78 : k1_chk78 v696), ∀ a, (k1_off156 v696) a + S1x128.size a ≤ S16384x128.size a := fun v696 k1_hw78 => k1_hw78

def k1_off157 (i : grid1.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v703 : BitVec 32 := Scalar.addi v0 c78_i32
  let v704 : Index := Scalar.indexCast v703
  ![v704.toNat]
def k1_off158 (v705 : BitVec 32) : Fin 2 → Nat :=
  let c0_i32_315 : BitVec 32 := 0#32
  ![v705.toNat, 0]

def k1_chk79 (v705 : BitVec 32) : Prop :=
  (∀ a, (k1_off158 v705) a + S1x128.size a ≤ S16384x128.size a)
instance k1_chk79.dec : ∀ (v705 : BitVec 32), Decidable (k1_chk79 v705) := fun v705 => decidable_of_iff' _ (Iff.of_eq (k1_chk79.eq_1 v705))
theorem k1_off158_inb : ∀ (v705 : BitVec 32) (k1_hw79 : k1_chk79 v705), ∀ a, (k1_off158 v705) a + S1x128.size a ≤ S16384x128.size a := fun v705 k1_hw79 => k1_hw79

def k1_off159 (i : grid1.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v712 : BitVec 32 := Scalar.addi v0 c79_i32
  let v713 : Index := Scalar.indexCast v712
  ![v713.toNat]
def k1_off160 (v714 : BitVec 32) : Fin 2 → Nat :=
  let c0_i32_319 : BitVec 32 := 0#32
  ![v714.toNat, 0]

def k1_chk80 (v714 : BitVec 32) : Prop :=
  (∀ a, (k1_off160 v714) a + S1x128.size a ≤ S16384x128.size a)
instance k1_chk80.dec : ∀ (v714 : BitVec 32), Decidable (k1_chk80 v714) := fun v714 => decidable_of_iff' _ (Iff.of_eq (k1_chk80.eq_1 v714))
theorem k1_off160_inb : ∀ (v714 : BitVec 32) (k1_hw80 : k1_chk80 v714), ∀ a, (k1_off160 v714) a + S1x128.size a ≤ S16384x128.size a := fun v714 k1_hw80 => k1_hw80

def k1_off161 (i : grid1.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v721 : BitVec 32 := Scalar.addi v0 c80_i32
  let v722 : Index := Scalar.indexCast v721
  ![v722.toNat]
def k1_off162 (v723 : BitVec 32) : Fin 2 → Nat :=
  let c0_i32_323 : BitVec 32 := 0#32
  ![v723.toNat, 0]

def k1_chk81 (v723 : BitVec 32) : Prop :=
  (∀ a, (k1_off162 v723) a + S1x128.size a ≤ S16384x128.size a)
instance k1_chk81.dec : ∀ (v723 : BitVec 32), Decidable (k1_chk81 v723) := fun v723 => decidable_of_iff' _ (Iff.of_eq (k1_chk81.eq_1 v723))
theorem k1_off162_inb : ∀ (v723 : BitVec 32) (k1_hw81 : k1_chk81 v723), ∀ a, (k1_off162 v723) a + S1x128.size a ≤ S16384x128.size a := fun v723 k1_hw81 => k1_hw81

def k1_off163 (i : grid1.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v730 : BitVec 32 := Scalar.addi v0 c81_i32
  let v731 : Index := Scalar.indexCast v730
  ![v731.toNat]
def k1_off164 (v732 : BitVec 32) : Fin 2 → Nat :=
  let c0_i32_327 : BitVec 32 := 0#32
  ![v732.toNat, 0]

def k1_chk82 (v732 : BitVec 32) : Prop :=
  (∀ a, (k1_off164 v732) a + S1x128.size a ≤ S16384x128.size a)
instance k1_chk82.dec : ∀ (v732 : BitVec 32), Decidable (k1_chk82 v732) := fun v732 => decidable_of_iff' _ (Iff.of_eq (k1_chk82.eq_1 v732))
theorem k1_off164_inb : ∀ (v732 : BitVec 32) (k1_hw82 : k1_chk82 v732), ∀ a, (k1_off164 v732) a + S1x128.size a ≤ S16384x128.size a := fun v732 k1_hw82 => k1_hw82

def k1_off165 (i : grid1.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v739 : BitVec 32 := Scalar.addi v0 c82_i32
  let v740 : Index := Scalar.indexCast v739
  ![v740.toNat]
def k1_off166 (v741 : BitVec 32) : Fin 2 → Nat :=
  let c0_i32_331 : BitVec 32 := 0#32
  ![v741.toNat, 0]

def k1_chk83 (v741 : BitVec 32) : Prop :=
  (∀ a, (k1_off166 v741) a + S1x128.size a ≤ S16384x128.size a)
instance k1_chk83.dec : ∀ (v741 : BitVec 32), Decidable (k1_chk83 v741) := fun v741 => decidable_of_iff' _ (Iff.of_eq (k1_chk83.eq_1 v741))
theorem k1_off166_inb : ∀ (v741 : BitVec 32) (k1_hw83 : k1_chk83 v741), ∀ a, (k1_off166 v741) a + S1x128.size a ≤ S16384x128.size a := fun v741 k1_hw83 => k1_hw83

def k1_off167 (i : grid1.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v748 : BitVec 32 := Scalar.addi v0 c83_i32
  let v749 : Index := Scalar.indexCast v748
  ![v749.toNat]
def k1_off168 (v750 : BitVec 32) : Fin 2 → Nat :=
  let c0_i32_335 : BitVec 32 := 0#32
  ![v750.toNat, 0]

def k1_chk84 (v750 : BitVec 32) : Prop :=
  (∀ a, (k1_off168 v750) a + S1x128.size a ≤ S16384x128.size a)
instance k1_chk84.dec : ∀ (v750 : BitVec 32), Decidable (k1_chk84 v750) := fun v750 => decidable_of_iff' _ (Iff.of_eq (k1_chk84.eq_1 v750))
theorem k1_off168_inb : ∀ (v750 : BitVec 32) (k1_hw84 : k1_chk84 v750), ∀ a, (k1_off168 v750) a + S1x128.size a ≤ S16384x128.size a := fun v750 k1_hw84 => k1_hw84

def k1_off169 (i : grid1.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v757 : BitVec 32 := Scalar.addi v0 c84_i32
  let v758 : Index := Scalar.indexCast v757
  ![v758.toNat]
def k1_off170 (v759 : BitVec 32) : Fin 2 → Nat :=
  let c0_i32_339 : BitVec 32 := 0#32
  ![v759.toNat, 0]

def k1_chk85 (v759 : BitVec 32) : Prop :=
  (∀ a, (k1_off170 v759) a + S1x128.size a ≤ S16384x128.size a)
instance k1_chk85.dec : ∀ (v759 : BitVec 32), Decidable (k1_chk85 v759) := fun v759 => decidable_of_iff' _ (Iff.of_eq (k1_chk85.eq_1 v759))
theorem k1_off170_inb : ∀ (v759 : BitVec 32) (k1_hw85 : k1_chk85 v759), ∀ a, (k1_off170 v759) a + S1x128.size a ≤ S16384x128.size a := fun v759 k1_hw85 => k1_hw85

def k1_off171 (i : grid1.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v766 : BitVec 32 := Scalar.addi v0 c85_i32
  let v767 : Index := Scalar.indexCast v766
  ![v767.toNat]
def k1_off172 (v768 : BitVec 32) : Fin 2 → Nat :=
  let c0_i32_343 : BitVec 32 := 0#32
  ![v768.toNat, 0]

def k1_chk86 (v768 : BitVec 32) : Prop :=
  (∀ a, (k1_off172 v768) a + S1x128.size a ≤ S16384x128.size a)
instance k1_chk86.dec : ∀ (v768 : BitVec 32), Decidable (k1_chk86 v768) := fun v768 => decidable_of_iff' _ (Iff.of_eq (k1_chk86.eq_1 v768))
theorem k1_off172_inb : ∀ (v768 : BitVec 32) (k1_hw86 : k1_chk86 v768), ∀ a, (k1_off172 v768) a + S1x128.size a ≤ S16384x128.size a := fun v768 k1_hw86 => k1_hw86

def k1_off173 (i : grid1.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v775 : BitVec 32 := Scalar.addi v0 c86_i32
  let v776 : Index := Scalar.indexCast v775
  ![v776.toNat]
def k1_off174 (v777 : BitVec 32) : Fin 2 → Nat :=
  let c0_i32_347 : BitVec 32 := 0#32
  ![v777.toNat, 0]

def k1_chk87 (v777 : BitVec 32) : Prop :=
  (∀ a, (k1_off174 v777) a + S1x128.size a ≤ S16384x128.size a)
instance k1_chk87.dec : ∀ (v777 : BitVec 32), Decidable (k1_chk87 v777) := fun v777 => decidable_of_iff' _ (Iff.of_eq (k1_chk87.eq_1 v777))
theorem k1_off174_inb : ∀ (v777 : BitVec 32) (k1_hw87 : k1_chk87 v777), ∀ a, (k1_off174 v777) a + S1x128.size a ≤ S16384x128.size a := fun v777 k1_hw87 => k1_hw87

def k1_off175 (i : grid1.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v784 : BitVec 32 := Scalar.addi v0 c87_i32
  let v785 : Index := Scalar.indexCast v784
  ![v785.toNat]
def k1_off176 (v786 : BitVec 32) : Fin 2 → Nat :=
  let c0_i32_351 : BitVec 32 := 0#32
  ![v786.toNat, 0]

def k1_chk88 (v786 : BitVec 32) : Prop :=
  (∀ a, (k1_off176 v786) a + S1x128.size a ≤ S16384x128.size a)
instance k1_chk88.dec : ∀ (v786 : BitVec 32), Decidable (k1_chk88 v786) := fun v786 => decidable_of_iff' _ (Iff.of_eq (k1_chk88.eq_1 v786))
theorem k1_off176_inb : ∀ (v786 : BitVec 32) (k1_hw88 : k1_chk88 v786), ∀ a, (k1_off176 v786) a + S1x128.size a ≤ S16384x128.size a := fun v786 k1_hw88 => k1_hw88

def k1_off177 (i : grid1.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v793 : BitVec 32 := Scalar.addi v0 c88_i32
  let v794 : Index := Scalar.indexCast v793
  ![v794.toNat]
def k1_off178 (v795 : BitVec 32) : Fin 2 → Nat :=
  let c0_i32_355 : BitVec 32 := 0#32
  ![v795.toNat, 0]

def k1_chk89 (v795 : BitVec 32) : Prop :=
  (∀ a, (k1_off178 v795) a + S1x128.size a ≤ S16384x128.size a)
instance k1_chk89.dec : ∀ (v795 : BitVec 32), Decidable (k1_chk89 v795) := fun v795 => decidable_of_iff' _ (Iff.of_eq (k1_chk89.eq_1 v795))
theorem k1_off178_inb : ∀ (v795 : BitVec 32) (k1_hw89 : k1_chk89 v795), ∀ a, (k1_off178 v795) a + S1x128.size a ≤ S16384x128.size a := fun v795 k1_hw89 => k1_hw89

def k1_off179 (i : grid1.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v802 : BitVec 32 := Scalar.addi v0 c89_i32
  let v803 : Index := Scalar.indexCast v802
  ![v803.toNat]
def k1_off180 (v804 : BitVec 32) : Fin 2 → Nat :=
  let c0_i32_359 : BitVec 32 := 0#32
  ![v804.toNat, 0]

def k1_chk90 (v804 : BitVec 32) : Prop :=
  (∀ a, (k1_off180 v804) a + S1x128.size a ≤ S16384x128.size a)
instance k1_chk90.dec : ∀ (v804 : BitVec 32), Decidable (k1_chk90 v804) := fun v804 => decidable_of_iff' _ (Iff.of_eq (k1_chk90.eq_1 v804))
theorem k1_off180_inb : ∀ (v804 : BitVec 32) (k1_hw90 : k1_chk90 v804), ∀ a, (k1_off180 v804) a + S1x128.size a ≤ S16384x128.size a := fun v804 k1_hw90 => k1_hw90

def k1_off181 (i : grid1.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v811 : BitVec 32 := Scalar.addi v0 c90_i32
  let v812 : Index := Scalar.indexCast v811
  ![v812.toNat]
def k1_off182 (v813 : BitVec 32) : Fin 2 → Nat :=
  let c0_i32_363 : BitVec 32 := 0#32
  ![v813.toNat, 0]

def k1_chk91 (v813 : BitVec 32) : Prop :=
  (∀ a, (k1_off182 v813) a + S1x128.size a ≤ S16384x128.size a)
instance k1_chk91.dec : ∀ (v813 : BitVec 32), Decidable (k1_chk91 v813) := fun v813 => decidable_of_iff' _ (Iff.of_eq (k1_chk91.eq_1 v813))
theorem k1_off182_inb : ∀ (v813 : BitVec 32) (k1_hw91 : k1_chk91 v813), ∀ a, (k1_off182 v813) a + S1x128.size a ≤ S16384x128.size a := fun v813 k1_hw91 => k1_hw91

def k1_off183 (i : grid1.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v820 : BitVec 32 := Scalar.addi v0 c91_i32
  let v821 : Index := Scalar.indexCast v820
  ![v821.toNat]
def k1_off184 (v822 : BitVec 32) : Fin 2 → Nat :=
  let c0_i32_367 : BitVec 32 := 0#32
  ![v822.toNat, 0]

def k1_chk92 (v822 : BitVec 32) : Prop :=
  (∀ a, (k1_off184 v822) a + S1x128.size a ≤ S16384x128.size a)
instance k1_chk92.dec : ∀ (v822 : BitVec 32), Decidable (k1_chk92 v822) := fun v822 => decidable_of_iff' _ (Iff.of_eq (k1_chk92.eq_1 v822))
theorem k1_off184_inb : ∀ (v822 : BitVec 32) (k1_hw92 : k1_chk92 v822), ∀ a, (k1_off184 v822) a + S1x128.size a ≤ S16384x128.size a := fun v822 k1_hw92 => k1_hw92

def k1_off185 (i : grid1.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v829 : BitVec 32 := Scalar.addi v0 c92_i32
  let v830 : Index := Scalar.indexCast v829
  ![v830.toNat]
def k1_off186 (v831 : BitVec 32) : Fin 2 → Nat :=
  let c0_i32_371 : BitVec 32 := 0#32
  ![v831.toNat, 0]

def k1_chk93 (v831 : BitVec 32) : Prop :=
  (∀ a, (k1_off186 v831) a + S1x128.size a ≤ S16384x128.size a)
instance k1_chk93.dec : ∀ (v831 : BitVec 32), Decidable (k1_chk93 v831) := fun v831 => decidable_of_iff' _ (Iff.of_eq (k1_chk93.eq_1 v831))
theorem k1_off186_inb : ∀ (v831 : BitVec 32) (k1_hw93 : k1_chk93 v831), ∀ a, (k1_off186 v831) a + S1x128.size a ≤ S16384x128.size a := fun v831 k1_hw93 => k1_hw93

def k1_off187 (i : grid1.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v838 : BitVec 32 := Scalar.addi v0 c93_i32
  let v839 : Index := Scalar.indexCast v838
  ![v839.toNat]
def k1_off188 (v840 : BitVec 32) : Fin 2 → Nat :=
  let c0_i32_375 : BitVec 32 := 0#32
  ![v840.toNat, 0]

def k1_chk94 (v840 : BitVec 32) : Prop :=
  (∀ a, (k1_off188 v840) a + S1x128.size a ≤ S16384x128.size a)
instance k1_chk94.dec : ∀ (v840 : BitVec 32), Decidable (k1_chk94 v840) := fun v840 => decidable_of_iff' _ (Iff.of_eq (k1_chk94.eq_1 v840))
theorem k1_off188_inb : ∀ (v840 : BitVec 32) (k1_hw94 : k1_chk94 v840), ∀ a, (k1_off188 v840) a + S1x128.size a ≤ S16384x128.size a := fun v840 k1_hw94 => k1_hw94

def k1_off189 (i : grid1.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v847 : BitVec 32 := Scalar.addi v0 c94_i32
  let v848 : Index := Scalar.indexCast v847
  ![v848.toNat]
def k1_off190 (v849 : BitVec 32) : Fin 2 → Nat :=
  let c0_i32_379 : BitVec 32 := 0#32
  ![v849.toNat, 0]

def k1_chk95 (v849 : BitVec 32) : Prop :=
  (∀ a, (k1_off190 v849) a + S1x128.size a ≤ S16384x128.size a)
instance k1_chk95.dec : ∀ (v849 : BitVec 32), Decidable (k1_chk95 v849) := fun v849 => decidable_of_iff' _ (Iff.of_eq (k1_chk95.eq_1 v849))
theorem k1_off190_inb : ∀ (v849 : BitVec 32) (k1_hw95 : k1_chk95 v849), ∀ a, (k1_off190 v849) a + S1x128.size a ≤ S16384x128.size a := fun v849 k1_hw95 => k1_hw95

def k1_off191 (i : grid1.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v856 : BitVec 32 := Scalar.addi v0 c95_i32
  let v857 : Index := Scalar.indexCast v856
  ![v857.toNat]
def k1_off192 (v858 : BitVec 32) : Fin 2 → Nat :=
  let c0_i32_383 : BitVec 32 := 0#32
  ![v858.toNat, 0]

def k1_chk96 (v858 : BitVec 32) : Prop :=
  (∀ a, (k1_off192 v858) a + S1x128.size a ≤ S16384x128.size a)
instance k1_chk96.dec : ∀ (v858 : BitVec 32), Decidable (k1_chk96 v858) := fun v858 => decidable_of_iff' _ (Iff.of_eq (k1_chk96.eq_1 v858))
theorem k1_off192_inb : ∀ (v858 : BitVec 32) (k1_hw96 : k1_chk96 v858), ∀ a, (k1_off192 v858) a + S1x128.size a ≤ S16384x128.size a := fun v858 k1_hw96 => k1_hw96

def k1_off193 (i : grid1.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v865 : BitVec 32 := Scalar.addi v0 c96_i32
  let v866 : Index := Scalar.indexCast v865
  ![v866.toNat]
def k1_off194 (v867 : BitVec 32) : Fin 2 → Nat :=
  let c0_i32_387 : BitVec 32 := 0#32
  ![v867.toNat, 0]

def k1_chk97 (v867 : BitVec 32) : Prop :=
  (∀ a, (k1_off194 v867) a + S1x128.size a ≤ S16384x128.size a)
instance k1_chk97.dec : ∀ (v867 : BitVec 32), Decidable (k1_chk97 v867) := fun v867 => decidable_of_iff' _ (Iff.of_eq (k1_chk97.eq_1 v867))
theorem k1_off194_inb : ∀ (v867 : BitVec 32) (k1_hw97 : k1_chk97 v867), ∀ a, (k1_off194 v867) a + S1x128.size a ≤ S16384x128.size a := fun v867 k1_hw97 => k1_hw97

def k1_off195 (i : grid1.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v874 : BitVec 32 := Scalar.addi v0 c97_i32
  let v875 : Index := Scalar.indexCast v874
  ![v875.toNat]
def k1_off196 (v876 : BitVec 32) : Fin 2 → Nat :=
  let c0_i32_391 : BitVec 32 := 0#32
  ![v876.toNat, 0]

def k1_chk98 (v876 : BitVec 32) : Prop :=
  (∀ a, (k1_off196 v876) a + S1x128.size a ≤ S16384x128.size a)
instance k1_chk98.dec : ∀ (v876 : BitVec 32), Decidable (k1_chk98 v876) := fun v876 => decidable_of_iff' _ (Iff.of_eq (k1_chk98.eq_1 v876))
theorem k1_off196_inb : ∀ (v876 : BitVec 32) (k1_hw98 : k1_chk98 v876), ∀ a, (k1_off196 v876) a + S1x128.size a ≤ S16384x128.size a := fun v876 k1_hw98 => k1_hw98

def k1_off197 (i : grid1.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v883 : BitVec 32 := Scalar.addi v0 c98_i32
  let v884 : Index := Scalar.indexCast v883
  ![v884.toNat]
def k1_off198 (v885 : BitVec 32) : Fin 2 → Nat :=
  let c0_i32_395 : BitVec 32 := 0#32
  ![v885.toNat, 0]

def k1_chk99 (v885 : BitVec 32) : Prop :=
  (∀ a, (k1_off198 v885) a + S1x128.size a ≤ S16384x128.size a)
instance k1_chk99.dec : ∀ (v885 : BitVec 32), Decidable (k1_chk99 v885) := fun v885 => decidable_of_iff' _ (Iff.of_eq (k1_chk99.eq_1 v885))
theorem k1_off198_inb : ∀ (v885 : BitVec 32) (k1_hw99 : k1_chk99 v885), ∀ a, (k1_off198 v885) a + S1x128.size a ≤ S16384x128.size a := fun v885 k1_hw99 => k1_hw99

def k1_off199 (i : grid1.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v892 : BitVec 32 := Scalar.addi v0 c99_i32
  let v893 : Index := Scalar.indexCast v892
  ![v893.toNat]
def k1_off200 (v894 : BitVec 32) : Fin 2 → Nat :=
  let c0_i32_399 : BitVec 32 := 0#32
  ![v894.toNat, 0]

def k1_chk100 (v894 : BitVec 32) : Prop :=
  (∀ a, (k1_off200 v894) a + S1x128.size a ≤ S16384x128.size a)
instance k1_chk100.dec : ∀ (v894 : BitVec 32), Decidable (k1_chk100 v894) := fun v894 => decidable_of_iff' _ (Iff.of_eq (k1_chk100.eq_1 v894))
theorem k1_off200_inb : ∀ (v894 : BitVec 32) (k1_hw100 : k1_chk100 v894), ∀ a, (k1_off200 v894) a + S1x128.size a ≤ S16384x128.size a := fun v894 k1_hw100 => k1_hw100

def k1_off201 (i : grid1.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v901 : BitVec 32 := Scalar.addi v0 c100_i32
  let v902 : Index := Scalar.indexCast v901
  ![v902.toNat]
def k1_off202 (v903 : BitVec 32) : Fin 2 → Nat :=
  let c0_i32_403 : BitVec 32 := 0#32
  ![v903.toNat, 0]

def k1_chk101 (v903 : BitVec 32) : Prop :=
  (∀ a, (k1_off202 v903) a + S1x128.size a ≤ S16384x128.size a)
instance k1_chk101.dec : ∀ (v903 : BitVec 32), Decidable (k1_chk101 v903) := fun v903 => decidable_of_iff' _ (Iff.of_eq (k1_chk101.eq_1 v903))
theorem k1_off202_inb : ∀ (v903 : BitVec 32) (k1_hw101 : k1_chk101 v903), ∀ a, (k1_off202 v903) a + S1x128.size a ≤ S16384x128.size a := fun v903 k1_hw101 => k1_hw101

def k1_off203 (i : grid1.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v910 : BitVec 32 := Scalar.addi v0 c101_i32
  let v911 : Index := Scalar.indexCast v910
  ![v911.toNat]
def k1_off204 (v912 : BitVec 32) : Fin 2 → Nat :=
  let c0_i32_407 : BitVec 32 := 0#32
  ![v912.toNat, 0]

def k1_chk102 (v912 : BitVec 32) : Prop :=
  (∀ a, (k1_off204 v912) a + S1x128.size a ≤ S16384x128.size a)
instance k1_chk102.dec : ∀ (v912 : BitVec 32), Decidable (k1_chk102 v912) := fun v912 => decidable_of_iff' _ (Iff.of_eq (k1_chk102.eq_1 v912))
theorem k1_off204_inb : ∀ (v912 : BitVec 32) (k1_hw102 : k1_chk102 v912), ∀ a, (k1_off204 v912) a + S1x128.size a ≤ S16384x128.size a := fun v912 k1_hw102 => k1_hw102

def k1_off205 (i : grid1.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v919 : BitVec 32 := Scalar.addi v0 c102_i32
  let v920 : Index := Scalar.indexCast v919
  ![v920.toNat]
def k1_off206 (v921 : BitVec 32) : Fin 2 → Nat :=
  let c0_i32_411 : BitVec 32 := 0#32
  ![v921.toNat, 0]

def k1_chk103 (v921 : BitVec 32) : Prop :=
  (∀ a, (k1_off206 v921) a + S1x128.size a ≤ S16384x128.size a)
instance k1_chk103.dec : ∀ (v921 : BitVec 32), Decidable (k1_chk103 v921) := fun v921 => decidable_of_iff' _ (Iff.of_eq (k1_chk103.eq_1 v921))
theorem k1_off206_inb : ∀ (v921 : BitVec 32) (k1_hw103 : k1_chk103 v921), ∀ a, (k1_off206 v921) a + S1x128.size a ≤ S16384x128.size a := fun v921 k1_hw103 => k1_hw103

def k1_off207 (i : grid1.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v928 : BitVec 32 := Scalar.addi v0 c103_i32
  let v929 : Index := Scalar.indexCast v928
  ![v929.toNat]
def k1_off208 (v930 : BitVec 32) : Fin 2 → Nat :=
  let c0_i32_415 : BitVec 32 := 0#32
  ![v930.toNat, 0]

def k1_chk104 (v930 : BitVec 32) : Prop :=
  (∀ a, (k1_off208 v930) a + S1x128.size a ≤ S16384x128.size a)
instance k1_chk104.dec : ∀ (v930 : BitVec 32), Decidable (k1_chk104 v930) := fun v930 => decidable_of_iff' _ (Iff.of_eq (k1_chk104.eq_1 v930))
theorem k1_off208_inb : ∀ (v930 : BitVec 32) (k1_hw104 : k1_chk104 v930), ∀ a, (k1_off208 v930) a + S1x128.size a ≤ S16384x128.size a := fun v930 k1_hw104 => k1_hw104

def k1_off209 (i : grid1.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v937 : BitVec 32 := Scalar.addi v0 c104_i32
  let v938 : Index := Scalar.indexCast v937
  ![v938.toNat]
def k1_off210 (v939 : BitVec 32) : Fin 2 → Nat :=
  let c0_i32_419 : BitVec 32 := 0#32
  ![v939.toNat, 0]

def k1_chk105 (v939 : BitVec 32) : Prop :=
  (∀ a, (k1_off210 v939) a + S1x128.size a ≤ S16384x128.size a)
instance k1_chk105.dec : ∀ (v939 : BitVec 32), Decidable (k1_chk105 v939) := fun v939 => decidable_of_iff' _ (Iff.of_eq (k1_chk105.eq_1 v939))
theorem k1_off210_inb : ∀ (v939 : BitVec 32) (k1_hw105 : k1_chk105 v939), ∀ a, (k1_off210 v939) a + S1x128.size a ≤ S16384x128.size a := fun v939 k1_hw105 => k1_hw105

def k1_off211 (i : grid1.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v946 : BitVec 32 := Scalar.addi v0 c105_i32
  let v947 : Index := Scalar.indexCast v946
  ![v947.toNat]
def k1_off212 (v948 : BitVec 32) : Fin 2 → Nat :=
  let c0_i32_423 : BitVec 32 := 0#32
  ![v948.toNat, 0]

def k1_chk106 (v948 : BitVec 32) : Prop :=
  (∀ a, (k1_off212 v948) a + S1x128.size a ≤ S16384x128.size a)
instance k1_chk106.dec : ∀ (v948 : BitVec 32), Decidable (k1_chk106 v948) := fun v948 => decidable_of_iff' _ (Iff.of_eq (k1_chk106.eq_1 v948))
theorem k1_off212_inb : ∀ (v948 : BitVec 32) (k1_hw106 : k1_chk106 v948), ∀ a, (k1_off212 v948) a + S1x128.size a ≤ S16384x128.size a := fun v948 k1_hw106 => k1_hw106

def k1_off213 (i : grid1.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v955 : BitVec 32 := Scalar.addi v0 c106_i32
  let v956 : Index := Scalar.indexCast v955
  ![v956.toNat]
def k1_off214 (v957 : BitVec 32) : Fin 2 → Nat :=
  let c0_i32_427 : BitVec 32 := 0#32
  ![v957.toNat, 0]

def k1_chk107 (v957 : BitVec 32) : Prop :=
  (∀ a, (k1_off214 v957) a + S1x128.size a ≤ S16384x128.size a)
instance k1_chk107.dec : ∀ (v957 : BitVec 32), Decidable (k1_chk107 v957) := fun v957 => decidable_of_iff' _ (Iff.of_eq (k1_chk107.eq_1 v957))
theorem k1_off214_inb : ∀ (v957 : BitVec 32) (k1_hw107 : k1_chk107 v957), ∀ a, (k1_off214 v957) a + S1x128.size a ≤ S16384x128.size a := fun v957 k1_hw107 => k1_hw107

def k1_off215 (i : grid1.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v964 : BitVec 32 := Scalar.addi v0 c107_i32
  let v965 : Index := Scalar.indexCast v964
  ![v965.toNat]
def k1_off216 (v966 : BitVec 32) : Fin 2 → Nat :=
  let c0_i32_431 : BitVec 32 := 0#32
  ![v966.toNat, 0]

def k1_chk108 (v966 : BitVec 32) : Prop :=
  (∀ a, (k1_off216 v966) a + S1x128.size a ≤ S16384x128.size a)
instance k1_chk108.dec : ∀ (v966 : BitVec 32), Decidable (k1_chk108 v966) := fun v966 => decidable_of_iff' _ (Iff.of_eq (k1_chk108.eq_1 v966))
theorem k1_off216_inb : ∀ (v966 : BitVec 32) (k1_hw108 : k1_chk108 v966), ∀ a, (k1_off216 v966) a + S1x128.size a ≤ S16384x128.size a := fun v966 k1_hw108 => k1_hw108

def k1_off217 (i : grid1.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v973 : BitVec 32 := Scalar.addi v0 c108_i32
  let v974 : Index := Scalar.indexCast v973
  ![v974.toNat]
def k1_off218 (v975 : BitVec 32) : Fin 2 → Nat :=
  let c0_i32_435 : BitVec 32 := 0#32
  ![v975.toNat, 0]

def k1_chk109 (v975 : BitVec 32) : Prop :=
  (∀ a, (k1_off218 v975) a + S1x128.size a ≤ S16384x128.size a)
instance k1_chk109.dec : ∀ (v975 : BitVec 32), Decidable (k1_chk109 v975) := fun v975 => decidable_of_iff' _ (Iff.of_eq (k1_chk109.eq_1 v975))
theorem k1_off218_inb : ∀ (v975 : BitVec 32) (k1_hw109 : k1_chk109 v975), ∀ a, (k1_off218 v975) a + S1x128.size a ≤ S16384x128.size a := fun v975 k1_hw109 => k1_hw109

def k1_off219 (i : grid1.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v982 : BitVec 32 := Scalar.addi v0 c109_i32
  let v983 : Index := Scalar.indexCast v982
  ![v983.toNat]
def k1_off220 (v984 : BitVec 32) : Fin 2 → Nat :=
  let c0_i32_439 : BitVec 32 := 0#32
  ![v984.toNat, 0]

def k1_chk110 (v984 : BitVec 32) : Prop :=
  (∀ a, (k1_off220 v984) a + S1x128.size a ≤ S16384x128.size a)
instance k1_chk110.dec : ∀ (v984 : BitVec 32), Decidable (k1_chk110 v984) := fun v984 => decidable_of_iff' _ (Iff.of_eq (k1_chk110.eq_1 v984))
theorem k1_off220_inb : ∀ (v984 : BitVec 32) (k1_hw110 : k1_chk110 v984), ∀ a, (k1_off220 v984) a + S1x128.size a ≤ S16384x128.size a := fun v984 k1_hw110 => k1_hw110

def k1_off221 (i : grid1.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v991 : BitVec 32 := Scalar.addi v0 c110_i32
  let v992 : Index := Scalar.indexCast v991
  ![v992.toNat]
def k1_off222 (v993 : BitVec 32) : Fin 2 → Nat :=
  let c0_i32_443 : BitVec 32 := 0#32
  ![v993.toNat, 0]

def k1_chk111 (v993 : BitVec 32) : Prop :=
  (∀ a, (k1_off222 v993) a + S1x128.size a ≤ S16384x128.size a)
instance k1_chk111.dec : ∀ (v993 : BitVec 32), Decidable (k1_chk111 v993) := fun v993 => decidable_of_iff' _ (Iff.of_eq (k1_chk111.eq_1 v993))
theorem k1_off222_inb : ∀ (v993 : BitVec 32) (k1_hw111 : k1_chk111 v993), ∀ a, (k1_off222 v993) a + S1x128.size a ≤ S16384x128.size a := fun v993 k1_hw111 => k1_hw111

def k1_off223 (i : grid1.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1000 : BitVec 32 := Scalar.addi v0 c111_i32
  let v1001 : Index := Scalar.indexCast v1000
  ![v1001.toNat]
def k1_off224 (v1002 : BitVec 32) : Fin 2 → Nat :=
  let c0_i32_447 : BitVec 32 := 0#32
  ![v1002.toNat, 0]

def k1_chk112 (v1002 : BitVec 32) : Prop :=
  (∀ a, (k1_off224 v1002) a + S1x128.size a ≤ S16384x128.size a)
instance k1_chk112.dec : ∀ (v1002 : BitVec 32), Decidable (k1_chk112 v1002) := fun v1002 => decidable_of_iff' _ (Iff.of_eq (k1_chk112.eq_1 v1002))
theorem k1_off224_inb : ∀ (v1002 : BitVec 32) (k1_hw112 : k1_chk112 v1002), ∀ a, (k1_off224 v1002) a + S1x128.size a ≤ S16384x128.size a := fun v1002 k1_hw112 => k1_hw112

def k1_off225 (i : grid1.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1009 : BitVec 32 := Scalar.addi v0 c112_i32
  let v1010 : Index := Scalar.indexCast v1009
  ![v1010.toNat]
def k1_off226 (v1011 : BitVec 32) : Fin 2 → Nat :=
  let c0_i32_451 : BitVec 32 := 0#32
  ![v1011.toNat, 0]

def k1_chk113 (v1011 : BitVec 32) : Prop :=
  (∀ a, (k1_off226 v1011) a + S1x128.size a ≤ S16384x128.size a)
instance k1_chk113.dec : ∀ (v1011 : BitVec 32), Decidable (k1_chk113 v1011) := fun v1011 => decidable_of_iff' _ (Iff.of_eq (k1_chk113.eq_1 v1011))
theorem k1_off226_inb : ∀ (v1011 : BitVec 32) (k1_hw113 : k1_chk113 v1011), ∀ a, (k1_off226 v1011) a + S1x128.size a ≤ S16384x128.size a := fun v1011 k1_hw113 => k1_hw113

def k1_off227 (i : grid1.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1018 : BitVec 32 := Scalar.addi v0 c113_i32
  let v1019 : Index := Scalar.indexCast v1018
  ![v1019.toNat]
def k1_off228 (v1020 : BitVec 32) : Fin 2 → Nat :=
  let c0_i32_455 : BitVec 32 := 0#32
  ![v1020.toNat, 0]

def k1_chk114 (v1020 : BitVec 32) : Prop :=
  (∀ a, (k1_off228 v1020) a + S1x128.size a ≤ S16384x128.size a)
instance k1_chk114.dec : ∀ (v1020 : BitVec 32), Decidable (k1_chk114 v1020) := fun v1020 => decidable_of_iff' _ (Iff.of_eq (k1_chk114.eq_1 v1020))
theorem k1_off228_inb : ∀ (v1020 : BitVec 32) (k1_hw114 : k1_chk114 v1020), ∀ a, (k1_off228 v1020) a + S1x128.size a ≤ S16384x128.size a := fun v1020 k1_hw114 => k1_hw114

def k1_off229 (i : grid1.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1027 : BitVec 32 := Scalar.addi v0 c114_i32
  let v1028 : Index := Scalar.indexCast v1027
  ![v1028.toNat]
def k1_off230 (v1029 : BitVec 32) : Fin 2 → Nat :=
  let c0_i32_459 : BitVec 32 := 0#32
  ![v1029.toNat, 0]

def k1_chk115 (v1029 : BitVec 32) : Prop :=
  (∀ a, (k1_off230 v1029) a + S1x128.size a ≤ S16384x128.size a)
instance k1_chk115.dec : ∀ (v1029 : BitVec 32), Decidable (k1_chk115 v1029) := fun v1029 => decidable_of_iff' _ (Iff.of_eq (k1_chk115.eq_1 v1029))
theorem k1_off230_inb : ∀ (v1029 : BitVec 32) (k1_hw115 : k1_chk115 v1029), ∀ a, (k1_off230 v1029) a + S1x128.size a ≤ S16384x128.size a := fun v1029 k1_hw115 => k1_hw115

def k1_off231 (i : grid1.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1036 : BitVec 32 := Scalar.addi v0 c115_i32
  let v1037 : Index := Scalar.indexCast v1036
  ![v1037.toNat]
def k1_off232 (v1038 : BitVec 32) : Fin 2 → Nat :=
  let c0_i32_463 : BitVec 32 := 0#32
  ![v1038.toNat, 0]

def k1_chk116 (v1038 : BitVec 32) : Prop :=
  (∀ a, (k1_off232 v1038) a + S1x128.size a ≤ S16384x128.size a)
instance k1_chk116.dec : ∀ (v1038 : BitVec 32), Decidable (k1_chk116 v1038) := fun v1038 => decidable_of_iff' _ (Iff.of_eq (k1_chk116.eq_1 v1038))
theorem k1_off232_inb : ∀ (v1038 : BitVec 32) (k1_hw116 : k1_chk116 v1038), ∀ a, (k1_off232 v1038) a + S1x128.size a ≤ S16384x128.size a := fun v1038 k1_hw116 => k1_hw116

def k1_off233 (i : grid1.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1045 : BitVec 32 := Scalar.addi v0 c116_i32
  let v1046 : Index := Scalar.indexCast v1045
  ![v1046.toNat]
def k1_off234 (v1047 : BitVec 32) : Fin 2 → Nat :=
  let c0_i32_467 : BitVec 32 := 0#32
  ![v1047.toNat, 0]

def k1_chk117 (v1047 : BitVec 32) : Prop :=
  (∀ a, (k1_off234 v1047) a + S1x128.size a ≤ S16384x128.size a)
instance k1_chk117.dec : ∀ (v1047 : BitVec 32), Decidable (k1_chk117 v1047) := fun v1047 => decidable_of_iff' _ (Iff.of_eq (k1_chk117.eq_1 v1047))
theorem k1_off234_inb : ∀ (v1047 : BitVec 32) (k1_hw117 : k1_chk117 v1047), ∀ a, (k1_off234 v1047) a + S1x128.size a ≤ S16384x128.size a := fun v1047 k1_hw117 => k1_hw117

def k1_off235 (i : grid1.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1054 : BitVec 32 := Scalar.addi v0 c117_i32
  let v1055 : Index := Scalar.indexCast v1054
  ![v1055.toNat]
def k1_off236 (v1056 : BitVec 32) : Fin 2 → Nat :=
  let c0_i32_471 : BitVec 32 := 0#32
  ![v1056.toNat, 0]

def k1_chk118 (v1056 : BitVec 32) : Prop :=
  (∀ a, (k1_off236 v1056) a + S1x128.size a ≤ S16384x128.size a)
instance k1_chk118.dec : ∀ (v1056 : BitVec 32), Decidable (k1_chk118 v1056) := fun v1056 => decidable_of_iff' _ (Iff.of_eq (k1_chk118.eq_1 v1056))
theorem k1_off236_inb : ∀ (v1056 : BitVec 32) (k1_hw118 : k1_chk118 v1056), ∀ a, (k1_off236 v1056) a + S1x128.size a ≤ S16384x128.size a := fun v1056 k1_hw118 => k1_hw118

def k1_off237 (i : grid1.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1063 : BitVec 32 := Scalar.addi v0 c118_i32
  let v1064 : Index := Scalar.indexCast v1063
  ![v1064.toNat]
def k1_off238 (v1065 : BitVec 32) : Fin 2 → Nat :=
  let c0_i32_475 : BitVec 32 := 0#32
  ![v1065.toNat, 0]

def k1_chk119 (v1065 : BitVec 32) : Prop :=
  (∀ a, (k1_off238 v1065) a + S1x128.size a ≤ S16384x128.size a)
instance k1_chk119.dec : ∀ (v1065 : BitVec 32), Decidable (k1_chk119 v1065) := fun v1065 => decidable_of_iff' _ (Iff.of_eq (k1_chk119.eq_1 v1065))
theorem k1_off238_inb : ∀ (v1065 : BitVec 32) (k1_hw119 : k1_chk119 v1065), ∀ a, (k1_off238 v1065) a + S1x128.size a ≤ S16384x128.size a := fun v1065 k1_hw119 => k1_hw119

def k1_off239 (i : grid1.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1072 : BitVec 32 := Scalar.addi v0 c119_i32
  let v1073 : Index := Scalar.indexCast v1072
  ![v1073.toNat]
def k1_off240 (v1074 : BitVec 32) : Fin 2 → Nat :=
  let c0_i32_479 : BitVec 32 := 0#32
  ![v1074.toNat, 0]

def k1_chk120 (v1074 : BitVec 32) : Prop :=
  (∀ a, (k1_off240 v1074) a + S1x128.size a ≤ S16384x128.size a)
instance k1_chk120.dec : ∀ (v1074 : BitVec 32), Decidable (k1_chk120 v1074) := fun v1074 => decidable_of_iff' _ (Iff.of_eq (k1_chk120.eq_1 v1074))
theorem k1_off240_inb : ∀ (v1074 : BitVec 32) (k1_hw120 : k1_chk120 v1074), ∀ a, (k1_off240 v1074) a + S1x128.size a ≤ S16384x128.size a := fun v1074 k1_hw120 => k1_hw120

def k1_off241 (i : grid1.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1081 : BitVec 32 := Scalar.addi v0 c120_i32
  let v1082 : Index := Scalar.indexCast v1081
  ![v1082.toNat]
def k1_off242 (v1083 : BitVec 32) : Fin 2 → Nat :=
  let c0_i32_483 : BitVec 32 := 0#32
  ![v1083.toNat, 0]

def k1_chk121 (v1083 : BitVec 32) : Prop :=
  (∀ a, (k1_off242 v1083) a + S1x128.size a ≤ S16384x128.size a)
instance k1_chk121.dec : ∀ (v1083 : BitVec 32), Decidable (k1_chk121 v1083) := fun v1083 => decidable_of_iff' _ (Iff.of_eq (k1_chk121.eq_1 v1083))
theorem k1_off242_inb : ∀ (v1083 : BitVec 32) (k1_hw121 : k1_chk121 v1083), ∀ a, (k1_off242 v1083) a + S1x128.size a ≤ S16384x128.size a := fun v1083 k1_hw121 => k1_hw121

def k1_off243 (i : grid1.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1090 : BitVec 32 := Scalar.addi v0 c121_i32
  let v1091 : Index := Scalar.indexCast v1090
  ![v1091.toNat]
def k1_off244 (v1092 : BitVec 32) : Fin 2 → Nat :=
  let c0_i32_487 : BitVec 32 := 0#32
  ![v1092.toNat, 0]

def k1_chk122 (v1092 : BitVec 32) : Prop :=
  (∀ a, (k1_off244 v1092) a + S1x128.size a ≤ S16384x128.size a)
instance k1_chk122.dec : ∀ (v1092 : BitVec 32), Decidable (k1_chk122 v1092) := fun v1092 => decidable_of_iff' _ (Iff.of_eq (k1_chk122.eq_1 v1092))
theorem k1_off244_inb : ∀ (v1092 : BitVec 32) (k1_hw122 : k1_chk122 v1092), ∀ a, (k1_off244 v1092) a + S1x128.size a ≤ S16384x128.size a := fun v1092 k1_hw122 => k1_hw122

def k1_off245 (i : grid1.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1099 : BitVec 32 := Scalar.addi v0 c122_i32
  let v1100 : Index := Scalar.indexCast v1099
  ![v1100.toNat]
def k1_off246 (v1101 : BitVec 32) : Fin 2 → Nat :=
  let c0_i32_491 : BitVec 32 := 0#32
  ![v1101.toNat, 0]

def k1_chk123 (v1101 : BitVec 32) : Prop :=
  (∀ a, (k1_off246 v1101) a + S1x128.size a ≤ S16384x128.size a)
instance k1_chk123.dec : ∀ (v1101 : BitVec 32), Decidable (k1_chk123 v1101) := fun v1101 => decidable_of_iff' _ (Iff.of_eq (k1_chk123.eq_1 v1101))
theorem k1_off246_inb : ∀ (v1101 : BitVec 32) (k1_hw123 : k1_chk123 v1101), ∀ a, (k1_off246 v1101) a + S1x128.size a ≤ S16384x128.size a := fun v1101 k1_hw123 => k1_hw123

def k1_off247 (i : grid1.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1108 : BitVec 32 := Scalar.addi v0 c123_i32
  let v1109 : Index := Scalar.indexCast v1108
  ![v1109.toNat]
def k1_off248 (v1110 : BitVec 32) : Fin 2 → Nat :=
  let c0_i32_495 : BitVec 32 := 0#32
  ![v1110.toNat, 0]

def k1_chk124 (v1110 : BitVec 32) : Prop :=
  (∀ a, (k1_off248 v1110) a + S1x128.size a ≤ S16384x128.size a)
instance k1_chk124.dec : ∀ (v1110 : BitVec 32), Decidable (k1_chk124 v1110) := fun v1110 => decidable_of_iff' _ (Iff.of_eq (k1_chk124.eq_1 v1110))
theorem k1_off248_inb : ∀ (v1110 : BitVec 32) (k1_hw124 : k1_chk124 v1110), ∀ a, (k1_off248 v1110) a + S1x128.size a ≤ S16384x128.size a := fun v1110 k1_hw124 => k1_hw124

def k1_off249 (i : grid1.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1117 : BitVec 32 := Scalar.addi v0 c124_i32
  let v1118 : Index := Scalar.indexCast v1117
  ![v1118.toNat]
def k1_off250 (v1119 : BitVec 32) : Fin 2 → Nat :=
  let c0_i32_499 : BitVec 32 := 0#32
  ![v1119.toNat, 0]

def k1_chk125 (v1119 : BitVec 32) : Prop :=
  (∀ a, (k1_off250 v1119) a + S1x128.size a ≤ S16384x128.size a)
instance k1_chk125.dec : ∀ (v1119 : BitVec 32), Decidable (k1_chk125 v1119) := fun v1119 => decidable_of_iff' _ (Iff.of_eq (k1_chk125.eq_1 v1119))
theorem k1_off250_inb : ∀ (v1119 : BitVec 32) (k1_hw125 : k1_chk125 v1119), ∀ a, (k1_off250 v1119) a + S1x128.size a ≤ S16384x128.size a := fun v1119 k1_hw125 => k1_hw125

def k1_off251 (i : grid1.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1126 : BitVec 32 := Scalar.addi v0 c125_i32
  let v1127 : Index := Scalar.indexCast v1126
  ![v1127.toNat]
def k1_off252 (v1128 : BitVec 32) : Fin 2 → Nat :=
  let c0_i32_503 : BitVec 32 := 0#32
  ![v1128.toNat, 0]

def k1_chk126 (v1128 : BitVec 32) : Prop :=
  (∀ a, (k1_off252 v1128) a + S1x128.size a ≤ S16384x128.size a)
instance k1_chk126.dec : ∀ (v1128 : BitVec 32), Decidable (k1_chk126 v1128) := fun v1128 => decidable_of_iff' _ (Iff.of_eq (k1_chk126.eq_1 v1128))
theorem k1_off252_inb : ∀ (v1128 : BitVec 32) (k1_hw126 : k1_chk126 v1128), ∀ a, (k1_off252 v1128) a + S1x128.size a ≤ S16384x128.size a := fun v1128 k1_hw126 => k1_hw126

def k1_off253 (i : grid1.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1135 : BitVec 32 := Scalar.addi v0 c126_i32
  let v1136 : Index := Scalar.indexCast v1135
  ![v1136.toNat]
def k1_off254 (v1137 : BitVec 32) : Fin 2 → Nat :=
  let c0_i32_507 : BitVec 32 := 0#32
  ![v1137.toNat, 0]

def k1_chk127 (v1137 : BitVec 32) : Prop :=
  (∀ a, (k1_off254 v1137) a + S1x128.size a ≤ S16384x128.size a)
instance k1_chk127.dec : ∀ (v1137 : BitVec 32), Decidable (k1_chk127 v1137) := fun v1137 => decidable_of_iff' _ (Iff.of_eq (k1_chk127.eq_1 v1137))
theorem k1_off254_inb : ∀ (v1137 : BitVec 32) (k1_hw127 : k1_chk127 v1137), ∀ a, (k1_off254 v1137) a + S1x128.size a ≤ S16384x128.size a := fun v1137 k1_hw127 => k1_hw127

def k1_off255 (i : grid1.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1144 : BitVec 32 := Scalar.addi v0 c127_i32
  let v1145 : Index := Scalar.indexCast v1144
  ![v1145.toNat]
def k1_off256 (v1146 : BitVec 32) : Fin 2 → Nat :=
  let c0_i32_511 : BitVec 32 := 0#32
  ![v1146.toNat, 0]

def k1_chk128 (v1146 : BitVec 32) : Prop :=
  (∀ a, (k1_off256 v1146) a + S1x128.size a ≤ S16384x128.size a)
instance k1_chk128.dec : ∀ (v1146 : BitVec 32), Decidable (k1_chk128 v1146) := fun v1146 => decidable_of_iff' _ (Iff.of_eq (k1_chk128.eq_1 v1146))
theorem k1_off256_inb : ∀ (v1146 : BitVec 32) (k1_hw128 : k1_chk128 v1146), ∀ a, (k1_off256 v1146) a + S1x128.size a ≤ S16384x128.size a := fun v1146 k1_hw128 => k1_hw128

def k1_off257 (i : grid1.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1153 : BitVec 32 := Scalar.addi v0 c128_i32
  let v1154 : Index := Scalar.indexCast v1153
  ![v1154.toNat]
def k1_off258 (v1155 : BitVec 32) : Fin 2 → Nat :=
  let c0_i32_515 : BitVec 32 := 0#32
  ![v1155.toNat, 0]

def k1_chk129 (v1155 : BitVec 32) : Prop :=
  (∀ a, (k1_off258 v1155) a + S1x128.size a ≤ S16384x128.size a)
instance k1_chk129.dec : ∀ (v1155 : BitVec 32), Decidable (k1_chk129 v1155) := fun v1155 => decidable_of_iff' _ (Iff.of_eq (k1_chk129.eq_1 v1155))
theorem k1_off258_inb : ∀ (v1155 : BitVec 32) (k1_hw129 : k1_chk129 v1155), ∀ a, (k1_off258 v1155) a + S1x128.size a ≤ S16384x128.size a := fun v1155 k1_hw129 => k1_hw129

def k1_off259 (i : grid1.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1162 : BitVec 32 := Scalar.addi v0 c129_i32
  let v1163 : Index := Scalar.indexCast v1162
  ![v1163.toNat]
def k1_off260 (v1164 : BitVec 32) : Fin 2 → Nat :=
  let c0_i32_519 : BitVec 32 := 0#32
  ![v1164.toNat, 0]

def k1_chk130 (v1164 : BitVec 32) : Prop :=
  (∀ a, (k1_off260 v1164) a + S1x128.size a ≤ S16384x128.size a)
instance k1_chk130.dec : ∀ (v1164 : BitVec 32), Decidable (k1_chk130 v1164) := fun v1164 => decidable_of_iff' _ (Iff.of_eq (k1_chk130.eq_1 v1164))
theorem k1_off260_inb : ∀ (v1164 : BitVec 32) (k1_hw130 : k1_chk130 v1164), ∀ a, (k1_off260 v1164) a + S1x128.size a ≤ S16384x128.size a := fun v1164 k1_hw130 => k1_hw130

def k1_off261 (i : grid1.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1171 : BitVec 32 := Scalar.addi v0 c130_i32
  let v1172 : Index := Scalar.indexCast v1171
  ![v1172.toNat]
def k1_off262 (v1173 : BitVec 32) : Fin 2 → Nat :=
  let c0_i32_523 : BitVec 32 := 0#32
  ![v1173.toNat, 0]

def k1_chk131 (v1173 : BitVec 32) : Prop :=
  (∀ a, (k1_off262 v1173) a + S1x128.size a ≤ S16384x128.size a)
instance k1_chk131.dec : ∀ (v1173 : BitVec 32), Decidable (k1_chk131 v1173) := fun v1173 => decidable_of_iff' _ (Iff.of_eq (k1_chk131.eq_1 v1173))
theorem k1_off262_inb : ∀ (v1173 : BitVec 32) (k1_hw131 : k1_chk131 v1173), ∀ a, (k1_off262 v1173) a + S1x128.size a ≤ S16384x128.size a := fun v1173 k1_hw131 => k1_hw131

def k1_off263 (i : grid1.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1180 : BitVec 32 := Scalar.addi v0 c131_i32
  let v1181 : Index := Scalar.indexCast v1180
  ![v1181.toNat]
def k1_off264 (v1182 : BitVec 32) : Fin 2 → Nat :=
  let c0_i32_527 : BitVec 32 := 0#32
  ![v1182.toNat, 0]

def k1_chk132 (v1182 : BitVec 32) : Prop :=
  (∀ a, (k1_off264 v1182) a + S1x128.size a ≤ S16384x128.size a)
instance k1_chk132.dec : ∀ (v1182 : BitVec 32), Decidable (k1_chk132 v1182) := fun v1182 => decidable_of_iff' _ (Iff.of_eq (k1_chk132.eq_1 v1182))
theorem k1_off264_inb : ∀ (v1182 : BitVec 32) (k1_hw132 : k1_chk132 v1182), ∀ a, (k1_off264 v1182) a + S1x128.size a ≤ S16384x128.size a := fun v1182 k1_hw132 => k1_hw132

def k1_off265 (i : grid1.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1189 : BitVec 32 := Scalar.addi v0 c132_i32
  let v1190 : Index := Scalar.indexCast v1189
  ![v1190.toNat]
def k1_off266 (v1191 : BitVec 32) : Fin 2 → Nat :=
  let c0_i32_531 : BitVec 32 := 0#32
  ![v1191.toNat, 0]

def k1_chk133 (v1191 : BitVec 32) : Prop :=
  (∀ a, (k1_off266 v1191) a + S1x128.size a ≤ S16384x128.size a)
instance k1_chk133.dec : ∀ (v1191 : BitVec 32), Decidable (k1_chk133 v1191) := fun v1191 => decidable_of_iff' _ (Iff.of_eq (k1_chk133.eq_1 v1191))
theorem k1_off266_inb : ∀ (v1191 : BitVec 32) (k1_hw133 : k1_chk133 v1191), ∀ a, (k1_off266 v1191) a + S1x128.size a ≤ S16384x128.size a := fun v1191 k1_hw133 => k1_hw133

def k1_off267 (i : grid1.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1198 : BitVec 32 := Scalar.addi v0 c133_i32
  let v1199 : Index := Scalar.indexCast v1198
  ![v1199.toNat]
def k1_off268 (v1200 : BitVec 32) : Fin 2 → Nat :=
  let c0_i32_535 : BitVec 32 := 0#32
  ![v1200.toNat, 0]

def k1_chk134 (v1200 : BitVec 32) : Prop :=
  (∀ a, (k1_off268 v1200) a + S1x128.size a ≤ S16384x128.size a)
instance k1_chk134.dec : ∀ (v1200 : BitVec 32), Decidable (k1_chk134 v1200) := fun v1200 => decidable_of_iff' _ (Iff.of_eq (k1_chk134.eq_1 v1200))
theorem k1_off268_inb : ∀ (v1200 : BitVec 32) (k1_hw134 : k1_chk134 v1200), ∀ a, (k1_off268 v1200) a + S1x128.size a ≤ S16384x128.size a := fun v1200 k1_hw134 => k1_hw134

def k1_off269 (i : grid1.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1207 : BitVec 32 := Scalar.addi v0 c134_i32
  let v1208 : Index := Scalar.indexCast v1207
  ![v1208.toNat]
def k1_off270 (v1209 : BitVec 32) : Fin 2 → Nat :=
  let c0_i32_539 : BitVec 32 := 0#32
  ![v1209.toNat, 0]

def k1_chk135 (v1209 : BitVec 32) : Prop :=
  (∀ a, (k1_off270 v1209) a + S1x128.size a ≤ S16384x128.size a)
instance k1_chk135.dec : ∀ (v1209 : BitVec 32), Decidable (k1_chk135 v1209) := fun v1209 => decidable_of_iff' _ (Iff.of_eq (k1_chk135.eq_1 v1209))
theorem k1_off270_inb : ∀ (v1209 : BitVec 32) (k1_hw135 : k1_chk135 v1209), ∀ a, (k1_off270 v1209) a + S1x128.size a ≤ S16384x128.size a := fun v1209 k1_hw135 => k1_hw135

def k1_off271 (i : grid1.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1216 : BitVec 32 := Scalar.addi v0 c135_i32
  let v1217 : Index := Scalar.indexCast v1216
  ![v1217.toNat]
def k1_off272 (v1218 : BitVec 32) : Fin 2 → Nat :=
  let c0_i32_543 : BitVec 32 := 0#32
  ![v1218.toNat, 0]

def k1_chk136 (v1218 : BitVec 32) : Prop :=
  (∀ a, (k1_off272 v1218) a + S1x128.size a ≤ S16384x128.size a)
instance k1_chk136.dec : ∀ (v1218 : BitVec 32), Decidable (k1_chk136 v1218) := fun v1218 => decidable_of_iff' _ (Iff.of_eq (k1_chk136.eq_1 v1218))
theorem k1_off272_inb : ∀ (v1218 : BitVec 32) (k1_hw136 : k1_chk136 v1218), ∀ a, (k1_off272 v1218) a + S1x128.size a ≤ S16384x128.size a := fun v1218 k1_hw136 => k1_hw136

def k1_off273 (i : grid1.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1225 : BitVec 32 := Scalar.addi v0 c136_i32
  let v1226 : Index := Scalar.indexCast v1225
  ![v1226.toNat]
def k1_off274 (v1227 : BitVec 32) : Fin 2 → Nat :=
  let c0_i32_547 : BitVec 32 := 0#32
  ![v1227.toNat, 0]

def k1_chk137 (v1227 : BitVec 32) : Prop :=
  (∀ a, (k1_off274 v1227) a + S1x128.size a ≤ S16384x128.size a)
instance k1_chk137.dec : ∀ (v1227 : BitVec 32), Decidable (k1_chk137 v1227) := fun v1227 => decidable_of_iff' _ (Iff.of_eq (k1_chk137.eq_1 v1227))
theorem k1_off274_inb : ∀ (v1227 : BitVec 32) (k1_hw137 : k1_chk137 v1227), ∀ a, (k1_off274 v1227) a + S1x128.size a ≤ S16384x128.size a := fun v1227 k1_hw137 => k1_hw137

def k1_off275 (i : grid1.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v1234 : BitVec 32 := Scalar.addi v0 c137_i32
  let v1235 : Index := Scalar.indexCast v1234
  ![v1235.toNat]
def k1_off276 (v1236 : BitVec 32) : Fin 2 → Nat :=
  let c0_i32_551 : BitVec 32 := 0#32
  ![v1236.toNat, 0]

def k1_chk138 (v1236 : BitVec 32) : Prop :=
  (∀ a, (k1_off276 v1236) a + S1x128.size a ≤ S16384x128.size a)
instance k1_chk138.dec : ∀ (v1236 : BitVec 32), Decidable (k1_chk138 v1236) := fun v1236 => decidable_of_iff' _ (Iff.of_eq (k1_chk138.eq_1 v1236))
theorem k1_off276_inb : ∀ (v1236 : BitVec 32) (k1_hw138 : k1_chk138 v1236), ∀ a, (k1_off276 v1236) a + S1x128.size a ≤ S16384x128.size a := fun v1236 k1_hw138 => k1_hw138

def k1_off277 (i : grid1.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v1243 : BitVec 32 := Scalar.addi v0 c138_i32
  let v1244 : Index := Scalar.indexCast v1243
  ![v1244.toNat]
def k1_off278 (v1245 : BitVec 32) : Fin 2 → Nat :=
  let c0_i32_555 : BitVec 32 := 0#32
  ![v1245.toNat, 0]

def k1_chk139 (v1245 : BitVec 32) : Prop :=
  (∀ a, (k1_off278 v1245) a + S1x128.size a ≤ S16384x128.size a)
instance k1_chk139.dec : ∀ (v1245 : BitVec 32), Decidable (k1_chk139 v1245) := fun v1245 => decidable_of_iff' _ (Iff.of_eq (k1_chk139.eq_1 v1245))
theorem k1_off278_inb : ∀ (v1245 : BitVec 32) (k1_hw139 : k1_chk139 v1245), ∀ a, (k1_off278 v1245) a + S1x128.size a ≤ S16384x128.size a := fun v1245 k1_hw139 => k1_hw139

def k1_off279 (i : grid1.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v1252 : BitVec 32 := Scalar.addi v0 c139_i32
  let v1253 : Index := Scalar.indexCast v1252
  ![v1253.toNat]
def k1_off280 (v1254 : BitVec 32) : Fin 2 → Nat :=
  let c0_i32_559 : BitVec 32 := 0#32
  ![v1254.toNat, 0]

def k1_chk140 (v1254 : BitVec 32) : Prop :=
  (∀ a, (k1_off280 v1254) a + S1x128.size a ≤ S16384x128.size a)
instance k1_chk140.dec : ∀ (v1254 : BitVec 32), Decidable (k1_chk140 v1254) := fun v1254 => decidable_of_iff' _ (Iff.of_eq (k1_chk140.eq_1 v1254))
theorem k1_off280_inb : ∀ (v1254 : BitVec 32) (k1_hw140 : k1_chk140 v1254), ∀ a, (k1_off280 v1254) a + S1x128.size a ≤ S16384x128.size a := fun v1254 k1_hw140 => k1_hw140

def k1_off281 (i : grid1.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v1261 : BitVec 32 := Scalar.addi v0 c140_i32
  let v1262 : Index := Scalar.indexCast v1261
  ![v1262.toNat]
def k1_off282 (v1263 : BitVec 32) : Fin 2 → Nat :=
  let c0_i32_563 : BitVec 32 := 0#32
  ![v1263.toNat, 0]

def k1_chk141 (v1263 : BitVec 32) : Prop :=
  (∀ a, (k1_off282 v1263) a + S1x128.size a ≤ S16384x128.size a)
instance k1_chk141.dec : ∀ (v1263 : BitVec 32), Decidable (k1_chk141 v1263) := fun v1263 => decidable_of_iff' _ (Iff.of_eq (k1_chk141.eq_1 v1263))
theorem k1_off282_inb : ∀ (v1263 : BitVec 32) (k1_hw141 : k1_chk141 v1263), ∀ a, (k1_off282 v1263) a + S1x128.size a ≤ S16384x128.size a := fun v1263 k1_hw141 => k1_hw141

def k1_off283 (i : grid1.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v1270 : BitVec 32 := Scalar.addi v0 c141_i32
  let v1271 : Index := Scalar.indexCast v1270
  ![v1271.toNat]
def k1_off284 (v1272 : BitVec 32) : Fin 2 → Nat :=
  let c0_i32_567 : BitVec 32 := 0#32
  ![v1272.toNat, 0]

def k1_chk142 (v1272 : BitVec 32) : Prop :=
  (∀ a, (k1_off284 v1272) a + S1x128.size a ≤ S16384x128.size a)
instance k1_chk142.dec : ∀ (v1272 : BitVec 32), Decidable (k1_chk142 v1272) := fun v1272 => decidable_of_iff' _ (Iff.of_eq (k1_chk142.eq_1 v1272))
theorem k1_off284_inb : ∀ (v1272 : BitVec 32) (k1_hw142 : k1_chk142 v1272), ∀ a, (k1_off284 v1272) a + S1x128.size a ≤ S16384x128.size a := fun v1272 k1_hw142 => k1_hw142

def k1_off285 (i : grid1.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v1279 : BitVec 32 := Scalar.addi v0 c142_i32
  let v1280 : Index := Scalar.indexCast v1279
  ![v1280.toNat]
def k1_off286 (v1281 : BitVec 32) : Fin 2 → Nat :=
  let c0_i32_571 : BitVec 32 := 0#32
  ![v1281.toNat, 0]

def k1_chk143 (v1281 : BitVec 32) : Prop :=
  (∀ a, (k1_off286 v1281) a + S1x128.size a ≤ S16384x128.size a)
instance k1_chk143.dec : ∀ (v1281 : BitVec 32), Decidable (k1_chk143 v1281) := fun v1281 => decidable_of_iff' _ (Iff.of_eq (k1_chk143.eq_1 v1281))
theorem k1_off286_inb : ∀ (v1281 : BitVec 32) (k1_hw143 : k1_chk143 v1281), ∀ a, (k1_off286 v1281) a + S1x128.size a ≤ S16384x128.size a := fun v1281 k1_hw143 => k1_hw143

def k1_off287 (i : grid1.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v1288 : BitVec 32 := Scalar.addi v0 c143_i32
  let v1289 : Index := Scalar.indexCast v1288
  ![v1289.toNat]
def k1_off288 (v1290 : BitVec 32) : Fin 2 → Nat :=
  let c0_i32_575 : BitVec 32 := 0#32
  ![v1290.toNat, 0]

def k1_chk144 (v1290 : BitVec 32) : Prop :=
  (∀ a, (k1_off288 v1290) a + S1x128.size a ≤ S16384x128.size a)
instance k1_chk144.dec : ∀ (v1290 : BitVec 32), Decidable (k1_chk144 v1290) := fun v1290 => decidable_of_iff' _ (Iff.of_eq (k1_chk144.eq_1 v1290))
theorem k1_off288_inb : ∀ (v1290 : BitVec 32) (k1_hw144 : k1_chk144 v1290), ∀ a, (k1_off288 v1290) a + S1x128.size a ≤ S16384x128.size a := fun v1290 k1_hw144 => k1_hw144

def k1_off289 (i : grid1.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v1297 : BitVec 32 := Scalar.addi v0 c144_i32
  let v1298 : Index := Scalar.indexCast v1297
  ![v1298.toNat]
def k1_off290 (v1299 : BitVec 32) : Fin 2 → Nat :=
  let c0_i32_579 : BitVec 32 := 0#32
  ![v1299.toNat, 0]

def k1_chk145 (v1299 : BitVec 32) : Prop :=
  (∀ a, (k1_off290 v1299) a + S1x128.size a ≤ S16384x128.size a)
instance k1_chk145.dec : ∀ (v1299 : BitVec 32), Decidable (k1_chk145 v1299) := fun v1299 => decidable_of_iff' _ (Iff.of_eq (k1_chk145.eq_1 v1299))
theorem k1_off290_inb : ∀ (v1299 : BitVec 32) (k1_hw145 : k1_chk145 v1299), ∀ a, (k1_off290 v1299) a + S1x128.size a ≤ S16384x128.size a := fun v1299 k1_hw145 => k1_hw145

def k1_off291 (i : grid1.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v1306 : BitVec 32 := Scalar.addi v0 c145_i32
  let v1307 : Index := Scalar.indexCast v1306
  ![v1307.toNat]
def k1_off292 (v1308 : BitVec 32) : Fin 2 → Nat :=
  let c0_i32_583 : BitVec 32 := 0#32
  ![v1308.toNat, 0]

def k1_chk146 (v1308 : BitVec 32) : Prop :=
  (∀ a, (k1_off292 v1308) a + S1x128.size a ≤ S16384x128.size a)
instance k1_chk146.dec : ∀ (v1308 : BitVec 32), Decidable (k1_chk146 v1308) := fun v1308 => decidable_of_iff' _ (Iff.of_eq (k1_chk146.eq_1 v1308))
theorem k1_off292_inb : ∀ (v1308 : BitVec 32) (k1_hw146 : k1_chk146 v1308), ∀ a, (k1_off292 v1308) a + S1x128.size a ≤ S16384x128.size a := fun v1308 k1_hw146 => k1_hw146

def k1_off293 (i : grid1.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v1315 : BitVec 32 := Scalar.addi v0 c146_i32
  let v1316 : Index := Scalar.indexCast v1315
  ![v1316.toNat]
def k1_off294 (v1317 : BitVec 32) : Fin 2 → Nat :=
  let c0_i32_587 : BitVec 32 := 0#32
  ![v1317.toNat, 0]

def k1_chk147 (v1317 : BitVec 32) : Prop :=
  (∀ a, (k1_off294 v1317) a + S1x128.size a ≤ S16384x128.size a)
instance k1_chk147.dec : ∀ (v1317 : BitVec 32), Decidable (k1_chk147 v1317) := fun v1317 => decidable_of_iff' _ (Iff.of_eq (k1_chk147.eq_1 v1317))
theorem k1_off294_inb : ∀ (v1317 : BitVec 32) (k1_hw147 : k1_chk147 v1317), ∀ a, (k1_off294 v1317) a + S1x128.size a ≤ S16384x128.size a := fun v1317 k1_hw147 => k1_hw147

def k1_off295 (i : grid1.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v1324 : BitVec 32 := Scalar.addi v0 c147_i32
  let v1325 : Index := Scalar.indexCast v1324
  ![v1325.toNat]
def k1_off296 (v1326 : BitVec 32) : Fin 2 → Nat :=
  let c0_i32_591 : BitVec 32 := 0#32
  ![v1326.toNat, 0]

def k1_chk148 (v1326 : BitVec 32) : Prop :=
  (∀ a, (k1_off296 v1326) a + S1x128.size a ≤ S16384x128.size a)
instance k1_chk148.dec : ∀ (v1326 : BitVec 32), Decidable (k1_chk148 v1326) := fun v1326 => decidable_of_iff' _ (Iff.of_eq (k1_chk148.eq_1 v1326))
theorem k1_off296_inb : ∀ (v1326 : BitVec 32) (k1_hw148 : k1_chk148 v1326), ∀ a, (k1_off296 v1326) a + S1x128.size a ≤ S16384x128.size a := fun v1326 k1_hw148 => k1_hw148

def k1_off297 (i : grid1.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v1333 : BitVec 32 := Scalar.addi v0 c148_i32
  let v1334 : Index := Scalar.indexCast v1333
  ![v1334.toNat]
def k1_off298 (v1335 : BitVec 32) : Fin 2 → Nat :=
  let c0_i32_595 : BitVec 32 := 0#32
  ![v1335.toNat, 0]

def k1_chk149 (v1335 : BitVec 32) : Prop :=
  (∀ a, (k1_off298 v1335) a + S1x128.size a ≤ S16384x128.size a)
instance k1_chk149.dec : ∀ (v1335 : BitVec 32), Decidable (k1_chk149 v1335) := fun v1335 => decidable_of_iff' _ (Iff.of_eq (k1_chk149.eq_1 v1335))
theorem k1_off298_inb : ∀ (v1335 : BitVec 32) (k1_hw149 : k1_chk149 v1335), ∀ a, (k1_off298 v1335) a + S1x128.size a ≤ S16384x128.size a := fun v1335 k1_hw149 => k1_hw149

def k1_off299 (i : grid1.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v1342 : BitVec 32 := Scalar.addi v0 c149_i32
  let v1343 : Index := Scalar.indexCast v1342
  ![v1343.toNat]
def k1_off300 (v1344 : BitVec 32) : Fin 2 → Nat :=
  let c0_i32_599 : BitVec 32 := 0#32
  ![v1344.toNat, 0]

def k1_chk150 (v1344 : BitVec 32) : Prop :=
  (∀ a, (k1_off300 v1344) a + S1x128.size a ≤ S16384x128.size a)
instance k1_chk150.dec : ∀ (v1344 : BitVec 32), Decidable (k1_chk150 v1344) := fun v1344 => decidable_of_iff' _ (Iff.of_eq (k1_chk150.eq_1 v1344))
theorem k1_off300_inb : ∀ (v1344 : BitVec 32) (k1_hw150 : k1_chk150 v1344), ∀ a, (k1_off300 v1344) a + S1x128.size a ≤ S16384x128.size a := fun v1344 k1_hw150 => k1_hw150

def k1_off301 (i : grid1.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v1351 : BitVec 32 := Scalar.addi v0 c150_i32
  let v1352 : Index := Scalar.indexCast v1351
  ![v1352.toNat]
def k1_off302 (v1353 : BitVec 32) : Fin 2 → Nat :=
  let c0_i32_603 : BitVec 32 := 0#32
  ![v1353.toNat, 0]

def k1_chk151 (v1353 : BitVec 32) : Prop :=
  (∀ a, (k1_off302 v1353) a + S1x128.size a ≤ S16384x128.size a)
instance k1_chk151.dec : ∀ (v1353 : BitVec 32), Decidable (k1_chk151 v1353) := fun v1353 => decidable_of_iff' _ (Iff.of_eq (k1_chk151.eq_1 v1353))
theorem k1_off302_inb : ∀ (v1353 : BitVec 32) (k1_hw151 : k1_chk151 v1353), ∀ a, (k1_off302 v1353) a + S1x128.size a ≤ S16384x128.size a := fun v1353 k1_hw151 => k1_hw151

def k1_off303 (i : grid1.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v1360 : BitVec 32 := Scalar.addi v0 c151_i32
  let v1361 : Index := Scalar.indexCast v1360
  ![v1361.toNat]
def k1_off304 (v1362 : BitVec 32) : Fin 2 → Nat :=
  let c0_i32_607 : BitVec 32 := 0#32
  ![v1362.toNat, 0]

def k1_chk152 (v1362 : BitVec 32) : Prop :=
  (∀ a, (k1_off304 v1362) a + S1x128.size a ≤ S16384x128.size a)
instance k1_chk152.dec : ∀ (v1362 : BitVec 32), Decidable (k1_chk152 v1362) := fun v1362 => decidable_of_iff' _ (Iff.of_eq (k1_chk152.eq_1 v1362))
theorem k1_off304_inb : ∀ (v1362 : BitVec 32) (k1_hw152 : k1_chk152 v1362), ∀ a, (k1_off304 v1362) a + S1x128.size a ≤ S16384x128.size a := fun v1362 k1_hw152 => k1_hw152

def k1_off305 (i : grid1.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v1369 : BitVec 32 := Scalar.addi v0 c152_i32
  let v1370 : Index := Scalar.indexCast v1369
  ![v1370.toNat]
def k1_off306 (v1371 : BitVec 32) : Fin 2 → Nat :=
  let c0_i32_611 : BitVec 32 := 0#32
  ![v1371.toNat, 0]

def k1_chk153 (v1371 : BitVec 32) : Prop :=
  (∀ a, (k1_off306 v1371) a + S1x128.size a ≤ S16384x128.size a)
instance k1_chk153.dec : ∀ (v1371 : BitVec 32), Decidable (k1_chk153 v1371) := fun v1371 => decidable_of_iff' _ (Iff.of_eq (k1_chk153.eq_1 v1371))
theorem k1_off306_inb : ∀ (v1371 : BitVec 32) (k1_hw153 : k1_chk153 v1371), ∀ a, (k1_off306 v1371) a + S1x128.size a ≤ S16384x128.size a := fun v1371 k1_hw153 => k1_hw153

def k1_off307 (i : grid1.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v1378 : BitVec 32 := Scalar.addi v0 c153_i32
  let v1379 : Index := Scalar.indexCast v1378
  ![v1379.toNat]
def k1_off308 (v1380 : BitVec 32) : Fin 2 → Nat :=
  let c0_i32_615 : BitVec 32 := 0#32
  ![v1380.toNat, 0]

def k1_chk154 (v1380 : BitVec 32) : Prop :=
  (∀ a, (k1_off308 v1380) a + S1x128.size a ≤ S16384x128.size a)
instance k1_chk154.dec : ∀ (v1380 : BitVec 32), Decidable (k1_chk154 v1380) := fun v1380 => decidable_of_iff' _ (Iff.of_eq (k1_chk154.eq_1 v1380))
theorem k1_off308_inb : ∀ (v1380 : BitVec 32) (k1_hw154 : k1_chk154 v1380), ∀ a, (k1_off308 v1380) a + S1x128.size a ≤ S16384x128.size a := fun v1380 k1_hw154 => k1_hw154

def k1_off309 (i : grid1.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v1387 : BitVec 32 := Scalar.addi v0 c154_i32
  let v1388 : Index := Scalar.indexCast v1387
  ![v1388.toNat]
def k1_off310 (v1389 : BitVec 32) : Fin 2 → Nat :=
  let c0_i32_619 : BitVec 32 := 0#32
  ![v1389.toNat, 0]

def k1_chk155 (v1389 : BitVec 32) : Prop :=
  (∀ a, (k1_off310 v1389) a + S1x128.size a ≤ S16384x128.size a)
instance k1_chk155.dec : ∀ (v1389 : BitVec 32), Decidable (k1_chk155 v1389) := fun v1389 => decidable_of_iff' _ (Iff.of_eq (k1_chk155.eq_1 v1389))
theorem k1_off310_inb : ∀ (v1389 : BitVec 32) (k1_hw155 : k1_chk155 v1389), ∀ a, (k1_off310 v1389) a + S1x128.size a ≤ S16384x128.size a := fun v1389 k1_hw155 => k1_hw155

def k1_off311 (i : grid1.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v1396 : BitVec 32 := Scalar.addi v0 c155_i32
  let v1397 : Index := Scalar.indexCast v1396
  ![v1397.toNat]
def k1_off312 (v1398 : BitVec 32) : Fin 2 → Nat :=
  let c0_i32_623 : BitVec 32 := 0#32
  ![v1398.toNat, 0]

def k1_chk156 (v1398 : BitVec 32) : Prop :=
  (∀ a, (k1_off312 v1398) a + S1x128.size a ≤ S16384x128.size a)
instance k1_chk156.dec : ∀ (v1398 : BitVec 32), Decidable (k1_chk156 v1398) := fun v1398 => decidable_of_iff' _ (Iff.of_eq (k1_chk156.eq_1 v1398))
theorem k1_off312_inb : ∀ (v1398 : BitVec 32) (k1_hw156 : k1_chk156 v1398), ∀ a, (k1_off312 v1398) a + S1x128.size a ≤ S16384x128.size a := fun v1398 k1_hw156 => k1_hw156

def k1_off313 (i : grid1.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v1405 : BitVec 32 := Scalar.addi v0 c156_i32
  let v1406 : Index := Scalar.indexCast v1405
  ![v1406.toNat]
def k1_off314 (v1407 : BitVec 32) : Fin 2 → Nat :=
  let c0_i32_627 : BitVec 32 := 0#32
  ![v1407.toNat, 0]

def k1_chk157 (v1407 : BitVec 32) : Prop :=
  (∀ a, (k1_off314 v1407) a + S1x128.size a ≤ S16384x128.size a)
instance k1_chk157.dec : ∀ (v1407 : BitVec 32), Decidable (k1_chk157 v1407) := fun v1407 => decidable_of_iff' _ (Iff.of_eq (k1_chk157.eq_1 v1407))
theorem k1_off314_inb : ∀ (v1407 : BitVec 32) (k1_hw157 : k1_chk157 v1407), ∀ a, (k1_off314 v1407) a + S1x128.size a ≤ S16384x128.size a := fun v1407 k1_hw157 => k1_hw157

def k1_off315 (i : grid1.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v1414 : BitVec 32 := Scalar.addi v0 c157_i32
  let v1415 : Index := Scalar.indexCast v1414
  ![v1415.toNat]
def k1_off316 (v1416 : BitVec 32) : Fin 2 → Nat :=
  let c0_i32_631 : BitVec 32 := 0#32
  ![v1416.toNat, 0]

def k1_chk158 (v1416 : BitVec 32) : Prop :=
  (∀ a, (k1_off316 v1416) a + S1x128.size a ≤ S16384x128.size a)
instance k1_chk158.dec : ∀ (v1416 : BitVec 32), Decidable (k1_chk158 v1416) := fun v1416 => decidable_of_iff' _ (Iff.of_eq (k1_chk158.eq_1 v1416))
theorem k1_off316_inb : ∀ (v1416 : BitVec 32) (k1_hw158 : k1_chk158 v1416), ∀ a, (k1_off316 v1416) a + S1x128.size a ≤ S16384x128.size a := fun v1416 k1_hw158 => k1_hw158

def k1_off317 (i : grid1.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v1423 : BitVec 32 := Scalar.addi v0 c158_i32
  let v1424 : Index := Scalar.indexCast v1423
  ![v1424.toNat]
def k1_off318 (v1425 : BitVec 32) : Fin 2 → Nat :=
  let c0_i32_635 : BitVec 32 := 0#32
  ![v1425.toNat, 0]

def k1_chk159 (v1425 : BitVec 32) : Prop :=
  (∀ a, (k1_off318 v1425) a + S1x128.size a ≤ S16384x128.size a)
instance k1_chk159.dec : ∀ (v1425 : BitVec 32), Decidable (k1_chk159 v1425) := fun v1425 => decidable_of_iff' _ (Iff.of_eq (k1_chk159.eq_1 v1425))
theorem k1_off318_inb : ∀ (v1425 : BitVec 32) (k1_hw159 : k1_chk159 v1425), ∀ a, (k1_off318 v1425) a + S1x128.size a ≤ S16384x128.size a := fun v1425 k1_hw159 => k1_hw159

def k1_off319 (i : grid1.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v1432 : BitVec 32 := Scalar.addi v0 c159_i32
  let v1433 : Index := Scalar.indexCast v1432
  ![v1433.toNat]
def k1_off320 (v1434 : BitVec 32) : Fin 2 → Nat :=
  let c0_i32_639 : BitVec 32 := 0#32
  ![v1434.toNat, 0]

def k1_chk160 (v1434 : BitVec 32) : Prop :=
  (∀ a, (k1_off320 v1434) a + S1x128.size a ≤ S16384x128.size a)
instance k1_chk160.dec : ∀ (v1434 : BitVec 32), Decidable (k1_chk160 v1434) := fun v1434 => decidable_of_iff' _ (Iff.of_eq (k1_chk160.eq_1 v1434))
theorem k1_off320_inb : ∀ (v1434 : BitVec 32) (k1_hw160 : k1_chk160 v1434), ∀ a, (k1_off320 v1434) a + S1x128.size a ≤ S16384x128.size a := fun v1434 k1_hw160 => k1_hw160

def k1_off321 (i : grid1.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v1441 : BitVec 32 := Scalar.addi v0 c160_i32
  let v1442 : Index := Scalar.indexCast v1441
  ![v1442.toNat]
def k1_off322 (v1443 : BitVec 32) : Fin 2 → Nat :=
  let c0_i32_643 : BitVec 32 := 0#32
  ![v1443.toNat, 0]

def k1_chk161 (v1443 : BitVec 32) : Prop :=
  (∀ a, (k1_off322 v1443) a + S1x128.size a ≤ S16384x128.size a)
instance k1_chk161.dec : ∀ (v1443 : BitVec 32), Decidable (k1_chk161 v1443) := fun v1443 => decidable_of_iff' _ (Iff.of_eq (k1_chk161.eq_1 v1443))
theorem k1_off322_inb : ∀ (v1443 : BitVec 32) (k1_hw161 : k1_chk161 v1443), ∀ a, (k1_off322 v1443) a + S1x128.size a ≤ S16384x128.size a := fun v1443 k1_hw161 => k1_hw161

def k1_off323 (i : grid1.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v1450 : BitVec 32 := Scalar.addi v0 c161_i32
  let v1451 : Index := Scalar.indexCast v1450
  ![v1451.toNat]
def k1_off324 (v1452 : BitVec 32) : Fin 2 → Nat :=
  let c0_i32_647 : BitVec 32 := 0#32
  ![v1452.toNat, 0]

def k1_chk162 (v1452 : BitVec 32) : Prop :=
  (∀ a, (k1_off324 v1452) a + S1x128.size a ≤ S16384x128.size a)
instance k1_chk162.dec : ∀ (v1452 : BitVec 32), Decidable (k1_chk162 v1452) := fun v1452 => decidable_of_iff' _ (Iff.of_eq (k1_chk162.eq_1 v1452))
theorem k1_off324_inb : ∀ (v1452 : BitVec 32) (k1_hw162 : k1_chk162 v1452), ∀ a, (k1_off324 v1452) a + S1x128.size a ≤ S16384x128.size a := fun v1452 k1_hw162 => k1_hw162

def k1_off325 (i : grid1.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v1459 : BitVec 32 := Scalar.addi v0 c162_i32
  let v1460 : Index := Scalar.indexCast v1459
  ![v1460.toNat]
def k1_off326 (v1461 : BitVec 32) : Fin 2 → Nat :=
  let c0_i32_651 : BitVec 32 := 0#32
  ![v1461.toNat, 0]

def k1_chk163 (v1461 : BitVec 32) : Prop :=
  (∀ a, (k1_off326 v1461) a + S1x128.size a ≤ S16384x128.size a)
instance k1_chk163.dec : ∀ (v1461 : BitVec 32), Decidable (k1_chk163 v1461) := fun v1461 => decidable_of_iff' _ (Iff.of_eq (k1_chk163.eq_1 v1461))
theorem k1_off326_inb : ∀ (v1461 : BitVec 32) (k1_hw163 : k1_chk163 v1461), ∀ a, (k1_off326 v1461) a + S1x128.size a ≤ S16384x128.size a := fun v1461 k1_hw163 => k1_hw163

def k1_off327 (i : grid1.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v1468 : BitVec 32 := Scalar.addi v0 c163_i32
  let v1469 : Index := Scalar.indexCast v1468
  ![v1469.toNat]
def k1_off328 (v1470 : BitVec 32) : Fin 2 → Nat :=
  let c0_i32_655 : BitVec 32 := 0#32
  ![v1470.toNat, 0]

def k1_chk164 (v1470 : BitVec 32) : Prop :=
  (∀ a, (k1_off328 v1470) a + S1x128.size a ≤ S16384x128.size a)
instance k1_chk164.dec : ∀ (v1470 : BitVec 32), Decidable (k1_chk164 v1470) := fun v1470 => decidable_of_iff' _ (Iff.of_eq (k1_chk164.eq_1 v1470))
theorem k1_off328_inb : ∀ (v1470 : BitVec 32) (k1_hw164 : k1_chk164 v1470), ∀ a, (k1_off328 v1470) a + S1x128.size a ≤ S16384x128.size a := fun v1470 k1_hw164 => k1_hw164

def k1_off329 (i : grid1.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v1477 : BitVec 32 := Scalar.addi v0 c164_i32
  let v1478 : Index := Scalar.indexCast v1477
  ![v1478.toNat]
def k1_off330 (v1479 : BitVec 32) : Fin 2 → Nat :=
  let c0_i32_659 : BitVec 32 := 0#32
  ![v1479.toNat, 0]

def k1_chk165 (v1479 : BitVec 32) : Prop :=
  (∀ a, (k1_off330 v1479) a + S1x128.size a ≤ S16384x128.size a)
instance k1_chk165.dec : ∀ (v1479 : BitVec 32), Decidable (k1_chk165 v1479) := fun v1479 => decidable_of_iff' _ (Iff.of_eq (k1_chk165.eq_1 v1479))
theorem k1_off330_inb : ∀ (v1479 : BitVec 32) (k1_hw165 : k1_chk165 v1479), ∀ a, (k1_off330 v1479) a + S1x128.size a ≤ S16384x128.size a := fun v1479 k1_hw165 => k1_hw165

def k1_off331 (i : grid1.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v1486 : BitVec 32 := Scalar.addi v0 c165_i32
  let v1487 : Index := Scalar.indexCast v1486
  ![v1487.toNat]
def k1_off332 (v1488 : BitVec 32) : Fin 2 → Nat :=
  let c0_i32_663 : BitVec 32 := 0#32
  ![v1488.toNat, 0]

def k1_chk166 (v1488 : BitVec 32) : Prop :=
  (∀ a, (k1_off332 v1488) a + S1x128.size a ≤ S16384x128.size a)
instance k1_chk166.dec : ∀ (v1488 : BitVec 32), Decidable (k1_chk166 v1488) := fun v1488 => decidable_of_iff' _ (Iff.of_eq (k1_chk166.eq_1 v1488))
theorem k1_off332_inb : ∀ (v1488 : BitVec 32) (k1_hw166 : k1_chk166 v1488), ∀ a, (k1_off332 v1488) a + S1x128.size a ≤ S16384x128.size a := fun v1488 k1_hw166 => k1_hw166

def k1_off333 (i : grid1.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v1495 : BitVec 32 := Scalar.addi v0 c166_i32
  let v1496 : Index := Scalar.indexCast v1495
  ![v1496.toNat]
def k1_off334 (v1497 : BitVec 32) : Fin 2 → Nat :=
  let c0_i32_667 : BitVec 32 := 0#32
  ![v1497.toNat, 0]

def k1_chk167 (v1497 : BitVec 32) : Prop :=
  (∀ a, (k1_off334 v1497) a + S1x128.size a ≤ S16384x128.size a)
instance k1_chk167.dec : ∀ (v1497 : BitVec 32), Decidable (k1_chk167 v1497) := fun v1497 => decidable_of_iff' _ (Iff.of_eq (k1_chk167.eq_1 v1497))
theorem k1_off334_inb : ∀ (v1497 : BitVec 32) (k1_hw167 : k1_chk167 v1497), ∀ a, (k1_off334 v1497) a + S1x128.size a ≤ S16384x128.size a := fun v1497 k1_hw167 => k1_hw167

def k1_off335 (i : grid1.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v1504 : BitVec 32 := Scalar.addi v0 c167_i32
  let v1505 : Index := Scalar.indexCast v1504
  ![v1505.toNat]
def k1_off336 (v1506 : BitVec 32) : Fin 2 → Nat :=
  let c0_i32_671 : BitVec 32 := 0#32
  ![v1506.toNat, 0]

def k1_chk168 (v1506 : BitVec 32) : Prop :=
  (∀ a, (k1_off336 v1506) a + S1x128.size a ≤ S16384x128.size a)
instance k1_chk168.dec : ∀ (v1506 : BitVec 32), Decidable (k1_chk168 v1506) := fun v1506 => decidable_of_iff' _ (Iff.of_eq (k1_chk168.eq_1 v1506))
theorem k1_off336_inb : ∀ (v1506 : BitVec 32) (k1_hw168 : k1_chk168 v1506), ∀ a, (k1_off336 v1506) a + S1x128.size a ≤ S16384x128.size a := fun v1506 k1_hw168 => k1_hw168

def k1_off337 (i : grid1.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v1513 : BitVec 32 := Scalar.addi v0 c168_i32
  let v1514 : Index := Scalar.indexCast v1513
  ![v1514.toNat]
def k1_off338 (v1515 : BitVec 32) : Fin 2 → Nat :=
  let c0_i32_675 : BitVec 32 := 0#32
  ![v1515.toNat, 0]

def k1_chk169 (v1515 : BitVec 32) : Prop :=
  (∀ a, (k1_off338 v1515) a + S1x128.size a ≤ S16384x128.size a)
instance k1_chk169.dec : ∀ (v1515 : BitVec 32), Decidable (k1_chk169 v1515) := fun v1515 => decidable_of_iff' _ (Iff.of_eq (k1_chk169.eq_1 v1515))
theorem k1_off338_inb : ∀ (v1515 : BitVec 32) (k1_hw169 : k1_chk169 v1515), ∀ a, (k1_off338 v1515) a + S1x128.size a ≤ S16384x128.size a := fun v1515 k1_hw169 => k1_hw169

def k1_off339 (i : grid1.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v1522 : BitVec 32 := Scalar.addi v0 c169_i32
  let v1523 : Index := Scalar.indexCast v1522
  ![v1523.toNat]
def k1_off340 (v1524 : BitVec 32) : Fin 2 → Nat :=
  let c0_i32_679 : BitVec 32 := 0#32
  ![v1524.toNat, 0]

def k1_chk170 (v1524 : BitVec 32) : Prop :=
  (∀ a, (k1_off340 v1524) a + S1x128.size a ≤ S16384x128.size a)
instance k1_chk170.dec : ∀ (v1524 : BitVec 32), Decidable (k1_chk170 v1524) := fun v1524 => decidable_of_iff' _ (Iff.of_eq (k1_chk170.eq_1 v1524))
theorem k1_off340_inb : ∀ (v1524 : BitVec 32) (k1_hw170 : k1_chk170 v1524), ∀ a, (k1_off340 v1524) a + S1x128.size a ≤ S16384x128.size a := fun v1524 k1_hw170 => k1_hw170

def k1_off341 (i : grid1.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v1531 : BitVec 32 := Scalar.addi v0 c170_i32
  let v1532 : Index := Scalar.indexCast v1531
  ![v1532.toNat]
def k1_off342 (v1533 : BitVec 32) : Fin 2 → Nat :=
  let c0_i32_683 : BitVec 32 := 0#32
  ![v1533.toNat, 0]

def k1_chk171 (v1533 : BitVec 32) : Prop :=
  (∀ a, (k1_off342 v1533) a + S1x128.size a ≤ S16384x128.size a)
instance k1_chk171.dec : ∀ (v1533 : BitVec 32), Decidable (k1_chk171 v1533) := fun v1533 => decidable_of_iff' _ (Iff.of_eq (k1_chk171.eq_1 v1533))
theorem k1_off342_inb : ∀ (v1533 : BitVec 32) (k1_hw171 : k1_chk171 v1533), ∀ a, (k1_off342 v1533) a + S1x128.size a ≤ S16384x128.size a := fun v1533 k1_hw171 => k1_hw171

def k1_off343 (i : grid1.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v1540 : BitVec 32 := Scalar.addi v0 c171_i32
  let v1541 : Index := Scalar.indexCast v1540
  ![v1541.toNat]
def k1_off344 (v1542 : BitVec 32) : Fin 2 → Nat :=
  let c0_i32_687 : BitVec 32 := 0#32
  ![v1542.toNat, 0]

def k1_chk172 (v1542 : BitVec 32) : Prop :=
  (∀ a, (k1_off344 v1542) a + S1x128.size a ≤ S16384x128.size a)
instance k1_chk172.dec : ∀ (v1542 : BitVec 32), Decidable (k1_chk172 v1542) := fun v1542 => decidable_of_iff' _ (Iff.of_eq (k1_chk172.eq_1 v1542))
theorem k1_off344_inb : ∀ (v1542 : BitVec 32) (k1_hw172 : k1_chk172 v1542), ∀ a, (k1_off344 v1542) a + S1x128.size a ≤ S16384x128.size a := fun v1542 k1_hw172 => k1_hw172

def k1_off345 (i : grid1.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v1549 : BitVec 32 := Scalar.addi v0 c172_i32
  let v1550 : Index := Scalar.indexCast v1549
  ![v1550.toNat]
def k1_off346 (v1551 : BitVec 32) : Fin 2 → Nat :=
  let c0_i32_691 : BitVec 32 := 0#32
  ![v1551.toNat, 0]

def k1_chk173 (v1551 : BitVec 32) : Prop :=
  (∀ a, (k1_off346 v1551) a + S1x128.size a ≤ S16384x128.size a)
instance k1_chk173.dec : ∀ (v1551 : BitVec 32), Decidable (k1_chk173 v1551) := fun v1551 => decidable_of_iff' _ (Iff.of_eq (k1_chk173.eq_1 v1551))
theorem k1_off346_inb : ∀ (v1551 : BitVec 32) (k1_hw173 : k1_chk173 v1551), ∀ a, (k1_off346 v1551) a + S1x128.size a ≤ S16384x128.size a := fun v1551 k1_hw173 => k1_hw173

def k1_off347 (i : grid1.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v1558 : BitVec 32 := Scalar.addi v0 c173_i32
  let v1559 : Index := Scalar.indexCast v1558
  ![v1559.toNat]
def k1_off348 (v1560 : BitVec 32) : Fin 2 → Nat :=
  let c0_i32_695 : BitVec 32 := 0#32
  ![v1560.toNat, 0]

def k1_chk174 (v1560 : BitVec 32) : Prop :=
  (∀ a, (k1_off348 v1560) a + S1x128.size a ≤ S16384x128.size a)
instance k1_chk174.dec : ∀ (v1560 : BitVec 32), Decidable (k1_chk174 v1560) := fun v1560 => decidable_of_iff' _ (Iff.of_eq (k1_chk174.eq_1 v1560))
theorem k1_off348_inb : ∀ (v1560 : BitVec 32) (k1_hw174 : k1_chk174 v1560), ∀ a, (k1_off348 v1560) a + S1x128.size a ≤ S16384x128.size a := fun v1560 k1_hw174 => k1_hw174

def k1_off349 (i : grid1.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v1567 : BitVec 32 := Scalar.addi v0 c174_i32
  let v1568 : Index := Scalar.indexCast v1567
  ![v1568.toNat]
def k1_off350 (v1569 : BitVec 32) : Fin 2 → Nat :=
  let c0_i32_699 : BitVec 32 := 0#32
  ![v1569.toNat, 0]

def k1_chk175 (v1569 : BitVec 32) : Prop :=
  (∀ a, (k1_off350 v1569) a + S1x128.size a ≤ S16384x128.size a)
instance k1_chk175.dec : ∀ (v1569 : BitVec 32), Decidable (k1_chk175 v1569) := fun v1569 => decidable_of_iff' _ (Iff.of_eq (k1_chk175.eq_1 v1569))
theorem k1_off350_inb : ∀ (v1569 : BitVec 32) (k1_hw175 : k1_chk175 v1569), ∀ a, (k1_off350 v1569) a + S1x128.size a ≤ S16384x128.size a := fun v1569 k1_hw175 => k1_hw175

def k1_off351 (i : grid1.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v1576 : BitVec 32 := Scalar.addi v0 c175_i32
  let v1577 : Index := Scalar.indexCast v1576
  ![v1577.toNat]
def k1_off352 (v1578 : BitVec 32) : Fin 2 → Nat :=
  let c0_i32_703 : BitVec 32 := 0#32
  ![v1578.toNat, 0]

def k1_chk176 (v1578 : BitVec 32) : Prop :=
  (∀ a, (k1_off352 v1578) a + S1x128.size a ≤ S16384x128.size a)
instance k1_chk176.dec : ∀ (v1578 : BitVec 32), Decidable (k1_chk176 v1578) := fun v1578 => decidable_of_iff' _ (Iff.of_eq (k1_chk176.eq_1 v1578))
theorem k1_off352_inb : ∀ (v1578 : BitVec 32) (k1_hw176 : k1_chk176 v1578), ∀ a, (k1_off352 v1578) a + S1x128.size a ≤ S16384x128.size a := fun v1578 k1_hw176 => k1_hw176

def k1_off353 (i : grid1.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v1585 : BitVec 32 := Scalar.addi v0 c176_i32
  let v1586 : Index := Scalar.indexCast v1585
  ![v1586.toNat]
def k1_off354 (v1587 : BitVec 32) : Fin 2 → Nat :=
  let c0_i32_707 : BitVec 32 := 0#32
  ![v1587.toNat, 0]

def k1_chk177 (v1587 : BitVec 32) : Prop :=
  (∀ a, (k1_off354 v1587) a + S1x128.size a ≤ S16384x128.size a)
instance k1_chk177.dec : ∀ (v1587 : BitVec 32), Decidable (k1_chk177 v1587) := fun v1587 => decidable_of_iff' _ (Iff.of_eq (k1_chk177.eq_1 v1587))
theorem k1_off354_inb : ∀ (v1587 : BitVec 32) (k1_hw177 : k1_chk177 v1587), ∀ a, (k1_off354 v1587) a + S1x128.size a ≤ S16384x128.size a := fun v1587 k1_hw177 => k1_hw177

def k1_off355 (i : grid1.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v1594 : BitVec 32 := Scalar.addi v0 c177_i32
  let v1595 : Index := Scalar.indexCast v1594
  ![v1595.toNat]
def k1_off356 (v1596 : BitVec 32) : Fin 2 → Nat :=
  let c0_i32_711 : BitVec 32 := 0#32
  ![v1596.toNat, 0]

def k1_chk178 (v1596 : BitVec 32) : Prop :=
  (∀ a, (k1_off356 v1596) a + S1x128.size a ≤ S16384x128.size a)
instance k1_chk178.dec : ∀ (v1596 : BitVec 32), Decidable (k1_chk178 v1596) := fun v1596 => decidable_of_iff' _ (Iff.of_eq (k1_chk178.eq_1 v1596))
theorem k1_off356_inb : ∀ (v1596 : BitVec 32) (k1_hw178 : k1_chk178 v1596), ∀ a, (k1_off356 v1596) a + S1x128.size a ≤ S16384x128.size a := fun v1596 k1_hw178 => k1_hw178

def k1_off357 (i : grid1.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v1603 : BitVec 32 := Scalar.addi v0 c178_i32
  let v1604 : Index := Scalar.indexCast v1603
  ![v1604.toNat]
def k1_off358 (v1605 : BitVec 32) : Fin 2 → Nat :=
  let c0_i32_715 : BitVec 32 := 0#32
  ![v1605.toNat, 0]

def k1_chk179 (v1605 : BitVec 32) : Prop :=
  (∀ a, (k1_off358 v1605) a + S1x128.size a ≤ S16384x128.size a)
instance k1_chk179.dec : ∀ (v1605 : BitVec 32), Decidable (k1_chk179 v1605) := fun v1605 => decidable_of_iff' _ (Iff.of_eq (k1_chk179.eq_1 v1605))
theorem k1_off358_inb : ∀ (v1605 : BitVec 32) (k1_hw179 : k1_chk179 v1605), ∀ a, (k1_off358 v1605) a + S1x128.size a ≤ S16384x128.size a := fun v1605 k1_hw179 => k1_hw179

def k1_off359 (i : grid1.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v1612 : BitVec 32 := Scalar.addi v0 c179_i32
  let v1613 : Index := Scalar.indexCast v1612
  ![v1613.toNat]
def k1_off360 (v1614 : BitVec 32) : Fin 2 → Nat :=
  let c0_i32_719 : BitVec 32 := 0#32
  ![v1614.toNat, 0]

def k1_chk180 (v1614 : BitVec 32) : Prop :=
  (∀ a, (k1_off360 v1614) a + S1x128.size a ≤ S16384x128.size a)
instance k1_chk180.dec : ∀ (v1614 : BitVec 32), Decidable (k1_chk180 v1614) := fun v1614 => decidable_of_iff' _ (Iff.of_eq (k1_chk180.eq_1 v1614))
theorem k1_off360_inb : ∀ (v1614 : BitVec 32) (k1_hw180 : k1_chk180 v1614), ∀ a, (k1_off360 v1614) a + S1x128.size a ≤ S16384x128.size a := fun v1614 k1_hw180 => k1_hw180

def k1_off361 (i : grid1.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v1621 : BitVec 32 := Scalar.addi v0 c180_i32
  let v1622 : Index := Scalar.indexCast v1621
  ![v1622.toNat]
def k1_off362 (v1623 : BitVec 32) : Fin 2 → Nat :=
  let c0_i32_723 : BitVec 32 := 0#32
  ![v1623.toNat, 0]

def k1_chk181 (v1623 : BitVec 32) : Prop :=
  (∀ a, (k1_off362 v1623) a + S1x128.size a ≤ S16384x128.size a)
instance k1_chk181.dec : ∀ (v1623 : BitVec 32), Decidable (k1_chk181 v1623) := fun v1623 => decidable_of_iff' _ (Iff.of_eq (k1_chk181.eq_1 v1623))
theorem k1_off362_inb : ∀ (v1623 : BitVec 32) (k1_hw181 : k1_chk181 v1623), ∀ a, (k1_off362 v1623) a + S1x128.size a ≤ S16384x128.size a := fun v1623 k1_hw181 => k1_hw181

def k1_off363 (i : grid1.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v1630 : BitVec 32 := Scalar.addi v0 c181_i32
  let v1631 : Index := Scalar.indexCast v1630
  ![v1631.toNat]
def k1_off364 (v1632 : BitVec 32) : Fin 2 → Nat :=
  let c0_i32_727 : BitVec 32 := 0#32
  ![v1632.toNat, 0]

def k1_chk182 (v1632 : BitVec 32) : Prop :=
  (∀ a, (k1_off364 v1632) a + S1x128.size a ≤ S16384x128.size a)
instance k1_chk182.dec : ∀ (v1632 : BitVec 32), Decidable (k1_chk182 v1632) := fun v1632 => decidable_of_iff' _ (Iff.of_eq (k1_chk182.eq_1 v1632))
theorem k1_off364_inb : ∀ (v1632 : BitVec 32) (k1_hw182 : k1_chk182 v1632), ∀ a, (k1_off364 v1632) a + S1x128.size a ≤ S16384x128.size a := fun v1632 k1_hw182 => k1_hw182

def k1_off365 (i : grid1.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v1639 : BitVec 32 := Scalar.addi v0 c182_i32
  let v1640 : Index := Scalar.indexCast v1639
  ![v1640.toNat]
def k1_off366 (v1641 : BitVec 32) : Fin 2 → Nat :=
  let c0_i32_731 : BitVec 32 := 0#32
  ![v1641.toNat, 0]

def k1_chk183 (v1641 : BitVec 32) : Prop :=
  (∀ a, (k1_off366 v1641) a + S1x128.size a ≤ S16384x128.size a)
instance k1_chk183.dec : ∀ (v1641 : BitVec 32), Decidable (k1_chk183 v1641) := fun v1641 => decidable_of_iff' _ (Iff.of_eq (k1_chk183.eq_1 v1641))
theorem k1_off366_inb : ∀ (v1641 : BitVec 32) (k1_hw183 : k1_chk183 v1641), ∀ a, (k1_off366 v1641) a + S1x128.size a ≤ S16384x128.size a := fun v1641 k1_hw183 => k1_hw183

def k1_off367 (i : grid1.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v1648 : BitVec 32 := Scalar.addi v0 c183_i32
  let v1649 : Index := Scalar.indexCast v1648
  ![v1649.toNat]
def k1_off368 (v1650 : BitVec 32) : Fin 2 → Nat :=
  let c0_i32_735 : BitVec 32 := 0#32
  ![v1650.toNat, 0]

def k1_chk184 (v1650 : BitVec 32) : Prop :=
  (∀ a, (k1_off368 v1650) a + S1x128.size a ≤ S16384x128.size a)
instance k1_chk184.dec : ∀ (v1650 : BitVec 32), Decidable (k1_chk184 v1650) := fun v1650 => decidable_of_iff' _ (Iff.of_eq (k1_chk184.eq_1 v1650))
theorem k1_off368_inb : ∀ (v1650 : BitVec 32) (k1_hw184 : k1_chk184 v1650), ∀ a, (k1_off368 v1650) a + S1x128.size a ≤ S16384x128.size a := fun v1650 k1_hw184 => k1_hw184

def k1_off369 (i : grid1.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v1657 : BitVec 32 := Scalar.addi v0 c184_i32
  let v1658 : Index := Scalar.indexCast v1657
  ![v1658.toNat]
def k1_off370 (v1659 : BitVec 32) : Fin 2 → Nat :=
  let c0_i32_739 : BitVec 32 := 0#32
  ![v1659.toNat, 0]

def k1_chk185 (v1659 : BitVec 32) : Prop :=
  (∀ a, (k1_off370 v1659) a + S1x128.size a ≤ S16384x128.size a)
instance k1_chk185.dec : ∀ (v1659 : BitVec 32), Decidable (k1_chk185 v1659) := fun v1659 => decidable_of_iff' _ (Iff.of_eq (k1_chk185.eq_1 v1659))
theorem k1_off370_inb : ∀ (v1659 : BitVec 32) (k1_hw185 : k1_chk185 v1659), ∀ a, (k1_off370 v1659) a + S1x128.size a ≤ S16384x128.size a := fun v1659 k1_hw185 => k1_hw185

def k1_off371 (i : grid1.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v1666 : BitVec 32 := Scalar.addi v0 c185_i32
  let v1667 : Index := Scalar.indexCast v1666
  ![v1667.toNat]
def k1_off372 (v1668 : BitVec 32) : Fin 2 → Nat :=
  let c0_i32_743 : BitVec 32 := 0#32
  ![v1668.toNat, 0]

def k1_chk186 (v1668 : BitVec 32) : Prop :=
  (∀ a, (k1_off372 v1668) a + S1x128.size a ≤ S16384x128.size a)
instance k1_chk186.dec : ∀ (v1668 : BitVec 32), Decidable (k1_chk186 v1668) := fun v1668 => decidable_of_iff' _ (Iff.of_eq (k1_chk186.eq_1 v1668))
theorem k1_off372_inb : ∀ (v1668 : BitVec 32) (k1_hw186 : k1_chk186 v1668), ∀ a, (k1_off372 v1668) a + S1x128.size a ≤ S16384x128.size a := fun v1668 k1_hw186 => k1_hw186

def k1_off373 (i : grid1.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v1675 : BitVec 32 := Scalar.addi v0 c186_i32
  let v1676 : Index := Scalar.indexCast v1675
  ![v1676.toNat]
def k1_off374 (v1677 : BitVec 32) : Fin 2 → Nat :=
  let c0_i32_747 : BitVec 32 := 0#32
  ![v1677.toNat, 0]

def k1_chk187 (v1677 : BitVec 32) : Prop :=
  (∀ a, (k1_off374 v1677) a + S1x128.size a ≤ S16384x128.size a)
instance k1_chk187.dec : ∀ (v1677 : BitVec 32), Decidable (k1_chk187 v1677) := fun v1677 => decidable_of_iff' _ (Iff.of_eq (k1_chk187.eq_1 v1677))
theorem k1_off374_inb : ∀ (v1677 : BitVec 32) (k1_hw187 : k1_chk187 v1677), ∀ a, (k1_off374 v1677) a + S1x128.size a ≤ S16384x128.size a := fun v1677 k1_hw187 => k1_hw187

def k1_off375 (i : grid1.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v1684 : BitVec 32 := Scalar.addi v0 c187_i32
  let v1685 : Index := Scalar.indexCast v1684
  ![v1685.toNat]
def k1_off376 (v1686 : BitVec 32) : Fin 2 → Nat :=
  let c0_i32_751 : BitVec 32 := 0#32
  ![v1686.toNat, 0]

def k1_chk188 (v1686 : BitVec 32) : Prop :=
  (∀ a, (k1_off376 v1686) a + S1x128.size a ≤ S16384x128.size a)
instance k1_chk188.dec : ∀ (v1686 : BitVec 32), Decidable (k1_chk188 v1686) := fun v1686 => decidable_of_iff' _ (Iff.of_eq (k1_chk188.eq_1 v1686))
theorem k1_off376_inb : ∀ (v1686 : BitVec 32) (k1_hw188 : k1_chk188 v1686), ∀ a, (k1_off376 v1686) a + S1x128.size a ≤ S16384x128.size a := fun v1686 k1_hw188 => k1_hw188

def k1_off377 (i : grid1.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v1693 : BitVec 32 := Scalar.addi v0 c188_i32
  let v1694 : Index := Scalar.indexCast v1693
  ![v1694.toNat]
def k1_off378 (v1695 : BitVec 32) : Fin 2 → Nat :=
  let c0_i32_755 : BitVec 32 := 0#32
  ![v1695.toNat, 0]

def k1_chk189 (v1695 : BitVec 32) : Prop :=
  (∀ a, (k1_off378 v1695) a + S1x128.size a ≤ S16384x128.size a)
instance k1_chk189.dec : ∀ (v1695 : BitVec 32), Decidable (k1_chk189 v1695) := fun v1695 => decidable_of_iff' _ (Iff.of_eq (k1_chk189.eq_1 v1695))
theorem k1_off378_inb : ∀ (v1695 : BitVec 32) (k1_hw189 : k1_chk189 v1695), ∀ a, (k1_off378 v1695) a + S1x128.size a ≤ S16384x128.size a := fun v1695 k1_hw189 => k1_hw189

def k1_off379 (i : grid1.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v1702 : BitVec 32 := Scalar.addi v0 c189_i32
  let v1703 : Index := Scalar.indexCast v1702
  ![v1703.toNat]
def k1_off380 (v1704 : BitVec 32) : Fin 2 → Nat :=
  let c0_i32_759 : BitVec 32 := 0#32
  ![v1704.toNat, 0]

def k1_chk190 (v1704 : BitVec 32) : Prop :=
  (∀ a, (k1_off380 v1704) a + S1x128.size a ≤ S16384x128.size a)
instance k1_chk190.dec : ∀ (v1704 : BitVec 32), Decidable (k1_chk190 v1704) := fun v1704 => decidable_of_iff' _ (Iff.of_eq (k1_chk190.eq_1 v1704))
theorem k1_off380_inb : ∀ (v1704 : BitVec 32) (k1_hw190 : k1_chk190 v1704), ∀ a, (k1_off380 v1704) a + S1x128.size a ≤ S16384x128.size a := fun v1704 k1_hw190 => k1_hw190

def k1_off381 (i : grid1.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v1711 : BitVec 32 := Scalar.addi v0 c190_i32
  let v1712 : Index := Scalar.indexCast v1711
  ![v1712.toNat]
def k1_off382 (v1713 : BitVec 32) : Fin 2 → Nat :=
  let c0_i32_763 : BitVec 32 := 0#32
  ![v1713.toNat, 0]

def k1_chk191 (v1713 : BitVec 32) : Prop :=
  (∀ a, (k1_off382 v1713) a + S1x128.size a ≤ S16384x128.size a)
instance k1_chk191.dec : ∀ (v1713 : BitVec 32), Decidable (k1_chk191 v1713) := fun v1713 => decidable_of_iff' _ (Iff.of_eq (k1_chk191.eq_1 v1713))
theorem k1_off382_inb : ∀ (v1713 : BitVec 32) (k1_hw191 : k1_chk191 v1713), ∀ a, (k1_off382 v1713) a + S1x128.size a ≤ S16384x128.size a := fun v1713 k1_hw191 => k1_hw191

def k1_off383 (i : grid1.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v1720 : BitVec 32 := Scalar.addi v0 c191_i32
  let v1721 : Index := Scalar.indexCast v1720
  ![v1721.toNat]
def k1_off384 (v1722 : BitVec 32) : Fin 2 → Nat :=
  let c0_i32_767 : BitVec 32 := 0#32
  ![v1722.toNat, 0]

def k1_chk192 (v1722 : BitVec 32) : Prop :=
  (∀ a, (k1_off384 v1722) a + S1x128.size a ≤ S16384x128.size a)
instance k1_chk192.dec : ∀ (v1722 : BitVec 32), Decidable (k1_chk192 v1722) := fun v1722 => decidable_of_iff' _ (Iff.of_eq (k1_chk192.eq_1 v1722))
theorem k1_off384_inb : ∀ (v1722 : BitVec 32) (k1_hw192 : k1_chk192 v1722), ∀ a, (k1_off384 v1722) a + S1x128.size a ≤ S16384x128.size a := fun v1722 k1_hw192 => k1_hw192

def k1_off385 (i : grid1.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v1729 : BitVec 32 := Scalar.addi v0 c192_i32
  let v1730 : Index := Scalar.indexCast v1729
  ![v1730.toNat]
def k1_off386 (v1731 : BitVec 32) : Fin 2 → Nat :=
  let c0_i32_771 : BitVec 32 := 0#32
  ![v1731.toNat, 0]

def k1_chk193 (v1731 : BitVec 32) : Prop :=
  (∀ a, (k1_off386 v1731) a + S1x128.size a ≤ S16384x128.size a)
instance k1_chk193.dec : ∀ (v1731 : BitVec 32), Decidable (k1_chk193 v1731) := fun v1731 => decidable_of_iff' _ (Iff.of_eq (k1_chk193.eq_1 v1731))
theorem k1_off386_inb : ∀ (v1731 : BitVec 32) (k1_hw193 : k1_chk193 v1731), ∀ a, (k1_off386 v1731) a + S1x128.size a ≤ S16384x128.size a := fun v1731 k1_hw193 => k1_hw193

def k1_off387 (i : grid1.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v1738 : BitVec 32 := Scalar.addi v0 c193_i32
  let v1739 : Index := Scalar.indexCast v1738
  ![v1739.toNat]
def k1_off388 (v1740 : BitVec 32) : Fin 2 → Nat :=
  let c0_i32_775 : BitVec 32 := 0#32
  ![v1740.toNat, 0]

def k1_chk194 (v1740 : BitVec 32) : Prop :=
  (∀ a, (k1_off388 v1740) a + S1x128.size a ≤ S16384x128.size a)
instance k1_chk194.dec : ∀ (v1740 : BitVec 32), Decidable (k1_chk194 v1740) := fun v1740 => decidable_of_iff' _ (Iff.of_eq (k1_chk194.eq_1 v1740))
theorem k1_off388_inb : ∀ (v1740 : BitVec 32) (k1_hw194 : k1_chk194 v1740), ∀ a, (k1_off388 v1740) a + S1x128.size a ≤ S16384x128.size a := fun v1740 k1_hw194 => k1_hw194

def k1_off389 (i : grid1.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v1747 : BitVec 32 := Scalar.addi v0 c194_i32
  let v1748 : Index := Scalar.indexCast v1747
  ![v1748.toNat]
def k1_off390 (v1749 : BitVec 32) : Fin 2 → Nat :=
  let c0_i32_779 : BitVec 32 := 0#32
  ![v1749.toNat, 0]

def k1_chk195 (v1749 : BitVec 32) : Prop :=
  (∀ a, (k1_off390 v1749) a + S1x128.size a ≤ S16384x128.size a)
instance k1_chk195.dec : ∀ (v1749 : BitVec 32), Decidable (k1_chk195 v1749) := fun v1749 => decidable_of_iff' _ (Iff.of_eq (k1_chk195.eq_1 v1749))
theorem k1_off390_inb : ∀ (v1749 : BitVec 32) (k1_hw195 : k1_chk195 v1749), ∀ a, (k1_off390 v1749) a + S1x128.size a ≤ S16384x128.size a := fun v1749 k1_hw195 => k1_hw195

def k1_off391 (i : grid1.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v1756 : BitVec 32 := Scalar.addi v0 c195_i32
  let v1757 : Index := Scalar.indexCast v1756
  ![v1757.toNat]
def k1_off392 (v1758 : BitVec 32) : Fin 2 → Nat :=
  let c0_i32_783 : BitVec 32 := 0#32
  ![v1758.toNat, 0]

def k1_chk196 (v1758 : BitVec 32) : Prop :=
  (∀ a, (k1_off392 v1758) a + S1x128.size a ≤ S16384x128.size a)
instance k1_chk196.dec : ∀ (v1758 : BitVec 32), Decidable (k1_chk196 v1758) := fun v1758 => decidable_of_iff' _ (Iff.of_eq (k1_chk196.eq_1 v1758))
theorem k1_off392_inb : ∀ (v1758 : BitVec 32) (k1_hw196 : k1_chk196 v1758), ∀ a, (k1_off392 v1758) a + S1x128.size a ≤ S16384x128.size a := fun v1758 k1_hw196 => k1_hw196

def k1_off393 (i : grid1.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v1765 : BitVec 32 := Scalar.addi v0 c196_i32
  let v1766 : Index := Scalar.indexCast v1765
  ![v1766.toNat]
def k1_off394 (v1767 : BitVec 32) : Fin 2 → Nat :=
  let c0_i32_787 : BitVec 32 := 0#32
  ![v1767.toNat, 0]

def k1_chk197 (v1767 : BitVec 32) : Prop :=
  (∀ a, (k1_off394 v1767) a + S1x128.size a ≤ S16384x128.size a)
instance k1_chk197.dec : ∀ (v1767 : BitVec 32), Decidable (k1_chk197 v1767) := fun v1767 => decidable_of_iff' _ (Iff.of_eq (k1_chk197.eq_1 v1767))
theorem k1_off394_inb : ∀ (v1767 : BitVec 32) (k1_hw197 : k1_chk197 v1767), ∀ a, (k1_off394 v1767) a + S1x128.size a ≤ S16384x128.size a := fun v1767 k1_hw197 => k1_hw197

def k1_off395 (i : grid1.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v1774 : BitVec 32 := Scalar.addi v0 c197_i32
  let v1775 : Index := Scalar.indexCast v1774
  ![v1775.toNat]
def k1_off396 (v1776 : BitVec 32) : Fin 2 → Nat :=
  let c0_i32_791 : BitVec 32 := 0#32
  ![v1776.toNat, 0]

def k1_chk198 (v1776 : BitVec 32) : Prop :=
  (∀ a, (k1_off396 v1776) a + S1x128.size a ≤ S16384x128.size a)
instance k1_chk198.dec : ∀ (v1776 : BitVec 32), Decidable (k1_chk198 v1776) := fun v1776 => decidable_of_iff' _ (Iff.of_eq (k1_chk198.eq_1 v1776))
theorem k1_off396_inb : ∀ (v1776 : BitVec 32) (k1_hw198 : k1_chk198 v1776), ∀ a, (k1_off396 v1776) a + S1x128.size a ≤ S16384x128.size a := fun v1776 k1_hw198 => k1_hw198

def k1_off397 (i : grid1.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v1783 : BitVec 32 := Scalar.addi v0 c198_i32
  let v1784 : Index := Scalar.indexCast v1783
  ![v1784.toNat]
def k1_off398 (v1785 : BitVec 32) : Fin 2 → Nat :=
  let c0_i32_795 : BitVec 32 := 0#32
  ![v1785.toNat, 0]

def k1_chk199 (v1785 : BitVec 32) : Prop :=
  (∀ a, (k1_off398 v1785) a + S1x128.size a ≤ S16384x128.size a)
instance k1_chk199.dec : ∀ (v1785 : BitVec 32), Decidable (k1_chk199 v1785) := fun v1785 => decidable_of_iff' _ (Iff.of_eq (k1_chk199.eq_1 v1785))
theorem k1_off398_inb : ∀ (v1785 : BitVec 32) (k1_hw199 : k1_chk199 v1785), ∀ a, (k1_off398 v1785) a + S1x128.size a ≤ S16384x128.size a := fun v1785 k1_hw199 => k1_hw199

def k1_off399 (i : grid1.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v1792 : BitVec 32 := Scalar.addi v0 c199_i32
  let v1793 : Index := Scalar.indexCast v1792
  ![v1793.toNat]
def k1_off400 (v1794 : BitVec 32) : Fin 2 → Nat :=
  let c0_i32_799 : BitVec 32 := 0#32
  ![v1794.toNat, 0]

def k1_chk200 (v1794 : BitVec 32) : Prop :=
  (∀ a, (k1_off400 v1794) a + S1x128.size a ≤ S16384x128.size a)
instance k1_chk200.dec : ∀ (v1794 : BitVec 32), Decidable (k1_chk200 v1794) := fun v1794 => decidable_of_iff' _ (Iff.of_eq (k1_chk200.eq_1 v1794))
theorem k1_off400_inb : ∀ (v1794 : BitVec 32) (k1_hw200 : k1_chk200 v1794), ∀ a, (k1_off400 v1794) a + S1x128.size a ≤ S16384x128.size a := fun v1794 k1_hw200 => k1_hw200

def k1_off401 (i : grid1.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v1801 : BitVec 32 := Scalar.addi v0 c200_i32
  let v1802 : Index := Scalar.indexCast v1801
  ![v1802.toNat]
def k1_off402 (v1803 : BitVec 32) : Fin 2 → Nat :=
  let c0_i32_803 : BitVec 32 := 0#32
  ![v1803.toNat, 0]

def k1_chk201 (v1803 : BitVec 32) : Prop :=
  (∀ a, (k1_off402 v1803) a + S1x128.size a ≤ S16384x128.size a)
instance k1_chk201.dec : ∀ (v1803 : BitVec 32), Decidable (k1_chk201 v1803) := fun v1803 => decidable_of_iff' _ (Iff.of_eq (k1_chk201.eq_1 v1803))
theorem k1_off402_inb : ∀ (v1803 : BitVec 32) (k1_hw201 : k1_chk201 v1803), ∀ a, (k1_off402 v1803) a + S1x128.size a ≤ S16384x128.size a := fun v1803 k1_hw201 => k1_hw201

def k1_off403 (i : grid1.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v1810 : BitVec 32 := Scalar.addi v0 c201_i32
  let v1811 : Index := Scalar.indexCast v1810
  ![v1811.toNat]
def k1_off404 (v1812 : BitVec 32) : Fin 2 → Nat :=
  let c0_i32_807 : BitVec 32 := 0#32
  ![v1812.toNat, 0]

def k1_chk202 (v1812 : BitVec 32) : Prop :=
  (∀ a, (k1_off404 v1812) a + S1x128.size a ≤ S16384x128.size a)
instance k1_chk202.dec : ∀ (v1812 : BitVec 32), Decidable (k1_chk202 v1812) := fun v1812 => decidable_of_iff' _ (Iff.of_eq (k1_chk202.eq_1 v1812))
theorem k1_off404_inb : ∀ (v1812 : BitVec 32) (k1_hw202 : k1_chk202 v1812), ∀ a, (k1_off404 v1812) a + S1x128.size a ≤ S16384x128.size a := fun v1812 k1_hw202 => k1_hw202

def k1_off405 (i : grid1.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v1819 : BitVec 32 := Scalar.addi v0 c202_i32
  let v1820 : Index := Scalar.indexCast v1819
  ![v1820.toNat]
def k1_off406 (v1821 : BitVec 32) : Fin 2 → Nat :=
  let c0_i32_811 : BitVec 32 := 0#32
  ![v1821.toNat, 0]

def k1_chk203 (v1821 : BitVec 32) : Prop :=
  (∀ a, (k1_off406 v1821) a + S1x128.size a ≤ S16384x128.size a)
instance k1_chk203.dec : ∀ (v1821 : BitVec 32), Decidable (k1_chk203 v1821) := fun v1821 => decidable_of_iff' _ (Iff.of_eq (k1_chk203.eq_1 v1821))
theorem k1_off406_inb : ∀ (v1821 : BitVec 32) (k1_hw203 : k1_chk203 v1821), ∀ a, (k1_off406 v1821) a + S1x128.size a ≤ S16384x128.size a := fun v1821 k1_hw203 => k1_hw203

def k1_off407 (i : grid1.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v1828 : BitVec 32 := Scalar.addi v0 c203_i32
  let v1829 : Index := Scalar.indexCast v1828
  ![v1829.toNat]
def k1_off408 (v1830 : BitVec 32) : Fin 2 → Nat :=
  let c0_i32_815 : BitVec 32 := 0#32
  ![v1830.toNat, 0]

def k1_chk204 (v1830 : BitVec 32) : Prop :=
  (∀ a, (k1_off408 v1830) a + S1x128.size a ≤ S16384x128.size a)
instance k1_chk204.dec : ∀ (v1830 : BitVec 32), Decidable (k1_chk204 v1830) := fun v1830 => decidable_of_iff' _ (Iff.of_eq (k1_chk204.eq_1 v1830))
theorem k1_off408_inb : ∀ (v1830 : BitVec 32) (k1_hw204 : k1_chk204 v1830), ∀ a, (k1_off408 v1830) a + S1x128.size a ≤ S16384x128.size a := fun v1830 k1_hw204 => k1_hw204

def k1_off409 (i : grid1.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v1837 : BitVec 32 := Scalar.addi v0 c204_i32
  let v1838 : Index := Scalar.indexCast v1837
  ![v1838.toNat]
def k1_off410 (v1839 : BitVec 32) : Fin 2 → Nat :=
  let c0_i32_819 : BitVec 32 := 0#32
  ![v1839.toNat, 0]

def k1_chk205 (v1839 : BitVec 32) : Prop :=
  (∀ a, (k1_off410 v1839) a + S1x128.size a ≤ S16384x128.size a)
instance k1_chk205.dec : ∀ (v1839 : BitVec 32), Decidable (k1_chk205 v1839) := fun v1839 => decidable_of_iff' _ (Iff.of_eq (k1_chk205.eq_1 v1839))
theorem k1_off410_inb : ∀ (v1839 : BitVec 32) (k1_hw205 : k1_chk205 v1839), ∀ a, (k1_off410 v1839) a + S1x128.size a ≤ S16384x128.size a := fun v1839 k1_hw205 => k1_hw205

def k1_off411 (i : grid1.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v1846 : BitVec 32 := Scalar.addi v0 c205_i32
  let v1847 : Index := Scalar.indexCast v1846
  ![v1847.toNat]
def k1_off412 (v1848 : BitVec 32) : Fin 2 → Nat :=
  let c0_i32_823 : BitVec 32 := 0#32
  ![v1848.toNat, 0]

def k1_chk206 (v1848 : BitVec 32) : Prop :=
  (∀ a, (k1_off412 v1848) a + S1x128.size a ≤ S16384x128.size a)
instance k1_chk206.dec : ∀ (v1848 : BitVec 32), Decidable (k1_chk206 v1848) := fun v1848 => decidable_of_iff' _ (Iff.of_eq (k1_chk206.eq_1 v1848))
theorem k1_off412_inb : ∀ (v1848 : BitVec 32) (k1_hw206 : k1_chk206 v1848), ∀ a, (k1_off412 v1848) a + S1x128.size a ≤ S16384x128.size a := fun v1848 k1_hw206 => k1_hw206

def k1_off413 (i : grid1.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v1855 : BitVec 32 := Scalar.addi v0 c206_i32
  let v1856 : Index := Scalar.indexCast v1855
  ![v1856.toNat]
def k1_off414 (v1857 : BitVec 32) : Fin 2 → Nat :=
  let c0_i32_827 : BitVec 32 := 0#32
  ![v1857.toNat, 0]

def k1_chk207 (v1857 : BitVec 32) : Prop :=
  (∀ a, (k1_off414 v1857) a + S1x128.size a ≤ S16384x128.size a)
instance k1_chk207.dec : ∀ (v1857 : BitVec 32), Decidable (k1_chk207 v1857) := fun v1857 => decidable_of_iff' _ (Iff.of_eq (k1_chk207.eq_1 v1857))
theorem k1_off414_inb : ∀ (v1857 : BitVec 32) (k1_hw207 : k1_chk207 v1857), ∀ a, (k1_off414 v1857) a + S1x128.size a ≤ S16384x128.size a := fun v1857 k1_hw207 => k1_hw207

def k1_off415 (i : grid1.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v1864 : BitVec 32 := Scalar.addi v0 c207_i32
  let v1865 : Index := Scalar.indexCast v1864
  ![v1865.toNat]
def k1_off416 (v1866 : BitVec 32) : Fin 2 → Nat :=
  let c0_i32_831 : BitVec 32 := 0#32
  ![v1866.toNat, 0]

def k1_chk208 (v1866 : BitVec 32) : Prop :=
  (∀ a, (k1_off416 v1866) a + S1x128.size a ≤ S16384x128.size a)
instance k1_chk208.dec : ∀ (v1866 : BitVec 32), Decidable (k1_chk208 v1866) := fun v1866 => decidable_of_iff' _ (Iff.of_eq (k1_chk208.eq_1 v1866))
theorem k1_off416_inb : ∀ (v1866 : BitVec 32) (k1_hw208 : k1_chk208 v1866), ∀ a, (k1_off416 v1866) a + S1x128.size a ≤ S16384x128.size a := fun v1866 k1_hw208 => k1_hw208

def k1_off417 (i : grid1.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v1873 : BitVec 32 := Scalar.addi v0 c208_i32
  let v1874 : Index := Scalar.indexCast v1873
  ![v1874.toNat]
def k1_off418 (v1875 : BitVec 32) : Fin 2 → Nat :=
  let c0_i32_835 : BitVec 32 := 0#32
  ![v1875.toNat, 0]

def k1_chk209 (v1875 : BitVec 32) : Prop :=
  (∀ a, (k1_off418 v1875) a + S1x128.size a ≤ S16384x128.size a)
instance k1_chk209.dec : ∀ (v1875 : BitVec 32), Decidable (k1_chk209 v1875) := fun v1875 => decidable_of_iff' _ (Iff.of_eq (k1_chk209.eq_1 v1875))
theorem k1_off418_inb : ∀ (v1875 : BitVec 32) (k1_hw209 : k1_chk209 v1875), ∀ a, (k1_off418 v1875) a + S1x128.size a ≤ S16384x128.size a := fun v1875 k1_hw209 => k1_hw209

def k1_off419 (i : grid1.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v1882 : BitVec 32 := Scalar.addi v0 c209_i32
  let v1883 : Index := Scalar.indexCast v1882
  ![v1883.toNat]
def k1_off420 (v1884 : BitVec 32) : Fin 2 → Nat :=
  let c0_i32_839 : BitVec 32 := 0#32
  ![v1884.toNat, 0]

def k1_chk210 (v1884 : BitVec 32) : Prop :=
  (∀ a, (k1_off420 v1884) a + S1x128.size a ≤ S16384x128.size a)
instance k1_chk210.dec : ∀ (v1884 : BitVec 32), Decidable (k1_chk210 v1884) := fun v1884 => decidable_of_iff' _ (Iff.of_eq (k1_chk210.eq_1 v1884))
theorem k1_off420_inb : ∀ (v1884 : BitVec 32) (k1_hw210 : k1_chk210 v1884), ∀ a, (k1_off420 v1884) a + S1x128.size a ≤ S16384x128.size a := fun v1884 k1_hw210 => k1_hw210

def k1_off421 (i : grid1.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v1891 : BitVec 32 := Scalar.addi v0 c210_i32
  let v1892 : Index := Scalar.indexCast v1891
  ![v1892.toNat]
def k1_off422 (v1893 : BitVec 32) : Fin 2 → Nat :=
  let c0_i32_843 : BitVec 32 := 0#32
  ![v1893.toNat, 0]

def k1_chk211 (v1893 : BitVec 32) : Prop :=
  (∀ a, (k1_off422 v1893) a + S1x128.size a ≤ S16384x128.size a)
instance k1_chk211.dec : ∀ (v1893 : BitVec 32), Decidable (k1_chk211 v1893) := fun v1893 => decidable_of_iff' _ (Iff.of_eq (k1_chk211.eq_1 v1893))
theorem k1_off422_inb : ∀ (v1893 : BitVec 32) (k1_hw211 : k1_chk211 v1893), ∀ a, (k1_off422 v1893) a + S1x128.size a ≤ S16384x128.size a := fun v1893 k1_hw211 => k1_hw211

def k1_off423 (i : grid1.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v1900 : BitVec 32 := Scalar.addi v0 c211_i32
  let v1901 : Index := Scalar.indexCast v1900
  ![v1901.toNat]
def k1_off424 (v1902 : BitVec 32) : Fin 2 → Nat :=
  let c0_i32_847 : BitVec 32 := 0#32
  ![v1902.toNat, 0]

def k1_chk212 (v1902 : BitVec 32) : Prop :=
  (∀ a, (k1_off424 v1902) a + S1x128.size a ≤ S16384x128.size a)
instance k1_chk212.dec : ∀ (v1902 : BitVec 32), Decidable (k1_chk212 v1902) := fun v1902 => decidable_of_iff' _ (Iff.of_eq (k1_chk212.eq_1 v1902))
theorem k1_off424_inb : ∀ (v1902 : BitVec 32) (k1_hw212 : k1_chk212 v1902), ∀ a, (k1_off424 v1902) a + S1x128.size a ≤ S16384x128.size a := fun v1902 k1_hw212 => k1_hw212

def k1_off425 (i : grid1.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v1909 : BitVec 32 := Scalar.addi v0 c212_i32
  let v1910 : Index := Scalar.indexCast v1909
  ![v1910.toNat]
def k1_off426 (v1911 : BitVec 32) : Fin 2 → Nat :=
  let c0_i32_851 : BitVec 32 := 0#32
  ![v1911.toNat, 0]

def k1_chk213 (v1911 : BitVec 32) : Prop :=
  (∀ a, (k1_off426 v1911) a + S1x128.size a ≤ S16384x128.size a)
instance k1_chk213.dec : ∀ (v1911 : BitVec 32), Decidable (k1_chk213 v1911) := fun v1911 => decidable_of_iff' _ (Iff.of_eq (k1_chk213.eq_1 v1911))
theorem k1_off426_inb : ∀ (v1911 : BitVec 32) (k1_hw213 : k1_chk213 v1911), ∀ a, (k1_off426 v1911) a + S1x128.size a ≤ S16384x128.size a := fun v1911 k1_hw213 => k1_hw213

def k1_off427 (i : grid1.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v1918 : BitVec 32 := Scalar.addi v0 c213_i32
  let v1919 : Index := Scalar.indexCast v1918
  ![v1919.toNat]
def k1_off428 (v1920 : BitVec 32) : Fin 2 → Nat :=
  let c0_i32_855 : BitVec 32 := 0#32
  ![v1920.toNat, 0]

def k1_chk214 (v1920 : BitVec 32) : Prop :=
  (∀ a, (k1_off428 v1920) a + S1x128.size a ≤ S16384x128.size a)
instance k1_chk214.dec : ∀ (v1920 : BitVec 32), Decidable (k1_chk214 v1920) := fun v1920 => decidable_of_iff' _ (Iff.of_eq (k1_chk214.eq_1 v1920))
theorem k1_off428_inb : ∀ (v1920 : BitVec 32) (k1_hw214 : k1_chk214 v1920), ∀ a, (k1_off428 v1920) a + S1x128.size a ≤ S16384x128.size a := fun v1920 k1_hw214 => k1_hw214

def k1_off429 (i : grid1.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v1927 : BitVec 32 := Scalar.addi v0 c214_i32
  let v1928 : Index := Scalar.indexCast v1927
  ![v1928.toNat]
def k1_off430 (v1929 : BitVec 32) : Fin 2 → Nat :=
  let c0_i32_859 : BitVec 32 := 0#32
  ![v1929.toNat, 0]

def k1_chk215 (v1929 : BitVec 32) : Prop :=
  (∀ a, (k1_off430 v1929) a + S1x128.size a ≤ S16384x128.size a)
instance k1_chk215.dec : ∀ (v1929 : BitVec 32), Decidable (k1_chk215 v1929) := fun v1929 => decidable_of_iff' _ (Iff.of_eq (k1_chk215.eq_1 v1929))
theorem k1_off430_inb : ∀ (v1929 : BitVec 32) (k1_hw215 : k1_chk215 v1929), ∀ a, (k1_off430 v1929) a + S1x128.size a ≤ S16384x128.size a := fun v1929 k1_hw215 => k1_hw215

def k1_off431 (i : grid1.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v1936 : BitVec 32 := Scalar.addi v0 c215_i32
  let v1937 : Index := Scalar.indexCast v1936
  ![v1937.toNat]
def k1_off432 (v1938 : BitVec 32) : Fin 2 → Nat :=
  let c0_i32_863 : BitVec 32 := 0#32
  ![v1938.toNat, 0]

def k1_chk216 (v1938 : BitVec 32) : Prop :=
  (∀ a, (k1_off432 v1938) a + S1x128.size a ≤ S16384x128.size a)
instance k1_chk216.dec : ∀ (v1938 : BitVec 32), Decidable (k1_chk216 v1938) := fun v1938 => decidable_of_iff' _ (Iff.of_eq (k1_chk216.eq_1 v1938))
theorem k1_off432_inb : ∀ (v1938 : BitVec 32) (k1_hw216 : k1_chk216 v1938), ∀ a, (k1_off432 v1938) a + S1x128.size a ≤ S16384x128.size a := fun v1938 k1_hw216 => k1_hw216

def k1_off433 (i : grid1.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v1945 : BitVec 32 := Scalar.addi v0 c216_i32
  let v1946 : Index := Scalar.indexCast v1945
  ![v1946.toNat]
def k1_off434 (v1947 : BitVec 32) : Fin 2 → Nat :=
  let c0_i32_867 : BitVec 32 := 0#32
  ![v1947.toNat, 0]

def k1_chk217 (v1947 : BitVec 32) : Prop :=
  (∀ a, (k1_off434 v1947) a + S1x128.size a ≤ S16384x128.size a)
instance k1_chk217.dec : ∀ (v1947 : BitVec 32), Decidable (k1_chk217 v1947) := fun v1947 => decidable_of_iff' _ (Iff.of_eq (k1_chk217.eq_1 v1947))
theorem k1_off434_inb : ∀ (v1947 : BitVec 32) (k1_hw217 : k1_chk217 v1947), ∀ a, (k1_off434 v1947) a + S1x128.size a ≤ S16384x128.size a := fun v1947 k1_hw217 => k1_hw217

def k1_off435 (i : grid1.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v1954 : BitVec 32 := Scalar.addi v0 c217_i32
  let v1955 : Index := Scalar.indexCast v1954
  ![v1955.toNat]
def k1_off436 (v1956 : BitVec 32) : Fin 2 → Nat :=
  let c0_i32_871 : BitVec 32 := 0#32
  ![v1956.toNat, 0]

def k1_chk218 (v1956 : BitVec 32) : Prop :=
  (∀ a, (k1_off436 v1956) a + S1x128.size a ≤ S16384x128.size a)
instance k1_chk218.dec : ∀ (v1956 : BitVec 32), Decidable (k1_chk218 v1956) := fun v1956 => decidable_of_iff' _ (Iff.of_eq (k1_chk218.eq_1 v1956))
theorem k1_off436_inb : ∀ (v1956 : BitVec 32) (k1_hw218 : k1_chk218 v1956), ∀ a, (k1_off436 v1956) a + S1x128.size a ≤ S16384x128.size a := fun v1956 k1_hw218 => k1_hw218

def k1_off437 (i : grid1.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v1963 : BitVec 32 := Scalar.addi v0 c218_i32
  let v1964 : Index := Scalar.indexCast v1963
  ![v1964.toNat]
def k1_off438 (v1965 : BitVec 32) : Fin 2 → Nat :=
  let c0_i32_875 : BitVec 32 := 0#32
  ![v1965.toNat, 0]

def k1_chk219 (v1965 : BitVec 32) : Prop :=
  (∀ a, (k1_off438 v1965) a + S1x128.size a ≤ S16384x128.size a)
instance k1_chk219.dec : ∀ (v1965 : BitVec 32), Decidable (k1_chk219 v1965) := fun v1965 => decidable_of_iff' _ (Iff.of_eq (k1_chk219.eq_1 v1965))
theorem k1_off438_inb : ∀ (v1965 : BitVec 32) (k1_hw219 : k1_chk219 v1965), ∀ a, (k1_off438 v1965) a + S1x128.size a ≤ S16384x128.size a := fun v1965 k1_hw219 => k1_hw219

def k1_off439 (i : grid1.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v1972 : BitVec 32 := Scalar.addi v0 c219_i32
  let v1973 : Index := Scalar.indexCast v1972
  ![v1973.toNat]
def k1_off440 (v1974 : BitVec 32) : Fin 2 → Nat :=
  let c0_i32_879 : BitVec 32 := 0#32
  ![v1974.toNat, 0]

def k1_chk220 (v1974 : BitVec 32) : Prop :=
  (∀ a, (k1_off440 v1974) a + S1x128.size a ≤ S16384x128.size a)
instance k1_chk220.dec : ∀ (v1974 : BitVec 32), Decidable (k1_chk220 v1974) := fun v1974 => decidable_of_iff' _ (Iff.of_eq (k1_chk220.eq_1 v1974))
theorem k1_off440_inb : ∀ (v1974 : BitVec 32) (k1_hw220 : k1_chk220 v1974), ∀ a, (k1_off440 v1974) a + S1x128.size a ≤ S16384x128.size a := fun v1974 k1_hw220 => k1_hw220

def k1_off441 (i : grid1.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v1981 : BitVec 32 := Scalar.addi v0 c220_i32
  let v1982 : Index := Scalar.indexCast v1981
  ![v1982.toNat]
def k1_off442 (v1983 : BitVec 32) : Fin 2 → Nat :=
  let c0_i32_883 : BitVec 32 := 0#32
  ![v1983.toNat, 0]

def k1_chk221 (v1983 : BitVec 32) : Prop :=
  (∀ a, (k1_off442 v1983) a + S1x128.size a ≤ S16384x128.size a)
instance k1_chk221.dec : ∀ (v1983 : BitVec 32), Decidable (k1_chk221 v1983) := fun v1983 => decidable_of_iff' _ (Iff.of_eq (k1_chk221.eq_1 v1983))
theorem k1_off442_inb : ∀ (v1983 : BitVec 32) (k1_hw221 : k1_chk221 v1983), ∀ a, (k1_off442 v1983) a + S1x128.size a ≤ S16384x128.size a := fun v1983 k1_hw221 => k1_hw221

def k1_off443 (i : grid1.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v1990 : BitVec 32 := Scalar.addi v0 c221_i32
  let v1991 : Index := Scalar.indexCast v1990
  ![v1991.toNat]
def k1_off444 (v1992 : BitVec 32) : Fin 2 → Nat :=
  let c0_i32_887 : BitVec 32 := 0#32
  ![v1992.toNat, 0]

def k1_chk222 (v1992 : BitVec 32) : Prop :=
  (∀ a, (k1_off444 v1992) a + S1x128.size a ≤ S16384x128.size a)
instance k1_chk222.dec : ∀ (v1992 : BitVec 32), Decidable (k1_chk222 v1992) := fun v1992 => decidable_of_iff' _ (Iff.of_eq (k1_chk222.eq_1 v1992))
theorem k1_off444_inb : ∀ (v1992 : BitVec 32) (k1_hw222 : k1_chk222 v1992), ∀ a, (k1_off444 v1992) a + S1x128.size a ≤ S16384x128.size a := fun v1992 k1_hw222 => k1_hw222

def k1_off445 (i : grid1.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v1999 : BitVec 32 := Scalar.addi v0 c222_i32
  let v2000 : Index := Scalar.indexCast v1999
  ![v2000.toNat]
def k1_off446 (v2001 : BitVec 32) : Fin 2 → Nat :=
  let c0_i32_891 : BitVec 32 := 0#32
  ![v2001.toNat, 0]

def k1_chk223 (v2001 : BitVec 32) : Prop :=
  (∀ a, (k1_off446 v2001) a + S1x128.size a ≤ S16384x128.size a)
instance k1_chk223.dec : ∀ (v2001 : BitVec 32), Decidable (k1_chk223 v2001) := fun v2001 => decidable_of_iff' _ (Iff.of_eq (k1_chk223.eq_1 v2001))
theorem k1_off446_inb : ∀ (v2001 : BitVec 32) (k1_hw223 : k1_chk223 v2001), ∀ a, (k1_off446 v2001) a + S1x128.size a ≤ S16384x128.size a := fun v2001 k1_hw223 => k1_hw223

def k1_off447 (i : grid1.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v2008 : BitVec 32 := Scalar.addi v0 c223_i32
  let v2009 : Index := Scalar.indexCast v2008
  ![v2009.toNat]
def k1_off448 (v2010 : BitVec 32) : Fin 2 → Nat :=
  let c0_i32_895 : BitVec 32 := 0#32
  ![v2010.toNat, 0]

def k1_chk224 (v2010 : BitVec 32) : Prop :=
  (∀ a, (k1_off448 v2010) a + S1x128.size a ≤ S16384x128.size a)
instance k1_chk224.dec : ∀ (v2010 : BitVec 32), Decidable (k1_chk224 v2010) := fun v2010 => decidable_of_iff' _ (Iff.of_eq (k1_chk224.eq_1 v2010))
theorem k1_off448_inb : ∀ (v2010 : BitVec 32) (k1_hw224 : k1_chk224 v2010), ∀ a, (k1_off448 v2010) a + S1x128.size a ≤ S16384x128.size a := fun v2010 k1_hw224 => k1_hw224

def k1_off449 (i : grid1.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v2017 : BitVec 32 := Scalar.addi v0 c224_i32
  let v2018 : Index := Scalar.indexCast v2017
  ![v2018.toNat]
def k1_off450 (v2019 : BitVec 32) : Fin 2 → Nat :=
  let c0_i32_899 : BitVec 32 := 0#32
  ![v2019.toNat, 0]

def k1_chk225 (v2019 : BitVec 32) : Prop :=
  (∀ a, (k1_off450 v2019) a + S1x128.size a ≤ S16384x128.size a)
instance k1_chk225.dec : ∀ (v2019 : BitVec 32), Decidable (k1_chk225 v2019) := fun v2019 => decidable_of_iff' _ (Iff.of_eq (k1_chk225.eq_1 v2019))
theorem k1_off450_inb : ∀ (v2019 : BitVec 32) (k1_hw225 : k1_chk225 v2019), ∀ a, (k1_off450 v2019) a + S1x128.size a ≤ S16384x128.size a := fun v2019 k1_hw225 => k1_hw225

def k1_off451 (i : grid1.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v2026 : BitVec 32 := Scalar.addi v0 c225_i32
  let v2027 : Index := Scalar.indexCast v2026
  ![v2027.toNat]
def k1_off452 (v2028 : BitVec 32) : Fin 2 → Nat :=
  let c0_i32_903 : BitVec 32 := 0#32
  ![v2028.toNat, 0]

def k1_chk226 (v2028 : BitVec 32) : Prop :=
  (∀ a, (k1_off452 v2028) a + S1x128.size a ≤ S16384x128.size a)
instance k1_chk226.dec : ∀ (v2028 : BitVec 32), Decidable (k1_chk226 v2028) := fun v2028 => decidable_of_iff' _ (Iff.of_eq (k1_chk226.eq_1 v2028))
theorem k1_off452_inb : ∀ (v2028 : BitVec 32) (k1_hw226 : k1_chk226 v2028), ∀ a, (k1_off452 v2028) a + S1x128.size a ≤ S16384x128.size a := fun v2028 k1_hw226 => k1_hw226

def k1_off453 (i : grid1.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v2035 : BitVec 32 := Scalar.addi v0 c226_i32
  let v2036 : Index := Scalar.indexCast v2035
  ![v2036.toNat]
def k1_off454 (v2037 : BitVec 32) : Fin 2 → Nat :=
  let c0_i32_907 : BitVec 32 := 0#32
  ![v2037.toNat, 0]

def k1_chk227 (v2037 : BitVec 32) : Prop :=
  (∀ a, (k1_off454 v2037) a + S1x128.size a ≤ S16384x128.size a)
instance k1_chk227.dec : ∀ (v2037 : BitVec 32), Decidable (k1_chk227 v2037) := fun v2037 => decidable_of_iff' _ (Iff.of_eq (k1_chk227.eq_1 v2037))
theorem k1_off454_inb : ∀ (v2037 : BitVec 32) (k1_hw227 : k1_chk227 v2037), ∀ a, (k1_off454 v2037) a + S1x128.size a ≤ S16384x128.size a := fun v2037 k1_hw227 => k1_hw227

def k1_off455 (i : grid1.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v2044 : BitVec 32 := Scalar.addi v0 c227_i32
  let v2045 : Index := Scalar.indexCast v2044
  ![v2045.toNat]
def k1_off456 (v2046 : BitVec 32) : Fin 2 → Nat :=
  let c0_i32_911 : BitVec 32 := 0#32
  ![v2046.toNat, 0]

def k1_chk228 (v2046 : BitVec 32) : Prop :=
  (∀ a, (k1_off456 v2046) a + S1x128.size a ≤ S16384x128.size a)
instance k1_chk228.dec : ∀ (v2046 : BitVec 32), Decidable (k1_chk228 v2046) := fun v2046 => decidable_of_iff' _ (Iff.of_eq (k1_chk228.eq_1 v2046))
theorem k1_off456_inb : ∀ (v2046 : BitVec 32) (k1_hw228 : k1_chk228 v2046), ∀ a, (k1_off456 v2046) a + S1x128.size a ≤ S16384x128.size a := fun v2046 k1_hw228 => k1_hw228

def k1_off457 (i : grid1.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v2053 : BitVec 32 := Scalar.addi v0 c228_i32
  let v2054 : Index := Scalar.indexCast v2053
  ![v2054.toNat]
def k1_off458 (v2055 : BitVec 32) : Fin 2 → Nat :=
  let c0_i32_915 : BitVec 32 := 0#32
  ![v2055.toNat, 0]

def k1_chk229 (v2055 : BitVec 32) : Prop :=
  (∀ a, (k1_off458 v2055) a + S1x128.size a ≤ S16384x128.size a)
instance k1_chk229.dec : ∀ (v2055 : BitVec 32), Decidable (k1_chk229 v2055) := fun v2055 => decidable_of_iff' _ (Iff.of_eq (k1_chk229.eq_1 v2055))
theorem k1_off458_inb : ∀ (v2055 : BitVec 32) (k1_hw229 : k1_chk229 v2055), ∀ a, (k1_off458 v2055) a + S1x128.size a ≤ S16384x128.size a := fun v2055 k1_hw229 => k1_hw229

def k1_off459 (i : grid1.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v2062 : BitVec 32 := Scalar.addi v0 c229_i32
  let v2063 : Index := Scalar.indexCast v2062
  ![v2063.toNat]
def k1_off460 (v2064 : BitVec 32) : Fin 2 → Nat :=
  let c0_i32_919 : BitVec 32 := 0#32
  ![v2064.toNat, 0]

def k1_chk230 (v2064 : BitVec 32) : Prop :=
  (∀ a, (k1_off460 v2064) a + S1x128.size a ≤ S16384x128.size a)
instance k1_chk230.dec : ∀ (v2064 : BitVec 32), Decidable (k1_chk230 v2064) := fun v2064 => decidable_of_iff' _ (Iff.of_eq (k1_chk230.eq_1 v2064))
theorem k1_off460_inb : ∀ (v2064 : BitVec 32) (k1_hw230 : k1_chk230 v2064), ∀ a, (k1_off460 v2064) a + S1x128.size a ≤ S16384x128.size a := fun v2064 k1_hw230 => k1_hw230

def k1_off461 (i : grid1.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v2071 : BitVec 32 := Scalar.addi v0 c230_i32
  let v2072 : Index := Scalar.indexCast v2071
  ![v2072.toNat]
def k1_off462 (v2073 : BitVec 32) : Fin 2 → Nat :=
  let c0_i32_923 : BitVec 32 := 0#32
  ![v2073.toNat, 0]

def k1_chk231 (v2073 : BitVec 32) : Prop :=
  (∀ a, (k1_off462 v2073) a + S1x128.size a ≤ S16384x128.size a)
instance k1_chk231.dec : ∀ (v2073 : BitVec 32), Decidable (k1_chk231 v2073) := fun v2073 => decidable_of_iff' _ (Iff.of_eq (k1_chk231.eq_1 v2073))
theorem k1_off462_inb : ∀ (v2073 : BitVec 32) (k1_hw231 : k1_chk231 v2073), ∀ a, (k1_off462 v2073) a + S1x128.size a ≤ S16384x128.size a := fun v2073 k1_hw231 => k1_hw231

def k1_off463 (i : grid1.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v2080 : BitVec 32 := Scalar.addi v0 c231_i32
  let v2081 : Index := Scalar.indexCast v2080
  ![v2081.toNat]
def k1_off464 (v2082 : BitVec 32) : Fin 2 → Nat :=
  let c0_i32_927 : BitVec 32 := 0#32
  ![v2082.toNat, 0]

def k1_chk232 (v2082 : BitVec 32) : Prop :=
  (∀ a, (k1_off464 v2082) a + S1x128.size a ≤ S16384x128.size a)
instance k1_chk232.dec : ∀ (v2082 : BitVec 32), Decidable (k1_chk232 v2082) := fun v2082 => decidable_of_iff' _ (Iff.of_eq (k1_chk232.eq_1 v2082))
theorem k1_off464_inb : ∀ (v2082 : BitVec 32) (k1_hw232 : k1_chk232 v2082), ∀ a, (k1_off464 v2082) a + S1x128.size a ≤ S16384x128.size a := fun v2082 k1_hw232 => k1_hw232

def k1_off465 (i : grid1.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v2089 : BitVec 32 := Scalar.addi v0 c232_i32
  let v2090 : Index := Scalar.indexCast v2089
  ![v2090.toNat]
def k1_off466 (v2091 : BitVec 32) : Fin 2 → Nat :=
  let c0_i32_931 : BitVec 32 := 0#32
  ![v2091.toNat, 0]

def k1_chk233 (v2091 : BitVec 32) : Prop :=
  (∀ a, (k1_off466 v2091) a + S1x128.size a ≤ S16384x128.size a)
instance k1_chk233.dec : ∀ (v2091 : BitVec 32), Decidable (k1_chk233 v2091) := fun v2091 => decidable_of_iff' _ (Iff.of_eq (k1_chk233.eq_1 v2091))
theorem k1_off466_inb : ∀ (v2091 : BitVec 32) (k1_hw233 : k1_chk233 v2091), ∀ a, (k1_off466 v2091) a + S1x128.size a ≤ S16384x128.size a := fun v2091 k1_hw233 => k1_hw233

def k1_off467 (i : grid1.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v2098 : BitVec 32 := Scalar.addi v0 c233_i32
  let v2099 : Index := Scalar.indexCast v2098
  ![v2099.toNat]
def k1_off468 (v2100 : BitVec 32) : Fin 2 → Nat :=
  let c0_i32_935 : BitVec 32 := 0#32
  ![v2100.toNat, 0]

def k1_chk234 (v2100 : BitVec 32) : Prop :=
  (∀ a, (k1_off468 v2100) a + S1x128.size a ≤ S16384x128.size a)
instance k1_chk234.dec : ∀ (v2100 : BitVec 32), Decidable (k1_chk234 v2100) := fun v2100 => decidable_of_iff' _ (Iff.of_eq (k1_chk234.eq_1 v2100))
theorem k1_off468_inb : ∀ (v2100 : BitVec 32) (k1_hw234 : k1_chk234 v2100), ∀ a, (k1_off468 v2100) a + S1x128.size a ≤ S16384x128.size a := fun v2100 k1_hw234 => k1_hw234

def k1_off469 (i : grid1.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v2107 : BitVec 32 := Scalar.addi v0 c234_i32
  let v2108 : Index := Scalar.indexCast v2107
  ![v2108.toNat]
def k1_off470 (v2109 : BitVec 32) : Fin 2 → Nat :=
  let c0_i32_939 : BitVec 32 := 0#32
  ![v2109.toNat, 0]

def k1_chk235 (v2109 : BitVec 32) : Prop :=
  (∀ a, (k1_off470 v2109) a + S1x128.size a ≤ S16384x128.size a)
instance k1_chk235.dec : ∀ (v2109 : BitVec 32), Decidable (k1_chk235 v2109) := fun v2109 => decidable_of_iff' _ (Iff.of_eq (k1_chk235.eq_1 v2109))
theorem k1_off470_inb : ∀ (v2109 : BitVec 32) (k1_hw235 : k1_chk235 v2109), ∀ a, (k1_off470 v2109) a + S1x128.size a ≤ S16384x128.size a := fun v2109 k1_hw235 => k1_hw235

def k1_off471 (i : grid1.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v2116 : BitVec 32 := Scalar.addi v0 c235_i32
  let v2117 : Index := Scalar.indexCast v2116
  ![v2117.toNat]
def k1_off472 (v2118 : BitVec 32) : Fin 2 → Nat :=
  let c0_i32_943 : BitVec 32 := 0#32
  ![v2118.toNat, 0]

def k1_chk236 (v2118 : BitVec 32) : Prop :=
  (∀ a, (k1_off472 v2118) a + S1x128.size a ≤ S16384x128.size a)
instance k1_chk236.dec : ∀ (v2118 : BitVec 32), Decidable (k1_chk236 v2118) := fun v2118 => decidable_of_iff' _ (Iff.of_eq (k1_chk236.eq_1 v2118))
theorem k1_off472_inb : ∀ (v2118 : BitVec 32) (k1_hw236 : k1_chk236 v2118), ∀ a, (k1_off472 v2118) a + S1x128.size a ≤ S16384x128.size a := fun v2118 k1_hw236 => k1_hw236

def k1_off473 (i : grid1.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v2125 : BitVec 32 := Scalar.addi v0 c236_i32
  let v2126 : Index := Scalar.indexCast v2125
  ![v2126.toNat]
def k1_off474 (v2127 : BitVec 32) : Fin 2 → Nat :=
  let c0_i32_947 : BitVec 32 := 0#32
  ![v2127.toNat, 0]

def k1_chk237 (v2127 : BitVec 32) : Prop :=
  (∀ a, (k1_off474 v2127) a + S1x128.size a ≤ S16384x128.size a)
instance k1_chk237.dec : ∀ (v2127 : BitVec 32), Decidable (k1_chk237 v2127) := fun v2127 => decidable_of_iff' _ (Iff.of_eq (k1_chk237.eq_1 v2127))
theorem k1_off474_inb : ∀ (v2127 : BitVec 32) (k1_hw237 : k1_chk237 v2127), ∀ a, (k1_off474 v2127) a + S1x128.size a ≤ S16384x128.size a := fun v2127 k1_hw237 => k1_hw237

def k1_off475 (i : grid1.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v2134 : BitVec 32 := Scalar.addi v0 c237_i32
  let v2135 : Index := Scalar.indexCast v2134
  ![v2135.toNat]
def k1_off476 (v2136 : BitVec 32) : Fin 2 → Nat :=
  let c0_i32_951 : BitVec 32 := 0#32
  ![v2136.toNat, 0]

def k1_chk238 (v2136 : BitVec 32) : Prop :=
  (∀ a, (k1_off476 v2136) a + S1x128.size a ≤ S16384x128.size a)
instance k1_chk238.dec : ∀ (v2136 : BitVec 32), Decidable (k1_chk238 v2136) := fun v2136 => decidable_of_iff' _ (Iff.of_eq (k1_chk238.eq_1 v2136))
theorem k1_off476_inb : ∀ (v2136 : BitVec 32) (k1_hw238 : k1_chk238 v2136), ∀ a, (k1_off476 v2136) a + S1x128.size a ≤ S16384x128.size a := fun v2136 k1_hw238 => k1_hw238

def k1_off477 (i : grid1.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v2143 : BitVec 32 := Scalar.addi v0 c238_i32
  let v2144 : Index := Scalar.indexCast v2143
  ![v2144.toNat]
def k1_off478 (v2145 : BitVec 32) : Fin 2 → Nat :=
  let c0_i32_955 : BitVec 32 := 0#32
  ![v2145.toNat, 0]

def k1_chk239 (v2145 : BitVec 32) : Prop :=
  (∀ a, (k1_off478 v2145) a + S1x128.size a ≤ S16384x128.size a)
instance k1_chk239.dec : ∀ (v2145 : BitVec 32), Decidable (k1_chk239 v2145) := fun v2145 => decidable_of_iff' _ (Iff.of_eq (k1_chk239.eq_1 v2145))
theorem k1_off478_inb : ∀ (v2145 : BitVec 32) (k1_hw239 : k1_chk239 v2145), ∀ a, (k1_off478 v2145) a + S1x128.size a ≤ S16384x128.size a := fun v2145 k1_hw239 => k1_hw239

def k1_off479 (i : grid1.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v2152 : BitVec 32 := Scalar.addi v0 c239_i32
  let v2153 : Index := Scalar.indexCast v2152
  ![v2153.toNat]
def k1_off480 (v2154 : BitVec 32) : Fin 2 → Nat :=
  let c0_i32_959 : BitVec 32 := 0#32
  ![v2154.toNat, 0]

def k1_chk240 (v2154 : BitVec 32) : Prop :=
  (∀ a, (k1_off480 v2154) a + S1x128.size a ≤ S16384x128.size a)
instance k1_chk240.dec : ∀ (v2154 : BitVec 32), Decidable (k1_chk240 v2154) := fun v2154 => decidable_of_iff' _ (Iff.of_eq (k1_chk240.eq_1 v2154))
theorem k1_off480_inb : ∀ (v2154 : BitVec 32) (k1_hw240 : k1_chk240 v2154), ∀ a, (k1_off480 v2154) a + S1x128.size a ≤ S16384x128.size a := fun v2154 k1_hw240 => k1_hw240

def k1_off481 (i : grid1.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v2161 : BitVec 32 := Scalar.addi v0 c240_i32
  let v2162 : Index := Scalar.indexCast v2161
  ![v2162.toNat]
def k1_off482 (v2163 : BitVec 32) : Fin 2 → Nat :=
  let c0_i32_963 : BitVec 32 := 0#32
  ![v2163.toNat, 0]

def k1_chk241 (v2163 : BitVec 32) : Prop :=
  (∀ a, (k1_off482 v2163) a + S1x128.size a ≤ S16384x128.size a)
instance k1_chk241.dec : ∀ (v2163 : BitVec 32), Decidable (k1_chk241 v2163) := fun v2163 => decidable_of_iff' _ (Iff.of_eq (k1_chk241.eq_1 v2163))
theorem k1_off482_inb : ∀ (v2163 : BitVec 32) (k1_hw241 : k1_chk241 v2163), ∀ a, (k1_off482 v2163) a + S1x128.size a ≤ S16384x128.size a := fun v2163 k1_hw241 => k1_hw241

def k1_off483 (i : grid1.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v2170 : BitVec 32 := Scalar.addi v0 c241_i32
  let v2171 : Index := Scalar.indexCast v2170
  ![v2171.toNat]
def k1_off484 (v2172 : BitVec 32) : Fin 2 → Nat :=
  let c0_i32_967 : BitVec 32 := 0#32
  ![v2172.toNat, 0]

def k1_chk242 (v2172 : BitVec 32) : Prop :=
  (∀ a, (k1_off484 v2172) a + S1x128.size a ≤ S16384x128.size a)
instance k1_chk242.dec : ∀ (v2172 : BitVec 32), Decidable (k1_chk242 v2172) := fun v2172 => decidable_of_iff' _ (Iff.of_eq (k1_chk242.eq_1 v2172))
theorem k1_off484_inb : ∀ (v2172 : BitVec 32) (k1_hw242 : k1_chk242 v2172), ∀ a, (k1_off484 v2172) a + S1x128.size a ≤ S16384x128.size a := fun v2172 k1_hw242 => k1_hw242

def k1_off485 (i : grid1.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v2179 : BitVec 32 := Scalar.addi v0 c242_i32
  let v2180 : Index := Scalar.indexCast v2179
  ![v2180.toNat]
def k1_off486 (v2181 : BitVec 32) : Fin 2 → Nat :=
  let c0_i32_971 : BitVec 32 := 0#32
  ![v2181.toNat, 0]

def k1_chk243 (v2181 : BitVec 32) : Prop :=
  (∀ a, (k1_off486 v2181) a + S1x128.size a ≤ S16384x128.size a)
instance k1_chk243.dec : ∀ (v2181 : BitVec 32), Decidable (k1_chk243 v2181) := fun v2181 => decidable_of_iff' _ (Iff.of_eq (k1_chk243.eq_1 v2181))
theorem k1_off486_inb : ∀ (v2181 : BitVec 32) (k1_hw243 : k1_chk243 v2181), ∀ a, (k1_off486 v2181) a + S1x128.size a ≤ S16384x128.size a := fun v2181 k1_hw243 => k1_hw243

def k1_off487 (i : grid1.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v2188 : BitVec 32 := Scalar.addi v0 c243_i32
  let v2189 : Index := Scalar.indexCast v2188
  ![v2189.toNat]
def k1_off488 (v2190 : BitVec 32) : Fin 2 → Nat :=
  let c0_i32_975 : BitVec 32 := 0#32
  ![v2190.toNat, 0]

def k1_chk244 (v2190 : BitVec 32) : Prop :=
  (∀ a, (k1_off488 v2190) a + S1x128.size a ≤ S16384x128.size a)
instance k1_chk244.dec : ∀ (v2190 : BitVec 32), Decidable (k1_chk244 v2190) := fun v2190 => decidable_of_iff' _ (Iff.of_eq (k1_chk244.eq_1 v2190))
theorem k1_off488_inb : ∀ (v2190 : BitVec 32) (k1_hw244 : k1_chk244 v2190), ∀ a, (k1_off488 v2190) a + S1x128.size a ≤ S16384x128.size a := fun v2190 k1_hw244 => k1_hw244

def k1_off489 (i : grid1.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v2197 : BitVec 32 := Scalar.addi v0 c244_i32
  let v2198 : Index := Scalar.indexCast v2197
  ![v2198.toNat]
def k1_off490 (v2199 : BitVec 32) : Fin 2 → Nat :=
  let c0_i32_979 : BitVec 32 := 0#32
  ![v2199.toNat, 0]

def k1_chk245 (v2199 : BitVec 32) : Prop :=
  (∀ a, (k1_off490 v2199) a + S1x128.size a ≤ S16384x128.size a)
instance k1_chk245.dec : ∀ (v2199 : BitVec 32), Decidable (k1_chk245 v2199) := fun v2199 => decidable_of_iff' _ (Iff.of_eq (k1_chk245.eq_1 v2199))
theorem k1_off490_inb : ∀ (v2199 : BitVec 32) (k1_hw245 : k1_chk245 v2199), ∀ a, (k1_off490 v2199) a + S1x128.size a ≤ S16384x128.size a := fun v2199 k1_hw245 => k1_hw245

def k1_off491 (i : grid1.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v2206 : BitVec 32 := Scalar.addi v0 c245_i32
  let v2207 : Index := Scalar.indexCast v2206
  ![v2207.toNat]
def k1_off492 (v2208 : BitVec 32) : Fin 2 → Nat :=
  let c0_i32_983 : BitVec 32 := 0#32
  ![v2208.toNat, 0]

def k1_chk246 (v2208 : BitVec 32) : Prop :=
  (∀ a, (k1_off492 v2208) a + S1x128.size a ≤ S16384x128.size a)
instance k1_chk246.dec : ∀ (v2208 : BitVec 32), Decidable (k1_chk246 v2208) := fun v2208 => decidable_of_iff' _ (Iff.of_eq (k1_chk246.eq_1 v2208))
theorem k1_off492_inb : ∀ (v2208 : BitVec 32) (k1_hw246 : k1_chk246 v2208), ∀ a, (k1_off492 v2208) a + S1x128.size a ≤ S16384x128.size a := fun v2208 k1_hw246 => k1_hw246

def k1_off493 (i : grid1.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v2215 : BitVec 32 := Scalar.addi v0 c246_i32
  let v2216 : Index := Scalar.indexCast v2215
  ![v2216.toNat]
def k1_off494 (v2217 : BitVec 32) : Fin 2 → Nat :=
  let c0_i32_987 : BitVec 32 := 0#32
  ![v2217.toNat, 0]

def k1_chk247 (v2217 : BitVec 32) : Prop :=
  (∀ a, (k1_off494 v2217) a + S1x128.size a ≤ S16384x128.size a)
instance k1_chk247.dec : ∀ (v2217 : BitVec 32), Decidable (k1_chk247 v2217) := fun v2217 => decidable_of_iff' _ (Iff.of_eq (k1_chk247.eq_1 v2217))
theorem k1_off494_inb : ∀ (v2217 : BitVec 32) (k1_hw247 : k1_chk247 v2217), ∀ a, (k1_off494 v2217) a + S1x128.size a ≤ S16384x128.size a := fun v2217 k1_hw247 => k1_hw247

def k1_off495 (i : grid1.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v2224 : BitVec 32 := Scalar.addi v0 c247_i32
  let v2225 : Index := Scalar.indexCast v2224
  ![v2225.toNat]
def k1_off496 (v2226 : BitVec 32) : Fin 2 → Nat :=
  let c0_i32_991 : BitVec 32 := 0#32
  ![v2226.toNat, 0]

def k1_chk248 (v2226 : BitVec 32) : Prop :=
  (∀ a, (k1_off496 v2226) a + S1x128.size a ≤ S16384x128.size a)
instance k1_chk248.dec : ∀ (v2226 : BitVec 32), Decidable (k1_chk248 v2226) := fun v2226 => decidable_of_iff' _ (Iff.of_eq (k1_chk248.eq_1 v2226))
theorem k1_off496_inb : ∀ (v2226 : BitVec 32) (k1_hw248 : k1_chk248 v2226), ∀ a, (k1_off496 v2226) a + S1x128.size a ≤ S16384x128.size a := fun v2226 k1_hw248 => k1_hw248

def k1_off497 (i : grid1.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v2233 : BitVec 32 := Scalar.addi v0 c248_i32
  let v2234 : Index := Scalar.indexCast v2233
  ![v2234.toNat]
def k1_off498 (v2235 : BitVec 32) : Fin 2 → Nat :=
  let c0_i32_995 : BitVec 32 := 0#32
  ![v2235.toNat, 0]

def k1_chk249 (v2235 : BitVec 32) : Prop :=
  (∀ a, (k1_off498 v2235) a + S1x128.size a ≤ S16384x128.size a)
instance k1_chk249.dec : ∀ (v2235 : BitVec 32), Decidable (k1_chk249 v2235) := fun v2235 => decidable_of_iff' _ (Iff.of_eq (k1_chk249.eq_1 v2235))
theorem k1_off498_inb : ∀ (v2235 : BitVec 32) (k1_hw249 : k1_chk249 v2235), ∀ a, (k1_off498 v2235) a + S1x128.size a ≤ S16384x128.size a := fun v2235 k1_hw249 => k1_hw249

def k1_off499 (i : grid1.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v2242 : BitVec 32 := Scalar.addi v0 c249_i32
  let v2243 : Index := Scalar.indexCast v2242
  ![v2243.toNat]
def k1_off500 (v2244 : BitVec 32) : Fin 2 → Nat :=
  let c0_i32_999 : BitVec 32 := 0#32
  ![v2244.toNat, 0]

def k1_chk250 (v2244 : BitVec 32) : Prop :=
  (∀ a, (k1_off500 v2244) a + S1x128.size a ≤ S16384x128.size a)
instance k1_chk250.dec : ∀ (v2244 : BitVec 32), Decidable (k1_chk250 v2244) := fun v2244 => decidable_of_iff' _ (Iff.of_eq (k1_chk250.eq_1 v2244))
theorem k1_off500_inb : ∀ (v2244 : BitVec 32) (k1_hw250 : k1_chk250 v2244), ∀ a, (k1_off500 v2244) a + S1x128.size a ≤ S16384x128.size a := fun v2244 k1_hw250 => k1_hw250

def k1_off501 (i : grid1.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v2251 : BitVec 32 := Scalar.addi v0 c250_i32
  let v2252 : Index := Scalar.indexCast v2251
  ![v2252.toNat]
def k1_off502 (v2253 : BitVec 32) : Fin 2 → Nat :=
  let c0_i32_1003 : BitVec 32 := 0#32
  ![v2253.toNat, 0]

def k1_chk251 (v2253 : BitVec 32) : Prop :=
  (∀ a, (k1_off502 v2253) a + S1x128.size a ≤ S16384x128.size a)
instance k1_chk251.dec : ∀ (v2253 : BitVec 32), Decidable (k1_chk251 v2253) := fun v2253 => decidable_of_iff' _ (Iff.of_eq (k1_chk251.eq_1 v2253))
theorem k1_off502_inb : ∀ (v2253 : BitVec 32) (k1_hw251 : k1_chk251 v2253), ∀ a, (k1_off502 v2253) a + S1x128.size a ≤ S16384x128.size a := fun v2253 k1_hw251 => k1_hw251

def k1_off503 (i : grid1.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v2260 : BitVec 32 := Scalar.addi v0 c251_i32
  let v2261 : Index := Scalar.indexCast v2260
  ![v2261.toNat]
def k1_off504 (v2262 : BitVec 32) : Fin 2 → Nat :=
  let c0_i32_1007 : BitVec 32 := 0#32
  ![v2262.toNat, 0]

def k1_chk252 (v2262 : BitVec 32) : Prop :=
  (∀ a, (k1_off504 v2262) a + S1x128.size a ≤ S16384x128.size a)
instance k1_chk252.dec : ∀ (v2262 : BitVec 32), Decidable (k1_chk252 v2262) := fun v2262 => decidable_of_iff' _ (Iff.of_eq (k1_chk252.eq_1 v2262))
theorem k1_off504_inb : ∀ (v2262 : BitVec 32) (k1_hw252 : k1_chk252 v2262), ∀ a, (k1_off504 v2262) a + S1x128.size a ≤ S16384x128.size a := fun v2262 k1_hw252 => k1_hw252

def k1_off505 (i : grid1.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v2269 : BitVec 32 := Scalar.addi v0 c252_i32
  let v2270 : Index := Scalar.indexCast v2269
  ![v2270.toNat]
def k1_off506 (v2271 : BitVec 32) : Fin 2 → Nat :=
  let c0_i32_1011 : BitVec 32 := 0#32
  ![v2271.toNat, 0]

def k1_chk253 (v2271 : BitVec 32) : Prop :=
  (∀ a, (k1_off506 v2271) a + S1x128.size a ≤ S16384x128.size a)
instance k1_chk253.dec : ∀ (v2271 : BitVec 32), Decidable (k1_chk253 v2271) := fun v2271 => decidable_of_iff' _ (Iff.of_eq (k1_chk253.eq_1 v2271))
theorem k1_off506_inb : ∀ (v2271 : BitVec 32) (k1_hw253 : k1_chk253 v2271), ∀ a, (k1_off506 v2271) a + S1x128.size a ≤ S16384x128.size a := fun v2271 k1_hw253 => k1_hw253

def k1_off507 (i : grid1.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v2278 : BitVec 32 := Scalar.addi v0 c253_i32
  let v2279 : Index := Scalar.indexCast v2278
  ![v2279.toNat]
def k1_off508 (v2280 : BitVec 32) : Fin 2 → Nat :=
  let c0_i32_1015 : BitVec 32 := 0#32
  ![v2280.toNat, 0]

def k1_chk254 (v2280 : BitVec 32) : Prop :=
  (∀ a, (k1_off508 v2280) a + S1x128.size a ≤ S16384x128.size a)
instance k1_chk254.dec : ∀ (v2280 : BitVec 32), Decidable (k1_chk254 v2280) := fun v2280 => decidable_of_iff' _ (Iff.of_eq (k1_chk254.eq_1 v2280))
theorem k1_off508_inb : ∀ (v2280 : BitVec 32) (k1_hw254 : k1_chk254 v2280), ∀ a, (k1_off508 v2280) a + S1x128.size a ≤ S16384x128.size a := fun v2280 k1_hw254 => k1_hw254

def k1_off509 (i : grid1.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v2287 : BitVec 32 := Scalar.addi v0 c254_i32
  let v2288 : Index := Scalar.indexCast v2287
  ![v2288.toNat]
def k1_off510 (v2289 : BitVec 32) : Fin 2 → Nat :=
  let c0_i32_1019 : BitVec 32 := 0#32
  ![v2289.toNat, 0]

def k1_chk255 (v2289 : BitVec 32) : Prop :=
  (∀ a, (k1_off510 v2289) a + S1x128.size a ≤ S16384x128.size a)
instance k1_chk255.dec : ∀ (v2289 : BitVec 32), Decidable (k1_chk255 v2289) := fun v2289 => decidable_of_iff' _ (Iff.of_eq (k1_chk255.eq_1 v2289))
theorem k1_off510_inb : ∀ (v2289 : BitVec 32) (k1_hw255 : k1_chk255 v2289), ∀ a, (k1_off510 v2289) a + S1x128.size a ≤ S16384x128.size a := fun v2289 k1_hw255 => k1_hw255

def k1_off511 (i : grid1.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v2296 : BitVec 32 := Scalar.addi v0 c255_i32
  let v2297 : Index := Scalar.indexCast v2296
  ![v2297.toNat]
def k1_off512 (v2298 : BitVec 32) : Fin 2 → Nat :=
  let c0_i32_1023 : BitVec 32 := 0#32
  ![v2298.toNat, 0]

def k1_chk256 (v2298 : BitVec 32) : Prop :=
  (∀ a, (k1_off512 v2298) a + S1x128.size a ≤ S16384x128.size a)
instance k1_chk256.dec : ∀ (v2298 : BitVec 32), Decidable (k1_chk256 v2298) := fun v2298 => decidable_of_iff' _ (Iff.of_eq (k1_chk256.eq_1 v2298))
theorem k1_off512_inb : ∀ (v2298 : BitVec 32) (k1_hw256 : k1_chk256 v2298), ∀ a, (k1_off512 v2298) a + S1x128.size a ≤ S16384x128.size a := fun v2298 k1_hw256 => k1_hw256

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class K0.Facts₀ : Prop where
  hrank0 : 0 < grid0.rank
  k0_off1_inb : ∀ i : grid0.Coords, ∀ a, (k0_off1 i) a + S1.size a ≤ S4096.size a
  k0_off3_inb : ∀ i : grid0.Coords, ∀ a, (k0_off3 i) a + S1.size a ≤ S4096.size a
  k0_off5_inb : ∀ i : grid0.Coords, ∀ a, (k0_off5 i) a + S1.size a ≤ S4096.size a
  k0_off7_inb : ∀ i : grid0.Coords, ∀ a, (k0_off7 i) a + S1.size a ≤ S4096.size a
  k0_off9_inb : ∀ i : grid0.Coords, ∀ a, (k0_off9 i) a + S1.size a ≤ S4096.size a
  k0_off11_inb : ∀ i : grid0.Coords, ∀ a, (k0_off11 i) a + S1.size a ≤ S4096.size a
  k0_off13_inb : ∀ i : grid0.Coords, ∀ a, (k0_off13 i) a + S1.size a ≤ S4096.size a
  k0_off15_inb : ∀ i : grid0.Coords, ∀ a, (k0_off15 i) a + S1.size a ≤ S4096.size a
  k0_off17_inb : ∀ i : grid0.Coords, ∀ a, (k0_off17 i) a + S1.size a ≤ S4096.size a
  k0_off19_inb : ∀ i : grid0.Coords, ∀ a, (k0_off19 i) a + S1.size a ≤ S4096.size a
  k0_off21_inb : ∀ i : grid0.Coords, ∀ a, (k0_off21 i) a + S1.size a ≤ S4096.size a
  k0_off23_inb : ∀ i : grid0.Coords, ∀ a, (k0_off23 i) a + S1.size a ≤ S4096.size a
  k0_off25_inb : ∀ i : grid0.Coords, ∀ a, (k0_off25 i) a + S1.size a ≤ S4096.size a
  k0_off27_inb : ∀ i : grid0.Coords, ∀ a, (k0_off27 i) a + S1.size a ≤ S4096.size a
  k0_off29_inb : ∀ i : grid0.Coords, ∀ a, (k0_off29 i) a + S1.size a ≤ S4096.size a
  k0_off31_inb : ∀ i : grid0.Coords, ∀ a, (k0_off31 i) a + S1.size a ≤ S4096.size a
  k0_off33_inb : ∀ i : grid0.Coords, ∀ a, (k0_off33 i) a + S1.size a ≤ S4096.size a
  k0_off35_inb : ∀ i : grid0.Coords, ∀ a, (k0_off35 i) a + S1.size a ≤ S4096.size a
  k0_off37_inb : ∀ i : grid0.Coords, ∀ a, (k0_off37 i) a + S1.size a ≤ S4096.size a
  k0_off39_inb : ∀ i : grid0.Coords, ∀ a, (k0_off39 i) a + S1.size a ≤ S4096.size a
  k0_off41_inb : ∀ i : grid0.Coords, ∀ a, (k0_off41 i) a + S1.size a ≤ S4096.size a
  k0_off43_inb : ∀ i : grid0.Coords, ∀ a, (k0_off43 i) a + S1.size a ≤ S4096.size a
  k0_off45_inb : ∀ i : grid0.Coords, ∀ a, (k0_off45 i) a + S1.size a ≤ S4096.size a
  k0_off47_inb : ∀ i : grid0.Coords, ∀ a, (k0_off47 i) a + S1.size a ≤ S4096.size a
  k0_off49_inb : ∀ i : grid0.Coords, ∀ a, (k0_off49 i) a + S1.size a ≤ S4096.size a
  k0_off51_inb : ∀ i : grid0.Coords, ∀ a, (k0_off51 i) a + S1.size a ≤ S4096.size a
  k0_off53_inb : ∀ i : grid0.Coords, ∀ a, (k0_off53 i) a + S1.size a ≤ S4096.size a
  k0_off55_inb : ∀ i : grid0.Coords, ∀ a, (k0_off55 i) a + S1.size a ≤ S4096.size a
  k0_off57_inb : ∀ i : grid0.Coords, ∀ a, (k0_off57 i) a + S1.size a ≤ S4096.size a
  k0_off59_inb : ∀ i : grid0.Coords, ∀ a, (k0_off59 i) a + S1.size a ≤ S4096.size a
  k0_off61_inb : ∀ i : grid0.Coords, ∀ a, (k0_off61 i) a + S1.size a ≤ S4096.size a
  k0_off63_inb : ∀ i : grid0.Coords, ∀ a, (k0_off63 i) a + S1.size a ≤ S4096.size a
  k0_off65_inb : ∀ i : grid0.Coords, ∀ a, (k0_off65 i) a + S1.size a ≤ S4096.size a
  k0_off67_inb : ∀ i : grid0.Coords, ∀ a, (k0_off67 i) a + S1.size a ≤ S4096.size a
  k0_off69_inb : ∀ i : grid0.Coords, ∀ a, (k0_off69 i) a + S1.size a ≤ S4096.size a
  k0_off71_inb : ∀ i : grid0.Coords, ∀ a, (k0_off71 i) a + S1.size a ≤ S4096.size a
  k0_off73_inb : ∀ i : grid0.Coords, ∀ a, (k0_off73 i) a + S1.size a ≤ S4096.size a
  k0_off75_inb : ∀ i : grid0.Coords, ∀ a, (k0_off75 i) a + S1.size a ≤ S4096.size a
  k0_off77_inb : ∀ i : grid0.Coords, ∀ a, (k0_off77 i) a + S1.size a ≤ S4096.size a
  k0_off79_inb : ∀ i : grid0.Coords, ∀ a, (k0_off79 i) a + S1.size a ≤ S4096.size a
  k0_off81_inb : ∀ i : grid0.Coords, ∀ a, (k0_off81 i) a + S1.size a ≤ S4096.size a
  k0_off83_inb : ∀ i : grid0.Coords, ∀ a, (k0_off83 i) a + S1.size a ≤ S4096.size a
  k0_off85_inb : ∀ i : grid0.Coords, ∀ a, (k0_off85 i) a + S1.size a ≤ S4096.size a
  k0_off87_inb : ∀ i : grid0.Coords, ∀ a, (k0_off87 i) a + S1.size a ≤ S4096.size a
  k0_off89_inb : ∀ i : grid0.Coords, ∀ a, (k0_off89 i) a + S1.size a ≤ S4096.size a
  k0_off91_inb : ∀ i : grid0.Coords, ∀ a, (k0_off91 i) a + S1.size a ≤ S4096.size a
  k0_off93_inb : ∀ i : grid0.Coords, ∀ a, (k0_off93 i) a + S1.size a ≤ S4096.size a
  k0_off95_inb : ∀ i : grid0.Coords, ∀ a, (k0_off95 i) a + S1.size a ≤ S4096.size a
  k0_off97_inb : ∀ i : grid0.Coords, ∀ a, (k0_off97 i) a + S1.size a ≤ S4096.size a
  k0_off99_inb : ∀ i : grid0.Coords, ∀ a, (k0_off99 i) a + S1.size a ≤ S4096.size a
  k0_off101_inb : ∀ i : grid0.Coords, ∀ a, (k0_off101 i) a + S1.size a ≤ S4096.size a
  k0_off103_inb : ∀ i : grid0.Coords, ∀ a, (k0_off103 i) a + S1.size a ≤ S4096.size a
  k0_off105_inb : ∀ i : grid0.Coords, ∀ a, (k0_off105 i) a + S1.size a ≤ S4096.size a
  k0_off107_inb : ∀ i : grid0.Coords, ∀ a, (k0_off107 i) a + S1.size a ≤ S4096.size a
  k0_off109_inb : ∀ i : grid0.Coords, ∀ a, (k0_off109 i) a + S1.size a ≤ S4096.size a
  k0_off111_inb : ∀ i : grid0.Coords, ∀ a, (k0_off111 i) a + S1.size a ≤ S4096.size a
  k0_off113_inb : ∀ i : grid0.Coords, ∀ a, (k0_off113 i) a + S1.size a ≤ S4096.size a
  k0_off115_inb : ∀ i : grid0.Coords, ∀ a, (k0_off115 i) a + S1.size a ≤ S4096.size a
  k0_off117_inb : ∀ i : grid0.Coords, ∀ a, (k0_off117 i) a + S1.size a ≤ S4096.size a
  k0_off119_inb : ∀ i : grid0.Coords, ∀ a, (k0_off119 i) a + S1.size a ≤ S4096.size a
  k0_off121_inb : ∀ i : grid0.Coords, ∀ a, (k0_off121 i) a + S1.size a ≤ S4096.size a
  k0_off123_inb : ∀ i : grid0.Coords, ∀ a, (k0_off123 i) a + S1.size a ≤ S4096.size a
  k0_off125_inb : ∀ i : grid0.Coords, ∀ a, (k0_off125 i) a + S1.size a ≤ S4096.size a
  k0_off127_inb : ∀ i : grid0.Coords, ∀ a, (k0_off127 i) a + S1.size a ≤ S4096.size a
  k0_off129_inb : ∀ i : grid0.Coords, ∀ a, (k0_off129 i) a + S1.size a ≤ S4096.size a
  k0_off131_inb : ∀ i : grid0.Coords, ∀ a, (k0_off131 i) a + S1.size a ≤ S4096.size a
  k0_off133_inb : ∀ i : grid0.Coords, ∀ a, (k0_off133 i) a + S1.size a ≤ S4096.size a
  k0_off135_inb : ∀ i : grid0.Coords, ∀ a, (k0_off135 i) a + S1.size a ≤ S4096.size a
  k0_off137_inb : ∀ i : grid0.Coords, ∀ a, (k0_off137 i) a + S1.size a ≤ S4096.size a
  k0_off139_inb : ∀ i : grid0.Coords, ∀ a, (k0_off139 i) a + S1.size a ≤ S4096.size a
  k0_off141_inb : ∀ i : grid0.Coords, ∀ a, (k0_off141 i) a + S1.size a ≤ S4096.size a
  k0_off143_inb : ∀ i : grid0.Coords, ∀ a, (k0_off143 i) a + S1.size a ≤ S4096.size a
  k0_off145_inb : ∀ i : grid0.Coords, ∀ a, (k0_off145 i) a + S1.size a ≤ S4096.size a
  k0_off147_inb : ∀ i : grid0.Coords, ∀ a, (k0_off147 i) a + S1.size a ≤ S4096.size a
  k0_off149_inb : ∀ i : grid0.Coords, ∀ a, (k0_off149 i) a + S1.size a ≤ S4096.size a
  k0_off151_inb : ∀ i : grid0.Coords, ∀ a, (k0_off151 i) a + S1.size a ≤ S4096.size a
  k0_off153_inb : ∀ i : grid0.Coords, ∀ a, (k0_off153 i) a + S1.size a ≤ S4096.size a
  k0_off155_inb : ∀ i : grid0.Coords, ∀ a, (k0_off155 i) a + S1.size a ≤ S4096.size a
  k0_off157_inb : ∀ i : grid0.Coords, ∀ a, (k0_off157 i) a + S1.size a ≤ S4096.size a
  k0_off159_inb : ∀ i : grid0.Coords, ∀ a, (k0_off159 i) a + S1.size a ≤ S4096.size a
  k0_off161_inb : ∀ i : grid0.Coords, ∀ a, (k0_off161 i) a + S1.size a ≤ S4096.size a
  k0_off163_inb : ∀ i : grid0.Coords, ∀ a, (k0_off163 i) a + S1.size a ≤ S4096.size a
  k0_off165_inb : ∀ i : grid0.Coords, ∀ a, (k0_off165 i) a + S1.size a ≤ S4096.size a
  k0_off167_inb : ∀ i : grid0.Coords, ∀ a, (k0_off167 i) a + S1.size a ≤ S4096.size a
  k0_off169_inb : ∀ i : grid0.Coords, ∀ a, (k0_off169 i) a + S1.size a ≤ S4096.size a
  k0_off171_inb : ∀ i : grid0.Coords, ∀ a, (k0_off171 i) a + S1.size a ≤ S4096.size a
  k0_off173_inb : ∀ i : grid0.Coords, ∀ a, (k0_off173 i) a + S1.size a ≤ S4096.size a
  k0_off175_inb : ∀ i : grid0.Coords, ∀ a, (k0_off175 i) a + S1.size a ≤ S4096.size a
  k0_off177_inb : ∀ i : grid0.Coords, ∀ a, (k0_off177 i) a + S1.size a ≤ S4096.size a
  k0_off179_inb : ∀ i : grid0.Coords, ∀ a, (k0_off179 i) a + S1.size a ≤ S4096.size a
  k0_off181_inb : ∀ i : grid0.Coords, ∀ a, (k0_off181 i) a + S1.size a ≤ S4096.size a
  k0_off183_inb : ∀ i : grid0.Coords, ∀ a, (k0_off183 i) a + S1.size a ≤ S4096.size a
  k0_off185_inb : ∀ i : grid0.Coords, ∀ a, (k0_off185 i) a + S1.size a ≤ S4096.size a
  k0_off187_inb : ∀ i : grid0.Coords, ∀ a, (k0_off187 i) a + S1.size a ≤ S4096.size a
  k0_off189_inb : ∀ i : grid0.Coords, ∀ a, (k0_off189 i) a + S1.size a ≤ S4096.size a
  k0_off191_inb : ∀ i : grid0.Coords, ∀ a, (k0_off191 i) a + S1.size a ≤ S4096.size a
  k0_off193_inb : ∀ i : grid0.Coords, ∀ a, (k0_off193 i) a + S1.size a ≤ S4096.size a
  k0_off195_inb : ∀ i : grid0.Coords, ∀ a, (k0_off195 i) a + S1.size a ≤ S4096.size a
  k0_off197_inb : ∀ i : grid0.Coords, ∀ a, (k0_off197 i) a + S1.size a ≤ S4096.size a
  k0_off199_inb : ∀ i : grid0.Coords, ∀ a, (k0_off199 i) a + S1.size a ≤ S4096.size a
  k0_off201_inb : ∀ i : grid0.Coords, ∀ a, (k0_off201 i) a + S1.size a ≤ S4096.size a
  k0_off203_inb : ∀ i : grid0.Coords, ∀ a, (k0_off203 i) a + S1.size a ≤ S4096.size a
  k0_off205_inb : ∀ i : grid0.Coords, ∀ a, (k0_off205 i) a + S1.size a ≤ S4096.size a
  k0_off207_inb : ∀ i : grid0.Coords, ∀ a, (k0_off207 i) a + S1.size a ≤ S4096.size a
  k0_off209_inb : ∀ i : grid0.Coords, ∀ a, (k0_off209 i) a + S1.size a ≤ S4096.size a
  k0_off211_inb : ∀ i : grid0.Coords, ∀ a, (k0_off211 i) a + S1.size a ≤ S4096.size a
  k0_off213_inb : ∀ i : grid0.Coords, ∀ a, (k0_off213 i) a + S1.size a ≤ S4096.size a
  k0_off215_inb : ∀ i : grid0.Coords, ∀ a, (k0_off215 i) a + S1.size a ≤ S4096.size a
  k0_off217_inb : ∀ i : grid0.Coords, ∀ a, (k0_off217 i) a + S1.size a ≤ S4096.size a
  k0_off219_inb : ∀ i : grid0.Coords, ∀ a, (k0_off219 i) a + S1.size a ≤ S4096.size a
  k0_off221_inb : ∀ i : grid0.Coords, ∀ a, (k0_off221 i) a + S1.size a ≤ S4096.size a
  k0_off223_inb : ∀ i : grid0.Coords, ∀ a, (k0_off223 i) a + S1.size a ≤ S4096.size a
  k0_off225_inb : ∀ i : grid0.Coords, ∀ a, (k0_off225 i) a + S1.size a ≤ S4096.size a
  k0_off227_inb : ∀ i : grid0.Coords, ∀ a, (k0_off227 i) a + S1.size a ≤ S4096.size a
  k0_off229_inb : ∀ i : grid0.Coords, ∀ a, (k0_off229 i) a + S1.size a ≤ S4096.size a
  k0_off231_inb : ∀ i : grid0.Coords, ∀ a, (k0_off231 i) a + S1.size a ≤ S4096.size a
  k0_off233_inb : ∀ i : grid0.Coords, ∀ a, (k0_off233 i) a + S1.size a ≤ S4096.size a
  k0_off235_inb : ∀ i : grid0.Coords, ∀ a, (k0_off235 i) a + S1.size a ≤ S4096.size a
  k0_off237_inb : ∀ i : grid0.Coords, ∀ a, (k0_off237 i) a + S1.size a ≤ S4096.size a
  k0_off239_inb : ∀ i : grid0.Coords, ∀ a, (k0_off239 i) a + S1.size a ≤ S4096.size a
  k0_off241_inb : ∀ i : grid0.Coords, ∀ a, (k0_off241 i) a + S1.size a ≤ S4096.size a
  k0_off243_inb : ∀ i : grid0.Coords, ∀ a, (k0_off243 i) a + S1.size a ≤ S4096.size a
  k0_off245_inb : ∀ i : grid0.Coords, ∀ a, (k0_off245 i) a + S1.size a ≤ S4096.size a
  k0_off247_inb : ∀ i : grid0.Coords, ∀ a, (k0_off247 i) a + S1.size a ≤ S4096.size a
  k0_off249_inb : ∀ i : grid0.Coords, ∀ a, (k0_off249 i) a + S1.size a ≤ S4096.size a
  k0_off251_inb : ∀ i : grid0.Coords, ∀ a, (k0_off251 i) a + S1.size a ≤ S4096.size a
  k0_off253_inb : ∀ i : grid0.Coords, ∀ a, (k0_off253 i) a + S1.size a ≤ S4096.size a
  k0_off255_inb : ∀ i : grid0.Coords, ∀ a, (k0_off255 i) a + S1.size a ≤ S4096.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S16384x128.size a ≤ S16384x128.size a
  hwx0_0 : ∀ i : grid0.Coords, EltTy.bits .f32 = 32 ∨ (Rect.block (s := S16384x128) S16384x128.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S128x128.size a ≤ S4096x128.size a
  hwx0_1 : ∀ i : grid0.Coords, EltTy.bits .f32 = 32 ∨ (Rect.block (s := S4096x128) S128x128.size (cc0_transform_2 i) (hinb0_1 i)).WholeWords (EltTy.packing .f32)

class K1.Facts₀ : Prop where
  hrank1 : 0 < grid1.rank
  k1_off1_inb : ∀ i : grid1.Coords, ∀ a, (k1_off1 i) a + S1.size a ≤ S4096.size a
  k1_off3_inb : ∀ i : grid1.Coords, ∀ a, (k1_off3 i) a + S1.size a ≤ S4096.size a
  k1_off5_inb : ∀ i : grid1.Coords, ∀ a, (k1_off5 i) a + S1.size a ≤ S4096.size a
  k1_off7_inb : ∀ i : grid1.Coords, ∀ a, (k1_off7 i) a + S1.size a ≤ S4096.size a
  k1_off9_inb : ∀ i : grid1.Coords, ∀ a, (k1_off9 i) a + S1.size a ≤ S4096.size a
  k1_off11_inb : ∀ i : grid1.Coords, ∀ a, (k1_off11 i) a + S1.size a ≤ S4096.size a
  k1_off13_inb : ∀ i : grid1.Coords, ∀ a, (k1_off13 i) a + S1.size a ≤ S4096.size a
  k1_off15_inb : ∀ i : grid1.Coords, ∀ a, (k1_off15 i) a + S1.size a ≤ S4096.size a
  k1_off17_inb : ∀ i : grid1.Coords, ∀ a, (k1_off17 i) a + S1.size a ≤ S4096.size a
  k1_off19_inb : ∀ i : grid1.Coords, ∀ a, (k1_off19 i) a + S1.size a ≤ S4096.size a
  k1_off21_inb : ∀ i : grid1.Coords, ∀ a, (k1_off21 i) a + S1.size a ≤ S4096.size a
  k1_off23_inb : ∀ i : grid1.Coords, ∀ a, (k1_off23 i) a + S1.size a ≤ S4096.size a
  k1_off25_inb : ∀ i : grid1.Coords, ∀ a, (k1_off25 i) a + S1.size a ≤ S4096.size a
  k1_off27_inb : ∀ i : grid1.Coords, ∀ a, (k1_off27 i) a + S1.size a ≤ S4096.size a
  k1_off29_inb : ∀ i : grid1.Coords, ∀ a, (k1_off29 i) a + S1.size a ≤ S4096.size a
  k1_off31_inb : ∀ i : grid1.Coords, ∀ a, (k1_off31 i) a + S1.size a ≤ S4096.size a
  k1_off33_inb : ∀ i : grid1.Coords, ∀ a, (k1_off33 i) a + S1.size a ≤ S4096.size a
  k1_off35_inb : ∀ i : grid1.Coords, ∀ a, (k1_off35 i) a + S1.size a ≤ S4096.size a
  k1_off37_inb : ∀ i : grid1.Coords, ∀ a, (k1_off37 i) a + S1.size a ≤ S4096.size a
  k1_off39_inb : ∀ i : grid1.Coords, ∀ a, (k1_off39 i) a + S1.size a ≤ S4096.size a
  k1_off41_inb : ∀ i : grid1.Coords, ∀ a, (k1_off41 i) a + S1.size a ≤ S4096.size a
  k1_off43_inb : ∀ i : grid1.Coords, ∀ a, (k1_off43 i) a + S1.size a ≤ S4096.size a
  k1_off45_inb : ∀ i : grid1.Coords, ∀ a, (k1_off45 i) a + S1.size a ≤ S4096.size a
  k1_off47_inb : ∀ i : grid1.Coords, ∀ a, (k1_off47 i) a + S1.size a ≤ S4096.size a
  k1_off49_inb : ∀ i : grid1.Coords, ∀ a, (k1_off49 i) a + S1.size a ≤ S4096.size a
  k1_off51_inb : ∀ i : grid1.Coords, ∀ a, (k1_off51 i) a + S1.size a ≤ S4096.size a
  k1_off53_inb : ∀ i : grid1.Coords, ∀ a, (k1_off53 i) a + S1.size a ≤ S4096.size a
  k1_off55_inb : ∀ i : grid1.Coords, ∀ a, (k1_off55 i) a + S1.size a ≤ S4096.size a
  k1_off57_inb : ∀ i : grid1.Coords, ∀ a, (k1_off57 i) a + S1.size a ≤ S4096.size a
  k1_off59_inb : ∀ i : grid1.Coords, ∀ a, (k1_off59 i) a + S1.size a ≤ S4096.size a
  k1_off61_inb : ∀ i : grid1.Coords, ∀ a, (k1_off61 i) a + S1.size a ≤ S4096.size a
  k1_off63_inb : ∀ i : grid1.Coords, ∀ a, (k1_off63 i) a + S1.size a ≤ S4096.size a
  k1_off65_inb : ∀ i : grid1.Coords, ∀ a, (k1_off65 i) a + S1.size a ≤ S4096.size a
  k1_off67_inb : ∀ i : grid1.Coords, ∀ a, (k1_off67 i) a + S1.size a ≤ S4096.size a
  k1_off69_inb : ∀ i : grid1.Coords, ∀ a, (k1_off69 i) a + S1.size a ≤ S4096.size a
  k1_off71_inb : ∀ i : grid1.Coords, ∀ a, (k1_off71 i) a + S1.size a ≤ S4096.size a
  k1_off73_inb : ∀ i : grid1.Coords, ∀ a, (k1_off73 i) a + S1.size a ≤ S4096.size a
  k1_off75_inb : ∀ i : grid1.Coords, ∀ a, (k1_off75 i) a + S1.size a ≤ S4096.size a
  k1_off77_inb : ∀ i : grid1.Coords, ∀ a, (k1_off77 i) a + S1.size a ≤ S4096.size a
  k1_off79_inb : ∀ i : grid1.Coords, ∀ a, (k1_off79 i) a + S1.size a ≤ S4096.size a
  k1_off81_inb : ∀ i : grid1.Coords, ∀ a, (k1_off81 i) a + S1.size a ≤ S4096.size a
  k1_off83_inb : ∀ i : grid1.Coords, ∀ a, (k1_off83 i) a + S1.size a ≤ S4096.size a
  k1_off85_inb : ∀ i : grid1.Coords, ∀ a, (k1_off85 i) a + S1.size a ≤ S4096.size a
  k1_off87_inb : ∀ i : grid1.Coords, ∀ a, (k1_off87 i) a + S1.size a ≤ S4096.size a
  k1_off89_inb : ∀ i : grid1.Coords, ∀ a, (k1_off89 i) a + S1.size a ≤ S4096.size a
  k1_off91_inb : ∀ i : grid1.Coords, ∀ a, (k1_off91 i) a + S1.size a ≤ S4096.size a
  k1_off93_inb : ∀ i : grid1.Coords, ∀ a, (k1_off93 i) a + S1.size a ≤ S4096.size a
  k1_off95_inb : ∀ i : grid1.Coords, ∀ a, (k1_off95 i) a + S1.size a ≤ S4096.size a
  k1_off97_inb : ∀ i : grid1.Coords, ∀ a, (k1_off97 i) a + S1.size a ≤ S4096.size a
  k1_off99_inb : ∀ i : grid1.Coords, ∀ a, (k1_off99 i) a + S1.size a ≤ S4096.size a
  k1_off101_inb : ∀ i : grid1.Coords, ∀ a, (k1_off101 i) a + S1.size a ≤ S4096.size a
  k1_off103_inb : ∀ i : grid1.Coords, ∀ a, (k1_off103 i) a + S1.size a ≤ S4096.size a
  k1_off105_inb : ∀ i : grid1.Coords, ∀ a, (k1_off105 i) a + S1.size a ≤ S4096.size a
  k1_off107_inb : ∀ i : grid1.Coords, ∀ a, (k1_off107 i) a + S1.size a ≤ S4096.size a
  k1_off109_inb : ∀ i : grid1.Coords, ∀ a, (k1_off109 i) a + S1.size a ≤ S4096.size a
  k1_off111_inb : ∀ i : grid1.Coords, ∀ a, (k1_off111 i) a + S1.size a ≤ S4096.size a
  k1_off113_inb : ∀ i : grid1.Coords, ∀ a, (k1_off113 i) a + S1.size a ≤ S4096.size a
  k1_off115_inb : ∀ i : grid1.Coords, ∀ a, (k1_off115 i) a + S1.size a ≤ S4096.size a
  k1_off117_inb : ∀ i : grid1.Coords, ∀ a, (k1_off117 i) a + S1.size a ≤ S4096.size a
  k1_off119_inb : ∀ i : grid1.Coords, ∀ a, (k1_off119 i) a + S1.size a ≤ S4096.size a
  k1_off121_inb : ∀ i : grid1.Coords, ∀ a, (k1_off121 i) a + S1.size a ≤ S4096.size a
  k1_off123_inb : ∀ i : grid1.Coords, ∀ a, (k1_off123 i) a + S1.size a ≤ S4096.size a
  k1_off125_inb : ∀ i : grid1.Coords, ∀ a, (k1_off125 i) a + S1.size a ≤ S4096.size a
  k1_off127_inb : ∀ i : grid1.Coords, ∀ a, (k1_off127 i) a + S1.size a ≤ S4096.size a
  k1_off129_inb : ∀ i : grid1.Coords, ∀ a, (k1_off129 i) a + S1.size a ≤ S4096.size a
  k1_off131_inb : ∀ i : grid1.Coords, ∀ a, (k1_off131 i) a + S1.size a ≤ S4096.size a
  k1_off133_inb : ∀ i : grid1.Coords, ∀ a, (k1_off133 i) a + S1.size a ≤ S4096.size a
  k1_off135_inb : ∀ i : grid1.Coords, ∀ a, (k1_off135 i) a + S1.size a ≤ S4096.size a
  k1_off137_inb : ∀ i : grid1.Coords, ∀ a, (k1_off137 i) a + S1.size a ≤ S4096.size a
  k1_off139_inb : ∀ i : grid1.Coords, ∀ a, (k1_off139 i) a + S1.size a ≤ S4096.size a
  k1_off141_inb : ∀ i : grid1.Coords, ∀ a, (k1_off141 i) a + S1.size a ≤ S4096.size a
  k1_off143_inb : ∀ i : grid1.Coords, ∀ a, (k1_off143 i) a + S1.size a ≤ S4096.size a
  k1_off145_inb : ∀ i : grid1.Coords, ∀ a, (k1_off145 i) a + S1.size a ≤ S4096.size a
  k1_off147_inb : ∀ i : grid1.Coords, ∀ a, (k1_off147 i) a + S1.size a ≤ S4096.size a
  k1_off149_inb : ∀ i : grid1.Coords, ∀ a, (k1_off149 i) a + S1.size a ≤ S4096.size a
  k1_off151_inb : ∀ i : grid1.Coords, ∀ a, (k1_off151 i) a + S1.size a ≤ S4096.size a
  k1_off153_inb : ∀ i : grid1.Coords, ∀ a, (k1_off153 i) a + S1.size a ≤ S4096.size a
  k1_off155_inb : ∀ i : grid1.Coords, ∀ a, (k1_off155 i) a + S1.size a ≤ S4096.size a
  k1_off157_inb : ∀ i : grid1.Coords, ∀ a, (k1_off157 i) a + S1.size a ≤ S4096.size a
  k1_off159_inb : ∀ i : grid1.Coords, ∀ a, (k1_off159 i) a + S1.size a ≤ S4096.size a
  k1_off161_inb : ∀ i : grid1.Coords, ∀ a, (k1_off161 i) a + S1.size a ≤ S4096.size a
  k1_off163_inb : ∀ i : grid1.Coords, ∀ a, (k1_off163 i) a + S1.size a ≤ S4096.size a
  k1_off165_inb : ∀ i : grid1.Coords, ∀ a, (k1_off165 i) a + S1.size a ≤ S4096.size a
  k1_off167_inb : ∀ i : grid1.Coords, ∀ a, (k1_off167 i) a + S1.size a ≤ S4096.size a
  k1_off169_inb : ∀ i : grid1.Coords, ∀ a, (k1_off169 i) a + S1.size a ≤ S4096.size a
  k1_off171_inb : ∀ i : grid1.Coords, ∀ a, (k1_off171 i) a + S1.size a ≤ S4096.size a
  k1_off173_inb : ∀ i : grid1.Coords, ∀ a, (k1_off173 i) a + S1.size a ≤ S4096.size a
  k1_off175_inb : ∀ i : grid1.Coords, ∀ a, (k1_off175 i) a + S1.size a ≤ S4096.size a
  k1_off177_inb : ∀ i : grid1.Coords, ∀ a, (k1_off177 i) a + S1.size a ≤ S4096.size a
  k1_off179_inb : ∀ i : grid1.Coords, ∀ a, (k1_off179 i) a + S1.size a ≤ S4096.size a
  k1_off181_inb : ∀ i : grid1.Coords, ∀ a, (k1_off181 i) a + S1.size a ≤ S4096.size a
  k1_off183_inb : ∀ i : grid1.Coords, ∀ a, (k1_off183 i) a + S1.size a ≤ S4096.size a
  k1_off185_inb : ∀ i : grid1.Coords, ∀ a, (k1_off185 i) a + S1.size a ≤ S4096.size a
  k1_off187_inb : ∀ i : grid1.Coords, ∀ a, (k1_off187 i) a + S1.size a ≤ S4096.size a
  k1_off189_inb : ∀ i : grid1.Coords, ∀ a, (k1_off189 i) a + S1.size a ≤ S4096.size a
  k1_off191_inb : ∀ i : grid1.Coords, ∀ a, (k1_off191 i) a + S1.size a ≤ S4096.size a
  k1_off193_inb : ∀ i : grid1.Coords, ∀ a, (k1_off193 i) a + S1.size a ≤ S4096.size a
  k1_off195_inb : ∀ i : grid1.Coords, ∀ a, (k1_off195 i) a + S1.size a ≤ S4096.size a
  k1_off197_inb : ∀ i : grid1.Coords, ∀ a, (k1_off197 i) a + S1.size a ≤ S4096.size a
  k1_off199_inb : ∀ i : grid1.Coords, ∀ a, (k1_off199 i) a + S1.size a ≤ S4096.size a
  k1_off201_inb : ∀ i : grid1.Coords, ∀ a, (k1_off201 i) a + S1.size a ≤ S4096.size a
  k1_off203_inb : ∀ i : grid1.Coords, ∀ a, (k1_off203 i) a + S1.size a ≤ S4096.size a
  k1_off205_inb : ∀ i : grid1.Coords, ∀ a, (k1_off205 i) a + S1.size a ≤ S4096.size a
  k1_off207_inb : ∀ i : grid1.Coords, ∀ a, (k1_off207 i) a + S1.size a ≤ S4096.size a
  k1_off209_inb : ∀ i : grid1.Coords, ∀ a, (k1_off209 i) a + S1.size a ≤ S4096.size a
  k1_off211_inb : ∀ i : grid1.Coords, ∀ a, (k1_off211 i) a + S1.size a ≤ S4096.size a
  k1_off213_inb : ∀ i : grid1.Coords, ∀ a, (k1_off213 i) a + S1.size a ≤ S4096.size a
  k1_off215_inb : ∀ i : grid1.Coords, ∀ a, (k1_off215 i) a + S1.size a ≤ S4096.size a
  k1_off217_inb : ∀ i : grid1.Coords, ∀ a, (k1_off217 i) a + S1.size a ≤ S4096.size a
  k1_off219_inb : ∀ i : grid1.Coords, ∀ a, (k1_off219 i) a + S1.size a ≤ S4096.size a
  k1_off221_inb : ∀ i : grid1.Coords, ∀ a, (k1_off221 i) a + S1.size a ≤ S4096.size a
  k1_off223_inb : ∀ i : grid1.Coords, ∀ a, (k1_off223 i) a + S1.size a ≤ S4096.size a
  k1_off225_inb : ∀ i : grid1.Coords, ∀ a, (k1_off225 i) a + S1.size a ≤ S4096.size a
  k1_off227_inb : ∀ i : grid1.Coords, ∀ a, (k1_off227 i) a + S1.size a ≤ S4096.size a
  k1_off229_inb : ∀ i : grid1.Coords, ∀ a, (k1_off229 i) a + S1.size a ≤ S4096.size a
  k1_off231_inb : ∀ i : grid1.Coords, ∀ a, (k1_off231 i) a + S1.size a ≤ S4096.size a
  k1_off233_inb : ∀ i : grid1.Coords, ∀ a, (k1_off233 i) a + S1.size a ≤ S4096.size a
  k1_off235_inb : ∀ i : grid1.Coords, ∀ a, (k1_off235 i) a + S1.size a ≤ S4096.size a
  k1_off237_inb : ∀ i : grid1.Coords, ∀ a, (k1_off237 i) a + S1.size a ≤ S4096.size a
  k1_off239_inb : ∀ i : grid1.Coords, ∀ a, (k1_off239 i) a + S1.size a ≤ S4096.size a
  k1_off241_inb : ∀ i : grid1.Coords, ∀ a, (k1_off241 i) a + S1.size a ≤ S4096.size a
  k1_off243_inb : ∀ i : grid1.Coords, ∀ a, (k1_off243 i) a + S1.size a ≤ S4096.size a
  k1_off245_inb : ∀ i : grid1.Coords, ∀ a, (k1_off245 i) a + S1.size a ≤ S4096.size a
  k1_off247_inb : ∀ i : grid1.Coords, ∀ a, (k1_off247 i) a + S1.size a ≤ S4096.size a
  k1_off249_inb : ∀ i : grid1.Coords, ∀ a, (k1_off249 i) a + S1.size a ≤ S4096.size a
  k1_off251_inb : ∀ i : grid1.Coords, ∀ a, (k1_off251 i) a + S1.size a ≤ S4096.size a
  k1_off253_inb : ∀ i : grid1.Coords, ∀ a, (k1_off253 i) a + S1.size a ≤ S4096.size a
  k1_off255_inb : ∀ i : grid1.Coords, ∀ a, (k1_off255 i) a + S1.size a ≤ S4096.size a
  k1_off257_inb : ∀ i : grid1.Coords, ∀ a, (k1_off257 i) a + S1.size a ≤ S4096.size a
  k1_off259_inb : ∀ i : grid1.Coords, ∀ a, (k1_off259 i) a + S1.size a ≤ S4096.size a
  k1_off261_inb : ∀ i : grid1.Coords, ∀ a, (k1_off261 i) a + S1.size a ≤ S4096.size a
  k1_off263_inb : ∀ i : grid1.Coords, ∀ a, (k1_off263 i) a + S1.size a ≤ S4096.size a
  k1_off265_inb : ∀ i : grid1.Coords, ∀ a, (k1_off265 i) a + S1.size a ≤ S4096.size a
  k1_off267_inb : ∀ i : grid1.Coords, ∀ a, (k1_off267 i) a + S1.size a ≤ S4096.size a
  k1_off269_inb : ∀ i : grid1.Coords, ∀ a, (k1_off269 i) a + S1.size a ≤ S4096.size a
  k1_off271_inb : ∀ i : grid1.Coords, ∀ a, (k1_off271 i) a + S1.size a ≤ S4096.size a
  k1_off273_inb : ∀ i : grid1.Coords, ∀ a, (k1_off273 i) a + S1.size a ≤ S4096.size a
  k1_off275_inb : ∀ i : grid1.Coords, ∀ a, (k1_off275 i) a + S1.size a ≤ S4096.size a
  k1_off277_inb : ∀ i : grid1.Coords, ∀ a, (k1_off277 i) a + S1.size a ≤ S4096.size a
  k1_off279_inb : ∀ i : grid1.Coords, ∀ a, (k1_off279 i) a + S1.size a ≤ S4096.size a
  k1_off281_inb : ∀ i : grid1.Coords, ∀ a, (k1_off281 i) a + S1.size a ≤ S4096.size a
  k1_off283_inb : ∀ i : grid1.Coords, ∀ a, (k1_off283 i) a + S1.size a ≤ S4096.size a
  k1_off285_inb : ∀ i : grid1.Coords, ∀ a, (k1_off285 i) a + S1.size a ≤ S4096.size a
  k1_off287_inb : ∀ i : grid1.Coords, ∀ a, (k1_off287 i) a + S1.size a ≤ S4096.size a
  k1_off289_inb : ∀ i : grid1.Coords, ∀ a, (k1_off289 i) a + S1.size a ≤ S4096.size a
  k1_off291_inb : ∀ i : grid1.Coords, ∀ a, (k1_off291 i) a + S1.size a ≤ S4096.size a
  k1_off293_inb : ∀ i : grid1.Coords, ∀ a, (k1_off293 i) a + S1.size a ≤ S4096.size a
  k1_off295_inb : ∀ i : grid1.Coords, ∀ a, (k1_off295 i) a + S1.size a ≤ S4096.size a
  k1_off297_inb : ∀ i : grid1.Coords, ∀ a, (k1_off297 i) a + S1.size a ≤ S4096.size a
  k1_off299_inb : ∀ i : grid1.Coords, ∀ a, (k1_off299 i) a + S1.size a ≤ S4096.size a
  k1_off301_inb : ∀ i : grid1.Coords, ∀ a, (k1_off301 i) a + S1.size a ≤ S4096.size a
  k1_off303_inb : ∀ i : grid1.Coords, ∀ a, (k1_off303 i) a + S1.size a ≤ S4096.size a
  k1_off305_inb : ∀ i : grid1.Coords, ∀ a, (k1_off305 i) a + S1.size a ≤ S4096.size a
  k1_off307_inb : ∀ i : grid1.Coords, ∀ a, (k1_off307 i) a + S1.size a ≤ S4096.size a
  k1_off309_inb : ∀ i : grid1.Coords, ∀ a, (k1_off309 i) a + S1.size a ≤ S4096.size a
  k1_off311_inb : ∀ i : grid1.Coords, ∀ a, (k1_off311 i) a + S1.size a ≤ S4096.size a
  k1_off313_inb : ∀ i : grid1.Coords, ∀ a, (k1_off313 i) a + S1.size a ≤ S4096.size a
  k1_off315_inb : ∀ i : grid1.Coords, ∀ a, (k1_off315 i) a + S1.size a ≤ S4096.size a
  k1_off317_inb : ∀ i : grid1.Coords, ∀ a, (k1_off317 i) a + S1.size a ≤ S4096.size a
  k1_off319_inb : ∀ i : grid1.Coords, ∀ a, (k1_off319 i) a + S1.size a ≤ S4096.size a
  k1_off321_inb : ∀ i : grid1.Coords, ∀ a, (k1_off321 i) a + S1.size a ≤ S4096.size a
  k1_off323_inb : ∀ i : grid1.Coords, ∀ a, (k1_off323 i) a + S1.size a ≤ S4096.size a
  k1_off325_inb : ∀ i : grid1.Coords, ∀ a, (k1_off325 i) a + S1.size a ≤ S4096.size a
  k1_off327_inb : ∀ i : grid1.Coords, ∀ a, (k1_off327 i) a + S1.size a ≤ S4096.size a
  k1_off329_inb : ∀ i : grid1.Coords, ∀ a, (k1_off329 i) a + S1.size a ≤ S4096.size a
  k1_off331_inb : ∀ i : grid1.Coords, ∀ a, (k1_off331 i) a + S1.size a ≤ S4096.size a
  k1_off333_inb : ∀ i : grid1.Coords, ∀ a, (k1_off333 i) a + S1.size a ≤ S4096.size a
  k1_off335_inb : ∀ i : grid1.Coords, ∀ a, (k1_off335 i) a + S1.size a ≤ S4096.size a
  k1_off337_inb : ∀ i : grid1.Coords, ∀ a, (k1_off337 i) a + S1.size a ≤ S4096.size a
  k1_off339_inb : ∀ i : grid1.Coords, ∀ a, (k1_off339 i) a + S1.size a ≤ S4096.size a
  k1_off341_inb : ∀ i : grid1.Coords, ∀ a, (k1_off341 i) a + S1.size a ≤ S4096.size a
  k1_off343_inb : ∀ i : grid1.Coords, ∀ a, (k1_off343 i) a + S1.size a ≤ S4096.size a
  k1_off345_inb : ∀ i : grid1.Coords, ∀ a, (k1_off345 i) a + S1.size a ≤ S4096.size a
  k1_off347_inb : ∀ i : grid1.Coords, ∀ a, (k1_off347 i) a + S1.size a ≤ S4096.size a
  k1_off349_inb : ∀ i : grid1.Coords, ∀ a, (k1_off349 i) a + S1.size a ≤ S4096.size a
  k1_off351_inb : ∀ i : grid1.Coords, ∀ a, (k1_off351 i) a + S1.size a ≤ S4096.size a
  k1_off353_inb : ∀ i : grid1.Coords, ∀ a, (k1_off353 i) a + S1.size a ≤ S4096.size a
  k1_off355_inb : ∀ i : grid1.Coords, ∀ a, (k1_off355 i) a + S1.size a ≤ S4096.size a
  k1_off357_inb : ∀ i : grid1.Coords, ∀ a, (k1_off357 i) a + S1.size a ≤ S4096.size a
  k1_off359_inb : ∀ i : grid1.Coords, ∀ a, (k1_off359 i) a + S1.size a ≤ S4096.size a
  k1_off361_inb : ∀ i : grid1.Coords, ∀ a, (k1_off361 i) a + S1.size a ≤ S4096.size a
  k1_off363_inb : ∀ i : grid1.Coords, ∀ a, (k1_off363 i) a + S1.size a ≤ S4096.size a
  k1_off365_inb : ∀ i : grid1.Coords, ∀ a, (k1_off365 i) a + S1.size a ≤ S4096.size a
  k1_off367_inb : ∀ i : grid1.Coords, ∀ a, (k1_off367 i) a + S1.size a ≤ S4096.size a
  k1_off369_inb : ∀ i : grid1.Coords, ∀ a, (k1_off369 i) a + S1.size a ≤ S4096.size a
  k1_off371_inb : ∀ i : grid1.Coords, ∀ a, (k1_off371 i) a + S1.size a ≤ S4096.size a
  k1_off373_inb : ∀ i : grid1.Coords, ∀ a, (k1_off373 i) a + S1.size a ≤ S4096.size a
  k1_off375_inb : ∀ i : grid1.Coords, ∀ a, (k1_off375 i) a + S1.size a ≤ S4096.size a
  k1_off377_inb : ∀ i : grid1.Coords, ∀ a, (k1_off377 i) a + S1.size a ≤ S4096.size a
  k1_off379_inb : ∀ i : grid1.Coords, ∀ a, (k1_off379 i) a + S1.size a ≤ S4096.size a
  k1_off381_inb : ∀ i : grid1.Coords, ∀ a, (k1_off381 i) a + S1.size a ≤ S4096.size a
  k1_off383_inb : ∀ i : grid1.Coords, ∀ a, (k1_off383 i) a + S1.size a ≤ S4096.size a
  k1_off385_inb : ∀ i : grid1.Coords, ∀ a, (k1_off385 i) a + S1.size a ≤ S4096.size a
  k1_off387_inb : ∀ i : grid1.Coords, ∀ a, (k1_off387 i) a + S1.size a ≤ S4096.size a
  k1_off389_inb : ∀ i : grid1.Coords, ∀ a, (k1_off389 i) a + S1.size a ≤ S4096.size a
  k1_off391_inb : ∀ i : grid1.Coords, ∀ a, (k1_off391 i) a + S1.size a ≤ S4096.size a
  k1_off393_inb : ∀ i : grid1.Coords, ∀ a, (k1_off393 i) a + S1.size a ≤ S4096.size a
  k1_off395_inb : ∀ i : grid1.Coords, ∀ a, (k1_off395 i) a + S1.size a ≤ S4096.size a
  k1_off397_inb : ∀ i : grid1.Coords, ∀ a, (k1_off397 i) a + S1.size a ≤ S4096.size a
  k1_off399_inb : ∀ i : grid1.Coords, ∀ a, (k1_off399 i) a + S1.size a ≤ S4096.size a
  k1_off401_inb : ∀ i : grid1.Coords, ∀ a, (k1_off401 i) a + S1.size a ≤ S4096.size a
  k1_off403_inb : ∀ i : grid1.Coords, ∀ a, (k1_off403 i) a + S1.size a ≤ S4096.size a
  k1_off405_inb : ∀ i : grid1.Coords, ∀ a, (k1_off405 i) a + S1.size a ≤ S4096.size a
  k1_off407_inb : ∀ i : grid1.Coords, ∀ a, (k1_off407 i) a + S1.size a ≤ S4096.size a
  k1_off409_inb : ∀ i : grid1.Coords, ∀ a, (k1_off409 i) a + S1.size a ≤ S4096.size a
  k1_off411_inb : ∀ i : grid1.Coords, ∀ a, (k1_off411 i) a + S1.size a ≤ S4096.size a
  k1_off413_inb : ∀ i : grid1.Coords, ∀ a, (k1_off413 i) a + S1.size a ≤ S4096.size a
  k1_off415_inb : ∀ i : grid1.Coords, ∀ a, (k1_off415 i) a + S1.size a ≤ S4096.size a
  k1_off417_inb : ∀ i : grid1.Coords, ∀ a, (k1_off417 i) a + S1.size a ≤ S4096.size a
  k1_off419_inb : ∀ i : grid1.Coords, ∀ a, (k1_off419 i) a + S1.size a ≤ S4096.size a
  k1_off421_inb : ∀ i : grid1.Coords, ∀ a, (k1_off421 i) a + S1.size a ≤ S4096.size a
  k1_off423_inb : ∀ i : grid1.Coords, ∀ a, (k1_off423 i) a + S1.size a ≤ S4096.size a
  k1_off425_inb : ∀ i : grid1.Coords, ∀ a, (k1_off425 i) a + S1.size a ≤ S4096.size a
  k1_off427_inb : ∀ i : grid1.Coords, ∀ a, (k1_off427 i) a + S1.size a ≤ S4096.size a
  k1_off429_inb : ∀ i : grid1.Coords, ∀ a, (k1_off429 i) a + S1.size a ≤ S4096.size a
  k1_off431_inb : ∀ i : grid1.Coords, ∀ a, (k1_off431 i) a + S1.size a ≤ S4096.size a
  k1_off433_inb : ∀ i : grid1.Coords, ∀ a, (k1_off433 i) a + S1.size a ≤ S4096.size a
  k1_off435_inb : ∀ i : grid1.Coords, ∀ a, (k1_off435 i) a + S1.size a ≤ S4096.size a
  k1_off437_inb : ∀ i : grid1.Coords, ∀ a, (k1_off437 i) a + S1.size a ≤ S4096.size a
  k1_off439_inb : ∀ i : grid1.Coords, ∀ a, (k1_off439 i) a + S1.size a ≤ S4096.size a
  k1_off441_inb : ∀ i : grid1.Coords, ∀ a, (k1_off441 i) a + S1.size a ≤ S4096.size a
  k1_off443_inb : ∀ i : grid1.Coords, ∀ a, (k1_off443 i) a + S1.size a ≤ S4096.size a
  k1_off445_inb : ∀ i : grid1.Coords, ∀ a, (k1_off445 i) a + S1.size a ≤ S4096.size a
  k1_off447_inb : ∀ i : grid1.Coords, ∀ a, (k1_off447 i) a + S1.size a ≤ S4096.size a
  k1_off449_inb : ∀ i : grid1.Coords, ∀ a, (k1_off449 i) a + S1.size a ≤ S4096.size a
  k1_off451_inb : ∀ i : grid1.Coords, ∀ a, (k1_off451 i) a + S1.size a ≤ S4096.size a
  k1_off453_inb : ∀ i : grid1.Coords, ∀ a, (k1_off453 i) a + S1.size a ≤ S4096.size a
  k1_off455_inb : ∀ i : grid1.Coords, ∀ a, (k1_off455 i) a + S1.size a ≤ S4096.size a
  k1_off457_inb : ∀ i : grid1.Coords, ∀ a, (k1_off457 i) a + S1.size a ≤ S4096.size a
  k1_off459_inb : ∀ i : grid1.Coords, ∀ a, (k1_off459 i) a + S1.size a ≤ S4096.size a
  k1_off461_inb : ∀ i : grid1.Coords, ∀ a, (k1_off461 i) a + S1.size a ≤ S4096.size a
  k1_off463_inb : ∀ i : grid1.Coords, ∀ a, (k1_off463 i) a + S1.size a ≤ S4096.size a
  k1_off465_inb : ∀ i : grid1.Coords, ∀ a, (k1_off465 i) a + S1.size a ≤ S4096.size a
  k1_off467_inb : ∀ i : grid1.Coords, ∀ a, (k1_off467 i) a + S1.size a ≤ S4096.size a
  k1_off469_inb : ∀ i : grid1.Coords, ∀ a, (k1_off469 i) a + S1.size a ≤ S4096.size a
  k1_off471_inb : ∀ i : grid1.Coords, ∀ a, (k1_off471 i) a + S1.size a ≤ S4096.size a
  k1_off473_inb : ∀ i : grid1.Coords, ∀ a, (k1_off473 i) a + S1.size a ≤ S4096.size a
  k1_off475_inb : ∀ i : grid1.Coords, ∀ a, (k1_off475 i) a + S1.size a ≤ S4096.size a
  k1_off477_inb : ∀ i : grid1.Coords, ∀ a, (k1_off477 i) a + S1.size a ≤ S4096.size a
  k1_off479_inb : ∀ i : grid1.Coords, ∀ a, (k1_off479 i) a + S1.size a ≤ S4096.size a
  k1_off481_inb : ∀ i : grid1.Coords, ∀ a, (k1_off481 i) a + S1.size a ≤ S4096.size a
  k1_off483_inb : ∀ i : grid1.Coords, ∀ a, (k1_off483 i) a + S1.size a ≤ S4096.size a
  k1_off485_inb : ∀ i : grid1.Coords, ∀ a, (k1_off485 i) a + S1.size a ≤ S4096.size a
  k1_off487_inb : ∀ i : grid1.Coords, ∀ a, (k1_off487 i) a + S1.size a ≤ S4096.size a
  k1_off489_inb : ∀ i : grid1.Coords, ∀ a, (k1_off489 i) a + S1.size a ≤ S4096.size a
  k1_off491_inb : ∀ i : grid1.Coords, ∀ a, (k1_off491 i) a + S1.size a ≤ S4096.size a
  k1_off493_inb : ∀ i : grid1.Coords, ∀ a, (k1_off493 i) a + S1.size a ≤ S4096.size a
  k1_off495_inb : ∀ i : grid1.Coords, ∀ a, (k1_off495 i) a + S1.size a ≤ S4096.size a
  k1_off497_inb : ∀ i : grid1.Coords, ∀ a, (k1_off497 i) a + S1.size a ≤ S4096.size a
  k1_off499_inb : ∀ i : grid1.Coords, ∀ a, (k1_off499 i) a + S1.size a ≤ S4096.size a
  k1_off501_inb : ∀ i : grid1.Coords, ∀ a, (k1_off501 i) a + S1.size a ≤ S4096.size a
  k1_off503_inb : ∀ i : grid1.Coords, ∀ a, (k1_off503 i) a + S1.size a ≤ S4096.size a
  k1_off505_inb : ∀ i : grid1.Coords, ∀ a, (k1_off505 i) a + S1.size a ≤ S4096.size a
  k1_off507_inb : ∀ i : grid1.Coords, ∀ a, (k1_off507 i) a + S1.size a ≤ S4096.size a
  k1_off509_inb : ∀ i : grid1.Coords, ∀ a, (k1_off509 i) a + S1.size a ≤ S4096.size a
  k1_off511_inb : ∀ i : grid1.Coords, ∀ a, (k1_off511 i) a + S1.size a ≤ S4096.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S256x128.size a ≤ S4096x128.size a
  hwx1_0 : ∀ i : grid1.Coords, EltTy.bits .f32 = 32 ∨ (Rect.block (s := S4096x128) S256x128.size (cc1_transform_1 i) (hinb1_0 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .f32 = 32 ∨ (Rect.block (s := S8192x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128x128.size a ≤ S3x128x128.size a
  hwx2_1 : ∀ i : grid2.Coords, EltTy.bits .f32 = 32 ∨ (Rect.block (s := S3x128x128) S3x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x128.size a ≤ S3x128.size a
  hwx2_2 : ∀ i : grid2.Coords, EltTy.bits .f32 = 32 ∨ (Rect.block (s := S3x128) S3x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x384.size a ≤ S8192x384.size a
  hwx2_3 : ∀ i : grid2.Coords, EltTy.bits .f32 = 32 ∨ (Rect.block (s := S8192x384) S2048x384.size (cc2_transform_3 i) (hinb2_3 i)).WholeWords (EltTy.packing .f32)

class Shapes1.Facts₀ : Prop where
  bcast_S_S8192 : S_.BroadcastsInDim S8192 (![] : Fin 0 → Fin S8192.rank)
  natLt_1_32 : 1 < 32
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S4096 : S_.BroadcastsInDim S4096 (![] : Fin 0 → Fin S4096.rank)
  bcast_S8192_S8192x1_0 : S8192.BroadcastsInDim S8192x1 (![0] : Fin 1 → Fin S8192x1.rank)
  reduceWindows_S4096_S4096_w4096s1p4095_0 : S4096.ReduceWindows (![4096] : Fin 1 → Nat) ![1] ![4095] ![0] S4096
  concatenates_S4096_S4096_S8192_d0 : Shape.Concatenates [S4096, S4096] S8192 0
  bcast_S4096_S4096x1_0 : S4096.BroadcastsInDim S4096x1 (![0] : Fin 1 → Fin S4096x1.rank)
  numel1_S1 : S1.numel = 1
  inb_S128_S1_0 : ∀ a, (![0] : Fin 1 → Nat) a + S1.size a ≤ S128.size a
  squeezes_S1_S_ : S1.Squeezes S_
  inb_S128x16384_S1x16384_0_0 : ∀ a, (![0, 0] : Fin 2 → Nat) a + S1x16384.size a ≤ S128x16384.size a
  squeezes_S1x16384_S16384 : S1x16384.Squeezes S16384
  inb_S128_S1_1 : ∀ a, (![1] : Fin 1 → Nat) a + S1.size a ≤ S128.size a
  inb_S128x16384_S1x16384_1_0 : ∀ a, (![1, 0] : Fin 2 → Nat) a + S1x16384.size a ≤ S128x16384.size a
  inb_S128_S1_2 : ∀ a, (![2] : Fin 1 → Nat) a + S1.size a ≤ S128.size a
  inb_S128x16384_S1x16384_2_0 : ∀ a, (![2, 0] : Fin 2 → Nat) a + S1x16384.size a ≤ S128x16384.size a
  inb_S128_S1_3 : ∀ a, (![3] : Fin 1 → Nat) a + S1.size a ≤ S128.size a
  inb_S128x16384_S1x16384_3_0 : ∀ a, (![3, 0] : Fin 2 → Nat) a + S1x16384.size a ≤ S128x16384.size a
  inb_S128_S1_4 : ∀ a, (![4] : Fin 1 → Nat) a + S1.size a ≤ S128.size a
  inb_S128x16384_S1x16384_4_0 : ∀ a, (![4, 0] : Fin 2 → Nat) a + S1x16384.size a ≤ S128x16384.size a
  inb_S128_S1_5 : ∀ a, (![5] : Fin 1 → Nat) a + S1.size a ≤ S128.size a
  inb_S128x16384_S1x16384_5_0 : ∀ a, (![5, 0] : Fin 2 → Nat) a + S1x16384.size a ≤ S128x16384.size a
  inb_S128_S1_6 : ∀ a, (![6] : Fin 1 → Nat) a + S1.size a ≤ S128.size a
  inb_S128x16384_S1x16384_6_0 : ∀ a, (![6, 0] : Fin 2 → Nat) a + S1x16384.size a ≤ S128x16384.size a
  inb_S128_S1_7 : ∀ a, (![7] : Fin 1 → Nat) a + S1.size a ≤ S128.size a
  inb_S128x16384_S1x16384_7_0 : ∀ a, (![7, 0] : Fin 2 → Nat) a + S1x16384.size a ≤ S128x16384.size a
  inb_S128_S1_8 : ∀ a, (![8] : Fin 1 → Nat) a + S1.size a ≤ S128.size a
  inb_S128x16384_S1x16384_8_0 : ∀ a, (![8, 0] : Fin 2 → Nat) a + S1x16384.size a ≤ S128x16384.size a
  inb_S128_S1_9 : ∀ a, (![9] : Fin 1 → Nat) a + S1.size a ≤ S128.size a
  inb_S128x16384_S1x16384_9_0 : ∀ a, (![9, 0] : Fin 2 → Nat) a + S1x16384.size a ≤ S128x16384.size a
  inb_S128_S1_10 : ∀ a, (![10] : Fin 1 → Nat) a + S1.size a ≤ S128.size a
  inb_S128x16384_S1x16384_10_0 : ∀ a, (![10, 0] : Fin 2 → Nat) a + S1x16384.size a ≤ S128x16384.size a
  inb_S128_S1_11 : ∀ a, (![11] : Fin 1 → Nat) a + S1.size a ≤ S128.size a
  inb_S128x16384_S1x16384_11_0 : ∀ a, (![11, 0] : Fin 2 → Nat) a + S1x16384.size a ≤ S128x16384.size a
  inb_S128_S1_12 : ∀ a, (![12] : Fin 1 → Nat) a + S1.size a ≤ S128.size a
  inb_S128x16384_S1x16384_12_0 : ∀ a, (![12, 0] : Fin 2 → Nat) a + S1x16384.size a ≤ S128x16384.size a
  inb_S128_S1_13 : ∀ a, (![13] : Fin 1 → Nat) a + S1.size a ≤ S128.size a
  inb_S128x16384_S1x16384_13_0 : ∀ a, (![13, 0] : Fin 2 → Nat) a + S1x16384.size a ≤ S128x16384.size a
  inb_S128_S1_14 : ∀ a, (![14] : Fin 1 → Nat) a + S1.size a ≤ S128.size a
  inb_S128x16384_S1x16384_14_0 : ∀ a, (![14, 0] : Fin 2 → Nat) a + S1x16384.size a ≤ S128x16384.size a
  inb_S128_S1_15 : ∀ a, (![15] : Fin 1 → Nat) a + S1.size a ≤ S128.size a
  inb_S128x16384_S1x16384_15_0 : ∀ a, (![15, 0] : Fin 2 → Nat) a + S1x16384.size a ≤ S128x16384.size a
  inb_S128_S1_16 : ∀ a, (![16] : Fin 1 → Nat) a + S1.size a ≤ S128.size a
  inb_S128x16384_S1x16384_16_0 : ∀ a, (![16, 0] : Fin 2 → Nat) a + S1x16384.size a ≤ S128x16384.size a
  inb_S128_S1_17 : ∀ a, (![17] : Fin 1 → Nat) a + S1.size a ≤ S128.size a
  inb_S128x16384_S1x16384_17_0 : ∀ a, (![17, 0] : Fin 2 → Nat) a + S1x16384.size a ≤ S128x16384.size a
  inb_S128_S1_18 : ∀ a, (![18] : Fin 1 → Nat) a + S1.size a ≤ S128.size a
  inb_S128x16384_S1x16384_18_0 : ∀ a, (![18, 0] : Fin 2 → Nat) a + S1x16384.size a ≤ S128x16384.size a
  inb_S128_S1_19 : ∀ a, (![19] : Fin 1 → Nat) a + S1.size a ≤ S128.size a
  inb_S128x16384_S1x16384_19_0 : ∀ a, (![19, 0] : Fin 2 → Nat) a + S1x16384.size a ≤ S128x16384.size a
  inb_S128_S1_20 : ∀ a, (![20] : Fin 1 → Nat) a + S1.size a ≤ S128.size a
  inb_S128x16384_S1x16384_20_0 : ∀ a, (![20, 0] : Fin 2 → Nat) a + S1x16384.size a ≤ S128x16384.size a
  inb_S128_S1_21 : ∀ a, (![21] : Fin 1 → Nat) a + S1.size a ≤ S128.size a
  inb_S128x16384_S1x16384_21_0 : ∀ a, (![21, 0] : Fin 2 → Nat) a + S1x16384.size a ≤ S128x16384.size a
  inb_S128_S1_22 : ∀ a, (![22] : Fin 1 → Nat) a + S1.size a ≤ S128.size a
  inb_S128x16384_S1x16384_22_0 : ∀ a, (![22, 0] : Fin 2 → Nat) a + S1x16384.size a ≤ S128x16384.size a
  inb_S128_S1_23 : ∀ a, (![23] : Fin 1 → Nat) a + S1.size a ≤ S128.size a
  inb_S128x16384_S1x16384_23_0 : ∀ a, (![23, 0] : Fin 2 → Nat) a + S1x16384.size a ≤ S128x16384.size a
  inb_S128_S1_24 : ∀ a, (![24] : Fin 1 → Nat) a + S1.size a ≤ S128.size a
  inb_S128x16384_S1x16384_24_0 : ∀ a, (![24, 0] : Fin 2 → Nat) a + S1x16384.size a ≤ S128x16384.size a
  inb_S128_S1_25 : ∀ a, (![25] : Fin 1 → Nat) a + S1.size a ≤ S128.size a
  inb_S128x16384_S1x16384_25_0 : ∀ a, (![25, 0] : Fin 2 → Nat) a + S1x16384.size a ≤ S128x16384.size a
  inb_S128_S1_26 : ∀ a, (![26] : Fin 1 → Nat) a + S1.size a ≤ S128.size a
  inb_S128x16384_S1x16384_26_0 : ∀ a, (![26, 0] : Fin 2 → Nat) a + S1x16384.size a ≤ S128x16384.size a
  inb_S128_S1_27 : ∀ a, (![27] : Fin 1 → Nat) a + S1.size a ≤ S128.size a
  inb_S128x16384_S1x16384_27_0 : ∀ a, (![27, 0] : Fin 2 → Nat) a + S1x16384.size a ≤ S128x16384.size a
  inb_S128_S1_28 : ∀ a, (![28] : Fin 1 → Nat) a + S1.size a ≤ S128.size a
  inb_S128x16384_S1x16384_28_0 : ∀ a, (![28, 0] : Fin 2 → Nat) a + S1x16384.size a ≤ S128x16384.size a
  inb_S128_S1_29 : ∀ a, (![29] : Fin 1 → Nat) a + S1.size a ≤ S128.size a
  inb_S128x16384_S1x16384_29_0 : ∀ a, (![29, 0] : Fin 2 → Nat) a + S1x16384.size a ≤ S128x16384.size a
  inb_S128_S1_30 : ∀ a, (![30] : Fin 1 → Nat) a + S1.size a ≤ S128.size a
  inb_S128x16384_S1x16384_30_0 : ∀ a, (![30, 0] : Fin 2 → Nat) a + S1x16384.size a ≤ S128x16384.size a
  inb_S128_S1_31 : ∀ a, (![31] : Fin 1 → Nat) a + S1.size a ≤ S128.size a
  inb_S128x16384_S1x16384_31_0 : ∀ a, (![31, 0] : Fin 2 → Nat) a + S1x16384.size a ≤ S128x16384.size a
  inb_S128_S1_32 : ∀ a, (![32] : Fin 1 → Nat) a + S1.size a ≤ S128.size a
  inb_S128x16384_S1x16384_32_0 : ∀ a, (![32, 0] : Fin 2 → Nat) a + S1x16384.size a ≤ S128x16384.size a
  inb_S128_S1_33 : ∀ a, (![33] : Fin 1 → Nat) a + S1.size a ≤ S128.size a
  inb_S128x16384_S1x16384_33_0 : ∀ a, (![33, 0] : Fin 2 → Nat) a + S1x16384.size a ≤ S128x16384.size a
  inb_S128_S1_34 : ∀ a, (![34] : Fin 1 → Nat) a + S1.size a ≤ S128.size a
  inb_S128x16384_S1x16384_34_0 : ∀ a, (![34, 0] : Fin 2 → Nat) a + S1x16384.size a ≤ S128x16384.size a
  inb_S128_S1_35 : ∀ a, (![35] : Fin 1 → Nat) a + S1.size a ≤ S128.size a
  inb_S128x16384_S1x16384_35_0 : ∀ a, (![35, 0] : Fin 2 → Nat) a + S1x16384.size a ≤ S128x16384.size a
  inb_S128_S1_36 : ∀ a, (![36] : Fin 1 → Nat) a + S1.size a ≤ S128.size a
  inb_S128x16384_S1x16384_36_0 : ∀ a, (![36, 0] : Fin 2 → Nat) a + S1x16384.size a ≤ S128x16384.size a
  inb_S128_S1_37 : ∀ a, (![37] : Fin 1 → Nat) a + S1.size a ≤ S128.size a
  inb_S128x16384_S1x16384_37_0 : ∀ a, (![37, 0] : Fin 2 → Nat) a + S1x16384.size a ≤ S128x16384.size a
  inb_S128_S1_38 : ∀ a, (![38] : Fin 1 → Nat) a + S1.size a ≤ S128.size a
  inb_S128x16384_S1x16384_38_0 : ∀ a, (![38, 0] : Fin 2 → Nat) a + S1x16384.size a ≤ S128x16384.size a
  inb_S128_S1_39 : ∀ a, (![39] : Fin 1 → Nat) a + S1.size a ≤ S128.size a
  inb_S128x16384_S1x16384_39_0 : ∀ a, (![39, 0] : Fin 2 → Nat) a + S1x16384.size a ≤ S128x16384.size a
  inb_S128_S1_40 : ∀ a, (![40] : Fin 1 → Nat) a + S1.size a ≤ S128.size a
  inb_S128x16384_S1x16384_40_0 : ∀ a, (![40, 0] : Fin 2 → Nat) a + S1x16384.size a ≤ S128x16384.size a
  inb_S128_S1_41 : ∀ a, (![41] : Fin 1 → Nat) a + S1.size a ≤ S128.size a
  inb_S128x16384_S1x16384_41_0 : ∀ a, (![41, 0] : Fin 2 → Nat) a + S1x16384.size a ≤ S128x16384.size a
  inb_S128_S1_42 : ∀ a, (![42] : Fin 1 → Nat) a + S1.size a ≤ S128.size a
  inb_S128x16384_S1x16384_42_0 : ∀ a, (![42, 0] : Fin 2 → Nat) a + S1x16384.size a ≤ S128x16384.size a
  inb_S128_S1_43 : ∀ a, (![43] : Fin 1 → Nat) a + S1.size a ≤ S128.size a
  inb_S128x16384_S1x16384_43_0 : ∀ a, (![43, 0] : Fin 2 → Nat) a + S1x16384.size a ≤ S128x16384.size a
  inb_S128_S1_44 : ∀ a, (![44] : Fin 1 → Nat) a + S1.size a ≤ S128.size a
  inb_S128x16384_S1x16384_44_0 : ∀ a, (![44, 0] : Fin 2 → Nat) a + S1x16384.size a ≤ S128x16384.size a
  inb_S128_S1_45 : ∀ a, (![45] : Fin 1 → Nat) a + S1.size a ≤ S128.size a
  inb_S128x16384_S1x16384_45_0 : ∀ a, (![45, 0] : Fin 2 → Nat) a + S1x16384.size a ≤ S128x16384.size a
  inb_S128_S1_46 : ∀ a, (![46] : Fin 1 → Nat) a + S1.size a ≤ S128.size a
  inb_S128x16384_S1x16384_46_0 : ∀ a, (![46, 0] : Fin 2 → Nat) a + S1x16384.size a ≤ S128x16384.size a
  inb_S128_S1_47 : ∀ a, (![47] : Fin 1 → Nat) a + S1.size a ≤ S128.size a
  inb_S128x16384_S1x16384_47_0 : ∀ a, (![47, 0] : Fin 2 → Nat) a + S1x16384.size a ≤ S128x16384.size a
  inb_S128_S1_48 : ∀ a, (![48] : Fin 1 → Nat) a + S1.size a ≤ S128.size a
  inb_S128x16384_S1x16384_48_0 : ∀ a, (![48, 0] : Fin 2 → Nat) a + S1x16384.size a ≤ S128x16384.size a
  inb_S128_S1_49 : ∀ a, (![49] : Fin 1 → Nat) a + S1.size a ≤ S128.size a
  inb_S128x16384_S1x16384_49_0 : ∀ a, (![49, 0] : Fin 2 → Nat) a + S1x16384.size a ≤ S128x16384.size a
  inb_S128_S1_50 : ∀ a, (![50] : Fin 1 → Nat) a + S1.size a ≤ S128.size a
  inb_S128x16384_S1x16384_50_0 : ∀ a, (![50, 0] : Fin 2 → Nat) a + S1x16384.size a ≤ S128x16384.size a
  inb_S128_S1_51 : ∀ a, (![51] : Fin 1 → Nat) a + S1.size a ≤ S128.size a
  inb_S128x16384_S1x16384_51_0 : ∀ a, (![51, 0] : Fin 2 → Nat) a + S1x16384.size a ≤ S128x16384.size a
  inb_S128_S1_52 : ∀ a, (![52] : Fin 1 → Nat) a + S1.size a ≤ S128.size a
  inb_S128x16384_S1x16384_52_0 : ∀ a, (![52, 0] : Fin 2 → Nat) a + S1x16384.size a ≤ S128x16384.size a
  inb_S128_S1_53 : ∀ a, (![53] : Fin 1 → Nat) a + S1.size a ≤ S128.size a
  inb_S128x16384_S1x16384_53_0 : ∀ a, (![53, 0] : Fin 2 → Nat) a + S1x16384.size a ≤ S128x16384.size a
  inb_S128_S1_54 : ∀ a, (![54] : Fin 1 → Nat) a + S1.size a ≤ S128.size a
  inb_S128x16384_S1x16384_54_0 : ∀ a, (![54, 0] : Fin 2 → Nat) a + S1x16384.size a ≤ S128x16384.size a
  inb_S128_S1_55 : ∀ a, (![55] : Fin 1 → Nat) a + S1.size a ≤ S128.size a
  inb_S128x16384_S1x16384_55_0 : ∀ a, (![55, 0] : Fin 2 → Nat) a + S1x16384.size a ≤ S128x16384.size a
  inb_S128_S1_56 : ∀ a, (![56] : Fin 1 → Nat) a + S1.size a ≤ S128.size a
  inb_S128x16384_S1x16384_56_0 : ∀ a, (![56, 0] : Fin 2 → Nat) a + S1x16384.size a ≤ S128x16384.size a
  inb_S128_S1_57 : ∀ a, (![57] : Fin 1 → Nat) a + S1.size a ≤ S128.size a
  inb_S128x16384_S1x16384_57_0 : ∀ a, (![57, 0] : Fin 2 → Nat) a + S1x16384.size a ≤ S128x16384.size a
  inb_S128_S1_58 : ∀ a, (![58] : Fin 1 → Nat) a + S1.size a ≤ S128.size a
  inb_S128x16384_S1x16384_58_0 : ∀ a, (![58, 0] : Fin 2 → Nat) a + S1x16384.size a ≤ S128x16384.size a
  inb_S128_S1_59 : ∀ a, (![59] : Fin 1 → Nat) a + S1.size a ≤ S128.size a
  inb_S128x16384_S1x16384_59_0 : ∀ a, (![59, 0] : Fin 2 → Nat) a + S1x16384.size a ≤ S128x16384.size a
  inb_S128_S1_60 : ∀ a, (![60] : Fin 1 → Nat) a + S1.size a ≤ S128.size a
  inb_S128x16384_S1x16384_60_0 : ∀ a, (![60, 0] : Fin 2 → Nat) a + S1x16384.size a ≤ S128x16384.size a
  inb_S128_S1_61 : ∀ a, (![61] : Fin 1 → Nat) a + S1.size a ≤ S128.size a
  inb_S128x16384_S1x16384_61_0 : ∀ a, (![61, 0] : Fin 2 → Nat) a + S1x16384.size a ≤ S128x16384.size a
  inb_S128_S1_62 : ∀ a, (![62] : Fin 1 → Nat) a + S1.size a ≤ S128.size a
  inb_S128x16384_S1x16384_62_0 : ∀ a, (![62, 0] : Fin 2 → Nat) a + S1x16384.size a ≤ S128x16384.size a
  inb_S128_S1_63 : ∀ a, (![63] : Fin 1 → Nat) a + S1.size a ≤ S128.size a
  inb_S128x16384_S1x16384_63_0 : ∀ a, (![63, 0] : Fin 2 → Nat) a + S1x16384.size a ≤ S128x16384.size a
  inb_S128_S1_64 : ∀ a, (![64] : Fin 1 → Nat) a + S1.size a ≤ S128.size a
  inb_S128x16384_S1x16384_64_0 : ∀ a, (![64, 0] : Fin 2 → Nat) a + S1x16384.size a ≤ S128x16384.size a
  inb_S128_S1_65 : ∀ a, (![65] : Fin 1 → Nat) a + S1.size a ≤ S128.size a
  inb_S128x16384_S1x16384_65_0 : ∀ a, (![65, 0] : Fin 2 → Nat) a + S1x16384.size a ≤ S128x16384.size a
  inb_S128_S1_66 : ∀ a, (![66] : Fin 1 → Nat) a + S1.size a ≤ S128.size a
  inb_S128x16384_S1x16384_66_0 : ∀ a, (![66, 0] : Fin 2 → Nat) a + S1x16384.size a ≤ S128x16384.size a
  inb_S128_S1_67 : ∀ a, (![67] : Fin 1 → Nat) a + S1.size a ≤ S128.size a
  inb_S128x16384_S1x16384_67_0 : ∀ a, (![67, 0] : Fin 2 → Nat) a + S1x16384.size a ≤ S128x16384.size a
  inb_S128_S1_68 : ∀ a, (![68] : Fin 1 → Nat) a + S1.size a ≤ S128.size a
  inb_S128x16384_S1x16384_68_0 : ∀ a, (![68, 0] : Fin 2 → Nat) a + S1x16384.size a ≤ S128x16384.size a
  inb_S128_S1_69 : ∀ a, (![69] : Fin 1 → Nat) a + S1.size a ≤ S128.size a
  inb_S128x16384_S1x16384_69_0 : ∀ a, (![69, 0] : Fin 2 → Nat) a + S1x16384.size a ≤ S128x16384.size a
  inb_S128_S1_70 : ∀ a, (![70] : Fin 1 → Nat) a + S1.size a ≤ S128.size a
  inb_S128x16384_S1x16384_70_0 : ∀ a, (![70, 0] : Fin 2 → Nat) a + S1x16384.size a ≤ S128x16384.size a
  inb_S128_S1_71 : ∀ a, (![71] : Fin 1 → Nat) a + S1.size a ≤ S128.size a
  inb_S128x16384_S1x16384_71_0 : ∀ a, (![71, 0] : Fin 2 → Nat) a + S1x16384.size a ≤ S128x16384.size a
  inb_S128_S1_72 : ∀ a, (![72] : Fin 1 → Nat) a + S1.size a ≤ S128.size a
  inb_S128x16384_S1x16384_72_0 : ∀ a, (![72, 0] : Fin 2 → Nat) a + S1x16384.size a ≤ S128x16384.size a
  inb_S128_S1_73 : ∀ a, (![73] : Fin 1 → Nat) a + S1.size a ≤ S128.size a
  inb_S128x16384_S1x16384_73_0 : ∀ a, (![73, 0] : Fin 2 → Nat) a + S1x16384.size a ≤ S128x16384.size a
  inb_S128_S1_74 : ∀ a, (![74] : Fin 1 → Nat) a + S1.size a ≤ S128.size a
  inb_S128x16384_S1x16384_74_0 : ∀ a, (![74, 0] : Fin 2 → Nat) a + S1x16384.size a ≤ S128x16384.size a
  inb_S128_S1_75 : ∀ a, (![75] : Fin 1 → Nat) a + S1.size a ≤ S128.size a
  inb_S128x16384_S1x16384_75_0 : ∀ a, (![75, 0] : Fin 2 → Nat) a + S1x16384.size a ≤ S128x16384.size a
  inb_S128_S1_76 : ∀ a, (![76] : Fin 1 → Nat) a + S1.size a ≤ S128.size a
  inb_S128x16384_S1x16384_76_0 : ∀ a, (![76, 0] : Fin 2 → Nat) a + S1x16384.size a ≤ S128x16384.size a
  inb_S128_S1_77 : ∀ a, (![77] : Fin 1 → Nat) a + S1.size a ≤ S128.size a
  inb_S128x16384_S1x16384_77_0 : ∀ a, (![77, 0] : Fin 2 → Nat) a + S1x16384.size a ≤ S128x16384.size a
  inb_S128_S1_78 : ∀ a, (![78] : Fin 1 → Nat) a + S1.size a ≤ S128.size a
  inb_S128x16384_S1x16384_78_0 : ∀ a, (![78, 0] : Fin 2 → Nat) a + S1x16384.size a ≤ S128x16384.size a
  inb_S128_S1_79 : ∀ a, (![79] : Fin 1 → Nat) a + S1.size a ≤ S128.size a
  inb_S128x16384_S1x16384_79_0 : ∀ a, (![79, 0] : Fin 2 → Nat) a + S1x16384.size a ≤ S128x16384.size a
  inb_S128_S1_80 : ∀ a, (![80] : Fin 1 → Nat) a + S1.size a ≤ S128.size a
  inb_S128x16384_S1x16384_80_0 : ∀ a, (![80, 0] : Fin 2 → Nat) a + S1x16384.size a ≤ S128x16384.size a
  inb_S128_S1_81 : ∀ a, (![81] : Fin 1 → Nat) a + S1.size a ≤ S128.size a
  inb_S128x16384_S1x16384_81_0 : ∀ a, (![81, 0] : Fin 2 → Nat) a + S1x16384.size a ≤ S128x16384.size a
  inb_S128_S1_82 : ∀ a, (![82] : Fin 1 → Nat) a + S1.size a ≤ S128.size a
  inb_S128x16384_S1x16384_82_0 : ∀ a, (![82, 0] : Fin 2 → Nat) a + S1x16384.size a ≤ S128x16384.size a
  inb_S128_S1_83 : ∀ a, (![83] : Fin 1 → Nat) a + S1.size a ≤ S128.size a
  inb_S128x16384_S1x16384_83_0 : ∀ a, (![83, 0] : Fin 2 → Nat) a + S1x16384.size a ≤ S128x16384.size a
  inb_S128_S1_84 : ∀ a, (![84] : Fin 1 → Nat) a + S1.size a ≤ S128.size a
  inb_S128x16384_S1x16384_84_0 : ∀ a, (![84, 0] : Fin 2 → Nat) a + S1x16384.size a ≤ S128x16384.size a
  inb_S128_S1_85 : ∀ a, (![85] : Fin 1 → Nat) a + S1.size a ≤ S128.size a
  inb_S128x16384_S1x16384_85_0 : ∀ a, (![85, 0] : Fin 2 → Nat) a + S1x16384.size a ≤ S128x16384.size a
  inb_S128_S1_86 : ∀ a, (![86] : Fin 1 → Nat) a + S1.size a ≤ S128.size a
  inb_S128x16384_S1x16384_86_0 : ∀ a, (![86, 0] : Fin 2 → Nat) a + S1x16384.size a ≤ S128x16384.size a
  inb_S128_S1_87 : ∀ a, (![87] : Fin 1 → Nat) a + S1.size a ≤ S128.size a
  inb_S128x16384_S1x16384_87_0 : ∀ a, (![87, 0] : Fin 2 → Nat) a + S1x16384.size a ≤ S128x16384.size a
  inb_S128_S1_88 : ∀ a, (![88] : Fin 1 → Nat) a + S1.size a ≤ S128.size a
  inb_S128x16384_S1x16384_88_0 : ∀ a, (![88, 0] : Fin 2 → Nat) a + S1x16384.size a ≤ S128x16384.size a
  inb_S128_S1_89 : ∀ a, (![89] : Fin 1 → Nat) a + S1.size a ≤ S128.size a
  inb_S128x16384_S1x16384_89_0 : ∀ a, (![89, 0] : Fin 2 → Nat) a + S1x16384.size a ≤ S128x16384.size a
  inb_S128_S1_90 : ∀ a, (![90] : Fin 1 → Nat) a + S1.size a ≤ S128.size a
  inb_S128x16384_S1x16384_90_0 : ∀ a, (![90, 0] : Fin 2 → Nat) a + S1x16384.size a ≤ S128x16384.size a
  inb_S128_S1_91 : ∀ a, (![91] : Fin 1 → Nat) a + S1.size a ≤ S128.size a
  inb_S128x16384_S1x16384_91_0 : ∀ a, (![91, 0] : Fin 2 → Nat) a + S1x16384.size a ≤ S128x16384.size a
  inb_S128_S1_92 : ∀ a, (![92] : Fin 1 → Nat) a + S1.size a ≤ S128.size a
  inb_S128x16384_S1x16384_92_0 : ∀ a, (![92, 0] : Fin 2 → Nat) a + S1x16384.size a ≤ S128x16384.size a
  inb_S128_S1_93 : ∀ a, (![93] : Fin 1 → Nat) a + S1.size a ≤ S128.size a
  inb_S128x16384_S1x16384_93_0 : ∀ a, (![93, 0] : Fin 2 → Nat) a + S1x16384.size a ≤ S128x16384.size a
  inb_S128_S1_94 : ∀ a, (![94] : Fin 1 → Nat) a + S1.size a ≤ S128.size a
  inb_S128x16384_S1x16384_94_0 : ∀ a, (![94, 0] : Fin 2 → Nat) a + S1x16384.size a ≤ S128x16384.size a
  inb_S128_S1_95 : ∀ a, (![95] : Fin 1 → Nat) a + S1.size a ≤ S128.size a
  inb_S128x16384_S1x16384_95_0 : ∀ a, (![95, 0] : Fin 2 → Nat) a + S1x16384.size a ≤ S128x16384.size a
  inb_S128_S1_96 : ∀ a, (![96] : Fin 1 → Nat) a + S1.size a ≤ S128.size a
  inb_S128x16384_S1x16384_96_0 : ∀ a, (![96, 0] : Fin 2 → Nat) a + S1x16384.size a ≤ S128x16384.size a
  inb_S128_S1_97 : ∀ a, (![97] : Fin 1 → Nat) a + S1.size a ≤ S128.size a
  inb_S128x16384_S1x16384_97_0 : ∀ a, (![97, 0] : Fin 2 → Nat) a + S1x16384.size a ≤ S128x16384.size a
  inb_S128_S1_98 : ∀ a, (![98] : Fin 1 → Nat) a + S1.size a ≤ S128.size a
  inb_S128x16384_S1x16384_98_0 : ∀ a, (![98, 0] : Fin 2 → Nat) a + S1x16384.size a ≤ S128x16384.size a
  inb_S128_S1_99 : ∀ a, (![99] : Fin 1 → Nat) a + S1.size a ≤ S128.size a
  inb_S128x16384_S1x16384_99_0 : ∀ a, (![99, 0] : Fin 2 → Nat) a + S1x16384.size a ≤ S128x16384.size a
  inb_S128_S1_100 : ∀ a, (![100] : Fin 1 → Nat) a + S1.size a ≤ S128.size a
  inb_S128x16384_S1x16384_100_0 : ∀ a, (![100, 0] : Fin 2 → Nat) a + S1x16384.size a ≤ S128x16384.size a
  inb_S128_S1_101 : ∀ a, (![101] : Fin 1 → Nat) a + S1.size a ≤ S128.size a
  inb_S128x16384_S1x16384_101_0 : ∀ a, (![101, 0] : Fin 2 → Nat) a + S1x16384.size a ≤ S128x16384.size a
  inb_S128_S1_102 : ∀ a, (![102] : Fin 1 → Nat) a + S1.size a ≤ S128.size a
  inb_S128x16384_S1x16384_102_0 : ∀ a, (![102, 0] : Fin 2 → Nat) a + S1x16384.size a ≤ S128x16384.size a
  inb_S128_S1_103 : ∀ a, (![103] : Fin 1 → Nat) a + S1.size a ≤ S128.size a
  inb_S128x16384_S1x16384_103_0 : ∀ a, (![103, 0] : Fin 2 → Nat) a + S1x16384.size a ≤ S128x16384.size a
  inb_S128_S1_104 : ∀ a, (![104] : Fin 1 → Nat) a + S1.size a ≤ S128.size a
  inb_S128x16384_S1x16384_104_0 : ∀ a, (![104, 0] : Fin 2 → Nat) a + S1x16384.size a ≤ S128x16384.size a
  inb_S128_S1_105 : ∀ a, (![105] : Fin 1 → Nat) a + S1.size a ≤ S128.size a
  inb_S128x16384_S1x16384_105_0 : ∀ a, (![105, 0] : Fin 2 → Nat) a + S1x16384.size a ≤ S128x16384.size a
  inb_S128_S1_106 : ∀ a, (![106] : Fin 1 → Nat) a + S1.size a ≤ S128.size a
  inb_S128x16384_S1x16384_106_0 : ∀ a, (![106, 0] : Fin 2 → Nat) a + S1x16384.size a ≤ S128x16384.size a
  inb_S128_S1_107 : ∀ a, (![107] : Fin 1 → Nat) a + S1.size a ≤ S128.size a
  inb_S128x16384_S1x16384_107_0 : ∀ a, (![107, 0] : Fin 2 → Nat) a + S1x16384.size a ≤ S128x16384.size a
  inb_S128_S1_108 : ∀ a, (![108] : Fin 1 → Nat) a + S1.size a ≤ S128.size a
  inb_S128x16384_S1x16384_108_0 : ∀ a, (![108, 0] : Fin 2 → Nat) a + S1x16384.size a ≤ S128x16384.size a
  inb_S128_S1_109 : ∀ a, (![109] : Fin 1 → Nat) a + S1.size a ≤ S128.size a
  inb_S128x16384_S1x16384_109_0 : ∀ a, (![109, 0] : Fin 2 → Nat) a + S1x16384.size a ≤ S128x16384.size a
  inb_S128_S1_110 : ∀ a, (![110] : Fin 1 → Nat) a + S1.size a ≤ S128.size a
  inb_S128x16384_S1x16384_110_0 : ∀ a, (![110, 0] : Fin 2 → Nat) a + S1x16384.size a ≤ S128x16384.size a
  inb_S128_S1_111 : ∀ a, (![111] : Fin 1 → Nat) a + S1.size a ≤ S128.size a
  inb_S128x16384_S1x16384_111_0 : ∀ a, (![111, 0] : Fin 2 → Nat) a + S1x16384.size a ≤ S128x16384.size a
  inb_S128_S1_112 : ∀ a, (![112] : Fin 1 → Nat) a + S1.size a ≤ S128.size a
  inb_S128x16384_S1x16384_112_0 : ∀ a, (![112, 0] : Fin 2 → Nat) a + S1x16384.size a ≤ S128x16384.size a
  inb_S128_S1_113 : ∀ a, (![113] : Fin 1 → Nat) a + S1.size a ≤ S128.size a
  inb_S128x16384_S1x16384_113_0 : ∀ a, (![113, 0] : Fin 2 → Nat) a + S1x16384.size a ≤ S128x16384.size a
  inb_S128_S1_114 : ∀ a, (![114] : Fin 1 → Nat) a + S1.size a ≤ S128.size a
  inb_S128x16384_S1x16384_114_0 : ∀ a, (![114, 0] : Fin 2 → Nat) a + S1x16384.size a ≤ S128x16384.size a
  inb_S128_S1_115 : ∀ a, (![115] : Fin 1 → Nat) a + S1.size a ≤ S128.size a
  inb_S128x16384_S1x16384_115_0 : ∀ a, (![115, 0] : Fin 2 → Nat) a + S1x16384.size a ≤ S128x16384.size a
  inb_S128_S1_116 : ∀ a, (![116] : Fin 1 → Nat) a + S1.size a ≤ S128.size a
  inb_S128x16384_S1x16384_116_0 : ∀ a, (![116, 0] : Fin 2 → Nat) a + S1x16384.size a ≤ S128x16384.size a
  inb_S128_S1_117 : ∀ a, (![117] : Fin 1 → Nat) a + S1.size a ≤ S128.size a
  inb_S128x16384_S1x16384_117_0 : ∀ a, (![117, 0] : Fin 2 → Nat) a + S1x16384.size a ≤ S128x16384.size a
  inb_S128_S1_118 : ∀ a, (![118] : Fin 1 → Nat) a + S1.size a ≤ S128.size a
  inb_S128x16384_S1x16384_118_0 : ∀ a, (![118, 0] : Fin 2 → Nat) a + S1x16384.size a ≤ S128x16384.size a
  inb_S128_S1_119 : ∀ a, (![119] : Fin 1 → Nat) a + S1.size a ≤ S128.size a
  inb_S128x16384_S1x16384_119_0 : ∀ a, (![119, 0] : Fin 2 → Nat) a + S1x16384.size a ≤ S128x16384.size a
  inb_S128_S1_120 : ∀ a, (![120] : Fin 1 → Nat) a + S1.size a ≤ S128.size a
  inb_S128x16384_S1x16384_120_0 : ∀ a, (![120, 0] : Fin 2 → Nat) a + S1x16384.size a ≤ S128x16384.size a
  inb_S128_S1_121 : ∀ a, (![121] : Fin 1 → Nat) a + S1.size a ≤ S128.size a
  inb_S128x16384_S1x16384_121_0 : ∀ a, (![121, 0] : Fin 2 → Nat) a + S1x16384.size a ≤ S128x16384.size a
  inb_S128_S1_122 : ∀ a, (![122] : Fin 1 → Nat) a + S1.size a ≤ S128.size a
  inb_S128x16384_S1x16384_122_0 : ∀ a, (![122, 0] : Fin 2 → Nat) a + S1x16384.size a ≤ S128x16384.size a
  inb_S128_S1_123 : ∀ a, (![123] : Fin 1 → Nat) a + S1.size a ≤ S128.size a
  inb_S128x16384_S1x16384_123_0 : ∀ a, (![123, 0] : Fin 2 → Nat) a + S1x16384.size a ≤ S128x16384.size a
  inb_S128_S1_124 : ∀ a, (![124] : Fin 1 → Nat) a + S1.size a ≤ S128.size a
  inb_S128x16384_S1x16384_124_0 : ∀ a, (![124, 0] : Fin 2 → Nat) a + S1x16384.size a ≤ S128x16384.size a
  inb_S128_S1_125 : ∀ a, (![125] : Fin 1 → Nat) a + S1.size a ≤ S128.size a
  inb_S128x16384_S1x16384_125_0 : ∀ a, (![125, 0] : Fin 2 → Nat) a + S1x16384.size a ≤ S128x16384.size a
  inb_S128_S1_126 : ∀ a, (![126] : Fin 1 → Nat) a + S1.size a ≤ S128.size a
  inb_S128x16384_S1x16384_126_0 : ∀ a, (![126, 0] : Fin 2 → Nat) a + S1x16384.size a ≤ S128x16384.size a
  inb_S128_S1_127 : ∀ a, (![127] : Fin 1 → Nat) a + S1.size a ≤ S128.size a
  inb_S128x16384_S1x16384_127_0 : ∀ a, (![127, 0] : Fin 2 → Nat) a + S1x16384.size a ≤ S128x16384.size a
  inb_S16384x16384_S1x16384_0_0 : ∀ a, (![0, 0] : Fin 2 → Nat) a + S1x16384.size a ≤ S16384x16384.size a
  inb_S128x16384_S128x16384_0_0 : ∀ a, (![0, 0] : Fin 2 → Nat) a + S128x16384.size a ≤ S128x16384.size a
  h_S128x16384 : 0 < S128x16384.numel
  bitsLt_bf16_f32 : FTy.bits .bf16 < FTy.bits .f32
  inb_S16384x128_S16384x128_0_0 : ∀ a, (![0, 0] : Fin 2 → Nat) a + S16384x128.size a ≤ S16384x128.size a
  h_S16384x128 : 0 < S16384x128.numel
  inb_S128x128_S128x128_0_0 : ∀ a, (![0, 0] : Fin 2 → Nat) a + S128x128.size a ≤ S128x128.size a
  h_S128x128 : 0 < S128x128.numel
  inb_S256_S1_0 : ∀ a, (![0] : Fin 1 → Nat) a + S1.size a ≤ S256.size a
  inb_S256x128_S1x128_0_0 : ∀ a, (![0, 0] : Fin 2 → Nat) a + S1x128.size a ≤ S256x128.size a
  squeezes_S1x128_S128 : S1x128.Squeezes S128
  inb_S256_S1_1 : ∀ a, (![1] : Fin 1 → Nat) a + S1.size a ≤ S256.size a
  inb_S256x128_S1x128_1_0 : ∀ a, (![1, 0] : Fin 2 → Nat) a + S1x128.size a ≤ S256x128.size a
  inb_S256_S1_2 : ∀ a, (![2] : Fin 1 → Nat) a + S1.size a ≤ S256.size a
  inb_S256x128_S1x128_2_0 : ∀ a, (![2, 0] : Fin 2 → Nat) a + S1x128.size a ≤ S256x128.size a
  inb_S256_S1_3 : ∀ a, (![3] : Fin 1 → Nat) a + S1.size a ≤ S256.size a
  inb_S256x128_S1x128_3_0 : ∀ a, (![3, 0] : Fin 2 → Nat) a + S1x128.size a ≤ S256x128.size a
  inb_S256_S1_4 : ∀ a, (![4] : Fin 1 → Nat) a + S1.size a ≤ S256.size a
  inb_S256x128_S1x128_4_0 : ∀ a, (![4, 0] : Fin 2 → Nat) a + S1x128.size a ≤ S256x128.size a
  inb_S256_S1_5 : ∀ a, (![5] : Fin 1 → Nat) a + S1.size a ≤ S256.size a
  inb_S256x128_S1x128_5_0 : ∀ a, (![5, 0] : Fin 2 → Nat) a + S1x128.size a ≤ S256x128.size a
  inb_S256_S1_6 : ∀ a, (![6] : Fin 1 → Nat) a + S1.size a ≤ S256.size a
  inb_S256x128_S1x128_6_0 : ∀ a, (![6, 0] : Fin 2 → Nat) a + S1x128.size a ≤ S256x128.size a
  inb_S256_S1_7 : ∀ a, (![7] : Fin 1 → Nat) a + S1.size a ≤ S256.size a
  inb_S256x128_S1x128_7_0 : ∀ a, (![7, 0] : Fin 2 → Nat) a + S1x128.size a ≤ S256x128.size a
  inb_S256_S1_8 : ∀ a, (![8] : Fin 1 → Nat) a + S1.size a ≤ S256.size a
  inb_S256x128_S1x128_8_0 : ∀ a, (![8, 0] : Fin 2 → Nat) a + S1x128.size a ≤ S256x128.size a
  inb_S256_S1_9 : ∀ a, (![9] : Fin 1 → Nat) a + S1.size a ≤ S256.size a
  inb_S256x128_S1x128_9_0 : ∀ a, (![9, 0] : Fin 2 → Nat) a + S1x128.size a ≤ S256x128.size a
  inb_S256_S1_10 : ∀ a, (![10] : Fin 1 → Nat) a + S1.size a ≤ S256.size a
  inb_S256x128_S1x128_10_0 : ∀ a, (![10, 0] : Fin 2 → Nat) a + S1x128.size a ≤ S256x128.size a
  inb_S256_S1_11 : ∀ a, (![11] : Fin 1 → Nat) a + S1.size a ≤ S256.size a
  inb_S256x128_S1x128_11_0 : ∀ a, (![11, 0] : Fin 2 → Nat) a + S1x128.size a ≤ S256x128.size a
  inb_S256_S1_12 : ∀ a, (![12] : Fin 1 → Nat) a + S1.size a ≤ S256.size a
  inb_S256x128_S1x128_12_0 : ∀ a, (![12, 0] : Fin 2 → Nat) a + S1x128.size a ≤ S256x128.size a
  inb_S256_S1_13 : ∀ a, (![13] : Fin 1 → Nat) a + S1.size a ≤ S256.size a
  inb_S256x128_S1x128_13_0 : ∀ a, (![13, 0] : Fin 2 → Nat) a + S1x128.size a ≤ S256x128.size a
  inb_S256_S1_14 : ∀ a, (![14] : Fin 1 → Nat) a + S1.size a ≤ S256.size a
  inb_S256x128_S1x128_14_0 : ∀ a, (![14, 0] : Fin 2 → Nat) a + S1x128.size a ≤ S256x128.size a
  inb_S256_S1_15 : ∀ a, (![15] : Fin 1 → Nat) a + S1.size a ≤ S256.size a
  inb_S256x128_S1x128_15_0 : ∀ a, (![15, 0] : Fin 2 → Nat) a + S1x128.size a ≤ S256x128.size a
  inb_S256_S1_16 : ∀ a, (![16] : Fin 1 → Nat) a + S1.size a ≤ S256.size a
  inb_S256x128_S1x128_16_0 : ∀ a, (![16, 0] : Fin 2 → Nat) a + S1x128.size a ≤ S256x128.size a
  inb_S256_S1_17 : ∀ a, (![17] : Fin 1 → Nat) a + S1.size a ≤ S256.size a
  inb_S256x128_S1x128_17_0 : ∀ a, (![17, 0] : Fin 2 → Nat) a + S1x128.size a ≤ S256x128.size a
  inb_S256_S1_18 : ∀ a, (![18] : Fin 1 → Nat) a + S1.size a ≤ S256.size a
  inb_S256x128_S1x128_18_0 : ∀ a, (![18, 0] : Fin 2 → Nat) a + S1x128.size a ≤ S256x128.size a
  inb_S256_S1_19 : ∀ a, (![19] : Fin 1 → Nat) a + S1.size a ≤ S256.size a
  inb_S256x128_S1x128_19_0 : ∀ a, (![19, 0] : Fin 2 → Nat) a + S1x128.size a ≤ S256x128.size a
  inb_S256_S1_20 : ∀ a, (![20] : Fin 1 → Nat) a + S1.size a ≤ S256.size a
  inb_S256x128_S1x128_20_0 : ∀ a, (![20, 0] : Fin 2 → Nat) a + S1x128.size a ≤ S256x128.size a
  inb_S256_S1_21 : ∀ a, (![21] : Fin 1 → Nat) a + S1.size a ≤ S256.size a
  inb_S256x128_S1x128_21_0 : ∀ a, (![21, 0] : Fin 2 → Nat) a + S1x128.size a ≤ S256x128.size a
  inb_S256_S1_22 : ∀ a, (![22] : Fin 1 → Nat) a + S1.size a ≤ S256.size a
  inb_S256x128_S1x128_22_0 : ∀ a, (![22, 0] : Fin 2 → Nat) a + S1x128.size a ≤ S256x128.size a
  inb_S256_S1_23 : ∀ a, (![23] : Fin 1 → Nat) a + S1.size a ≤ S256.size a
  inb_S256x128_S1x128_23_0 : ∀ a, (![23, 0] : Fin 2 → Nat) a + S1x128.size a ≤ S256x128.size a
  inb_S256_S1_24 : ∀ a, (![24] : Fin 1 → Nat) a + S1.size a ≤ S256.size a
  inb_S256x128_S1x128_24_0 : ∀ a, (![24, 0] : Fin 2 → Nat) a + S1x128.size a ≤ S256x128.size a
  inb_S256_S1_25 : ∀ a, (![25] : Fin 1 → Nat) a + S1.size a ≤ S256.size a
  inb_S256x128_S1x128_25_0 : ∀ a, (![25, 0] : Fin 2 → Nat) a + S1x128.size a ≤ S256x128.size a
  inb_S256_S1_26 : ∀ a, (![26] : Fin 1 → Nat) a + S1.size a ≤ S256.size a
  inb_S256x128_S1x128_26_0 : ∀ a, (![26, 0] : Fin 2 → Nat) a + S1x128.size a ≤ S256x128.size a
  inb_S256_S1_27 : ∀ a, (![27] : Fin 1 → Nat) a + S1.size a ≤ S256.size a
  inb_S256x128_S1x128_27_0 : ∀ a, (![27, 0] : Fin 2 → Nat) a + S1x128.size a ≤ S256x128.size a
  inb_S256_S1_28 : ∀ a, (![28] : Fin 1 → Nat) a + S1.size a ≤ S256.size a
  inb_S256x128_S1x128_28_0 : ∀ a, (![28, 0] : Fin 2 → Nat) a + S1x128.size a ≤ S256x128.size a
  inb_S256_S1_29 : ∀ a, (![29] : Fin 1 → Nat) a + S1.size a ≤ S256.size a
  inb_S256x128_S1x128_29_0 : ∀ a, (![29, 0] : Fin 2 → Nat) a + S1x128.size a ≤ S256x128.size a
  inb_S256_S1_30 : ∀ a, (![30] : Fin 1 → Nat) a + S1.size a ≤ S256.size a
  inb_S256x128_S1x128_30_0 : ∀ a, (![30, 0] : Fin 2 → Nat) a + S1x128.size a ≤ S256x128.size a
  inb_S256_S1_31 : ∀ a, (![31] : Fin 1 → Nat) a + S1.size a ≤ S256.size a
  inb_S256x128_S1x128_31_0 : ∀ a, (![31, 0] : Fin 2 → Nat) a + S1x128.size a ≤ S256x128.size a
  inb_S256_S1_32 : ∀ a, (![32] : Fin 1 → Nat) a + S1.size a ≤ S256.size a
  inb_S256x128_S1x128_32_0 : ∀ a, (![32, 0] : Fin 2 → Nat) a + S1x128.size a ≤ S256x128.size a
  inb_S256_S1_33 : ∀ a, (![33] : Fin 1 → Nat) a + S1.size a ≤ S256.size a
  inb_S256x128_S1x128_33_0 : ∀ a, (![33, 0] : Fin 2 → Nat) a + S1x128.size a ≤ S256x128.size a
  inb_S256_S1_34 : ∀ a, (![34] : Fin 1 → Nat) a + S1.size a ≤ S256.size a
  inb_S256x128_S1x128_34_0 : ∀ a, (![34, 0] : Fin 2 → Nat) a + S1x128.size a ≤ S256x128.size a
  inb_S256_S1_35 : ∀ a, (![35] : Fin 1 → Nat) a + S1.size a ≤ S256.size a
  inb_S256x128_S1x128_35_0 : ∀ a, (![35, 0] : Fin 2 → Nat) a + S1x128.size a ≤ S256x128.size a
  inb_S256_S1_36 : ∀ a, (![36] : Fin 1 → Nat) a + S1.size a ≤ S256.size a
  inb_S256x128_S1x128_36_0 : ∀ a, (![36, 0] : Fin 2 → Nat) a + S1x128.size a ≤ S256x128.size a
  inb_S256_S1_37 : ∀ a, (![37] : Fin 1 → Nat) a + S1.size a ≤ S256.size a
  inb_S256x128_S1x128_37_0 : ∀ a, (![37, 0] : Fin 2 → Nat) a + S1x128.size a ≤ S256x128.size a
  inb_S256_S1_38 : ∀ a, (![38] : Fin 1 → Nat) a + S1.size a ≤ S256.size a
  inb_S256x128_S1x128_38_0 : ∀ a, (![38, 0] : Fin 2 → Nat) a + S1x128.size a ≤ S256x128.size a
  inb_S256_S1_39 : ∀ a, (![39] : Fin 1 → Nat) a + S1.size a ≤ S256.size a
  inb_S256x128_S1x128_39_0 : ∀ a, (![39, 0] : Fin 2 → Nat) a + S1x128.size a ≤ S256x128.size a
  inb_S256_S1_40 : ∀ a, (![40] : Fin 1 → Nat) a + S1.size a ≤ S256.size a
  inb_S256x128_S1x128_40_0 : ∀ a, (![40, 0] : Fin 2 → Nat) a + S1x128.size a ≤ S256x128.size a
  inb_S256_S1_41 : ∀ a, (![41] : Fin 1 → Nat) a + S1.size a ≤ S256.size a
  inb_S256x128_S1x128_41_0 : ∀ a, (![41, 0] : Fin 2 → Nat) a + S1x128.size a ≤ S256x128.size a
  inb_S256_S1_42 : ∀ a, (![42] : Fin 1 → Nat) a + S1.size a ≤ S256.size a
  inb_S256x128_S1x128_42_0 : ∀ a, (![42, 0] : Fin 2 → Nat) a + S1x128.size a ≤ S256x128.size a
  inb_S256_S1_43 : ∀ a, (![43] : Fin 1 → Nat) a + S1.size a ≤ S256.size a
  inb_S256x128_S1x128_43_0 : ∀ a, (![43, 0] : Fin 2 → Nat) a + S1x128.size a ≤ S256x128.size a
  inb_S256_S1_44 : ∀ a, (![44] : Fin 1 → Nat) a + S1.size a ≤ S256.size a
  inb_S256x128_S1x128_44_0 : ∀ a, (![44, 0] : Fin 2 → Nat) a + S1x128.size a ≤ S256x128.size a
  inb_S256_S1_45 : ∀ a, (![45] : Fin 1 → Nat) a + S1.size a ≤ S256.size a
  inb_S256x128_S1x128_45_0 : ∀ a, (![45, 0] : Fin 2 → Nat) a + S1x128.size a ≤ S256x128.size a
  inb_S256_S1_46 : ∀ a, (![46] : Fin 1 → Nat) a + S1.size a ≤ S256.size a
  inb_S256x128_S1x128_46_0 : ∀ a, (![46, 0] : Fin 2 → Nat) a + S1x128.size a ≤ S256x128.size a
  inb_S256_S1_47 : ∀ a, (![47] : Fin 1 → Nat) a + S1.size a ≤ S256.size a
  inb_S256x128_S1x128_47_0 : ∀ a, (![47, 0] : Fin 2 → Nat) a + S1x128.size a ≤ S256x128.size a
  inb_S256_S1_48 : ∀ a, (![48] : Fin 1 → Nat) a + S1.size a ≤ S256.size a
  inb_S256x128_S1x128_48_0 : ∀ a, (![48, 0] : Fin 2 → Nat) a + S1x128.size a ≤ S256x128.size a
  inb_S256_S1_49 : ∀ a, (![49] : Fin 1 → Nat) a + S1.size a ≤ S256.size a
  inb_S256x128_S1x128_49_0 : ∀ a, (![49, 0] : Fin 2 → Nat) a + S1x128.size a ≤ S256x128.size a
  inb_S256_S1_50 : ∀ a, (![50] : Fin 1 → Nat) a + S1.size a ≤ S256.size a
  inb_S256x128_S1x128_50_0 : ∀ a, (![50, 0] : Fin 2 → Nat) a + S1x128.size a ≤ S256x128.size a
  inb_S256_S1_51 : ∀ a, (![51] : Fin 1 → Nat) a + S1.size a ≤ S256.size a
  inb_S256x128_S1x128_51_0 : ∀ a, (![51, 0] : Fin 2 → Nat) a + S1x128.size a ≤ S256x128.size a
  inb_S256_S1_52 : ∀ a, (![52] : Fin 1 → Nat) a + S1.size a ≤ S256.size a
  inb_S256x128_S1x128_52_0 : ∀ a, (![52, 0] : Fin 2 → Nat) a + S1x128.size a ≤ S256x128.size a
  inb_S256_S1_53 : ∀ a, (![53] : Fin 1 → Nat) a + S1.size a ≤ S256.size a
  inb_S256x128_S1x128_53_0 : ∀ a, (![53, 0] : Fin 2 → Nat) a + S1x128.size a ≤ S256x128.size a
  inb_S256_S1_54 : ∀ a, (![54] : Fin 1 → Nat) a + S1.size a ≤ S256.size a
  inb_S256x128_S1x128_54_0 : ∀ a, (![54, 0] : Fin 2 → Nat) a + S1x128.size a ≤ S256x128.size a
  inb_S256_S1_55 : ∀ a, (![55] : Fin 1 → Nat) a + S1.size a ≤ S256.size a
  inb_S256x128_S1x128_55_0 : ∀ a, (![55, 0] : Fin 2 → Nat) a + S1x128.size a ≤ S256x128.size a
  inb_S256_S1_56 : ∀ a, (![56] : Fin 1 → Nat) a + S1.size a ≤ S256.size a
  inb_S256x128_S1x128_56_0 : ∀ a, (![56, 0] : Fin 2 → Nat) a + S1x128.size a ≤ S256x128.size a
  inb_S256_S1_57 : ∀ a, (![57] : Fin 1 → Nat) a + S1.size a ≤ S256.size a
  inb_S256x128_S1x128_57_0 : ∀ a, (![57, 0] : Fin 2 → Nat) a + S1x128.size a ≤ S256x128.size a
  inb_S256_S1_58 : ∀ a, (![58] : Fin 1 → Nat) a + S1.size a ≤ S256.size a
  inb_S256x128_S1x128_58_0 : ∀ a, (![58, 0] : Fin 2 → Nat) a + S1x128.size a ≤ S256x128.size a
  inb_S256_S1_59 : ∀ a, (![59] : Fin 1 → Nat) a + S1.size a ≤ S256.size a
  inb_S256x128_S1x128_59_0 : ∀ a, (![59, 0] : Fin 2 → Nat) a + S1x128.size a ≤ S256x128.size a
  inb_S256_S1_60 : ∀ a, (![60] : Fin 1 → Nat) a + S1.size a ≤ S256.size a
  inb_S256x128_S1x128_60_0 : ∀ a, (![60, 0] : Fin 2 → Nat) a + S1x128.size a ≤ S256x128.size a
  inb_S256_S1_61 : ∀ a, (![61] : Fin 1 → Nat) a + S1.size a ≤ S256.size a
  inb_S256x128_S1x128_61_0 : ∀ a, (![61, 0] : Fin 2 → Nat) a + S1x128.size a ≤ S256x128.size a
  inb_S256_S1_62 : ∀ a, (![62] : Fin 1 → Nat) a + S1.size a ≤ S256.size a
  inb_S256x128_S1x128_62_0 : ∀ a, (![62, 0] : Fin 2 → Nat) a + S1x128.size a ≤ S256x128.size a
  inb_S256_S1_63 : ∀ a, (![63] : Fin 1 → Nat) a + S1.size a ≤ S256.size a
  inb_S256x128_S1x128_63_0 : ∀ a, (![63, 0] : Fin 2 → Nat) a + S1x128.size a ≤ S256x128.size a
  inb_S256_S1_64 : ∀ a, (![64] : Fin 1 → Nat) a + S1.size a ≤ S256.size a
  inb_S256x128_S1x128_64_0 : ∀ a, (![64, 0] : Fin 2 → Nat) a + S1x128.size a ≤ S256x128.size a
  inb_S256_S1_65 : ∀ a, (![65] : Fin 1 → Nat) a + S1.size a ≤ S256.size a
  inb_S256x128_S1x128_65_0 : ∀ a, (![65, 0] : Fin 2 → Nat) a + S1x128.size a ≤ S256x128.size a
  inb_S256_S1_66 : ∀ a, (![66] : Fin 1 → Nat) a + S1.size a ≤ S256.size a
  inb_S256x128_S1x128_66_0 : ∀ a, (![66, 0] : Fin 2 → Nat) a + S1x128.size a ≤ S256x128.size a
  inb_S256_S1_67 : ∀ a, (![67] : Fin 1 → Nat) a + S1.size a ≤ S256.size a
  inb_S256x128_S1x128_67_0 : ∀ a, (![67, 0] : Fin 2 → Nat) a + S1x128.size a ≤ S256x128.size a
  inb_S256_S1_68 : ∀ a, (![68] : Fin 1 → Nat) a + S1.size a ≤ S256.size a
  inb_S256x128_S1x128_68_0 : ∀ a, (![68, 0] : Fin 2 → Nat) a + S1x128.size a ≤ S256x128.size a
  inb_S256_S1_69 : ∀ a, (![69] : Fin 1 → Nat) a + S1.size a ≤ S256.size a
  inb_S256x128_S1x128_69_0 : ∀ a, (![69, 0] : Fin 2 → Nat) a + S1x128.size a ≤ S256x128.size a
  inb_S256_S1_70 : ∀ a, (![70] : Fin 1 → Nat) a + S1.size a ≤ S256.size a
  inb_S256x128_S1x128_70_0 : ∀ a, (![70, 0] : Fin 2 → Nat) a + S1x128.size a ≤ S256x128.size a
  inb_S256_S1_71 : ∀ a, (![71] : Fin 1 → Nat) a + S1.size a ≤ S256.size a
  inb_S256x128_S1x128_71_0 : ∀ a, (![71, 0] : Fin 2 → Nat) a + S1x128.size a ≤ S256x128.size a
  inb_S256_S1_72 : ∀ a, (![72] : Fin 1 → Nat) a + S1.size a ≤ S256.size a
  inb_S256x128_S1x128_72_0 : ∀ a, (![72, 0] : Fin 2 → Nat) a + S1x128.size a ≤ S256x128.size a
  inb_S256_S1_73 : ∀ a, (![73] : Fin 1 → Nat) a + S1.size a ≤ S256.size a
  inb_S256x128_S1x128_73_0 : ∀ a, (![73, 0] : Fin 2 → Nat) a + S1x128.size a ≤ S256x128.size a
  inb_S256_S1_74 : ∀ a, (![74] : Fin 1 → Nat) a + S1.size a ≤ S256.size a
  inb_S256x128_S1x128_74_0 : ∀ a, (![74, 0] : Fin 2 → Nat) a + S1x128.size a ≤ S256x128.size a
  inb_S256_S1_75 : ∀ a, (![75] : Fin 1 → Nat) a + S1.size a ≤ S256.size a
  inb_S256x128_S1x128_75_0 : ∀ a, (![75, 0] : Fin 2 → Nat) a + S1x128.size a ≤ S256x128.size a
  inb_S256_S1_76 : ∀ a, (![76] : Fin 1 → Nat) a + S1.size a ≤ S256.size a
  inb_S256x128_S1x128_76_0 : ∀ a, (![76, 0] : Fin 2 → Nat) a + S1x128.size a ≤ S256x128.size a
  inb_S256_S1_77 : ∀ a, (![77] : Fin 1 → Nat) a + S1.size a ≤ S256.size a
  inb_S256x128_S1x128_77_0 : ∀ a, (![77, 0] : Fin 2 → Nat) a + S1x128.size a ≤ S256x128.size a
  inb_S256_S1_78 : ∀ a, (![78] : Fin 1 → Nat) a + S1.size a ≤ S256.size a
  inb_S256x128_S1x128_78_0 : ∀ a, (![78, 0] : Fin 2 → Nat) a + S1x128.size a ≤ S256x128.size a
  inb_S256_S1_79 : ∀ a, (![79] : Fin 1 → Nat) a + S1.size a ≤ S256.size a
  inb_S256x128_S1x128_79_0 : ∀ a, (![79, 0] : Fin 2 → Nat) a + S1x128.size a ≤ S256x128.size a
  inb_S256_S1_80 : ∀ a, (![80] : Fin 1 → Nat) a + S1.size a ≤ S256.size a
  inb_S256x128_S1x128_80_0 : ∀ a, (![80, 0] : Fin 2 → Nat) a + S1x128.size a ≤ S256x128.size a
  inb_S256_S1_81 : ∀ a, (![81] : Fin 1 → Nat) a + S1.size a ≤ S256.size a
  inb_S256x128_S1x128_81_0 : ∀ a, (![81, 0] : Fin 2 → Nat) a + S1x128.size a ≤ S256x128.size a
  inb_S256_S1_82 : ∀ a, (![82] : Fin 1 → Nat) a + S1.size a ≤ S256.size a
  inb_S256x128_S1x128_82_0 : ∀ a, (![82, 0] : Fin 2 → Nat) a + S1x128.size a ≤ S256x128.size a
  inb_S256_S1_83 : ∀ a, (![83] : Fin 1 → Nat) a + S1.size a ≤ S256.size a
  inb_S256x128_S1x128_83_0 : ∀ a, (![83, 0] : Fin 2 → Nat) a + S1x128.size a ≤ S256x128.size a
  inb_S256_S1_84 : ∀ a, (![84] : Fin 1 → Nat) a + S1.size a ≤ S256.size a
  inb_S256x128_S1x128_84_0 : ∀ a, (![84, 0] : Fin 2 → Nat) a + S1x128.size a ≤ S256x128.size a
  inb_S256_S1_85 : ∀ a, (![85] : Fin 1 → Nat) a + S1.size a ≤ S256.size a
  inb_S256x128_S1x128_85_0 : ∀ a, (![85, 0] : Fin 2 → Nat) a + S1x128.size a ≤ S256x128.size a
  inb_S256_S1_86 : ∀ a, (![86] : Fin 1 → Nat) a + S1.size a ≤ S256.size a
  inb_S256x128_S1x128_86_0 : ∀ a, (![86, 0] : Fin 2 → Nat) a + S1x128.size a ≤ S256x128.size a
  inb_S256_S1_87 : ∀ a, (![87] : Fin 1 → Nat) a + S1.size a ≤ S256.size a
  inb_S256x128_S1x128_87_0 : ∀ a, (![87, 0] : Fin 2 → Nat) a + S1x128.size a ≤ S256x128.size a
  inb_S256_S1_88 : ∀ a, (![88] : Fin 1 → Nat) a + S1.size a ≤ S256.size a
  inb_S256x128_S1x128_88_0 : ∀ a, (![88, 0] : Fin 2 → Nat) a + S1x128.size a ≤ S256x128.size a
  inb_S256_S1_89 : ∀ a, (![89] : Fin 1 → Nat) a + S1.size a ≤ S256.size a
  inb_S256x128_S1x128_89_0 : ∀ a, (![89, 0] : Fin 2 → Nat) a + S1x128.size a ≤ S256x128.size a
  inb_S256_S1_90 : ∀ a, (![90] : Fin 1 → Nat) a + S1.size a ≤ S256.size a
  inb_S256x128_S1x128_90_0 : ∀ a, (![90, 0] : Fin 2 → Nat) a + S1x128.size a ≤ S256x128.size a
  inb_S256_S1_91 : ∀ a, (![91] : Fin 1 → Nat) a + S1.size a ≤ S256.size a
  inb_S256x128_S1x128_91_0 : ∀ a, (![91, 0] : Fin 2 → Nat) a + S1x128.size a ≤ S256x128.size a
  inb_S256_S1_92 : ∀ a, (![92] : Fin 1 → Nat) a + S1.size a ≤ S256.size a
  inb_S256x128_S1x128_92_0 : ∀ a, (![92, 0] : Fin 2 → Nat) a + S1x128.size a ≤ S256x128.size a
  inb_S256_S1_93 : ∀ a, (![93] : Fin 1 → Nat) a + S1.size a ≤ S256.size a
  inb_S256x128_S1x128_93_0 : ∀ a, (![93, 0] : Fin 2 → Nat) a + S1x128.size a ≤ S256x128.size a
  inb_S256_S1_94 : ∀ a, (![94] : Fin 1 → Nat) a + S1.size a ≤ S256.size a
  inb_S256x128_S1x128_94_0 : ∀ a, (![94, 0] : Fin 2 → Nat) a + S1x128.size a ≤ S256x128.size a
  inb_S256_S1_95 : ∀ a, (![95] : Fin 1 → Nat) a + S1.size a ≤ S256.size a
  inb_S256x128_S1x128_95_0 : ∀ a, (![95, 0] : Fin 2 → Nat) a + S1x128.size a ≤ S256x128.size a
  inb_S256_S1_96 : ∀ a, (![96] : Fin 1 → Nat) a + S1.size a ≤ S256.size a
  inb_S256x128_S1x128_96_0 : ∀ a, (![96, 0] : Fin 2 → Nat) a + S1x128.size a ≤ S256x128.size a
  inb_S256_S1_97 : ∀ a, (![97] : Fin 1 → Nat) a + S1.size a ≤ S256.size a
  inb_S256x128_S1x128_97_0 : ∀ a, (![97, 0] : Fin 2 → Nat) a + S1x128.size a ≤ S256x128.size a
  inb_S256_S1_98 : ∀ a, (![98] : Fin 1 → Nat) a + S1.size a ≤ S256.size a
  inb_S256x128_S1x128_98_0 : ∀ a, (![98, 0] : Fin 2 → Nat) a + S1x128.size a ≤ S256x128.size a
  inb_S256_S1_99 : ∀ a, (![99] : Fin 1 → Nat) a + S1.size a ≤ S256.size a
  inb_S256x128_S1x128_99_0 : ∀ a, (![99, 0] : Fin 2 → Nat) a + S1x128.size a ≤ S256x128.size a
  inb_S256_S1_100 : ∀ a, (![100] : Fin 1 → Nat) a + S1.size a ≤ S256.size a
  inb_S256x128_S1x128_100_0 : ∀ a, (![100, 0] : Fin 2 → Nat) a + S1x128.size a ≤ S256x128.size a
  inb_S256_S1_101 : ∀ a, (![101] : Fin 1 → Nat) a + S1.size a ≤ S256.size a
  inb_S256x128_S1x128_101_0 : ∀ a, (![101, 0] : Fin 2 → Nat) a + S1x128.size a ≤ S256x128.size a
  inb_S256_S1_102 : ∀ a, (![102] : Fin 1 → Nat) a + S1.size a ≤ S256.size a
  inb_S256x128_S1x128_102_0 : ∀ a, (![102, 0] : Fin 2 → Nat) a + S1x128.size a ≤ S256x128.size a
  inb_S256_S1_103 : ∀ a, (![103] : Fin 1 → Nat) a + S1.size a ≤ S256.size a
  inb_S256x128_S1x128_103_0 : ∀ a, (![103, 0] : Fin 2 → Nat) a + S1x128.size a ≤ S256x128.size a
  inb_S256_S1_104 : ∀ a, (![104] : Fin 1 → Nat) a + S1.size a ≤ S256.size a
  inb_S256x128_S1x128_104_0 : ∀ a, (![104, 0] : Fin 2 → Nat) a + S1x128.size a ≤ S256x128.size a
  inb_S256_S1_105 : ∀ a, (![105] : Fin 1 → Nat) a + S1.size a ≤ S256.size a
  inb_S256x128_S1x128_105_0 : ∀ a, (![105, 0] : Fin 2 → Nat) a + S1x128.size a ≤ S256x128.size a
  inb_S256_S1_106 : ∀ a, (![106] : Fin 1 → Nat) a + S1.size a ≤ S256.size a
  inb_S256x128_S1x128_106_0 : ∀ a, (![106, 0] : Fin 2 → Nat) a + S1x128.size a ≤ S256x128.size a
  inb_S256_S1_107 : ∀ a, (![107] : Fin 1 → Nat) a + S1.size a ≤ S256.size a
  inb_S256x128_S1x128_107_0 : ∀ a, (![107, 0] : Fin 2 → Nat) a + S1x128.size a ≤ S256x128.size a
  inb_S256_S1_108 : ∀ a, (![108] : Fin 1 → Nat) a + S1.size a ≤ S256.size a
  inb_S256x128_S1x128_108_0 : ∀ a, (![108, 0] : Fin 2 → Nat) a + S1x128.size a ≤ S256x128.size a
  inb_S256_S1_109 : ∀ a, (![109] : Fin 1 → Nat) a + S1.size a ≤ S256.size a
  inb_S256x128_S1x128_109_0 : ∀ a, (![109, 0] : Fin 2 → Nat) a + S1x128.size a ≤ S256x128.size a
  inb_S256_S1_110 : ∀ a, (![110] : Fin 1 → Nat) a + S1.size a ≤ S256.size a
  inb_S256x128_S1x128_110_0 : ∀ a, (![110, 0] : Fin 2 → Nat) a + S1x128.size a ≤ S256x128.size a
  inb_S256_S1_111 : ∀ a, (![111] : Fin 1 → Nat) a + S1.size a ≤ S256.size a
  inb_S256x128_S1x128_111_0 : ∀ a, (![111, 0] : Fin 2 → Nat) a + S1x128.size a ≤ S256x128.size a
  inb_S256_S1_112 : ∀ a, (![112] : Fin 1 → Nat) a + S1.size a ≤ S256.size a
  inb_S256x128_S1x128_112_0 : ∀ a, (![112, 0] : Fin 2 → Nat) a + S1x128.size a ≤ S256x128.size a
  inb_S256_S1_113 : ∀ a, (![113] : Fin 1 → Nat) a + S1.size a ≤ S256.size a
  inb_S256x128_S1x128_113_0 : ∀ a, (![113, 0] : Fin 2 → Nat) a + S1x128.size a ≤ S256x128.size a
  inb_S256_S1_114 : ∀ a, (![114] : Fin 1 → Nat) a + S1.size a ≤ S256.size a
  inb_S256x128_S1x128_114_0 : ∀ a, (![114, 0] : Fin 2 → Nat) a + S1x128.size a ≤ S256x128.size a
  inb_S256_S1_115 : ∀ a, (![115] : Fin 1 → Nat) a + S1.size a ≤ S256.size a
  inb_S256x128_S1x128_115_0 : ∀ a, (![115, 0] : Fin 2 → Nat) a + S1x128.size a ≤ S256x128.size a
  inb_S256_S1_116 : ∀ a, (![116] : Fin 1 → Nat) a + S1.size a ≤ S256.size a
  inb_S256x128_S1x128_116_0 : ∀ a, (![116, 0] : Fin 2 → Nat) a + S1x128.size a ≤ S256x128.size a
  inb_S256_S1_117 : ∀ a, (![117] : Fin 1 → Nat) a + S1.size a ≤ S256.size a
  inb_S256x128_S1x128_117_0 : ∀ a, (![117, 0] : Fin 2 → Nat) a + S1x128.size a ≤ S256x128.size a
  inb_S256_S1_118 : ∀ a, (![118] : Fin 1 → Nat) a + S1.size a ≤ S256.size a
  inb_S256x128_S1x128_118_0 : ∀ a, (![118, 0] : Fin 2 → Nat) a + S1x128.size a ≤ S256x128.size a
  inb_S256_S1_119 : ∀ a, (![119] : Fin 1 → Nat) a + S1.size a ≤ S256.size a
  inb_S256x128_S1x128_119_0 : ∀ a, (![119, 0] : Fin 2 → Nat) a + S1x128.size a ≤ S256x128.size a
  inb_S256_S1_120 : ∀ a, (![120] : Fin 1 → Nat) a + S1.size a ≤ S256.size a
  inb_S256x128_S1x128_120_0 : ∀ a, (![120, 0] : Fin 2 → Nat) a + S1x128.size a ≤ S256x128.size a
  inb_S256_S1_121 : ∀ a, (![121] : Fin 1 → Nat) a + S1.size a ≤ S256.size a
  inb_S256x128_S1x128_121_0 : ∀ a, (![121, 0] : Fin 2 → Nat) a + S1x128.size a ≤ S256x128.size a
  inb_S256_S1_122 : ∀ a, (![122] : Fin 1 → Nat) a + S1.size a ≤ S256.size a
  inb_S256x128_S1x128_122_0 : ∀ a, (![122, 0] : Fin 2 → Nat) a + S1x128.size a ≤ S256x128.size a
  inb_S256_S1_123 : ∀ a, (![123] : Fin 1 → Nat) a + S1.size a ≤ S256.size a
  inb_S256x128_S1x128_123_0 : ∀ a, (![123, 0] : Fin 2 → Nat) a + S1x128.size a ≤ S256x128.size a
  inb_S256_S1_124 : ∀ a, (![124] : Fin 1 → Nat) a + S1.size a ≤ S256.size a
  inb_S256x128_S1x128_124_0 : ∀ a, (![124, 0] : Fin 2 → Nat) a + S1x128.size a ≤ S256x128.size a
  inb_S256_S1_125 : ∀ a, (![125] : Fin 1 → Nat) a + S1.size a ≤ S256.size a
  inb_S256x128_S1x128_125_0 : ∀ a, (![125, 0] : Fin 2 → Nat) a + S1x128.size a ≤ S256x128.size a
  inb_S256_S1_126 : ∀ a, (![126] : Fin 1 → Nat) a + S1.size a ≤ S256.size a
  inb_S256x128_S1x128_126_0 : ∀ a, (![126, 0] : Fin 2 → Nat) a + S1x128.size a ≤ S256x128.size a
  inb_S256_S1_127 : ∀ a, (![127] : Fin 1 → Nat) a + S1.size a ≤ S256.size a
  inb_S256x128_S1x128_127_0 : ∀ a, (![127, 0] : Fin 2 → Nat) a + S1x128.size a ≤ S256x128.size a
  inb_S256_S1_128 : ∀ a, (![128] : Fin 1 → Nat) a + S1.size a ≤ S256.size a
  inb_S256x128_S1x128_128_0 : ∀ a, (![128, 0] : Fin 2 → Nat) a + S1x128.size a ≤ S256x128.size a
  inb_S256_S1_129 : ∀ a, (![129] : Fin 1 → Nat) a + S1.size a ≤ S256.size a
  inb_S256x128_S1x128_129_0 : ∀ a, (![129, 0] : Fin 2 → Nat) a + S1x128.size a ≤ S256x128.size a
  inb_S256_S1_130 : ∀ a, (![130] : Fin 1 → Nat) a + S1.size a ≤ S256.size a
  inb_S256x128_S1x128_130_0 : ∀ a, (![130, 0] : Fin 2 → Nat) a + S1x128.size a ≤ S256x128.size a
  inb_S256_S1_131 : ∀ a, (![131] : Fin 1 → Nat) a + S1.size a ≤ S256.size a
  inb_S256x128_S1x128_131_0 : ∀ a, (![131, 0] : Fin 2 → Nat) a + S1x128.size a ≤ S256x128.size a
  inb_S256_S1_132 : ∀ a, (![132] : Fin 1 → Nat) a + S1.size a ≤ S256.size a
  inb_S256x128_S1x128_132_0 : ∀ a, (![132, 0] : Fin 2 → Nat) a + S1x128.size a ≤ S256x128.size a
  inb_S256_S1_133 : ∀ a, (![133] : Fin 1 → Nat) a + S1.size a ≤ S256.size a
  inb_S256x128_S1x128_133_0 : ∀ a, (![133, 0] : Fin 2 → Nat) a + S1x128.size a ≤ S256x128.size a
  inb_S256_S1_134 : ∀ a, (![134] : Fin 1 → Nat) a + S1.size a ≤ S256.size a
  inb_S256x128_S1x128_134_0 : ∀ a, (![134, 0] : Fin 2 → Nat) a + S1x128.size a ≤ S256x128.size a
  inb_S256_S1_135 : ∀ a, (![135] : Fin 1 → Nat) a + S1.size a ≤ S256.size a
  inb_S256x128_S1x128_135_0 : ∀ a, (![135, 0] : Fin 2 → Nat) a + S1x128.size a ≤ S256x128.size a
  inb_S256_S1_136 : ∀ a, (![136] : Fin 1 → Nat) a + S1.size a ≤ S256.size a
  inb_S256x128_S1x128_136_0 : ∀ a, (![136, 0] : Fin 2 → Nat) a + S1x128.size a ≤ S256x128.size a
  inb_S256_S1_137 : ∀ a, (![137] : Fin 1 → Nat) a + S1.size a ≤ S256.size a
  inb_S256x128_S1x128_137_0 : ∀ a, (![137, 0] : Fin 2 → Nat) a + S1x128.size a ≤ S256x128.size a
  inb_S256_S1_138 : ∀ a, (![138] : Fin 1 → Nat) a + S1.size a ≤ S256.size a
  inb_S256x128_S1x128_138_0 : ∀ a, (![138, 0] : Fin 2 → Nat) a + S1x128.size a ≤ S256x128.size a
  inb_S256_S1_139 : ∀ a, (![139] : Fin 1 → Nat) a + S1.size a ≤ S256.size a
  inb_S256x128_S1x128_139_0 : ∀ a, (![139, 0] : Fin 2 → Nat) a + S1x128.size a ≤ S256x128.size a
  inb_S256_S1_140 : ∀ a, (![140] : Fin 1 → Nat) a + S1.size a ≤ S256.size a
  inb_S256x128_S1x128_140_0 : ∀ a, (![140, 0] : Fin 2 → Nat) a + S1x128.size a ≤ S256x128.size a
  inb_S256_S1_141 : ∀ a, (![141] : Fin 1 → Nat) a + S1.size a ≤ S256.size a
  inb_S256x128_S1x128_141_0 : ∀ a, (![141, 0] : Fin 2 → Nat) a + S1x128.size a ≤ S256x128.size a
  inb_S256_S1_142 : ∀ a, (![142] : Fin 1 → Nat) a + S1.size a ≤ S256.size a
  inb_S256x128_S1x128_142_0 : ∀ a, (![142, 0] : Fin 2 → Nat) a + S1x128.size a ≤ S256x128.size a
  inb_S256_S1_143 : ∀ a, (![143] : Fin 1 → Nat) a + S1.size a ≤ S256.size a
  inb_S256x128_S1x128_143_0 : ∀ a, (![143, 0] : Fin 2 → Nat) a + S1x128.size a ≤ S256x128.size a
  inb_S256_S1_144 : ∀ a, (![144] : Fin 1 → Nat) a + S1.size a ≤ S256.size a
  inb_S256x128_S1x128_144_0 : ∀ a, (![144, 0] : Fin 2 → Nat) a + S1x128.size a ≤ S256x128.size a
  inb_S256_S1_145 : ∀ a, (![145] : Fin 1 → Nat) a + S1.size a ≤ S256.size a
  inb_S256x128_S1x128_145_0 : ∀ a, (![145, 0] : Fin 2 → Nat) a + S1x128.size a ≤ S256x128.size a
  inb_S256_S1_146 : ∀ a, (![146] : Fin 1 → Nat) a + S1.size a ≤ S256.size a
  inb_S256x128_S1x128_146_0 : ∀ a, (![146, 0] : Fin 2 → Nat) a + S1x128.size a ≤ S256x128.size a
  inb_S256_S1_147 : ∀ a, (![147] : Fin 1 → Nat) a + S1.size a ≤ S256.size a
  inb_S256x128_S1x128_147_0 : ∀ a, (![147, 0] : Fin 2 → Nat) a + S1x128.size a ≤ S256x128.size a
  inb_S256_S1_148 : ∀ a, (![148] : Fin 1 → Nat) a + S1.size a ≤ S256.size a
  inb_S256x128_S1x128_148_0 : ∀ a, (![148, 0] : Fin 2 → Nat) a + S1x128.size a ≤ S256x128.size a
  inb_S256_S1_149 : ∀ a, (![149] : Fin 1 → Nat) a + S1.size a ≤ S256.size a
  inb_S256x128_S1x128_149_0 : ∀ a, (![149, 0] : Fin 2 → Nat) a + S1x128.size a ≤ S256x128.size a
  inb_S256_S1_150 : ∀ a, (![150] : Fin 1 → Nat) a + S1.size a ≤ S256.size a
  inb_S256x128_S1x128_150_0 : ∀ a, (![150, 0] : Fin 2 → Nat) a + S1x128.size a ≤ S256x128.size a
  inb_S256_S1_151 : ∀ a, (![151] : Fin 1 → Nat) a + S1.size a ≤ S256.size a
  inb_S256x128_S1x128_151_0 : ∀ a, (![151, 0] : Fin 2 → Nat) a + S1x128.size a ≤ S256x128.size a
  inb_S256_S1_152 : ∀ a, (![152] : Fin 1 → Nat) a + S1.size a ≤ S256.size a
  inb_S256x128_S1x128_152_0 : ∀ a, (![152, 0] : Fin 2 → Nat) a + S1x128.size a ≤ S256x128.size a
  inb_S256_S1_153 : ∀ a, (![153] : Fin 1 → Nat) a + S1.size a ≤ S256.size a
  inb_S256x128_S1x128_153_0 : ∀ a, (![153, 0] : Fin 2 → Nat) a + S1x128.size a ≤ S256x128.size a
  inb_S256_S1_154 : ∀ a, (![154] : Fin 1 → Nat) a + S1.size a ≤ S256.size a
  inb_S256x128_S1x128_154_0 : ∀ a, (![154, 0] : Fin 2 → Nat) a + S1x128.size a ≤ S256x128.size a
  inb_S256_S1_155 : ∀ a, (![155] : Fin 1 → Nat) a + S1.size a ≤ S256.size a
  inb_S256x128_S1x128_155_0 : ∀ a, (![155, 0] : Fin 2 → Nat) a + S1x128.size a ≤ S256x128.size a
  inb_S256_S1_156 : ∀ a, (![156] : Fin 1 → Nat) a + S1.size a ≤ S256.size a
  inb_S256x128_S1x128_156_0 : ∀ a, (![156, 0] : Fin 2 → Nat) a + S1x128.size a ≤ S256x128.size a
  inb_S256_S1_157 : ∀ a, (![157] : Fin 1 → Nat) a + S1.size a ≤ S256.size a
  inb_S256x128_S1x128_157_0 : ∀ a, (![157, 0] : Fin 2 → Nat) a + S1x128.size a ≤ S256x128.size a
  inb_S256_S1_158 : ∀ a, (![158] : Fin 1 → Nat) a + S1.size a ≤ S256.size a
  inb_S256x128_S1x128_158_0 : ∀ a, (![158, 0] : Fin 2 → Nat) a + S1x128.size a ≤ S256x128.size a
  inb_S256_S1_159 : ∀ a, (![159] : Fin 1 → Nat) a + S1.size a ≤ S256.size a
  inb_S256x128_S1x128_159_0 : ∀ a, (![159, 0] : Fin 2 → Nat) a + S1x128.size a ≤ S256x128.size a
  inb_S256_S1_160 : ∀ a, (![160] : Fin 1 → Nat) a + S1.size a ≤ S256.size a
  inb_S256x128_S1x128_160_0 : ∀ a, (![160, 0] : Fin 2 → Nat) a + S1x128.size a ≤ S256x128.size a
  inb_S256_S1_161 : ∀ a, (![161] : Fin 1 → Nat) a + S1.size a ≤ S256.size a
  inb_S256x128_S1x128_161_0 : ∀ a, (![161, 0] : Fin 2 → Nat) a + S1x128.size a ≤ S256x128.size a
  inb_S256_S1_162 : ∀ a, (![162] : Fin 1 → Nat) a + S1.size a ≤ S256.size a
  inb_S256x128_S1x128_162_0 : ∀ a, (![162, 0] : Fin 2 → Nat) a + S1x128.size a ≤ S256x128.size a
  inb_S256_S1_163 : ∀ a, (![163] : Fin 1 → Nat) a + S1.size a ≤ S256.size a
  inb_S256x128_S1x128_163_0 : ∀ a, (![163, 0] : Fin 2 → Nat) a + S1x128.size a ≤ S256x128.size a
  inb_S256_S1_164 : ∀ a, (![164] : Fin 1 → Nat) a + S1.size a ≤ S256.size a
  inb_S256x128_S1x128_164_0 : ∀ a, (![164, 0] : Fin 2 → Nat) a + S1x128.size a ≤ S256x128.size a
  inb_S256_S1_165 : ∀ a, (![165] : Fin 1 → Nat) a + S1.size a ≤ S256.size a
  inb_S256x128_S1x128_165_0 : ∀ a, (![165, 0] : Fin 2 → Nat) a + S1x128.size a ≤ S256x128.size a
  inb_S256_S1_166 : ∀ a, (![166] : Fin 1 → Nat) a + S1.size a ≤ S256.size a
  inb_S256x128_S1x128_166_0 : ∀ a, (![166, 0] : Fin 2 → Nat) a + S1x128.size a ≤ S256x128.size a
  inb_S256_S1_167 : ∀ a, (![167] : Fin 1 → Nat) a + S1.size a ≤ S256.size a
  inb_S256x128_S1x128_167_0 : ∀ a, (![167, 0] : Fin 2 → Nat) a + S1x128.size a ≤ S256x128.size a
  inb_S256_S1_168 : ∀ a, (![168] : Fin 1 → Nat) a + S1.size a ≤ S256.size a
  inb_S256x128_S1x128_168_0 : ∀ a, (![168, 0] : Fin 2 → Nat) a + S1x128.size a ≤ S256x128.size a
  inb_S256_S1_169 : ∀ a, (![169] : Fin 1 → Nat) a + S1.size a ≤ S256.size a
  inb_S256x128_S1x128_169_0 : ∀ a, (![169, 0] : Fin 2 → Nat) a + S1x128.size a ≤ S256x128.size a
  inb_S256_S1_170 : ∀ a, (![170] : Fin 1 → Nat) a + S1.size a ≤ S256.size a
  inb_S256x128_S1x128_170_0 : ∀ a, (![170, 0] : Fin 2 → Nat) a + S1x128.size a ≤ S256x128.size a
  inb_S256_S1_171 : ∀ a, (![171] : Fin 1 → Nat) a + S1.size a ≤ S256.size a
  inb_S256x128_S1x128_171_0 : ∀ a, (![171, 0] : Fin 2 → Nat) a + S1x128.size a ≤ S256x128.size a
  inb_S256_S1_172 : ∀ a, (![172] : Fin 1 → Nat) a + S1.size a ≤ S256.size a
  inb_S256x128_S1x128_172_0 : ∀ a, (![172, 0] : Fin 2 → Nat) a + S1x128.size a ≤ S256x128.size a
  inb_S256_S1_173 : ∀ a, (![173] : Fin 1 → Nat) a + S1.size a ≤ S256.size a
  inb_S256x128_S1x128_173_0 : ∀ a, (![173, 0] : Fin 2 → Nat) a + S1x128.size a ≤ S256x128.size a
  inb_S256_S1_174 : ∀ a, (![174] : Fin 1 → Nat) a + S1.size a ≤ S256.size a
  inb_S256x128_S1x128_174_0 : ∀ a, (![174, 0] : Fin 2 → Nat) a + S1x128.size a ≤ S256x128.size a
  inb_S256_S1_175 : ∀ a, (![175] : Fin 1 → Nat) a + S1.size a ≤ S256.size a
  inb_S256x128_S1x128_175_0 : ∀ a, (![175, 0] : Fin 2 → Nat) a + S1x128.size a ≤ S256x128.size a
  inb_S256_S1_176 : ∀ a, (![176] : Fin 1 → Nat) a + S1.size a ≤ S256.size a
  inb_S256x128_S1x128_176_0 : ∀ a, (![176, 0] : Fin 2 → Nat) a + S1x128.size a ≤ S256x128.size a
  inb_S256_S1_177 : ∀ a, (![177] : Fin 1 → Nat) a + S1.size a ≤ S256.size a
  inb_S256x128_S1x128_177_0 : ∀ a, (![177, 0] : Fin 2 → Nat) a + S1x128.size a ≤ S256x128.size a
  inb_S256_S1_178 : ∀ a, (![178] : Fin 1 → Nat) a + S1.size a ≤ S256.size a
  inb_S256x128_S1x128_178_0 : ∀ a, (![178, 0] : Fin 2 → Nat) a + S1x128.size a ≤ S256x128.size a
  inb_S256_S1_179 : ∀ a, (![179] : Fin 1 → Nat) a + S1.size a ≤ S256.size a
  inb_S256x128_S1x128_179_0 : ∀ a, (![179, 0] : Fin 2 → Nat) a + S1x128.size a ≤ S256x128.size a
  inb_S256_S1_180 : ∀ a, (![180] : Fin 1 → Nat) a + S1.size a ≤ S256.size a
  inb_S256x128_S1x128_180_0 : ∀ a, (![180, 0] : Fin 2 → Nat) a + S1x128.size a ≤ S256x128.size a
  inb_S256_S1_181 : ∀ a, (![181] : Fin 1 → Nat) a + S1.size a ≤ S256.size a
  inb_S256x128_S1x128_181_0 : ∀ a, (![181, 0] : Fin 2 → Nat) a + S1x128.size a ≤ S256x128.size a
  inb_S256_S1_182 : ∀ a, (![182] : Fin 1 → Nat) a + S1.size a ≤ S256.size a
  inb_S256x128_S1x128_182_0 : ∀ a, (![182, 0] : Fin 2 → Nat) a + S1x128.size a ≤ S256x128.size a
  inb_S256_S1_183 : ∀ a, (![183] : Fin 1 → Nat) a + S1.size a ≤ S256.size a
  inb_S256x128_S1x128_183_0 : ∀ a, (![183, 0] : Fin 2 → Nat) a + S1x128.size a ≤ S256x128.size a
  inb_S256_S1_184 : ∀ a, (![184] : Fin 1 → Nat) a + S1.size a ≤ S256.size a
  inb_S256x128_S1x128_184_0 : ∀ a, (![184, 0] : Fin 2 → Nat) a + S1x128.size a ≤ S256x128.size a
  inb_S256_S1_185 : ∀ a, (![185] : Fin 1 → Nat) a + S1.size a ≤ S256.size a
  inb_S256x128_S1x128_185_0 : ∀ a, (![185, 0] : Fin 2 → Nat) a + S1x128.size a ≤ S256x128.size a
  inb_S256_S1_186 : ∀ a, (![186] : Fin 1 → Nat) a + S1.size a ≤ S256.size a
  inb_S256x128_S1x128_186_0 : ∀ a, (![186, 0] : Fin 2 → Nat) a + S1x128.size a ≤ S256x128.size a
  inb_S256_S1_187 : ∀ a, (![187] : Fin 1 → Nat) a + S1.size a ≤ S256.size a
  inb_S256x128_S1x128_187_0 : ∀ a, (![187, 0] : Fin 2 → Nat) a + S1x128.size a ≤ S256x128.size a
  inb_S256_S1_188 : ∀ a, (![188] : Fin 1 → Nat) a + S1.size a ≤ S256.size a
  inb_S256x128_S1x128_188_0 : ∀ a, (![188, 0] : Fin 2 → Nat) a + S1x128.size a ≤ S256x128.size a
  inb_S256_S1_189 : ∀ a, (![189] : Fin 1 → Nat) a + S1.size a ≤ S256.size a
  inb_S256x128_S1x128_189_0 : ∀ a, (![189, 0] : Fin 2 → Nat) a + S1x128.size a ≤ S256x128.size a
  inb_S256_S1_190 : ∀ a, (![190] : Fin 1 → Nat) a + S1.size a ≤ S256.size a
  inb_S256x128_S1x128_190_0 : ∀ a, (![190, 0] : Fin 2 → Nat) a + S1x128.size a ≤ S256x128.size a
  inb_S256_S1_191 : ∀ a, (![191] : Fin 1 → Nat) a + S1.size a ≤ S256.size a
  inb_S256x128_S1x128_191_0 : ∀ a, (![191, 0] : Fin 2 → Nat) a + S1x128.size a ≤ S256x128.size a
  inb_S256_S1_192 : ∀ a, (![192] : Fin 1 → Nat) a + S1.size a ≤ S256.size a
  inb_S256x128_S1x128_192_0 : ∀ a, (![192, 0] : Fin 2 → Nat) a + S1x128.size a ≤ S256x128.size a
  inb_S256_S1_193 : ∀ a, (![193] : Fin 1 → Nat) a + S1.size a ≤ S256.size a
  inb_S256x128_S1x128_193_0 : ∀ a, (![193, 0] : Fin 2 → Nat) a + S1x128.size a ≤ S256x128.size a
  inb_S256_S1_194 : ∀ a, (![194] : Fin 1 → Nat) a + S1.size a ≤ S256.size a
  inb_S256x128_S1x128_194_0 : ∀ a, (![194, 0] : Fin 2 → Nat) a + S1x128.size a ≤ S256x128.size a
  inb_S256_S1_195 : ∀ a, (![195] : Fin 1 → Nat) a + S1.size a ≤ S256.size a
  inb_S256x128_S1x128_195_0 : ∀ a, (![195, 0] : Fin 2 → Nat) a + S1x128.size a ≤ S256x128.size a
  inb_S256_S1_196 : ∀ a, (![196] : Fin 1 → Nat) a + S1.size a ≤ S256.size a
  inb_S256x128_S1x128_196_0 : ∀ a, (![196, 0] : Fin 2 → Nat) a + S1x128.size a ≤ S256x128.size a
  inb_S256_S1_197 : ∀ a, (![197] : Fin 1 → Nat) a + S1.size a ≤ S256.size a
  inb_S256x128_S1x128_197_0 : ∀ a, (![197, 0] : Fin 2 → Nat) a + S1x128.size a ≤ S256x128.size a
  inb_S256_S1_198 : ∀ a, (![198] : Fin 1 → Nat) a + S1.size a ≤ S256.size a
  inb_S256x128_S1x128_198_0 : ∀ a, (![198, 0] : Fin 2 → Nat) a + S1x128.size a ≤ S256x128.size a
  inb_S256_S1_199 : ∀ a, (![199] : Fin 1 → Nat) a + S1.size a ≤ S256.size a
  inb_S256x128_S1x128_199_0 : ∀ a, (![199, 0] : Fin 2 → Nat) a + S1x128.size a ≤ S256x128.size a
  inb_S256_S1_200 : ∀ a, (![200] : Fin 1 → Nat) a + S1.size a ≤ S256.size a
  inb_S256x128_S1x128_200_0 : ∀ a, (![200, 0] : Fin 2 → Nat) a + S1x128.size a ≤ S256x128.size a
  inb_S256_S1_201 : ∀ a, (![201] : Fin 1 → Nat) a + S1.size a ≤ S256.size a
  inb_S256x128_S1x128_201_0 : ∀ a, (![201, 0] : Fin 2 → Nat) a + S1x128.size a ≤ S256x128.size a
  inb_S256_S1_202 : ∀ a, (![202] : Fin 1 → Nat) a + S1.size a ≤ S256.size a
  inb_S256x128_S1x128_202_0 : ∀ a, (![202, 0] : Fin 2 → Nat) a + S1x128.size a ≤ S256x128.size a
  inb_S256_S1_203 : ∀ a, (![203] : Fin 1 → Nat) a + S1.size a ≤ S256.size a
  inb_S256x128_S1x128_203_0 : ∀ a, (![203, 0] : Fin 2 → Nat) a + S1x128.size a ≤ S256x128.size a
  inb_S256_S1_204 : ∀ a, (![204] : Fin 1 → Nat) a + S1.size a ≤ S256.size a
  inb_S256x128_S1x128_204_0 : ∀ a, (![204, 0] : Fin 2 → Nat) a + S1x128.size a ≤ S256x128.size a
  inb_S256_S1_205 : ∀ a, (![205] : Fin 1 → Nat) a + S1.size a ≤ S256.size a
  inb_S256x128_S1x128_205_0 : ∀ a, (![205, 0] : Fin 2 → Nat) a + S1x128.size a ≤ S256x128.size a
  inb_S256_S1_206 : ∀ a, (![206] : Fin 1 → Nat) a + S1.size a ≤ S256.size a
  inb_S256x128_S1x128_206_0 : ∀ a, (![206, 0] : Fin 2 → Nat) a + S1x128.size a ≤ S256x128.size a
  inb_S256_S1_207 : ∀ a, (![207] : Fin 1 → Nat) a + S1.size a ≤ S256.size a
  inb_S256x128_S1x128_207_0 : ∀ a, (![207, 0] : Fin 2 → Nat) a + S1x128.size a ≤ S256x128.size a
  inb_S256_S1_208 : ∀ a, (![208] : Fin 1 → Nat) a + S1.size a ≤ S256.size a
  inb_S256x128_S1x128_208_0 : ∀ a, (![208, 0] : Fin 2 → Nat) a + S1x128.size a ≤ S256x128.size a
  inb_S256_S1_209 : ∀ a, (![209] : Fin 1 → Nat) a + S1.size a ≤ S256.size a
  inb_S256x128_S1x128_209_0 : ∀ a, (![209, 0] : Fin 2 → Nat) a + S1x128.size a ≤ S256x128.size a
  inb_S256_S1_210 : ∀ a, (![210] : Fin 1 → Nat) a + S1.size a ≤ S256.size a
  inb_S256x128_S1x128_210_0 : ∀ a, (![210, 0] : Fin 2 → Nat) a + S1x128.size a ≤ S256x128.size a
  inb_S256_S1_211 : ∀ a, (![211] : Fin 1 → Nat) a + S1.size a ≤ S256.size a
  inb_S256x128_S1x128_211_0 : ∀ a, (![211, 0] : Fin 2 → Nat) a + S1x128.size a ≤ S256x128.size a
  inb_S256_S1_212 : ∀ a, (![212] : Fin 1 → Nat) a + S1.size a ≤ S256.size a
  inb_S256x128_S1x128_212_0 : ∀ a, (![212, 0] : Fin 2 → Nat) a + S1x128.size a ≤ S256x128.size a
  inb_S256_S1_213 : ∀ a, (![213] : Fin 1 → Nat) a + S1.size a ≤ S256.size a
  inb_S256x128_S1x128_213_0 : ∀ a, (![213, 0] : Fin 2 → Nat) a + S1x128.size a ≤ S256x128.size a
  inb_S256_S1_214 : ∀ a, (![214] : Fin 1 → Nat) a + S1.size a ≤ S256.size a
  inb_S256x128_S1x128_214_0 : ∀ a, (![214, 0] : Fin 2 → Nat) a + S1x128.size a ≤ S256x128.size a
  inb_S256_S1_215 : ∀ a, (![215] : Fin 1 → Nat) a + S1.size a ≤ S256.size a
  inb_S256x128_S1x128_215_0 : ∀ a, (![215, 0] : Fin 2 → Nat) a + S1x128.size a ≤ S256x128.size a
  inb_S256_S1_216 : ∀ a, (![216] : Fin 1 → Nat) a + S1.size a ≤ S256.size a
  inb_S256x128_S1x128_216_0 : ∀ a, (![216, 0] : Fin 2 → Nat) a + S1x128.size a ≤ S256x128.size a
  inb_S256_S1_217 : ∀ a, (![217] : Fin 1 → Nat) a + S1.size a ≤ S256.size a
  inb_S256x128_S1x128_217_0 : ∀ a, (![217, 0] : Fin 2 → Nat) a + S1x128.size a ≤ S256x128.size a
  inb_S256_S1_218 : ∀ a, (![218] : Fin 1 → Nat) a + S1.size a ≤ S256.size a
  inb_S256x128_S1x128_218_0 : ∀ a, (![218, 0] : Fin 2 → Nat) a + S1x128.size a ≤ S256x128.size a
  inb_S256_S1_219 : ∀ a, (![219] : Fin 1 → Nat) a + S1.size a ≤ S256.size a
  inb_S256x128_S1x128_219_0 : ∀ a, (![219, 0] : Fin 2 → Nat) a + S1x128.size a ≤ S256x128.size a
  inb_S256_S1_220 : ∀ a, (![220] : Fin 1 → Nat) a + S1.size a ≤ S256.size a
  inb_S256x128_S1x128_220_0 : ∀ a, (![220, 0] : Fin 2 → Nat) a + S1x128.size a ≤ S256x128.size a
  inb_S256_S1_221 : ∀ a, (![221] : Fin 1 → Nat) a + S1.size a ≤ S256.size a
  inb_S256x128_S1x128_221_0 : ∀ a, (![221, 0] : Fin 2 → Nat) a + S1x128.size a ≤ S256x128.size a
  inb_S256_S1_222 : ∀ a, (![222] : Fin 1 → Nat) a + S1.size a ≤ S256.size a
  inb_S256x128_S1x128_222_0 : ∀ a, (![222, 0] : Fin 2 → Nat) a + S1x128.size a ≤ S256x128.size a
  inb_S256_S1_223 : ∀ a, (![223] : Fin 1 → Nat) a + S1.size a ≤ S256.size a
  inb_S256x128_S1x128_223_0 : ∀ a, (![223, 0] : Fin 2 → Nat) a + S1x128.size a ≤ S256x128.size a
  inb_S256_S1_224 : ∀ a, (![224] : Fin 1 → Nat) a + S1.size a ≤ S256.size a
  inb_S256x128_S1x128_224_0 : ∀ a, (![224, 0] : Fin 2 → Nat) a + S1x128.size a ≤ S256x128.size a
  inb_S256_S1_225 : ∀ a, (![225] : Fin 1 → Nat) a + S1.size a ≤ S256.size a
  inb_S256x128_S1x128_225_0 : ∀ a, (![225, 0] : Fin 2 → Nat) a + S1x128.size a ≤ S256x128.size a
  inb_S256_S1_226 : ∀ a, (![226] : Fin 1 → Nat) a + S1.size a ≤ S256.size a
  inb_S256x128_S1x128_226_0 : ∀ a, (![226, 0] : Fin 2 → Nat) a + S1x128.size a ≤ S256x128.size a
  inb_S256_S1_227 : ∀ a, (![227] : Fin 1 → Nat) a + S1.size a ≤ S256.size a
  inb_S256x128_S1x128_227_0 : ∀ a, (![227, 0] : Fin 2 → Nat) a + S1x128.size a ≤ S256x128.size a
  inb_S256_S1_228 : ∀ a, (![228] : Fin 1 → Nat) a + S1.size a ≤ S256.size a
  inb_S256x128_S1x128_228_0 : ∀ a, (![228, 0] : Fin 2 → Nat) a + S1x128.size a ≤ S256x128.size a
  inb_S256_S1_229 : ∀ a, (![229] : Fin 1 → Nat) a + S1.size a ≤ S256.size a
  inb_S256x128_S1x128_229_0 : ∀ a, (![229, 0] : Fin 2 → Nat) a + S1x128.size a ≤ S256x128.size a
  inb_S256_S1_230 : ∀ a, (![230] : Fin 1 → Nat) a + S1.size a ≤ S256.size a
  inb_S256x128_S1x128_230_0 : ∀ a, (![230, 0] : Fin 2 → Nat) a + S1x128.size a ≤ S256x128.size a
  inb_S256_S1_231 : ∀ a, (![231] : Fin 1 → Nat) a + S1.size a ≤ S256.size a
  inb_S256x128_S1x128_231_0 : ∀ a, (![231, 0] : Fin 2 → Nat) a + S1x128.size a ≤ S256x128.size a
  inb_S256_S1_232 : ∀ a, (![232] : Fin 1 → Nat) a + S1.size a ≤ S256.size a
  inb_S256x128_S1x128_232_0 : ∀ a, (![232, 0] : Fin 2 → Nat) a + S1x128.size a ≤ S256x128.size a
  inb_S256_S1_233 : ∀ a, (![233] : Fin 1 → Nat) a + S1.size a ≤ S256.size a
  inb_S256x128_S1x128_233_0 : ∀ a, (![233, 0] : Fin 2 → Nat) a + S1x128.size a ≤ S256x128.size a
  inb_S256_S1_234 : ∀ a, (![234] : Fin 1 → Nat) a + S1.size a ≤ S256.size a
  inb_S256x128_S1x128_234_0 : ∀ a, (![234, 0] : Fin 2 → Nat) a + S1x128.size a ≤ S256x128.size a
  inb_S256_S1_235 : ∀ a, (![235] : Fin 1 → Nat) a + S1.size a ≤ S256.size a
  inb_S256x128_S1x128_235_0 : ∀ a, (![235, 0] : Fin 2 → Nat) a + S1x128.size a ≤ S256x128.size a
  inb_S256_S1_236 : ∀ a, (![236] : Fin 1 → Nat) a + S1.size a ≤ S256.size a
  inb_S256x128_S1x128_236_0 : ∀ a, (![236, 0] : Fin 2 → Nat) a + S1x128.size a ≤ S256x128.size a
  inb_S256_S1_237 : ∀ a, (![237] : Fin 1 → Nat) a + S1.size a ≤ S256.size a
  inb_S256x128_S1x128_237_0 : ∀ a, (![237, 0] : Fin 2 → Nat) a + S1x128.size a ≤ S256x128.size a
  inb_S256_S1_238 : ∀ a, (![238] : Fin 1 → Nat) a + S1.size a ≤ S256.size a
  inb_S256x128_S1x128_238_0 : ∀ a, (![238, 0] : Fin 2 → Nat) a + S1x128.size a ≤ S256x128.size a
  inb_S256_S1_239 : ∀ a, (![239] : Fin 1 → Nat) a + S1.size a ≤ S256.size a
  inb_S256x128_S1x128_239_0 : ∀ a, (![239, 0] : Fin 2 → Nat) a + S1x128.size a ≤ S256x128.size a
  inb_S256_S1_240 : ∀ a, (![240] : Fin 1 → Nat) a + S1.size a ≤ S256.size a
  inb_S256x128_S1x128_240_0 : ∀ a, (![240, 0] : Fin 2 → Nat) a + S1x128.size a ≤ S256x128.size a
  inb_S256_S1_241 : ∀ a, (![241] : Fin 1 → Nat) a + S1.size a ≤ S256.size a
  inb_S256x128_S1x128_241_0 : ∀ a, (![241, 0] : Fin 2 → Nat) a + S1x128.size a ≤ S256x128.size a
  inb_S256_S1_242 : ∀ a, (![242] : Fin 1 → Nat) a + S1.size a ≤ S256.size a
  inb_S256x128_S1x128_242_0 : ∀ a, (![242, 0] : Fin 2 → Nat) a + S1x128.size a ≤ S256x128.size a
  inb_S256_S1_243 : ∀ a, (![243] : Fin 1 → Nat) a + S1.size a ≤ S256.size a
  inb_S256x128_S1x128_243_0 : ∀ a, (![243, 0] : Fin 2 → Nat) a + S1x128.size a ≤ S256x128.size a
  inb_S256_S1_244 : ∀ a, (![244] : Fin 1 → Nat) a + S1.size a ≤ S256.size a
  inb_S256x128_S1x128_244_0 : ∀ a, (![244, 0] : Fin 2 → Nat) a + S1x128.size a ≤ S256x128.size a
  inb_S256_S1_245 : ∀ a, (![245] : Fin 1 → Nat) a + S1.size a ≤ S256.size a
  inb_S256x128_S1x128_245_0 : ∀ a, (![245, 0] : Fin 2 → Nat) a + S1x128.size a ≤ S256x128.size a
  inb_S256_S1_246 : ∀ a, (![246] : Fin 1 → Nat) a + S1.size a ≤ S256.size a
  inb_S256x128_S1x128_246_0 : ∀ a, (![246, 0] : Fin 2 → Nat) a + S1x128.size a ≤ S256x128.size a
  inb_S256_S1_247 : ∀ a, (![247] : Fin 1 → Nat) a + S1.size a ≤ S256.size a
  inb_S256x128_S1x128_247_0 : ∀ a, (![247, 0] : Fin 2 → Nat) a + S1x128.size a ≤ S256x128.size a
  inb_S256_S1_248 : ∀ a, (![248] : Fin 1 → Nat) a + S1.size a ≤ S256.size a
  inb_S256x128_S1x128_248_0 : ∀ a, (![248, 0] : Fin 2 → Nat) a + S1x128.size a ≤ S256x128.size a
  inb_S256_S1_249 : ∀ a, (![249] : Fin 1 → Nat) a + S1.size a ≤ S256.size a
  inb_S256x128_S1x128_249_0 : ∀ a, (![249, 0] : Fin 2 → Nat) a + S1x128.size a ≤ S256x128.size a
  inb_S256_S1_250 : ∀ a, (![250] : Fin 1 → Nat) a + S1.size a ≤ S256.size a
  inb_S256x128_S1x128_250_0 : ∀ a, (![250, 0] : Fin 2 → Nat) a + S1x128.size a ≤ S256x128.size a
  inb_S256_S1_251 : ∀ a, (![251] : Fin 1 → Nat) a + S1.size a ≤ S256.size a
  inb_S256x128_S1x128_251_0 : ∀ a, (![251, 0] : Fin 2 → Nat) a + S1x128.size a ≤ S256x128.size a
  inb_S256_S1_252 : ∀ a, (![252] : Fin 1 → Nat) a + S1.size a ≤ S256.size a
  inb_S256x128_S1x128_252_0 : ∀ a, (![252, 0] : Fin 2 → Nat) a + S1x128.size a ≤ S256x128.size a
  inb_S256_S1_253 : ∀ a, (![253] : Fin 1 → Nat) a + S1.size a ≤ S256.size a
  inb_S256x128_S1x128_253_0 : ∀ a, (![253, 0] : Fin 2 → Nat) a + S1x128.size a ≤ S256x128.size a
  inb_S256_S1_254 : ∀ a, (![254] : Fin 1 → Nat) a + S1.size a ≤ S256.size a
  inb_S256x128_S1x128_254_0 : ∀ a, (![254, 0] : Fin 2 → Nat) a + S1x128.size a ≤ S256x128.size a
  inb_S256_S1_255 : ∀ a, (![255] : Fin 1 → Nat) a + S1.size a ≤ S256.size a
  inb_S256x128_S1x128_255_0 : ∀ a, (![255, 0] : Fin 2 → Nat) a + S1x128.size a ≤ S256x128.size a
  inb_S16384x128_S1x128_0_0 : ∀ a, (![0, 0] : Fin 2 → Nat) a + S1x128.size a ≤ S16384x128.size a
  concatenates_S4096x128_S4096x128_S8192x128_d0 : Shape.Concatenates [S4096x128, S4096x128] S8192x128 0
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2048x128 : S1x128.Broadcasts S2048x128
  inb_S2048x384_S2048x128_0_0 : ∀ a, (![0, 0] : Fin 2 → Nat) a + S2048x128.size a ≤ S2048x384.size a
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S2048x384_S2048x128_0_128 : ∀ a, (![0, 128] : Fin 2 → Nat) a + S2048x128.size a ≤ S2048x384.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S2048x384_S2048x128_0_256 : ∀ a, (![0, 256] : Fin 2 → Nat) a + S2048x128.size a ≤ S2048x384.size a
  scatter_S4096_S8192x1_S8192_n_0_0_1_wf : ScatterDims.WF S4096 S8192x1 S8192 [] [0] [0] 1
  gather_S8192_S4096x1_S4096_n_0_n_n_0_1_1_wf : GatherDims.WF S8192 S4096x1 S4096 [] [0] [] [0] [] 1 ![1]
  dot_S128x16384_S16384x128_S128x128_1_0_0_1_n_n_wf : DotDims.WF S128x16384 S16384x128 S128x128 [1] [0] [0] [1] [] []
  dot_S2048x128_S128x128_S2048x128_1_1_0_0_n_n_wf : DotDims.WF S2048x128 S128x128 S2048x128 [1] [1] [0] [0] [] []
  hcc0_scratch1 : 3 + S128.numel ≤ 395
  hcc1_scratch0 : 133 + S256.numel ≤ 395

class Facts₀ : Prop where
  k0 : K0.Facts₀
  k1 : K1.Facts₀
  k2 : K2.Facts₀
  shapes1 : Shapes1.Facts₀
attribute [instance] Facts₀.k0 Facts₀.k1 Facts₀.k2 Facts₀.shapes1

variable [Facts₀]

abbrev cc0_scratch1 : DmaSems sig S128 := SemArray.consecutive 3 S128 hcc0_scratch1
abbrev cc1_scratch0 : DmaSems sig S256 := SemArray.consecutive 133 S256 hcc1_scratch0
def scatter_S4096_S8192x1_S8192_n_0_0_1 : ScatterDims S4096 S8192x1 S8192 where
  updateWindowDims := []
  insertedWindowDims := [0]
  scatterDimsToOperandDims := [0]
  indexVectorDim := 1
  wf := scatter_S4096_S8192x1_S8192_n_0_0_1_wf
def gather_S8192_S4096x1_S4096_n_0_n_n_0_1_1 : GatherDims S8192 S4096x1 S4096 where
  offsetDims := []
  collapsedSliceDims := [0]
  operandBatchingDims := []
  startIndicesBatchingDims := []
  startIndexMap := [0]
  indexVectorDim := 1
  sliceSizes := ![1]
  wf := gather_S8192_S4096x1_S4096_n_0_n_n_0_1_1_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf
def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf

abbrev spec0_0 : Pipeline.WinSpec sig grid0.rank :=
  Pipeline.WinSpec.ofSpec (Memref.whole main_arg3) S16384x128.size reads0_0 false true 1 stage0_0 sem0_0 nbuf0_0 hstage0_0

abbrev spec0_1 : Pipeline.WinSpec sig grid0.rank :=
  Pipeline.WinSpec.ofSpec (Memref.whole main_v49) S128x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev spec1_0 : Pipeline.WinSpec sig grid1.rank :=
  Pipeline.WinSpec.ofSpec (Memref.whole main_v50) S256x128.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev win2_0 : Pipeline.Window sig grid2 :=
  Pipeline.Window.ofSpec (Memref.whole main_v51) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S3x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S3x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S2048x384.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where
  harr0 : ∀ w, (spec0 w).arr.IsWhole
  harr1 : ∀ w, (spec1 w).arr.IsWhole

variable [Facts]
-- ==== ReferenceIdeal.lean ====
abbrev S8192 : Shape := ⟨1, ![8192]⟩
abbrev S16384x16384 : Shape := ⟨2, ![16384, 16384]⟩
abbrev S16384x128 : Shape := ⟨2, ![16384, 128]⟩
abbrev S3x128x128 : Shape := ⟨3, ![3, 128, 128]⟩
abbrev S3x128 : Shape := ⟨2, ![3, 128]⟩
abbrev S_ : Shape := ⟨0, ![]⟩
abbrev S4096 : Shape := ⟨1, ![4096]⟩
abbrev S8192x1 : Shape := ⟨2, ![8192, 1]⟩
abbrev S4096x1 : Shape := ⟨2, ![4096, 1]⟩
abbrev S4096x16384 : Shape := ⟨2, ![4096, 16384]⟩
abbrev S4096x128 : Shape := ⟨2, ![4096, 128]⟩
abbrev S8192x128 : Shape := ⟨2, ![8192, 128]⟩
abbrev S8192x3x128 : Shape := ⟨3, ![8192, 3, 128]⟩
abbrev S1x3x128 : Shape := ⟨3, ![1, 3, 128]⟩
abbrev S8192x384 : Shape := ⟨2, ![8192, 384]⟩

abbrev nBuf : Space → Nat
  | .hbm => 189
  | .vmem => 0
  | .smem => 0
  | _ => 0

abbrev hbmTy0_0 (i : Nat) : BufTy := match i % 128 with
  | 0 => ⟨S8192, .i32⟩
  | 1 => ⟨S8192, .i32⟩
  | 2 => ⟨S16384x16384, .f32⟩
  | 3 => ⟨S16384x128, .f32⟩
  | 4 => ⟨S3x128x128, .f32⟩
  | 5 => ⟨S3x128, .f32⟩
  | 6 => ⟨S_, .i32⟩
  | 7 => ⟨S8192, .i32⟩
  | 8 => ⟨S8192, .i1⟩
  | 9 => ⟨S8192, .i32⟩
  | 10 => ⟨S_, .i32⟩
  | 11 => ⟨S_, .i32⟩
  | 12 => ⟨S8192, .i32⟩
  | 13 => ⟨S_, .i32⟩
  | 14 => ⟨S4096, .i32⟩
  | 15 => ⟨S_, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S_, .i32⟩
  | 28 => ⟨S8192, .i32⟩
  | 29 => ⟨S4096, .i32⟩
  | 30 => ⟨S_, .i32⟩
  | 31 => ⟨S_, .i32⟩
  | 32 => ⟨S4096, .i32⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S4096, .i32⟩
  | 41 => ⟨S4096, .i32⟩
  | 42 => ⟨S_, .i32⟩
  | 43 => ⟨S4096, .i32⟩
  | 44 => ⟨S4096, .i1⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i1⟩
  | 64 => ⟨S_, .i32⟩
  | 65 => ⟨S_, .i1⟩
  | 66 => ⟨S4096, .i1⟩
  | 67 => ⟨S4096, .i1⟩
  | 68 => ⟨S4096, .i1⟩
  | 69 => ⟨S4096, .i32⟩
  | 70 => ⟨S4096, .i32⟩
  | 71 => ⟨S4096, .i32⟩
  | 72 => ⟨S_, .i32⟩
  | 73 => ⟨S8192, .i32⟩
  | 74 => ⟨S8192, .i1⟩
  | 75 => ⟨S8192, .i32⟩
  | 76 => ⟨S_, .i32⟩
  | 77 => ⟨S_, .i32⟩
  | 78 => ⟨S8192, .i32⟩
  | 79 => ⟨S_, .i32⟩
  | 80 => ⟨S4096, .i32⟩
  | 81 => ⟨S_, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S8192x1, .i32⟩
  | 93 => ⟨S_, .i32⟩
  | 94 => ⟨S8192, .i32⟩
  | 95 => ⟨S4096, .i32⟩
  | 96 => ⟨S_, .i32⟩
  | 97 => ⟨S_, .i32⟩
  | 98 => ⟨S4096, .i32⟩
  | 99 => ⟨S_, .i32⟩
  | 100 => ⟨S4096, .i32⟩
  | 101 => ⟨S4096, .i32⟩
  | 102 => ⟨S4096, .i32⟩
  | 103 => ⟨S_, .i32⟩
  | 104 => ⟨S4096, .i32⟩
  | 105 => ⟨S4096, .i1⟩
  | 106 => ⟨S4096, .i32⟩
  | 107 => ⟨S4096, .i32⟩
  | 108 => ⟨S_, .i32⟩
  | 109 => ⟨S4096, .i32⟩
  | 110 => ⟨S4096, .i1⟩
  | 111 => ⟨S4096, .i1⟩
  | 112 => ⟨S_, .i32⟩
  | 113 => ⟨S4096, .i32⟩
  | 114 => ⟨S4096, .i32⟩
  | 115 => ⟨S4096, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i1⟩
  | 127 => ⟨S_, .i32⟩
  | _ => ⟨S8192, .i32⟩

abbrev hbmTy0_1 (i : Nat) : BufTy := match i % 128 with
  | 0 => ⟨S4096, .i32⟩
  | 1 => ⟨S4096, .i1⟩
  | 2 => ⟨S_, .i32⟩
  | 3 => ⟨S_, .i1⟩
  | 4 => ⟨S4096, .i1⟩
  | 5 => ⟨S4096, .i1⟩
  | 6 => ⟨S4096, .i1⟩
  | 7 => ⟨S4096, .i32⟩
  | 8 => ⟨S4096, .i32⟩
  | 9 => ⟨S4096, .i32⟩
  | 10 => ⟨S_, .i32⟩
  | 11 => ⟨S4096, .i32⟩
  | 12 => ⟨S_, .i32⟩
  | 13 => ⟨S4096, .i32⟩
  | 14 => ⟨S8192, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096, .i32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x16384, .f32⟩
  | 42 => ⟨S4096x128, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096x128, .f32⟩
  | 52 => ⟨S8192x128, .f32⟩
  | 53 => ⟨S8192x3x128, .f32⟩
  | 54 => ⟨S1x3x128, .f32⟩
  | 55 => ⟨S8192x3x128, .f32⟩
  | 56 => ⟨S8192x3x128, .f32⟩
  | 57 => ⟨S_, .f32⟩
  | 58 => ⟨S8192x3x128, .f32⟩
  | 59 => ⟨S8192x3x128, .f32⟩
  | 60 => ⟨S8192x384, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v4 : Ref sig .tc := ⟨.hbm, 18, rfl⟩
abbrev main_c_2 : Ref sig .tc := ⟨.hbm, 19, rfl⟩
abbrev main_v5 : Ref sig .tc := ⟨.hbm, 20, rfl⟩
abbrev main_v6 : Ref sig .tc := ⟨.hbm, 21, rfl⟩
abbrev main_c_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_call2_call0_c : Ref sig .tc := ⟨.hbm, 30, rfl⟩
abbrev main_call2_call0_v0 : Ref sig .tc := ⟨.hbm, 31, rfl⟩
abbrev main_v13 : Ref sig .tc := ⟨.hbm, 32, rfl⟩
abbrev main_c_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_c : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_c_0 : Ref sig .tc := ⟨.hbm, 46, rfl⟩
abbrev main_call3_v11 : Ref sig .tc := ⟨.hbm, 47, rfl⟩
abbrev main_call3_v12 : Ref sig .tc := ⟨.hbm, 48, rfl⟩
abbrev main_v14 : Ref sig .tc := ⟨.hbm, 49, rfl⟩
abbrev main_c_6 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_v5 : Ref sig .tc := ⟨.hbm, 59, rfl⟩
abbrev main_call4_v6 : Ref sig .tc := ⟨.hbm, 60, rfl⟩
abbrev main_call4_c_2 : Ref sig .tc := ⟨.hbm, 61, rfl⟩
abbrev main_call4_v7 : Ref sig .tc := ⟨.hbm, 62, rfl⟩
abbrev main_call4_v8 : Ref sig .tc := ⟨.hbm, 63, rfl⟩
abbrev main_call4_c_3 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_v15 : Ref sig .tc := ⟨.hbm, 71, rfl⟩
abbrev main_c_7 : Ref sig .tc := ⟨.hbm, 72, rfl⟩
abbrev main_v16 : Ref sig .tc := ⟨.hbm, 73, rfl⟩
abbrev main_v17 : Ref sig .tc := ⟨.hbm, 74, rfl⟩
abbrev main_call5_v0 : Ref sig .tc := ⟨.hbm, 75, rfl⟩
abbrev main_call5_call0_c : Ref sig .tc := ⟨.hbm, 76, rfl⟩
abbrev main_call5_call0_v0 : Ref sig .tc := ⟨.hbm, 77, rfl⟩
abbrev main_v18 : Ref sig .tc := ⟨.hbm, 78, rfl⟩
abbrev main_c_8 : Ref sig .tc := ⟨.hbm, 79, rfl⟩
abbrev main_v19 : Ref sig .tc := ⟨.hbm, 80, rfl⟩
abbrev main_c_9 : Ref sig .tc := ⟨.hbm, 81, rfl⟩
abbrev main_call6_v0 : Ref sig .tc := ⟨.hbm, 82, rfl⟩
abbrev main_call6_v1 : Ref sig .tc := ⟨.hbm, 83, rfl⟩
abbrev main_v20 : Ref sig .tc := ⟨.hbm, 84, rfl⟩
abbrev main_c_10 : Ref sig .tc := ⟨.hbm, 85, rfl⟩
abbrev main_v21 : Ref sig .tc := ⟨.hbm, 86, rfl⟩
abbrev main_v22 : Ref sig .tc := ⟨.hbm, 87, rfl⟩
abbrev main_c_11 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_c_12 : Ref sig .tc := ⟨.hbm, 93, rfl⟩
abbrev main_v27 : Ref sig .tc := ⟨.hbm, 94, rfl⟩
abbrev main_v28 : Ref sig .tc := ⟨.hbm, 95, rfl⟩
abbrev main_call7_call0_c : Ref sig .tc := ⟨.hbm, 96, rfl⟩
abbrev main_call7_call0_v0 : Ref sig .tc := ⟨.hbm, 97, rfl⟩
abbrev main_v29 : Ref sig .tc := ⟨.hbm, 98, rfl⟩
abbrev main_c_13 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_call8_v3 : Ref sig .tc := ⟨.hbm, 103, rfl⟩
abbrev main_call8_v4 : Ref sig .tc := ⟨.hbm, 104, rfl⟩
abbrev main_call8_v5 : Ref sig .tc := ⟨.hbm, 105, rfl⟩
abbrev main_call8_v6 : Ref sig .tc := ⟨.hbm, 106, rfl⟩
abbrev main_call8_v7 : Ref sig .tc := ⟨.hbm, 107, rfl⟩
abbrev main_call8_c : Ref sig .tc := ⟨.hbm, 108, rfl⟩
abbrev main_call8_v8 : Ref sig .tc := ⟨.hbm, 109, rfl⟩
abbrev main_call8_v9 : Ref sig .tc := ⟨.hbm, 110, rfl⟩
abbrev main_call8_v10 : Ref sig .tc := ⟨.hbm, 111, rfl⟩
abbrev main_call8_c_0 : Ref sig .tc := ⟨.hbm, 112, rfl⟩
abbrev main_call8_v11 : Ref sig .tc := ⟨.hbm, 113, rfl⟩
abbrev main_call8_v12 : Ref sig .tc := ⟨.hbm, 114, rfl⟩
abbrev main_v30 : Ref sig .tc := ⟨.hbm, 115, rfl⟩
abbrev main_c_14 : Ref sig .tc := ⟨.hbm, 116, rfl⟩
abbrev main_call9_v0 : Ref sig .tc := ⟨.hbm, 117, rfl⟩
abbrev main_call9_c : Ref sig .tc := ⟨.hbm, 118, rfl⟩
abbrev main_call9_v1 : Ref sig .tc := ⟨.hbm, 119, rfl⟩
abbrev main_call9_c_0 : Ref sig .tc := ⟨.hbm, 120, rfl⟩
abbrev main_call9_v2 : Ref sig .tc := ⟨.hbm, 121, rfl⟩
abbrev main_call9_v3 : Ref sig .tc := ⟨.hbm, 122, rfl⟩
abbrev main_call9_v4 : Ref sig .tc := ⟨.hbm, 123, rfl⟩
abbrev main_call9_c_1 : Ref sig .tc := ⟨.hbm, 124, rfl⟩
abbrev main_call9_v5 : Ref sig .tc := ⟨.hbm, 125, rfl⟩
abbrev main_call9_v6 : Ref sig .tc := ⟨.hbm, 126, rfl⟩
abbrev main_call9_c_2 : Ref sig .tc := ⟨.hbm, 127, rfl⟩
abbrev main_call9_v7 : Ref sig .tc := ⟨.hbm, 128, rfl⟩
abbrev main_call9_v8 : Ref sig .tc := ⟨.hbm, 129, rfl⟩
abbrev main_call9_c_3 : Ref sig .tc := ⟨.hbm, 130, rfl⟩
abbrev main_call9_v9 : Ref sig .tc := ⟨.hbm, 131, rfl⟩
abbrev main_call9_v10 : Ref sig .tc := ⟨.hbm, 132, rfl⟩
abbrev main_call9_v11 : Ref sig .tc := ⟨.hbm, 133, rfl⟩
abbrev main_call9_v12 : Ref sig .tc := ⟨.hbm, 134, rfl⟩
abbrev main_call9_v13 : Ref sig .tc := ⟨.hbm, 135, rfl⟩
abbrev main_call9_v14 : Ref sig .tc := ⟨.hbm, 136, rfl⟩
abbrev main_v31 : Ref sig .tc := ⟨.hbm, 137, rfl⟩
abbrev main_c_15 : Ref sig .tc := ⟨.hbm, 138, rfl⟩
abbrev main_v32 : Ref sig .tc := ⟨.hbm, 139, rfl⟩
abbrev main_c_16 : Ref sig .tc := ⟨.hbm, 140, rfl⟩
abbrev main_v33 : Ref sig .tc := ⟨.hbm, 141, rfl⟩
abbrev main_v34 : Ref sig .tc := ⟨.hbm, 142, rfl⟩
abbrev main_c_17 : Ref sig .tc := ⟨.hbm, 143, rfl⟩
abbrev main_v35 : Ref sig .tc := ⟨.hbm, 144, rfl⟩
abbrev main_v36 : Ref sig .tc := ⟨.hbm, 145, rfl⟩
abbrev main_c_18 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_v41 : Ref sig .tc := ⟨.hbm, 151, rfl⟩
abbrev main_c_19 : Ref sig .tc := ⟨.hbm, 152, rfl⟩
abbrev main_v42 : Ref sig .tc := ⟨.hbm, 153, rfl⟩
abbrev main_v43 : Ref sig .tc := ⟨.hbm, 154, rfl⟩
abbrev main_c_20 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_c_21 : Ref sig .tc := ⟨.hbm, 161, rfl⟩
abbrev main_v49 : Ref sig .tc := ⟨.hbm, 162, rfl⟩
abbrev main_v50 : Ref sig .tc := ⟨.hbm, 163, rfl⟩
abbrev main_c_22 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_c_23 : Ref sig .tc := ⟨.hbm, 171, rfl⟩
abbrev main_v57 : Ref sig .tc := ⟨.hbm, 172, rfl⟩
abbrev main_v58 : Ref sig .tc := ⟨.hbm, 173, rfl⟩
abbrev main_c_24 : Ref sig .tc := ⟨.hbm, 174, rfl⟩
abbrev main_v59 : Ref sig .tc := ⟨.hbm, 175, rfl⟩
abbrev main_v60 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_call10_cst : Ref sig .tc := ⟨.hbm, 185, rfl⟩
abbrev main_call10_v0 : Ref sig .tc := ⟨.hbm, 186, rfl⟩
abbrev main_v69 : Ref sig .tc := ⟨.hbm, 187, rfl⟩
abbrev main_v70 : Ref sig .tc := ⟨.hbm, 188, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  natLt_1_32 : 1 < 32
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S4096 : S_.BroadcastsInDim S4096 (![] : Fin 0 → Fin S4096.rank)
  bcast_S8192_S8192x1_0 : S8192.BroadcastsInDim S8192x1 (![0] : Fin 1 → Fin S8192x1.rank)
  reduceWindows_S4096_S4096_w4096s1p4095_0 : S4096.ReduceWindows (![4096] : Fin 1 → Nat) ![1] ![4095] ![0] S4096
  concatenates_S4096_S4096_S8192_d0 : Shape.Concatenates [S4096, S4096] S8192 0
  bcast_S4096_S4096x1_0 : S4096.BroadcastsInDim S4096x1 (![0] : Fin 1 → Fin S4096x1.rank)
  concatenates_S4096x128_S4096x128_S8192x128_d0 : Shape.Concatenates [S4096x128, S4096x128] S8192x128 0
  bcast_S3x128_S1x3x128_1_2 : S3x128.BroadcastsInDim S1x3x128 (![1, 2] : Fin 2 → Fin S1x3x128.rank)
  bcast_S1x3x128_S8192x3x128_0_1_2 : S1x3x128.BroadcastsInDim S8192x3x128 (![0, 1, 2] : Fin 3 → Fin S8192x3x128.rank)
  bcast_S_S8192x3x128 : S_.BroadcastsInDim S8192x3x128 (![] : Fin 0 → Fin S8192x3x128.rank)
  shapeCasts_S8192x3x128_S8192x384 : S8192x3x128.ShapeCasts S8192x384
  scatter_S4096_S8192x1_S8192_n_0_0_1_wf : ScatterDims.WF S4096 S8192x1 S8192 [] [0] [0] 1
  gather_S8192_S4096x1_S4096_n_0_n_n_0_1_1_wf : GatherDims.WF S8192 S4096x1 S4096 [] [0] [] [0] [] 1 ![1]
  gather_S16384x16384_S4096x1_S4096x16384_1_0_n_n_0_1_116384_wf : GatherDims.WF S16384x16384 S4096x1 S4096x16384 [1] [0] [] [0] [] 1 ![1, 16384]
  dot_S4096x16384_S16384x128_S4096x128_1_0_0_1_n_n_wf : DotDims.WF S4096x16384 S16384x128 S4096x128 [1] [0] [0] [1] [] []
  gather_S16384x128_S4096x1_S4096x128_1_0_n_n_0_1_1128_wf : GatherDims.WF S16384x128 S4096x1 S4096x128 [1] [0] [] [0] [] 1 ![1, 128]
  dot_S8192x128_S3x128x128_S8192x3x128_1_2_0_01_n_n_wf : DotDims.WF S8192x128 S3x128x128 S8192x3x128 [1] [2] [0] [0, 1] [] []

variable [Facts₀]

def scatter_S4096_S8192x1_S8192_n_0_0_1 : ScatterDims S4096 S8192x1 S8192 where
  updateWindowDims := []
  insertedWindowDims := [0]
  scatterDimsToOperandDims := [0]
  indexVectorDim := 1
  wf := scatter_S4096_S8192x1_S8192_n_0_0_1_wf
def gather_S8192_S4096x1_S4096_n_0_n_n_0_1_1 : GatherDims S8192 S4096x1 S4096 where
  offsetDims := []
  collapsedSliceDims := [0]
  operandBatchingDims := []
  startIndicesBatchingDims := []
  startIndexMap := [0]
  indexVectorDim := 1
  sliceSizes := ![1]
  wf := gather_S8192_S4096x1_S4096_n_0_n_n_0_1_1_wf
def gather_S16384x16384_S4096x1_S4096x16384_1_0_n_n_0_1_116384 : GatherDims S16384x16384 S4096x1 S4096x16384 where
  offsetDims := [1]
  collapsedSliceDims := [0]
  operandBatchingDims := []
  startIndicesBatchingDims := []
  startIndexMap := [0]
  indexVectorDim := 1
  sliceSizes := ![1, 16384]
  wf := gather_S16384x16384_S4096x1_S4096x16384_1_0_n_n_0_1_116384_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf
def gather_S16384x128_S4096x1_S4096x128_1_0_n_n_0_1_1128 : GatherDims S16384x128 S4096x1 S4096x128 where
  offsetDims := [1]
  collapsedSliceDims := [0]
  operandBatchingDims := []
  startIndicesBatchingDims := []
  startIndexMap := [0]
  indexVectorDim := 1
  sliceSizes := ![1, 128]
  wf := gather_S16384x128_S4096x1_S4096x128_1_0_n_n_0_1_1128_wf
def dot_S8192x128_S3x128x128_S8192x3x128_1_2_0_01_n_n : DotDims S8192x128 S3x128x128 S8192x3x128 where
  lhsContracting := [1]
  rhsContracting := [2]
  lhsNonContracting := [0]
  rhsNonContracting := [0, 1]
  lhsBatch := []
  rhsBatch := []
  wf := dot_S8192x128_S3x128x128_S8192x3x128_1_2_0_01_n_n_wf

class Facts : Prop extends Facts₀ where

variable [Facts]
-- ==== Proof.KICommon.lean ====
import proofs.«410613_j6055903887911_1_alg».proof.Proof.Gen.KernelIdeal
import proofs.«410613_j6055903887911_1_alg».proof.Proof.Gen.KernelIdeal.Skeleton
import proofs.«410613_j6055903887911_1_alg».proof.Proof.Gen.KernelIdeal.Launch
import Idealize.ShloMosaic.Lib.Tactic
import Idealize.ShloMosaic.Lib.Pipeline.Kit
import Idealize.ShloMosaic.Lib.Pipeline.Frame
import Idealize.ShloMosaic.Lib.Pipeline.Regions

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := Pipeline.UD sig nD τ

abbrev MM (F : FTy → Type) : Type := MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MM F) :=
  M.view.loc (c : Thread nD τ) ↦{fullShare} f

abbrev VV : Variants := Variants.none
abbrev LL : GSem nD τ sig → Finset Unit := fun _ => ∅
abbrev lvl : GSem nD τ sig → Unit → ℕ := fun _ _ => 0

abbrev Rc (c : Dev nD) : sProp (MM F) := iprop((∃ r, prngReg c r) ∗ ∃ W, owes (c : Thread nD τ) (0 : CellTallies nD τ sig Unit) W)

/-- A family's first `n` members as one conjunction, the last first. -/
def sepDown1 {M : Type} [URA M] (P : ℕ → sProp M) : ℕ → sProp M
  | 0 => iprop(emp)
  | n + 1 => iprop(P n ∗ sepDown1 P n)

theorem bigSep_range_eq_sepDown1 {M : Type} [URA M] (P : ℕ → sProp M) (n : ℕ) :
    bigSep (Finset.range n) P = sepDown1 P n := by
  induction n with
  | zero => rw [Finset.range_zero, BI.bigSep_empty]; rfl
  | succ k ih => rw [Finset.range_add_one, BI.bigSep_insert Finset.notMem_range_self, ih]; rfl

theorem bigSep_fin_eq_sepDown1 {M : Type} [URA M] (P : ℕ → sProp M) (n : ℕ) :
    bigSep Finset.univ (fun k : Fin n => P k.val) = sepDown1 P n := by
  rw [← bigSep_range_eq_sepDown1]
  rw [← Nat.Iio_eq_range, ← Fin.map_valEmbedding_univ, BI.bigSep_map]; rfl

/-- One step of the unfolding, stated above a floor so that rewriting with it stops there. -/
theorem sepDown1_ge {M : Type} [URA M] (lo : ℕ) (P : ℕ → sProp M) (n : ℕ) (_ : lo ≤ n) :
    sepDown1 P (n + 1) = iprop(P n ∗ sepDown1 P n) := rfl

end Cert.KernelIdeal.Hand

end
-- ==== Proof.KIBody0Lem.lean ====
import proofs.«410613_j6055903887911_1_alg».proof.Proof.KICommon
import Idealize.ShloMosaic.Lib.Pipeline.Value

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev osem0 : Fin 128 → SemLoc sig := fun r => SemLoc.dma ⟨3 + r.val, by have := r.isLt; show 3 + r.val < 395; omega⟩

abbrev sems0_0 (c : Dev nD) : sProp (MM F) :=
  Pipeline.ownSems0 (Ix := Unit) (Name := ℕ) (U := UU nD τ) (Lvl := ℕ) (Val := Elt F) (τ := τ) osem0 c

theorem coord0_lt (i : grid0.Coords) : (i 0).val < 32 := (i 0).isLt

def tix0 (i : grid0.Coords) (r : Fin 128) : S4096.Idx := fun a =>
  ⟨128 * (i 0).val + r.val, by
    have h := coord0_lt i
    have hr := r.isLt
    fin_cases a
    show 128 * (i 0).val + r.val < 4096
    omega⟩

def ridx0 (n : ℕ) (j : Fin 16384) : S16384x16384.Idx := fun a =>
  match a with
  | ⟨0, _⟩ => (⟨n % 16384, Nat.mod_lt _ (by decide)⟩ : Fin 16384)
  | ⟨1, _⟩ => j

def rows0 (tb : (⟨S4096, .i32⟩ : BufTy).Contents (Elt F)) (fA : (⟨S16384x16384, .f32⟩ : BufTy).Contents (Elt F))
    (i : grid0.Coords) : Vec F S128x16384 .f32 :=
  fun x => fA (ridx0 (tb (tix0 i (x 0))).toNat (x 1))

theorem rows0_apply (tb : (⟨S4096, .i32⟩ : BufTy).Contents (Elt F)) (fA : (⟨S16384x16384, .f32⟩ : BufTy).Contents (Elt F))
    (i : grid0.Coords) (x : S128x16384.Idx) : rows0 tb fA i x = fA (ridx0 (tb (tix0 i (x 0))).toNat (x 1)) := rfl

theorem chk0_of_lt (v : BitVec 32) (h : v.toNat < 16384) :
    ∀ a, (![v.toNat, 0] : Fin 2 → Nat) a + S1x16384.size a ≤ S16384x16384.size a := by
  intro a
  fin_cases a
  · show v.toNat + 1 ≤ 16384
    omega
  · show 0 + 16384 ≤ 16384
    omega

abbrev srow (t : ℕ) (h : ∀ a, (![t, 0] : Fin 2 → ℕ) a + S1x16384.size a ≤ S128x16384.size a) :
    Memref sig .tc .vmem S16384 .f32 :=
  ((Memref.whole cc0_scratch0).slice (Rect.unit (s := S128x16384) ![t, 0] S1x16384.size h) (fun _ => rfl)).squeeze S16384
    Shapes1.Facts₀.squeezes_S1x16384_S16384

theorem srow_inb (t : Fin 128) : ∀ a, (![t.val, 0] : Fin 2 → ℕ) a + S1x16384.size a ≤ S128x16384.size a := by
  intro a
  have := t.isLt
  fin_cases a
  · show t.val + 1 ≤ 128
    omega
  · show 0 + 16384 ≤ 16384
    omega

abbrev rowRect (t : Fin 128) : Rect S128x16384 := Rect.unit (s := S128x16384) ![t.val, 0] S1x16384.size (srow_inb t)

abbrev rowSet (c : Dev nD) (t : Fin 128) : Finset (Idx ((Memref.whole cc0_scratch0).view.loc (c : Thread nD τ))) :=
  (srow t.val (srow_inb t)).view.set

theorem rowSet_eq (c : Dev nD) (t : Fin 128) : rowSet c t = (rowRect t).set :=
  (View.set_reshape _ _).trans (View.set_slice_whole _ _)

theorem rowSet_disjoint (c : Dev nD) (t t' : Fin 128) (h : t ≠ t') : Disjoint (rowSet c t) (rowSet c t') := by
  rw [rowSet_eq, rowSet_eq]
  have hv : t.val ≠ t'.val := fun e => h (Fin.ext e)
  refine Rect.unit_disjoint (0 : Fin 2) ?_
  show t.val + 1 ≤ t'.val ∨ t'.val + 1 ≤ t.val
  omega

theorem rowSet_cover (c : Dev nD) : (Finset.univ : Finset (Fin 128)).biUnion (rowSet c) = Finset.univ := by
  ext x
  simp only [Finset.mem_biUnion, Finset.mem_univ, true_and, iff_true]
  have hx0 : (x 0).val < 128 := (x 0).isLt
  have hx1 : (x 1).val < 16384 := (x 1).isLt
  refine ⟨⟨(x 0).val, hx0⟩, ?_⟩
  rw [rowSet_eq, Rect.mem_set_unit]
  intro a
  fin_cases a
  · show (x 0).val ≤ (x 0).val ∧ (x 0).val < (x 0).val + 1
    omega
  · show 0 ≤ (x 1).val ∧ (x 1).val < 0 + 16384
    omega

theorem reshape_row (h : S16384.numel = S1x16384.numel) (y : S16384.Idx) :
    Shape.reshapeEquiv (s := S1x16384) (s' := S16384) h y = Fin.cons ⟨0, Nat.one_pos⟩ y := by
  apply Shape.reshapeEquiv_eq_of_rowMajor
  show (Shape.rowMajorPi (Matrix.vecCons 1 ![16384]) (Fin.cons ⟨0, Nat.one_pos⟩ y)).val = (Shape.rowMajorPi ![16384] y).val
  rw [Shape.rowMajorPi_succ_val]
  show 0 * _ + (Shape.rowMajorPi ![16384] y).val = (Shape.rowMajorPi ![16384] y).val
  simp

def sidx (t : Fin 128) (j : Fin 16384) : S128x16384.Idx := fun a =>
  match a with
  | ⟨0, _⟩ => t
  | ⟨1, _⟩ => j

theorem srow_emb (t : Fin 128) (y : S16384.Idx) : (srow t.val (srow_inb t)).view.emb y = sidx t (y 0) := by
  show (rowRect t).emb (Shape.reshapeEquiv _ y) = _
  rw [reshape_row]
  refine Shape.idx_ext₂ ?_ ?_
  · show t.val + 1 * 0 = t.val
    omega
  · show 0 + 1 * (y 0).val = (y 0).val
    omega

abbrev arow (n : ℕ) (h : ∀ a, (![n, 0] : Fin 2 → ℕ) a + S1x16384.size a ≤ S16384x16384.size a) :
    Memref sig .tc .hbm S16384 .f32 :=
  ((Memref.whole main_arg2).slice (Rect.unit (s := S16384x16384) ![n, 0] S1x16384.size h) (fun _ => rfl)).squeeze S16384
    Shapes1.Facts₀.squeezes_S1x16384_S16384

theorem arow_emb (n : ℕ) (h : ∀ a, (![n, 0] : Fin 2 → ℕ) a + S1x16384.size a ≤ S16384x16384.size a) (hn : n < 16384)
    (y : S16384.Idx) : (arow n h).view.emb y = ridx0 n (y 0) := by
  show (Rect.unit (s := S16384x16384) ![n, 0] S1x16384.size h).emb (Shape.reshapeEquiv _ y) = _
  rw [reshape_row]
  refine Shape.idx_ext₂ ?_ ?_
  · show n + 1 * 0 = n % 16384
    rw [Nat.mod_eq_of_lt hn]
    omega
  · show 0 + 1 * (y 0).val = (y 0).val
    omega

abbrev payAt (fA : (⟨S16384x16384, .f32⟩ : BufTy).Contents (Elt F)) (n : ℕ)
    (h : ∀ a, (![n, 0] : Fin 2 → ℕ) a + S1x16384.size a ≤ S16384x16384.size a) : Vec F S16384 .f32 :=
  ReadAs.same.apply (View.read (Elt F) (arow n h).view fA)

theorem payAt_apply (fA : (⟨S16384x16384, .f32⟩ : BufTy).Contents (Elt F)) (n : ℕ)
    (h : ∀ a, (![n, 0] : Fin 2 → ℕ) a + S1x16384.size a ≤ S16384x16384.size a) (hn : n < 16384) (y : S16384.Idx) :
    payAt fA n h y = fA (ridx0 n (y 0)) := by
  show View.read (Elt F) (arow n h).view fA y = _
  rw [View.read_apply, arow_emb n h hn]
  rfl

abbrev wordAt (tb : (⟨S4096, .i32⟩ : BufTy).Contents (Elt F)) (off : Fin 1 → ℕ) (h : ∀ a, off a + S1.size a ≤ S4096.size a) :
    BitVec 32 :=
  View.readAt (Elt F) (Memref.whole main_v41).view (Rect.unit (s := S4096) off S1.size h).toLoadRect tb
    (Shape.Idx.first (Shapes1.Facts₀.numel1_S1.symm ▸ Nat.one_pos))

theorem wordAt_eq (tb : (⟨S4096, .i32⟩ : BufTy).Contents (Elt F)) (i : grid0.Coords) (t : Fin 128) (off : Fin 1 → ℕ)
    (hoff : off = ![128 * (i 0).val + t.val]) (h : ∀ a, off a + S1.size a ≤ S4096.size a) :
    wordAt tb off h = tb (tix0 i t) := by
  subst hoff
  show tb _ = tb _
  congr 1
  funext a
  fin_cases a
  apply Fin.ext
  show 128 * (i 0).val + t.val + 1 * 0 = 128 * (i 0).val + t.val
  omega

theorem offg (i : grid0.Coords) (r : ℕ) (hr : r < 128) :
    (![(Scalar.indexCast (Scalar.addi (Scalar.muli (BitVec.ofNat 32 (i 0).val) 128#32) (BitVec.ofNat 32 r))).toNat] : Fin 1 → ℕ)
      = ![128 * (i 0).val + r] := by
  have h := coord0_lt i
  simp only [Scalar.muli, Scalar.addi, Scalar.indexCast, IntOp.muli, IntOp.addi]
  congr 1
  simp [BitVec.toNat_mul, BitVec.toNat_add, BitVec.toNat_ofNat]
  omega

theorem rows_join (c : Dev nD) (f0 : Bf (F := F) c (Memref.whole cc0_scratch0)) (G : Vec F S128x16384 .f32)
    (p : Fin 128 → Vec F S16384 .f32) (hp : ∀ t y, p t y = G (sidx t (y 0))) :
    BI.bigSep Finset.univ (fun t : Fin 128 =>
        ((srow t.val (srow_inb t)).view.loc (c : Thread nD τ) ↦[(srow t.val (srow_inb t)).view.set]{fullShare}
          (srow t.val (srow_inb t)).view.writes (Elt F) f0 [⟨Rect.whole S16384, p t⟩] : sProp (MM F)))
      ⊢ pt c (Memref.whole cc0_scratch0) G := by
  have hb : (pt c (Memref.whole cc0_scratch0) G : sProp (MM F))
      = BI.bigSep Finset.univ fun t : Fin 128 => ((Memref.whole cc0_scratch0).view.loc (c : Thread nD τ) ↦[rowSet c t]{fullShare} G) := by
    rw [← pointsTo_biUnion Finset.univ (rowSet c) (fun t _ t' _ h => rowSet_disjoint c t t' h), rowSet_cover]
  refine Entails.trans (Entails.of_eq ?_) (Entails.of_eq hb.symm)
  refine BI.bigSep_congr fun t _ => pointsTo_congr fun z hz => ?_
  obtain ⟨y, rfl⟩ := View.exists_emb_of_mem_set _ hz
  rw [View.writes_singleton]
  have e : ((srow t.val (srow_inb t)).view.slice (Rect.whole S16384)).emb y = (srow t.val (srow_inb t)).view.emb y := by
    show (srow t.val (srow_inb t)).view.emb ((Rect.whole S16384).emb y) = _
    rw [Rect.emb_whole_apply]
  rw [← e, View.write_emb_of_mem _ _ (Finset.mem_univ y), e, srow_emb, hp]
  rfl

abbrev ptq (c : Dev nD) (q : PosShare TreeShare) {sp : Space} {S : Shape} {e : EltTy} (M : Memref sig .tc sp S e) (f : Bf (F := F) c M) : sProp (MM F) :=
  M.view.loc (c : Thread nD τ) ↦{q} f
abbrev pto (c : Dev nD) {sp : Space} {S : Shape} {e : EltTy} (M : Memref sig .tc sp S e) (f : Bf (F := F) c M) : sProp (MM F) :=
  M.view.loc (c : Thread nD τ) ↦[M.view.set]{fullShare} f

theorem rowfact (i : grid0.Coords) (tb : (⟨S4096, .i32⟩ : BufTy).Contents (Elt F)) (htb : ∀ j, (tb j).toNat < 16384)
    (fA : (⟨S16384x16384, .f32⟩ : BufTy).Contents (Elt F)) (t : Fin 128) (off : Fin 1 → ℕ)
    (hoff : off = ![128 * (i 0).val + t.val]) (h1 : ∀ a, off a + S1.size a ≤ S4096.size a)
    (h2 : ∀ a, (![(wordAt tb off h1).toNat, 0] : Fin 2 → ℕ) a + S1x16384.size a ≤ S16384x16384.size a) (y : S16384.Idx) :
    payAt fA (wordAt tb off h1).toNat h2 y = rows0 tb fA i (sidx t (y 0)) := by
  have hw := wordAt_eq tb i t off hoff h1
  rw [payAt_apply fA _ h2 (by rw [hw]; exact htb _)]
  show fA (ridx0 (wordAt tb off h1).toNat (y 0)) = fA (ridx0 (tb (tix0 i t)).toNat (y 0))
  rw [hw]

def osemN0 (j : ℕ) : SemLoc sig := SemLoc.dma ⟨(3 + j) % 395, Nat.mod_lt _ (by decide)⟩

theorem sems_down0 (c : Dev nD) :
    sems0_0 (F := F) c = sepDown1 (fun j => semVal ((c : Thread nD τ), osemN0 j) 0) 128 := by
  rw [← bigSep_fin_eq_sepDown1]
  refine BI.bigSep_congr fun k _ => ?_
  have e : osem0 k = osemN0 k.val := by
    have := k.isLt
    exact congrArg SemLoc.dma (Fin.ext (Nat.mod_eq_of_lt (show 3 + k.val < 395 by omega)).symm)
  rw [e]

abbrev tokN0 (c : Dev nD) (fA : Bf (F := F) c (Memref.whole main_arg2)) (j : ℕ) : sProp (MM F) :=
  ptq c (Transfers.shareTokN fullShare j) (Memref.whole main_arg2) fA

/-- The array as one read share per cell of the pool up to the kernel's last, and the remainder. -/
theorem toks_range0 (c : Dev nD) (fA : Bf (F := F) c (Memref.whole main_arg2)) :
    (pt c (Memref.whole main_arg2) fA : sProp (MM F))
      ⊣⊢ iprop(ptq c (Transfers.shareDrop fullShare 131) (Memref.whole main_arg2) fA ∗ sepDown1 (tokN0 c fA) 131) := by
  have h := Transfers.pointsTo_toks_range (Ix := Unit) (Name := ℕ) (U := UU nD τ) (Lvl := ℕ) (Val := Elt F)
    (ℓ := (Memref.whole main_arg2).view.loc (c : Thread nD τ)) (S := Finset.univ) (f := fA) fullShare 131
  rw [bigSep_range_eq_sepDown1] at h
  exact h

abbrev rowHyp0 (c : Dev nD) (f : Bf (F := F) c (Memref.whole cc0_scratch0)) (k : ℕ) (hk : k < 128) : sProp (MM F) :=
  pto c (srow k (srow_inb ⟨k, hk⟩)) f

def rowP0 (c : Dev nD) (g : ℕ → Bf (F := F) c (Memref.whole cc0_scratch0)) (k : ℕ) : sProp (MM F) :=
  if hk : k < 128 then rowHyp0 c (g k) k hk else iprop(emp)

theorem rowP0_lt (c : Dev nD) (g : ℕ → Bf (F := F) c (Memref.whole cc0_scratch0)) (k : ℕ) (hk : k < 128) :
    rowP0 c g k = rowHyp0 c (g k) k hk := by
  unfold rowP0; rw [dif_pos hk]

/-- The scratch held whole is held row by row. -/
theorem rows_split0 (c : Dev nD) (f : Bf (F := F) c (Memref.whole cc0_scratch0)) :
    (pt c (Memref.whole cc0_scratch0) f : sProp (MM F)) ⊢ sepDown1 (rowP0 c (fun _ => f)) 128 := by
  have hb : (pt c (Memref.whole cc0_scratch0) f : sProp (MM F))
      = BI.bigSep Finset.univ fun t : Fin 128 => ((Memref.whole cc0_scratch0).view.loc (c : Thread nD τ) ↦[rowSet c t]{fullShare} f) := by
    rw [← pointsTo_biUnion Finset.univ (rowSet c) (fun t _ t' _ h => rowSet_disjoint c t t' h), rowSet_cover]
  rw [hb, ← bigSep_fin_eq_sepDown1]
  refine Entails.of_eq (BI.bigSep_congr fun t _ => ?_)
  rw [rowP0_lt c _ t.val t.isLt]

/-- Row `k` written whole with row `k` of the block `G`. -/
def rowQ0 (c : Dev nD) (f0 : Bf (F := F) c (Memref.whole cc0_scratch0)) (G : Vec F S128x16384 .f32) (k : ℕ) : sProp (MM F) :=
  if hk : k < 128 then
    pto c (srow k (srow_inb ⟨k, hk⟩)) ((srow k (srow_inb ⟨k, hk⟩)).view.writes (Elt F) f0 [⟨Rect.whole S16384, fun y => G (sidx ⟨k, hk⟩ (y 0))⟩])
  else iprop(emp)

theorem rows_join0 (c : Dev nD) (f0 : Bf (F := F) c (Memref.whole cc0_scratch0)) (G : Vec F S128x16384 .f32) :
    sepDown1 (rowQ0 c f0 G) 128 ⊢ pt c (Memref.whole cc0_scratch0) G := by
  rw [← bigSep_fin_eq_sepDown1]
  refine (Entails.of_eq (BI.bigSep_congr fun t _ => ?_)).trans (rows_join c f0 G (fun t y => G (sidx t (y 0))) (fun _ _ => rfl))
  unfold rowQ0
  rw [dif_pos t.isLt]
  rfl

/-- Row `k` after its transfer has landed is row `k` of the gathered block: the transfer's word is table word `128 i + k`. -/
theorem row_land0 {c : Dev nD} {i : grid0.Coords} {tb : (⟨S4096, .i32⟩ : BufTy).Contents (Elt F)} (htb : ∀ j, (tb j).toNat < 16384)
    {fA : (⟨S16384x16384, .f32⟩ : BufTy).Contents (Elt F)} {f0 : Bf (F := F) c (Memref.whole cc0_scratch0)}
    (k : ℕ) (hd : decide (k < 128) = true)
    {h1 : ∀ a, (![(Scalar.indexCast (Scalar.addi (Scalar.muli (BitVec.ofNat 32 (i 0).val) 128#32) (BitVec.ofNat 32 k))).toNat] : Fin 1 → ℕ) a
        + S1.size a ≤ S4096.size a}
    {h2 : ∀ a, (![(wordAt tb _ h1).toNat, 0] : Fin 2 → ℕ) a + S1x16384.size a ≤ S16384x16384.size a} :
    (rowHyp0 c ((srow k (srow_inb ⟨k, of_decide_eq_true hd⟩)).view.writes (Elt F) f0
        [⟨Rect.whole S16384, payAt fA (wordAt tb _ h1).toNat h2⟩]) k (of_decide_eq_true hd) : sProp (MM F))
      ⊢ rowQ0 c f0 (rows0 tb fA i) k := by
  have hk : k < 128 := of_decide_eq_true hd
  have hp : payAt fA (wordAt tb _ h1).toNat h2 = fun y => rows0 tb fA i (sidx ⟨k, hk⟩ (y 0)) :=
    funext fun y => rowfact i tb htb fA ⟨k, hk⟩ _ (offg i k hk) h1 h2 y
  unfold rowQ0
  rw [dif_pos hk, hp]
  exact Entails.of_eq rfl

end Cert.KernelIdeal.Hand

end
-- ==== Proof.KIBody0.lean ====
import proofs.«410613_j6055903887911_1_alg».proof.Proof.KIBody0Lem

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem unit00_idx (n m : ℕ)
    (inb : ∀ a, (![0, 0] : Fin 2 → ℕ) a + (⟨2, ![n, m]⟩ : Shape).size a ≤ (⟨2, ![n, m]⟩ : Shape).size a)
    (x : (⟨2, ![n, m]⟩ : Shape).Idx) :
    (Rect.unit (s := ⟨2, ![n, m]⟩) ![0, 0] (⟨2, ![n, m]⟩ : Shape).size inb).idx x = x := by
  funext a
  apply Fin.ext
  fin_cases a
  · show 0 + 1 * (x 0).val = (x 0).val
    omega
  · show 0 + 1 * (x 1).val = (x 1).val
    omega

theorem ld00_scratch (G : Vec F S128x16384 .f32)
    (inb : ∀ a, (![0, 0] : Fin 2 → ℕ) a + S128x16384.size a ≤ S128x16384.size a) :
    View.readAt (Elt F) (Memref.whole cc0_scratch0).view (Rect.unit (s := S128x16384) ![0, 0] S128x16384.size inb).toLoadRect G = G := by
  funext x
  show G ((Rect.unit (s := S128x16384) ![0, 0] S128x16384.size inb).idx x) = G x
  rw [unit00_idx 128 16384 inb x]

theorem ld00_emb (M3 : Memref sig .tc .vmem S16384x128 .f32) (h3 : M3.IsWhole) (x3 : Vec F S16384x128 .f32)
    (inb : ∀ a, (![0, 0] : Fin 2 → ℕ) a + S16384x128.size a ≤ S16384x128.size a) :
    View.readAt (Elt F) M3.view (Rect.unit (s := S16384x128) ![0, 0] S16384x128.size inb).toLoadRect (h3.unread x3) = x3 := by
  funext x
  show View.read (Elt F) M3.view (h3.unread x3) ((Rect.unit (s := S16384x128) ![0, 0] S16384x128.size inb).idx x) = x3 x
  rw [h3.read_unread, unit00_idx 16384 128 inb x]

theorem rd00_out (M4 : Memref sig .tc .vmem S128x128 .f32) (w : Vec F S128x128 .f32)
    (inb : ∀ a, (![0, 0] : Fin 2 → ℕ) a + S128x128.size a ≤ S128x128.size a) (J : M4.view.ty.Contents (Elt F)) :
    View.read (Elt F) M4.view (M4.view.writes (Elt F) J [⟨Rect.unit (s := S128x128) ![0, 0] S128x128.size inb, w⟩]) = w := by
  funext y
  have e := View.read_writes_cons_emb M4.view J (Rect.unit (s := S128x128) ![0, 0] S128x128.size inb) w [] y
  rw [show (Rect.unit (s := S128x128) ![0, 0] S128x128.size inb).emb y = y from unit00_idx 128 128 inb y] at e
  exact e

set_option maxHeartbeats 0 in
set_option maxRecDepth 100000 in

theorem kernelRun0 (c : Dev nD) (i : grid0.Coords)
    (M3 : Memref sig .tc .vmem S16384x128 .f32) (h3 : M3.IsWhole) (M4 : Memref sig .tc .vmem S128x128 .f32) (h4 : M4.IsWhole)
    (tb : (⟨S4096, .i32⟩ : BufTy).Contents (Elt F)) (htb : ∀ j, (tb j).toNat < 16384)
    (fA : (⟨S16384x16384, .f32⟩ : BufTy).Contents (Elt F)) (x3 : Vec F S16384x128 .f32)
    (W : Waits sig Unit) (Q : PUnit → sProp (MM F)) :
    iprop(pt c (Memref.whole main_v41) tb ∗ pt c (Memref.whole main_arg2) fA
        ∗ owns (c : Thread nD τ) M3 fullShare x3 ∗ (∃ d, owns (c : Thread nD τ) M4 fullShare d)
        ∗ (∃ f, pt c (Memref.whole cc0_scratch0) f) ∗ sems0_0 c ∗ owes (c : Thread nD τ) 0 W
        ∗ (iprop(pt c (Memref.whole main_v41) tb ∗ pt c (Memref.whole main_arg2) fA
              ∗ owns (c : Thread nD τ) M3 fullShare x3 ∗ owns (c : Thread nD τ) M4 fullShare (k0_pay1 (rows0 tb fA i) x3)
              ∗ (∃ f, pt c (Memref.whole cc0_scratch0) f) ∗ sems0_0 c ∗ ∃ W', owes (c : Thread nD τ) 0 W') -∗ Q ⟨⟩))
    ⊢ wp frame (wpE (defs₀ (F := F)) VV c none) Set.univ
        (cc0__gather_matmul_kernel i (Memref.whole main_v41) (Memref.isWhole_whole _) (Memref.whole main_arg2) (Memref.isWhole_whole _) M3 h3 M4 h4
          (Memref.whole cc0_scratch0) (Memref.isWhole_whole _) cc0_scratch1) Q := by
  simp only [cc0__gather_matmul_kernel_eq_skeleton]; unfold cc0__gather_matmul_kernel_skel
  unfold owns
  have hE := toks_range0 c fA
  simp only [sepDown1] at hE
  have hS := sems_down0 (F := F) c
  simp only [sepDown1, osemN0, Nat.reduceAdd, Nat.reduceMod, Fin.reduceFinMk] at hS
  iintro ⟨Ht, HA, ⟨%f3, %hf3, H3⟩, ⟨%d4, %f4, -, H4⟩, ⟨%fs, Hs⟩, Hc, HO, Hk⟩
  obtain rfl := h3.eq_unread hf3
  have hR := rows_split0 c fs
  simp only [sepDown1, rowP0_lt, Nat.reduceLT] at hR
  ihave HA' := hE.1 $$ HA
  icases HA' with ⟨HAr, HA130, HA129, HA128, HA127, HA126, HA125, HA124, HA123, HA122, HA121, HA120, HA119, HA118, HA117, HA116, HA115, HA114, HA113, HA112, HA111, HA110, HA109, HA108, HA107, HA106, HA105, HA104, HA103, HA102, HA101, HA100, HA99, HA98, HA97, HA96, HA95, HA94, HA93, HA92, HA91, HA90, HA89, HA88, HA87, HA86, HA85, HA84, HA83, HA82, HA81, HA80, HA79, HA78, HA77, HA76, HA75, HA74, HA73, HA72, HA71, HA70, HA69, HA68, HA67, HA66, HA65, HA64, HA63, HA62, HA61, HA60, HA59, HA58, HA57, HA56, HA55, HA54, HA53, HA52, HA51, HA50, HA49, HA48, HA47, HA46, HA45, HA44, HA43, HA42, HA41, HA40, HA39, HA38, HA37, HA36, HA35, HA34, HA33, HA32, HA31, HA30, HA29, HA28, HA27, HA26, HA25, HA24, HA23, HA22, HA21, HA20, HA19, HA18, HA17, HA16, HA15, HA14, HA13, HA12, HA11, HA10, HA9, HA8, HA7, HA6, HA5, HA4, HA3, HA2, HA1, HA0, -⟩
  ihave Hs' := hR $$ Hs
  icases Hs' with ⟨Hs127, Hs126, Hs125, Hs124, Hs123, Hs122, Hs121, Hs120, Hs119, Hs118, Hs117, Hs116, Hs115, Hs114, Hs113, Hs112, Hs111, Hs110, Hs109, Hs108, Hs107, Hs106, Hs105, Hs104, Hs103, Hs102, Hs101, Hs100, Hs99, Hs98, Hs97, Hs96, Hs95, Hs94, Hs93, Hs92, Hs91, Hs90, Hs89, Hs88, Hs87, Hs86, Hs85, Hs84, Hs83, Hs82, Hs81, Hs80, Hs79, Hs78, Hs77, Hs76, Hs75, Hs74, Hs73, Hs72, Hs71, Hs70, Hs69, Hs68, Hs67, Hs66, Hs65, Hs64, Hs63, Hs62, Hs61, Hs60, Hs59, Hs58, Hs57, Hs56, Hs55, Hs54, Hs53, Hs52, Hs51, Hs50, Hs49, Hs48, Hs47, Hs46, Hs45, Hs44, Hs43, Hs42, Hs41, Hs40, Hs39, Hs38, Hs37, Hs36, Hs35, Hs34, Hs33, Hs32, Hs31, Hs30, Hs29, Hs28, Hs27, Hs26, Hs25, Hs24, Hs23, Hs22, Hs21, Hs20, Hs19, Hs18, Hs17, Hs16, Hs15, Hs14, Hs13, Hs12, Hs11, Hs10, Hs9, Hs8, Hs7, Hs6, Hs5, Hs4, Hs3, Hs2, Hs1, Hs0, -⟩
  ihave Hc' := (Entails.of_eq hS) $$ Hc
  icases Hc' with ⟨Hd130, Hd129, Hd128, Hd127, Hd126, Hd125, Hd124, Hd123, Hd122, Hd121, Hd120, Hd119, Hd118, Hd117, Hd116, Hd115, Hd114, Hd113, Hd112, Hd111, Hd110, Hd109, Hd108, Hd107, Hd106, Hd105, Hd104, Hd103, Hd102, Hd101, Hd100, Hd99, Hd98, Hd97, Hd96, Hd95, Hd94, Hd93, Hd92, Hd91, Hd90, Hd89, Hd88, Hd87, Hd86, Hd85, Hd84, Hd83, Hd82, Hd81, Hd80, Hd79, Hd78, Hd77, Hd76, Hd75, Hd74, Hd73, Hd72, Hd71, Hd70, Hd69, Hd68, Hd67, Hd66, Hd65, Hd64, Hd63, Hd62, Hd61, Hd60, Hd59, Hd58, Hd57, Hd56, Hd55, Hd54, Hd53, Hd52, Hd51, Hd50, Hd49, Hd48, Hd47, Hd46, Hd45, Hd44, Hd43, Hd42, Hd41, Hd40, Hd39, Hd38, Hd37, Hd36, Hd35, Hd34, Hd33, Hd32, Hd31, Hd30, Hd29, Hd28, Hd27, Hd26, Hd25, Hd24, Hd23, Hd22, Hd21, Hd20, Hd19, Hd18, Hd17, Hd16, Hd15, Hd14, Hd13, Hd12, Hd11, Hd10, Hd9, Hd8, Hd7, Hd6, Hd5, Hd4, Hd3, -⟩
  sl_exec (disch := exact chk0_of_lt _ (htb _))
  ihave HS := (rows_join0 c fs (rows0 tb fA i)) $$ [Hs127 Hs126 Hs125 Hs124 Hs123 Hs122 Hs121 Hs120 Hs119 Hs118 Hs117 Hs116 Hs115 Hs114 Hs113 Hs112 Hs111 Hs110 Hs109 Hs108 Hs107 Hs106 Hs105 Hs104 Hs103 Hs102 Hs101 Hs100 Hs99 Hs98 Hs97 Hs96 Hs95 Hs94 Hs93 Hs92 Hs91 Hs90 Hs89 Hs88 Hs87 Hs86 Hs85 Hs84 Hs83 Hs82 Hs81 Hs80 Hs79 Hs78 Hs77 Hs76 Hs75 Hs74 Hs73 Hs72 Hs71 Hs70 Hs69 Hs68 Hs67 Hs66 Hs65 Hs64 Hs63 Hs62 Hs61 Hs60 Hs59 Hs58 Hs57 Hs56 Hs55 Hs54 Hs53 Hs52 Hs51 Hs50 Hs49 Hs48 Hs47 Hs46 Hs45 Hs44 Hs43 Hs42 Hs41 Hs40 Hs39 Hs38 Hs37 Hs36 Hs35 Hs34 Hs33 Hs32 Hs31 Hs30 Hs29 Hs28 Hs27 Hs26 Hs25 Hs24 Hs23 Hs22 Hs21 Hs20 Hs19 Hs18 Hs17 Hs16 Hs15 Hs14 Hs13 Hs12 Hs11 Hs10 Hs9 Hs8 Hs7 Hs6 Hs5 Hs4 Hs3 Hs2 Hs1 Hs0]
  · simp only [sepDown1]
    isplitl [Hs127]; · iapply (row_land0 htb 127 rfl); iexact Hs127
    isplitl [Hs126]; · iapply (row_land0 htb 126 rfl); iexact Hs126
    isplitl [Hs125]; · iapply (row_land0 htb 125 rfl); iexact Hs125
    isplitl [Hs124]; · iapply (row_land0 htb 124 rfl); iexact Hs124
    isplitl [Hs123]; · iapply (row_land0 htb 123 rfl); iexact Hs123
    isplitl [Hs122]; · iapply (row_land0 htb 122 rfl); iexact Hs122
    isplitl [Hs121]; · iapply (row_land0 htb 121 rfl); iexact Hs121
    isplitl [Hs120]; · iapply (row_land0 htb 120 rfl); iexact Hs120
    isplitl [Hs119]; · iapply (row_land0 htb 119 rfl); iexact Hs119
    isplitl [Hs118]; · iapply (row_land0 htb 118 rfl); iexact Hs118
    isplitl [Hs117]; · iapply (row_land0 htb 117 rfl); iexact Hs117
    isplitl [Hs116]; · iapply (row_land0 htb 116 rfl); iexact Hs116
    isplitl [Hs115]; · iapply (row_land0 htb 115 rfl); iexact Hs115
    isplitl [Hs114]; · iapply (row_land0 htb 114 rfl); iexact Hs114
    isplitl [Hs113]; · iapply (row_land0 htb 113 rfl); iexact Hs113
    isplitl [Hs112]; · iapply (row_land0 htb 112 rfl); iexact Hs112
    isplitl [Hs111]; · iapply (row_land0 htb 111 rfl); iexact Hs111
    isplitl [Hs110]; · iapply (row_land0 htb 110 rfl); iexact Hs110
    isplitl [Hs109]; · iapply (row_land0 htb 109 rfl); iexact Hs109
    isplitl [Hs108]; · iapply (row_land0 htb 108 rfl); iexact Hs108
    isplitl [Hs107]; · iapply (row_land0 htb 107 rfl); iexact Hs107
    isplitl [Hs106]; · iapply (row_land0 htb 106 rfl); iexact Hs106
    isplitl [Hs105]; · iapply (row_land0 htb 105 rfl); iexact Hs105
    isplitl [Hs104]; · iapply (row_land0 htb 104 rfl); iexact Hs104
    isplitl [Hs103]; · iapply (row_land0 htb 103 rfl); iexact Hs103
    isplitl [Hs102]; · iapply (row_land0 htb 102 rfl); iexact Hs102
    isplitl [Hs101]; · iapply (row_land0 htb 101 rfl); iexact Hs101
    isplitl [Hs100]; · iapply (row_land0 htb 100 rfl); iexact Hs100
    isplitl [Hs99]; · iapply (row_land0 htb 99 rfl); iexact Hs99
    isplitl [Hs98]; · iapply (row_land0 htb 98 rfl); iexact Hs98
    isplitl [Hs97]; · iapply (row_land0 htb 97 rfl); iexact Hs97
    isplitl [Hs96]; · iapply (row_land0 htb 96 rfl); iexact Hs96
    isplitl [Hs95]; · iapply (row_land0 htb 95 rfl); iexact Hs95
    isplitl [Hs94]; · iapply (row_land0 htb 94 rfl); iexact Hs94
    isplitl [Hs93]; · iapply (row_land0 htb 93 rfl); iexact Hs93
    isplitl [Hs92]; · iapply (row_land0 htb 92 rfl); iexact Hs92
    isplitl [Hs91]; · iapply (row_land0 htb 91 rfl); iexact Hs91
    isplitl [Hs90]; · iapply (row_land0 htb 90 rfl); iexact Hs90
    isplitl [Hs89]; · iapply (row_land0 htb 89 rfl); iexact Hs89
    isplitl [Hs88]; · iapply (row_land0 htb 88 rfl); iexact Hs88
    isplitl [Hs87]; · iapply (row_land0 htb 87 rfl); iexact Hs87
    isplitl [Hs86]; · iapply (row_land0 htb 86 rfl); iexact Hs86
    isplitl [Hs85]; · iapply (row_land0 htb 85 rfl); iexact Hs85
    isplitl [Hs84]; · iapply (row_land0 htb 84 rfl); iexact Hs84
    isplitl [Hs83]; · iapply (row_land0 htb 83 rfl); iexact Hs83
    isplitl [Hs82]; · iapply (row_land0 htb 82 rfl); iexact Hs82
    isplitl [Hs81]; · iapply (row_land0 htb 81 rfl); iexact Hs81
    isplitl [Hs80]; · iapply (row_land0 htb 80 rfl); iexact Hs80
    isplitl [Hs79]; · iapply (row_land0 htb 79 rfl); iexact Hs79
    isplitl [Hs78]; · iapply (row_land0 htb 78 rfl); iexact Hs78
    isplitl [Hs77]; · iapply (row_land0 htb 77 rfl); iexact Hs77
    isplitl [Hs76]; · iapply (row_land0 htb 76 rfl); iexact Hs76
    isplitl [Hs75]; · iapply (row_land0 htb 75 rfl); iexact Hs75
    isplitl [Hs74]; · iapply (row_land0 htb 74 rfl); iexact Hs74
    isplitl [Hs73]; · iapply (row_land0 htb 73 rfl); iexact Hs73
    isplitl [Hs72]; · iapply (row_land0 htb 72 rfl); iexact Hs72
    isplitl [Hs71]; · iapply (row_land0 htb 71 rfl); iexact Hs71
    isplitl [Hs70]; · iapply (row_land0 htb 70 rfl); iexact Hs70
    isplitl [Hs69]; · iapply (row_land0 htb 69 rfl); iexact Hs69
    isplitl [Hs68]; · iapply (row_land0 htb 68 rfl); iexact Hs68
    isplitl [Hs67]; · iapply (row_land0 htb 67 rfl); iexact Hs67
    isplitl [Hs66]; · iapply (row_land0 htb 66 rfl); iexact Hs66
    isplitl [Hs65]; · iapply (row_land0 htb 65 rfl); iexact Hs65
    isplitl [Hs64]; · iapply (row_land0 htb 64 rfl); iexact Hs64
    isplitl [Hs63]; · iapply (row_land0 htb 63 rfl); iexact Hs63
    isplitl [Hs62]; · iapply (row_land0 htb 62 rfl); iexact Hs62
    isplitl [Hs61]; · iapply (row_land0 htb 61 rfl); iexact Hs61
    isplitl [Hs60]; · iapply (row_land0 htb 60 rfl); iexact Hs60
    isplitl [Hs59]; · iapply (row_land0 htb 59 rfl); iexact Hs59
    isplitl [Hs58]; · iapply (row_land0 htb 58 rfl); iexact Hs58
    isplitl [Hs57]; · iapply (row_land0 htb 57 rfl); iexact Hs57
    isplitl [Hs56]; · iapply (row_land0 htb 56 rfl); iexact Hs56
    isplitl [Hs55]; · iapply (row_land0 htb 55 rfl); iexact Hs55
    isplitl [Hs54]; · iapply (row_land0 htb 54 rfl); iexact Hs54
    isplitl [Hs53]; · iapply (row_land0 htb 53 rfl); iexact Hs53
    isplitl [Hs52]; · iapply (row_land0 htb 52 rfl); iexact Hs52
    isplitl [Hs51]; · iapply (row_land0 htb 51 rfl); iexact Hs51
    isplitl [Hs50]; · iapply (row_land0 htb 50 rfl); iexact Hs50
    isplitl [Hs49]; · iapply (row_land0 htb 49 rfl); iexact Hs49
    isplitl [Hs48]; · iapply (row_land0 htb 48 rfl); iexact Hs48
    isplitl [Hs47]; · iapply (row_land0 htb 47 rfl); iexact Hs47
    isplitl [Hs46]; · iapply (row_land0 htb 46 rfl); iexact Hs46
    isplitl [Hs45]; · iapply (row_land0 htb 45 rfl); iexact Hs45
    isplitl [Hs44]; · iapply (row_land0 htb 44 rfl); iexact Hs44
    isplitl [Hs43]; · iapply (row_land0 htb 43 rfl); iexact Hs43
    isplitl [Hs42]; · iapply (row_land0 htb 42 rfl); iexact Hs42
    isplitl [Hs41]; · iapply (row_land0 htb 41 rfl); iexact Hs41
    isplitl [Hs40]; · iapply (row_land0 htb 40 rfl); iexact Hs40
    isplitl [Hs39]; · iapply (row_land0 htb 39 rfl); iexact Hs39
    isplitl [Hs38]; · iapply (row_land0 htb 38 rfl); iexact Hs38
    isplitl [Hs37]; · iapply (row_land0 htb 37 rfl); iexact Hs37
    isplitl [Hs36]; · iapply (row_land0 htb 36 rfl); iexact Hs36
    isplitl [Hs35]; · iapply (row_land0 htb 35 rfl); iexact Hs35
    isplitl [Hs34]; · iapply (row_land0 htb 34 rfl); iexact Hs34
    isplitl [Hs33]; · iapply (row_land0 htb 33 rfl); iexact Hs33
    isplitl [Hs32]; · iapply (row_land0 htb 32 rfl); iexact Hs32
    isplitl [Hs31]; · iapply (row_land0 htb 31 rfl); iexact Hs31
    isplitl [Hs30]; · iapply (row_land0 htb 30 rfl); iexact Hs30
    isplitl [Hs29]; · iapply (row_land0 htb 29 rfl); iexact Hs29
    isplitl [Hs28]; · iapply (row_land0 htb 28 rfl); iexact Hs28
    isplitl [Hs27]; · iapply (row_land0 htb 27 rfl); iexact Hs27
    isplitl [Hs26]; · iapply (row_land0 htb 26 rfl); iexact Hs26
    isplitl [Hs25]; · iapply (row_land0 htb 25 rfl); iexact Hs25
    isplitl [Hs24]; · iapply (row_land0 htb 24 rfl); iexact Hs24
    isplitl [Hs23]; · iapply (row_land0 htb 23 rfl); iexact Hs23
    isplitl [Hs22]; · iapply (row_land0 htb 22 rfl); iexact Hs22
    isplitl [Hs21]; · iapply (row_land0 htb 21 rfl); iexact Hs21
    isplitl [Hs20]; · iapply (row_land0 htb 20 rfl); iexact Hs20
    isplitl [Hs19]; · iapply (row_land0 htb 19 rfl); iexact Hs19
    isplitl [Hs18]; · iapply (row_land0 htb 18 rfl); iexact Hs18
    isplitl [Hs17]; · iapply (row_land0 htb 17 rfl); iexact Hs17
    isplitl [Hs16]; · iapply (row_land0 htb 16 rfl); iexact Hs16
    isplitl [Hs15]; · iapply (row_land0 htb 15 rfl); iexact Hs15
    isplitl [Hs14]; · iapply (row_land0 htb 14 rfl); iexact Hs14
    isplitl [Hs13]; · iapply (row_land0 htb 13 rfl); iexact Hs13
    isplitl [Hs12]; · iapply (row_land0 htb 12 rfl); iexact Hs12
    isplitl [Hs11]; · iapply (row_land0 htb 11 rfl); iexact Hs11
    isplitl [Hs10]; · iapply (row_land0 htb 10 rfl); iexact Hs10
    isplitl [Hs9]; · iapply (row_land0 htb 9 rfl); iexact Hs9
    isplitl [Hs8]; · iapply (row_land0 htb 8 rfl); iexact Hs8
    isplitl [Hs7]; · iapply (row_land0 htb 7 rfl); iexact Hs7
    isplitl [Hs6]; · iapply (row_land0 htb 6 rfl); iexact Hs6
    isplitl [Hs5]; · iapply (row_land0 htb 5 rfl); iexact Hs5
    isplitl [Hs4]; · iapply (row_land0 htb 4 rfl); iexact Hs4
    isplitl [Hs3]; · iapply (row_land0 htb 3 rfl); iexact Hs3
    isplitl [Hs2]; · iapply (row_land0 htb 2 rfl); iexact Hs2
    isplitl [Hs1]; · iapply (row_land0 htb 1 rfl); iexact Hs1
    isplitl [Hs0]; · iapply (row_land0 htb 0 rfl); iexact Hs0
    iempintro
  sl_exec!
  sl_step
  iapply Hk
  isplitl [Ht]; · iexact Ht
  isplitl [HAr HA130 HA129 HA128 HA127 HA126 HA125 HA124 HA123 HA122 HA121 HA120 HA119 HA118 HA117 HA116 HA115 HA114 HA113 HA112 HA111 HA110 HA109 HA108 HA107 HA106 HA105 HA104 HA103 HA102 HA101 HA100 HA99 HA98 HA97 HA96 HA95 HA94 HA93 HA92 HA91 HA90 HA89 HA88 HA87 HA86 HA85 HA84 HA83 HA82 HA81 HA80 HA79 HA78 HA77 HA76 HA75 HA74 HA73 HA72 HA71 HA70 HA69 HA68 HA67 HA66 HA65 HA64 HA63 HA62 HA61 HA60 HA59 HA58 HA57 HA56 HA55 HA54 HA53 HA52 HA51 HA50 HA49 HA48 HA47 HA46 HA45 HA44 HA43 HA42 HA41 HA40 HA39 HA38 HA37 HA36 HA35 HA34 HA33 HA32 HA31 HA30 HA29 HA28 HA27 HA26 HA25 HA24 HA23 HA22 HA21 HA20 HA19 HA18 HA17 HA16 HA15 HA14 HA13 HA12 HA11 HA10 HA9 HA8 HA7 HA6 HA5 HA4 HA3 HA2 HA1 HA0]
  · iapply hE.2
    iframe
  isplitl [H3]
  · iexists _; isplitr; · ipureintro; exact h3.read_unread _
    iexact H3
  isplitl [H4]
  · iexists _; isplitr; swap; · iexact H4
    ipureintro
    refine (rd00_out M4 _ _ _).trans ?_
    show k0_pay1 _ _ = _
    congr 1
    · exact ld00_scratch _ _
    · exact ld00_emb M3 h3 x3 _
  isplitl [HS]; · iexists _; iexact HS
  isplitl [Hd130 Hd129 Hd128 Hd127 Hd126 Hd125 Hd124 Hd123 Hd122 Hd121 Hd120 Hd119 Hd118 Hd117 Hd116 Hd115 Hd114 Hd113 Hd112 Hd111 Hd110 Hd109 Hd108 Hd107 Hd106 Hd105 Hd104 Hd103 Hd102 Hd101 Hd100 Hd99 Hd98 Hd97 Hd96 Hd95 Hd94 Hd93 Hd92 Hd91 Hd90 Hd89 Hd88 Hd87 Hd86 Hd85 Hd84 Hd83 Hd82 Hd81 Hd80 Hd79 Hd78 Hd77 Hd76 Hd75 Hd74 Hd73 Hd72 Hd71 Hd70 Hd69 Hd68 Hd67 Hd66 Hd65 Hd64 Hd63 Hd62 Hd61 Hd60 Hd59 Hd58 Hd57 Hd56 Hd55 Hd54 Hd53 Hd52 Hd51 Hd50 Hd49 Hd48 Hd47 Hd46 Hd45 Hd44 Hd43 Hd42 Hd41 Hd40 Hd39 Hd38 Hd37 Hd36 Hd35 Hd34 Hd33 Hd32 Hd31 Hd30 Hd29 Hd28 Hd27 Hd26 Hd25 Hd24 Hd23 Hd22 Hd21 Hd20 Hd19 Hd18 Hd17 Hd16 Hd15 Hd14 Hd13 Hd12 Hd11 Hd10 Hd9 Hd8 Hd7 Hd6 Hd5 Hd4 Hd3]
  · iapply (Entails.of_eq hS.symm)
    isplitl [Hd130]; · iexact Hd130
    isplitl [Hd129]; · iexact Hd129
    isplitl [Hd128]; · iexact Hd128
    isplitl [Hd127]; · iexact Hd127
    isplitl [Hd126]; · iexact Hd126
    isplitl [Hd125]; · iexact Hd125
    isplitl [Hd124]; · iexact Hd124
    isplitl [Hd123]; · iexact Hd123
    isplitl [Hd122]; · iexact Hd122
    isplitl [Hd121]; · iexact Hd121
    isplitl [Hd120]; · iexact Hd120
    isplitl [Hd119]; · iexact Hd119
    isplitl [Hd118]; · iexact Hd118
    isplitl [Hd117]; · iexact Hd117
    isplitl [Hd116]; · iexact Hd116
    isplitl [Hd115]; · iexact Hd115
    isplitl [Hd114]; · iexact Hd114
    isplitl [Hd113]; · iexact Hd113
    isplitl [Hd112]; · iexact Hd112
    isplitl [Hd111]; · iexact Hd111
    isplitl [Hd110]; · iexact Hd110
    isplitl [Hd109]; · iexact Hd109
    isplitl [Hd108]; · iexact Hd108
    isplitl [Hd107]; · iexact Hd107
    isplitl [Hd106]; · iexact Hd106
    isplitl [Hd105]; · iexact Hd105
    isplitl [Hd104]; · iexact Hd104
    isplitl [Hd103]; · iexact Hd103
    isplitl [Hd102]; · iexact Hd102
    isplitl [Hd101]; · iexact Hd101
    isplitl [Hd100]; · iexact Hd100
    isplitl [Hd99]; · iexact Hd99
    isplitl [Hd98]; · iexact Hd98
    isplitl [Hd97]; · iexact Hd97
    isplitl [Hd96]; · iexact Hd96
    isplitl [Hd95]; · iexact Hd95
    isplitl [Hd94]; · iexact Hd94
    isplitl [Hd93]; · iexact Hd93
    isplitl [Hd92]; · iexact Hd92
    isplitl [Hd91]; · iexact Hd91
    isplitl [Hd90]; · iexact Hd90
    isplitl [Hd89]; · iexact Hd89
    isplitl [Hd88]; · iexact Hd88
    isplitl [Hd87]; · iexact Hd87
    isplitl [Hd86]; · iexact Hd86
    isplitl [Hd85]; · iexact Hd85
    isplitl [Hd84]; · iexact Hd84
    isplitl [Hd83]; · iexact Hd83
    isplitl [Hd82]; · iexact Hd82
    isplitl [Hd81]; · iexact Hd81
    isplitl [Hd80]; · iexact Hd80
    isplitl [Hd79]; · iexact Hd79
    isplitl [Hd78]; · iexact Hd78
    isplitl [Hd77]; · iexact Hd77
    isplitl [Hd76]; · iexact Hd76
    isplitl [Hd75]; · iexact Hd75
    isplitl [Hd74]; · iexact Hd74
    isplitl [Hd73]; · iexact Hd73
    isplitl [Hd72]; · iexact Hd72
    isplitl [Hd71]; · iexact Hd71
    isplitl [Hd70]; · iexact Hd70
    isplitl [Hd69]; · iexact Hd69
    isplitl [Hd68]; · iexact Hd68
    isplitl [Hd67]; · iexact Hd67
    isplitl [Hd66]; · iexact Hd66
    isplitl [Hd65]; · iexact Hd65
    isplitl [Hd64]; · iexact Hd64
    isplitl [Hd63]; · iexact Hd63
    isplitl [Hd62]; · iexact Hd62
    isplitl [Hd61]; · iexact Hd61
    isplitl [Hd60]; · iexact Hd60
    isplitl [Hd59]; · iexact Hd59
    isplitl [Hd58]; · iexact Hd58
    isplitl [Hd57]; · iexact Hd57
    isplitl [Hd56]; · iexact Hd56
    isplitl [Hd55]; · iexact Hd55
    isplitl [Hd54]; · iexact Hd54
    isplitl [Hd53]; · iexact Hd53
    isplitl [Hd52]; · iexact Hd52
    isplitl [Hd51]; · iexact Hd51
    isplitl [Hd50]; · iexact Hd50
    isplitl [Hd49]; · iexact Hd49
    isplitl [Hd48]; · iexact Hd48
    isplitl [Hd47]; · iexact Hd47
    isplitl [Hd46]; · iexact Hd46
    isplitl [Hd45]; · iexact Hd45
    isplitl [Hd44]; · iexact Hd44
    isplitl [Hd43]; · iexact Hd43
    isplitl [Hd42]; · iexact Hd42
    isplitl [Hd41]; · iexact Hd41
    isplitl [Hd40]; · iexact Hd40
    isplitl [Hd39]; · iexact Hd39
    isplitl [Hd38]; · iexact Hd38
    isplitl [Hd37]; · iexact Hd37
    isplitl [Hd36]; · iexact Hd36
    isplitl [Hd35]; · iexact Hd35
    isplitl [Hd34]; · iexact Hd34
    isplitl [Hd33]; · iexact Hd33
    isplitl [Hd32]; · iexact Hd32
    isplitl [Hd31]; · iexact Hd31
    isplitl [Hd30]; · iexact Hd30
    isplitl [Hd29]; · iexact Hd29
    isplitl [Hd28]; · iexact Hd28
    isplitl [Hd27]; · iexact Hd27
    isplitl [Hd26]; · iexact Hd26
    isplitl [Hd25]; · iexact Hd25
    isplitl [Hd24]; · iexact Hd24
    isplitl [Hd23]; · iexact Hd23
    isplitl [Hd22]; · iexact Hd22
    isplitl [Hd21]; · iexact Hd21
    isplitl [Hd20]; · iexact Hd20
    isplitl [Hd19]; · iexact Hd19
    isplitl [Hd18]; · iexact Hd18
    isplitl [Hd17]; · iexact Hd17
    isplitl [Hd16]; · iexact Hd16
    isplitl [Hd15]; · iexact Hd15
    isplitl [Hd14]; · iexact Hd14
    isplitl [Hd13]; · iexact Hd13
    isplitl [Hd12]; · iexact Hd12
    isplitl [Hd11]; · iexact Hd11
    isplitl [Hd10]; · iexact Hd10
    isplitl [Hd9]; · iexact Hd9
    isplitl [Hd8]; · iexact Hd8
    isplitl [Hd7]; · iexact Hd7
    isplitl [Hd6]; · iexact Hd6
    isplitl [Hd5]; · iexact Hd5
    isplitl [Hd4]; · iexact Hd4
    isplitl [Hd3]; · iexact Hd3
    iempintro
  iexists _; iexact HO

end Cert.KernelIdeal.Hand

end
-- ==== Proof.KIRegion0.lean ====
import proofs.«410613_j6055903887911_1_alg».proof.Proof.KIBody0
import Idealize.ShloMosaic.Lib.Pipeline.Frame
import Idealize.ShloMosaic.Lib.Pipeline.FrameBody

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b)) (a0 : (pcfg0 (F := F)).Adm)

def H0 : Finset (Ref sig .tc) := {main_arg2}

def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

theorem before0_0_of {c : Dev nD} (dat : Dat τ (Elt F) Unit ℕ (UU nD τ) ℕ (cfg0 a0) c) (hA : dat.A 0 = V c (Pipeline.arrRef spec0 0))
    (hafter : ∀ t, dat.after 0 t = iblk0 V a0 c 0 t) (t : Fin (cfg0 a0).N) (d) : dat.before 0 t d = iblk0 V a0 c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

def outAt0 (c : Dev nD) (t : Fin (cfg0 a0).N) : S128x128.Idx → Elt F .f32 :=
  k0_pay1 (rows0 (a0.1 0) (V c main_arg2) (grid0.coords t)) (iblk0 V a0 c 0 t)

def dat0 (c : Dev nD) : Dat τ (Elt F) Unit ℕ (UU nD τ) ℕ (cfg0 a0) c where
  A w := V c (Pipeline.arrRef spec0 w)
  after w t := match w with
    | ⟨0, _⟩ => iblk0 V a0 c 0 t
    | ⟨1, _⟩ => outAt0 V a0 c t
  Φ _ := iprop(Pipeline.ΦD osem0 spec0 H0 V c ∗ Pipeline.prefHeld pre0 c (fun _ => fullShare) a0.1)
  q _ := fullShare
  owed _ := 0

theorem A_eq0 (c : Dev nD) (w : Fin (cfg0 a0).W) : (dat0 V a0 c).A w = V c (Pipeline.arrRef spec0 w) := by
  dsimp only [dat0]

theorem after0_0 (c : Dev nD) (t : Fin (cfg0 a0).N) : (dat0 V a0 c).after 0 t = iblk0 V a0 c 0 t := by dsimp only [dat0]; rfl
theorem after0_1 (c : Dev nD) (t : Fin (cfg0 a0).N) : (dat0 V a0 c).after 1 t = outAt0 V a0 c t := by dsimp only [dat0]; rfl

theorem before0_0 (c : Dev nD) (t : Fin (cfg0 a0).N) (d) : (dat0 V a0 c).before 0 t d = iblk0 V a0 c 0 t :=
  before0_0_of V a0 (dat0 V a0 c) (A_eq0 V a0 c 0) (after0_0 V a0 c) t d

abbrev ms0_0 (t : Fin (cfg0 a0).N) : Memref sig .tc .vmem S16384x128 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S128x128 .f32 := spec0_1.stage ((cfg0 a0).slots t 1)
abbrev hs0_1 (t : Fin (cfg0 a0).N) : (ms0_1 a0 t).IsWhole := hstage0_1 (((cfg0 a0).slots t 1).cast nbuf0_1)

abbrev bodyAt0 (t : Fin (cfg0 a0).N) : Prog (TpuEff nD τ sig (Elt F) Λ₀ .tc) PUnit :=
  cc0__gather_matmul_kernel (grid0.coords t) (Memref.whole main_v41) (Memref.isWhole_whole _) (Memref.whole main_arg2) (Memref.isWhole_whole _)
    (ms0_0 a0 t) (hs0_0 a0 t) (ms0_1 a0 t) (hs0_1 a0 t) (Memref.whole cc0_scratch0) (Memref.isWhole_whole _) cc0_scratch1

theorem hbmPts0_eq (c : Dev nD) :
    (bigSep H0 (fun b => ((c : Thread nD τ).loc b) ↦{fullShare} V c b) : sProp (MM F)) = pt c (Memref.whole main_arg2) (V c main_arg2) := by
  unfold H0; rw [BI.bigSep_singleton]

theorem prefHeld0_eq (c : Dev nD) :
    (Pipeline.prefHeld pre0 c (fun _ => fullShare) a0.1 : sProp (MM F)) = pt c (Memref.whole main_v41) (a0.1 0) := by
  unfold Pipeline.prefHeld; rw [bigSep_W1]; rfl

def bodyPre0 (c : Dev nD) (t : Fin (cfg0 a0).N) : sProp (MM F) :=
  iprop((dat0 V a0 c).Φ t.castSucc ∗ (dat0 V a0 c).owesAt () t.castSucc
    ∗ (∃ d, owns (c : Thread nD τ) (ms0_0 a0 t) fullShare ((dat0 V a0 c).before 0 t d))
    ∗ (∃ d, owns (c : Thread nD τ) (ms0_1 a0 t) fullShare ((dat0 V a0 c).before 1 t d)))

def bodyPost0 (c : Dev nD) (t : Fin (cfg0 a0).N) : sProp (MM F) :=
  iprop((dat0 V a0 c).Φ t.succ ∗ (dat0 V a0 c).owesAt () t.succ
    ∗ owns (c : Thread nD τ) (ms0_0 a0 t) fullShare ((dat0 V a0 c).after 0 t)
    ∗ owns (c : Thread nD τ) (ms0_1 a0 t) fullShare ((dat0 V a0 c).after 1 t))

theorem sound_body0 (htb : ∀ j : S4096.Idx, ((a0.1 0) j : BitVec 32).toNat < 16384) (c : Dev nD) (t : Fin (cfg0 a0).N) :
    bodyPre0 V a0 c t ⊢ wp frame (wpE (defs₀ (F := F)) Variants.none c none) Set.univ (bodyAt0 a0 t) (fun _ => bodyPost0 V a0 c t) := by
  unfold bodyPre0 bodyPost0
  simp only [before0_0]
  rw [show (dat0 V a0 c).Φ t.succ = (dat0 V a0 c).Φ t.castSucc from rfl, after0_0, after0_1]
  rw [show (dat0 V a0 c).Φ t.castSucc = iprop(Pipeline.ΦD osem0 spec0 H0 V c ∗ Pipeline.prefHeld pre0 c (fun _ => fullShare) a0.1) from rfl,
    Pipeline.ΦD_eq, scopedRest0_eq, hbmPts0_eq, prefHeld0_eq]
  unfold Dat.owesAt Pipeline.owesWithin
  rw [show (dat0 V a0 c).owed t.castSucc = 0 from rfl, show (dat0 V a0 c).owed t.succ = 0 from rfl]
  iintro ⟨⟨⟨⟨HS0, HR⟩, Hg, Hs, HH⟩, HT⟩, ⟨%W, -, HW⟩, ⟨%d0, H0⟩, ⟨%d1, H1⟩⟩
  iapply (kernelRun0 c (grid0.coords t) (ms0_0 a0 t) (hs0_0 a0 t) (ms0_1 a0 t) (hs0_1 a0 t) (a0.1 0) htb (V c main_arg2) (iblk0 V a0 c 0 t) W _)
  isplitl [HT]; · iexact HT
  isplitl [HH]; · iexact HH
  isplitl [H0]; · iexact H0
  isplitl [H1]; · iexists _; iexact H1
  isplitl [HS0]; · iexact HS0
  isplitl [Hs]; · iexact Hs
  isplitl [HW]; · iexact HW
  iintro ⟨HT, HH, H0, H1, HS0, Hs, ⟨%W', HW'⟩⟩
  isplitl [HS0 HR Hg Hs HH HT]
  · isplitl [HS0 HR Hg Hs HH]
    · isplitl [HS0 HR]
      · isplitl [HS0]; · iexact HS0
        iexact HR
      isplitl [Hg]; · iexact Hg
      isplitl [Hs]; · iexact Hs
      iexact HH
    iexact HT
  isplitl [HW']
  · iexists W'; isplitr; · ipureintro; exact fun _ _ => Or.inl trivial
    iexact HW'
  isplitl [H0]; · iexact H0
  iexact H1

set_option maxRecDepth 65536 in

theorem body_obligation0 (htb : ∀ j : S4096.Idx, ((a0.1 0) j : BitVec 32).toNat < 16384) (c : Dev nD) :
    BodyObligation (dat0 (F := F) V a0 c) (defs₀ (F := F)) Variants.none () Set.univ := fun t => by
  rw [bigSep_W0, bigSep_W0]
  show bodyPre0 V a0 c t ⊢ wp frame (wpE (defs₀ (F := F)) Variants.none c none) Set.univ (bodyAt0 a0 t) (fun _ => bodyPost0 V a0 c t)
  exact sound_body0 V a0 htb c t

end Cert.KernelIdeal.Hand

end
-- ==== Proof.KIBody1Lem.lean ====
import proofs.«410613_j6055903887911_1_alg».proof.Proof.KICommon
import Idealize.ShloMosaic.Lib.ValueIdx
import Idealize.ShloMosaic.Lib.Pipeline.Value

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

theorem chk1_of_lt (v : BitVec 32) (h : v.toNat < 16384) :
    ∀ a, (![v.toNat, 0] : Fin 2 → ℕ) a + S1x128.size a ≤ S16384x128.size a := by
  intro a
  fin_cases a
  · show v.toNat + 1 ≤ 16384
    omega
  · show 0 + 128 ≤ 128
    omega

def osemN (j : ℕ) : SemLoc sig := SemLoc.dma ⟨(133 + j) % 395, Nat.mod_lt _ (by decide)⟩
def osem1 (k : Fin 256) : SemLoc sig := osemN k.val

abbrev sems0_1 (c : Dev nD) : sProp (MM F) := bigSep Finset.univ fun k : Fin 256 => semVal ((c : Thread nD τ), osem1 k) 0

theorem sems_down1 (c : Dev nD) :
    sems0_1 (F := F) c = sepDown1 (fun j => semVal ((c : Thread nD τ), osemN j) 0) 256 :=
  bigSep_fin_eq_sepDown1 (fun j => semVal ((c : Thread nD τ), osemN j) 0) 256

def rows1 (tb : S4096.Idx → BitVec 32) (fE : S16384x128.Idx → Elt F .f32) (i : grid1.Coords) : S256x128.Idx → Elt F .f32 :=
  fun y => fE (ValueIdx.ix2 (Fin.ofNat 16384 (tb (ValueIdx.ix1 (Fin.ofNat 4096 (256 * (i 0).val + (y 0).val)))).toNat) (y 1))

abbrev tokN1 (c : Dev nD) (fE : Bf (F := F) c (Memref.whole main_arg3)) (j : ℕ) : sProp (MM F) :=
  (Memref.whole main_arg3).view.loc (c : Thread nD τ) ↦{Transfers.shareTokN fullShare j} fE

abbrev tokRest1 (c : Dev nD) (fE : Bf (F := F) c (Memref.whole main_arg3)) : sProp (MM F) :=
  (Memref.whole main_arg3).view.loc (c : Thread nD τ) ↦{Transfers.shareDrop fullShare 389} fE

theorem toks_range1 (c : Dev nD) (fE : Bf (F := F) c (Memref.whole main_arg3)) :
    pt c (Memref.whole main_arg3) fE ⊣⊢ iprop(tokRest1 c fE ∗ sepDown1 (tokN1 c fE) 389) := by
  have h := Transfers.pointsTo_toks_range (Ix := Unit) (Val := Elt F) (Name := ℕ) (U := UU nD τ) (Lvl := ℕ)
    (ℓ := (Memref.whole main_arg3).view.loc (c : Thread nD τ)) (S := Finset.univ) (f := fE) fullShare 389
  rw [bigSep_range_eq_sepDown1] at h
  exact h

theorem hrow1 (k : ℕ) (hk : k < 256) : ∀ a, (![k, 0] : Fin 2 → ℕ) a + S1x128.size a ≤ S256x128.size a := by
  intro a
  fin_cases a
  · show k + 1 ≤ 256
    omega
  · show 0 + 128 ≤ 128
    omega

abbrev rowM1 (M3 : Memref sig .tc .vmem S256x128 .f32) (k : ℕ) (hk : k < 256) : Memref sig .tc .vmem S128 .f32 :=
  (M3.slice (Rect.unit (s := S256x128) ![k, 0] S1x128.size (hrow1 k hk)) (fun _ => rfl)).squeeze S128 Gen.squeezes_S1x128_S128

theorem rowM1_set (M3 : Memref sig .tc .vmem S256x128 .f32) (k : ℕ) (hk : k < 256) :
    (rowM1 M3 k hk).view.set = (Rect.unit (s := S256x128) ![k, 0] S1x128.size (hrow1 k hk)).set.map M3.view.emb := by
  show ((M3.view.slice _).reshape S128 _).set = _
  rw [View.set_reshape, View.set_slice]

theorem rowM1_disjoint (M3 : Memref sig .tc .vmem S256x128 .f32) {k k' : ℕ} (hk : k < 256) (hk' : k' < 256) (h : k ≠ k') :
    Disjoint (rowM1 M3 k hk).view.set (rowM1 M3 k' hk').view.set := by
  rw [rowM1_set, rowM1_set, Finset.disjoint_map]
  refine Rect.unit_disjoint 0 ?_
  show k + 1 ≤ k' ∨ k' + 1 ≤ k
  omega

theorem rowM1_cover (M3 : Memref sig .tc .vmem S256x128 .f32) (h3 : M3.IsWhole) (x : M3.view.ty.Idx) :
    ∃ (k : ℕ) (hk : k < 256), x ∈ (rowM1 M3 k hk).view.set := by
  have hx : x ∈ M3.view.set := by rw [h3.set_eq_univ]; exact Finset.mem_univ x
  obtain ⟨y, -, rfl⟩ := Finset.mem_map.mp hx
  refine ⟨(y 0).val, (y 0).isLt, ?_⟩
  rw [rowM1_set]
  refine Finset.mem_map_of_mem _ (Rect.mem_set_unit.mpr fun a => ?_)
  fin_cases a
  · show (y 0).val ≤ (y 0).val ∧ (y 0).val < (y 0).val + 1
    omega
  · have := (y 1).isLt
    show 0 ≤ (y 1).val ∧ (y 1).val < 0 + 128
    exact ⟨Nat.zero_le _, by simpa using this⟩

def rowP1 (c : Dev nD) (M3 : Memref sig .tc .vmem S256x128 .f32) (g : ℕ → Bf (F := F) c M3) (k : ℕ) : sProp (MM F) :=
  if hk : k < 256 then (rowM1 M3 k hk).view.loc (c : Thread nD τ) ↦[(rowM1 M3 k hk).view.set]{fullShare} g k else iprop(emp)

def rowK1 (c : Dev nD) (M3 : Memref sig .tc .vmem S256x128 .f32) (k : Fin 256) : Finset (Idx (M3.view.loc (c : Thread nD τ))) :=
  (rowM1 M3 k.val k.isLt).view.set

theorem rowK1_disjoint (c : Dev nD) (M3 : Memref sig .tc .vmem S256x128 .f32) :
    ∀ t ∈ (Finset.univ : Finset (Fin 256)), ∀ t' ∈ (Finset.univ : Finset (Fin 256)), t ≠ t' → Disjoint (rowK1 c M3 t) (rowK1 c M3 t') :=
  fun t _ t' _ h => rowM1_disjoint M3 t.isLt t'.isLt (fun e => h (Fin.ext e))

theorem rowK1_biUnion (c : Dev nD) (M3 : Memref sig .tc .vmem S256x128 .f32) (h3 : M3.IsWhole) :
    (Finset.univ : Finset (Fin 256)).biUnion (rowK1 c M3) = Finset.univ := by
  ext x
  simp only [Finset.mem_biUnion, Finset.mem_univ, true_and, iff_true]
  obtain ⟨k, hk, hx⟩ := rowM1_cover M3 h3 x
  exact ⟨⟨k, hk⟩, hx⟩

theorem rows_split1 (c : Dev nD) (M3 : Memref sig .tc .vmem S256x128 .f32) (h3 : M3.IsWhole) (f3 : Bf (F := F) c M3) :
    pt c M3 f3 ⊢ sepDown1 (rowP1 c M3 (fun _ => f3)) 256 := by
  rw [← bigSep_fin_eq_sepDown1]
  have h := pointsTo_biUnion (Ix := Unit) (Val := Elt F) (Name := ℕ) (U := UU nD τ) (Lvl := ℕ)
    (ℓ := M3.view.loc (c : Thread nD τ)) (q := fullShare) (f := f3) Finset.univ (rowK1 c M3) (rowK1_disjoint c M3)
  rw [rowK1_biUnion c M3 h3] at h
  refine (Entails.of_eq h).trans (Entails.of_eq (bigSep_congr fun k _ => ?_))
  unfold rowP1 rowK1
  rw [dif_pos k.isLt]

theorem rows_join1 (c : Dev nD) (M3 : Memref sig .tc .vmem S256x128 .f32) (h3 : M3.IsWhole) (g : ℕ → Bf (F := F) c M3) :
    sepDown1 (rowP1 c M3 g) 256
      ⊢ iprop(∃ f : Bf (F := F) c M3, ⌜∀ (k : ℕ) (hk : k < 256), ∀ x ∈ (rowM1 M3 k hk).view.set, f x = g k x⌝ ∗ pt c M3 f) := by
  rw [← bigSep_fin_eq_sepDown1]
  have h := pointsTo_biUnion_join (Ix := Unit) (Val := Elt F) (Name := ℕ) (U := UU nD τ) (Lvl := ℕ)
    (ℓ := M3.view.loc (c : Thread nD τ)) (q := fullShare) Finset.univ (rowK1 c M3) (fun k : Fin 256 => g k.val) (g 0) (rowK1_disjoint c M3)
  rw [rowK1_biUnion c M3 h3] at h
  refine (Entails.of_eq (bigSep_congr fun k _ => ?_)).trans (h.trans ?_)
  · unfold rowP1 rowK1
    rw [dif_pos k.isLt]
  · iintro ⟨%f, %hf, H⟩
    iexists f
    isplitr
    · ipureintro
      exact fun k hk x hx => hf ⟨k, hk⟩ (Finset.mem_univ _) x hx
    · iexact H

abbrev rowHyp1 (c : Dev nD) (M3 : Memref sig .tc .vmem S256x128 .f32) (f : Bf (F := F) c M3) (k : ℕ) (hk : k < 256) : sProp (MM F) :=
  (rowM1 M3 k hk).view.loc (c : Thread nD τ) ↦[(rowM1 M3 k hk).view.set]{fullShare} f

theorem rowP1_lt (c : Dev nD) (M3 : Memref sig .tc .vmem S256x128 .f32) (g : ℕ → Bf (F := F) c M3) (k : ℕ) (hk : k < 256) :
    rowP1 c M3 g k = rowHyp1 c M3 (g k) k hk := by
  unfold rowP1; rw [dif_pos hk]

theorem sq_idx1 : ∀ j : S128.Idx, ∀ a, ((Shape.reshapeEquiv Gen.squeezes_S1x128_S128.numel_eq j) a : ℕ) = (![0, (j 0).val] : Fin 2 → ℕ) a := by
  decide +kernel

def payS1 (tb : S4096.Idx → BitVec 32) (fE : S16384x128.Idx → Elt F .f32) (n : ℕ) : S128.Idx → Elt F .f32 :=
  fun j => fE (ValueIdx.ix2 (Fin.ofNat 16384 (tb (ValueIdx.ix1 (Fin.ofNat 4096 n))).toNat) (j 0))

theorem rd_eq1 (c : Dev nD) (tb : Bf (F := F) c (Memref.whole main_v48)) (off : Fin 1 → ℕ) (hoff : ∀ a, off a + S1.size a ≤ S4096.size a)
    (n : ℕ) (e : off = ![n]) (h0 : 0 < (Rect.unit (s := S4096) off S1.size hoff).toLoadRect.shape.numel) :
    (View.readAt (Elt F) (Memref.whole main_v48).view (Rect.unit (s := S4096) off S1.size hoff).toLoadRect tb (Shape.Idx.first h0) : BitVec 32)
      = tb (ValueIdx.ix1 (Fin.ofNat 4096 n)) := by
  subst e
  have hn : n < 4096 := by have := hoff 0; simpa using this
  show tb _ = tb _
  congr 1
  funext a
  fin_cases a
  apply Fin.ext
  show n + 1 * 0 = n % 4096
  rw [Nat.mod_eq_of_lt hn]; omega

theorem pay_word1 (c : Dev nD) (fE : Bf (F := F) c (Memref.whole main_arg3)) (v : BitVec 32)
    (hv : ∀ a, (![v.toNat, 0] : Fin 2 → ℕ) a + S1x128.size a ≤ S16384x128.size a) (j : S128.Idx) :
    View.read (Elt F) (((Memref.whole main_arg3).slice (Rect.unit (s := S16384x128) ![v.toNat, 0] S1x128.size hv) (fun _ => rfl)).squeeze S128
        Gen.squeezes_S1x128_S128).view fE j
      = fE (ValueIdx.ix2 (Fin.ofNat 16384 v.toNat) (j 0)) := by
  have hlt : v.toNat < 16384 := by have := hv 0; simpa using this
  show fE _ = fE _
  congr 1
  funext a
  fin_cases a
  · apply Fin.ext
    show v.toNat + 1 * ((Shape.reshapeEquiv Gen.squeezes_S1x128_S128.numel_eq j) 0 : ℕ) = v.toNat % 16384
    rw [sq_idx1 j 0, Nat.mod_eq_of_lt hlt]; rfl
  · apply Fin.ext
    show 0 + 1 * ((Shape.reshapeEquiv Gen.squeezes_S1x128_S128.numel_eq j) 1 : ℕ) = (j 0).val
    rw [sq_idx1 j 1]; show 0 + 1 * (j 0).val = (j 0).val; omega

theorem pay_eq1 (c : Dev nD) (tb : Bf (F := F) c (Memref.whole main_v48)) (fE : Bf (F := F) c (Memref.whole main_arg3))
    (off : Fin 1 → ℕ) (hoff : ∀ a, off a + S1.size a ≤ S4096.size a) (n : ℕ) (e : off = ![n])
    (h0 : 0 < (Rect.unit (s := S4096) off S1.size hoff).toLoadRect.shape.numel)
    (hv : ∀ a, (![(View.readAt (Elt F) (Memref.whole main_v48).view (Rect.unit (s := S4096) off S1.size hoff).toLoadRect tb (Shape.Idx.first h0) : BitVec 32).toNat, 0] : Fin 2 → ℕ) a
        + S1x128.size a ≤ S16384x128.size a) :
    ReadAs.same.apply (View.read (Elt F) (((Memref.whole main_arg3).slice (Rect.unit (s := S16384x128)
        ![(View.readAt (Elt F) (Memref.whole main_v48).view (Rect.unit (s := S4096) off S1.size hoff).toLoadRect tb (Shape.Idx.first h0) : BitVec 32).toNat, 0]
        S1x128.size hv) (fun _ => rfl)).squeeze S128 Gen.squeezes_S1x128_S128).view fE)
      = payS1 tb fE n := by
  funext j
  refine (pay_word1 c fE _ hv j).trans ?_
  rw [rd_eq1 c tb off hoff n e h0]
  rfl

def rowG1 (c : Dev nD) (i : grid1.Coords) (M3 : Memref sig .tc .vmem S256x128 .f32)
    (tb : S4096.Idx → BitVec 32) (fE : S16384x128.Idx → Elt F .f32) (f3 : Bf (F := F) c M3) (k : ℕ) : Bf (F := F) c M3 :=
  if hk : k < 256 then (rowM1 M3 k hk).view.writes (Elt F) f3 [⟨Rect.whole S128, payS1 tb fE (256 * (i 0).val + k)⟩] else f3

theorem row_fin1 (c : Dev nD) (i : grid1.Coords) (M3 : Memref sig .tc .vmem S256x128 .f32)
    (tb : S4096.Idx → BitVec 32) (fE : S16384x128.Idx → Elt F .f32) (f3 : Bf (F := F) c M3) (k : ℕ) (hk : k < 256)
    (w : S128.Idx → Elt F .f32) (hw : w = payS1 tb fE (256 * (i 0).val + k)) :
    ((rowM1 M3 k hk).view.loc (c : Thread nD τ) ↦[(rowM1 M3 k hk).view.set]{fullShare} (rowM1 M3 k hk).view.writes (Elt F) f3 [⟨Rect.whole S128, w⟩] : sProp (MM F))
      ⊢ rowP1 c M3 (rowG1 c i M3 tb fE f3) k := by
  subst hw
  unfold rowP1 rowG1
  rw [dif_pos hk, dif_pos hk]

/-- Row `k` after its copy has landed, the copy's word read at the offsets `![256 i + k]`, is row `k` of the joined block. -/
theorem row_land1 {c : Dev nD} {i : grid1.Coords} {M3 : Memref sig .tc .vmem S256x128 .f32}
    {tb : Bf (F := F) c (Memref.whole main_v48)} {fE : Bf (F := F) c (Memref.whole main_arg3)} {f3 : Bf (F := F) c M3}
    (k : ℕ) (hd : decide (k < 256) = true) {off : Fin 1 → ℕ} {hoff : ∀ a, off a + S1.size a ≤ S4096.size a}
    (e : off = ![256 * (i 0).val + k])
    {h0 : 0 < (Rect.unit (s := S4096) off S1.size hoff).toLoadRect.shape.numel}
    {hv : ∀ a, (![(View.readAt (Elt F) (Memref.whole main_v48).view (Rect.unit (s := S4096) off S1.size hoff).toLoadRect tb (Shape.Idx.first h0) : BitVec 32).toNat, 0] : Fin 2 → ℕ) a
        + S1x128.size a ≤ S16384x128.size a} :
    (rowHyp1 c M3 ((rowM1 M3 k (of_decide_eq_true hd)).view.writes (Elt F) f3
        [⟨Rect.whole S128, ReadAs.same.apply (View.read (Elt F) (((Memref.whole main_arg3).slice (Rect.unit (s := S16384x128)
          ![(View.readAt (Elt F) (Memref.whole main_v48).view (Rect.unit (s := S4096) off S1.size hoff).toLoadRect tb (Shape.Idx.first h0) : BitVec 32).toNat, 0]
          S1x128.size hv) (fun _ => rfl)).squeeze S128 Gen.squeezes_S1x128_S128).view fE)⟩]) k (of_decide_eq_true hd) : sProp (MM F))
      ⊢ rowP1 c M3 (rowG1 c i M3 tb fE f3) k :=
  row_fin1 c i M3 tb fE f3 k (of_decide_eq_true hd) _ (pay_eq1 c tb fE off hoff _ e h0 hv)

theorem rows_value1 (c : Dev nD) (i : grid1.Coords) (M3 : Memref sig .tc .vmem S256x128 .f32)
    (tb : S4096.Idx → BitVec 32) (fE : S16384x128.Idx → Elt F .f32) (f3 f : Bf (F := F) c M3)
    (hf : ∀ (k : ℕ) (hk : k < 256), ∀ x ∈ (rowM1 M3 k hk).view.set, f x = rowG1 c i M3 tb fE f3 k x) :
    M3.view.read (Elt F) f = rows1 tb fE i := by
  funext y
  have hk : (y 0).val < 256 := (y 0).isLt
  let j : S128.Idx := ValueIdx.ix1 (y 1)
  have hemb : M3.view.emb y = (rowM1 M3 (y 0).val hk).view.emb j := by
    show M3.view.emb y = M3.view.emb ((Rect.unit (s := S256x128) ![(y 0).val, 0] S1x128.size (hrow1 _ hk)).emb
      (Shape.reshapeEquiv Gen.squeezes_S1x128_S128.numel_eq j))
    congr 1
    funext a
    fin_cases a
    · apply Fin.ext
      show (y 0).val = (y 0).val + 1 * ((Shape.reshapeEquiv Gen.squeezes_S1x128_S128.numel_eq j) 0 : ℕ)
      rw [sq_idx1 j 0]; rfl
    · apply Fin.ext
      show (y 1).val = 0 + 1 * ((Shape.reshapeEquiv Gen.squeezes_S1x128_S128.numel_eq j) 1 : ℕ)
      rw [sq_idx1 j 1]; show (y 1).val = 0 + 1 * (y 1).val; omega
  have h1 : f (M3.view.emb y) = rowG1 c i M3 tb fE f3 (y 0).val ((rowM1 M3 (y 0).val hk).view.emb j) := by
    rw [hemb]; exact hf _ hk _ (View.emb_mem_set _ j)
  have h2 := View.read_slice_write_emb (v := (rowM1 M3 (y 0).val hk).view) (Rect.whole S128) f3
    (payS1 tb fE (256 * (i 0).val + (y 0).val)) (M := Finset.univ) (x := j) (Finset.mem_univ _)
  rw [Rect.emb_whole_apply, View.read_apply] at h2
  rw [View.read_apply, h1]
  unfold rowG1; rw [dif_pos hk]
  exact h2

end Cert.KernelIdeal.Hand

end
-- ==== Proof.KIBody1.lean ====
import proofs.«410613_j6055903887911_1_alg».proof.Proof.KIBody1Lem

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

set_option maxRecDepth 65536 in
set_option maxHeartbeats 40000000 in
/-- All 256 copies read the array at once (one read share per cell); each takes its own row of the block and its wait gives it back. -/
theorem body1 (c : Dev nD) (i : grid1.Coords) (M3 : Memref sig .tc .vmem S256x128 .f32) (h3 : M3.IsWhole)
    (tb : Bf (F := F) c (Memref.whole main_v48)) (fE : Bf (F := F) c (Memref.whole main_arg3)) (f3 : Bf (F := F) c M3)
    (htb : ∀ j : S4096.Idx, (tb j : BitVec 32).toNat < 16384)
    (W : Waits sig Unit) (Q : PUnit → sProp (MM F)) :
    iprop(pt c (Memref.whole main_v48) tb ∗ pt c (Memref.whole main_arg3) fE ∗ pt c M3 f3 ∗ sems0_1 c ∗ owes (c : Thread nD τ) 0 W
      ∗ (iprop(pt c (Memref.whole main_v48) tb ∗ pt c (Memref.whole main_arg3) fE
            ∗ (∃ f : Bf (F := F) c M3, ⌜M3.view.read (Elt F) f = rows1 tb fE i⌝ ∗ pt c M3 f)
            ∗ sems0_1 c ∗ ∃ W', owes (c : Thread nD τ) 0 W') -∗ Q ⟨⟩))
    ⊢ wp frame (wpE (defs₀ (F := F)) VV c none) Set.univ
        (cc1__gather_rows_kernel i (Memref.whole main_v48) (Memref.isWhole_whole _) (Memref.whole main_arg3) (Memref.isWhole_whole _) M3 h3 cc1_scratch0) Q := by
  have hrd : ∀ (r : LoadRect S4096) (x : r.shape.Idx),
      (View.readAt (Elt F) (Memref.whole main_v48).view r tb x : BitVec 32).toNat < 16384 := fun r x => htb (r.idx x)
  have hE := toks_range1 c fE
  simp only [sepDown1_ge 133, Nat.reduceLeDiff] at hE
  have hR := rows_split1 c M3 h3 f3
  simp only [sepDown1, rowP1_lt, Nat.reduceLT] at hR
  have hS := sems_down1 (F := F) c
  simp only [sepDown1, osemN, Nat.reduceAdd, Nat.reduceMod, Fin.reduceFinMk] at hS
  iintro ⟨Ht, HE, H3, Hs, HO, Hk⟩
  ihave HE' := hE.1 $$ HE
  icases HE' with ⟨Hdrop, HE388, HE387, HE386, HE385, HE384, HE383, HE382, HE381, HE380, HE379, HE378, HE377, HE376, HE375, HE374, HE373, HE372, HE371, HE370, HE369, HE368, HE367, HE366, HE365, HE364, HE363, HE362, HE361, HE360, HE359, HE358, HE357, HE356, HE355, HE354, HE353, HE352, HE351, HE350, HE349, HE348, HE347, HE346, HE345, HE344, HE343, HE342, HE341, HE340, HE339, HE338, HE337, HE336, HE335, HE334, HE333, HE332, HE331, HE330, HE329, HE328, HE327, HE326, HE325, HE324, HE323, HE322, HE321, HE320, HE319, HE318, HE317, HE316, HE315, HE314, HE313, HE312, HE311, HE310, HE309, HE308, HE307, HE306, HE305, HE304, HE303, HE302, HE301, HE300, HE299, HE298, HE297, HE296, HE295, HE294, HE293, HE292, HE291, HE290, HE289, HE288, HE287, HE286, HE285, HE284, HE283, HE282, HE281, HE280, HE279, HE278, HE277, HE276, HE275, HE274, HE273, HE272, HE271, HE270, HE269, HE268, HE267, HE266, HE265, HE264, HE263, HE262, HE261, HE260, HE259, HE258, HE257, HE256, HE255, HE254, HE253, HE252, HE251, HE250, HE249, HE248, HE247, HE246, HE245, HE244, HE243, HE242, HE241, HE240, HE239, HE238, HE237, HE236, HE235, HE234, HE233, HE232, HE231, HE230, HE229, HE228, HE227, HE226, HE225, HE224, HE223, HE222, HE221, HE220, HE219, HE218, HE217, HE216, HE215, HE214, HE213, HE212, HE211, HE210, HE209, HE208, HE207, HE206, HE205, HE204, HE203, HE202, HE201, HE200, HE199, HE198, HE197, HE196, HE195, HE194, HE193, HE192, HE191, HE190, HE189, HE188, HE187, HE186, HE185, HE184, HE183, HE182, HE181, HE180, HE179, HE178, HE177, HE176, HE175, HE174, HE173, HE172, HE171, HE170, HE169, HE168, HE167, HE166, HE165, HE164, HE163, HE162, HE161, HE160, HE159, HE158, HE157, HE156, HE155, HE154, HE153, HE152, HE151, HE150, HE149, HE148, HE147, HE146, HE145, HE144, HE143, HE142, HE141, HE140, HE139, HE138, HE137, HE136, HE135, HE134, HE133, Hlow⟩
  ihave H3' := hR $$ H3
  icases H3' with ⟨Hr255, Hr254, Hr253, Hr252, Hr251, Hr250, Hr249, Hr248, Hr247, Hr246, Hr245, Hr244, Hr243, Hr242, Hr241, Hr240, Hr239, Hr238, Hr237, Hr236, Hr235, Hr234, Hr233, Hr232, Hr231, Hr230, Hr229, Hr228, Hr227, Hr226, Hr225, Hr224, Hr223, Hr222, Hr221, Hr220, Hr219, Hr218, Hr217, Hr216, Hr215, Hr214, Hr213, Hr212, Hr211, Hr210, Hr209, Hr208, Hr207, Hr206, Hr205, Hr204, Hr203, Hr202, Hr201, Hr200, Hr199, Hr198, Hr197, Hr196, Hr195, Hr194, Hr193, Hr192, Hr191, Hr190, Hr189, Hr188, Hr187, Hr186, Hr185, Hr184, Hr183, Hr182, Hr181, Hr180, Hr179, Hr178, Hr177, Hr176, Hr175, Hr174, Hr173, Hr172, Hr171, Hr170, Hr169, Hr168, Hr167, Hr166, Hr165, Hr164, Hr163, Hr162, Hr161, Hr160, Hr159, Hr158, Hr157, Hr156, Hr155, Hr154, Hr153, Hr152, Hr151, Hr150, Hr149, Hr148, Hr147, Hr146, Hr145, Hr144, Hr143, Hr142, Hr141, Hr140, Hr139, Hr138, Hr137, Hr136, Hr135, Hr134, Hr133, Hr132, Hr131, Hr130, Hr129, Hr128, Hr127, Hr126, Hr125, Hr124, Hr123, Hr122, Hr121, Hr120, Hr119, Hr118, Hr117, Hr116, Hr115, Hr114, Hr113, Hr112, Hr111, Hr110, Hr109, Hr108, Hr107, Hr106, Hr105, Hr104, Hr103, Hr102, Hr101, Hr100, Hr99, Hr98, Hr97, Hr96, Hr95, Hr94, Hr93, Hr92, Hr91, Hr90, Hr89, Hr88, Hr87, Hr86, Hr85, Hr84, Hr83, Hr82, Hr81, Hr80, Hr79, Hr78, Hr77, Hr76, Hr75, Hr74, Hr73, Hr72, Hr71, Hr70, Hr69, Hr68, Hr67, Hr66, Hr65, Hr64, Hr63, Hr62, Hr61, Hr60, Hr59, Hr58, Hr57, Hr56, Hr55, Hr54, Hr53, Hr52, Hr51, Hr50, Hr49, Hr48, Hr47, Hr46, Hr45, Hr44, Hr43, Hr42, Hr41, Hr40, Hr39, Hr38, Hr37, Hr36, Hr35, Hr34, Hr33, Hr32, Hr31, Hr30, Hr29, Hr28, Hr27, Hr26, Hr25, Hr24, Hr23, Hr22, Hr21, Hr20, Hr19, Hr18, Hr17, Hr16, Hr15, Hr14, Hr13, Hr12, Hr11, Hr10, Hr9, Hr8, Hr7, Hr6, Hr5, Hr4, Hr3, Hr2, Hr1, Hr0, -⟩
  ihave Hs' := (Entails.of_eq hS) $$ Hs
  icases Hs' with ⟨Hd388, Hd387, Hd386, Hd385, Hd384, Hd383, Hd382, Hd381, Hd380, Hd379, Hd378, Hd377, Hd376, Hd375, Hd374, Hd373, Hd372, Hd371, Hd370, Hd369, Hd368, Hd367, Hd366, Hd365, Hd364, Hd363, Hd362, Hd361, Hd360, Hd359, Hd358, Hd357, Hd356, Hd355, Hd354, Hd353, Hd352, Hd351, Hd350, Hd349, Hd348, Hd347, Hd346, Hd345, Hd344, Hd343, Hd342, Hd341, Hd340, Hd339, Hd338, Hd337, Hd336, Hd335, Hd334, Hd333, Hd332, Hd331, Hd330, Hd329, Hd328, Hd327, Hd326, Hd325, Hd324, Hd323, Hd322, Hd321, Hd320, Hd319, Hd318, Hd317, Hd316, Hd315, Hd314, Hd313, Hd312, Hd311, Hd310, Hd309, Hd308, Hd307, Hd306, Hd305, Hd304, Hd303, Hd302, Hd301, Hd300, Hd299, Hd298, Hd297, Hd296, Hd295, Hd294, Hd293, Hd292, Hd291, Hd290, Hd289, Hd288, Hd287, Hd286, Hd285, Hd284, Hd283, Hd282, Hd281, Hd280, Hd279, Hd278, Hd277, Hd276, Hd275, Hd274, Hd273, Hd272, Hd271, Hd270, Hd269, Hd268, Hd267, Hd266, Hd265, Hd264, Hd263, Hd262, Hd261, Hd260, Hd259, Hd258, Hd257, Hd256, Hd255, Hd254, Hd253, Hd252, Hd251, Hd250, Hd249, Hd248, Hd247, Hd246, Hd245, Hd244, Hd243, Hd242, Hd241, Hd240, Hd239, Hd238, Hd237, Hd236, Hd235, Hd234, Hd233, Hd232, Hd231, Hd230, Hd229, Hd228, Hd227, Hd226, Hd225, Hd224, Hd223, Hd222, Hd221, Hd220, Hd219, Hd218, Hd217, Hd216, Hd215, Hd214, Hd213, Hd212, Hd211, Hd210, Hd209, Hd208, Hd207, Hd206, Hd205, Hd204, Hd203, Hd202, Hd201, Hd200, Hd199, Hd198, Hd197, Hd196, Hd195, Hd194, Hd193, Hd192, Hd191, Hd190, Hd189, Hd188, Hd187, Hd186, Hd185, Hd184, Hd183, Hd182, Hd181, Hd180, Hd179, Hd178, Hd177, Hd176, Hd175, Hd174, Hd173, Hd172, Hd171, Hd170, Hd169, Hd168, Hd167, Hd166, Hd165, Hd164, Hd163, Hd162, Hd161, Hd160, Hd159, Hd158, Hd157, Hd156, Hd155, Hd154, Hd153, Hd152, Hd151, Hd150, Hd149, Hd148, Hd147, Hd146, Hd145, Hd144, Hd143, Hd142, Hd141, Hd140, Hd139, Hd138, Hd137, Hd136, Hd135, Hd134, Hd133, -⟩
  sl_exec_parts (disch := exact chk1_of_lt _ (hrd _ _))
  sl_step
  iapply Hk
  isplitl [Ht]; · iexact Ht
  isplitl [Hdrop HE388 HE387 HE386 HE385 HE384 HE383 HE382 HE381 HE380 HE379 HE378 HE377 HE376 HE375 HE374 HE373 HE372 HE371 HE370 HE369 HE368 HE367 HE366 HE365 HE364 HE363 HE362 HE361 HE360 HE359 HE358 HE357 HE356 HE355 HE354 HE353 HE352 HE351 HE350 HE349 HE348 HE347 HE346 HE345 HE344 HE343 HE342 HE341 HE340 HE339 HE338 HE337 HE336 HE335 HE334 HE333 HE332 HE331 HE330 HE329 HE328 HE327 HE326 HE325 HE324 HE323 HE322 HE321 HE320 HE319 HE318 HE317 HE316 HE315 HE314 HE313 HE312 HE311 HE310 HE309 HE308 HE307 HE306 HE305 HE304 HE303 HE302 HE301 HE300 HE299 HE298 HE297 HE296 HE295 HE294 HE293 HE292 HE291 HE290 HE289 HE288 HE287 HE286 HE285 HE284 HE283 HE282 HE281 HE280 HE279 HE278 HE277 HE276 HE275 HE274 HE273 HE272 HE271 HE270 HE269 HE268 HE267 HE266 HE265 HE264 HE263 HE262 HE261 HE260 HE259 HE258 HE257 HE256 HE255 HE254 HE253 HE252 HE251 HE250 HE249 HE248 HE247 HE246 HE245 HE244 HE243 HE242 HE241 HE240 HE239 HE238 HE237 HE236 HE235 HE234 HE233 HE232 HE231 HE230 HE229 HE228 HE227 HE226 HE225 HE224 HE223 HE222 HE221 HE220 HE219 HE218 HE217 HE216 HE215 HE214 HE213 HE212 HE211 HE210 HE209 HE208 HE207 HE206 HE205 HE204 HE203 HE202 HE201 HE200 HE199 HE198 HE197 HE196 HE195 HE194 HE193 HE192 HE191 HE190 HE189 HE188 HE187 HE186 HE185 HE184 HE183 HE182 HE181 HE180 HE179 HE178 HE177 HE176 HE175 HE174 HE173 HE172 HE171 HE170 HE169 HE168 HE167 HE166 HE165 HE164 HE163 HE162 HE161 HE160 HE159 HE158 HE157 HE156 HE155 HE154 HE153 HE152 HE151 HE150 HE149 HE148 HE147 HE146 HE145 HE144 HE143 HE142 HE141 HE140 HE139 HE138 HE137 HE136 HE135 HE134 HE133 Hlow]
  · iapply hE.2
    iframe
  isplitl [Hr255 Hr254 Hr253 Hr252 Hr251 Hr250 Hr249 Hr248 Hr247 Hr246 Hr245 Hr244 Hr243 Hr242 Hr241 Hr240 Hr239 Hr238 Hr237 Hr236 Hr235 Hr234 Hr233 Hr232 Hr231 Hr230 Hr229 Hr228 Hr227 Hr226 Hr225 Hr224 Hr223 Hr222 Hr221 Hr220 Hr219 Hr218 Hr217 Hr216 Hr215 Hr214 Hr213 Hr212 Hr211 Hr210 Hr209 Hr208 Hr207 Hr206 Hr205 Hr204 Hr203 Hr202 Hr201 Hr200 Hr199 Hr198 Hr197 Hr196 Hr195 Hr194 Hr193 Hr192 Hr191 Hr190 Hr189 Hr188 Hr187 Hr186 Hr185 Hr184 Hr183 Hr182 Hr181 Hr180 Hr179 Hr178 Hr177 Hr176 Hr175 Hr174 Hr173 Hr172 Hr171 Hr170 Hr169 Hr168 Hr167 Hr166 Hr165 Hr164 Hr163 Hr162 Hr161 Hr160 Hr159 Hr158 Hr157 Hr156 Hr155 Hr154 Hr153 Hr152 Hr151 Hr150 Hr149 Hr148 Hr147 Hr146 Hr145 Hr144 Hr143 Hr142 Hr141 Hr140 Hr139 Hr138 Hr137 Hr136 Hr135 Hr134 Hr133 Hr132 Hr131 Hr130 Hr129 Hr128 Hr127 Hr126 Hr125 Hr124 Hr123 Hr122 Hr121 Hr120 Hr119 Hr118 Hr117 Hr116 Hr115 Hr114 Hr113 Hr112 Hr111 Hr110 Hr109 Hr108 Hr107 Hr106 Hr105 Hr104 Hr103 Hr102 Hr101 Hr100 Hr99 Hr98 Hr97 Hr96 Hr95 Hr94 Hr93 Hr92 Hr91 Hr90 Hr89 Hr88 Hr87 Hr86 Hr85 Hr84 Hr83 Hr82 Hr81 Hr80 Hr79 Hr78 Hr77 Hr76 Hr75 Hr74 Hr73 Hr72 Hr71 Hr70 Hr69 Hr68 Hr67 Hr66 Hr65 Hr64 Hr63 Hr62 Hr61 Hr60 Hr59 Hr58 Hr57 Hr56 Hr55 Hr54 Hr53 Hr52 Hr51 Hr50 Hr49 Hr48 Hr47 Hr46 Hr45 Hr44 Hr43 Hr42 Hr41 Hr40 Hr39 Hr38 Hr37 Hr36 Hr35 Hr34 Hr33 Hr32 Hr31 Hr30 Hr29 Hr28 Hr27 Hr26 Hr25 Hr24 Hr23 Hr22 Hr21 Hr20 Hr19 Hr18 Hr17 Hr16 Hr15 Hr14 Hr13 Hr12 Hr11 Hr10 Hr9 Hr8 Hr7 Hr6 Hr5 Hr4 Hr3 Hr2 Hr1 Hr0]
  · ihave Hj := (rows_join1 c M3 h3 (rowG1 c i M3 tb fE f3)) $$ [Hr255 Hr254 Hr253 Hr252 Hr251 Hr250 Hr249 Hr248 Hr247 Hr246 Hr245 Hr244 Hr243 Hr242 Hr241 Hr240 Hr239 Hr238 Hr237 Hr236 Hr235 Hr234 Hr233 Hr232 Hr231 Hr230 Hr229 Hr228 Hr227 Hr226 Hr225 Hr224 Hr223 Hr222 Hr221 Hr220 Hr219 Hr218 Hr217 Hr216 Hr215 Hr214 Hr213 Hr212 Hr211 Hr210 Hr209 Hr208 Hr207 Hr206 Hr205 Hr204 Hr203 Hr202 Hr201 Hr200 Hr199 Hr198 Hr197 Hr196 Hr195 Hr194 Hr193 Hr192 Hr191 Hr190 Hr189 Hr188 Hr187 Hr186 Hr185 Hr184 Hr183 Hr182 Hr181 Hr180 Hr179 Hr178 Hr177 Hr176 Hr175 Hr174 Hr173 Hr172 Hr171 Hr170 Hr169 Hr168 Hr167 Hr166 Hr165 Hr164 Hr163 Hr162 Hr161 Hr160 Hr159 Hr158 Hr157 Hr156 Hr155 Hr154 Hr153 Hr152 Hr151 Hr150 Hr149 Hr148 Hr147 Hr146 Hr145 Hr144 Hr143 Hr142 Hr141 Hr140 Hr139 Hr138 Hr137 Hr136 Hr135 Hr134 Hr133 Hr132 Hr131 Hr130 Hr129 Hr128 Hr127 Hr126 Hr125 Hr124 Hr123 Hr122 Hr121 Hr120 Hr119 Hr118 Hr117 Hr116 Hr115 Hr114 Hr113 Hr112 Hr111 Hr110 Hr109 Hr108 Hr107 Hr106 Hr105 Hr104 Hr103 Hr102 Hr101 Hr100 Hr99 Hr98 Hr97 Hr96 Hr95 Hr94 Hr93 Hr92 Hr91 Hr90 Hr89 Hr88 Hr87 Hr86 Hr85 Hr84 Hr83 Hr82 Hr81 Hr80 Hr79 Hr78 Hr77 Hr76 Hr75 Hr74 Hr73 Hr72 Hr71 Hr70 Hr69 Hr68 Hr67 Hr66 Hr65 Hr64 Hr63 Hr62 Hr61 Hr60 Hr59 Hr58 Hr57 Hr56 Hr55 Hr54 Hr53 Hr52 Hr51 Hr50 Hr49 Hr48 Hr47 Hr46 Hr45 Hr44 Hr43 Hr42 Hr41 Hr40 Hr39 Hr38 Hr37 Hr36 Hr35 Hr34 Hr33 Hr32 Hr31 Hr30 Hr29 Hr28 Hr27 Hr26 Hr25 Hr24 Hr23 Hr22 Hr21 Hr20 Hr19 Hr18 Hr17 Hr16 Hr15 Hr14 Hr13 Hr12 Hr11 Hr10 Hr9 Hr8 Hr7 Hr6 Hr5 Hr4 Hr3 Hr2 Hr1 Hr0]
    · simp only [sepDown1]
      isplitl [Hr255]; · iapply (row_land1 255 rfl (Gen.k1_off511_eq i)); iexact Hr255
      isplitl [Hr254]; · iapply (row_land1 254 rfl (Gen.k1_off509_eq i)); iexact Hr254
      isplitl [Hr253]; · iapply (row_land1 253 rfl (Gen.k1_off507_eq i)); iexact Hr253
      isplitl [Hr252]; · iapply (row_land1 252 rfl (Gen.k1_off505_eq i)); iexact Hr252
      isplitl [Hr251]; · iapply (row_land1 251 rfl (Gen.k1_off503_eq i)); iexact Hr251
      isplitl [Hr250]; · iapply (row_land1 250 rfl (Gen.k1_off501_eq i)); iexact Hr250
      isplitl [Hr249]; · iapply (row_land1 249 rfl (Gen.k1_off499_eq i)); iexact Hr249
      isplitl [Hr248]; · iapply (row_land1 248 rfl (Gen.k1_off497_eq i)); iexact Hr248
      isplitl [Hr247]; · iapply (row_land1 247 rfl (Gen.k1_off495_eq i)); iexact Hr247
      isplitl [Hr246]; · iapply (row_land1 246 rfl (Gen.k1_off493_eq i)); iexact Hr246
      isplitl [Hr245]; · iapply (row_land1 245 rfl (Gen.k1_off491_eq i)); iexact Hr245
      isplitl [Hr244]; · iapply (row_land1 244 rfl (Gen.k1_off489_eq i)); iexact Hr244
      isplitl [Hr243]; · iapply (row_land1 243 rfl (Gen.k1_off487_eq i)); iexact Hr243
      isplitl [Hr242]; · iapply (row_land1 242 rfl (Gen.k1_off485_eq i)); iexact Hr242
      isplitl [Hr241]; · iapply (row_land1 241 rfl (Gen.k1_off483_eq i)); iexact Hr241
      isplitl [Hr240]; · iapply (row_land1 240 rfl (Gen.k1_off481_eq i)); iexact Hr240
      isplitl [Hr239]; · iapply (row_land1 239 rfl (Gen.k1_off479_eq i)); iexact Hr239
      isplitl [Hr238]; · iapply (row_land1 238 rfl (Gen.k1_off477_eq i)); iexact Hr238
      isplitl [Hr237]; · iapply (row_land1 237 rfl (Gen.k1_off475_eq i)); iexact Hr237
      isplitl [Hr236]; · iapply (row_land1 236 rfl (Gen.k1_off473_eq i)); iexact Hr236
      isplitl [Hr235]; · iapply (row_land1 235 rfl (Gen.k1_off471_eq i)); iexact Hr235
      isplitl [Hr234]; · iapply (row_land1 234 rfl (Gen.k1_off469_eq i)); iexact Hr234
      isplitl [Hr233]; · iapply (row_land1 233 rfl (Gen.k1_off467_eq i)); iexact Hr233
      isplitl [Hr232]; · iapply (row_land1 232 rfl (Gen.k1_off465_eq i)); iexact Hr232
      isplitl [Hr231]; · iapply (row_land1 231 rfl (Gen.k1_off463_eq i)); iexact Hr231
      isplitl [Hr230]; · iapply (row_land1 230 rfl (Gen.k1_off461_eq i)); iexact Hr230
      isplitl [Hr229]; · iapply (row_land1 229 rfl (Gen.k1_off459_eq i)); iexact Hr229
      isplitl [Hr228]; · iapply (row_land1 228 rfl (Gen.k1_off457_eq i)); iexact Hr228
      isplitl [Hr227]; · iapply (row_land1 227 rfl (Gen.k1_off455_eq i)); iexact Hr227
      isplitl [Hr226]; · iapply (row_land1 226 rfl (Gen.k1_off453_eq i)); iexact Hr226
      isplitl [Hr225]; · iapply (row_land1 225 rfl (Gen.k1_off451_eq i)); iexact Hr225
      isplitl [Hr224]; · iapply (row_land1 224 rfl (Gen.k1_off449_eq i)); iexact Hr224
      isplitl [Hr223]; · iapply (row_land1 223 rfl (Gen.k1_off447_eq i)); iexact Hr223
      isplitl [Hr222]; · iapply (row_land1 222 rfl (Gen.k1_off445_eq i)); iexact Hr222
      isplitl [Hr221]; · iapply (row_land1 221 rfl (Gen.k1_off443_eq i)); iexact Hr221
      isplitl [Hr220]; · iapply (row_land1 220 rfl (Gen.k1_off441_eq i)); iexact Hr220
      isplitl [Hr219]; · iapply (row_land1 219 rfl (Gen.k1_off439_eq i)); iexact Hr219
      isplitl [Hr218]; · iapply (row_land1 218 rfl (Gen.k1_off437_eq i)); iexact Hr218
      isplitl [Hr217]; · iapply (row_land1 217 rfl (Gen.k1_off435_eq i)); iexact Hr217
      isplitl [Hr216]; · iapply (row_land1 216 rfl (Gen.k1_off433_eq i)); iexact Hr216
      isplitl [Hr215]; · iapply (row_land1 215 rfl (Gen.k1_off431_eq i)); iexact Hr215
      isplitl [Hr214]; · iapply (row_land1 214 rfl (Gen.k1_off429_eq i)); iexact Hr214
      isplitl [Hr213]; · iapply (row_land1 213 rfl (Gen.k1_off427_eq i)); iexact Hr213
      isplitl [Hr212]; · iapply (row_land1 212 rfl (Gen.k1_off425_eq i)); iexact Hr212
      isplitl [Hr211]; · iapply (row_land1 211 rfl (Gen.k1_off423_eq i)); iexact Hr211
      isplitl [Hr210]; · iapply (row_land1 210 rfl (Gen.k1_off421_eq i)); iexact Hr210
      isplitl [Hr209]; · iapply (row_land1 209 rfl (Gen.k1_off419_eq i)); iexact Hr209
      isplitl [Hr208]; · iapply (row_land1 208 rfl (Gen.k1_off417_eq i)); iexact Hr208
      isplitl [Hr207]; · iapply (row_land1 207 rfl (Gen.k1_off415_eq i)); iexact Hr207
      isplitl [Hr206]; · iapply (row_land1 206 rfl (Gen.k1_off413_eq i)); iexact Hr206
      isplitl [Hr205]; · iapply (row_land1 205 rfl (Gen.k1_off411_eq i)); iexact Hr205
      isplitl [Hr204]; · iapply (row_land1 204 rfl (Gen.k1_off409_eq i)); iexact Hr204
      isplitl [Hr203]; · iapply (row_land1 203 rfl (Gen.k1_off407_eq i)); iexact Hr203
      isplitl [Hr202]; · iapply (row_land1 202 rfl (Gen.k1_off405_eq i)); iexact Hr202
      isplitl [Hr201]; · iapply (row_land1 201 rfl (Gen.k1_off403_eq i)); iexact Hr201
      isplitl [Hr200]; · iapply (row_land1 200 rfl (Gen.k1_off401_eq i)); iexact Hr200
      isplitl [Hr199]; · iapply (row_land1 199 rfl (Gen.k1_off399_eq i)); iexact Hr199
      isplitl [Hr198]; · iapply (row_land1 198 rfl (Gen.k1_off397_eq i)); iexact Hr198
      isplitl [Hr197]; · iapply (row_land1 197 rfl (Gen.k1_off395_eq i)); iexact Hr197
      isplitl [Hr196]; · iapply (row_land1 196 rfl (Gen.k1_off393_eq i)); iexact Hr196
      isplitl [Hr195]; · iapply (row_land1 195 rfl (Gen.k1_off391_eq i)); iexact Hr195
      isplitl [Hr194]; · iapply (row_land1 194 rfl (Gen.k1_off389_eq i)); iexact Hr194
      isplitl [Hr193]; · iapply (row_land1 193 rfl (Gen.k1_off387_eq i)); iexact Hr193
      isplitl [Hr192]; · iapply (row_land1 192 rfl (Gen.k1_off385_eq i)); iexact Hr192
      isplitl [Hr191]; · iapply (row_land1 191 rfl (Gen.k1_off383_eq i)); iexact Hr191
      isplitl [Hr190]; · iapply (row_land1 190 rfl (Gen.k1_off381_eq i)); iexact Hr190
      isplitl [Hr189]; · iapply (row_land1 189 rfl (Gen.k1_off379_eq i)); iexact Hr189
      isplitl [Hr188]; · iapply (row_land1 188 rfl (Gen.k1_off377_eq i)); iexact Hr188
      isplitl [Hr187]; · iapply (row_land1 187 rfl (Gen.k1_off375_eq i)); iexact Hr187
      isplitl [Hr186]; · iapply (row_land1 186 rfl (Gen.k1_off373_eq i)); iexact Hr186
      isplitl [Hr185]; · iapply (row_land1 185 rfl (Gen.k1_off371_eq i)); iexact Hr185
      isplitl [Hr184]; · iapply (row_land1 184 rfl (Gen.k1_off369_eq i)); iexact Hr184
      isplitl [Hr183]; · iapply (row_land1 183 rfl (Gen.k1_off367_eq i)); iexact Hr183
      isplitl [Hr182]; · iapply (row_land1 182 rfl (Gen.k1_off365_eq i)); iexact Hr182
      isplitl [Hr181]; · iapply (row_land1 181 rfl (Gen.k1_off363_eq i)); iexact Hr181
      isplitl [Hr180]; · iapply (row_land1 180 rfl (Gen.k1_off361_eq i)); iexact Hr180
      isplitl [Hr179]; · iapply (row_land1 179 rfl (Gen.k1_off359_eq i)); iexact Hr179
      isplitl [Hr178]; · iapply (row_land1 178 rfl (Gen.k1_off357_eq i)); iexact Hr178
      isplitl [Hr177]; · iapply (row_land1 177 rfl (Gen.k1_off355_eq i)); iexact Hr177
      isplitl [Hr176]; · iapply (row_land1 176 rfl (Gen.k1_off353_eq i)); iexact Hr176
      isplitl [Hr175]; · iapply (row_land1 175 rfl (Gen.k1_off351_eq i)); iexact Hr175
      isplitl [Hr174]; · iapply (row_land1 174 rfl (Gen.k1_off349_eq i)); iexact Hr174
      isplitl [Hr173]; · iapply (row_land1 173 rfl (Gen.k1_off347_eq i)); iexact Hr173
      isplitl [Hr172]; · iapply (row_land1 172 rfl (Gen.k1_off345_eq i)); iexact Hr172
      isplitl [Hr171]; · iapply (row_land1 171 rfl (Gen.k1_off343_eq i)); iexact Hr171
      isplitl [Hr170]; · iapply (row_land1 170 rfl (Gen.k1_off341_eq i)); iexact Hr170
      isplitl [Hr169]; · iapply (row_land1 169 rfl (Gen.k1_off339_eq i)); iexact Hr169
      isplitl [Hr168]; · iapply (row_land1 168 rfl (Gen.k1_off337_eq i)); iexact Hr168
      isplitl [Hr167]; · iapply (row_land1 167 rfl (Gen.k1_off335_eq i)); iexact Hr167
      isplitl [Hr166]; · iapply (row_land1 166 rfl (Gen.k1_off333_eq i)); iexact Hr166
      isplitl [Hr165]; · iapply (row_land1 165 rfl (Gen.k1_off331_eq i)); iexact Hr165
      isplitl [Hr164]; · iapply (row_land1 164 rfl (Gen.k1_off329_eq i)); iexact Hr164
      isplitl [Hr163]; · iapply (row_land1 163 rfl (Gen.k1_off327_eq i)); iexact Hr163
      isplitl [Hr162]; · iapply (row_land1 162 rfl (Gen.k1_off325_eq i)); iexact Hr162
      isplitl [Hr161]; · iapply (row_land1 161 rfl (Gen.k1_off323_eq i)); iexact Hr161
      isplitl [Hr160]; · iapply (row_land1 160 rfl (Gen.k1_off321_eq i)); iexact Hr160
      isplitl [Hr159]; · iapply (row_land1 159 rfl (Gen.k1_off319_eq i)); iexact Hr159
      isplitl [Hr158]; · iapply (row_land1 158 rfl (Gen.k1_off317_eq i)); iexact Hr158
      isplitl [Hr157]; · iapply (row_land1 157 rfl (Gen.k1_off315_eq i)); iexact Hr157
      isplitl [Hr156]; · iapply (row_land1 156 rfl (Gen.k1_off313_eq i)); iexact Hr156
      isplitl [Hr155]; · iapply (row_land1 155 rfl (Gen.k1_off311_eq i)); iexact Hr155
      isplitl [Hr154]; · iapply (row_land1 154 rfl (Gen.k1_off309_eq i)); iexact Hr154
      isplitl [Hr153]; · iapply (row_land1 153 rfl (Gen.k1_off307_eq i)); iexact Hr153
      isplitl [Hr152]; · iapply (row_land1 152 rfl (Gen.k1_off305_eq i)); iexact Hr152
      isplitl [Hr151]; · iapply (row_land1 151 rfl (Gen.k1_off303_eq i)); iexact Hr151
      isplitl [Hr150]; · iapply (row_land1 150 rfl (Gen.k1_off301_eq i)); iexact Hr150
      isplitl [Hr149]; · iapply (row_land1 149 rfl (Gen.k1_off299_eq i)); iexact Hr149
      isplitl [Hr148]; · iapply (row_land1 148 rfl (Gen.k1_off297_eq i)); iexact Hr148
      isplitl [Hr147]; · iapply (row_land1 147 rfl (Gen.k1_off295_eq i)); iexact Hr147
      isplitl [Hr146]; · iapply (row_land1 146 rfl (Gen.k1_off293_eq i)); iexact Hr146
      isplitl [Hr145]; · iapply (row_land1 145 rfl (Gen.k1_off291_eq i)); iexact Hr145
      isplitl [Hr144]; · iapply (row_land1 144 rfl (Gen.k1_off289_eq i)); iexact Hr144
      isplitl [Hr143]; · iapply (row_land1 143 rfl (Gen.k1_off287_eq i)); iexact Hr143
      isplitl [Hr142]; · iapply (row_land1 142 rfl (Gen.k1_off285_eq i)); iexact Hr142
      isplitl [Hr141]; · iapply (row_land1 141 rfl (Gen.k1_off283_eq i)); iexact Hr141
      isplitl [Hr140]; · iapply (row_land1 140 rfl (Gen.k1_off281_eq i)); iexact Hr140
      isplitl [Hr139]; · iapply (row_land1 139 rfl (Gen.k1_off279_eq i)); iexact Hr139
      isplitl [Hr138]; · iapply (row_land1 138 rfl (Gen.k1_off277_eq i)); iexact Hr138
      isplitl [Hr137]; · iapply (row_land1 137 rfl (Gen.k1_off275_eq i)); iexact Hr137
      isplitl [Hr136]; · iapply (row_land1 136 rfl (Gen.k1_off273_eq i)); iexact Hr136
      isplitl [Hr135]; · iapply (row_land1 135 rfl (Gen.k1_off271_eq i)); iexact Hr135
      isplitl [Hr134]; · iapply (row_land1 134 rfl (Gen.k1_off269_eq i)); iexact Hr134
      isplitl [Hr133]; · iapply (row_land1 133 rfl (Gen.k1_off267_eq i)); iexact Hr133
      isplitl [Hr132]; · iapply (row_land1 132 rfl (Gen.k1_off265_eq i)); iexact Hr132
      isplitl [Hr131]; · iapply (row_land1 131 rfl (Gen.k1_off263_eq i)); iexact Hr131
      isplitl [Hr130]; · iapply (row_land1 130 rfl (Gen.k1_off261_eq i)); iexact Hr130
      isplitl [Hr129]; · iapply (row_land1 129 rfl (Gen.k1_off259_eq i)); iexact Hr129
      isplitl [Hr128]; · iapply (row_land1 128 rfl (Gen.k1_off257_eq i)); iexact Hr128
      isplitl [Hr127]; · iapply (row_land1 127 rfl (Gen.k1_off255_eq i)); iexact Hr127
      isplitl [Hr126]; · iapply (row_land1 126 rfl (Gen.k1_off253_eq i)); iexact Hr126
      isplitl [Hr125]; · iapply (row_land1 125 rfl (Gen.k1_off251_eq i)); iexact Hr125
      isplitl [Hr124]; · iapply (row_land1 124 rfl (Gen.k1_off249_eq i)); iexact Hr124
      isplitl [Hr123]; · iapply (row_land1 123 rfl (Gen.k1_off247_eq i)); iexact Hr123
      isplitl [Hr122]; · iapply (row_land1 122 rfl (Gen.k1_off245_eq i)); iexact Hr122
      isplitl [Hr121]; · iapply (row_land1 121 rfl (Gen.k1_off243_eq i)); iexact Hr121
      isplitl [Hr120]; · iapply (row_land1 120 rfl (Gen.k1_off241_eq i)); iexact Hr120
      isplitl [Hr119]; · iapply (row_land1 119 rfl (Gen.k1_off239_eq i)); iexact Hr119
      isplitl [Hr118]; · iapply (row_land1 118 rfl (Gen.k1_off237_eq i)); iexact Hr118
      isplitl [Hr117]; · iapply (row_land1 117 rfl (Gen.k1_off235_eq i)); iexact Hr117
      isplitl [Hr116]; · iapply (row_land1 116 rfl (Gen.k1_off233_eq i)); iexact Hr116
      isplitl [Hr115]; · iapply (row_land1 115 rfl (Gen.k1_off231_eq i)); iexact Hr115
      isplitl [Hr114]; · iapply (row_land1 114 rfl (Gen.k1_off229_eq i)); iexact Hr114
      isplitl [Hr113]; · iapply (row_land1 113 rfl (Gen.k1_off227_eq i)); iexact Hr113
      isplitl [Hr112]; · iapply (row_land1 112 rfl (Gen.k1_off225_eq i)); iexact Hr112
      isplitl [Hr111]; · iapply (row_land1 111 rfl (Gen.k1_off223_eq i)); iexact Hr111
      isplitl [Hr110]; · iapply (row_land1 110 rfl (Gen.k1_off221_eq i)); iexact Hr110
      isplitl [Hr109]; · iapply (row_land1 109 rfl (Gen.k1_off219_eq i)); iexact Hr109
      isplitl [Hr108]; · iapply (row_land1 108 rfl (Gen.k1_off217_eq i)); iexact Hr108
      isplitl [Hr107]; · iapply (row_land1 107 rfl (Gen.k1_off215_eq i)); iexact Hr107
      isplitl [Hr106]; · iapply (row_land1 106 rfl (Gen.k1_off213_eq i)); iexact Hr106
      isplitl [Hr105]; · iapply (row_land1 105 rfl (Gen.k1_off211_eq i)); iexact Hr105
      isplitl [Hr104]; · iapply (row_land1 104 rfl (Gen.k1_off209_eq i)); iexact Hr104
      isplitl [Hr103]; · iapply (row_land1 103 rfl (Gen.k1_off207_eq i)); iexact Hr103
      isplitl [Hr102]; · iapply (row_land1 102 rfl (Gen.k1_off205_eq i)); iexact Hr102
      isplitl [Hr101]; · iapply (row_land1 101 rfl (Gen.k1_off203_eq i)); iexact Hr101
      isplitl [Hr100]; · iapply (row_land1 100 rfl (Gen.k1_off201_eq i)); iexact Hr100
      isplitl [Hr99]; · iapply (row_land1 99 rfl (Gen.k1_off199_eq i)); iexact Hr99
      isplitl [Hr98]; · iapply (row_land1 98 rfl (Gen.k1_off197_eq i)); iexact Hr98
      isplitl [Hr97]; · iapply (row_land1 97 rfl (Gen.k1_off195_eq i)); iexact Hr97
      isplitl [Hr96]; · iapply (row_land1 96 rfl (Gen.k1_off193_eq i)); iexact Hr96
      isplitl [Hr95]; · iapply (row_land1 95 rfl (Gen.k1_off191_eq i)); iexact Hr95
      isplitl [Hr94]; · iapply (row_land1 94 rfl (Gen.k1_off189_eq i)); iexact Hr94
      isplitl [Hr93]; · iapply (row_land1 93 rfl (Gen.k1_off187_eq i)); iexact Hr93
      isplitl [Hr92]; · iapply (row_land1 92 rfl (Gen.k1_off185_eq i)); iexact Hr92
      isplitl [Hr91]; · iapply (row_land1 91 rfl (Gen.k1_off183_eq i)); iexact Hr91
      isplitl [Hr90]; · iapply (row_land1 90 rfl (Gen.k1_off181_eq i)); iexact Hr90
      isplitl [Hr89]; · iapply (row_land1 89 rfl (Gen.k1_off179_eq i)); iexact Hr89
      isplitl [Hr88]; · iapply (row_land1 88 rfl (Gen.k1_off177_eq i)); iexact Hr88
      isplitl [Hr87]; · iapply (row_land1 87 rfl (Gen.k1_off175_eq i)); iexact Hr87
      isplitl [Hr86]; · iapply (row_land1 86 rfl (Gen.k1_off173_eq i)); iexact Hr86
      isplitl [Hr85]; · iapply (row_land1 85 rfl (Gen.k1_off171_eq i)); iexact Hr85
      isplitl [Hr84]; · iapply (row_land1 84 rfl (Gen.k1_off169_eq i)); iexact Hr84
      isplitl [Hr83]; · iapply (row_land1 83 rfl (Gen.k1_off167_eq i)); iexact Hr83
      isplitl [Hr82]; · iapply (row_land1 82 rfl (Gen.k1_off165_eq i)); iexact Hr82
      isplitl [Hr81]; · iapply (row_land1 81 rfl (Gen.k1_off163_eq i)); iexact Hr81
      isplitl [Hr80]; · iapply (row_land1 80 rfl (Gen.k1_off161_eq i)); iexact Hr80
      isplitl [Hr79]; · iapply (row_land1 79 rfl (Gen.k1_off159_eq i)); iexact Hr79
      isplitl [Hr78]; · iapply (row_land1 78 rfl (Gen.k1_off157_eq i)); iexact Hr78
      isplitl [Hr77]; · iapply (row_land1 77 rfl (Gen.k1_off155_eq i)); iexact Hr77
      isplitl [Hr76]; · iapply (row_land1 76 rfl (Gen.k1_off153_eq i)); iexact Hr76
      isplitl [Hr75]; · iapply (row_land1 75 rfl (Gen.k1_off151_eq i)); iexact Hr75
      isplitl [Hr74]; · iapply (row_land1 74 rfl (Gen.k1_off149_eq i)); iexact Hr74
      isplitl [Hr73]; · iapply (row_land1 73 rfl (Gen.k1_off147_eq i)); iexact Hr73
      isplitl [Hr72]; · iapply (row_land1 72 rfl (Gen.k1_off145_eq i)); iexact Hr72
      isplitl [Hr71]; · iapply (row_land1 71 rfl (Gen.k1_off143_eq i)); iexact Hr71
      isplitl [Hr70]; · iapply (row_land1 70 rfl (Gen.k1_off141_eq i)); iexact Hr70
      isplitl [Hr69]; · iapply (row_land1 69 rfl (Gen.k1_off139_eq i)); iexact Hr69
      isplitl [Hr68]; · iapply (row_land1 68 rfl (Gen.k1_off137_eq i)); iexact Hr68
      isplitl [Hr67]; · iapply (row_land1 67 rfl (Gen.k1_off135_eq i)); iexact Hr67
      isplitl [Hr66]; · iapply (row_land1 66 rfl (Gen.k1_off133_eq i)); iexact Hr66
      isplitl [Hr65]; · iapply (row_land1 65 rfl (Gen.k1_off131_eq i)); iexact Hr65
      isplitl [Hr64]; · iapply (row_land1 64 rfl (Gen.k1_off129_eq i)); iexact Hr64
      isplitl [Hr63]; · iapply (row_land1 63 rfl (Gen.k1_off127_eq i)); iexact Hr63
      isplitl [Hr62]; · iapply (row_land1 62 rfl (Gen.k1_off125_eq i)); iexact Hr62
      isplitl [Hr61]; · iapply (row_land1 61 rfl (Gen.k1_off123_eq i)); iexact Hr61
      isplitl [Hr60]; · iapply (row_land1 60 rfl (Gen.k1_off121_eq i)); iexact Hr60
      isplitl [Hr59]; · iapply (row_land1 59 rfl (Gen.k1_off119_eq i)); iexact Hr59
      isplitl [Hr58]; · iapply (row_land1 58 rfl (Gen.k1_off117_eq i)); iexact Hr58
      isplitl [Hr57]; · iapply (row_land1 57 rfl (Gen.k1_off115_eq i)); iexact Hr57
      isplitl [Hr56]; · iapply (row_land1 56 rfl (Gen.k1_off113_eq i)); iexact Hr56
      isplitl [Hr55]; · iapply (row_land1 55 rfl (Gen.k1_off111_eq i)); iexact Hr55
      isplitl [Hr54]; · iapply (row_land1 54 rfl (Gen.k1_off109_eq i)); iexact Hr54
      isplitl [Hr53]; · iapply (row_land1 53 rfl (Gen.k1_off107_eq i)); iexact Hr53
      isplitl [Hr52]; · iapply (row_land1 52 rfl (Gen.k1_off105_eq i)); iexact Hr52
      isplitl [Hr51]; · iapply (row_land1 51 rfl (Gen.k1_off103_eq i)); iexact Hr51
      isplitl [Hr50]; · iapply (row_land1 50 rfl (Gen.k1_off101_eq i)); iexact Hr50
      isplitl [Hr49]; · iapply (row_land1 49 rfl (Gen.k1_off99_eq i)); iexact Hr49
      isplitl [Hr48]; · iapply (row_land1 48 rfl (Gen.k1_off97_eq i)); iexact Hr48
      isplitl [Hr47]; · iapply (row_land1 47 rfl (Gen.k1_off95_eq i)); iexact Hr47
      isplitl [Hr46]; · iapply (row_land1 46 rfl (Gen.k1_off93_eq i)); iexact Hr46
      isplitl [Hr45]; · iapply (row_land1 45 rfl (Gen.k1_off91_eq i)); iexact Hr45
      isplitl [Hr44]; · iapply (row_land1 44 rfl (Gen.k1_off89_eq i)); iexact Hr44
      isplitl [Hr43]; · iapply (row_land1 43 rfl (Gen.k1_off87_eq i)); iexact Hr43
      isplitl [Hr42]; · iapply (row_land1 42 rfl (Gen.k1_off85_eq i)); iexact Hr42
      isplitl [Hr41]; · iapply (row_land1 41 rfl (Gen.k1_off83_eq i)); iexact Hr41
      isplitl [Hr40]; · iapply (row_land1 40 rfl (Gen.k1_off81_eq i)); iexact Hr40
      isplitl [Hr39]; · iapply (row_land1 39 rfl (Gen.k1_off79_eq i)); iexact Hr39
      isplitl [Hr38]; · iapply (row_land1 38 rfl (Gen.k1_off77_eq i)); iexact Hr38
      isplitl [Hr37]; · iapply (row_land1 37 rfl (Gen.k1_off75_eq i)); iexact Hr37
      isplitl [Hr36]; · iapply (row_land1 36 rfl (Gen.k1_off73_eq i)); iexact Hr36
      isplitl [Hr35]; · iapply (row_land1 35 rfl (Gen.k1_off71_eq i)); iexact Hr35
      isplitl [Hr34]; · iapply (row_land1 34 rfl (Gen.k1_off69_eq i)); iexact Hr34
      isplitl [Hr33]; · iapply (row_land1 33 rfl (Gen.k1_off67_eq i)); iexact Hr33
      isplitl [Hr32]; · iapply (row_land1 32 rfl (Gen.k1_off65_eq i)); iexact Hr32
      isplitl [Hr31]; · iapply (row_land1 31 rfl (Gen.k1_off63_eq i)); iexact Hr31
      isplitl [Hr30]; · iapply (row_land1 30 rfl (Gen.k1_off61_eq i)); iexact Hr30
      isplitl [Hr29]; · iapply (row_land1 29 rfl (Gen.k1_off59_eq i)); iexact Hr29
      isplitl [Hr28]; · iapply (row_land1 28 rfl (Gen.k1_off57_eq i)); iexact Hr28
      isplitl [Hr27]; · iapply (row_land1 27 rfl (Gen.k1_off55_eq i)); iexact Hr27
      isplitl [Hr26]; · iapply (row_land1 26 rfl (Gen.k1_off53_eq i)); iexact Hr26
      isplitl [Hr25]; · iapply (row_land1 25 rfl (Gen.k1_off51_eq i)); iexact Hr25
      isplitl [Hr24]; · iapply (row_land1 24 rfl (Gen.k1_off49_eq i)); iexact Hr24
      isplitl [Hr23]; · iapply (row_land1 23 rfl (Gen.k1_off47_eq i)); iexact Hr23
      isplitl [Hr22]; · iapply (row_land1 22 rfl (Gen.k1_off45_eq i)); iexact Hr22
      isplitl [Hr21]; · iapply (row_land1 21 rfl (Gen.k1_off43_eq i)); iexact Hr21
      isplitl [Hr20]; · iapply (row_land1 20 rfl (Gen.k1_off41_eq i)); iexact Hr20
      isplitl [Hr19]; · iapply (row_land1 19 rfl (Gen.k1_off39_eq i)); iexact Hr19
      isplitl [Hr18]; · iapply (row_land1 18 rfl (Gen.k1_off37_eq i)); iexact Hr18
      isplitl [Hr17]; · iapply (row_land1 17 rfl (Gen.k1_off35_eq i)); iexact Hr17
      isplitl [Hr16]; · iapply (row_land1 16 rfl (Gen.k1_off33_eq i)); iexact Hr16
      isplitl [Hr15]; · iapply (row_land1 15 rfl (Gen.k1_off31_eq i)); iexact Hr15
      isplitl [Hr14]; · iapply (row_land1 14 rfl (Gen.k1_off29_eq i)); iexact Hr14
      isplitl [Hr13]; · iapply (row_land1 13 rfl (Gen.k1_off27_eq i)); iexact Hr13
      isplitl [Hr12]; · iapply (row_land1 12 rfl (Gen.k1_off25_eq i)); iexact Hr12
      isplitl [Hr11]; · iapply (row_land1 11 rfl (Gen.k1_off23_eq i)); iexact Hr11
      isplitl [Hr10]; · iapply (row_land1 10 rfl (Gen.k1_off21_eq i)); iexact Hr10
      isplitl [Hr9]; · iapply (row_land1 9 rfl (Gen.k1_off19_eq i)); iexact Hr9
      isplitl [Hr8]; · iapply (row_land1 8 rfl (Gen.k1_off17_eq i)); iexact Hr8
      isplitl [Hr7]; · iapply (row_land1 7 rfl (Gen.k1_off15_eq i)); iexact Hr7
      isplitl [Hr6]; · iapply (row_land1 6 rfl (Gen.k1_off13_eq i)); iexact Hr6
      isplitl [Hr5]; · iapply (row_land1 5 rfl (Gen.k1_off11_eq i)); iexact Hr5
      isplitl [Hr4]; · iapply (row_land1 4 rfl (Gen.k1_off9_eq i)); iexact Hr4
      isplitl [Hr3]; · iapply (row_land1 3 rfl (Gen.k1_off7_eq i)); iexact Hr3
      isplitl [Hr2]; · iapply (row_land1 2 rfl (Gen.k1_off5_eq i)); iexact Hr2
      isplitl [Hr1]; · iapply (row_land1 1 rfl (Gen.k1_off3_eq i)); iexact Hr1
      isplitl [Hr0]; · iapply (row_land1 0 rfl (Gen.k1_off1_eq i)); iexact Hr0
      iempintro
    icases Hj with ⟨%f, %hf, Hf⟩
    iexists f
    isplitr
    · ipureintro; exact rows_value1 c i M3 tb fE f3 f hf
    iexact Hf
  isplitl [Hd388 Hd387 Hd386 Hd385 Hd384 Hd383 Hd382 Hd381 Hd380 Hd379 Hd378 Hd377 Hd376 Hd375 Hd374 Hd373 Hd372 Hd371 Hd370 Hd369 Hd368 Hd367 Hd366 Hd365 Hd364 Hd363 Hd362 Hd361 Hd360 Hd359 Hd358 Hd357 Hd356 Hd355 Hd354 Hd353 Hd352 Hd351 Hd350 Hd349 Hd348 Hd347 Hd346 Hd345 Hd344 Hd343 Hd342 Hd341 Hd340 Hd339 Hd338 Hd337 Hd336 Hd335 Hd334 Hd333 Hd332 Hd331 Hd330 Hd329 Hd328 Hd327 Hd326 Hd325 Hd324 Hd323 Hd322 Hd321 Hd320 Hd319 Hd318 Hd317 Hd316 Hd315 Hd314 Hd313 Hd312 Hd311 Hd310 Hd309 Hd308 Hd307 Hd306 Hd305 Hd304 Hd303 Hd302 Hd301 Hd300 Hd299 Hd298 Hd297 Hd296 Hd295 Hd294 Hd293 Hd292 Hd291 Hd290 Hd289 Hd288 Hd287 Hd286 Hd285 Hd284 Hd283 Hd282 Hd281 Hd280 Hd279 Hd278 Hd277 Hd276 Hd275 Hd274 Hd273 Hd272 Hd271 Hd270 Hd269 Hd268 Hd267 Hd266 Hd265 Hd264 Hd263 Hd262 Hd261 Hd260 Hd259 Hd258 Hd257 Hd256 Hd255 Hd254 Hd253 Hd252 Hd251 Hd250 Hd249 Hd248 Hd247 Hd246 Hd245 Hd244 Hd243 Hd242 Hd241 Hd240 Hd239 Hd238 Hd237 Hd236 Hd235 Hd234 Hd233 Hd232 Hd231 Hd230 Hd229 Hd228 Hd227 Hd226 Hd225 Hd224 Hd223 Hd222 Hd221 Hd220 Hd219 Hd218 Hd217 Hd216 Hd215 Hd214 Hd213 Hd212 Hd211 Hd210 Hd209 Hd208 Hd207 Hd206 Hd205 Hd204 Hd203 Hd202 Hd201 Hd200 Hd199 Hd198 Hd197 Hd196 Hd195 Hd194 Hd193 Hd192 Hd191 Hd190 Hd189 Hd188 Hd187 Hd186 Hd185 Hd184 Hd183 Hd182 Hd181 Hd180 Hd179 Hd178 Hd177 Hd176 Hd175 Hd174 Hd173 Hd172 Hd171 Hd170 Hd169 Hd168 Hd167 Hd166 Hd165 Hd164 Hd163 Hd162 Hd161 Hd160 Hd159 Hd158 Hd157 Hd156 Hd155 Hd154 Hd153 Hd152 Hd151 Hd150 Hd149 Hd148 Hd147 Hd146 Hd145 Hd144 Hd143 Hd142 Hd141 Hd140 Hd139 Hd138 Hd137 Hd136 Hd135 Hd134 Hd133]
  · iapply (Entails.of_eq hS.symm)
    isplitl [Hd388]; · iexact Hd388
    isplitl [Hd387]; · iexact Hd387
    isplitl [Hd386]; · iexact Hd386
    isplitl [Hd385]; · iexact Hd385
    isplitl [Hd384]; · iexact Hd384
    isplitl [Hd383]; · iexact Hd383
    isplitl [Hd382]; · iexact Hd382
    isplitl [Hd381]; · iexact Hd381
    isplitl [Hd380]; · iexact Hd380
    isplitl [Hd379]; · iexact Hd379
    isplitl [Hd378]; · iexact Hd378
    isplitl [Hd377]; · iexact Hd377
    isplitl [Hd376]; · iexact Hd376
    isplitl [Hd375]; · iexact Hd375
    isplitl [Hd374]; · iexact Hd374
    isplitl [Hd373]; · iexact Hd373
    isplitl [Hd372]; · iexact Hd372
    isplitl [Hd371]; · iexact Hd371
    isplitl [Hd370]; · iexact Hd370
    isplitl [Hd369]; · iexact Hd369
    isplitl [Hd368]; · iexact Hd368
    isplitl [Hd367]; · iexact Hd367
    isplitl [Hd366]; · iexact Hd366
    isplitl [Hd365]; · iexact Hd365
    isplitl [Hd364]; · iexact Hd364
    isplitl [Hd363]; · iexact Hd363
    isplitl [Hd362]; · iexact Hd362
    isplitl [Hd361]; · iexact Hd361
    isplitl [Hd360]; · iexact Hd360
    isplitl [Hd359]; · iexact Hd359
    isplitl [Hd358]; · iexact Hd358
    isplitl [Hd357]; · iexact Hd357
    isplitl [Hd356]; · iexact Hd356
    isplitl [Hd355]; · iexact Hd355
    isplitl [Hd354]; · iexact Hd354
    isplitl [Hd353]; · iexact Hd353
    isplitl [Hd352]; · iexact Hd352
    isplitl [Hd351]; · iexact Hd351
    isplitl [Hd350]; · iexact Hd350
    isplitl [Hd349]; · iexact Hd349
    isplitl [Hd348]; · iexact Hd348
    isplitl [Hd347]; · iexact Hd347
    isplitl [Hd346]; · iexact Hd346
    isplitl [Hd345]; · iexact Hd345
    isplitl [Hd344]; · iexact Hd344
    isplitl [Hd343]; · iexact Hd343
    isplitl [Hd342]; · iexact Hd342
    isplitl [Hd341]; · iexact Hd341
    isplitl [Hd340]; · iexact Hd340
    isplitl [Hd339]; · iexact Hd339
    isplitl [Hd338]; · iexact Hd338
    isplitl [Hd337]; · iexact Hd337
    isplitl [Hd336]; · iexact Hd336
    isplitl [Hd335]; · iexact Hd335
    isplitl [Hd334]; · iexact Hd334
    isplitl [Hd333]; · iexact Hd333
    isplitl [Hd332]; · iexact Hd332
    isplitl [Hd331]; · iexact Hd331
    isplitl [Hd330]; · iexact Hd330
    isplitl [Hd329]; · iexact Hd329
    isplitl [Hd328]; · iexact Hd328
    isplitl [Hd327]; · iexact Hd327
    isplitl [Hd326]; · iexact Hd326
    isplitl [Hd325]; · iexact Hd325
    isplitl [Hd324]; · iexact Hd324
    isplitl [Hd323]; · iexact Hd323
    isplitl [Hd322]; · iexact Hd322
    isplitl [Hd321]; · iexact Hd321
    isplitl [Hd320]; · iexact Hd320
    isplitl [Hd319]; · iexact Hd319
    isplitl [Hd318]; · iexact Hd318
    isplitl [Hd317]; · iexact Hd317
    isplitl [Hd316]; · iexact Hd316
    isplitl [Hd315]; · iexact Hd315
    isplitl [Hd314]; · iexact Hd314
    isplitl [Hd313]; · iexact Hd313
    isplitl [Hd312]; · iexact Hd312
    isplitl [Hd311]; · iexact Hd311
    isplitl [Hd310]; · iexact Hd310
    isplitl [Hd309]; · iexact Hd309
    isplitl [Hd308]; · iexact Hd308
    isplitl [Hd307]; · iexact Hd307
    isplitl [Hd306]; · iexact Hd306
    isplitl [Hd305]; · iexact Hd305
    isplitl [Hd304]; · iexact Hd304
    isplitl [Hd303]; · iexact Hd303
    isplitl [Hd302]; · iexact Hd302
    isplitl [Hd301]; · iexact Hd301
    isplitl [Hd300]; · iexact Hd300
    isplitl [Hd299]; · iexact Hd299
    isplitl [Hd298]; · iexact Hd298
    isplitl [Hd297]; · iexact Hd297
    isplitl [Hd296]; · iexact Hd296
    isplitl [Hd295]; · iexact Hd295
    isplitl [Hd294]; · iexact Hd294
    isplitl [Hd293]; · iexact Hd293
    isplitl [Hd292]; · iexact Hd292
    isplitl [Hd291]; · iexact Hd291
    isplitl [Hd290]; · iexact Hd290
    isplitl [Hd289]; · iexact Hd289
    isplitl [Hd288]; · iexact Hd288
    isplitl [Hd287]; · iexact Hd287
    isplitl [Hd286]; · iexact Hd286
    isplitl [Hd285]; · iexact Hd285
    isplitl [Hd284]; · iexact Hd284
    isplitl [Hd283]; · iexact Hd283
    isplitl [Hd282]; · iexact Hd282
    isplitl [Hd281]; · iexact Hd281
    isplitl [Hd280]; · iexact Hd280
    isplitl [Hd279]; · iexact Hd279
    isplitl [Hd278]; · iexact Hd278
    isplitl [Hd277]; · iexact Hd277
    isplitl [Hd276]; · iexact Hd276
    isplitl [Hd275]; · iexact Hd275
    isplitl [Hd274]; · iexact Hd274
    isplitl [Hd273]; · iexact Hd273
    isplitl [Hd272]; · iexact Hd272
    isplitl [Hd271]; · iexact Hd271
    isplitl [Hd270]; · iexact Hd270
    isplitl [Hd269]; · iexact Hd269
    isplitl [Hd268]; · iexact Hd268
    isplitl [Hd267]; · iexact Hd267
    isplitl [Hd266]; · iexact Hd266
    isplitl [Hd265]; · iexact Hd265
    isplitl [Hd264]; · iexact Hd264
    isplitl [Hd263]; · iexact Hd263
    isplitl [Hd262]; · iexact Hd262
    isplitl [Hd261]; · iexact Hd261
    isplitl [Hd260]; · iexact Hd260
    isplitl [Hd259]; · iexact Hd259
    isplitl [Hd258]; · iexact Hd258
    isplitl [Hd257]; · iexact Hd257
    isplitl [Hd256]; · iexact Hd256
    isplitl [Hd255]; · iexact Hd255
    isplitl [Hd254]; · iexact Hd254
    isplitl [Hd253]; · iexact Hd253
    isplitl [Hd252]; · iexact Hd252
    isplitl [Hd251]; · iexact Hd251
    isplitl [Hd250]; · iexact Hd250
    isplitl [Hd249]; · iexact Hd249
    isplitl [Hd248]; · iexact Hd248
    isplitl [Hd247]; · iexact Hd247
    isplitl [Hd246]; · iexact Hd246
    isplitl [Hd245]; · iexact Hd245
    isplitl [Hd244]; · iexact Hd244
    isplitl [Hd243]; · iexact Hd243
    isplitl [Hd242]; · iexact Hd242
    isplitl [Hd241]; · iexact Hd241
    isplitl [Hd240]; · iexact Hd240
    isplitl [Hd239]; · iexact Hd239
    isplitl [Hd238]; · iexact Hd238
    isplitl [Hd237]; · iexact Hd237
    isplitl [Hd236]; · iexact Hd236
    isplitl [Hd235]; · iexact Hd235
    isplitl [Hd234]; · iexact Hd234
    isplitl [Hd233]; · iexact Hd233
    isplitl [Hd232]; · iexact Hd232
    isplitl [Hd231]; · iexact Hd231
    isplitl [Hd230]; · iexact Hd230
    isplitl [Hd229]; · iexact Hd229
    isplitl [Hd228]; · iexact Hd228
    isplitl [Hd227]; · iexact Hd227
    isplitl [Hd226]; · iexact Hd226
    isplitl [Hd225]; · iexact Hd225
    isplitl [Hd224]; · iexact Hd224
    isplitl [Hd223]; · iexact Hd223
    isplitl [Hd222]; · iexact Hd222
    isplitl [Hd221]; · iexact Hd221
    isplitl [Hd220]; · iexact Hd220
    isplitl [Hd219]; · iexact Hd219
    isplitl [Hd218]; · iexact Hd218
    isplitl [Hd217]; · iexact Hd217
    isplitl [Hd216]; · iexact Hd216
    isplitl [Hd215]; · iexact Hd215
    isplitl [Hd214]; · iexact Hd214
    isplitl [Hd213]; · iexact Hd213
    isplitl [Hd212]; · iexact Hd212
    isplitl [Hd211]; · iexact Hd211
    isplitl [Hd210]; · iexact Hd210
    isplitl [Hd209]; · iexact Hd209
    isplitl [Hd208]; · iexact Hd208
    isplitl [Hd207]; · iexact Hd207
    isplitl [Hd206]; · iexact Hd206
    isplitl [Hd205]; · iexact Hd205
    isplitl [Hd204]; · iexact Hd204
    isplitl [Hd203]; · iexact Hd203
    isplitl [Hd202]; · iexact Hd202
    isplitl [Hd201]; · iexact Hd201
    isplitl [Hd200]; · iexact Hd200
    isplitl [Hd199]; · iexact Hd199
    isplitl [Hd198]; · iexact Hd198
    isplitl [Hd197]; · iexact Hd197
    isplitl [Hd196]; · iexact Hd196
    isplitl [Hd195]; · iexact Hd195
    isplitl [Hd194]; · iexact Hd194
    isplitl [Hd193]; · iexact Hd193
    isplitl [Hd192]; · iexact Hd192
    isplitl [Hd191]; · iexact Hd191
    isplitl [Hd190]; · iexact Hd190
    isplitl [Hd189]; · iexact Hd189
    isplitl [Hd188]; · iexact Hd188
    isplitl [Hd187]; · iexact Hd187
    isplitl [Hd186]; · iexact Hd186
    isplitl [Hd185]; · iexact Hd185
    isplitl [Hd184]; · iexact Hd184
    isplitl [Hd183]; · iexact Hd183
    isplitl [Hd182]; · iexact Hd182
    isplitl [Hd181]; · iexact Hd181
    isplitl [Hd180]; · iexact Hd180
    isplitl [Hd179]; · iexact Hd179
    isplitl [Hd178]; · iexact Hd178
    isplitl [Hd177]; · iexact Hd177
    isplitl [Hd176]; · iexact Hd176
    isplitl [Hd175]; · iexact Hd175
    isplitl [Hd174]; · iexact Hd174
    isplitl [Hd173]; · iexact Hd173
    isplitl [Hd172]; · iexact Hd172
    isplitl [Hd171]; · iexact Hd171
    isplitl [Hd170]; · iexact Hd170
    isplitl [Hd169]; · iexact Hd169
    isplitl [Hd168]; · iexact Hd168
    isplitl [Hd167]; · iexact Hd167
    isplitl [Hd166]; · iexact Hd166
    isplitl [Hd165]; · iexact Hd165
    isplitl [Hd164]; · iexact Hd164
    isplitl [Hd163]; · iexact Hd163
    isplitl [Hd162]; · iexact Hd162
    isplitl [Hd161]; · iexact Hd161
    isplitl [Hd160]; · iexact Hd160
    isplitl [Hd159]; · iexact Hd159
    isplitl [Hd158]; · iexact Hd158
    isplitl [Hd157]; · iexact Hd157
    isplitl [Hd156]; · iexact Hd156
    isplitl [Hd155]; · iexact Hd155
    isplitl [Hd154]; · iexact Hd154
    isplitl [Hd153]; · iexact Hd153
    isplitl [Hd152]; · iexact Hd152
    isplitl [Hd151]; · iexact Hd151
    isplitl [Hd150]; · iexact Hd150
    isplitl [Hd149]; · iexact Hd149
    isplitl [Hd148]; · iexact Hd148
    isplitl [Hd147]; · iexact Hd147
    isplitl [Hd146]; · iexact Hd146
    isplitl [Hd145]; · iexact Hd145
    isplitl [Hd144]; · iexact Hd144
    isplitl [Hd143]; · iexact Hd143
    isplitl [Hd142]; · iexact Hd142
    isplitl [Hd141]; · iexact Hd141
    isplitl [Hd140]; · iexact Hd140
    isplitl [Hd139]; · iexact Hd139
    isplitl [Hd138]; · iexact Hd138
    isplitl [Hd137]; · iexact Hd137
    isplitl [Hd136]; · iexact Hd136
    isplitl [Hd135]; · iexact Hd135
    isplitl [Hd134]; · iexact Hd134
    isplitl [Hd133]; · iexact Hd133
    iempintro
  iexists _; iexact HO

end Cert.KernelIdeal.Hand

end
-- ==== Proof.KIRegion1.lean ====
import proofs.«410613_j6055903887911_1_alg».proof.Proof.KIBody1
import Idealize.ShloMosaic.Lib.Pipeline.Frame
import Idealize.ShloMosaic.Lib.Pipeline.FrameBody

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b)) (a1 : (pcfg1 (F := F)).Adm)

def H1 : Finset (Ref sig .tc) := {main_arg3}

def outAt1 (c : Dev nD) (t : Fin (cfg1 a1).N) : S256x128.Idx → Elt F .f32 :=
  rows1 (a1.1 0) (V c main_arg3) (grid1.coords t)

def dat1 (c : Dev nD) : Dat τ (Elt F) Unit ℕ (UU nD τ) ℕ (cfg1 a1) c where
  A w := V c (Pipeline.arrRef spec1 w)
  after w t := match w with
    | ⟨0, _⟩ => outAt1 V a1 c t
  Φ _ := iprop(Pipeline.ΦD osem1 spec1 H1 V c ∗ Pipeline.prefHeld pre1 c (fun _ => fullShare) a1.1)
  q _ := fullShare
  owed _ := 0

theorem after1_0 (c : Dev nD) (t : Fin (cfg1 a1).N) : (dat1 V a1 c).after 0 t = outAt1 V a1 c t := by dsimp only [dat1]; rfl

abbrev ms1_0 (t : Fin (cfg1 a1).N) : Memref sig .tc .vmem S256x128 .f32 := spec1_0.stage ((cfg1 a1).slots t 0)
abbrev hs1_0 (t : Fin (cfg1 a1).N) : (ms1_0 a1 t).IsWhole := hstage1_0 (((cfg1 a1).slots t 0).cast nbuf1_0)

abbrev bodyAt1 (t : Fin (cfg1 a1).N) : Prog (TpuEff nD τ sig (Elt F) Λ₀ .tc) PUnit :=
  cc1__gather_rows_kernel (grid1.coords t) (Memref.whole main_v48) (Memref.isWhole_whole _) (Memref.whole main_arg3) (Memref.isWhole_whole _)
    (ms1_0 a1 t) (hs1_0 a1 t) cc1_scratch0

theorem hbmPts1_eq (c : Dev nD) :
    (bigSep H1 (fun b => ((c : Thread nD τ).loc b) ↦{fullShare} V c b) : sProp (MM F)) = pt c (Memref.whole main_arg3) (V c main_arg3) := by
  unfold H1; rw [BI.bigSep_singleton]

theorem prefHeld1_eq (c : Dev nD) :
    (Pipeline.prefHeld pre1 c (fun _ => fullShare) a1.1 : sProp (MM F)) = pt c (Memref.whole main_v48) (a1.1 0) := by
  unfold Pipeline.prefHeld; rw [bigSep_W1]; rfl

def bodyPre1 (c : Dev nD) (t : Fin (cfg1 a1).N) : sProp (MM F) :=
  iprop((dat1 V a1 c).Φ t.castSucc ∗ (dat1 V a1 c).owesAt () t.castSucc
    ∗ (∃ d, owns (c : Thread nD τ) (ms1_0 a1 t) fullShare ((dat1 V a1 c).before 0 t d)))

def bodyPost1 (c : Dev nD) (t : Fin (cfg1 a1).N) : sProp (MM F) :=
  iprop((dat1 V a1 c).Φ t.succ ∗ (dat1 V a1 c).owesAt () t.succ
    ∗ owns (c : Thread nD τ) (ms1_0 a1 t) fullShare ((dat1 V a1 c).after 0 t))

theorem sound_body1 (htb : ∀ j : S4096.Idx, ((a1.1 0) j : BitVec 32).toNat < 16384) (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1
  rw [show (dat1 V a1 c).Φ t.succ = (dat1 V a1 c).Φ t.castSucc from rfl, after1_0]
  rw [show (dat1 V a1 c).Φ t.castSucc = iprop(Pipeline.ΦD osem1 spec1 H1 V c ∗ Pipeline.prefHeld pre1 c (fun _ => fullShare) a1.1) from rfl,
    Pipeline.ΦD_eq, hbmPts1_eq, prefHeld1_eq]
  unfold Dat.owesAt Pipeline.owesWithin
  rw [show (dat1 V a1 c).owed t.castSucc = 0 from rfl, show (dat1 V a1 c).owed t.succ = 0 from rfl]
  unfold owns Pipeline.ownSems0
  simp only [(hs1_0 a1 t).set_eq_univ]
  iintro ⟨⟨⟨HR, Hg, Hs, HH⟩, HT⟩, ⟨%W, -, HW⟩, ⟨%d0, %f3, -, H3⟩⟩
  iapply (body1 c (grid1.coords t) (ms1_0 a1 t) (hs1_0 a1 t) (a1.1 0) (V c main_arg3) f3 htb W _)
  isplitl [HT]; · iexact HT
  isplitl [HH]; · iexact HH
  isplitl [H3]; · iexact H3
  isplitl [Hs]; · iexact Hs
  isplitl [HW]; · iexact HW
  iintro ⟨HT, HH, ⟨%f, %hf, H3⟩, Hs, ⟨%W', HW'⟩⟩
  isplitl [HR Hg Hs HH HT]
  · isplitl [HR Hg Hs HH]
    · isplitl [HR]; · iexact HR
      isplitl [Hg]; · iexact Hg
      isplitl [Hs]; · iexact Hs
      iexact HH
    iexact HT
  isplitl [HW']
  · iexists W'; isplitr; · ipureintro; exact fun _ _ => Or.inl trivial
    iexact HW'
  iexists f; isplitr; · ipureintro; exact hf
  iexact H3

set_option maxRecDepth 65536 in

theorem body_obligation1 (htb : ∀ j : S4096.Idx, ((a1.1 0) j : BitVec 32).toNat < 16384) (c : Dev nD) :
    BodyObligation (dat1 (F := F) V a1 c) (defs₀ (F := F)) Variants.none () Set.univ := fun t => by
  rw [bigSep_W1, bigSep_W1]
  show bodyPre1 V a1 c t ⊢ wp frame (wpE (defs₀ (F := F)) Variants.none c none) Set.univ (bodyAt1 a1 t) (fun _ => bodyPost1 V a1 c t)
  exact sound_body1 V a1 htb c t

end Cert.KernelIdeal.Hand

end
-- ==== Proof.KIBody2.lean ====
import proofs.«410613_j6055903887911_1_alg».proof.Proof.KICommon
import Idealize.ShloMosaic.Lib.Pipeline.FrameBody

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev rX : Rect S2048x128 := Rect.unit (s := S2048x128) ![0, 0] S2048x128.size inb_S2048x128_S2048x128_0_0
abbrev rW0 : Rect S3x128x128 := Rect.unit (s := S3x128x128) ![0, 0, 0] S1x128x128.size inb_S3x128x128_S1x128x128_0_0_0
abbrev rW1 : Rect S3x128x128 := Rect.unit (s := S3x128x128) ![1, 0, 0] S1x128x128.size inb_S3x128x128_S1x128x128_1_0_0
abbrev rW2 : Rect S3x128x128 := Rect.unit (s := S3x128x128) ![2, 0, 0] S1x128x128.size inb_S3x128x128_S1x128x128_2_0_0
abbrev rB0 : Rect S3x128 := Rect.unit (s := S3x128) ![0, 0] S1x128.size inb_S3x128_S1x128_0_0
abbrev rB1 : Rect S3x128 := Rect.unit (s := S3x128) ![1, 0] S1x128.size inb_S3x128_S1x128_1_0
abbrev rB2 : Rect S3x128 := Rect.unit (s := S3x128) ![2, 0] S1x128.size inb_S3x128_S1x128_2_0
abbrev rO0 : Rect S2048x384 := Rect.unit (s := S2048x384) ![0, 0] S2048x128.size inb_S2048x384_S2048x128_0_0
abbrev rO1 : Rect S2048x384 := Rect.unit (s := S2048x384) ![0, 128] S2048x128.size inb_S2048x384_S2048x128_0_128
abbrev rO2 : Rect S2048x384 := Rect.unit (s := S2048x384) ![0, 256] S2048x128.size inb_S2048x384_S2048x128_0_256

def piecesX (x1 : Vec F S2048x128 .f32) (x2 : Vec F S3x128x128 .f32) (x3 : Vec F S3x128 .f32) :
    List (View.Piece (Elt F) S2048x384 .f32) :=
  [⟨rO2, k2_pay1 (k2_pay2 (View.ld x1 rX)) (k2_pay5 (View.ld x2 rW2)) (k2_pay6 (View.ld x3 rB2))⟩,
   ⟨rO1, k2_pay4 (View.ld x1 rX) (View.ld x2 rW1) (View.ld x3 rB1)⟩,
   ⟨rO0, k2_pay3 (View.ld x1 rX) (View.ld x2 rW0) (View.ld x3 rB0)⟩]

end Cert.KernelIdeal.Hand

end
-- ==== Proof.KIRegion2.lean ====
import proofs.«410613_j6055903887911_1_alg».proof.Proof.KIBody2
import proofs.«410613_j6055903887911_1_alg».proof.Proof.Gen.KernelIdeal.Points
import Idealize.ShloMosaic.Lib.Pipeline.Frame
import Idealize.ShloMosaic.Lib.Pipeline.FrameBody

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UU nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UU nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UU nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

def outAt2 (c : Dev nD) (t : Fin cfg2.N) : Vec F S2048x384 .f32 :=
  View.canon (piecesX (iblk2 V c 0 t) (iblk2 V c 1 t) (iblk2 V c 2 t))

omit V in

theorem sound_kernel2 (c : Dev nD) (i : grid2.Coords)
    (M1 : Memref sig .tc .vmem S2048x128 .f32) (h1 : M1.IsWhole) (M2 : Memref sig .tc .vmem S3x128x128 .f32) (h2 : M2.IsWhole)
    (M3 : Memref sig .tc .vmem S3x128 .f32) (h3 : M3.IsWhole) (M4 : Memref sig .tc .vmem S2048x384 .f32) (h4 : M4.IsWhole)
    (x1 : Vec F S2048x128 .f32) (x2 : Vec F S3x128x128 .f32) (x3 : Vec F S3x128 .f32) (K : PUnit → sProp (MM F)) :
    iprop(owns (c : Thread nD τ) M1 fullShare x1 ∗ owns (c : Thread nD τ) M2 fullShare x2 ∗ owns (c : Thread nD τ) M3 fullShare x3
        ∗ (∃ d, owns (c : Thread nD τ) M4 fullShare d)
        ∗ (iprop(owns (c : Thread nD τ) M1 fullShare x1 ∗ owns (c : Thread nD τ) M2 fullShare x2 ∗ owns (c : Thread nD τ) M3 fullShare x3
            ∗ owns (c : Thread nD τ) M4 fullShare (View.canon (piecesX x1 x2 x3))) -∗ K ⟨⟩))
      ⊢ wp frame (wpE (defs₀ (F := F)) Variants.none c none) Set.univ (cc2__mlp_kernel i M1 h1 M2 h2 M3 h3 M4 h4) K := by
  unfold owns
  iintro ⟨⟨%f1, %hf1, H1⟩, ⟨%f2, %hf2, H2⟩, ⟨%f3, %hf3, H3⟩, ⟨%d4, %f4, -, H4⟩, Hk⟩
  subst hf1 hf2 hf3
  sl_exec!
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_junk_eq_canon _ _

def dat2 (c : Dev nD) : Dat τ (Elt F) Unit ℕ (UU nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp (MM F) :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp (MM F) :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIDats.lean ====
import proofs.«410613_j6055903887911_1_alg».proof.Proof.KIRegion0
import proofs.«410613_j6055903887911_1_alg».proof.Proof.KIRegion1
import proofs.«410613_j6055903887911_1_alg».proof.Proof.KIRegion2
import proofs.«410613_j6055903887911_1_alg».proof.Proof.Gen.KernelIdeal.Regions
import Idealize.ShloMosaic.Lib.Pipeline.RegionsLoop

noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ)

def c0 : Dev nD := ⟨0, by decide⟩

theorem dev_eq (c : Dev nD) : c = c0 := Subsingleton.elim _ _

def tbc0 : pre0.Contents (Elt F) := fun | ⟨0, _⟩ => V21 m c0 main_v41

def tbc1 : pre1.Contents (Elt F) := fun | ⟨0, _⟩ => V21 m c0 main_v48

def adm0 : (pcfg0 (F := F)).Adm := ⟨tbc0 m, trivial⟩

def adm1 : (pcfg1 (F := F)).Adm := ⟨tbc1 m, trivial⟩

def adm : (p : Fin 3) → (pcfgs (F := F) p).Adm
  | ⟨0, _⟩ => adm0 m
  | ⟨1, _⟩ => adm1 m
  | ⟨2, _⟩ => cfg2.toPCfg_adm

abbrev U21 (c : Dev nD) (b : Ref sig .tc) : Buf (Elt F) ((c : Thread nD τ).loc b) := V21 m c b

def o22 (c : Dev nD) : Buf (Elt F) ((c : Thread nD τ).loc main_v49) := (dat0 (U21 m) (adm0 m) c).arrAt 1 (cfg0 (adm0 m)).N

def X22 (c : Dev nD) : Valuation τ sig (Elt F) := Function.update (V21 m c) main_v49 (o22 m c)

abbrev U22 (c : Dev nD) (b : Ref sig .tc) : Buf (Elt F) ((c : Thread nD τ).loc b) := X22 m c b

def o23 (c : Dev nD) : Buf (Elt F) ((c : Thread nD τ).loc main_v50) := (dat1 (U22 m) (adm1 m) c).arrAt 0 (cfg1 (adm1 m)).N

def X23 (c : Dev nD) : Valuation τ sig (Elt F) := Function.update (X22 m c) main_v50 (o23 m c)

def X24 (c : Dev nD) : Valuation τ sig (Elt F) := StableHlo.after hostOps2 (X23 m c)

abbrev U24 (c : Dev nD) (b : Ref sig .tc) : Buf (Elt F) ((c : Thread nD τ).loc b) := X24 m c b

def o25 (c : Dev nD) : Buf (Elt F) ((c : Thread nD τ).loc main_v52) := (dat2 (U24 m) c).arrAt 3 cfg2.N

def X25 (c : Dev nD) : Valuation τ sig (Elt F) := Function.update (X24 m c) main_v52 (o25 m c)

abbrev U25 (c : Dev nD) (b : Ref sig .tc) : Buf (Elt F) ((c : Thread nD τ).loc b) := X25 m c b

def outs : Outs (F := F) := fun j r c =>
  match j with
  | 22 => X22 m c r
  | 23 => X23 m c r
  | 25 => X25 m c r
  | _ => V21 m c r

theorem V22_eq (c : Dev nD) : V22 m (outs m) c = X22 m c := by
  unfold X22
  show Function.update (V21 m c) main_v49 (X22 m c main_v49) = _
  unfold X22; rw [Function.update_self]
theorem V23_eq (c : Dev nD) : V23 m (outs m) c = X23 m c := by
  show Function.update (V22 m (outs m) c) main_v50 (X23 m c main_v50) = _
  rw [V22_eq]; unfold X23; rw [Function.update_self]
theorem V24_eq (c : Dev nD) : V24 m (outs m) c = X24 m c := by
  show StableHlo.after hostOps2 (V23 m (outs m) c) = _
  rw [V23_eq]; rfl
theorem V25_eq (c : Dev nD) : V25 m (outs m) c = X25 m c := by
  show Function.update (V24 m (outs m) c) main_v52 (X25 m c main_v52) = _
  rw [V24_eq]; unfold X25; rw [Function.update_self]

def pdats : (p : Fin 3) → (c : Dev nD) → Dat τ (Elt F) Unit ℕ (UU nD τ) ℕ (Pipeline.pin (pcfgs (F := F)) (adm m) p) c
  | ⟨0, _⟩ => fun c => dat0 (U21 m) (adm0 m) c
  | ⟨1, _⟩ => fun c => dat1 (U22 m) (adm1 m) c
  | ⟨2, _⟩ => fun c => dat2 (U24 m) c

theorem U25_of_ne (c : Dev nD) (b : Ref sig .tc) (hb : b ≠ main_v52) : U25 m c b = U24 m c b := by
  show X25 m c (Proc.devRef .tc b) = X24 m c (Proc.devRef .tc b)
  unfold X25
  exact Function.update_of_ne (StableHlo.devRef_ne_of_ne hb) _ _

theorem hF2 (c : Dev nD) : ∀ (w : Fin cfg2.W), (dat2 (U24 m) c).arrAt w cfg2.N = U25 m c (Pipeline.arrRef spec2 w)
  | ⟨0, _⟩ => ((dat2 (U24 m) c).arrAt_in 0 rfl _).trans ((A_eq2 (U24 m) c 0).trans (U25_of_ne m c _ (by decide)).symm)
  | ⟨1, _⟩ => ((dat2 (U24 m) c).arrAt_in 1 rfl _).trans ((A_eq2 (U24 m) c 1).trans (U25_of_ne m c _ (by decide)).symm)
  | ⟨2, _⟩ => ((dat2 (U24 m) c).arrAt_in 2 rfl _).trans ((A_eq2 (U24 m) c 2).trans (U25_of_ne m c _ (by decide)).symm)
  | ⟨3, _⟩ => by
    show o25 m c = X25 m c main_v52
    unfold X25; rw [Function.update_self]

theorem hrest2 (c : Dev nD) : ∀ b, b ∉ Finset.univ.image (Pipeline.arrRef spec2) → U25 m c b = U24 m c b :=
  fun b hb => U25_of_ne m c b fun e => hb (Finset.mem_image.mpr ⟨3, Finset.mem_univ _, e.symm⟩)

end Cert.KernelIdeal.Hand

end
-- ==== Proof.KITables.lean ====
import proofs.«410613_j6055903887911_1_alg».proof.Proof.KICommon
import proofs.«410613_j6055903887911_1_alg».proof.Proof.Gen.KernelIdeal.Regions
import proofs.«410613_j6055903887911_1_alg».proof.Defs
import Idealize.ShloMosaic.Lib.ReduceAll

noncomputable section

namespace Cert.KernelIdeal.Hand

open Cert.KernelIdeal Cert.KernelIdeal.Gen
open Idealize.ShloMosaic
open Idealize.ShloMosaic.TcCoe
open Idealize.SL.Sem

variable {F : FTy → Type} [FloatOps F]
variable [hP : Cert.Pre_finite_inputs.Facts]

def PreAt (m : (ℓ : Loc nD τ sig) → Buf (Elt F) ℓ) : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) = (fun _ => 1#1)

theorem tb_toNat_lt_of_toInt (w : BitVec 32) (n : Nat) (h0 : 0 ≤ w.toInt) (h1 : w.toInt < n) : w.toNat < n := by
  rw [BitVec.toInt_eq_toNat_cond] at h0 h1
  split at h0 <;> omega

theorem node_lt (m : (ℓ : Loc nD τ sig) → Buf (Elt F) ℓ) (h : PreAt m) (c : Dev nD) (k : S8192.Idx) :
    (m ((c.tc : Thread nD τ).loc main_arg1) k).toNat < 16384 := by
  haveI : Subsingleton Cert.Pre_finite_inputs.S_.Idx := ⟨fun a b => funext fun d => d.elim0⟩
  have e := congrFun (h c) (fun d => d.elim0)
  dsimp only [Cert.Pre_finite_inputs.fn, Cert.Pre_finite_inputs.fn_part1] at e
  obtain ⟨e1, hlt⟩ := IntOp.andi_eq_one.1 e
  obtain ⟨-, hge⟩ := IntOp.andi_eq_one.1 e1
  have g0 := IntOp.cmpi_sge.1 (Host.reduce_andi_all _ _ _ _ _ hge k)
  have g1 := IntOp.cmpi_slt.1 (Host.reduce_andi_all _ _ _ _ _ hlt k)

  change (0#32 : BitVec 32).toInt ≤ _ at g0
  change _ < (16384#32 : BitVec 32).toInt at g1
  have z0 : (0#32 : BitVec 32).toInt = 0 := by decide
  have z1 : (16384#32 : BitVec 32).toInt = 16384 := by decide
  rw [z0] at g0
  rw [z1] at g1
  exact tb_toNat_lt_of_toInt _ 16384 g0 g1

theorem V20_main_arg1 (m : (ℓ : Loc nD τ sig) → Buf (Elt F) ℓ) (c : Dev nD) :
    V20 m c main_arg1 = m ((c.tc : Thread nD τ).loc main_arg1) :=
  (V20_of m c main_arg1 (by decide)).trans <| (V19_of m c main_arg1 (by decide)).trans <| (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

theorem pos_word (m : (ℓ : Loc nD τ sig) → Buf (Elt F) ℓ) (c : Dev nD) (j : S4096.Idx) :
    ∃ k : S8192.Idx, V21 m c main_v41 j = V20 m c main_arg1 k := by
  show ∃ k : S8192.Idx, StableHlo.after hostOps0_20 (V20 m c) (Proc.devRef .tc main_v41) j = V20 m c (Proc.devRef .tc main_arg1) k
  generalize V20 m c = W
  after_results
  unfold Host.gather
  exact ⟨_, rfl⟩

theorem neg_word (m : (ℓ : Loc nD τ sig) → Buf (Elt F) ℓ) (c : Dev nD) (j : S4096.Idx) :
    ∃ k : S8192.Idx, V21 m c main_v48 j = V20 m c main_arg1 k := by
  show ∃ k : S8192.Idx, StableHlo.after hostOps0_20 (V20 m c) (Proc.devRef .tc main_v48) j = V20 m c (Proc.devRef .tc main_arg1) k
  generalize V20 m c = W
  after_results
  unfold Host.gather
  exact ⟨_, rfl⟩

theorem pos_tb_lt (m : (ℓ : Loc nD τ sig) → Buf (Elt F) ℓ) (h : PreAt m) (c : Dev nD) (j : S4096.Idx) :
    (V21 m c main_v41 j).toNat < 16384 := by
  obtain ⟨k, e⟩ := pos_word m c j
  rw [e, V20_main_arg1]
  exact node_lt m h c k

theorem neg_tb_lt (m : (ℓ : Loc nD τ sig) → Buf (Elt F) ℓ) (h : PreAt m) (c : Dev nD) (j : S4096.Idx) :
    (V21 m c main_v48 j).toNat < 16384 := by
  obtain ⟨k, e⟩ := neg_word m c j
  rw [e, V20_main_arg1]
  exact node_lt m h c k

end Cert.KernelIdeal.Hand

end
-- ==== Proof.KIOwn0.lean ====
import proofs.«410613_j6055903887911_1_alg».proof.Proof.KIBody0

namespace Cert.KernelIdeal.Hand

open Cert.KernelIdeal Cert.KernelIdeal.Gen
open Idealize.ShloMosaic

theorem ownSemFacts0 : Pipeline.OwnSemFacts spec0 osem0 where
  isScoped := by decide
  inj := by
    intro a b h
    have h' : (3 + a.val) = (3 + b.val) := congrArg Fin.val (SemLoc.dma.inj h)
    exact Fin.ext (by omega)
  disj := by decide

end Cert.KernelIdeal.Hand
-- ==== Proof.KIReg0.lean ====
import proofs.«410613_j6055903887911_1_alg».proof.Proof.KIDats
import proofs.«410613_j6055903887911_1_alg».proof.Proof.KITables
import proofs.«410613_j6055903887911_1_alg».proof.Proof.KIOwn0

noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ)

theorem U22_of_ne (c : Dev nD) (b : Ref sig .tc) (hb : b ≠ main_v49) : U22 m c b = U21 m c b := by
  show X22 m c (Proc.devRef .tc b) = V21 m c (Proc.devRef .tc b)
  unfold X22
  exact Function.update_of_ne (StableHlo.devRef_ne_of_ne hb) _ _

theorem hF0 (c : Dev nD) : ∀ (w : Fin (cfg0 (adm0 m)).W),
    (dat0 (U21 m) (adm0 m) c).arrAt w (cfg0 (adm0 m)).N = U22 m c (Pipeline.arrRef spec0 w)
  | ⟨0, _⟩ => ((dat0 (U21 m) (adm0 m) c).arrAt_in 0 rfl _).trans
      ((A_eq0 (U21 m) (adm0 m) c 0).trans (U22_of_ne m c main_arg3 (by decide)).symm)
  | ⟨1, _⟩ => by
    show o22 m c = X22 m c main_v49
    unfold X22; rw [Function.update_self]

theorem hrest0 (c : Dev nD) : ∀ b, b ∉ Finset.univ.image (Pipeline.arrRef spec0) → U22 m c b = U21 m c b :=
  fun b hb => U22_of_ne m c b fun e => hb (Finset.mem_image.mpr ⟨1, Finset.mem_univ _, e.symm⟩)

set_option maxRecDepth 8192 in

theorem H0_subP : H0 ⊆ Pipeline.restRefsP sig pre0 spec0 := by decide

theorem tb0_eq (c : Dev nD) : (fun k => U21 m c (pre0.ref k)) = (adm m 0).1 := by
  obtain rfl := dev_eq c
  funext k
  match k with
  | ⟨0, _⟩ => rfl

variable [hP : Cert.Pre_finite_inputs.Facts]

set_option backward.isDefEq.respectTransparency.types false in

def reg0 (h : PreAt m) : Pipeline.RegionSeg (pcfgs (F := F)) (adm m) (pdats m) () (defs₀ (F := F)) VV LL lvl 0 where
  win := (launch0 (F := F)).win.to₀
  block_pos := (launch0 (F := F)).block_pos
  stage_whole := (launch0 (F := F)).stage_whole
  K := Fin 128
  osem := osem0
  ho := ownSemFacts0
  hbody c := (body_obligation0 (U21 m) (adm0 m) (fun j => pos_tb_lt m h c0 j) c).loose
  hwaits := Pipeline.hwaits_of_owed_zero _ _ _ _ LL lvl 0 fun _ _ => rfl
  pre c := iprop(StableHlo.held (c : Thread nD τ) (Pipeline.ucRefs τ sig) (V21 m c) ∗ Rc c)
  post c := iprop(StableHlo.held (c : Thread nD τ) (Pipeline.ucRefs τ sig) (X22 m c) ∗ Rc c)
  X c := iprop((∃ r, prngReg c r) ∗ Pipeline.ownSems0 (Ix := Unit) (Name := ℕ) (U := UU nD τ) (Lvl := ℕ) (Val := Elt F) (τ := τ) osem0 c
    ∗ (bigSep H0 fun b => (((c : Thread nD τ)).loc b) ↦{fullShare} U21 m c b))
  Y c := iprop((∃ r, prngReg c r) ∗ (bigSep H0 fun b => (((c : Thread nD τ)).loc b) ↦{fullShare} U21 m c b)
    ∗ Pipeline.prefHeld pre0 c (fun _ => fullShare) (adm m 0).1)
  Z c := bigSep (Pipeline.restRefsP sig pre0 spec0 \ H0) fun b => (((c : Thread nD τ)).loc b) ↦{fullShare} U21 m c b
  hentry c := by
    have hsplit := Pipeline.arrays_of_unscopedBufs (p := 0) (pcfgs (F := F)) (adm m) (pdats m) (launch0 (F := F)).win (launch0 (F := F)).arr_whole c
      ((pdats m 0 c).share_full fun _ => rfl) (U21 m c) fun _ => rfl
    rw [Pipeline.unscopedBufs_held] at hsplit
    have hT := Pipeline.unscopedRest_split (Ix := Unit) (Name := ℕ) (U := UU nD τ) (Lvl := ℕ) (Val := Elt F) preFacts0 c (U21 m c)
    rw [tb0_eq m c] at hT
    have hH := Pipeline.unscopedRestP_sdiff (Val := Elt F) pre0 spec0 H0 H0_subP c (U21 m c)
    iintro ⟨⟨Hub, Hp, HO⟩, Hos, -⟩
    ihave H := hsplit $$ Hub
    icases H with ⟨Ha, Hrest⟩
    ihave H' := (Entails.of_eq hT) $$ Hrest
    icases H' with ⟨HT, HrestP⟩
    ihave H'' := (Entails.of_eq hH) $$ HrestP
    icases H'' with ⟨HH, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 0 c).Φ 0 = iprop(Pipeline.ΦD osem0 spec0 H0 (U21 m) c ∗ Pipeline.prefHeld pre0 c (fun _ => fullShare) (adm m 0).1) from rfl,
      Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m 0 c).Φ (Fin.last _) = iprop(Pipeline.ΦD osem0 spec0 H0 (U21 m) c ∗ Pipeline.prefHeld pre0 c (fun _ => fullShare) (adm m 0).1) from rfl,
      Pipeline.ΦD_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 0) (pcfgs (F := F)) (adm m) (Ix := Unit) (Name := ℕ) (U := UU nD τ) (Lvl := ℕ)
      (launch0 (F := F)).win (launch0 (F := F)).arr_whole c (pdats m) ((pdats m 0 c).share_full fun _ => rfl)
      (U21 m c) (U22 m c) ((pdats m 0 c).arrAt · (cfg0 (adm0 m)).N) (hF0 m c) (hrest0 m c)
    rw [Pipeline.unscopedBufs_held] at hjoin
    have hT := Pipeline.unscopedRest_split (Ix := Unit) (Name := ℕ) (U := UU nD τ) (Lvl := ℕ) (Val := Elt F) preFacts0 c (U21 m c)
    rw [tb0_eq m c] at hT
    have hH := Pipeline.unscopedRestP_sdiff (Val := Elt F) pre0 spec0 H0 H0_subP c (U21 m c)
    iintro ⟨Ha, HO, ⟨HY, HH, HT⟩, HR⟩
    ihave HrestP := (Entails.of_eq hH.symm) $$ [HH HR]
    · isplitl [HH]; · iexact HH
      iexact HR
    ihave Hrest := (Entails.of_eq hT.symm) $$ [HT HrestP]
    · isplitl [HT]; · iexact HT
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIOwn1.lean ====
import proofs.«410613_j6055903887911_1_alg».proof.Proof.KIBody1
import Idealize.ShloMosaic.Lib.Pipeline.Launch

namespace Cert.KernelIdeal.Hand

open Cert.KernelIdeal Cert.KernelIdeal.Gen
open Idealize.ShloMosaic

theorem osem1_val (k : Fin 256) : osem1 k = SemLoc.dma ⟨133 + k.val, by have := k.isLt; show 133 + k.val < 395; omega⟩ := by
  unfold osem1 osemN
  congr 2
  exact Nat.mod_eq_of_lt (by have := k.isLt; omega)

theorem osem1_inj : Function.Injective osem1 := by
  intro k k' h
  rw [osem1_val, osem1_val] at h
  injection h with h
  have h' := congrArg Fin.val h
  exact Fin.ext (by simpa using h')

theorem ownSemFacts1 : Pipeline.OwnSemFacts spec1 osem1 where
  isScoped := by decide +kernel
  inj := osem1_inj
  disj := by decide +kernel

end Cert.KernelIdeal.Hand
-- ==== Proof.KIReg1.lean ====
import proofs.«410613_j6055903887911_1_alg».proof.Proof.KIDats
import proofs.«410613_j6055903887911_1_alg».proof.Proof.KITables
import proofs.«410613_j6055903887911_1_alg».proof.Proof.KIOwn1

noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ)

abbrev U23 (c : Dev nD) (b : Ref sig .tc) : Buf (Elt F) ((c : Thread nD τ).loc b) := X23 m c b

theorem U23_of_ne (c : Dev nD) (b : Ref sig .tc) (hb : b ≠ main_v50) : U23 m c b = U22 m c b := by
  show X23 m c (Proc.devRef .tc b) = X22 m c (Proc.devRef .tc b)
  unfold X23
  exact Function.update_of_ne (StableHlo.devRef_ne_of_ne hb) _ _

theorem hF1 (c : Dev nD) : ∀ (w : Fin (cfg1 (adm1 m)).W),
    (dat1 (U22 m) (adm1 m) c).arrAt w (cfg1 (adm1 m)).N = U23 m c (Pipeline.arrRef spec1 w)
  | ⟨0, _⟩ => by
    show o23 m c = X23 m c main_v50
    unfold X23; rw [Function.update_self]

theorem hrest1 (c : Dev nD) : ∀ b, b ∉ Finset.univ.image (Pipeline.arrRef spec1) → U23 m c b = U22 m c b :=
  fun b hb => U23_of_ne m c b fun e => hb (Finset.mem_image.mpr ⟨0, Finset.mem_univ _, e.symm⟩)

set_option maxRecDepth 8192 in

theorem H1_subP : H1 ⊆ Pipeline.restRefsP sig pre1 spec1 := by decide

theorem tb1_eq (c : Dev nD) : (fun k => U22 m c (pre1.ref k)) = (adm m 1).1 := by
  obtain rfl := dev_eq c
  funext k
  match k with
  | ⟨0, _⟩ =>
    show X22 m c0 (Proc.devRef .tc main_v48) = V21 m c0 main_v48
    unfold X22
    exact Function.update_of_ne (StableHlo.devRef_ne_of_ne (by decide)) _ _

variable [hP : Cert.Pre_finite_inputs.Facts]

set_option backward.isDefEq.respectTransparency.types false in

def reg1 (h : PreAt m) : Pipeline.RegionSeg (pcfgs (F := F)) (adm m) (pdats m) () (defs₀ (F := F)) VV LL lvl 1 where
  win := (launch1 (F := F)).win.to₀
  block_pos := (launch1 (F := F)).block_pos
  stage_whole := (launch1 (F := F)).stage_whole
  K := Fin 256
  osem := osem1
  ho := ownSemFacts1
  hbody c := (body_obligation1 (U22 m) (adm1 m) (fun j => neg_tb_lt m h c0 j) c).loose
  hwaits := Pipeline.hwaits_of_owed_zero _ _ _ _ LL lvl 1 fun _ _ => rfl
  pre c := iprop(StableHlo.held (c : Thread nD τ) (Pipeline.ucRefs τ sig) (X22 m c) ∗ Rc c)
  post c := iprop(StableHlo.held (c : Thread nD τ) (Pipeline.ucRefs τ sig) (X23 m c) ∗ Rc c)
  X c := iprop((∃ r, prngReg c r) ∗ Pipeline.ownSems0 (Ix := Unit) (Name := ℕ) (U := UU nD τ) (Lvl := ℕ) (Val := Elt F) (τ := τ) osem1 c
    ∗ (bigSep H1 fun b => (((c : Thread nD τ)).loc b) ↦{fullShare} U22 m c b))
  Y c := iprop((∃ r, prngReg c r) ∗ (bigSep H1 fun b => (((c : Thread nD τ)).loc b) ↦{fullShare} U22 m c b)
    ∗ Pipeline.prefHeld pre1 c (fun _ => fullShare) (adm m 1).1)
  Z c := bigSep (Pipeline.restRefsP sig pre1 spec1 \ H1) fun b => (((c : Thread nD τ)).loc b) ↦{fullShare} U22 m c b
  hentry c := by
    have hsplit := Pipeline.arrays_of_unscopedBufs (p := 1) (pcfgs (F := F)) (adm m) (pdats m) (launch1 (F := F)).win (launch1 (F := F)).arr_whole c
      ((pdats m 1 c).share_full fun _ => rfl) (U22 m c) fun _ => rfl
    rw [Pipeline.unscopedBufs_held] at hsplit
    have hT := Pipeline.unscopedRest_split (Ix := Unit) (Name := ℕ) (U := UU nD τ) (Lvl := ℕ) (Val := Elt F) preFacts1 c (U22 m c)
    rw [tb1_eq m c] at hT
    have hH := Pipeline.unscopedRestP_sdiff (Val := Elt F) pre1 spec1 H1 H1_subP c (U22 m c)
    iintro ⟨⟨Hub, Hp, HO⟩, Hos, -⟩
    ihave H := hsplit $$ Hub
    icases H with ⟨Ha, Hrest⟩
    ihave H' := (Entails.of_eq hT) $$ Hrest
    icases H' with ⟨HT, HrestP⟩
    ihave H'' := (Entails.of_eq hH) $$ HrestP
    icases H'' with ⟨HH, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = iprop(Pipeline.ΦD osem1 spec1 H1 (U22 m) c ∗ Pipeline.prefHeld pre1 c (fun _ => fullShare) (adm m 1).1) from rfl,
      Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m 1 c).Φ (Fin.last _) = iprop(Pipeline.ΦD osem1 spec1 H1 (U22 m) c ∗ Pipeline.prefHeld pre1 c (fun _ => fullShare) (adm m 1).1) from rfl,
      Pipeline.ΦD_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    have hjoin := Pipeline.unscopedBufs_of_arrays (p := 1) (pcfgs (F := F)) (adm m) (Ix := Unit) (Name := ℕ) (U := UU nD τ) (Lvl := ℕ)
      (launch1 (F := F)).win (launch1 (F := F)).arr_whole c (pdats m) ((pdats m 1 c).share_full fun _ => rfl)
      (U22 m c) (U23 m c) ((pdats m 1 c).arrAt · (cfg1 (adm1 m)).N) (hF1 m c) (hrest1 m c)
    rw [Pipeline.unscopedBufs_held] at hjoin
    have hT := Pipeline.unscopedRest_split (Ix := Unit) (Name := ℕ) (U := UU nD τ) (Lvl := ℕ) (Val := Elt F) preFacts1 c (U22 m c)
    rw [tb1_eq m c] at hT
    have hH := Pipeline.unscopedRestP_sdiff (Val := Elt F) pre1 spec1 H1 H1_subP c (U22 m c)
    iintro ⟨Ha, HO, ⟨HY, HH, HT⟩, HR⟩
    ihave HrestP := (Entails.of_eq hH.symm) $$ [HH HR]
    · isplitl [HH]; · iexact HH
      iexact HR
    ihave Hrest := (Entails.of_eq hT.symm) $$ [HT HrestP]
    · isplitl [HT]; · iexact HT
      iexact HrestP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIReg2.lean ====
import proofs.«410613_j6055903887911_1_alg».proof.Proof.KIDats

noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ)

set_option backward.isDefEq.respectTransparency.types false in
def reg2 : Pipeline.RegionSeg (pcfgs (F := F)) (adm m) (pdats m) () (defs₀ (F := F)) VV LL lvl 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (U24 m) c).loose
  hwaits := Pipeline.hwaits_of_owed_zero _ _ _ _ LL lvl 2 fun _ _ => rfl
  pre c := iprop(StableHlo.held (c : Thread nD τ) (Pipeline.ucRefs τ sig) (X24 m c) ∗ Rc c)
  post c := iprop(StableHlo.held (c : Thread nD τ) (Pipeline.ucRefs τ sig) (X25 m c) ∗ Rc c)
  X c := iprop(∃ r, prngReg c r)
  Y c := iprop(∃ r, prngReg c r)
  Z c := Pipeline.unscopedRest (Ix := Unit) (Name := ℕ) (U := UU nD τ) (Lvl := ℕ) spec2 c (U24 m c)
  hentry c := by
    rw [Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (U24 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UU nD τ) (Lvl := ℕ)
      (launch2 (F := F)).win (launch2 (F := F)).arr_whole c (pdats m) ((pdats m 2 c).share_full fun _ => rfl)
      (U24 m c) (U25 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIFrame.lean ====
import proofs.«410613_j6055903887911_1_alg».proof.Proof.KIReg0
import proofs.«410613_j6055903887911_1_alg».proof.Proof.KIReg1
import proofs.«410613_j6055903887911_1_alg».proof.Proof.KIReg2
import proofs.«410613_j6055903887911_1_alg».proof.Proof.KITables
import proofs.«410613_j6055903887911_1_alg».proof.Proof.KIRun

noncomputable section
namespace Cert.KernelIdeal.Hand
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [hP : Cert.Pre_finite_inputs.Facts]
variable (m : (ℓ : Loc nD τ sig) → Buf (Elt F) ℓ)

theorem mem_uc (b : Ref sig .tc) (hb : ¬ (Proc.devRef .tc b : DevRef τ sig).isScoped) : Proc.devRef .tc b ∈ Pipeline.ucRefs τ sig :=
  Finset.mem_filter.mpr ⟨StableHlo.devRef_mem_tcRefs b, hb⟩

set_option backward.isDefEq.respectTransparency.types false in
theorem run_main (h : PreAt m) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = X25 m c b) := by
  have hr := run_cond (F := F) m (embL : Emb (UR sig nD τ) (MM F)) () VV LL lvl (fun _ _ => rfl) ρ (outs m) (adm m) (pdats m)
    (fun _ => 0) (fun _ => iprop(emp))
    ((initOf (Pipeline.cells (Pipeline.pin (pcfgs (F := F)) (adm m)) (cellOf_inj (adm m))) (Pipeline.launchToks (Pipeline.pin (pcfgs (F := F)) (adm m)) (cellOf_inj (adm m))), 1) : UU nD τ)
    (by
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (fun _ c => Rc c)
    (Pipeline.initEach LL lvl fun c => by
      iintro ⟨⟨-, HO, -, Hp, -⟩, -⟩
      imodintro
      isplitl [Hp]; · iexists _; iexact Hp
      iexists ∅; iexact HO)
    (fun c => by iintro ⟨-, HO⟩; iexact HO)
    (reg0 m h) (fun c => .rfl) (fun c => by rw [V22_eq]; exact .rfl)
    (reg1 m h) (fun c => by rw [V22_eq]; exact .rfl) (fun c => by rw [V23_eq]; exact .rfl)
    (reg2 m) (fun c => by rw [V24_eq]; exact .rfl) (fun c => by rw [V25_eq]; exact .rfl)
  refine (θ_run _ _ _).mono (fun r hq c b hb => ?_) hr
  rw [← V25_eq]; exact hq c b hb

theorem X25_main_arg0 (c : Dev nD) : X25 m c main_arg0 = m ((c.tc : Thread nD τ).loc main_arg0) := by rw [← V25_eq]; exact V25_main_arg0 m (outs m) c
theorem X25_main_arg1 (c : Dev nD) : X25 m c main_arg1 = m ((c.tc : Thread nD τ).loc main_arg1) := by rw [← V25_eq]; exact V25_main_arg1 m (outs m) c
theorem X25_main_arg2 (c : Dev nD) : X25 m c main_arg2 = m ((c.tc : Thread nD τ).loc main_arg2) := by rw [← V25_eq]; exact V25_main_arg2 m (outs m) c
theorem X25_main_arg3 (c : Dev nD) : X25 m c main_arg3 = m ((c.tc : Thread nD τ).loc main_arg3) := by rw [← V25_eq]; exact V25_main_arg3 m (outs m) c
theorem X25_main_arg4 (c : Dev nD) : X25 m c main_arg4 = m ((c.tc : Thread nD τ).loc main_arg4) := by rw [← V25_eq]; exact V25_main_arg4 m (outs m) c
theorem X25_main_arg5 (c : Dev nD) : X25 m c main_arg5 = m ((c.tc : Thread nD τ).loc main_arg5) := by rw [← V25_eq]; exact V25_main_arg5 m (outs m) c

theorem frame_main (h : PreAt m) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r hq c =>
    ⟨(hq c _ (mem_uc main_arg0 (by decide))).trans (X25_main_arg0 m c),
     (hq c _ (mem_uc main_arg1 (by decide))).trans (X25_main_arg1 m c),
     (hq c _ (mem_uc main_arg2 (by decide))).trans (X25_main_arg2 m c),
     (hq c _ (mem_uc main_arg3 (by decide))).trans (X25_main_arg3 m c),
     (hq c _ (mem_uc main_arg4 (by decide))).trans (X25_main_arg4 m c),
     (hq c _ (mem_uc main_arg5 (by decide))).trans (X25_main_arg5 m c)⟩) (run_main m h ρ)

end Cert.KernelIdeal.Hand

end
-- ==== Proof.KIPay0.lean ====
import proofs.«410613_j6055903887911_1_alg».proof.Proof.Gen.KernelIdeal.Skeleton
import Idealize.ShloMosaic.Lib.ValueIdx
import Idealize.ShloMosaic.PureOps.Ideal.Laws

noncomputable section

namespace Cert.KernelIdeal.HandValue

open Cert.KernelIdeal
open Idealize.ShloMosaic Idealize.ShloMosaic.ValueIdx
open scoped BigOperators

theorem lhs_gm_0 (j : S128x128.Idx) (k : dot_S128x16384_S16384x128_S128x128_1_0_0_1_n_n.contr.Idx) :
    (dot_S128x16384_S16384x128_S128x128_1_0_0_1_n_n.lhsIdx j k 0).val = (j 0).val := by
  unfold DotDims.lhsIdx
  rw [dif_neg (show ¬(0 : Fin S128x16384.rank) ∈ dot_S128x16384_S16384x128_S128x128_1_0_0_1_n_n.lhsBatch by decide),
    dif_pos (show (0 : Fin S128x16384.rank) ∈ dot_S128x16384_S16384x128_S128x128_1_0_0_1_n_n.lhsNonContracting by decide)]
  simp only [Fin.val_cast]
  have key : ∀ (a b : Nat) (ha : a < S128x128.rank) (hb : b < S128x128.rank), a = b → (j ⟨a, ha⟩).val = (j ⟨b, hb⟩).val :=
    fun a b ha hb h => by subst h; rfl
  exact key _ _ _ _ (by decide)

theorem lhs_gm_1 (j : S128x128.Idx) (k : dot_S128x16384_S16384x128_S128x128_1_0_0_1_n_n.contr.Idx) :
    (dot_S128x16384_S16384x128_S128x128_1_0_0_1_n_n.lhsIdx j k 1).val = (k ⟨0, by decide⟩).val :=
  dot_S128x16384_S16384x128_S128x128_1_0_0_1_n_n.lhsIdx_val_of_single rfl j k

theorem rhs_gm_0 (j : S128x128.Idx) (k : dot_S128x16384_S16384x128_S128x128_1_0_0_1_n_n.contr.Idx) :
    (dot_S128x16384_S16384x128_S128x128_1_0_0_1_n_n.rhsIdx j k 0).val = (k ⟨0, by decide⟩).val :=
  dot_S128x16384_S16384x128_S128x128_1_0_0_1_n_n.rhsIdx_val_of_single rfl j k

theorem rhs_gm_1 (j : S128x128.Idx) (k : dot_S128x16384_S16384x128_S128x128_1_0_0_1_n_n.contr.Idx) :
    (dot_S128x16384_S16384x128_S128x128_1_0_0_1_n_n.rhsIdx j k 1).val = (j 1).val := by
  unfold DotDims.rhsIdx
  rw [dif_neg (show ¬(1 : Fin S16384x128.rank) ∈ dot_S128x16384_S16384x128_S128x128_1_0_0_1_n_n.rhsBatch by decide),
    dif_pos (show (1 : Fin S16384x128.rank) ∈ dot_S128x16384_S16384x128_S128x128_1_0_0_1_n_n.rhsNonContracting by decide)]
  simp only [Fin.val_cast]
  have key : ∀ (a b : Nat) (ha : a < S128x128.rank) (hb : b < S128x128.rank), a = b → (j ⟨a, ha⟩).val = (j ⟨b, hb⟩).val :=
    fun a b ha hb h => by subst h; rfl
  exact key _ _ _ _ (by decide)

theorem k0_pay1_apply (x : Vec Ideal S128x16384 .f32) (e : Vec Ideal S16384x128 .f32) (p q : Fin 128) :
    Gen.k0_pay1 (F := Ideal) x e (ix2 p q) = ∑ k : Fin 16384, x (ix2 p k) * e (ix2 k q) := by
  unfold Gen.k0_pay1
  simp only [matmul]
  rw [Ideal.matmul_constant_zero_apply]
  rw [← Equiv.sum_comp (contrEquiv1 dot_S128x16384_S16384x128_S128x128_1_0_0_1_n_n 16384 rfl rfl).symm]
  refine Finset.sum_congr rfl fun k _ => ?_
  have hl : dot_S128x16384_S16384x128_S128x128_1_0_0_1_n_n.lhsIdx (ix2 p q) ((contrEquiv1 dot_S128x16384_S16384x128_S128x128_1_0_0_1_n_n 16384 rfl rfl).symm k) = ix2 p k := by
    funext a
    apply Fin.ext
    match a with
    | ⟨0, _⟩ => exact lhs_gm_0 _ _
    | ⟨1, _⟩ => exact (lhs_gm_1 _ _).trans (contrEquiv1_symm_val dot_S128x16384_S16384x128_S128x128_1_0_0_1_n_n 16384 rfl rfl k)
  have hr : dot_S128x16384_S16384x128_S128x128_1_0_0_1_n_n.rhsIdx (ix2 p q) ((contrEquiv1 dot_S128x16384_S16384x128_S128x128_1_0_0_1_n_n 16384 rfl rfl).symm k) = ix2 k q := by
    funext a
    apply Fin.ext
    match a with
    | ⟨0, _⟩ => exact (rhs_gm_0 _ _).trans (contrEquiv1_symm_val dot_S128x16384_S16384x128_S128x128_1_0_0_1_n_n 16384 rfl rfl k)
    | ⟨1, _⟩ => exact rhs_gm_1 _ _
  show x _ * e _ = _
  rw [hl, hr]

end Cert.KernelIdeal.HandValue

end
-- ==== Proof.KICover.lean ====
import proofs.«410613_j6055903887911_1_alg».proof.Proof.Gen.KernelIdeal.Launch
import Idealize.ShloMosaic.Lib.Pipeline.Value
import Idealize.ShloMosaic.Lib.ValueIdx

noncomputable section

namespace Cert.KernelIdeal.HandValue

open Cert.KernelIdeal Cert.KernelIdeal.Gen
open Idealize.ShloMosaic Idealize.ShloMosaic.TcCoe Idealize.SL.Sem
open Idealize.ShloMosaic.ValueIdx

variable {F : FTy → Type} [FloatOps F]

theorem idx0_out_closed : ∀ t : Fin grid0.N, cc0_transform_2 (grid0.coords t) = ![t.val, 0] := by decide +kernel
theorem idx1_out_closed : ∀ t : Fin grid1.N, cc1_transform_1 (grid1.coords t) = ![t.val, 0] := by decide +kernel

theorem N0_eq (a : (pcfg0 (F := F)).Adm) : (cfg0 a).N = 32 := N_0
theorem N1_eq (a : (pcfg1 (F := F)).Adm) : (cfg1 a).N = 16 := N_1

theorem idx0_out (a : (pcfg0 (F := F)).Adm) (t : Fin (cfg0 a).N) : ((cfg0 a).win 1).index t = ![t.val, 0] := idx0_out_closed t

theorem flush0_out (a : (pcfg0 (F := F)).Adm) (t : Fin (cfg0 a).N) : ((cfg0 a).win 1).flush t = true := by
  unfold Pipeline.Window.flush
  rw [Bool.and_eq_true]
  refine ⟨rfl, ?_⟩
  rw [Bool.or_eq_true, decide_eq_true_eq, decide_eq_true_eq]
  have hlt : t.val < (cfg0 a).grid.N := t.isLt
  by_cases h : t.val + 1 = (cfg0 a).grid.N
  · exact Or.inl h
  · refine Or.inr ⟨by omega, ?_⟩
    rw [idx0_out, idx0_out]
    intro e
    have e0 := congrFun e 0
    simp at e0

theorem mem_blk0_out (a : (pcfg0 (F := F)).Adm) (t : Fin (cfg0 a).N) (i : S4096x128.Idx) :
    i ∈ (((cfg0 a).win 1).blk t).view.set ↔ 128 * t.val ≤ (i 0).val ∧ (i 0).val < 128 * t.val + 128 := by
  have e : (((cfg0 a).win 1).blk t).view.set = (((cfg0 a).win 1).rect t : Rect main_v49.ty.shape).set :=
    View.set_slice_whole main_v49 _
  rw [e]
  refine Iff.trans Rect.mem_set_unit ?_
  have h1 : (i 1).val < 128 := (i 1).isLt
  have q0 : ((cfg0 a).win 1).index t (0 : Fin 2) = t.val := congrFun (idx0_out a t) (0 : Fin 2)
  have q1 : ((cfg0 a).win 1).index t (1 : Fin 2) = 0 := congrFun (idx0_out a t) (1 : Fin 2)
  constructor
  · intro h
    have h0 : ((cfg0 a).win 1).index t (0 : Fin 2) * 128 ≤ (i 0).val ∧ (i 0).val < ((cfg0 a).win 1).index t (0 : Fin 2) * 128 + 128 := h (0 : Fin 2)
    rw [q0] at h0
    omega
  · intro h b
    match b with
    | ⟨0, _⟩ =>
      show ((cfg0 a).win 1).index t (0 : Fin 2) * 128 ≤ (i 0).val ∧ (i 0).val < ((cfg0 a).win 1).index t (0 : Fin 2) * 128 + 128
      rw [q0]
      omega
    | ⟨1, _⟩ =>
      show ((cfg0 a).win 1).index t (1 : Fin 2) * 128 ≤ (i 1).val ∧ (i 1).val < ((cfg0 a).win 1).index t (1 : Fin 2) * 128 + 128
      rw [q1]
      omega

theorem cover0_out (a : (pcfg0 (F := F)).Adm) (i : S4096x128.Idx) :
    ∃ t : Fin (cfg0 a).N, ((cfg0 a).win 1).flush t = true ∧ i ∈ (((cfg0 a).win 1).blk t).view.set := by
  have h0 : (i 0).val < 4096 := (i 0).isLt
  refine ⟨⟨(i 0).val / 128, by rw [N0_eq]; omega⟩, flush0_out a _, ?_⟩
  rw [mem_blk0_out]
  show 128 * ((i 0).val / 128) ≤ (i 0).val ∧ (i 0).val < 128 * ((i 0).val / 128) + 128
  omega

theorem emb0_out (a : (pcfg0 (F := F)).Adm) (t : Fin (cfg0 a).N) (y : S128x128.Idx) :
    (((cfg0 a).win 1).blk t).view.emb y
      = (ix2 (⟨128 * t.val + (y 0).val, by have := lt_of_lt_of_eq t.isLt (N0_eq a); have hy : (y 0).val < 128 := (y 0).isLt; omega⟩ : Fin 4096) (y 1) : S4096x128.Idx) := by
  have q0 : ((cfg0 a).win 1).index t (0 : Fin 2) = t.val := congrFun (idx0_out a t) (0 : Fin 2)
  have q1 : ((cfg0 a).win 1).index t (1 : Fin 2) = 0 := congrFun (idx0_out a t) (1 : Fin 2)
  funext b
  apply Fin.ext
  match b with
  | ⟨0, _⟩ =>
    show ((cfg0 a).win 1).index t (0 : Fin 2) * 128 + 1 * (y 0).val = 128 * t.val + (y 0).val
    rw [q0]
    omega
  | ⟨1, _⟩ =>
    show ((cfg0 a).win 1).index t (1 : Fin 2) * 128 + 1 * (y 1).val = (y 1).val
    rw [q1]
    omega

theorem idx1_out (a : (pcfg1 (F := F)).Adm) (t : Fin (cfg1 a).N) : ((cfg1 a).win 0).index t = ![t.val, 0] := idx1_out_closed t

theorem flush1_out (a : (pcfg1 (F := F)).Adm) (t : Fin (cfg1 a).N) : ((cfg1 a).win 0).flush t = true := by
  unfold Pipeline.Window.flush
  rw [Bool.and_eq_true]
  refine ⟨rfl, ?_⟩
  rw [Bool.or_eq_true, decide_eq_true_eq, decide_eq_true_eq]
  have hlt : t.val < (cfg1 a).grid.N := t.isLt
  by_cases h : t.val + 1 = (cfg1 a).grid.N
  · exact Or.inl h
  · refine Or.inr ⟨by omega, ?_⟩
    rw [idx1_out, idx1_out]
    intro e
    have e0 := congrFun e 0
    simp at e0

theorem mem_blk1_out (a : (pcfg1 (F := F)).Adm) (t : Fin (cfg1 a).N) (i : S4096x128.Idx) :
    i ∈ (((cfg1 a).win 0).blk t).view.set ↔ 256 * t.val ≤ (i 0).val ∧ (i 0).val < 256 * t.val + 256 := by
  have e : (((cfg1 a).win 0).blk t).view.set = (((cfg1 a).win 0).rect t : Rect main_v50.ty.shape).set :=
    View.set_slice_whole main_v50 _
  rw [e]
  refine Iff.trans Rect.mem_set_unit ?_
  have h1 : (i 1).val < 128 := (i 1).isLt
  have q0 : ((cfg1 a).win 0).index t (0 : Fin 2) = t.val := congrFun (idx1_out a t) (0 : Fin 2)
  have q1 : ((cfg1 a).win 0).index t (1 : Fin 2) = 0 := congrFun (idx1_out a t) (1 : Fin 2)
  constructor
  · intro h
    have h0 : ((cfg1 a).win 0).index t (0 : Fin 2) * 256 ≤ (i 0).val ∧ (i 0).val < ((cfg1 a).win 0).index t (0 : Fin 2) * 256 + 256 := h (0 : Fin 2)
    rw [q0] at h0
    omega
  · intro h b
    match b with
    | ⟨0, _⟩ =>
      show ((cfg1 a).win 0).index t (0 : Fin 2) * 256 ≤ (i 0).val ∧ (i 0).val < ((cfg1 a).win 0).index t (0 : Fin 2) * 256 + 256
      rw [q0]
      omega
    | ⟨1, _⟩ =>
      show ((cfg1 a).win 0).index t (1 : Fin 2) * 128 ≤ (i 1).val ∧ (i 1).val < ((cfg1 a).win 0).index t (1 : Fin 2) * 128 + 128
      rw [q1]
      omega

theorem cover1_out (a : (pcfg1 (F := F)).Adm) (i : S4096x128.Idx) :
    ∃ t : Fin (cfg1 a).N, ((cfg1 a).win 0).flush t = true ∧ i ∈ (((cfg1 a).win 0).blk t).view.set := by
  have h0 : (i 0).val < 4096 := (i 0).isLt
  refine ⟨⟨(i 0).val / 256, by rw [N1_eq]; omega⟩, flush1_out a _, ?_⟩
  rw [mem_blk1_out]
  show 256 * ((i 0).val / 256) ≤ (i 0).val ∧ (i 0).val < 256 * ((i 0).val / 256) + 256
  omega

theorem emb1_out (a : (pcfg1 (F := F)).Adm) (t : Fin (cfg1 a).N) (y : S256x128.Idx) :
    (((cfg1 a).win 0).blk t).view.emb y
      = (ix2 (⟨256 * t.val + (y 0).val, by have := lt_of_lt_of_eq t.isLt (N1_eq a); have hy : (y 0).val < 256 := (y 0).isLt; omega⟩ : Fin 4096) (y 1) : S4096x128.Idx) := by
  have q0 : ((cfg1 a).win 0).index t (0 : Fin 2) = t.val := congrFun (idx1_out a t) (0 : Fin 2)
  have q1 : ((cfg1 a).win 0).index t (1 : Fin 2) = 0 := congrFun (idx1_out a t) (1 : Fin 2)
  funext b
  apply Fin.ext
  match b with
  | ⟨0, _⟩ =>
    show ((cfg1 a).win 0).index t (0 : Fin 2) * 256 + 1 * (y 0).val = 256 * t.val + (y 0).val
    rw [q0]
    omega
  | ⟨1, _⟩ =>
    show ((cfg1 a).win 0).index t (1 : Fin 2) * 128 + 1 * (y 1).val = (y 1).val
    rw [q1]
    omega

end Cert.KernelIdeal.HandValue

end
-- ==== Proof.KIVal0.lean ====
import proofs.«410613_j6055903887911_1_alg».proof.Proof.KIBody0
import proofs.«410613_j6055903887911_1_alg».proof.Proof.KIPay0
import proofs.«410613_j6055903887911_1_alg».proof.Proof.KICover

noncomputable section

namespace Cert.KernelIdeal.HandValue

open Cert.KernelIdeal Cert.KernelIdeal.Gen
open Idealize.ShloMosaic Idealize.ShloMosaic.TcCoe Idealize.SL.Sem
open Idealize.ShloMosaic.ValueIdx
open scoped BigOperators

variable {F : FTy → Type} [FloatOps F]

theorem coords0_val : ∀ t : Fin grid0.N, ((grid0.coords t) 0).val = t.val := by decide +kernel

def gath0 (tb : S4096.Idx → BitVec 32) (A : S16384x16384.Idx → EReal) (E : S16384x128.Idx → EReal) : S4096x128.Idx → EReal :=
  fun i => ∑ k : Fin 16384, A (Hand.ridx0 (tb (ValueIdx.ix1 (i 0 : Fin 4096))).toNat k) * E (ValueIdx.ix2 k (i 1 : Fin 128))

theorem pay0_at (tb : S4096.Idx → BitVec 32) (A : S16384x16384.Idx → EReal) (E : S16384x128.Idx → EReal) (t : Fin grid0.N)
    (y : S128x128.Idx) (r : Fin 4096) (hr : r.val = 128 * t.val + (y 0).val) :
    Gen.k0_pay1 (F := Ideal) (Hand.rows0 (F := Ideal) tb A (grid0.coords t)) E y = gath0 tb A E (ValueIdx.ix2 r (y 1 : Fin 128)) := by
  obtain ⟨p, q, rfl⟩ : ∃ (p : Fin 128) (q : Fin 128), y = ValueIdx.ix2 p q := ⟨y 0, y 1, eq_ix2 y⟩
  rw [k0_pay1_apply]
  unfold gath0
  refine Finset.sum_congr rfl fun k _ => ?_
  have hk : Hand.tix0 (grid0.coords t) p = ValueIdx.ix1 r := by
    funext b
    apply Fin.ext
    match b with
    | ⟨0, _⟩ =>
      show 128 * ((grid0.coords t) 0).val + p.val = r.val
      rw [coords0_val t, hr]
  rw [Hand.rows0_apply]
  show A (Hand.ridx0 (tb (Hand.tix0 (grid0.coords t) p)).toNat k) * E (ValueIdx.ix2 k q) = _
  rw [hk]

theorem gath0_apply (tb : S4096.Idx → BitVec 32) (A : S16384x16384.Idx → EReal) (E : S16384x128.Idx → EReal) (r : Fin 4096) (d : Fin 128)
    (h : (tb (ValueIdx.ix1 r)).toNat < 16384) :
    gath0 tb A E (ValueIdx.ix2 r d)
      = ∑ k : Fin 16384, A (ValueIdx.ix2 (⟨(tb (ValueIdx.ix1 r)).toNat, h⟩ : Fin 16384) k) * E (ValueIdx.ix2 k d) := by
  unfold gath0
  refine Finset.sum_congr rfl fun k _ => ?_
  have e : Hand.ridx0 (tb (ValueIdx.ix1 r)).toNat k = ValueIdx.ix2 (⟨(tb (ValueIdx.ix1 r)).toNat, h⟩ : Fin 16384) k := by
    funext b
    match b with
    | ⟨0, _⟩ => exact Fin.ext (Nat.mod_eq_of_lt h)
    | ⟨1, _⟩ => rfl
  show A (Hand.ridx0 (tb (ValueIdx.ix1 r)).toNat k) * E (ValueIdx.ix2 k d) = _
  rw [e]

theorem idx0_in_closed : ∀ t : Fin grid0.N, cc0_transform_1 (grid0.coords t) = ![0, 0] := by decide +kernel
theorem idx0_in (a : (pcfg0 (F := F)).Adm) (t : Fin (cfg0 a).N) : ((cfg0 a).win 0).index t = ![0, 0] := idx0_in_closed t

theorem read_blk0_in (a : (pcfg0 (F := F)).Adm) (t : Fin (cfg0 a).N) (X : S16384x128.Idx → Elt F .f32) :
    ((((cfg0 a).win 0).blk t).view.read (Elt F) X : S16384x128.Idx → Elt F .f32) = X := by
  have q0 : ((cfg0 a).win 0).index t (0 : Fin 2) = 0 := congrFun (idx0_in a t) (0 : Fin 2)
  have q1 : ((cfg0 a).win 0).index t (1 : Fin 2) = 0 := congrFun (idx0_in a t) (1 : Fin 2)
  funext y
  show X ((((cfg0 a).win 0).blk t).view.emb y) = X y
  congr 1
  funext b
  apply Fin.ext
  match b with
  | ⟨0, _⟩ =>
    show ((cfg0 a).win 0).index t (0 : Fin 2) * 16384 + 1 * (y (0 : Fin 2)).val = (y (0 : Fin 2)).val
    rw [q0]; omega
  | ⟨1, _⟩ =>
    show ((cfg0 a).win 0).index t (1 : Fin 2) * 128 + 1 * (y (1 : Fin 2)).val = (y (1 : Fin 2)).val
    rw [q1]; omega

end Cert.KernelIdeal.HandValue

end
-- ==== Proof.KIArr0.lean ====
import proofs.«410613_j6055903887911_1_alg».proof.Proof.KIRegion0
import proofs.«410613_j6055903887911_1_alg».proof.Proof.KIVal0

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (a0 : (pcfg0 (F := Ideal)).Adm)

abbrev tb0 : S4096.Idx → BitVec 32 := a0.1 0
abbrev A0 (c : Dev nD) : S16384x16384.Idx → EReal := V c main_arg2
abbrev E0 (c : Dev nD) : S16384x128.Idx → EReal := V c main_arg3
abbrev out0 (c : Dev nD) : S4096x128.Idx → EReal := (Hand.dat0 V a0 c).arrAt 1 (cfg0 a0).N

theorem iblk0_emb (c : Dev nD) (t : Fin (cfg0 a0).N) :
    (Hand.iblk0 V a0 c 0 t : S16384x128.Idx → EReal) = V c main_arg3 :=
  read_blk0_in a0 t (V c main_arg3)

theorem cut_eq_read0 (t : Fin (cfg0 a0).N) (X : S128x128.Idx → EReal) (G : S4096x128.Idx → EReal)
    (hX : ∀ (y : S128x128.Idx) (r : Fin 4096), r.val = 128 * t.val + (y 0).val → X y = G (ValueIdx.ix2 r (y 1 : Fin 128))) :
    ((cfg0 a0).win 1).cut ((cfg0 a0).grid.coords t) X = (((cfg0 a0).win 1).blk t).view.read (Elt Ideal) G := by
  funext y
  show X (((cfg0 a0).win 1).xinj ((cfg0 a0).grid.coords t) y) = G ((((cfg0 a0).win 1).blk t).view.emb y)
  refine Eq.trans ?_ (congrArg G (emb0_out a0 t y).symm)
  exact hX _ _ rfl

theorem flushed0_eq (c : Dev nD) (t : Fin (cfg0 a0).N) :
    (Hand.dat0 V a0 c).flushed 1 t
      = (((cfg0 a0).win 1).blk t).view.read (Elt Ideal) (gath0 (a0.1 0) (V c main_arg2) (V c main_arg3)) := by
  show ((cfg0 a0).win 1).cut ((cfg0 a0).grid.coords t) ((Hand.dat0 V a0 c).after 1 t) = _
  rw [Hand.after0_1]
  refine cut_eq_read0 a0 t (Hand.outAt0 V a0 c t) (gath0 (a0.1 0) (V c main_arg2) (V c main_arg3)) fun y r hr => ?_
  unfold Hand.outAt0
  rw [iblk0_emb]
  exact pay0_at (a0.1 0) (V c main_arg2) (V c main_arg3) t y r hr

theorem arr0_eq (c : Dev nD) :
    (Hand.dat0 V a0 c).arrAt 1 (cfg0 a0).N = gath0 (a0.1 0) (V c main_arg2) (V c main_arg3) :=
  (Hand.dat0 V a0 c).arrAt_eq_of_cover 1 (gath0 (a0.1 0) (V c main_arg2) (V c main_arg3)) (fun t _ => flushed0_eq V a0 c t) (cover0_out a0)

end Cert.KernelIdeal.HandValue

end
-- ==== Proof.KIVal1.lean ====
import proofs.«410613_j6055903887911_1_alg».proof.Proof.KIBody1
import proofs.«410613_j6055903887911_1_alg».proof.Proof.KICover

noncomputable section

namespace Cert.KernelIdeal.HandValue

open Cert.KernelIdeal Cert.KernelIdeal.Gen
open Idealize.ShloMosaic Idealize.ShloMosaic.TcCoe Idealize.SL.Sem
open Idealize.ShloMosaic.ValueIdx

variable {F : FTy → Type} [FloatOps F]

theorem coords1_val : ∀ t : Fin grid1.N, ((grid1.coords t) 0).val = t.val := by decide +kernel

def gath1 (tb : S4096.Idx → BitVec 32) (E : S16384x128.Idx → Elt F .f32) : S4096x128.Idx → Elt F .f32 :=
  fun i => E (ValueIdx.ix2 (Fin.ofNat 16384 (tb (ValueIdx.ix1 (i 0 : Fin 4096))).toNat) (i 1 : Fin 128))

theorem rows1_at (tb : S4096.Idx → BitVec 32) (E : S16384x128.Idx → Elt F .f32) (t : Fin grid1.N) (y : S256x128.Idx)
    (r : Fin 4096) (hr : r.val = 256 * t.val + (y 0).val) :
    Hand.rows1 tb E (grid1.coords t) y = gath1 tb E (ValueIdx.ix2 r (y 1 : Fin 128)) := by
  have hk : Fin.ofNat 4096 (256 * ((grid1.coords t) 0).val + (y 0).val) = r := by
    apply Fin.ext
    have hlt := r.isLt
    show (256 * ((grid1.coords t) 0).val + (y 0).val) % 4096 = r.val
    rw [coords1_val t, ← hr]
    exact Nat.mod_eq_of_lt hlt
  unfold Hand.rows1 gath1
  rw [hk]

theorem rows1_eq_read (a : (pcfg1 (F := F)).Adm) (t : Fin (cfg1 a).N) (tb : S4096.Idx → BitVec 32) (E : S16384x128.Idx → Elt F .f32) :
    ((cfg1 a).win 0).cut ((cfg1 a).grid.coords t) (Hand.rows1 tb E ((cfg1 a).grid.coords t))
      = (((cfg1 a).win 0).blk t).view.read (Elt F) (gath1 tb E) := by
  funext y
  show Hand.rows1 tb E (grid1.coords t) (((cfg1 a).win 0).xinj ((cfg1 a).grid.coords t) y) = gath1 tb E ((((cfg1 a).win 0).blk t).view.emb y)
  refine Eq.trans ?_ (congrArg (gath1 tb E) (emb1_out a t y).symm)
  exact rows1_at tb E t _ _ rfl

theorem gath1_apply (tb : S4096.Idx → BitVec 32) (E : S16384x128.Idx → Elt F .f32) (r : Fin 4096) (d : Fin 128)
    (h : (tb (ValueIdx.ix1 r)).toNat < 16384) :
    gath1 tb E (ValueIdx.ix2 r d) = E (ValueIdx.ix2 (⟨(tb (ValueIdx.ix1 r)).toNat, h⟩ : Fin 16384) d) := by
  have e : Fin.ofNat 16384 (tb (ValueIdx.ix1 r)).toNat = (⟨(tb (ValueIdx.ix1 r)).toNat, h⟩ : Fin 16384) :=
    Fin.ext (Nat.mod_eq_of_lt h)
  show E (ValueIdx.ix2 (Fin.ofNat 16384 (tb (ValueIdx.ix1 r)).toNat) d) = _
  rw [e]

end Cert.KernelIdeal.HandValue

end
-- ==== Proof.KIArr1.lean ====
import proofs.«410613_j6055903887911_1_alg».proof.Proof.KIRegion1
import proofs.«410613_j6055903887911_1_alg».proof.Proof.KIVal1

noncomputable section

namespace Cert.KernelIdeal.HandValue

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]

variable (V : (c : Dev nD) → (b : Ref sig .tc) → Buf (Elt F) ((c : Thread nD τ).loc b)) (a1 : (pcfg1 (F := F)).Adm)

theorem flushed1_eq (c : Dev nD) (t : Fin (cfg1 a1).N) :
    (Hand.dat1 V a1 c).flushed 0 t = (((cfg1 a1).win 0).blk t).view.read (Elt F) (gath1 (a1.1 0) (V c main_arg3)) := by
  show ((cfg1 a1).win 0).cut ((cfg1 a1).grid.coords t) ((Hand.dat1 V a1 c).after 0 t) = _
  rw [Hand.after1_0]
  exact rows1_eq_read a1 t (a1.1 0) (V c main_arg3)

theorem arr1_eq (c : Dev nD) :
    (Hand.dat1 V a1 c).arrAt 0 (cfg1 a1).N = gath1 (a1.1 0) (V c main_arg3) :=
  (Hand.dat1 V a1 c).arrAt_eq_of_cover 0 (gath1 (a1.1 0) (V c main_arg3)) (fun t _ => flushed1_eq V a1 c t) (cover1_out a1)

end Cert.KernelIdeal.HandValue

end
-- ==== Proof.KIOut2.lean ====
import proofs.«410613_j6055903887911_1_alg».proof.Proof.KIBody2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand

open Idealize.ShloMosaic Idealize.ShloMosaic.ValueIdx

theorem ld_unit_apply {S : Shape} {e : EltTy} (X : S.Idx → Elt Ideal e) {off size : Fin S.rank → ℕ}
    (inb : ∀ a, off a + size a ≤ S.size a) (x : (Rect.unit off size inb).shape.Idx) (y : S.Idx)
    (h : ∀ a, (y a).val = off a + (x a).val) : View.ld X (Rect.unit off size inb) x = X y := by
  show X ((Rect.unit off size inb).idx x) = X y
  refine congrArg X (funext fun a => Fin.ext ?_)
  show off a + 1 * (x a).val = (y a).val
  rw [h a, Nat.one_mul]

theorem canon_unit_of_mem {S : Shape} {e : EltTy} {off size : Fin S.rank → ℕ} (inb : ∀ a, off a + size a ≤ S.size a)
    (w : (Rect.unit off size inb).shape.Idx → Elt Ideal e) (L : List (View.Piece (Elt Ideal) S e)) (y : S.Idx)
    (x : (Rect.unit off size inb).shape.Idx) (hx : ∀ a, (y a).val = off a + (x a).val) :
    View.canon ((⟨Rect.unit off size inb, w⟩ : View.Piece (Elt Ideal) S e) :: L) y = w x := by
  have hy : (Rect.unit off size inb).emb x = y := funext fun a => Fin.ext (by
    show off a + 1 * (x a).val = (y a).val
    rw [hx a, Nat.one_mul])
  rw [← hy]
  exact View.canon_cons_emb _ w L x

theorem canon_unit_of_not_mem {S : Shape} {e : EltTy} {off size : Fin S.rank → ℕ} (inb : ∀ a, off a + size a ≤ S.size a)
    (w : (Rect.unit off size inb).shape.Idx → Elt Ideal e) (L : List (View.Piece (Elt Ideal) S e)) (y : S.Idx)
    (a : Fin S.rank) (ha : (y a).val < off a ∨ off a + size a ≤ (y a).val) :
    View.canon ((⟨Rect.unit off size inb, w⟩ : View.Piece (Elt Ideal) S e) :: L) y = View.canon L y :=
  View.canon_cons_of_not_mem _ L (by
    show y ∉ (Rect.unit off size inb).set
    rw [Rect.mem_set_unit]
    intro h
    have := h a
    omega)

theorem lhs_dot_0 (i : S2048x128.Idx) (q : dot_S2048x128_S128x128_S2048x128_1_1_0_0_n_n.contr.Idx) :
    (dot_S2048x128_S128x128_S2048x128_1_1_0_0_n_n.lhsIdx i q 0).val = (i 0).val := by
  unfold DotDims.lhsIdx
  rw [dif_neg (show ¬(0 : Fin S2048x128.rank) ∈ dot_S2048x128_S128x128_S2048x128_1_1_0_0_n_n.lhsBatch by decide),
    dif_pos (show (0 : Fin S2048x128.rank) ∈ dot_S2048x128_S128x128_S2048x128_1_1_0_0_n_n.lhsNonContracting by decide)]
  rfl

theorem lhs_dot_1 (i : S2048x128.Idx) (q : dot_S2048x128_S128x128_S2048x128_1_1_0_0_n_n.contr.Idx) :
    (dot_S2048x128_S128x128_S2048x128_1_1_0_0_n_n.lhsIdx i q 1).val = (q ⟨0, by decide⟩).val :=
  dot_S2048x128_S128x128_S2048x128_1_1_0_0_n_n.lhsIdx_val_of_single rfl i q

theorem rhs_dot_0 (i : S2048x128.Idx) (q : dot_S2048x128_S128x128_S2048x128_1_1_0_0_n_n.contr.Idx) :
    (dot_S2048x128_S128x128_S2048x128_1_1_0_0_n_n.rhsIdx i q 0).val = (i 1).val := by
  unfold DotDims.rhsIdx
  rw [dif_neg (show ¬(0 : Fin S128x128.rank) ∈ dot_S2048x128_S128x128_S2048x128_1_1_0_0_n_n.rhsBatch by decide),
    dif_pos (show (0 : Fin S128x128.rank) ∈ dot_S2048x128_S128x128_S2048x128_1_1_0_0_n_n.rhsNonContracting by decide)]
  rfl

theorem rhs_dot_1 (i : S2048x128.Idx) (q : dot_S2048x128_S128x128_S2048x128_1_1_0_0_n_n.contr.Idx) :
    (dot_S2048x128_S128x128_S2048x128_1_1_0_0_n_n.rhsIdx i q 1).val = (q ⟨0, by decide⟩).val :=
  dot_S2048x128_S128x128_S2048x128_1_1_0_0_n_n.rhsIdx_val_of_single rfl i q

theorem matmul_rows_apply (A : FVec Ideal S2048x128 .bf16) (B : FVec Ideal S128x128 .bf16) (r : Fin 2048) (k : Fin 128) :
    matmul dot_S2048x128_S128x128_S2048x128_1_1_0_0_n_n none A B (constant (F := Ideal) S2048x128 .f32 0x00000000#32) (ix2 r k)
      = ∑ d : Fin 128, A (ix2 r d) * B (ix2 k d) := by
  simp only [matmul]
  rw [Ideal.matmul_constant_zero_apply,
    ← Equiv.sum_comp (contrEquiv1 dot_S2048x128_S128x128_S2048x128_1_1_0_0_n_n 128 rfl rfl).symm]
  refine Finset.sum_congr rfl fun d _ => ?_
  have hk := contrEquiv1_symm_val dot_S2048x128_S128x128_S2048x128_1_1_0_0_n_n 128 rfl rfl d
  have el : dot_S2048x128_S128x128_S2048x128_1_1_0_0_n_n.lhsIdx (ix2 r k)
      ((contrEquiv1 dot_S2048x128_S128x128_S2048x128_1_1_0_0_n_n 128 rfl rfl).symm d) = ix2 r d :=
    funext fun a => Fin.ext (by
      match a with
      | ⟨0, _⟩ => exact lhs_dot_0 _ _
      | ⟨1, _⟩ => exact (lhs_dot_1 _ _).trans hk)
  have er : dot_S2048x128_S128x128_S2048x128_1_1_0_0_n_n.rhsIdx (ix2 r k)
      ((contrEquiv1 dot_S2048x128_S128x128_S2048x128_1_1_0_0_n_n 128 rfl rfl).symm d) = ix2 k d :=
    funext fun a => Fin.ext (by
      match a with
      | ⟨0, _⟩ => exact rhs_dot_0 _ _
      | ⟨1, _⟩ => exact (rhs_dot_1 _ _).trans hk)
  rw [el, er]

theorem layer_apply (X : Vec Ideal S2048x128 .f32) (W : Vec Ideal S1x128x128 .f32) (B : Vec Ideal S1x128 .f32)
    (hX : S2048x128.ShapeCasts S2048x128) (hW : S1x128x128.ShapeCasts S128x128) (hB : S1x128.ShapeCasts S128)
    (hB' : S128.ShapeCasts S1x128) (hbr : S1x128.Broadcasts S2048x128) (hlt : FTy.bf16.bits < FTy.f32.bits)
    (r : Fin 2048) (k : Fin 128) :
    maximumf
        (addf
          (matmul dot_S2048x128_S128x128_S2048x128_1_1_0_0_n_n none
            (truncf .bf16 (shapeCast S2048x128 X hX) hlt) (truncf .bf16 (shapeCast S128x128 W hW) hlt)
            (constant (F := Ideal) S2048x128 .f32 0x00000000#32))
          (broadcastTo S2048x128 (shapeCast S1x128 (shapeCast S128 B hB) hB') hbr))
        (broadcast S2048x128 (Scalar.ofBits (F := Ideal) .f32 0x00000000#32)) (ix2 r k)
      = max (∑ d : Fin 128, X (ix2 r d) * W (ix3 (0 : Fin 1) k d) + B (ix2 (0 : Fin 1) k)) 0 := by
  rw [maximumf_apply, addf_apply, matmul_rows_apply, broadcast_apply, broadcastTo_1b_ab_apply, shapeCast_a_1a_apply,
    shapeCast_1a_a_apply]
  have h0 : Scalar.ofBits (F := Ideal) .f32 0x00000000#32 = (0 : EReal) := Ideal.ofBits_zero_f32
  rw [h0]
  refine congrArg (fun s => max (s + B (ix2 (0 : Fin 1) k)) 0) (Finset.sum_congr rfl fun d _ => ?_)
  rw [truncf_apply, truncf_apply, shapeCast_self, shapeCast_1ab_ab_apply]

theorem pay_layer0_apply (x1 : Vec Ideal S2048x128 .f32) (x2 : Vec Ideal S3x128x128 .f32) (x3 : Vec Ideal S3x128 .f32)
    (r : Fin 2048) (k : Fin 128) :
    k2_pay3 (View.ld x1 rX) (View.ld x2 rW0) (View.ld x3 rB0) (ix2 r k)
      = max (∑ d : Fin 128, x1 (ix2 r d) * x2 (ix3 (0 : Fin 3) k d) + x3 (ix2 (0 : Fin 3) k)) 0 := by
  unfold k2_pay3 k2_pay2
  refine (layer_apply _ _ _ _ _ _ _ _ _ r k).trans ?_
  refine congrArg₂ (fun s b => max (s + b) 0) (Finset.sum_congr rfl fun d _ => ?_) ?_
  · rw [ld_unit_apply x1 _ _ (ix2 r d) (fun a => by match a with | ⟨0, _⟩ => exact (Nat.zero_add _).symm | ⟨1, _⟩ => exact (Nat.zero_add _).symm),
      ld_unit_apply x2 _ _ (ix3 (0 : Fin 3) k d) (fun a => by
        match a with | ⟨0, _⟩ => rfl | ⟨1, _⟩ => exact (Nat.zero_add _).symm | ⟨2, _⟩ => exact (Nat.zero_add _).symm)]
  · exact ld_unit_apply x3 _ _ (ix2 (0 : Fin 3) k) (fun a => by
      match a with | ⟨0, _⟩ => rfl | ⟨1, _⟩ => exact (Nat.zero_add _).symm)

theorem pay_layer1_apply (x1 : Vec Ideal S2048x128 .f32) (x2 : Vec Ideal S3x128x128 .f32) (x3 : Vec Ideal S3x128 .f32)
    (r : Fin 2048) (k : Fin 128) :
    k2_pay4 (View.ld x1 rX) (View.ld x2 rW1) (View.ld x3 rB1) (ix2 r k)
      = max (∑ d : Fin 128, x1 (ix2 r d) * x2 (ix3 (1 : Fin 3) k d) + x3 (ix2 (1 : Fin 3) k)) 0 := by
  unfold k2_pay4 k2_pay2
  refine (layer_apply _ _ _ _ _ _ _ _ _ r k).trans ?_
  refine congrArg₂ (fun s b => max (s + b) 0) (Finset.sum_congr rfl fun d _ => ?_) ?_
  · rw [ld_unit_apply x1 _ _ (ix2 r d) (fun a => by match a with | ⟨0, _⟩ => exact (Nat.zero_add _).symm | ⟨1, _⟩ => exact (Nat.zero_add _).symm),
      ld_unit_apply x2 _ _ (ix3 (1 : Fin 3) k d) (fun a => by
        match a with | ⟨0, _⟩ => rfl | ⟨1, _⟩ => exact (Nat.zero_add _).symm | ⟨2, _⟩ => exact (Nat.zero_add _).symm)]
  · exact ld_unit_apply x3 _ _ (ix2 (1 : Fin 3) k) (fun a => by
      match a with | ⟨0, _⟩ => rfl | ⟨1, _⟩ => exact (Nat.zero_add _).symm)

theorem pay_layer2_apply (x1 : Vec Ideal S2048x128 .f32) (x2 : Vec Ideal S3x128x128 .f32) (x3 : Vec Ideal S3x128 .f32)
    (r : Fin 2048) (k : Fin 128) :
    k2_pay1 (k2_pay2 (View.ld x1 rX)) (k2_pay5 (View.ld x2 rW2)) (k2_pay6 (View.ld x3 rB2)) (ix2 r k)
      = max (∑ d : Fin 128, x1 (ix2 r d) * x2 (ix3 (2 : Fin 3) k d) + x3 (ix2 (2 : Fin 3) k)) 0 := by
  unfold k2_pay1 k2_pay2 k2_pay5 k2_pay6
  refine (layer_apply _ _ _ _ _ _ _ _ _ r k).trans ?_
  refine congrArg₂ (fun s b => max (s + b) 0) (Finset.sum_congr rfl fun d _ => ?_) ?_
  · rw [ld_unit_apply x1 _ _ (ix2 r d) (fun a => by match a with | ⟨0, _⟩ => exact (Nat.zero_add _).symm | ⟨1, _⟩ => exact (Nat.zero_add _).symm),
      ld_unit_apply x2 _ _ (ix3 (2 : Fin 3) k d) (fun a => by
        match a with | ⟨0, _⟩ => rfl | ⟨1, _⟩ => exact (Nat.zero_add _).symm | ⟨2, _⟩ => exact (Nat.zero_add _).symm)]
  · exact ld_unit_apply x3 _ _ (ix2 (2 : Fin 3) k) (fun a => by
      match a with | ⟨0, _⟩ => rfl | ⟨1, _⟩ => exact (Nat.zero_add _).symm)

theorem canon_piecesX_apply (x1 : Vec Ideal S2048x128 .f32) (x2 : Vec Ideal S3x128x128 .f32) (x3 : Vec Ideal S3x128 .f32)
    (r : Fin 2048) (l : Fin 3) (k : Fin 128) (c : Fin 384) (hc : c.val = 128 * l.val + k.val) :
    View.canon (piecesX x1 x2 x3) (ix2 r c)
      = max (∑ d : Fin 128, x1 (ix2 r d) * x2 (ix3 l k d) + x3 (ix2 l k)) 0 := by
  unfold piecesX
  have hk := k.isLt
  match l, hc with
  | ⟨0, _⟩, hc =>
    have hc' : c.val = 128 * 0 + k.val := hc
    refine (canon_unit_of_not_mem inb_S2048x384_S2048x128_0_256 _ _ (ix2 r c) 1 (Or.inl (by show c.val < 256; omega))).trans ?_
    refine (canon_unit_of_not_mem inb_S2048x384_S2048x128_0_128 _ _ (ix2 r c) 1 (Or.inl (by show c.val < 128; omega))).trans ?_
    refine (canon_unit_of_mem inb_S2048x384_S2048x128_0_0 _ _ (ix2 r c) (ix2 r k) (fun a => by
        match a with
        | ⟨0, _⟩ => exact (Nat.zero_add _).symm
        | ⟨1, _⟩ => show c.val = 0 + k.val; omega)).trans ?_
    exact pay_layer0_apply x1 x2 x3 r k
  | ⟨1, _⟩, hc =>
    have hc' : c.val = 128 * 1 + k.val := hc
    refine (canon_unit_of_not_mem inb_S2048x384_S2048x128_0_256 _ _ (ix2 r c) 1 (Or.inl (by show c.val < 256; omega))).trans ?_
    refine (canon_unit_of_mem inb_S2048x384_S2048x128_0_128 _ _ (ix2 r c) (ix2 r k) (fun a => by
        match a with
        | ⟨0, _⟩ => exact (Nat.zero_add _).symm
        | ⟨1, _⟩ => show c.val = 128 + k.val; omega)).trans ?_
    exact pay_layer1_apply x1 x2 x3 r k
  | ⟨2, _⟩, hc =>
    have hc' : c.val = 128 * 2 + k.val := hc
    refine (canon_unit_of_mem inb_S2048x384_S2048x128_0_256 _ _ (ix2 r c) (ix2 r k) (fun a => by
        match a with
        | ⟨0, _⟩ => exact (Nat.zero_add _).symm
        | ⟨1, _⟩ => show c.val = 256 + k.val; omega)).trans ?_
    exact pay_layer2_apply x1 x2 x3 r k

end Cert.KernelIdeal.HandValue

end
-- ==== Proof.KIVal2.lean ====
import proofs.«410613_j6055903887911_1_alg».proof.Proof.KIRegion2
import proofs.«410613_j6055903887911_1_alg».proof.Proof.KIOut2
import Idealize.ShloMosaic.Lib.ValueIdx
import Idealize.ShloMosaic.Lib.Pipeline.Value

set_option maxRecDepth 16384

noncomputable section

open scoped BigOperators

namespace Cert.KernelIdeal.HandValue

open Cert.KernelIdeal Cert.KernelIdeal.Gen Cert.KernelIdeal.Hand

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem iblk2_0_apply (c : Dev nD) (t : Fin cfg2.N) (r : Fin 2048) (d : Fin 128) (R : Fin 8192) (hR : R.val = 2048 * t.val + r.val) :
    (iblk2 V c 0 t : Vec Ideal S2048x128 .f32) (ix2 r d) = (V c main_v51 : S8192x128.Idx → Elt Ideal .f32) (ix2 R d) := by
  obtain ⟨e0, e1, -⟩ := idx_facts2 t
  show V c main_v51 (((cfg2.win 0).blk t).view.emb (ix2 r d)) = V c main_v51 (ix2 R d)
  refine congrArg (V c main_v51) (funext fun a => Fin.ext ?_)
  match a with
  | ⟨0, _⟩ => show win2_0.index t (0 : Fin 2) * 2048 + 1 * r.val = R.val; omega
  | ⟨1, _⟩ => show win2_0.index t (1 : Fin 2) * 128 + 1 * d.val = d.val; omega

theorem iblk2_1_apply (c : Dev nD) (t : Fin cfg2.N) (l : Fin 3) (k d : Fin 128) :
    (iblk2 V c 1 t : Vec Ideal S3x128x128 .f32) (ix3 l k d) = (V c main_arg4 : S3x128x128.Idx → Elt Ideal .f32) (ix3 l k d) := by
  obtain ⟨-, -, e0, e1, e2, -⟩ := idx_facts2 t
  show V c main_arg4 (((cfg2.win 1).blk t).view.emb (ix3 l k d)) = V c main_arg4 (ix3 l k d)
  refine congrArg (V c main_arg4) (funext fun a => Fin.ext ?_)
  match a with
  | ⟨0, _⟩ => show win2_1.index t (0 : Fin 3) * 3 + 1 * l.val = l.val; omega
  | ⟨1, _⟩ => show win2_1.index t (1 : Fin 3) * 128 + 1 * k.val = k.val; omega
  | ⟨2, _⟩ => show win2_1.index t (2 : Fin 3) * 128 + 1 * d.val = d.val; omega

theorem iblk2_2_apply (c : Dev nD) (t : Fin cfg2.N) (l : Fin 3) (k : Fin 128) :
    (iblk2 V c 2 t : Vec Ideal S3x128 .f32) (ix2 l k) = (V c main_arg5 : S3x128.Idx → Elt Ideal .f32) (ix2 l k) := by
  obtain ⟨-, -, -, -, -, e0, e1, -⟩ := idx_facts2 t
  show V c main_arg5 (((cfg2.win 2).blk t).view.emb (ix2 l k)) = V c main_arg5 (ix2 l k)
  refine congrArg (V c main_arg5) (funext fun a => Fin.ext ?_)
  match a with
  | ⟨0, _⟩ => show win2_2.index t (0 : Fin 2) * 3 + 1 * l.val = l.val; omega
  | ⟨1, _⟩ => show win2_2.index t (1 : Fin 2) * 128 + 1 * k.val = k.val; omega

theorem mem_blk2_3 (t : Fin cfg2.N) (i : S8192x384.Idx) :
    i ∈ ((cfg2.win 3).blk t).view.set ↔ ∀ a : Fin 2, win2_3.index t a * S2048x384.size a ≤ (i a).val ∧ (i a).val < win2_3.index t a * S2048x384.size a + S2048x384.size a := by
  show i ∈ ((View.whole main_v52).slice (win2_3.rect t)).set ↔ _
  rw [View.set_slice_whole, Rect.mem_set_unit]
  exact Iff.rfl

theorem cover2_3 (i : S8192x384.Idx) : ∃ t : Fin cfg2.N, (cfg2.win 3).flush t = true ∧ i ∈ ((cfg2.win 3).blk t).view.set := by
  have hi0 : (i 0).val < 8192 := (i 0).isLt
  have hi1 : (i 1).val < 384 := (i 1).isLt
  refine ⟨⟨(i 0).val / 2048, by show (i 0).val / 2048 < 4; omega⟩, flush2_3 _, ?_⟩
  rw [mem_blk2_3]
  obtain ⟨-, -, -, -, -, -, -, e0, e1⟩ := idx_facts2 ⟨(i 0).val / 2048, by show (i 0).val / 2048 < 4; omega⟩
  intro a
  match a with
  | ⟨0, _⟩ =>
    show win2_3.index _ (0 : Fin 2) * 2048 ≤ (i 0).val ∧ (i 0).val < win2_3.index _ (0 : Fin 2) * 2048 + 2048
    rw [e0]; show (i 0).val / 2048 * 2048 ≤ (i 0).val ∧ (i 0).val < (i 0).val / 2048 * 2048 + 2048; omega
  | ⟨1, _⟩ =>
    show win2_3.index _ (1 : Fin 2) * 384 ≤ (i 1).val ∧ (i 1).val < win2_3.index _ (1 : Fin 2) * 384 + 384
    rw [e1]; omega

def G2 (a1 : S8192x128.Idx → EReal) (a2 : S3x128x128.Idx → EReal) (a3 : S3x128.Idx → EReal) : S8192x384.Idx → EReal :=
  fun i => max (∑ d : Fin 128, a1 (ix2 (i 0) d)
      * a2 (ix3 (⟨(i 1).val / 128, by have : (i 1).val < 384 := (i 1).isLt; omega⟩ : Fin 3) (⟨(i 1).val % 128, Nat.mod_lt _ (by decide)⟩ : Fin 128) d)
    + a3 (ix2 (⟨(i 1).val / 128, by have : (i 1).val < 384 := (i 1).isLt; omega⟩ : Fin 3) (⟨(i 1).val % 128, Nat.mod_lt _ (by decide)⟩ : Fin 128))) 0

theorem flushed2_3_eq (c : Dev nD) (t : Fin cfg2.N) :
    (dat2 V c).flushed 3 t = ((cfg2.win 3).blk t).view.read (Elt Ideal) (G2 (V c main_v51) (V c main_arg4) (V c main_arg5)) := by
  show (cfg2.win 3).cut (grid2.coords t) ((dat2 V c).after 3 t) = _
  rw [after2_3]
  unfold outAt2
  obtain ⟨-, -, -, -, -, -, -, e0, e1⟩ := idx_facts2 t
  funext j
  obtain ⟨r, cc, rfl⟩ : ∃ (r : Fin 2048) (cc : Fin 384), j = ix2 r cc := ⟨j 0, j 1, eq_ix2 j⟩
  have hcc := cc.isLt
  have hr := r.isLt
  have ht : t.val < 4 := t.isLt
  show View.canon (piecesX (iblk2 V c 0 t) (iblk2 V c 1 t) (iblk2 V c 2 t)) (ix2 r cc)
    = G2 (V c main_v51) (V c main_arg4) (V c main_arg5) (((cfg2.win 3).blk t).view.emb (ix2 r cc))
  rw [canon_piecesX_apply _ _ _ r ⟨cc.val / 128, by omega⟩ ⟨cc.val % 128, Nat.mod_lt _ (by decide)⟩ cc
    (by show cc.val = 128 * (cc.val / 128) + cc.val % 128; omega)]
  have hemb : ((cfg2.win 3).blk t).view.emb (ix2 r cc) = (ix2 (⟨2048 * t.val + r.val, by omega⟩ : Fin 8192) cc : S8192x384.Idx) := by
    funext a; apply Fin.ext
    match a with
    | ⟨0, _⟩ => show win2_3.index t (0 : Fin 2) * 2048 + 1 * r.val = 2048 * t.val + r.val; omega
    | ⟨1, _⟩ => show win2_3.index t (1 : Fin 2) * 384 + 1 * cc.val = cc.val; omega
  rw [hemb]
  unfold G2
  refine congrArg₂ (fun s b => max (s + b) 0) (Finset.sum_congr rfl fun d _ => ?_) ?_
  · rw [iblk2_0_apply V c t r d ⟨2048 * t.val + r.val, by omega⟩ rfl, iblk2_1_apply]
  · rw [iblk2_2_apply]

theorem final2_3 (c : Dev nD) : (dat2 V c).arrAt 3 cfg2.N = G2 (V c main_v51) (V c main_arg4) (V c main_arg5) :=
  (dat2 V c).arrAt_eq_of_cover 3 (G2 (V c main_v51) (V c main_arg4) (V c main_arg5)) (fun t _ => flushed2_3_eq V c t) cover2_3

omit V in

theorem G2_apply (a1 : S8192x128.Idx → EReal) (a2 : S3x128x128.Idx → EReal) (a3 : S3x128.Idx → EReal)
    (R : Fin 8192) (l : Fin 3) (k : Fin 128) (cc : Fin 384) (hc : cc.val = 128 * l.val + k.val) :
    G2 a1 a2 a3 (ix2 R cc) = max (∑ d : Fin 128, a1 (ix2 R d) * a2 (ix3 l k d) + a3 (ix2 l k)) 0 := by
  unfold G2
  have hl := l.isLt
  have hk := k.isLt
  have e1 : (⟨((ix2 R cc : S8192x384.Idx) 1).val / 128, by have : ((ix2 R cc : S8192x384.Idx) 1).val < 384 := ((ix2 R cc : S8192x384.Idx) 1).isLt; omega⟩ : Fin 3) = l :=
    Fin.ext (by show cc.val / 128 = l.val; omega)
  have e2 : (⟨((ix2 R cc : S8192x384.Idx) 1).val % 128, Nat.mod_lt _ (by decide)⟩ : Fin 128) = k :=
    Fin.ext (by show cc.val % 128 = k.val; omega)
  rw [e1, e2]

end Cert.KernelIdeal.HandValue

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SA : Shape := ⟨2, ![16384, 16384]⟩

abbrev SE : Shape := ⟨2, ![16384, 128]⟩

abbrev SW : Shape := ⟨3, ![3, 128, 128]⟩

abbrev SB : Shape := ⟨2, ![3, 128]⟩

abbrev SO : Shape := ⟨2, ![8192, 384]⟩

def x (A : SA.Idx → EReal) (emb : SE.Idx → EReal) (p n : Fin 4096 → Fin 16384) (r : Fin 8192) (d : Fin 128) : EReal :=
  if h : r.val < 4096 then ∑ k : Fin 16384, A (ix2 (p ⟨r.val, h⟩) k) * emb (ix2 k d)
  else emb (ix2 (n ⟨r.val - 4096, by have := r.isLt; omega⟩) d)

def G (A : SA.Idx → EReal) (emb : SE.Idx → EReal) (W : SW.Idx → EReal) (b : SB.Idx → EReal)
    (p n : Fin 4096 → Fin 16384) (r : Fin 8192) (l : Fin 3) (k : Fin 128) : EReal :=
  max ((∑ d : Fin 128, x A emb p n r d * W (ix3 l k d)) + b (ix2 l k)) 0

abbrev col (l : Fin 3) (k : Fin 128) : Fin 384 := ⟨128 * l.val + k.val, by have := l.isLt; have := k.isLt; omega⟩

def out (A : SA.Idx → EReal) (emb : SE.Idx → EReal) (W : SW.Idx → EReal) (b : SB.Idx → EReal)
    (p n : Fin 4096 → Fin 16384) : SO.Idx → EReal := fun j =>
  G A emb W b p n (j 0) ⟨(j 1).val / 128, by have := idx2_lt1 j; omega⟩ ⟨(j 1).val % 128, Nat.mod_lt _ (by decide)⟩

theorem out_apply (A : SA.Idx → EReal) (emb : SE.Idx → EReal) (W : SW.Idx → EReal) (b : SB.Idx → EReal)
    (p n : Fin 4096 → Fin 16384) (r : Fin 8192) (l : Fin 3) (k : Fin 128) :
    out A emb W b p n (ix2 r (col l k)) = G A emb W b p n r l k := by
  have hl : (128 * l.val + k.val) / 128 = l.val := by have := k.isLt; omega
  have hk : (128 * l.val + k.val) % 128 = k.val := by have := k.isLt; omega
  show G A emb W b p n r ⟨(128 * l.val + k.val) / 128, _⟩ ⟨(128 * l.val + k.val) % 128, _⟩ = _
  congr 1
  · exact Fin.ext hl
  · exact Fin.ext hk

end Cert.Spec

end
-- ==== Proof.KIBridge2.lean ====
import proofs.«410613_j6055903887911_1_alg».proof.Proof.KIVal2
import proofs.«410613_j6055903887911_1_alg».proof.Proof.Spec

set_option maxRecDepth 16384

noncomputable section

open scoped BigOperators

namespace Cert.KernelIdeal.HandValue

open Cert.KernelIdeal Cert.KernelIdeal.Gen Cert.KernelIdeal.Hand

open Idealize.ShloMosaic Idealize.ShloMosaic.ValueIdx

theorem concat_rows_left (x49 x50 : S4096x128.Idx → EReal) (R : Fin 8192) (d : Fin 128) (h : R.val < 4096) :
    concatenate S8192x128 0 [⟨S4096x128, x49⟩, ⟨S4096x128, x50⟩] concatenates_S4096x128_S4096x128_S8192x128_d0 (ix2 R d)
      = x49 (ix2 (⟨R.val, h⟩ : Fin 4096) d) :=
  concatenate_pair_apply_left (0 : Fin S8192x128.rank) x49 x50 concatenates_S4096x128_S4096x128_S8192x128_d0 (ix2 R d) rfl
    (ix2 (⟨R.val, h⟩ : Fin 4096) d) (fun b => by match b with | ⟨0, _⟩ => rfl | ⟨1, _⟩ => rfl)

theorem concat_rows_right (x49 x50 : S4096x128.Idx → EReal) (R : Fin 8192) (d : Fin 128) (h : ¬R.val < 4096) :
    concatenate S8192x128 0 [⟨S4096x128, x49⟩, ⟨S4096x128, x50⟩] concatenates_S4096x128_S4096x128_S8192x128_d0 (ix2 R d)
      = x50 (ix2 (⟨R.val - 4096, by have := R.isLt; omega⟩ : Fin 4096) d) :=
  concatenate_pair_apply_right (0 : Fin S8192x128.rank) x49 x50 concatenates_S4096x128_S4096x128_S8192x128_d0 (ix2 R d) rfl rfl
    (ix2 (⟨R.val - 4096, by have := R.isLt; omega⟩ : Fin 4096) d)
    (fun b hb => by
      match b, hb with
      | ⟨0, _⟩, hb => exact absurd rfl hb
      | ⟨1, _⟩, _ => rfl)
    (by show R.val - 4096 + 4096 = R.val; omega)

theorem out_of_parts (x49 x50 : S4096x128.Idx → EReal) (A : S16384x16384.Idx → EReal) (emb : S16384x128.Idx → EReal)
    (W : S3x128x128.Idx → EReal) (b : S3x128.Idx → EReal) (p n : Fin 4096 → Fin 16384)
    (h49 : ∀ (r : Fin 4096) (d : Fin 128), x49 (ix2 r d) = ∑ k : Fin 16384, A (ix2 (p r) k) * emb (ix2 k d))
    (h50 : ∀ (r : Fin 4096) (d : Fin 128), x50 (ix2 r d) = emb (ix2 (n r) d)) :
    G2 (concatenate S8192x128 0 [⟨S4096x128, x49⟩, ⟨S4096x128, x50⟩] concatenates_S4096x128_S4096x128_S8192x128_d0) W b
      = Cert.Spec.out A emb W b p n := by
  funext j
  obtain ⟨R, cc, rfl⟩ : ∃ (R : Fin 8192) (cc : Fin 384), j = ix2 R cc := ⟨j 0, j 1, eq_ix2 j⟩
  have hcc := cc.isLt
  rw [G2_apply _ _ _ R ⟨cc.val / 128, by omega⟩ ⟨cc.val % 128, Nat.mod_lt _ (by decide)⟩ cc
    (by show cc.val = 128 * (cc.val / 128) + cc.val % 128; omega)]
  show _ = Cert.Spec.G A emb W b p n R ⟨cc.val / 128, _⟩ ⟨cc.val % 128, _⟩
  unfold Cert.Spec.G
  refine congrArg (fun s => max (s + b (ix2 (⟨cc.val / 128, by omega⟩ : Fin 3) (⟨cc.val % 128, Nat.mod_lt _ (by decide)⟩ : Fin 128))) 0)
    (Finset.sum_congr rfl fun d _ => ?_)
  refine congrArg (· * W (ix3 (⟨cc.val / 128, by omega⟩ : Fin 3) (⟨cc.val % 128, Nat.mod_lt _ (by decide)⟩ : Fin 128) d)) ?_
  unfold Cert.Spec.x
  by_cases h : R.val < 4096
  · rw [dif_pos h, concat_rows_left x49 x50 R d h, h49]
  · rw [dif_neg h, concat_rows_right x49 x50 R d h, h50]

end Cert.KernelIdeal.HandValue

end
-- ==== Proof.KIHost2.lean ====
import proofs.«410613_j6055903887911_1_alg».proof.Proof.KICommon
import proofs.«410613_j6055903887911_1_alg».proof.Proof.Gen.KernelIdeal.Regions
import Idealize.ShloMosaic.Lib.StableHlo.Run

set_option maxRecDepth 1220

noncomputable section

namespace Cert.KernelIdeal.Hand

open Cert.KernelIdeal Cert.KernelIdeal.Gen

open Idealize.ShloMosaic Idealize.ShloMosaic.TcCoe Idealize.SL.Sem

variable {F : FTy → Type} [FloatOps F]

theorem after_hostOps2_v51 (X : Valuation τ sig (Elt F)) :
    StableHlo.after (hostOps2 (F := F)) X main_v51
      = concatenate S8192x128 0 [⟨S4096x128, X main_v49⟩, ⟨S4096x128, X main_v50⟩] concatenates_S4096x128_S4096x128_S8192x128_d0 := by
  after_results

theorem after_hostOps2_of (X : Valuation τ sig (Elt F)) (r : Ref sig .tc) (h : r ∉ hostOps2_W) :
    StableHlo.after (hostOps2 (F := F)) X r = X r :=
  StableHlo.after_of_writes_sub hostOps2 _ hostOps2_writes h

end Cert.KernelIdeal.Hand

end
-- ==== Proof.KIValue.lean ====
import proofs.«410613_j6055903887911_1_alg».proof.Proof.KIDats
import proofs.«410613_j6055903887911_1_alg».proof.Proof.KIArr0
import proofs.«410613_j6055903887911_1_alg».proof.Proof.KIArr1
import proofs.«410613_j6055903887911_1_alg».proof.Proof.KIVal2
import proofs.«410613_j6055903887911_1_alg».proof.Proof.KIBridge2
import proofs.«410613_j6055903887911_1_alg».proof.Proof.KIHost2
import proofs.«410613_j6055903887911_1_alg».proof.Proof.KITables

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem

variable [hP : Cert.Pre_finite_inputs.Facts]
variable (m : (ℓ : Loc nD τ sig) → Buf (Elt Ideal) ℓ)

def ktbl (t : (⟨S4096, .i32⟩ : BufTy).Contents (Elt Ideal)) (ht : ∀ j, (t j).toNat < 16384) : Fin 4096 → Fin 16384 :=
  fun j => ⟨(t (ValueIdx.ix1 j)).toNat, ht _⟩

theorem V21_main_arg2 (c : Dev nD) : V21 m c main_arg2 = m ((c : Thread nD τ).loc main_arg2) :=
  (V21_of m c main_arg2 (by decide)).trans <| (V20_of m c main_arg2 (by decide)).trans <| (V19_of m c main_arg2 (by decide)).trans <| (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem V21_main_arg3 (c : Dev nD) : V21 m c main_arg3 = m ((c : Thread nD τ).loc main_arg3) :=
  (V21_of m c main_arg3 (by decide)).trans <| (V20_of m c main_arg3 (by decide)).trans <| (V19_of m c main_arg3 (by decide)).trans <| (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl
theorem V21_main_arg4 (c : Dev nD) : V21 m c main_arg4 = m ((c : Thread nD τ).loc main_arg4) :=
  (V21_of m c main_arg4 (by decide)).trans <| (V20_of m c main_arg4 (by decide)).trans <| (V19_of m c main_arg4 (by decide)).trans <| (V18_of m c main_arg4 (by decide)).trans <| (V17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem V21_main_arg5 (c : Dev nD) : V21 m c main_arg5 = m ((c : Thread nD τ).loc main_arg5) :=
  (V21_of m c main_arg5 (by decide)).trans <| (V20_of m c main_arg5 (by decide)).trans <| (V19_of m c main_arg5 (by decide)).trans <| (V18_of m c main_arg5 (by decide)).trans <| (V17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl

theorem X22_of_ne (c : Dev nD) (b : Ref sig .tc) (hb : b ≠ main_v49) : X22 m c b = V21 m c b := by
  unfold X22; exact Function.update_of_ne (StableHlo.devRef_ne_of_ne hb) _ _
theorem X23_of_ne (c : Dev nD) (b : Ref sig .tc) (hb : b ≠ main_v50) : X23 m c b = X22 m c b := by
  unfold X23; exact Function.update_of_ne (StableHlo.devRef_ne_of_ne hb) _ _
theorem X24_of (c : Dev nD) (b : Ref sig .tc) (hb : b ∉ hostOps2_W) : X24 m c b = X23 m c b := by
  unfold X24; exact after_hostOps2_of _ b hb
theorem X25_of_ne (c : Dev nD) (b : Ref sig .tc) (hb : b ≠ main_v52) : X25 m c b = X24 m c b := U25_of_ne m c b hb

theorem X25_v34 (c : Dev nD) : X25 m c main_v34 = V21 m c main_v34 :=
  (X25_of_ne m c main_v34 (by decide)).trans <| (X24_of m c main_v34 (by decide)).trans <|
    (X23_of_ne m c main_v34 (by decide)).trans (X22_of_ne m c main_v34 (by decide))

theorem X23_v49 (c : Dev nD) : X23 m c main_v49 = gath0 (V21 m c main_v41) (m ((c : Thread nD τ).loc main_arg2)) (m ((c : Thread nD τ).loc main_arg3)) := by
  obtain rfl := dev_eq c
  have e1 : X23 m c0 main_v49 = o22 m c0 :=
    (X23_of_ne m c0 main_v49 (by decide)).trans (by unfold X22; exact Function.update_self _ _ _)
  have e2 : o22 m c0 = gath0 ((adm0 m).1 0) (U21 m c0 main_arg2) (U21 m c0 main_arg3) := arr0_eq (U21 m) (adm0 m) c0
  have e3 : (adm0 m).1 0 = V21 m c0 main_v41 := rfl
  have e4 : U21 m c0 main_arg2 = m ((c0 : Thread nD τ).loc main_arg2) := V21_main_arg2 m c0
  have e5 : U21 m c0 main_arg3 = m ((c0 : Thread nD τ).loc main_arg3) := V21_main_arg3 m c0
  rw [e1, e2, e3, e4, e5]

theorem X23_v50 (c : Dev nD) : X23 m c main_v50 = gath1 (V21 m c main_v48) (m ((c : Thread nD τ).loc main_arg3)) := by
  obtain rfl := dev_eq c
  have e1 : X23 m c0 main_v50 = o23 m c0 := by unfold X23; exact Function.update_self _ _ _
  have e2 : o23 m c0 = gath1 ((adm1 m).1 0) (U22 m c0 main_arg3) := arr1_eq (U22 m) (adm1 m) c0
  have e3 : (adm1 m).1 0 = V21 m c0 main_v48 := rfl
  have e4 : U22 m c0 main_arg3 = m ((c0 : Thread nD τ).loc main_arg3) :=
    (X22_of_ne m c0 main_arg3 (by decide)).trans (V21_main_arg3 m c0)
  rw [e1, e2, e3, e4]

theorem X25_v52 (h : PreAt (F := Ideal) m) (c : Dev nD) :
    X25 m c main_v52 = Cert.Spec.out (m ((c : Thread nD τ).loc main_arg2)) (m ((c : Thread nD τ).loc main_arg3))
      (m ((c : Thread nD τ).loc main_arg4)) (m ((c : Thread nD τ).loc main_arg5))
      (ktbl (V21 m c main_v41) (pos_tb_lt m h c)) (ktbl (V21 m c main_v48) (neg_tb_lt m h c)) := by
  have e1 : X25 m c main_v52 = o25 m c := by unfold X25; exact Function.update_self _ _ _
  have e2 : o25 m c = G2 (U24 m c main_v51) (U24 m c main_arg4) (U24 m c main_arg5) := final2_3 (U24 m) c
  have e51 : U24 m c main_v51 = concatenate S8192x128 0 [⟨S4096x128, X23 m c main_v49⟩, ⟨S4096x128, X23 m c main_v50⟩] concatenates_S4096x128_S4096x128_S8192x128_d0 := by
    show X24 m c main_v51 = _
    unfold X24; exact after_hostOps2_v51 _
  have e4 : U24 m c main_arg4 = m ((c : Thread nD τ).loc main_arg4) :=
    (X24_of m c main_arg4 (by decide)).trans <| (X23_of_ne m c main_arg4 (by decide)).trans <| (X22_of_ne m c main_arg4 (by decide)).trans (V21_main_arg4 m c)
  have e5 : U24 m c main_arg5 = m ((c : Thread nD τ).loc main_arg5) :=
    (X24_of m c main_arg5 (by decide)).trans <| (X23_of_ne m c main_arg5 (by decide)).trans <| (X22_of_ne m c main_arg5 (by decide)).trans (V21_main_arg5 m c)
  rw [e1, e2, e51, e4, e5, X23_v49, X23_v50]
  exact out_of_parts _ _ _ _ _ _ _ _
    (fun r d => gath0_apply _ _ _ r d (pos_tb_lt m h c (ValueIdx.ix1 r)))
    (fun r d => gath1_apply _ _ r d (neg_tb_lt m h c (ValueIdx.ix1 r)))

end Cert.KernelIdeal.HandValue

end
-- ==== Proof.KIFinal.lean ====
import proofs.«410613_j6055903887911_1_alg».proof.Proof.KIFrame
import proofs.«410613_j6055903887911_1_alg».proof.Proof.KIValue

noncomputable section

namespace Cert.KernelIdeal.HandValue

open Cert.KernelIdeal Cert.KernelIdeal.Gen Cert.KernelIdeal.Hand
open Idealize.ShloMosaic Idealize.ShloMosaic.TcCoe
open Idealize.SL Idealize.SL.Sem

variable [hP : Cert.Pre_finite_inputs.Facts]
variable (m : (ℓ : Loc nD τ sig) → Buf (Elt Ideal) ℓ)

theorem kernel_run (h : PreAt (F := Ideal) m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34) = V21 m c main_v34
      ∧ r.2.mem ((c.tc : Thread nD τ).loc main_v52) = Cert.Spec.out (m ((c.tc : Thread nD τ).loc main_arg2)) (m ((c.tc : Thread nD τ).loc main_arg3))
          (m ((c.tc : Thread nD τ).loc main_arg4)) (m ((c.tc : Thread nD τ).loc main_arg5))
          (ktbl (V21 m c main_v41) (pos_tb_lt m h c)) (ktbl (V21 m c main_v48) (neg_tb_lt m h c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r hq c =>
    ⟨(hq c _ (mem_uc main_v34 (by decide))).trans (X25_v34 m c),
     (hq c _ (mem_uc main_v52 (by decide))).trans (X25_v52 m h c),
     (hq c _ (mem_uc main_arg0 (by decide))).trans (X25_main_arg0 m c),
     (hq c _ (mem_uc main_arg1 (by decide))).trans (X25_main_arg1 m c),
     (hq c _ (mem_uc main_arg2 (by decide))).trans (X25_main_arg2 m c),
     (hq c _ (mem_uc main_arg3 (by decide))).trans (X25_main_arg3 m c),
     (hq c _ (mem_uc main_arg4 (by decide))).trans (X25_main_arg4 m c),
     (hq c _ (mem_uc main_arg5 (by decide))).trans (X25_main_arg5 m c)⟩) (run_main m h ρ)

end Cert.KernelIdeal.HandValue

end
-- ==== Proof.RefOps.lean ====
/- (scratch/gen_refops.js reads the printed reference program and lays out TABLES only: @main's 183 host operations as lists, the outlined
   functions' operations in line at their call sites over the calls' buffer records, cut into 15 consecutive windows; per window the
   buffers it writes; per value that a later window or a result reads, the composed term of the values the window reads. No theorem is
   laid out here: what is proved about these tables is in RefRun.lean, written by hand.) -/
import proofs.«410613_j6055903887911_1_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations, window 1 of 15. -/
def opsW1 : List (HloOp τ sig (Elt F)) :=
  [ StableHlo.nullary main_c (constantI S_ 32 1#32),
    StableHlo.unary main_c main_v0 (broadcastInDim S8192 ![] bcast_S_S8192 : (⟨S_, .i32⟩ : BufTy).Contents (Elt F) → (⟨S8192, .i32⟩ : BufTy).Contents (Elt F)),
    StableHlo.binary main_arg0 main_v0 main_v1 (cmpi .eq : (⟨S8192, .i32⟩ : BufTy).Contents (Elt F) → (⟨S8192, .i32⟩ : BufTy).Contents (Elt F) → (⟨S8192, .i1⟩ : BufTy).Contents (Elt F)),
    StableHlo.TRef.unary (StableHlo.TRef.of main_v1 : StableHlo.TRef sig ⟨S8192, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![8192] ![1] ![8191] ![0] x v reduceWindows_S8192_S8192_w8192s1p8191_0 h_S_) ]
/-- The buffers window 1 writes. -/
abbrev opsW1_W : List (Ref sig .tc) := [main_c, main_v0, main_v1, main_call0_v0, main_call0_call0_c, main_call0_call0_v0, main_v2]
/-- main_v2 as the composed term of the values window 1 reads. -/
def fv_main_v2 (x_main_arg0 : (⟨S8192, .i32⟩ : BufTy).Contents (Elt F)) : (⟨S8192, .i32⟩ : BufTy).Contents (Elt F) :=
  ((fun x v => Host.reduceWindow IntOp.addi ![8192] ![1] ![8191] ![0] x v reduceWindows_S8192_S8192_w8192s1p8191_0 h_S_) ((extui 32 · natLt_1_32) ((cmpi .eq : (⟨S8192, .i32⟩ : BufTy).Contents (Elt F) → (⟨S8192, .i32⟩ : BufTy).Contents (Elt F) → (⟨S8192, .i1⟩ : BufTy).Contents (Elt F)) x_main_arg0 ((broadcastInDim S8192 ![] bcast_S_S8192 : (⟨S_, .i32⟩ : BufTy).Contents (Elt F) → (⟨S8192, .i32⟩ : BufTy).Contents (Elt F)) ((constantI S_ 32 1#32) : (⟨S_, .i32⟩ : BufTy).Contents (Elt F)) : (⟨S8192, .i32⟩ : BufTy).Contents (Elt F)) : (⟨S8192, .i1⟩ : BufTy).Contents (Elt F)) : (⟨S8192, .i32⟩ : BufTy).Contents (Elt F)) ((broadcastInDim S_ ![] bcast_S_S_) ((constantI S_ 32 0#32) : (⟨S_, .i32⟩ : BufTy).Contents (Elt F)) : (⟨S_, .i32⟩ : BufTy).Contents (Elt F)) : (⟨S8192, .i32⟩ : BufTy).Contents (Elt F))

/-- @main's operations, window 2 of 15. -/
def opsW2 : List (HloOp τ sig (Elt F)) :=
  [ StableHlo.nullary main_c_0 (constantI S_ 32 0#32),
    StableHlo.unary main_c_0 main_v3 (broadcastInDim S4096 ![] bcast_S_S4096 : (⟨S_, .i32⟩ : BufTy).Contents (Elt F) → (⟨S4096, .i32⟩ : BufTy).Contents (Elt F)),
    StableHlo.nullary main_c_1 (constantI S_ 32 0#32),
    StableHlo.TRef.unary (StableHlo.TRef.of main_c_1 : StableHlo.TRef sig ⟨S_, .i32⟩) main_call1.v0 id,
    StableHlo.TRef.unary main_call1.v0 main_call1.v1 (broadcastInDim S8192 ![] bcast_S_S8192),
    StableHlo.TRef.binary main_call1.v1 (StableHlo.TRef.of main_v2 : StableHlo.TRef sig ⟨S8192, .i32⟩) main_call1.v2 maxsi ]
/-- The buffers window 2 writes. -/
abbrev opsW2_W : List (Ref sig .tc) := [main_c_0, main_v3, main_c_1, main_call1_v0, main_call1_v1, main_v4]
/-- main_v3 as the composed term of the values window 2 reads. -/
def fv_main_v3 : (⟨S4096, .i32⟩ : BufTy).Contents (Elt F) :=
  ((broadcastInDim S4096 ![] bcast_S_S4096 : (⟨S_, .i32⟩ : BufTy).Contents (Elt F) → (⟨S4096, .i32⟩ : BufTy).Contents (Elt F)) ((constantI S_ 32 0#32) : (⟨S_, .i32⟩ : BufTy).Contents (Elt F)) : (⟨S4096, .i32⟩ : BufTy).Contents (Elt F))
/-- main_v4 as the composed term of the values window 2 reads. -/
def fv_main_v4 (x_main_v2 : (⟨S8192, .i32⟩ : BufTy).Contents (Elt F)) : (⟨S8192, .i32⟩ : BufTy).Contents (Elt F) :=
  (maxsi ((broadcastInDim S8192 ![] bcast_S_S8192) (id ((constantI S_ 32 0#32) : (⟨S_, .i32⟩ : BufTy).Contents (Elt F)) : (⟨S_, .i32⟩ : BufTy).Contents (Elt F)) : (⟨S8192, .i32⟩ : BufTy).Contents (Elt F)) x_main_v2 : (⟨S8192, .i32⟩ : BufTy).Contents (Elt F))

/-- @main's operations, window 3 of 15. -/
def opsW3 : List (HloOp τ sig (Elt F)) :=
  [ StableHlo.nullary main_c_2 (constantI S_ 32 0#32),
    StableHlo.unary main_c_2 main_v5 (broadcastInDim S8192 ![] bcast_S_S8192 : (⟨S_, .i32⟩ : BufTy).Contents (Elt F) → (⟨S8192, .i32⟩ : BufTy).Contents (Elt F)),
    StableHlo.binary main_v4 main_v5 main_v6 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 4096#32),
    StableHlo.unary main_c_3 main_v7 (broadcastInDim S8192 ![] bcast_S_S8192 : (⟨S_, .i32⟩ : BufTy).Contents (Elt F) → (⟨S8192, .i32⟩ : BufTy).Contents (Elt F)),
    StableHlo.binary main_v4 main_v7 main_v8 (addi : (⟨S8192, .i32⟩ : BufTy).Contents (Elt F) → (⟨S8192, .i32⟩ : BufTy).Contents (Elt F) → (⟨S8192, .i32⟩ : BufTy).Contents (Elt F)),
    StableHlo.ternary main_v6 main_v8 main_v4 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v9 main_v10 (broadcastInDim S8192x1 ![0] bcast_S8192_S8192x1_0 : (⟨S8192, .i32⟩ : BufTy).Contents (Elt F) → (⟨S8192x1, .i32⟩ : BufTy).Contents (Elt F)),
    StableHlo.nullary main_c_4 (constantI S_ 32 1#32),
    StableHlo.unary main_c_4 main_v11 (broadcastInDim S8192 ![] bcast_S_S8192 : (⟨S_, .i32⟩ : BufTy).Contents (Elt F) → (⟨S8192, .i32⟩ : BufTy).Contents (Elt F)),
    StableHlo.ternary main_v3 main_v10 main_v11 main_v12 ((fun x i u => Host.scatter scatter_S4096_S8192x1_S8192_n_0_0_1 IntOp.addi x i u) : (⟨S4096, .i32⟩ : BufTy).Contents (Elt F) → (⟨S8192x1, .i32⟩ : BufTy).Contents (Elt F) → (⟨S8192, .i32⟩ : BufTy).Contents (Elt F) → (⟨S4096, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (StableHlo.TRef.of main_v12 : StableHlo.TRef sig ⟨S4096, .i32⟩) main_call2.call0.v0 main_call2.call0.v1 (fun x v => Host.reduceWindow IntOp.addi ![4096] ![1] ![4095] ![0] x v reduceWindows_S4096_S4096_w4096s1p4095_0 h_S_) ]
/-- The buffers window 3 writes. -/
abbrev opsW3_W : List (Ref sig .tc) := [main_c_2, main_v5, main_v6, main_c_3, main_v7, main_v8, main_v9, main_v10, main_c_4, main_v11, main_v12, main_call2_call0_c, main_call2_call0_v0, main_v13]
/-- main_v13 as the composed term of the values window 3 reads. -/
def fv_main_v13 (x_main_v4 : (⟨S8192, .i32⟩ : BufTy).Contents (Elt F)) (x_main_v3 : (⟨S4096, .i32⟩ : BufTy).Contents (Elt F)) : (⟨S4096, .i32⟩ : BufTy).Contents (Elt F) :=
  ((fun x v => Host.reduceWindow IntOp.addi ![4096] ![1] ![4095] ![0] x v reduceWindows_S4096_S4096_w4096s1p4095_0 h_S_) (((fun x i u => Host.scatter scatter_S4096_S8192x1_S8192_n_0_0_1 IntOp.addi x i u) : (⟨S4096, .i32⟩ : BufTy).Contents (Elt F) → (⟨S8192x1, .i32⟩ : BufTy).Contents (Elt F) → (⟨S8192, .i32⟩ : BufTy).Contents (Elt F) → (⟨S4096, .i32⟩ : BufTy).Contents (Elt F)) x_main_v3 ((broadcastInDim S8192x1 ![0] bcast_S8192_S8192x1_0 : (⟨S8192, .i32⟩ : BufTy).Contents (Elt F) → (⟨S8192x1, .i32⟩ : BufTy).Contents (Elt F)) ((select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) ((cmpi .slt : (⟨S8192, .i32⟩ : BufTy).Contents (Elt F) → (⟨S8192, .i32⟩ : BufTy).Contents (Elt F) → (⟨S8192, .i1⟩ : BufTy).Contents (Elt F)) x_main_v4 ((broadcastInDim S8192 ![] bcast_S_S8192 : (⟨S_, .i32⟩ : BufTy).Contents (Elt F) → (⟨S8192, .i32⟩ : BufTy).Contents (Elt F)) ((constantI S_ 32 0#32) : (⟨S_, .i32⟩ : BufTy).Contents (Elt F)) : (⟨S8192, .i32⟩ : BufTy).Contents (Elt F)) : (⟨S8192, .i1⟩ : BufTy).Contents (Elt F)) ((addi : (⟨S8192, .i32⟩ : BufTy).Contents (Elt F) → (⟨S8192, .i32⟩ : BufTy).Contents (Elt F) → (⟨S8192, .i32⟩ : BufTy).Contents (Elt F)) x_main_v4 ((broadcastInDim S8192 ![] bcast_S_S8192 : (⟨S_, .i32⟩ : BufTy).Contents (Elt F) → (⟨S8192, .i32⟩ : BufTy).Contents (Elt F)) ((constantI S_ 32 4096#32) : (⟨S_, .i32⟩ : BufTy).Contents (Elt F)) : (⟨S8192, .i32⟩ : BufTy).Contents (Elt F)) : (⟨S8192, .i32⟩ : BufTy).Contents (Elt F)) x_main_v4 : (⟨S8192, .i32⟩ : BufTy).Contents (Elt F)) : (⟨S8192x1, .i32⟩ : BufTy).Contents (Elt F)) ((broadcastInDim S8192 ![] bcast_S_S8192 : (⟨S_, .i32⟩ : BufTy).Contents (Elt F) → (⟨S8192, .i32⟩ : BufTy).Contents (Elt F)) ((constantI S_ 32 1#32) : (⟨S_, .i32⟩ : BufTy).Contents (Elt F)) : (⟨S8192, .i32⟩ : BufTy).Contents (Elt F)) : (⟨S4096, .i32⟩ : BufTy).Contents (Elt F)) ((broadcastInDim S_ ![] bcast_S_S_) ((constantI S_ 32 0#32) : (⟨S_, .i32⟩ : BufTy).Contents (Elt F)) : (⟨S_, .i32⟩ : BufTy).Contents (Elt F)) : (⟨S4096, .i32⟩ : BufTy).Contents (Elt F))

/-- @main's operations, window 4 of 15. -/
def opsW4 : List (HloOp τ sig (Elt F)) :=
  [ StableHlo.nullary main_c_5 (constantI S_ 32 1#32),
    StableHlo.TRef.unary (StableHlo.TRef.of main_c_5 : StableHlo.TRef sig ⟨S_, .i32⟩) main_call3.v0 (broadcastInDim S4096 ![] bcast_S_S4096),
    StableHlo.TRef.binary (StableHlo.TRef.of main_v13 : StableHlo.TRef sig ⟨S4096, .i32⟩) main_call3.v0 main_call3.v1 Host.divsi,
    StableHlo.TRef.unary (StableHlo.TRef.of main_v13 : StableHlo.TRef sig ⟨S4096, .i32⟩) main_call3.v2 signi,
    StableHlo.TRef.unary (StableHlo.TRef.of main_c_5 : StableHlo.TRef sig ⟨S_, .i32⟩) main_call3.v3 signi,
    StableHlo.TRef.unary main_call3.v3 main_call3.v4 (broadcastInDim S4096 ![] bcast_S_S4096),
    StableHlo.TRef.binary main_call3.v2 main_call3.v4 main_call3.v5 (cmpi .ne),
    StableHlo.TRef.unary (StableHlo.TRef.of main_c_5 : StableHlo.TRef sig ⟨S_, .i32⟩) main_call3.v6 (broadcastInDim S4096 ![] bcast_S_S4096),
    StableHlo.TRef.binary (StableHlo.TRef.of main_v13 : StableHlo.TRef sig ⟨S4096, .i32⟩) main_call3.v6 main_call3.v7 Host.remsi,
    StableHlo.TRef.nullary main_call3.c (constantI S_ 32 0#32),
    StableHlo.TRef.unary main_call3.c main_call3.v8 (broadcastInDim S4096 ![] bcast_S_S4096),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S4096 ![] bcast_S_S4096),
    StableHlo.TRef.binary main_call3.v1 main_call3.v11 main_call3.v12 subi,
    StableHlo.TRef.ternary main_call3.v10 main_call3.v12 main_call3.v1 main_call3.call0.v0 select ]
/-- The buffers window 4 writes. -/
abbrev opsW4_W : List (Ref sig .tc) := [main_c_5, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14]
/-- main_v14 as the composed term of the values window 4 reads. -/
def fv_main_v14 (x_main_v13 : (⟨S4096, .i32⟩ : BufTy).Contents (Elt F)) : (⟨S4096, .i32⟩ : BufTy).Contents (Elt F) :=
  (select (andi ((cmpi .ne) (signi x_main_v13 : (⟨S4096, .i32⟩ : BufTy).Contents (Elt F)) ((broadcastInDim S4096 ![] bcast_S_S4096) (signi ((constantI S_ 32 1#32) : (⟨S_, .i32⟩ : BufTy).Contents (Elt F)) : (⟨S_, .i32⟩ : BufTy).Contents (Elt F)) : (⟨S4096, .i32⟩ : BufTy).Contents (Elt F)) : (⟨S4096, .i1⟩ : BufTy).Contents (Elt F)) ((cmpi .ne) (Host.remsi x_main_v13 ((broadcastInDim S4096 ![] bcast_S_S4096) ((constantI S_ 32 1#32) : (⟨S_, .i32⟩ : BufTy).Contents (Elt F)) : (⟨S4096, .i32⟩ : BufTy).Contents (Elt F)) : (⟨S4096, .i32⟩ : BufTy).Contents (Elt F)) ((broadcastInDim S4096 ![] bcast_S_S4096) ((constantI S_ 32 0#32) : (⟨S_, .i32⟩ : BufTy).Contents (Elt F)) : (⟨S4096, .i32⟩ : BufTy).Contents (Elt F)) : (⟨S4096, .i1⟩ : BufTy).Contents (Elt F)) : (⟨S4096, .i1⟩ : BufTy).Contents (Elt F)) (subi (Host.divsi x_main_v13 ((broadcastInDim S4096 ![] bcast_S_S4096) ((constantI S_ 32 1#32) : (⟨S_, .i32⟩ : BufTy).Contents (Elt F)) : (⟨S4096, .i32⟩ : BufTy).Contents (Elt F)) : (⟨S4096, .i32⟩ : BufTy).Contents (Elt F)) ((broadcastInDim S4096 ![] bcast_S_S4096) ((constantI S_ 32 1#32) : (⟨S_, .i32⟩ : BufTy).Contents (Elt F)) : (⟨S4096, .i32⟩ : BufTy).Contents (Elt F)) : (⟨S4096, .i32⟩ : BufTy).Contents (Elt F)) (Host.divsi x_main_v13 ((broadcastInDim S4096 ![] bcast_S_S4096) ((constantI S_ 32 1#32) : (⟨S_, .i32⟩ : BufTy).Contents (Elt F)) : (⟨S4096, .i32⟩ : BufTy).Contents (Elt F)) : (⟨S4096, .i32⟩ : BufTy).Contents (Elt F)) : (⟨S4096, .i32⟩ : BufTy).Contents (Elt F))

/-- @main's operations, window 5 of 15. -/
def opsW5 : List (HloOp τ sig (Elt F)) :=
  [ StableHlo.nullary main_c_6 (constantI S_ 32 8192#32),
    StableHlo.TRef.unary (StableHlo.TRef.of main_c_6 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4096 ![] bcast_S_S4096),
    StableHlo.TRef.binary (StableHlo.TRef.of main_v14 : StableHlo.TRef sig ⟨S4096, .i32⟩) main_call4.v3 main_call4.v4 Host.remsi,
    StableHlo.TRef.nullary main_call4.c_1 (constantI S_ 32 0#32),
    StableHlo.TRef.unary main_call4.c_1 main_call4.v5 (broadcastInDim S4096 ![] bcast_S_S4096),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4096 ![] bcast_S_S4096),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4096 ![] bcast_S_S4096),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4096 ![] bcast_S_S4096),
    StableHlo.TRef.binary main_call4.v4 main_call4.v13 main_call4.v14 addi,
    StableHlo.TRef.ternary main_call4.v12 main_call4.v14 main_call4.v4 main_call4.v15 select ]
/-- The buffers window 5 writes. -/
abbrev opsW5_W : List (Ref sig .tc) := [main_c_6, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]
/-- main_v15 as the composed term of the values window 5 reads. -/
def fv_main_v15 (x_main_v14 : (⟨S4096, .i32⟩ : BufTy).Contents (Elt F)) : (⟨S4096, .i32⟩ : BufTy).Contents (Elt F) :=
  (select (andi ((cmpi .ne) ((cmpi .slt) (Host.remsi x_main_v14 ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) ((broadcastInDim S4096 ![] bcast_S_S4096) ((constantI S_ 32 0#32) : (⟨S_, .i32⟩ : BufTy).Contents (Elt F)) : (⟨S4096, .i32⟩ : BufTy).Contents (Elt F)) : (⟨S4096, .i1⟩ : BufTy).Contents (Elt F)) ((broadcastInDim S4096 ![] bcast_S_S4096) ((cmpi .slt) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) : (⟨S4096, .i1⟩ : BufTy).Contents (Elt F)) : (⟨S4096, .i1⟩ : BufTy).Contents (Elt F)) ((cmpi .ne) (Host.remsi x_main_v14 ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) ((broadcastInDim S4096 ![] bcast_S_S4096) ((constantI S_ 32 0#32) : (⟨S_, .i32⟩ : BufTy).Contents (Elt F)) : (⟨S4096, .i32⟩ : BufTy).Contents (Elt F)) : (⟨S4096, .i1⟩ : BufTy).Contents (Elt F)) : (⟨S4096, .i1⟩ : BufTy).Contents (Elt F)) (addi (Host.remsi x_main_v14 ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) (Host.remsi x_main_v14 ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) : (⟨S4096, .i32⟩ : BufTy).Contents (Elt F))

/-- @main's operations, window 6 of 15. -/
def opsW6 : List (HloOp τ sig (Elt F)) :=
  [ StableHlo.nullary main_c_7 (constantI S_ 32 0#32),
    StableHlo.unary main_c_7 main_v16 (broadcastInDim S8192 ![] bcast_S_S8192 : (⟨S_, .i32⟩ : BufTy).Contents (Elt F) → (⟨S8192, .i32⟩ : BufTy).Contents (Elt F)),
    StableHlo.binary main_arg0 main_v16 main_v17 (cmpi .eq : (⟨S8192, .i32⟩ : BufTy).Contents (Elt F) → (⟨S8192, .i32⟩ : BufTy).Contents (Elt F) → (⟨S8192, .i1⟩ : BufTy).Contents (Elt F)),
    StableHlo.TRef.unary (StableHlo.TRef.of main_v17 : StableHlo.TRef sig ⟨S8192, .i1⟩) main_call5.v0 (extui 32 · natLt_1_32),
    StableHlo.TRef.nullary main_call5.call0.c (constantI S_ 32 0#32),
    StableHlo.TRef.unary main_call5.call0.c main_call5.call0.v0 (broadcastInDim S_ ![] bcast_S_S_),
    StableHlo.TRef.binary main_call5.v0 main_call5.call0.v0 main_call5.call0.v1 (fun x v => Host.reduceWindow IntOp.addi ![8192] ![1] ![8191] ![0] x v reduceWindows_S8192_S8192_w8192s1p8191_0 h_S_) ]
/-- The buffers window 6 writes. -/
abbrev opsW6_W : List (Ref sig .tc) := [main_c_7, main_v16, main_v17, main_call5_v0, main_call5_call0_c, main_call5_call0_v0, main_v18]
/-- main_v18 as the composed term of the values window 6 reads. -/
def fv_main_v18 (x_main_arg0 : (⟨S8192, .i32⟩ : BufTy).Contents (Elt F)) : (⟨S8192, .i32⟩ : BufTy).Contents (Elt F) :=
  ((fun x v => Host.reduceWindow IntOp.addi ![8192] ![1] ![8191] ![0] x v reduceWindows_S8192_S8192_w8192s1p8191_0 h_S_) ((extui 32 · natLt_1_32) ((cmpi .eq : (⟨S8192, .i32⟩ : BufTy).Contents (Elt F) → (⟨S8192, .i32⟩ : BufTy).Contents (Elt F) → (⟨S8192, .i1⟩ : BufTy).Contents (Elt F)) x_main_arg0 ((broadcastInDim S8192 ![] bcast_S_S8192 : (⟨S_, .i32⟩ : BufTy).Contents (Elt F) → (⟨S8192, .i32⟩ : BufTy).Contents (Elt F)) ((constantI S_ 32 0#32) : (⟨S_, .i32⟩ : BufTy).Contents (Elt F)) : (⟨S8192, .i32⟩ : BufTy).Contents (Elt F)) : (⟨S8192, .i1⟩ : BufTy).Contents (Elt F)) : (⟨S8192, .i32⟩ : BufTy).Contents (Elt F)) ((broadcastInDim S_ ![] bcast_S_S_) ((constantI S_ 32 0#32) : (⟨S_, .i32⟩ : BufTy).Contents (Elt F)) : (⟨S_, .i32⟩ : BufTy).Contents (Elt F)) : (⟨S8192, .i32⟩ : BufTy).Contents (Elt F))

/-- @main's operations, window 7 of 15. -/
def opsW7 : List (HloOp τ sig (Elt F)) :=
  [ StableHlo.nullary main_c_8 (constantI S_ 32 0#32),
    StableHlo.unary main_c_8 main_v19 (broadcastInDim S4096 ![] bcast_S_S4096 : (⟨S_, .i32⟩ : BufTy).Contents (Elt F) → (⟨S4096, .i32⟩ : BufTy).Contents (Elt F)),
    StableHlo.nullary main_c_9 (constantI S_ 32 0#32),
    StableHlo.TRef.unary (StableHlo.TRef.of main_c_9 : StableHlo.TRef sig ⟨S_, .i32⟩) main_call6.v0 id,
    StableHlo.TRef.unary main_call6.v0 main_call6.v1 (broadcastInDim S8192 ![] bcast_S_S8192),
    StableHlo.TRef.binary main_call6.v1 (StableHlo.TRef.of main_v18 : StableHlo.TRef sig ⟨S8192, .i32⟩) main_call6.v2 maxsi ]
/-- The buffers window 7 writes. -/
abbrev opsW7_W : List (Ref sig .tc) := [main_c_8, main_v19, main_c_9, main_call6_v0, main_call6_v1, main_v20]
/-- main_v19 as the composed term of the values window 7 reads. -/
def fv_main_v19 : (⟨S4096, .i32⟩ : BufTy).Contents (Elt F) :=
  ((broadcastInDim S4096 ![] bcast_S_S4096 : (⟨S_, .i32⟩ : BufTy).Contents (Elt F) → (⟨S4096, .i32⟩ : BufTy).Contents (Elt F)) ((constantI S_ 32 0#32) : (⟨S_, .i32⟩ : BufTy).Contents (Elt F)) : (⟨S4096, .i32⟩ : BufTy).Contents (Elt F))
/-- main_v20 as the composed term of the values window 7 reads. -/
def fv_main_v20 (x_main_v18 : (⟨S8192, .i32⟩ : BufTy).Contents (Elt F)) : (⟨S8192, .i32⟩ : BufTy).Contents (Elt F) :=
  (maxsi ((broadcastInDim S8192 ![] bcast_S_S8192) (id ((constantI S_ 32 0#32) : (⟨S_, .i32⟩ : BufTy).Contents (Elt F)) : (⟨S_, .i32⟩ : BufTy).Contents (Elt F)) : (⟨S8192, .i32⟩ : BufTy).Contents (Elt F)) x_main_v18 : (⟨S8192, .i32⟩ : BufTy).Contents (Elt F))

/-- @main's operations, window 8 of 15. -/
def opsW8 : List (HloOp τ sig (Elt F)) :=
  [ StableHlo.nullary main_c_10 (constantI S_ 32 0#32),
    StableHlo.unary main_c_10 main_v21 (broadcastInDim S8192 ![] bcast_S_S8192 : (⟨S_, .i32⟩ : BufTy).Contents (Elt F) → (⟨S8192, .i32⟩ : BufTy).Contents (Elt F)),
    StableHlo.binary main_v20 main_v21 main_v22 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 4096#32),
    StableHlo.unary main_c_11 main_v23 (broadcastInDim S8192 ![] bcast_S_S8192 : (⟨S_, .i32⟩ : BufTy).Contents (Elt F) → (⟨S8192, .i32⟩ : BufTy).Contents (Elt F)),
    StableHlo.binary main_v20 main_v23 main_v24 (addi : (⟨S8192, .i32⟩ : BufTy).Contents (Elt F) → (⟨S8192, .i32⟩ : BufTy).Contents (Elt F) → (⟨S8192, .i32⟩ : BufTy).Contents (Elt F)),
    StableHlo.ternary main_v22 main_v24 main_v20 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v25 main_v26 (broadcastInDim S8192x1 ![0] bcast_S8192_S8192x1_0 : (⟨S8192, .i32⟩ : BufTy).Contents (Elt F) → (⟨S8192x1, .i32⟩ : BufTy).Contents (Elt F)),
    StableHlo.nullary main_c_12 (constantI S_ 32 1#32),
    StableHlo.unary main_c_12 main_v27 (broadcastInDim S8192 ![] bcast_S_S8192 : (⟨S_, .i32⟩ : BufTy).Contents (Elt F) → (⟨S8192, .i32⟩ : BufTy).Contents (Elt F)),
    StableHlo.ternary main_v19 main_v26 main_v27 main_v28 ((fun x i u => Host.scatter scatter_S4096_S8192x1_S8192_n_0_0_1 IntOp.addi x i u) : (⟨S4096, .i32⟩ : BufTy).Contents (Elt F) → (⟨S8192x1, .i32⟩ : BufTy).Contents (Elt F) → (⟨S8192, .i32⟩ : BufTy).Contents (Elt F) → (⟨S4096, .i32⟩ : BufTy).Contents (Elt F)),
    StableHlo.TRef.nullary main_call7.call0.c (constantI S_ 32 0#32),
    StableHlo.TRef.unary main_call7.call0.c main_call7.call0.v0 (broadcastInDim S_ ![] bcast_S_S_),
    StableHlo.TRef.binary (StableHlo.TRef.of main_v28 : StableHlo.TRef sig ⟨S4096, .i32⟩) main_call7.call0.v0 main_call7.call0.v1 (fun x v => Host.reduceWindow IntOp.addi ![4096] ![1] ![4095] ![0] x v reduceWindows_S4096_S4096_w4096s1p4095_0 h_S_) ]
/-- The buffers window 8 writes. -/
abbrev opsW8_W : List (Ref sig .tc) := [main_c_10, main_v21, main_v22, main_c_11, main_v23, main_v24, main_v25, main_v26, main_c_12, main_v27, main_v28, main_call7_call0_c, main_call7_call0_v0, main_v29]
/-- main_v29 as the composed term of the values window 8 reads. -/
def fv_main_v29 (x_main_v20 : (⟨S8192, .i32⟩ : BufTy).Contents (Elt F)) (x_main_v19 : (⟨S4096, .i32⟩ : BufTy).Contents (Elt F)) : (⟨S4096, .i32⟩ : BufTy).Contents (Elt F) :=
  ((fun x v => Host.reduceWindow IntOp.addi ![4096] ![1] ![4095] ![0] x v reduceWindows_S4096_S4096_w4096s1p4095_0 h_S_) (((fun x i u => Host.scatter scatter_S4096_S8192x1_S8192_n_0_0_1 IntOp.addi x i u) : (⟨S4096, .i32⟩ : BufTy).Contents (Elt F) → (⟨S8192x1, .i32⟩ : BufTy).Contents (Elt F) → (⟨S8192, .i32⟩ : BufTy).Contents (Elt F) → (⟨S4096, .i32⟩ : BufTy).Contents (Elt F)) x_main_v19 ((broadcastInDim S8192x1 ![0] bcast_S8192_S8192x1_0 : (⟨S8192, .i32⟩ : BufTy).Contents (Elt F) → (⟨S8192x1, .i32⟩ : BufTy).Contents (Elt F)) ((select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) ((cmpi .slt : (⟨S8192, .i32⟩ : BufTy).Contents (Elt F) → (⟨S8192, .i32⟩ : BufTy).Contents (Elt F) → (⟨S8192, .i1⟩ : BufTy).Contents (Elt F)) x_main_v20 ((broadcastInDim S8192 ![] bcast_S_S8192 : (⟨S_, .i32⟩ : BufTy).Contents (Elt F) → (⟨S8192, .i32⟩ : BufTy).Contents (Elt F)) ((constantI S_ 32 0#32) : (⟨S_, .i32⟩ : BufTy).Contents (Elt F)) : (⟨S8192, .i32⟩ : BufTy).Contents (Elt F)) : (⟨S8192, .i1⟩ : BufTy).Contents (Elt F)) ((addi : (⟨S8192, .i32⟩ : BufTy).Contents (Elt F) → (⟨S8192, .i32⟩ : BufTy).Contents (Elt F) → (⟨S8192, .i32⟩ : BufTy).Contents (Elt F)) x_main_v20 ((broadcastInDim S8192 ![] bcast_S_S8192 : (⟨S_, .i32⟩ : BufTy).Contents (Elt F) → (⟨S8192, .i32⟩ : BufTy).Contents (Elt F)) ((constantI S_ 32 4096#32) : (⟨S_, .i32⟩ : BufTy).Contents (Elt F)) : (⟨S8192, .i32⟩ : BufTy).Contents (Elt F)) : (⟨S8192, .i32⟩ : BufTy).Contents (Elt F)) x_main_v20 : (⟨S8192, .i32⟩ : BufTy).Contents (Elt F)) : (⟨S8192x1, .i32⟩ : BufTy).Contents (Elt F)) ((broadcastInDim S8192 ![] bcast_S_S8192 : (⟨S_, .i32⟩ : BufTy).Contents (Elt F) → (⟨S8192, .i32⟩ : BufTy).Contents (Elt F)) ((constantI S_ 32 1#32) : (⟨S_, .i32⟩ : BufTy).Contents (Elt F)) : (⟨S8192, .i32⟩ : BufTy).Contents (Elt F)) : (⟨S4096, .i32⟩ : BufTy).Contents (Elt F)) ((broadcastInDim S_ ![] bcast_S_S_) ((constantI S_ 32 0#32) : (⟨S_, .i32⟩ : BufTy).Contents (Elt F)) : (⟨S_, .i32⟩ : BufTy).Contents (Elt F)) : (⟨S4096, .i32⟩ : BufTy).Contents (Elt F))

/-- @main's operations, window 9 of 15. -/
def opsW9 : List (HloOp τ sig (Elt F)) :=
  [ StableHlo.nullary main_c_13 (constantI S_ 32 1#32),
    StableHlo.TRef.unary (StableHlo.TRef.of main_c_13 : StableHlo.TRef sig ⟨S_, .i32⟩) main_call8.v0 (broadcastInDim S4096 ![] bcast_S_S4096),
    StableHlo.TRef.binary (StableHlo.TRef.of main_v29 : StableHlo.TRef sig ⟨S4096, .i32⟩) main_call8.v0 main_call8.v1 Host.divsi,
    StableHlo.TRef.unary (StableHlo.TRef.of main_v29 : StableHlo.TRef sig ⟨S4096, .i32⟩) main_call8.v2 signi,
    StableHlo.TRef.unary (StableHlo.TRef.of main_c_13 : StableHlo.TRef sig ⟨S_, .i32⟩) main_call8.v3 signi,
    StableHlo.TRef.unary main_call8.v3 main_call8.v4 (broadcastInDim S4096 ![] bcast_S_S4096),
    StableHlo.TRef.binary main_call8.v2 main_call8.v4 main_call8.v5 (cmpi .ne),
    StableHlo.TRef.unary (StableHlo.TRef.of main_c_13 : StableHlo.TRef sig ⟨S_, .i32⟩) main_call8.v6 (broadcastInDim S4096 ![] bcast_S_S4096),
    StableHlo.TRef.binary (StableHlo.TRef.of main_v29 : StableHlo.TRef sig ⟨S4096, .i32⟩) main_call8.v6 main_call8.v7 Host.remsi,
    StableHlo.TRef.nullary main_call8.c (constantI S_ 32 0#32),
    StableHlo.TRef.unary main_call8.c main_call8.v8 (broadcastInDim S4096 ![] bcast_S_S4096),
    StableHlo.TRef.binary main_call8.v7 main_call8.v8 main_call8.v9 (cmpi .ne),
    StableHlo.TRef.binary main_call8.v5 main_call8.v9 main_call8.v10 andi,
    StableHlo.TRef.nullary main_call8.c_0 (constantI S_ 32 1#32),
    StableHlo.TRef.unary main_call8.c_0 main_call8.v11 (broadcastInDim S4096 ![] bcast_S_S4096),
    StableHlo.TRef.binary main_call8.v1 main_call8.v11 main_call8.v12 subi,
    StableHlo.TRef.ternary main_call8.v10 main_call8.v12 main_call8.v1 main_call8.call0.v0 select ]
/-- The buffers window 9 writes. -/
abbrev opsW9_W : List (Ref sig .tc) := [main_c_13, main_call8_v0, main_call8_v1, main_call8_v2, main_call8_v3, main_call8_v4, main_call8_v5, main_call8_v6, main_call8_v7, main_call8_c, main_call8_v8, main_call8_v9, main_call8_v10, main_call8_c_0, main_call8_v11, main_call8_v12, main_v30]
/-- main_v30 as the composed term of the values window 9 reads. -/
def fv_main_v30 (x_main_v29 : (⟨S4096, .i32⟩ : BufTy).Contents (Elt F)) : (⟨S4096, .i32⟩ : BufTy).Contents (Elt F) :=
  (select (andi ((cmpi .ne) (signi x_main_v29 : (⟨S4096, .i32⟩ : BufTy).Contents (Elt F)) ((broadcastInDim S4096 ![] bcast_S_S4096) (signi ((constantI S_ 32 1#32) : (⟨S_, .i32⟩ : BufTy).Contents (Elt F)) : (⟨S_, .i32⟩ : BufTy).Contents (Elt F)) : (⟨S4096, .i32⟩ : BufTy).Contents (Elt F)) : (⟨S4096, .i1⟩ : BufTy).Contents (Elt F)) ((cmpi .ne) (Host.remsi x_main_v29 ((broadcastInDim S4096 ![] bcast_S_S4096) ((constantI S_ 32 1#32) : (⟨S_, .i32⟩ : BufTy).Contents (Elt F)) : (⟨S4096, .i32⟩ : BufTy).Contents (Elt F)) : (⟨S4096, .i32⟩ : BufTy).Contents (Elt F)) ((broadcastInDim S4096 ![] bcast_S_S4096) ((constantI S_ 32 0#32) : (⟨S_, .i32⟩ : BufTy).Contents (Elt F)) : (⟨S4096, .i32⟩ : BufTy).Contents (Elt F)) : (⟨S4096, .i1⟩ : BufTy).Contents (Elt F)) : (⟨S4096, .i1⟩ : BufTy).Contents (Elt F)) (subi (Host.divsi x_main_v29 ((broadcastInDim S4096 ![] bcast_S_S4096) ((constantI S_ 32 1#32) : (⟨S_, .i32⟩ : BufTy).Contents (Elt F)) : (⟨S4096, .i32⟩ : BufTy).Contents (Elt F)) : (⟨S4096, .i32⟩ : BufTy).Contents (Elt F)) ((broadcastInDim S4096 ![] bcast_S_S4096) ((constantI S_ 32 1#32) : (⟨S_, .i32⟩ : BufTy).Contents (Elt F)) : (⟨S4096, .i32⟩ : BufTy).Contents (Elt F)) : (⟨S4096, .i32⟩ : BufTy).Contents (Elt F)) (Host.divsi x_main_v29 ((broadcastInDim S4096 ![] bcast_S_S4096) ((constantI S_ 32 1#32) : (⟨S_, .i32⟩ : BufTy).Contents (Elt F)) : (⟨S4096, .i32⟩ : BufTy).Contents (Elt F)) : (⟨S4096, .i32⟩ : BufTy).Contents (Elt F)) : (⟨S4096, .i32⟩ : BufTy).Contents (Elt F))

/-- @main's operations, window 10 of 15. -/
def opsW10 : List (HloOp τ sig (Elt F)) :=
  [ StableHlo.nullary main_c_14 (constantI S_ 32 8192#32),
    StableHlo.TRef.unary (StableHlo.TRef.of main_c_14 : StableHlo.TRef sig ⟨S_, .i32⟩) main_call9.v0 id,
    StableHlo.TRef.nullary main_call9.c (constantI S_ 32 0#32),
    StableHlo.TRef.binary main_call9.v0 main_call9.c main_call9.v1 (cmpi .eq),
    StableHlo.TRef.nullary main_call9.c_0 (constantI S_ 32 1#32),
    StableHlo.TRef.ternary main_call9.v1 main_call9.c_0 main_call9.v0 main_call9.call0.v0 select,
    StableHlo.TRef.unary main_call9.call0.v0 main_call9.v3 (broadcastInDim S4096 ![] bcast_S_S4096),
    StableHlo.TRef.binary (StableHlo.TRef.of main_v30 : StableHlo.TRef sig ⟨S4096, .i32⟩) main_call9.v3 main_call9.v4 Host.remsi,
    StableHlo.TRef.nullary main_call9.c_1 (constantI S_ 32 0#32),
    StableHlo.TRef.unary main_call9.c_1 main_call9.v5 (broadcastInDim S4096 ![] bcast_S_S4096),
    StableHlo.TRef.binary main_call9.v4 main_call9.v5 main_call9.v6 (cmpi .ne),
    StableHlo.TRef.nullary main_call9.c_2 (constantI S_ 32 0#32),
    StableHlo.TRef.unary main_call9.c_2 main_call9.v7 (broadcastInDim S4096 ![] bcast_S_S4096),
    StableHlo.TRef.binary main_call9.v4 main_call9.v7 main_call9.v8 (cmpi .slt),
    StableHlo.TRef.nullary main_call9.c_3 (constantI S_ 32 0#32),
    StableHlo.TRef.binary main_call9.call0.v0 main_call9.c_3 main_call9.v9 (cmpi .slt),
    StableHlo.TRef.unary main_call9.v9 main_call9.v10 (broadcastInDim S4096 ![] bcast_S_S4096),
    StableHlo.TRef.binary main_call9.v8 main_call9.v10 main_call9.v11 (cmpi .ne),
    StableHlo.TRef.binary main_call9.v11 main_call9.v6 main_call9.v12 andi,
    StableHlo.TRef.unary main_call9.call0.v0 main_call9.v13 (broadcastInDim S4096 ![] bcast_S_S4096),
    StableHlo.TRef.binary main_call9.v4 main_call9.v13 main_call9.v14 addi,
    StableHlo.TRef.ternary main_call9.v12 main_call9.v14 main_call9.v4 main_call9.v15 select ]
/-- The buffers window 10 writes. -/
abbrev opsW10_W : List (Ref sig .tc) := [main_c_14, main_call9_v0, main_call9_c, main_call9_v1, main_call9_c_0, main_call9_v2, main_call9_v3, main_call9_v4, main_call9_c_1, main_call9_v5, main_call9_v6, main_call9_c_2, main_call9_v7, main_call9_v8, main_call9_c_3, main_call9_v9, main_call9_v10, main_call9_v11, main_call9_v12, main_call9_v13, main_call9_v14, main_v31]
/-- main_v31 as the composed term of the values window 10 reads. -/
def fv_main_v31 (x_main_v30 : (⟨S4096, .i32⟩ : BufTy).Contents (Elt F)) : (⟨S4096, .i32⟩ : BufTy).Contents (Elt F) :=
  (select (andi ((cmpi .ne) ((cmpi .slt) (Host.remsi x_main_v30 ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) ((broadcastInDim S4096 ![] bcast_S_S4096) ((constantI S_ 32 0#32) : (⟨S_, .i32⟩ : BufTy).Contents (Elt F)) : (⟨S4096, .i32⟩ : BufTy).Contents (Elt F)) : (⟨S4096, .i1⟩ : BufTy).Contents (Elt F)) ((broadcastInDim S4096 ![] bcast_S_S4096) ((cmpi .slt) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) : (⟨S4096, .i1⟩ : BufTy).Contents (Elt F)) : (⟨S4096, .i1⟩ : BufTy).Contents (Elt F)) ((cmpi .ne) (Host.remsi x_main_v30 ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) ((broadcastInDim S4096 ![] bcast_S_S4096) ((constantI S_ 32 0#32) : (⟨S_, .i32⟩ : BufTy).Contents (Elt F)) : (⟨S4096, .i32⟩ : BufTy).Contents (Elt F)) : (⟨S4096, .i1⟩ : BufTy).Contents (Elt F)) : (⟨S4096, .i1⟩ : BufTy).Contents (Elt F)) (addi (Host.remsi x_main_v30 ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) (Host.remsi x_main_v30 ((broadcastInDim S4096 ![] bcast_S_S4096) (select ((cmpi .eq) (id ((constantI S_ 32 8192#32) : (⟨S_, .i32⟩ : BufTy).Contents (Elt F)) : (⟨S_, .i32⟩ : BufTy).Contents (Elt F)) ((constantI S_ 32 0#32) : (⟨S_, .i32⟩ : BufTy).Contents (Elt F)) : (⟨S_, .i1⟩ : BufTy).Contents (Elt F)) ((constantI S_ 32 1#32) : (⟨S_, .i32⟩ : BufTy).Contents (Elt F)) (id ((constantI S_ 32 8192#32) : (⟨S_, .i32⟩ : BufTy).Contents (Elt F)) : (⟨S_, .i32⟩ : BufTy).Contents (Elt F)) : (⟨S_, .i32⟩ : BufTy).Contents (Elt F)) : (⟨S4096, .i32⟩ : BufTy).Contents (Elt F)) : (⟨S4096, .i32⟩ : BufTy).Contents (Elt F)) : (⟨S4096, .i32⟩ : BufTy).Contents (Elt F))

/-- @main's operations, window 11 of 15. -/
def opsW11 : List (HloOp τ sig (Elt F)) :=
  [ StableHlo.nullary main_c_15 (constantI S_ 32 1#32),
    StableHlo.unary main_c_15 main_v32 (broadcastInDim S4096 ![] bcast_S_S4096 : (⟨S_, .i32⟩ : BufTy).Contents (Elt F) → (⟨S4096, .i32⟩ : BufTy).Contents (Elt F)),
    StableHlo.nullary main_c_16 (constantI S_ 32 0#32),
    StableHlo.unary main_c_16 main_v33 (broadcastInDim S4096 ![] bcast_S_S4096 : (⟨S_, .i32⟩ : BufTy).Contents (Elt F) → (⟨S4096, .i32⟩ : BufTy).Contents (Elt F)) ]
/-- The buffers window 11 writes. -/
abbrev opsW11_W : List (Ref sig .tc) := [main_c_15, main_v32, main_c_16, main_v33]
/-- main_v32 as the composed term of the values window 11 reads. -/
def fv_main_v32 : (⟨S4096, .i32⟩ : BufTy).Contents (Elt F) :=
  ((broadcastInDim S4096 ![] bcast_S_S4096 : (⟨S_, .i32⟩ : BufTy).Contents (Elt F) → (⟨S4096, .i32⟩ : BufTy).Contents (Elt F)) ((constantI S_ 32 1#32) : (⟨S_, .i32⟩ : BufTy).Contents (Elt F)) : (⟨S4096, .i32⟩ : BufTy).Contents (Elt F))
/-- main_v33 as the composed term of the values window 11 reads. -/
def fv_main_v33 : (⟨S4096, .i32⟩ : BufTy).Contents (Elt F) :=
  ((broadcastInDim S4096 ![] bcast_S_S4096 : (⟨S_, .i32⟩ : BufTy).Contents (Elt F) → (⟨S4096, .i32⟩ : BufTy).Contents (Elt F)) ((constantI S_ 32 0#32) : (⟨S_, .i32⟩ : BufTy).Contents (Elt F)) : (⟨S4096, .i32⟩ : BufTy).Contents (Elt F))

/-- @main's operations, window 12 of 15. -/
def opsW12 : List (HloOp τ sig (Elt F)) :=
  [ StableHlo.binary main_v32 main_v33 main_v34 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    StableHlo.nullary main_c_17 (constantI S_ 32 0#32),
    StableHlo.unary main_c_17 main_v35 (broadcastInDim S4096 ![] bcast_S_S4096 : (⟨S_, .i32⟩ : BufTy).Contents (Elt F) → (⟨S4096, .i32⟩ : BufTy).Contents (Elt F)),
    StableHlo.binary main_v15 main_v35 main_v36 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 8192#32),
    StableHlo.unary main_c_18 main_v37 (broadcastInDim S4096 ![] bcast_S_S4096 : (⟨S_, .i32⟩ : BufTy).Contents (Elt F) → (⟨S4096, .i32⟩ : BufTy).Contents (Elt F)),
    StableHlo.binary main_v15 main_v37 main_v38 (addi : (⟨S4096, .i32⟩ : BufTy).Contents (Elt F) → (⟨S4096, .i32⟩ : BufTy).Contents (Elt F) → (⟨S4096, .i32⟩ : BufTy).Contents (Elt F)),
    StableHlo.ternary main_v36 main_v38 main_v15 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]
/-- The buffers window 12 writes. -/
abbrev opsW12_W : List (Ref sig .tc) := [main_v34, main_c_17, main_v35, main_v36, main_c_18, main_v37, main_v38, main_v39]
/-- main_v34 as the composed term of the values window 12 reads. -/
def fv_main_v34 (x_main_v32 : (⟨S4096, .i32⟩ : BufTy).Contents (Elt F)) (x_main_v33 : (⟨S4096, .i32⟩ : BufTy).Contents (Elt F)) : (⟨S8192, .i32⟩ : BufTy).Contents (Elt F) :=
  (((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) x_main_v32 x_main_v33 : (⟨S8192, .i32⟩ : BufTy).Contents (Elt F))
/-- main_v39 as the composed term of the values window 12 reads. -/
def fv_main_v39 (x_main_v15 : (⟨S4096, .i32⟩ : BufTy).Contents (Elt F)) : (⟨S4096, .i32⟩ : BufTy).Contents (Elt F) :=
  ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ((cmpi .slt : (⟨S4096, .i32⟩ : BufTy).Contents (Elt F) → (⟨S4096, .i32⟩ : BufTy).Contents (Elt F) → (⟨S4096, .i1⟩ : BufTy).Contents (Elt F)) x_main_v15 ((broadcastInDim S4096 ![] bcast_S_S4096 : (⟨S_, .i32⟩ : BufTy).Contents (Elt F) → (⟨S4096, .i32⟩ : BufTy).Contents (Elt F)) ((constantI S_ 32 0#32) : (⟨S_, .i32⟩ : BufTy).Contents (Elt F)) : (⟨S4096, .i32⟩ : BufTy).Contents (Elt F)) : (⟨S4096, .i1⟩ : BufTy).Contents (Elt F)) ((addi : (⟨S4096, .i32⟩ : BufTy).Contents (Elt F) → (⟨S4096, .i32⟩ : BufTy).Contents (Elt F) → (⟨S4096, .i32⟩ : BufTy).Contents (Elt F)) x_main_v15 ((broadcastInDim S4096 ![] bcast_S_S4096 : (⟨S_, .i32⟩ : BufTy).Contents (Elt F) → (⟨S4096, .i32⟩ : BufTy).Contents (Elt F)) ((constantI S_ 32 8192#32) : (⟨S_, .i32⟩ : BufTy).Contents (Elt F)) : (⟨S4096, .i32⟩ : BufTy).Contents (Elt F)) : (⟨S4096, .i32⟩ : BufTy).Contents (Elt F)) x_main_v15 : (⟨S4096, .i32⟩ : BufTy).Contents (Elt F))

/-- @main's operations, window 13 of 15. -/
def opsW13 : List (HloOp τ sig (Elt F)) :=
  [ StableHlo.unary main_v39 main_v40 (broadcastInDim S4096x1 ![0] bcast_S4096_S4096x1_0 : (⟨S4096, .i32⟩ : BufTy).Contents (Elt F) → (⟨S4096x1, .i32⟩ : BufTy).Contents (Elt F)),
    StableHlo.binary main_arg1 main_v40 main_v41 ((fun x i => Host.gather gather_S8192_S4096x1_S4096_n_0_n_n_0_1_1 x i) : (⟨S8192, .i32⟩ : BufTy).Contents (Elt F) → (⟨S4096x1, .i32⟩ : BufTy).Contents (Elt F) → (⟨S4096, .i32⟩ : BufTy).Contents (Elt F)),
    StableHlo.nullary main_c_19 (constantI S_ 32 0#32),
    StableHlo.unary main_c_19 main_v42 (broadcastInDim S4096 ![] bcast_S_S4096 : (⟨S_, .i32⟩ : BufTy).Contents (Elt F) → (⟨S4096, .i32⟩ : BufTy).Contents (Elt F)),
    StableHlo.binary main_v31 main_v42 main_v43 (cmpi .slt : (⟨S4096, .i32⟩ : BufTy).Contents (Elt F) → (⟨S4096, .i32⟩ : BufTy).Contents (Elt F) → (⟨S4096, .i1⟩ : BufTy).Contents (Elt F)),
    StableHlo.nullary main_c_20 (constantI S_ 32 8192#32),
    StableHlo.unary main_c_20 main_v44 (broadcastInDim S4096 ![] bcast_S_S4096 : (⟨S_, .i32⟩ : BufTy).Contents (Elt F) → (⟨S4096, .i32⟩ : BufTy).Contents (Elt F)),
    StableHlo.binary main_v31 main_v44 main_v45 (addi : (⟨S4096, .i32⟩ : BufTy).Contents (Elt F) → (⟨S4096, .i32⟩ : BufTy).Contents (Elt F) → (⟨S4096, .i32⟩ : BufTy).Contents (Elt F)),
    StableHlo.ternary main_v43 main_v45 main_v31 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v46 main_v47 (broadcastInDim S4096x1 ![0] bcast_S4096_S4096x1_0 : (⟨S4096, .i32⟩ : BufTy).Contents (Elt F) → (⟨S4096x1, .i32⟩ : BufTy).Contents (Elt F)),
    StableHlo.binary main_arg1 main_v47 main_v48 ((fun x i => Host.gather gather_S8192_S4096x1_S4096_n_0_n_n_0_1_1 x i) : (⟨S8192, .i32⟩ : BufTy).Contents (Elt F) → (⟨S4096x1, .i32⟩ : BufTy).Contents (Elt F) → (⟨S4096, .i32⟩ : BufTy).Contents (Elt F)) ]
/-- The buffers window 13 writes. -/
abbrev opsW13_W : List (Ref sig .tc) := [main_v40, main_v41, main_c_19, main_v42, main_v43, main_c_20, main_v44, main_v45, main_v46, main_v47, main_v48]
/-- main_v41 as the composed term of the values window 13 reads. -/
def fv_main_v41 (x_main_v39 : (⟨S4096, .i32⟩ : BufTy).Contents (Elt F)) (x_main_arg1 : (⟨S8192, .i32⟩ : BufTy).Contents (Elt F)) : (⟨S4096, .i32⟩ : BufTy).Contents (Elt F) :=
  (((fun x i => Host.gather gather_S8192_S4096x1_S4096_n_0_n_n_0_1_1 x i) : (⟨S8192, .i32⟩ : BufTy).Contents (Elt F) → (⟨S4096x1, .i32⟩ : BufTy).Contents (Elt F) → (⟨S4096, .i32⟩ : BufTy).Contents (Elt F)) x_main_arg1 ((broadcastInDim S4096x1 ![0] bcast_S4096_S4096x1_0 : (⟨S4096, .i32⟩ : BufTy).Contents (Elt F) → (⟨S4096x1, .i32⟩ : BufTy).Contents (Elt F)) x_main_v39 : (⟨S4096x1, .i32⟩ : BufTy).Contents (Elt F)) : (⟨S4096, .i32⟩ : BufTy).Contents (Elt F))
/-- main_v48 as the composed term of the values window 13 reads. -/
def fv_main_v48 (x_main_v31 : (⟨S4096, .i32⟩ : BufTy).Contents (Elt F)) (x_main_arg1 : (⟨S8192, .i32⟩ : BufTy).Contents (Elt F)) : (⟨S4096, .i32⟩ : BufTy).Contents (Elt F) :=
  (((fun x i => Host.gather gather_S8192_S4096x1_S4096_n_0_n_n_0_1_1 x i) : (⟨S8192, .i32⟩ : BufTy).Contents (Elt F) → (⟨S4096x1, .i32⟩ : BufTy).Contents (Elt F) → (⟨S4096, .i32⟩ : BufTy).Contents (Elt F)) x_main_arg1 ((broadcastInDim S4096x1 ![0] bcast_S4096_S4096x1_0 : (⟨S4096, .i32⟩ : BufTy).Contents (Elt F) → (⟨S4096x1, .i32⟩ : BufTy).Contents (Elt F)) ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ((cmpi .slt : (⟨S4096, .i32⟩ : BufTy).Contents (Elt F) → (⟨S4096, .i32⟩ : BufTy).Contents (Elt F) → (⟨S4096, .i1⟩ : BufTy).Contents (Elt F)) x_main_v31 ((broadcastInDim S4096 ![] bcast_S_S4096 : (⟨S_, .i32⟩ : BufTy).Contents (Elt F) → (⟨S4096, .i32⟩ : BufTy).Contents (Elt F)) ((constantI S_ 32 0#32) : (⟨S_, .i32⟩ : BufTy).Contents (Elt F)) : (⟨S4096, .i32⟩ : BufTy).Contents (Elt F)) : (⟨S4096, .i1⟩ : BufTy).Contents (Elt F)) ((addi : (⟨S4096, .i32⟩ : BufTy).Contents (Elt F) → (⟨S4096, .i32⟩ : BufTy).Contents (Elt F) → (⟨S4096, .i32⟩ : BufTy).Contents (Elt F)) x_main_v31 ((broadcastInDim S4096 ![] bcast_S_S4096 : (⟨S_, .i32⟩ : BufTy).Contents (Elt F) → (⟨S4096, .i32⟩ : BufTy).Contents (Elt F)) ((constantI S_ 32 8192#32) : (⟨S_, .i32⟩ : BufTy).Contents (Elt F)) : (⟨S4096, .i32⟩ : BufTy).Contents (Elt F)) : (⟨S4096, .i32⟩ : BufTy).Contents (Elt F)) x_main_v31 : (⟨S4096, .i32⟩ : BufTy).Contents (Elt F)) : (⟨S4096x1, .i32⟩ : BufTy).Contents (Elt F)) : (⟨S4096, .i32⟩ : BufTy).Contents (Elt F))

/-- @main's operations, window 14 of 15. -/
def opsW14 : List (HloOp τ sig (Elt F)) :=
  [ StableHlo.nullary main_c_21 (constantI S_ 32 0#32),
    StableHlo.unary main_c_21 main_v49 (broadcastInDim S4096 ![] bcast_S_S4096 : (⟨S_, .i32⟩ : BufTy).Contents (Elt F) → (⟨S4096, .i32⟩ : BufTy).Contents (Elt F)),
    StableHlo.binary main_v41 main_v49 main_v50 (cmpi .slt : (⟨S4096, .i32⟩ : BufTy).Contents (Elt F) → (⟨S4096, .i32⟩ : BufTy).Contents (Elt F) → (⟨S4096, .i1⟩ : BufTy).Contents (Elt F)),
    StableHlo.nullary main_c_22 (constantI S_ 32 16384#32),
    StableHlo.unary main_c_22 main_v51 (broadcastInDim S4096 ![] bcast_S_S4096 : (⟨S_, .i32⟩ : BufTy).Contents (Elt F) → (⟨S4096, .i32⟩ : BufTy).Contents (Elt F)),
    StableHlo.binary main_v41 main_v51 main_v52 (addi : (⟨S4096, .i32⟩ : BufTy).Contents (Elt F) → (⟨S4096, .i32⟩ : BufTy).Contents (Elt F) → (⟨S4096, .i32⟩ : BufTy).Contents (Elt F)),
    StableHlo.ternary main_v50 main_v52 main_v41 main_v53 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v53 main_v54 (broadcastInDim S4096x1 ![0] bcast_S4096_S4096x1_0 : (⟨S4096, .i32⟩ : BufTy).Contents (Elt F) → (⟨S4096x1, .i32⟩ : BufTy).Contents (Elt F)),
    StableHlo.binary main_arg2 main_v54 main_v55 ((fun x i => Host.gather gather_S16384x16384_S4096x1_S4096x16384_1_0_n_n_0_1_116384 x i) : (⟨S16384x16384, .f32⟩ : BufTy).Contents (Elt F) → (⟨S4096x1, .i32⟩ : BufTy).Contents (Elt F) → (⟨S4096x16384, .f32⟩ : BufTy).Contents (Elt F)),
    StableHlo.binary main_v55 main_arg3 main_v56 ((fun l r => Host.dotGeneral dot_S4096x16384_S16384x128_S4096x128_1_0_0_1_n_n none l r) : (⟨S4096x16384, .f32⟩ : BufTy).Contents (Elt F) → (⟨S16384x128, .f32⟩ : BufTy).Contents (Elt F) → (⟨S4096x128, .f32⟩ : BufTy).Contents (Elt F)),
    StableHlo.nullary main_c_23 (constantI S_ 32 0#32),
    StableHlo.unary main_c_23 main_v57 (broadcastInDim S4096 ![] bcast_S_S4096 : (⟨S_, .i32⟩ : BufTy).Contents (Elt F) → (⟨S4096, .i32⟩ : BufTy).Contents (Elt F)),
    StableHlo.binary main_v48 main_v57 main_v58 (cmpi .slt : (⟨S4096, .i32⟩ : BufTy).Contents (Elt F) → (⟨S4096, .i32⟩ : BufTy).Contents (Elt F) → (⟨S4096, .i1⟩ : BufTy).Contents (Elt F)),
    StableHlo.nullary main_c_24 (constantI S_ 32 16384#32),
    StableHlo.unary main_c_24 main_v59 (broadcastInDim S4096 ![] bcast_S_S4096 : (⟨S_, .i32⟩ : BufTy).Contents (Elt F) → (⟨S4096, .i32⟩ : BufTy).Contents (Elt F)),
    StableHlo.binary main_v48 main_v59 main_v60 (addi : (⟨S4096, .i32⟩ : BufTy).Contents (Elt F) → (⟨S4096, .i32⟩ : BufTy).Contents (Elt F) → (⟨S4096, .i32⟩ : BufTy).Contents (Elt F)),
    StableHlo.ternary main_v58 main_v60 main_v48 main_v61 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v61 main_v62 (broadcastInDim S4096x1 ![0] bcast_S4096_S4096x1_0 : (⟨S4096, .i32⟩ : BufTy).Contents (Elt F) → (⟨S4096x1, .i32⟩ : BufTy).Contents (Elt F)),
    StableHlo.binary main_arg3 main_v62 main_v63 ((fun x i => Host.gather gather_S16384x128_S4096x1_S4096x128_1_0_n_n_0_1_1128 x i) : (⟨S16384x128, .f32⟩ : BufTy).Contents (Elt F) → (⟨S4096x1, .i32⟩ : BufTy).Contents (Elt F) → (⟨S4096x128, .f32⟩ : BufTy).Contents (Elt F)) ]
/-- The buffers window 14 writes. -/
abbrev opsW14_W : List (Ref sig .tc) := [main_c_21, main_v49, main_v50, main_c_22, main_v51, main_v52, main_v53, main_v54, main_v55, main_v56, main_c_23, main_v57, main_v58, main_c_24, main_v59, main_v60, main_v61, main_v62, main_v63]
/-- main_v56 as the composed term of the values window 14 reads. -/
def fv_main_v56 (x_main_v41 : (⟨S4096, .i32⟩ : BufTy).Contents (Elt F)) (x_main_arg2 : (⟨S16384x16384, .f32⟩ : BufTy).Contents (Elt F)) (x_main_arg3 : (⟨S16384x128, .f32⟩ : BufTy).Contents (Elt F)) : (⟨S4096x128, .f32⟩ : BufTy).Contents (Elt F) :=
  (((fun l r => Host.dotGeneral dot_S4096x16384_S16384x128_S4096x128_1_0_0_1_n_n none l r) : (⟨S4096x16384, .f32⟩ : BufTy).Contents (Elt F) → (⟨S16384x128, .f32⟩ : BufTy).Contents (Elt F) → (⟨S4096x128, .f32⟩ : BufTy).Contents (Elt F)) (((fun x i => Host.gather gather_S16384x16384_S4096x1_S4096x16384_1_0_n_n_0_1_116384 x i) : (⟨S16384x16384, .f32⟩ : BufTy).Contents (Elt F) → (⟨S4096x1, .i32⟩ : BufTy).Contents (Elt F) → (⟨S4096x16384, .f32⟩ : BufTy).Contents (Elt F)) x_main_arg2 ((broadcastInDim S4096x1 ![0] bcast_S4096_S4096x1_0 : (⟨S4096, .i32⟩ : BufTy).Contents (Elt F) → (⟨S4096x1, .i32⟩ : BufTy).Contents (Elt F)) ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ((cmpi .slt : (⟨S4096, .i32⟩ : BufTy).Contents (Elt F) → (⟨S4096, .i32⟩ : BufTy).Contents (Elt F) → (⟨S4096, .i1⟩ : BufTy).Contents (Elt F)) x_main_v41 ((broadcastInDim S4096 ![] bcast_S_S4096 : (⟨S_, .i32⟩ : BufTy).Contents (Elt F) → (⟨S4096, .i32⟩ : BufTy).Contents (Elt F)) ((constantI S_ 32 0#32) : (⟨S_, .i32⟩ : BufTy).Contents (Elt F)) : (⟨S4096, .i32⟩ : BufTy).Contents (Elt F)) : (⟨S4096, .i1⟩ : BufTy).Contents (Elt F)) ((addi : (⟨S4096, .i32⟩ : BufTy).Contents (Elt F) → (⟨S4096, .i32⟩ : BufTy).Contents (Elt F) → (⟨S4096, .i32⟩ : BufTy).Contents (Elt F)) x_main_v41 ((broadcastInDim S4096 ![] bcast_S_S4096 : (⟨S_, .i32⟩ : BufTy).Contents (Elt F) → (⟨S4096, .i32⟩ : BufTy).Contents (Elt F)) ((constantI S_ 32 16384#32) : (⟨S_, .i32⟩ : BufTy).Contents (Elt F)) : (⟨S4096, .i32⟩ : BufTy).Contents (Elt F)) : (⟨S4096, .i32⟩ : BufTy).Contents (Elt F)) x_main_v41 : (⟨S4096, .i32⟩ : BufTy).Contents (Elt F)) : (⟨S4096x1, .i32⟩ : BufTy).Contents (Elt F)) : (⟨S4096x16384, .f32⟩ : BufTy).Contents (Elt F)) x_main_arg3 : (⟨S4096x128, .f32⟩ : BufTy).Contents (Elt F))
/-- main_v63 as the composed term of the values window 14 reads. -/
def fv_main_v63 (x_main_v48 : (⟨S4096, .i32⟩ : BufTy).Contents (Elt F)) (x_main_arg3 : (⟨S16384x128, .f32⟩ : BufTy).Contents (Elt F)) : (⟨S4096x128, .f32⟩ : BufTy).Contents (Elt F) :=
  (((fun x i => Host.gather gather_S16384x128_S4096x1_S4096x128_1_0_n_n_0_1_1128 x i) : (⟨S16384x128, .f32⟩ : BufTy).Contents (Elt F) → (⟨S4096x1, .i32⟩ : BufTy).Contents (Elt F) → (⟨S4096x128, .f32⟩ : BufTy).Contents (Elt F)) x_main_arg3 ((broadcastInDim S4096x1 ![0] bcast_S4096_S4096x1_0 : (⟨S4096, .i32⟩ : BufTy).Contents (Elt F) → (⟨S4096x1, .i32⟩ : BufTy).Contents (Elt F)) ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ((cmpi .slt : (⟨S4096, .i32⟩ : BufTy).Contents (Elt F) → (⟨S4096, .i32⟩ : BufTy).Contents (Elt F) → (⟨S4096, .i1⟩ : BufTy).Contents (Elt F)) x_main_v48 ((broadcastInDim S4096 ![] bcast_S_S4096 : (⟨S_, .i32⟩ : BufTy).Contents (Elt F) → (⟨S4096, .i32⟩ : BufTy).Contents (Elt F)) ((constantI S_ 32 0#32) : (⟨S_, .i32⟩ : BufTy).Contents (Elt F)) : (⟨S4096, .i32⟩ : BufTy).Contents (Elt F)) : (⟨S4096, .i1⟩ : BufTy).Contents (Elt F)) ((addi : (⟨S4096, .i32⟩ : BufTy).Contents (Elt F) → (⟨S4096, .i32⟩ : BufTy).Contents (Elt F) → (⟨S4096, .i32⟩ : BufTy).Contents (Elt F)) x_main_v48 ((broadcastInDim S4096 ![] bcast_S_S4096 : (⟨S_, .i32⟩ : BufTy).Contents (Elt F) → (⟨S4096, .i32⟩ : BufTy).Contents (Elt F)) ((constantI S_ 32 16384#32) : (⟨S_, .i32⟩ : BufTy).Contents (Elt F)) : (⟨S4096, .i32⟩ : BufTy).Contents (Elt F)) : (⟨S4096, .i32⟩ : BufTy).Contents (Elt F)) x_main_v48 : (⟨S4096, .i32⟩ : BufTy).Contents (Elt F)) : (⟨S4096x1, .i32⟩ : BufTy).Contents (Elt F)) : (⟨S4096x128, .f32⟩ : BufTy).Contents (Elt F))

/-- @main's operations, window 15 of 15. -/
def opsW15 : List (HloOp τ sig (Elt F)) :=
  [ StableHlo.binary main_v56 main_v63 main_v64 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    StableHlo.binary main_v64 main_arg4 main_v65 ((fun l r => Host.dotGeneral dot_S8192x128_S3x128x128_S8192x3x128_1_2_0_01_n_n none l r) : (⟨S8192x128, .f32⟩ : BufTy).Contents (Elt F) → (⟨S3x128x128, .f32⟩ : BufTy).Contents (Elt F) → (⟨S8192x3x128, .f32⟩ : BufTy).Contents (Elt F)),
    StableHlo.unary main_arg5 main_v66 (broadcastInDim S1x3x128 ![1, 2] bcast_S3x128_S1x3x128_1_2 : (⟨S3x128, .f32⟩ : BufTy).Contents (Elt F) → (⟨S1x3x128, .f32⟩ : BufTy).Contents (Elt F)),
    StableHlo.unary main_v66 main_v67 (broadcastInDim S8192x3x128 ![0, 1, 2] bcast_S1x3x128_S8192x3x128_0_1_2 : (⟨S1x3x128, .f32⟩ : BufTy).Contents (Elt F) → (⟨S8192x3x128, .f32⟩ : BufTy).Contents (Elt F)),
    StableHlo.binary main_v65 main_v67 main_v68 (addf : (⟨S8192x3x128, .f32⟩ : BufTy).Contents (Elt F) → (⟨S8192x3x128, .f32⟩ : BufTy).Contents (Elt F) → (⟨S8192x3x128, .f32⟩ : BufTy).Contents (Elt F)),
    StableHlo.TRef.nullary main_call10.cst (constant S_ .f32 0x00000000#32),
    StableHlo.TRef.unary main_call10.cst main_call10.v0 (broadcastInDim S8192x3x128 ![] bcast_S_S8192x3x128),
    StableHlo.TRef.binary (StableHlo.TRef.of main_v68 : StableHlo.TRef sig ⟨S8192x3x128, .f32⟩) main_call10.v0 main_call10.v1 maximumf,
    StableHlo.reshape main_v69 main_v70 rfl shapeCasts_S8192x3x128_S8192x384 ]
/-- The buffers window 15 writes. -/
abbrev opsW15_W : List (Ref sig .tc) := [main_v64, main_v65, main_v66, main_v67, main_v68, main_call10_cst, main_call10_v0, main_v69, main_v70]
/-- main_v70 as the composed term of the values window 15 reads. -/
def fv_main_v70 (x_main_v56 : (⟨S4096x128, .f32⟩ : BufTy).Contents (Elt F)) (x_main_v63 : (⟨S4096x128, .f32⟩ : BufTy).Contents (Elt F)) (x_main_arg4 : (⟨S3x128x128, .f32⟩ : BufTy).Contents (Elt F)) (x_main_arg5 : (⟨S3x128, .f32⟩ : BufTy).Contents (Elt F)) : (⟨S8192x384, .f32⟩ : BufTy).Contents (Elt F) :=
  (shapeCast S8192x384 (maximumf ((addf : (⟨S8192x3x128, .f32⟩ : BufTy).Contents (Elt F) → (⟨S8192x3x128, .f32⟩ : BufTy).Contents (Elt F) → (⟨S8192x3x128, .f32⟩ : BufTy).Contents (Elt F)) (((fun l r => Host.dotGeneral dot_S8192x128_S3x128x128_S8192x3x128_1_2_0_01_n_n none l r) : (⟨S8192x128, .f32⟩ : BufTy).Contents (Elt F) → (⟨S3x128x128, .f32⟩ : BufTy).Contents (Elt F) → (⟨S8192x3x128, .f32⟩ : BufTy).Contents (Elt F)) (((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)) x_main_v56 x_main_v63 : (⟨S8192x128, .f32⟩ : BufTy).Contents (Elt F)) x_main_arg4 : (⟨S8192x3x128, .f32⟩ : BufTy).Contents (Elt F)) ((broadcastInDim S8192x3x128 ![0, 1, 2] bcast_S1x3x128_S8192x3x128_0_1_2 : (⟨S1x3x128, .f32⟩ : BufTy).Contents (Elt F) → (⟨S8192x3x128, .f32⟩ : BufTy).Contents (Elt F)) ((broadcastInDim S1x3x128 ![1, 2] bcast_S3x128_S1x3x128_1_2 : (⟨S3x128, .f32⟩ : BufTy).Contents (Elt F) → (⟨S1x3x128, .f32⟩ : BufTy).Contents (Elt F)) x_main_arg5 : (⟨S1x3x128, .f32⟩ : BufTy).Contents (Elt F)) : (⟨S8192x3x128, .f32⟩ : BufTy).Contents (Elt F)) : (⟨S8192x3x128, .f32⟩ : BufTy).Contents (Elt F)) ((broadcastInDim S8192x3x128 ![] bcast_S_S8192x3x128) ((constant S_ .f32 0x00000000#32) : (⟨S_, .f32⟩ : BufTy).Contents (Elt F)) : (⟨S8192x3x128, .f32⟩ : BufTy).Contents (Elt F)) : (⟨S8192x3x128, .f32⟩ : BufTy).Contents (Elt F)) shapeCasts_S8192x3x128_S8192x384 : (⟨S8192x384, .f32⟩ : BufTy).Contents (Elt F))

/-- @main's first part (statements 1 … 60), as operations. -/
def ops_part0 : List (HloOp τ sig (Elt F)) := opsW1 ++ (opsW2 ++ (opsW3 ++ (opsW4 ++ (opsW5 ++ (opsW6 ++ (opsW7 ++ (opsW8 ++ (opsW9 ++ (opsW10 ++ (opsW11 ++ (opsW12)))))))))))
/-- @main's second part (statements 61 … 98), as operations. -/
def ops_part1 : List (HloOp τ sig (Elt F)) := opsW13 ++ (opsW14 ++ (opsW15))
/-- @main's operations, in order. -/
def ops : List (HloOp τ sig (Elt F)) := ops_part0 ++ ops_part1

end Cert.ReferenceIdeal.HandRun

end
-- ==== Proof.RefRun.lean ====
import proofs.«410613_j6055903887911_1_alg».proof.Proof.RefOps

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in

theorem main_part0_eq (c : Dev nD) : main_part0 (F := F) c = seq ops_part0 := rfl

set_option maxRecDepth 8192 in

theorem main_part1_eq (c : Dev nD) : main_part1 (F := F) c = seq ops_part1 := rfl

theorem main_eq (c : Dev nD) : main (F := F) c = seq ops := by
  unfold ops
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in

theorem ops_sub : (ops : List (HloOp τ sig (Elt F))).Forall fun op => op.bufs ⊆ tcRefs τ sig := by
  simp only [ops, ops_part0, ops_part1, opsW1, opsW2, opsW3, opsW4, opsW5, opsW6, opsW7, opsW8, opsW9, opsW10, opsW11,
    opsW12, opsW13, opsW14, opsW15, List.cons_append, List.nil_append, List.Forall, nullary_bufs_sub, unary_bufs_sub,
    binary_bufs_sub, ternary_bufs_sub, reshape_bufs_sub, and_self]

theorem after_ops (V0 : Valuation τ sig (Elt F)) :
    after ops V0 = after opsW15 (after opsW14 (after opsW13 (after opsW12 (after opsW11 (after opsW10 (after opsW9
      (after opsW8 (after opsW7 (after opsW6 (after opsW5 (after opsW4 (after opsW3 (after opsW2
        (after opsW1 V0)))))))))))))) := by
  simp only [ops, ops_part0, ops_part1, after_app]

abbrev WritesIn (l : List (HloOp τ sig (Elt F))) (W : List (Ref sig .tc)) : Prop :=
  l.Forall fun op => op.writes ⊆ (W.map (Proc.devRef (τ := τ) .tc)).toFinset

local macro "window_writes " w:ident : tactic =>
  `(tactic| (simp only [$w:ident, List.Forall, nullary_writes, unary_writes, binary_writes, ternary_writes, reshape_writes,
      Finset.singleton_subset_iff, List.mem_toFinset]
             repeat' apply And.intro
             all_goals exact List.mem_map_of_mem (by decide)))

local macro "window_res " w:ident : tactic =>
  `(tactic| (simp only [$w:ident]
             after_results_simp
             try simp only [cast_eq]
             rfl))

set_option maxRecDepth 8192 in
theorem opsW1_writes : WritesIn (F := F) opsW1 opsW1_W := by window_writes opsW1
set_option maxRecDepth 8192 in
theorem opsW2_writes : WritesIn (F := F) opsW2 opsW2_W := by window_writes opsW2
set_option maxRecDepth 8192 in
theorem opsW3_writes : WritesIn (F := F) opsW3 opsW3_W := by window_writes opsW3
set_option maxRecDepth 8192 in
theorem opsW4_writes : WritesIn (F := F) opsW4 opsW4_W := by window_writes opsW4
set_option maxRecDepth 8192 in
theorem opsW5_writes : WritesIn (F := F) opsW5 opsW5_W := by window_writes opsW5
set_option maxRecDepth 8192 in
theorem opsW6_writes : WritesIn (F := F) opsW6 opsW6_W := by window_writes opsW6
set_option maxRecDepth 8192 in
theorem opsW7_writes : WritesIn (F := F) opsW7 opsW7_W := by window_writes opsW7
set_option maxRecDepth 8192 in
theorem opsW8_writes : WritesIn (F := F) opsW8 opsW8_W := by window_writes opsW8
set_option maxRecDepth 8192 in
theorem opsW9_writes : WritesIn (F := F) opsW9 opsW9_W := by window_writes opsW9
set_option maxRecDepth 8192 in
theorem opsW10_writes : WritesIn (F := F) opsW10 opsW10_W := by window_writes opsW10
set_option maxRecDepth 8192 in
theorem opsW11_writes : WritesIn (F := F) opsW11 opsW11_W := by window_writes opsW11
set_option maxRecDepth 8192 in
theorem opsW12_writes : WritesIn (F := F) opsW12 opsW12_W := by window_writes opsW12
set_option maxRecDepth 8192 in
theorem opsW13_writes : WritesIn (F := F) opsW13 opsW13_W := by window_writes opsW13
set_option maxRecDepth 8192 in
theorem opsW14_writes : WritesIn (F := F) opsW14 opsW14_W := by window_writes opsW14
set_option maxRecDepth 8192 in
theorem opsW15_writes : WritesIn (F := F) opsW15 opsW15_W := by window_writes opsW15

theorem keepW1 (V : Valuation τ sig (Elt F)) (r : Ref sig .tc) (h : r ∉ opsW1_W) :
    after opsW1 V (no_index (Proc.devRef .tc r)) = V (Proc.devRef .tc r) := after_of_writes_sub opsW1 V opsW1_writes h
theorem keepW2 (V : Valuation τ sig (Elt F)) (r : Ref sig .tc) (h : r ∉ opsW2_W) :
    after opsW2 V (no_index (Proc.devRef .tc r)) = V (Proc.devRef .tc r) := after_of_writes_sub opsW2 V opsW2_writes h
theorem keepW3 (V : Valuation τ sig (Elt F)) (r : Ref sig .tc) (h : r ∉ opsW3_W) :
    after opsW3 V (no_index (Proc.devRef .tc r)) = V (Proc.devRef .tc r) := after_of_writes_sub opsW3 V opsW3_writes h
theorem keepW4 (V : Valuation τ sig (Elt F)) (r : Ref sig .tc) (h : r ∉ opsW4_W) :
    after opsW4 V (no_index (Proc.devRef .tc r)) = V (Proc.devRef .tc r) := after_of_writes_sub opsW4 V opsW4_writes h
theorem keepW5 (V : Valuation τ sig (Elt F)) (r : Ref sig .tc) (h : r ∉ opsW5_W) :
    after opsW5 V (no_index (Proc.devRef .tc r)) = V (Proc.devRef .tc r) := after_of_writes_sub opsW5 V opsW5_writes h
theorem keepW6 (V : Valuation τ sig (Elt F)) (r : Ref sig .tc) (h : r ∉ opsW6_W) :
    after opsW6 V (no_index (Proc.devRef .tc r)) = V (Proc.devRef .tc r) := after_of_writes_sub opsW6 V opsW6_writes h
theorem keepW7 (V : Valuation τ sig (Elt F)) (r : Ref sig .tc) (h : r ∉ opsW7_W) :
    after opsW7 V (no_index (Proc.devRef .tc r)) = V (Proc.devRef .tc r) := after_of_writes_sub opsW7 V opsW7_writes h
theorem keepW8 (V : Valuation τ sig (Elt F)) (r : Ref sig .tc) (h : r ∉ opsW8_W) :
    after opsW8 V (no_index (Proc.devRef .tc r)) = V (Proc.devRef .tc r) := after_of_writes_sub opsW8 V opsW8_writes h
theorem keepW9 (V : Valuation τ sig (Elt F)) (r : Ref sig .tc) (h : r ∉ opsW9_W) :
    after opsW9 V (no_index (Proc.devRef .tc r)) = V (Proc.devRef .tc r) := after_of_writes_sub opsW9 V opsW9_writes h
theorem keepW10 (V : Valuation τ sig (Elt F)) (r : Ref sig .tc) (h : r ∉ opsW10_W) :
    after opsW10 V (no_index (Proc.devRef .tc r)) = V (Proc.devRef .tc r) := after_of_writes_sub opsW10 V opsW10_writes h
theorem keepW11 (V : Valuation τ sig (Elt F)) (r : Ref sig .tc) (h : r ∉ opsW11_W) :
    after opsW11 V (no_index (Proc.devRef .tc r)) = V (Proc.devRef .tc r) := after_of_writes_sub opsW11 V opsW11_writes h
theorem keepW12 (V : Valuation τ sig (Elt F)) (r : Ref sig .tc) (h : r ∉ opsW12_W) :
    after opsW12 V (no_index (Proc.devRef .tc r)) = V (Proc.devRef .tc r) := after_of_writes_sub opsW12 V opsW12_writes h
theorem keepW13 (V : Valuation τ sig (Elt F)) (r : Ref sig .tc) (h : r ∉ opsW13_W) :
    after opsW13 V (no_index (Proc.devRef .tc r)) = V (Proc.devRef .tc r) := after_of_writes_sub opsW13 V opsW13_writes h
theorem keepW14 (V : Valuation τ sig (Elt F)) (r : Ref sig .tc) (h : r ∉ opsW14_W) :
    after opsW14 V (no_index (Proc.devRef .tc r)) = V (Proc.devRef .tc r) := after_of_writes_sub opsW14 V opsW14_writes h
theorem keepW15 (V : Valuation τ sig (Elt F)) (r : Ref sig .tc) (h : r ∉ opsW15_W) :
    after opsW15 V (no_index (Proc.devRef .tc r)) = V (Proc.devRef .tc r) := after_of_writes_sub opsW15 V opsW15_writes h

set_option maxRecDepth 8192 in
set_option maxHeartbeats 2000000 in

theorem resW1_main_v2 (V : Valuation τ sig (Elt F)) :
    after opsW1 V (no_index (Proc.devRef .tc main_v2)) = fv_main_v2 (F := F) (V (Proc.devRef .tc main_arg0)) := by
  window_res opsW1

set_option maxRecDepth 8192 in
set_option maxHeartbeats 2000000 in
theorem resW2_main_v3 (V : Valuation τ sig (Elt F)) :
    after opsW2 V (no_index (Proc.devRef .tc main_v3)) = fv_main_v3 (F := F) := by
  window_res opsW2

set_option maxRecDepth 8192 in
set_option maxHeartbeats 2000000 in
theorem resW2_main_v4 (V : Valuation τ sig (Elt F)) :
    after opsW2 V (no_index (Proc.devRef .tc main_v4)) = fv_main_v4 (F := F) (V (Proc.devRef .tc main_v2)) := by
  window_res opsW2

set_option maxRecDepth 8192 in
set_option maxHeartbeats 2000000 in
theorem resW3_main_v13 (V : Valuation τ sig (Elt F)) :
    after opsW3 V (no_index (Proc.devRef .tc main_v13))
      = fv_main_v13 (F := F) (V (Proc.devRef .tc main_v4)) (V (Proc.devRef .tc main_v3)) := by
  window_res opsW3

set_option maxRecDepth 8192 in
set_option maxHeartbeats 2000000 in
theorem resW4_main_v14 (V : Valuation τ sig (Elt F)) :
    after opsW4 V (no_index (Proc.devRef .tc main_v14)) = fv_main_v14 (F := F) (V (Proc.devRef .tc main_v13)) := by
  window_res opsW4

set_option maxRecDepth 8192 in
set_option maxHeartbeats 2000000 in
theorem resW5_main_v15 (V : Valuation τ sig (Elt F)) :
    after opsW5 V (no_index (Proc.devRef .tc main_v15)) = fv_main_v15 (F := F) (V (Proc.devRef .tc main_v14)) := by
  window_res opsW5

set_option maxRecDepth 8192 in
set_option maxHeartbeats 2000000 in

theorem resW6_main_v18 (V : Valuation τ sig (Elt F)) :
    after opsW6 V (no_index (Proc.devRef .tc main_v18)) = fv_main_v18 (F := F) (V (Proc.devRef .tc main_arg0)) := by
  window_res opsW6

set_option maxRecDepth 8192 in
set_option maxHeartbeats 2000000 in
theorem resW7_main_v19 (V : Valuation τ sig (Elt F)) :
    after opsW7 V (no_index (Proc.devRef .tc main_v19)) = fv_main_v19 (F := F) := by
  window_res opsW7

set_option maxRecDepth 8192 in
set_option maxHeartbeats 2000000 in
theorem resW7_main_v20 (V : Valuation τ sig (Elt F)) :
    after opsW7 V (no_index (Proc.devRef .tc main_v20)) = fv_main_v20 (F := F) (V (Proc.devRef .tc main_v18)) := by
  window_res opsW7

set_option maxRecDepth 8192 in
set_option maxHeartbeats 2000000 in
theorem resW8_main_v29 (V : Valuation τ sig (Elt F)) :
    after opsW8 V (no_index (Proc.devRef .tc main_v29))
      = fv_main_v29 (F := F) (V (Proc.devRef .tc main_v20)) (V (Proc.devRef .tc main_v19)) := by
  window_res opsW8

set_option maxRecDepth 8192 in
set_option maxHeartbeats 2000000 in
theorem resW9_main_v30 (V : Valuation τ sig (Elt F)) :
    after opsW9 V (no_index (Proc.devRef .tc main_v30)) = fv_main_v30 (F := F) (V (Proc.devRef .tc main_v29)) := by
  window_res opsW9

set_option maxRecDepth 8192 in
set_option maxHeartbeats 2000000 in
theorem resW10_main_v31 (V : Valuation τ sig (Elt F)) :
    after opsW10 V (no_index (Proc.devRef .tc main_v31)) = fv_main_v31 (F := F) (V (Proc.devRef .tc main_v30)) := by
  window_res opsW10

set_option maxRecDepth 8192 in
set_option maxHeartbeats 2000000 in
theorem resW11_main_v32 (V : Valuation τ sig (Elt F)) :
    after opsW11 V (no_index (Proc.devRef .tc main_v32)) = fv_main_v32 (F := F) := by
  window_res opsW11

set_option maxRecDepth 8192 in
set_option maxHeartbeats 2000000 in
theorem resW11_main_v33 (V : Valuation τ sig (Elt F)) :
    after opsW11 V (no_index (Proc.devRef .tc main_v33)) = fv_main_v33 (F := F) := by
  window_res opsW11

set_option maxRecDepth 8192 in
set_option maxHeartbeats 2000000 in
theorem resW12_main_v34 (V : Valuation τ sig (Elt F)) :
    after opsW12 V (no_index (Proc.devRef .tc main_v34))
      = fv_main_v34 (F := F) (V (Proc.devRef .tc main_v32)) (V (Proc.devRef .tc main_v33)) := by
  window_res opsW12

set_option maxRecDepth 8192 in
set_option maxHeartbeats 2000000 in
theorem resW12_main_v39 (V : Valuation τ sig (Elt F)) :
    after opsW12 V (no_index (Proc.devRef .tc main_v39)) = fv_main_v39 (F := F) (V (Proc.devRef .tc main_v15)) := by
  window_res opsW12

set_option maxRecDepth 8192 in
set_option maxHeartbeats 2000000 in
theorem resW13_main_v41 (V : Valuation τ sig (Elt F)) :
    after opsW13 V (no_index (Proc.devRef .tc main_v41))
      = fv_main_v41 (F := F) (V (Proc.devRef .tc main_v39)) (V (Proc.devRef .tc main_arg1)) := by
  window_res opsW13

set_option maxRecDepth 8192 in
set_option maxHeartbeats 2000000 in
theorem resW13_main_v48 (V : Valuation τ sig (Elt F)) :
    after opsW13 V (no_index (Proc.devRef .tc main_v48))
      = fv_main_v48 (F := F) (V (Proc.devRef .tc main_v31)) (V (Proc.devRef .tc main_arg1)) := by
  window_res opsW13

set_option maxRecDepth 8192 in
set_option maxHeartbeats 2000000 in
theorem resW14_main_v56 (V : Valuation τ sig (Elt F)) :
    after opsW14 V (no_index (Proc.devRef .tc main_v56))
      = fv_main_v56 (F := F) (V (Proc.devRef .tc main_v41)) (V (Proc.devRef .tc main_arg2))
          (V (Proc.devRef .tc main_arg3)) := by
  window_res opsW14

set_option maxRecDepth 8192 in
set_option maxHeartbeats 2000000 in
theorem resW14_main_v63 (V : Valuation τ sig (Elt F)) :
    after opsW14 V (no_index (Proc.devRef .tc main_v63))
      = fv_main_v63 (F := F) (V (Proc.devRef .tc main_v48)) (V (Proc.devRef .tc main_arg3)) := by
  window_res opsW14

set_option maxRecDepth 8192 in
set_option maxHeartbeats 2000000 in
theorem resW15_main_v70 (V : Valuation τ sig (Elt F)) :
    after opsW15 V (no_index (Proc.devRef .tc main_v70))
      = fv_main_v70 (F := F) (V (Proc.devRef .tc main_v56)) (V (Proc.devRef .tc main_v63))
          (V (Proc.devRef .tc main_arg4)) (V (Proc.devRef .tc main_arg5)) := by
  window_res opsW15

def posIdx (nt : (⟨S8192, .i32⟩ : BufTy).Contents (Elt F)) : (⟨S4096, .i32⟩ : BufTy).Contents (Elt F) :=
  fv_main_v39 (F := F) (fv_main_v15 (F := F) (fv_main_v14 (F := F) (fv_main_v13 (F := F)
    (fv_main_v4 (F := F) (fv_main_v2 (F := F) nt)) (fv_main_v3 (F := F)))))

def negIdx (nt : (⟨S8192, .i32⟩ : BufTy).Contents (Elt F)) : (⟨S4096, .i32⟩ : BufTy).Contents (Elt F) :=
  fv_main_v31 (F := F) (fv_main_v30 (F := F) (fv_main_v29 (F := F)
    (fv_main_v20 (F := F) (fv_main_v18 (F := F) nt)) (fv_main_v19 (F := F))))

def posNodes (nt ni : (⟨S8192, .i32⟩ : BufTy).Contents (Elt F)) : (⟨S4096, .i32⟩ : BufTy).Contents (Elt F) :=
  fv_main_v41 (F := F) (posIdx nt) ni

def negNodes (nt ni : (⟨S8192, .i32⟩ : BufTy).Contents (Elt F)) : (⟨S4096, .i32⟩ : BufTy).Contents (Elt F) :=
  fv_main_v48 (F := F) (negIdx nt) ni

def res_v34 : (⟨S8192, .i32⟩ : BufTy).Contents (Elt F) :=
  fv_main_v34 (F := F) (fv_main_v32 (F := F)) (fv_main_v33 (F := F))

def res_v70 (nt ni : (⟨S8192, .i32⟩ : BufTy).Contents (Elt F)) (A : (⟨S16384x16384, .f32⟩ : BufTy).Contents (Elt F))
    (emb : (⟨S16384x128, .f32⟩ : BufTy).Contents (Elt F)) (W : (⟨S3x128x128, .f32⟩ : BufTy).Contents (Elt F))
    (b : (⟨S3x128, .f32⟩ : BufTy).Contents (Elt F)) : (⟨S8192x384, .f32⟩ : BufTy).Contents (Elt F) :=
  fv_main_v70 (F := F) (fv_main_v56 (F := F) (posNodes nt ni) A emb) (fv_main_v63 (F := F) (negNodes nt ni) emb) W b

theorem res_v70_eq (nt ni : (⟨S8192, .i32⟩ : BufTy).Contents (Elt F)) (A : (⟨S16384x16384, .f32⟩ : BufTy).Contents (Elt F))
    (emb : (⟨S16384x128, .f32⟩ : BufTy).Contents (Elt F)) (W : (⟨S3x128x128, .f32⟩ : BufTy).Contents (Elt F))
    (b : (⟨S3x128, .f32⟩ : BufTy).Contents (Elt F)) :
    res_v70 (F := F) nt ni A emb W b
      = fv_main_v70 (F := F) (fv_main_v56 (F := F) (posNodes nt ni) A emb) (fv_main_v63 (F := F) (negNodes nt ni) emb) W b :=
  rfl

set_option maxRecDepth 8192 in
set_option maxHeartbeats 2000000 in

theorem after_main_v34 (V0 : Valuation τ sig (Elt F)) :
    after ops V0 (Proc.devRef .tc main_v34) = res_v34 (F := F) := by
  rw [after_ops]
  simp (disch := decide) only [resW12_main_v34, resW11_main_v32, resW11_main_v33, keepW12, keepW13, keepW14, keepW15]
  rfl

set_option maxRecDepth 8192 in
set_option maxHeartbeats 2000000 in

theorem after_main_v70 (V0 : Valuation τ sig (Elt F)) :
    after ops V0 (Proc.devRef .tc main_v70)
      = res_v70 (F := F) (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) := by
  rw [after_ops]
  simp (disch := decide) only [resW15_main_v70, resW14_main_v56, resW14_main_v63, resW13_main_v41, resW13_main_v48,
    resW12_main_v39, resW10_main_v31, resW9_main_v30, resW8_main_v29, resW7_main_v20, resW7_main_v19, resW6_main_v18,
    resW5_main_v15, resW4_main_v14, resW3_main_v13, resW2_main_v4, resW2_main_v3, resW1_main_v2,
    keepW1, keepW2, keepW3, keepW4, keepW5, keepW6, keepW7, keepW8, keepW9, keepW10, keepW11, keepW12, keepW13, keepW14,
    keepW15]
  rfl

local macro "arg_kept" : tactic =>
  `(tactic| (rw [after_ops]
             simp (disch := decide) only [keepW1, keepW2, keepW3, keepW4, keepW5, keepW6, keepW7, keepW8, keepW9, keepW10,
               keepW11, keepW12, keepW13, keepW14, keepW15]))

set_option maxRecDepth 8192 in
theorem after_main_arg0 (V0 : Valuation τ sig (Elt F)) :
    after ops V0 (Proc.devRef .tc main_arg0) = V0 (Proc.devRef .tc main_arg0) := by arg_kept
set_option maxRecDepth 8192 in
theorem after_main_arg1 (V0 : Valuation τ sig (Elt F)) :
    after ops V0 (Proc.devRef .tc main_arg1) = V0 (Proc.devRef .tc main_arg1) := by arg_kept
set_option maxRecDepth 8192 in
theorem after_main_arg2 (V0 : Valuation τ sig (Elt F)) :
    after ops V0 (Proc.devRef .tc main_arg2) = V0 (Proc.devRef .tc main_arg2) := by arg_kept
set_option maxRecDepth 8192 in
theorem after_main_arg3 (V0 : Valuation τ sig (Elt F)) :
    after ops V0 (Proc.devRef .tc main_arg3) = V0 (Proc.devRef .tc main_arg3) := by arg_kept
set_option maxRecDepth 8192 in
theorem after_main_arg4 (V0 : Valuation τ sig (Elt F)) :
    after ops V0 (Proc.devRef .tc main_arg4) = V0 (Proc.devRef .tc main_arg4) := by arg_kept
set_option maxRecDepth 8192 in
theorem after_main_arg5 (V0 : Valuation τ sig (Elt F)) :
    after ops V0 (Proc.devRef .tc main_arg5) = V0 (Proc.devRef .tc main_arg5) := by arg_kept

set_option maxRecDepth 8192 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = res_v34 (F := F)
      ∧ r.2.mem ((c.tc : Thread nD τ).loc main_v70)
          = res_v70 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v34).trans (after_main_v34 (launchContents m c)),
      (h c main_v70).trans (after_main_v70 (launchContents m c)),
      (h c main_arg0).trans (after_main_arg0 (launchContents m c)),
      (h c main_arg1).trans (after_main_arg1 (launchContents m c)),
      (h c main_arg2).trans (after_main_arg2 (launchContents m c)),
      (h c main_arg3).trans (after_main_arg3 (launchContents m c)),
      (h c main_arg4).trans (after_main_arg4 (launchContents m c)),
      (h c main_arg5).trans (after_main_arg5 (launchContents m c))⟩)
    (run_seq scopedRefs_eq scopedSems_eq defs main (fun _ => ops) main_eq (fun _ => ops_sub) m ρ)

end Cert.ReferenceIdeal.HandRun

end
-- ==== Proof.RefValue.lean ====
import proofs.«410613_j6055903887911_1_alg».proof.ReferenceIdeal
import proofs.«410613_j6055903887911_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws
import proofs.«410613_j6055903887911_1_alg».proof.Proof.Spec
import proofs.«410613_j6055903887911_1_alg».proof.Proof.RefOps

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

theorem toInt_of_lt (v : BitVec 32) (h : v.toNat < 16384) : v.toInt = v.toNat := by
  rw [BitVec.toInt_eq_toNat_cond]; split <;> omega

theorem select_slt_zero (v y : BitVec 32) (h : v.toNat < 16384) :
    Scalar.select (IntOp.cmpi .slt v 0#32) y v = v := by
  have hs : v.slt 0#32 = false := by
    have := toInt_of_lt v h
    simp only [BitVec.slt, BitVec.toInt_zero, decide_eq_false_iff_not]; omega
  unfold IntOp.cmpi
  simp only [hs]
  exact select_zero _ _

abbrev ixc {n : Nat} (r : Fin n) : (⟨2, ![n, 1]⟩ : Shape).Idx := ix2 r (0 : Fin 1)

theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (r : Fin n) (c : Fin C) (hN : 0 < N) :
    Host.gather d x idx (ix2 r c) = x (ix2 ⟨min (idx (ixc r)).toInt.toNat (N - 1), by omega⟩ c) := by
  unfold Host.gather
  congr 1
  funext a
  apply Fin.ext
  have hb : ∀ a : Fin 2, a ∉ d.operandBatchingDims := fun a => by rw [hob]; exact List.not_mem_nil
  simp only [GatherDims.operandIdx, GatherDims.batchCoord_eq_zero _ _ _ (hb _), Nat.add_zero]
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.offCoord (ix2 r c) 0 = min (idx (ixc r)).toInt.toNat (N - 1)
    rw [GatherDims.offCoord_eq_zero _ _ _ hk, Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      have key : ∀ (l : List (Fin 2)) (i : Nat) (h : i < l.length), l = [0] →
          ((ix2 r c : (⟨2, ![n, C]⟩ : Shape).Idx) l[i]).val = r.val := by
        intro l i h hl; subst hl
        have : i = 0 := by simpa using h
        subst this; rfl
      exact key _ _ _ hbd
    | ⟨1, _⟩ =>
      unfold GatherDims.siIdx
      rw [dif_pos (by rw [hivd])]
      apply Fin.ext
      show List.idxOf (0 : Fin 2) d.startIndexMap = 0
      rw [hsim]; simp
  | ⟨1, _⟩ =>
    have hm : (1 : Fin 2) ∉ d.startIndexMap := by rw [hsim]; show (1 : Fin 2) ∉ [(0 : Fin 2)]; decide
    have hk : (1 : Fin 2) ∈ d.sKept := by
      rw [GatherDims.mem_sKept, hcoll, hob]
      show (1 : Fin 2) ∉ [(0 : Fin 2)] ∧ (1 : Fin 2) ∉ ([] : List (Fin 2))
      decide
    show d.start (ix2 r c) idx 1 + d.offCoord (ix2 r c) 1 = c.val
    unfold GatherDims.start GatherDims.offCoord
    rw [dif_neg hm, dif_pos hk, Nat.zero_add]
    have key : ∀ (l : List (Fin 2)) (i : Nat) (h : i < l.length), l = [1] →
        ((ix2 r c : (⟨2, ![n, C]⟩ : Shape).Idx) l[i]).val = c.val := by
      intro l i h hl; subst hl
      have : i = 0 := by simpa using h
      subst this; rfl
    exact key _ _ _ hoff

abbrev C (T : BufTy) : Type := T.Contents (Elt Ideal)

def wrapped (t : C ⟨S4096, .i32⟩) : C ⟨S4096, .i32⟩ :=
  select (cmpi .slt t (broadcastInDim S4096 ![] bcast_S_S4096 (constantI S_ 32 0#32)))
    (addi t (broadcastInDim S4096 ![] bcast_S_S4096 (constantI S_ 32 16384#32))) t

def column (t : C ⟨S4096, .i32⟩) : C ⟨S4096x1, .i32⟩ := broadcastInDim S4096x1 ![0] bcast_S4096_S4096x1_0 t

def posRows (pn : C ⟨S4096, .i32⟩) (A : C ⟨S16384x16384, .f32⟩) (emb : C ⟨S16384x128, .f32⟩) : C ⟨S4096x128, .f32⟩ :=
  Host.dotGeneral (F := Ideal) (φ₁ := .f32) (φ₂ := .f32) dot_S4096x16384_S16384x128_S4096x128_1_0_0_1_n_n none
    (Host.gather gather_S16384x16384_S4096x1_S4096x16384_1_0_n_n_0_1_116384 A (column (wrapped pn))) emb

def negRows (nn : C ⟨S4096, .i32⟩) (emb : C ⟨S16384x128, .f32⟩) : C ⟨S4096x128, .f32⟩ :=
  Host.gather gather_S16384x128_S4096x1_S4096x128_1_0_n_n_0_1_1128 emb (column (wrapped nn))

def layers (xp xn : C ⟨S4096x128, .f32⟩) (W : C ⟨S3x128x128, .f32⟩) (b : C ⟨S3x128, .f32⟩) : C ⟨S8192x384, .f32⟩ :=
  shapeCast S8192x384
    (maximumf
      (addf
        (Host.dotGeneral (F := Ideal) (φ₁ := .f32) (φ₂ := .f32) dot_S8192x128_S3x128x128_S8192x3x128_1_2_0_01_n_n none
          (concatenate S8192x128 0 [⟨S4096x128, xp⟩, ⟨S4096x128, xn⟩] concatenates_S4096x128_S4096x128_S8192x128_d0) W)
        (broadcastInDim S8192x3x128 ![0, 1, 2] bcast_S1x3x128_S8192x3x128_0_1_2
          (broadcastInDim S1x3x128 ![1, 2] bcast_S3x128_S1x3x128_1_2 b)))
      (broadcastInDim S8192x3x128 ![] bcast_S_S8192x3x128 (constant (F := Ideal) S_ .f32 0x00000000#32)))
    shapeCasts_S8192x3x128_S8192x384

def refOut (pn nn : C ⟨S4096, .i32⟩) (A : C ⟨S16384x16384, .f32⟩) (emb : C ⟨S16384x128, .f32⟩)
    (W : C ⟨S3x128x128, .f32⟩) (b : C ⟨S3x128, .f32⟩) : C ⟨S8192x384, .f32⟩ :=
  layers (posRows pn A emb) (negRows nn emb) W b

def tbl (t : C ⟨S4096, .i32⟩) (ht : ∀ j, (t j).toNat < 16384) : Fin 4096 → Fin 16384 := fun j => ⟨(t (ix1 j)).toNat, ht _⟩

theorem wrapped_apply (t : C ⟨S4096, .i32⟩) (j : S4096.Idx) (h : (t j).toNat < 16384) : wrapped t j = t j :=
  select_slt_zero _ _ h

theorem column_apply (t : C ⟨S4096, .i32⟩) (r : Fin 4096) : column t (ixc r) = t (ix1 r) :=
  broadcastInDim_apply _ _ t (ixc r) (ix1 r) (fun a => by match a with | ⟨0, _⟩ => rfl)

theorem start_eq (t : C ⟨S4096, .i32⟩) (ht : ∀ j, (t j).toNat < 16384) (r : Fin 4096) :
    min (column (wrapped t) (ixc r)).toInt.toNat (16384 - 1) = (tbl t ht r).val := by
  rw [column_apply, wrapped_apply t _ (ht _), toInt_of_lt _ (ht _)]
  have := ht (ix1 r)
  show min ((t (ix1 r)).toNat : Int).toNat 16383 = (t (ix1 r)).toNat
  omega

theorem gatherA_apply (A : C ⟨S16384x16384, .f32⟩) (idx : C ⟨S4096x1, .i32⟩) (r : Fin 4096) (c : Fin 16384) :
    Host.gather gather_S16384x16384_S4096x1_S4096x16384_1_0_n_n_0_1_116384 A idx (ix2 r c)
      = A (ix2 ⟨min (idx (ixc r)).toInt.toNat (16384 - 1), by omega⟩ c) :=
  gather_rows gather_S16384x16384_S4096x1_S4096x16384_1_0_n_n_0_1_116384 rfl rfl rfl rfl rfl A idx r c (by decide)

theorem gatherE_apply (emb : C ⟨S16384x128, .f32⟩) (idx : C ⟨S4096x1, .i32⟩) (r : Fin 4096) (c : Fin 128) :
    Host.gather gather_S16384x128_S4096x1_S4096x128_1_0_n_n_0_1_1128 emb idx (ix2 r c)
      = emb (ix2 ⟨min (idx (ixc r)).toInt.toNat (16384 - 1), by omega⟩ c) :=
  gather_rows gather_S16384x128_S4096x1_S4096x128_1_0_n_n_0_1_1128 rfl rfl rfl rfl rfl emb idx r c (by decide)

theorem lhs_v56_0 (i : S4096x128.Idx) (q : dot_S4096x16384_S16384x128_S4096x128_1_0_0_1_n_n.contr.Idx) :
    (dot_S4096x16384_S16384x128_S4096x128_1_0_0_1_n_n.lhsIdx i q 0).val = (i 0).val := by
  unfold DotDims.lhsIdx
  rw [dif_neg (show ¬(0 : Fin S4096x16384.rank) ∈ dot_S4096x16384_S16384x128_S4096x128_1_0_0_1_n_n.lhsBatch by decide),
    dif_pos (show (0 : Fin S4096x16384.rank) ∈ dot_S4096x16384_S16384x128_S4096x128_1_0_0_1_n_n.lhsNonContracting by decide)]
  rfl
theorem lhs_v56_1 (i : S4096x128.Idx) (q : dot_S4096x16384_S16384x128_S4096x128_1_0_0_1_n_n.contr.Idx) :
    (dot_S4096x16384_S16384x128_S4096x128_1_0_0_1_n_n.lhsIdx i q 1).val = (q ⟨0, by decide⟩).val :=
  dot_S4096x16384_S16384x128_S4096x128_1_0_0_1_n_n.lhsIdx_val_of_single rfl i q
theorem rhs_v56_0 (i : S4096x128.Idx) (q : dot_S4096x16384_S16384x128_S4096x128_1_0_0_1_n_n.contr.Idx) :
    (dot_S4096x16384_S16384x128_S4096x128_1_0_0_1_n_n.rhsIdx i q 0).val = (q ⟨0, by decide⟩).val :=
  dot_S4096x16384_S16384x128_S4096x128_1_0_0_1_n_n.rhsIdx_val_of_single rfl i q
theorem rhs_v56_1 (i : S4096x128.Idx) (q : dot_S4096x16384_S16384x128_S4096x128_1_0_0_1_n_n.contr.Idx) :
    (dot_S4096x16384_S16384x128_S4096x128_1_0_0_1_n_n.rhsIdx i q 1).val = (i 1).val := by
  unfold DotDims.rhsIdx
  rw [dif_neg (show ¬(1 : Fin S16384x128.rank) ∈ dot_S4096x16384_S16384x128_S4096x128_1_0_0_1_n_n.rhsBatch by decide),
    dif_pos (show (1 : Fin S16384x128.rank) ∈ dot_S4096x16384_S16384x128_S4096x128_1_0_0_1_n_n.rhsNonContracting by decide)]
  rfl

theorem dot_v56_apply (X : C ⟨S4096x16384, .f32⟩) (E : C ⟨S16384x128, .f32⟩) (r : Fin 4096) (d : Fin 128) :
    Host.dotGeneral (F := Ideal) (φ₁ := .f32) (φ₂ := .f32) dot_S4096x16384_S16384x128_S4096x128_1_0_0_1_n_n none X E (ix2 r d)
      = ∑ k : Fin 16384, X (ix2 r k) * E (ix2 k d) := by
  simp only [Host.dotGeneral]
  rw [Ideal.dotGeneral_apply, ← Equiv.sum_comp (ValueIdx.contrEquiv1 dot_S4096x16384_S16384x128_S4096x128_1_0_0_1_n_n 16384 rfl rfl).symm]
  refine Finset.sum_congr rfl fun k _ => ?_
  have hk := ValueIdx.contrEquiv1_symm_val dot_S4096x16384_S16384x128_S4096x128_1_0_0_1_n_n 16384 rfl rfl k
  have el : dot_S4096x16384_S16384x128_S4096x128_1_0_0_1_n_n.lhsIdx (ix2 r d)
      ((ValueIdx.contrEquiv1 dot_S4096x16384_S16384x128_S4096x128_1_0_0_1_n_n 16384 rfl rfl).symm k) = ix2 r k :=
    funext fun a => Fin.ext (by
      match a with
      | ⟨0, _⟩ => exact lhs_v56_0 _ _
      | ⟨1, _⟩ => exact (lhs_v56_1 _ _).trans hk)
  have er : dot_S4096x16384_S16384x128_S4096x128_1_0_0_1_n_n.rhsIdx (ix2 r d)
      ((ValueIdx.contrEquiv1 dot_S4096x16384_S16384x128_S4096x128_1_0_0_1_n_n 16384 rfl rfl).symm k) = ix2 k d :=
    funext fun a => Fin.ext (by
      match a with
      | ⟨0, _⟩ => exact (rhs_v56_0 _ _).trans hk
      | ⟨1, _⟩ => exact rhs_v56_1 _ _)
  rw [el, er]

theorem lhs_v65_0 (i : S8192x3x128.Idx) (q : dot_S8192x128_S3x128x128_S8192x3x128_1_2_0_01_n_n.contr.Idx) :
    (dot_S8192x128_S3x128x128_S8192x3x128_1_2_0_01_n_n.lhsIdx i q 0).val = (i 0).val := by
  unfold DotDims.lhsIdx
  rw [dif_neg (show ¬(0 : Fin S8192x128.rank) ∈ dot_S8192x128_S3x128x128_S8192x3x128_1_2_0_01_n_n.lhsBatch by decide),
    dif_pos (show (0 : Fin S8192x128.rank) ∈ dot_S8192x128_S3x128x128_S8192x3x128_1_2_0_01_n_n.lhsNonContracting by decide)]
  rfl
theorem lhs_v65_1 (i : S8192x3x128.Idx) (q : dot_S8192x128_S3x128x128_S8192x3x128_1_2_0_01_n_n.contr.Idx) :
    (dot_S8192x128_S3x128x128_S8192x3x128_1_2_0_01_n_n.lhsIdx i q 1).val = (q ⟨0, by decide⟩).val :=
  dot_S8192x128_S3x128x128_S8192x3x128_1_2_0_01_n_n.lhsIdx_val_of_single rfl i q
theorem rhs_v65_0 (i : S8192x3x128.Idx) (q : dot_S8192x128_S3x128x128_S8192x3x128_1_2_0_01_n_n.contr.Idx) :
    (dot_S8192x128_S3x128x128_S8192x3x128_1_2_0_01_n_n.rhsIdx i q 0).val = (i 1).val := by
  unfold DotDims.rhsIdx
  rw [dif_neg (show ¬(0 : Fin S3x128x128.rank) ∈ dot_S8192x128_S3x128x128_S8192x3x128_1_2_0_01_n_n.rhsBatch by decide),
    dif_pos (show (0 : Fin S3x128x128.rank) ∈ dot_S8192x128_S3x128x128_S8192x3x128_1_2_0_01_n_n.rhsNonContracting by decide)]
  rfl
theorem rhs_v65_1 (i : S8192x3x128.Idx) (q : dot_S8192x128_S3x128x128_S8192x3x128_1_2_0_01_n_n.contr.Idx) :
    (dot_S8192x128_S3x128x128_S8192x3x128_1_2_0_01_n_n.rhsIdx i q 1).val = (i 2).val := by
  unfold DotDims.rhsIdx
  rw [dif_neg (show ¬(1 : Fin S3x128x128.rank) ∈ dot_S8192x128_S3x128x128_S8192x3x128_1_2_0_01_n_n.rhsBatch by decide),
    dif_pos (show (1 : Fin S3x128x128.rank) ∈ dot_S8192x128_S3x128x128_S8192x3x128_1_2_0_01_n_n.rhsNonContracting by decide)]
  rfl
theorem rhs_v65_2 (i : S8192x3x128.Idx) (q : dot_S8192x128_S3x128x128_S8192x3x128_1_2_0_01_n_n.contr.Idx) :
    (dot_S8192x128_S3x128x128_S8192x3x128_1_2_0_01_n_n.rhsIdx i q 2).val = (q ⟨0, by decide⟩).val :=
  dot_S8192x128_S3x128x128_S8192x3x128_1_2_0_01_n_n.rhsIdx_val_of_single rfl i q

theorem dot_v65_apply (X : C ⟨S8192x128, .f32⟩) (W : C ⟨S3x128x128, .f32⟩) (r : Fin 8192) (l : Fin 3) (k : Fin 128) :
    Host.dotGeneral (F := Ideal) (φ₁ := .f32) (φ₂ := .f32) dot_S8192x128_S3x128x128_S8192x3x128_1_2_0_01_n_n none X W (ix3 r l k)
      = ∑ d : Fin 128, X (ix2 r d) * W (ix3 l k d) := by
  simp only [Host.dotGeneral]
  rw [Ideal.dotGeneral_apply, ← Equiv.sum_comp (ValueIdx.contrEquiv1 dot_S8192x128_S3x128x128_S8192x3x128_1_2_0_01_n_n 128 rfl rfl).symm]
  refine Finset.sum_congr rfl fun d _ => ?_
  have hk := ValueIdx.contrEquiv1_symm_val dot_S8192x128_S3x128x128_S8192x3x128_1_2_0_01_n_n 128 rfl rfl d
  have el : dot_S8192x128_S3x128x128_S8192x3x128_1_2_0_01_n_n.lhsIdx (ix3 r l k)
      ((ValueIdx.contrEquiv1 dot_S8192x128_S3x128x128_S8192x3x128_1_2_0_01_n_n 128 rfl rfl).symm d) = ix2 r d :=
    funext fun a => Fin.ext (by
      match a with
      | ⟨0, _⟩ => exact lhs_v65_0 _ _
      | ⟨1, _⟩ => exact (lhs_v65_1 _ _).trans hk)
  have er : dot_S8192x128_S3x128x128_S8192x3x128_1_2_0_01_n_n.rhsIdx (ix3 r l k)
      ((ValueIdx.contrEquiv1 dot_S8192x128_S3x128x128_S8192x3x128_1_2_0_01_n_n 128 rfl rfl).symm d) = ix3 l k d :=
    funext fun a => Fin.ext (by
      match a with
      | ⟨0, _⟩ => exact rhs_v65_0 _ _
      | ⟨1, _⟩ => exact rhs_v65_1 _ _
      | ⟨2, _⟩ => exact (rhs_v65_2 _ _).trans hk)
  rw [el, er]

theorem posRows_apply (pn : C ⟨S4096, .i32⟩) (hpn : ∀ j, (pn j).toNat < 16384) (A : C ⟨S16384x16384, .f32⟩)
    (emb : C ⟨S16384x128, .f32⟩) (r : Fin 4096) (d : Fin 128) :
    posRows pn A emb (ix2 r d) = ∑ k : Fin 16384, A (ix2 (tbl pn hpn r) k) * emb (ix2 k d) := by
  unfold posRows
  rw [dot_v56_apply]
  refine Finset.sum_congr rfl fun k _ => ?_
  rw [gatherA_apply]
  exact congrArg (fun i : Fin 16384 => A (ix2 i k) * emb (ix2 k d)) (Fin.ext (start_eq pn hpn r))

theorem negRows_apply (nn : C ⟨S4096, .i32⟩) (hnn : ∀ j, (nn j).toNat < 16384) (emb : C ⟨S16384x128, .f32⟩)
    (r : Fin 4096) (d : Fin 128) :
    negRows nn emb (ix2 r d) = emb (ix2 (tbl nn hnn r) d) := by
  unfold negRows
  rw [gatherE_apply]
  exact congrArg (fun i : Fin 16384 => emb (ix2 i d)) (Fin.ext (start_eq nn hnn r))

theorem rows_apply (pn nn : C ⟨S4096, .i32⟩) (hpn : ∀ j, (pn j).toNat < 16384) (hnn : ∀ j, (nn j).toNat < 16384)
    (A : C ⟨S16384x16384, .f32⟩) (emb : C ⟨S16384x128, .f32⟩) (r : Fin 8192) (d : Fin 128) :
    concatenate S8192x128 0 [⟨S4096x128, posRows pn A emb⟩, ⟨S4096x128, negRows nn emb⟩]
        concatenates_S4096x128_S4096x128_S8192x128_d0 (ix2 r d)
      = Cert.Spec.x A emb (tbl pn hpn) (tbl nn hnn) r d := by
  unfold Cert.Spec.x
  by_cases h : r.val < 4096
  · rw [dif_pos h, concatenate_pair_apply_left (t := S8192x128) (s₁ := S4096x128) (s₂ := S4096x128) 0
      (posRows pn A emb) (negRows nn emb) concatenates_S4096x128_S4096x128_S8192x128_d0 (ix2 r d) rfl
      (ix2 (⟨r.val, h⟩ : Fin 4096) d) (fun b => by match b with | ⟨0, _⟩ => rfl | ⟨1, _⟩ => rfl)]
    exact posRows_apply pn hpn A emb ⟨r.val, h⟩ d
  · have h' : r.val - 4096 < 4096 := by have := r.isLt; omega
    rw [dif_neg h, concatenate_pair_apply_right (t := S8192x128) (s₁ := S4096x128) (s₂ := S4096x128) 0
      (posRows pn A emb) (negRows nn emb) concatenates_S4096x128_S4096x128_S8192x128_d0 (ix2 r d) rfl rfl
      (ix2 (⟨r.val - 4096, h'⟩ : Fin 4096) d)
      (fun b hb => by
        obtain ⟨bv, hbv⟩ := b
        have h2 : bv < 2 := hbv
        have h0 : bv ≠ 0 := fun h0 => hb (Fin.ext h0)
        obtain rfl : bv = 1 := by omega
        rfl)
      (by show r.val - 4096 + 4096 = r.val; omega)]
    exact negRows_apply nn hnn emb ⟨r.val - 4096, h'⟩ d

theorem bias_apply (b : C ⟨S3x128, .f32⟩) (r : Fin 8192) (l : Fin 3) (k : Fin 128) :
    broadcastInDim S8192x3x128 ![0, 1, 2] bcast_S1x3x128_S8192x3x128_0_1_2
        (broadcastInDim S1x3x128 ![1, 2] bcast_S3x128_S1x3x128_1_2 b) (ix3 r l k) = b (ix2 l k) := by
  rw [broadcastInDim_apply _ _ _ (ix3 r l k) (ix3 (0 : Fin 1) l k)
      (fun a => by match a with | ⟨0, _⟩ => rfl | ⟨1, _⟩ => rfl | ⟨2, _⟩ => rfl),
    broadcastInDim_apply _ _ _ (ix3 (0 : Fin 1) l k) (ix2 l k)
      (fun a => by match a with | ⟨0, _⟩ => rfl | ⟨1, _⟩ => rfl)]

theorem zero_apply (j : S8192x3x128.Idx) :
    broadcastInDim S8192x3x128 ![] bcast_S_S8192x3x128 (constant (F := Ideal) S_ .f32 0x00000000#32) j = (0 : EReal) := by
  rw [broadcastInDim_apply _ _ _ j ix0 (fun a => a.elim0), constant_apply, Ideal.ofBits_zero_f32]

theorem reshape_apply (v : C ⟨S8192x3x128, .f32⟩) (r : Fin 8192) (l : Fin 3) (k : Fin 128) :
    shapeCast S8192x384 v shapeCasts_S8192x3x128_S8192x384 (ix2 r (Cert.Spec.col l k)) = v (ix3 r l k) :=
  shapeCast_apply v _ _ (ix3 r l k) (by
    rw [Shape.rowMajor_val_three, Shape.rowMajor_val_two]
    show (r.val * 3 + l.val) * 128 + k.val = r.val * 384 + (128 * l.val + k.val)
    omega)

theorem refOut_apply (pn nn : C ⟨S4096, .i32⟩) (hpn : ∀ j, (pn j).toNat < 16384) (hnn : ∀ j, (nn j).toNat < 16384)
    (A : C ⟨S16384x16384, .f32⟩) (emb : C ⟨S16384x128, .f32⟩) (W : C ⟨S3x128x128, .f32⟩) (b : C ⟨S3x128, .f32⟩)
    (r : Fin 8192) (l : Fin 3) (k : Fin 128) :
    refOut pn nn A emb W b (ix2 r (Cert.Spec.col l k))
      = Cert.Spec.G A emb W b (tbl pn hpn) (tbl nn hnn) r l k := by
  unfold refOut layers
  rw [reshape_apply, maximumf_apply, addf_apply, zero_apply, bias_apply, dot_v65_apply]
  simp only [rows_apply pn nn hpn hnn]
  rfl

theorem refOut_eq (pn nn : C ⟨S4096, .i32⟩) (hpn : ∀ j, (pn j).toNat < 16384) (hnn : ∀ j, (nn j).toNat < 16384)
    (A : C ⟨S16384x16384, .f32⟩) (emb : C ⟨S16384x128, .f32⟩) (W : C ⟨S3x128x128, .f32⟩) (b : C ⟨S3x128, .f32⟩) :
    refOut pn nn A emb W b = Cert.Spec.out A emb W b (tbl pn hpn) (tbl nn hnn) := by
  funext j
  obtain ⟨r, c, rfl⟩ : ∃ (r : Fin 8192) (c : Fin 384), j = ix2 r c := ⟨j 0, j 1, eq_ix2 j⟩
  have hc : c.val < 384 := c.isLt
  obtain ⟨l, k, rfl⟩ : ∃ (l : Fin 3) (k : Fin 128), c = Cert.Spec.col l k :=
    ⟨⟨c.val / 128, by omega⟩, ⟨c.val % 128, Nat.mod_lt _ (by decide)⟩,
      Fin.ext (by show c.val = 128 * (c.val / 128) + c.val % 128; omega)⟩
  rw [refOut_apply pn nn hpn hnn, Cert.Spec.out_apply]

theorem refOut_eq_stages (pn nn : C ⟨S4096, .i32⟩) (A : C ⟨S16384x16384, .f32⟩) (emb : C ⟨S16384x128, .f32⟩)
    (W : C ⟨S3x128x128, .f32⟩) (b : C ⟨S3x128, .f32⟩) :
    refOut pn nn A emb W b
      = HandRun.fv_main_v70 (F := Ideal) (HandRun.fv_main_v56 (F := Ideal) pn A emb) (HandRun.fv_main_v63 (F := Ideal) nn emb) W b :=
  rfl

end Cert.ReferenceIdeal.RefValue

end
-- ==== Proof.RefRes.lean ====
import proofs.«410613_j6055903887911_1_alg».proof.Proof.RefRun
import proofs.«410613_j6055903887911_1_alg».proof.Proof.RefValue

noncomputable section

namespace Cert.ReferenceIdeal.RefValue

open Idealize.ShloMosaic Idealize.ShloMosaic.ValueIdx
open Cert.ReferenceIdeal Cert.ReferenceIdeal.Facts₀ Cert.ReferenceIdeal.Facts

theorem posNodes_lt (nt ni : C ⟨S8192, .i32⟩) (h : ∀ i, (ni i).toNat < 16384) (j : S4096.Idx) :
    (HandRun.posNodes (F := Ideal) nt ni j).toNat < 16384 := by
  unfold HandRun.posNodes HandRun.fv_main_v41 Host.gather
  exact h _

theorem negNodes_lt (nt ni : C ⟨S8192, .i32⟩) (h : ∀ i, (ni i).toNat < 16384) (j : S4096.Idx) :
    (HandRun.negNodes (F := Ideal) nt ni j).toNat < 16384 := by
  unfold HandRun.negNodes HandRun.fv_main_v48 Host.gather
  exact h _

theorem res_v70_eq_spec (nt ni : C ⟨S8192, .i32⟩) (h : ∀ i, (ni i).toNat < 16384)
    (A : C ⟨S16384x16384, .f32⟩) (emb : C ⟨S16384x128, .f32⟩) (W : C ⟨S3x128x128, .f32⟩) (b : C ⟨S3x128, .f32⟩) :
    HandRun.res_v70 (F := Ideal) nt ni A emb W b
      = Cert.Spec.out A emb W b (tbl (HandRun.posNodes (F := Ideal) nt ni) (posNodes_lt nt ni h))
          (tbl (HandRun.negNodes (F := Ideal) nt ni) (negNodes_lt nt ni h)) := by
  rw [HandRun.res_v70_eq, ← refOut_eq_stages]
  exact refOut_eq _ _ _ _ A emb W b

end Cert.ReferenceIdeal.RefValue

end
-- ==== Proof.KIStages.lean ====
import proofs.«410613_j6055903887911_1_alg».proof.Proof.KICommon
import proofs.«410613_j6055903887911_1_alg».proof.Proof.Gen.KernelIdeal.Regions
import proofs.«410613_j6055903887911_1_alg».proof.Proof.RefOps

noncomputable section

namespace Cert.KernelIdeal.HandValue

open Cert.KernelIdeal Cert.KernelIdeal.Gen
open Idealize.ShloMosaic
open Idealize.ShloMosaic.TcCoe
open Idealize.SL.Sem

variable {F : FTy → Type} [FloatOps F]

abbrev C (F : FTy → Type) (T : BufTy) : Type := T.Contents (Elt F)

local notation "B4" => broadcastInDim S4096 ![] bcast_S_S4096
local notation "B8" => broadcastInDim S8192 ![] bcast_S_S8192

def kC (k : BitVec 32) : C F ⟨S_, .i32⟩ := constantI S_ 32 k

def kEq (k : BitVec 32) (a0 : C F ⟨S8192, .i32⟩) : C F ⟨S8192, .i1⟩ :=
  cmpi .eq a0 (B8 (constantI S_ 32 k))

def kCum8 (v1 : C F ⟨S8192, .i1⟩) : C F ⟨S8192, .i32⟩ :=
  Host.reduceWindow IntOp.addi ![8192] ![1] ![8191] ![0] (extui 32 v1 natLt_1_32)
    (broadcastInDim S_ ![] bcast_S_S_ (constantI S_ 32 0#32)) reduceWindows_S8192_S8192_w8192s1p8191_0 h_S_

def kZ4 : C F ⟨S4096, .i32⟩ := B4 (constantI S_ 32 0#32)

def kClip (c1 : C F ⟨S_, .i32⟩) (v2 : C F ⟨S8192, .i32⟩) : C F ⟨S8192, .i32⟩ :=
  maxsi (B8 (id c1)) v2

def kScat (v3 : C F ⟨S4096, .i32⟩) (v4 : C F ⟨S8192, .i32⟩) : C F ⟨S4096, .i32⟩ :=
  Host.scatter scatter_S4096_S8192x1_S8192_n_0_0_1 IntOp.addi v3
    (broadcastInDim S8192x1 ![0] bcast_S8192_S8192x1_0
      (select (cmpi .slt v4 (B8 (constantI S_ 32 0#32))) (addi v4 (B8 (constantI S_ 32 4096#32))) v4))
    (B8 (constantI S_ 32 1#32))

def kCum4 (v12 : C F ⟨S4096, .i32⟩) : C F ⟨S4096, .i32⟩ :=
  Host.reduceWindow IntOp.addi ![4096] ![1] ![4095] ![0] v12
    (broadcastInDim S_ ![] bcast_S_S_ (constantI S_ 32 0#32)) reduceWindows_S4096_S4096_w4096s1p4095_0 h_S_

def kFdiv (x : C F ⟨S4096, .i32⟩) (c : C F ⟨S_, .i32⟩) : C F ⟨S4096, .i32⟩ :=
  select
    (andi (cmpi .ne (signi x) (B4 (signi c)))
      (cmpi .ne (Host.remsi x (B4 c)) (B4 (constantI S_ 32 0#32))))
    (subi (Host.divsi x (B4 c)) (B4 (constantI S_ 32 1#32)))
    (Host.divsi x (B4 c))

def kRemD (c : C F ⟨S_, .i32⟩) : C F ⟨S_, .i32⟩ :=
  select (cmpi .eq (id c) (constantI S_ 32 0#32)) (constantI S_ 32 1#32) (id c)

def kRem (x : C F ⟨S4096, .i32⟩) (c : C F ⟨S_, .i32⟩) : C F ⟨S4096, .i32⟩ :=
  select
    (andi
      (cmpi .ne (cmpi .slt (Host.remsi x (B4 (kRemD c))) (B4 (constantI S_ 32 0#32)))
        (B4 (cmpi .slt (kRemD c) (constantI S_ 32 0#32))))
      (cmpi .ne (Host.remsi x (B4 (kRemD c))) (B4 (constantI S_ 32 0#32))))
    (addi (Host.remsi x (B4 (kRemD c))) (B4 (kRemD c)))
    (Host.remsi x (B4 (kRemD c)))

def kSel (v15 : C F ⟨S4096, .i32⟩) : C F ⟨S4096, .i32⟩ :=
  select (cmpi .slt v15 (B4 (constantI S_ 32 0#32))) (addi v15 (B4 (constantI S_ 32 8192#32))) v15

def kTake (a1 : C F ⟨S8192, .i32⟩) (v39 : C F ⟨S4096, .i32⟩) : C F ⟨S4096, .i32⟩ :=
  Host.gather gather_S8192_S4096x1_S4096_n_0_n_n_0_1_1 a1 (broadcastInDim S4096x1 ![0] bcast_S4096_S4096x1_0 v39)

def kLab : C F ⟨S8192, .i32⟩ :=
  concatenate S8192 0 [⟨S4096, B4 (constantI S_ 32 1#32)⟩, ⟨S4096, B4 (constantI S_ 32 0#32)⟩] concatenates_S4096_S4096_S8192_d0

theorem br2 (a0 : C F ⟨S8192, .i32⟩) : kCum8 (kEq 1#32 a0) = Cert.ReferenceIdeal.HandRun.fv_main_v2 (F := F) a0 := rfl
theorem br3 : kZ4 (F := F) = Cert.ReferenceIdeal.HandRun.fv_main_v3 (F := F) := rfl
theorem br4 (v2 : C F ⟨S8192, .i32⟩) : kClip (kC 0#32) v2 = Cert.ReferenceIdeal.HandRun.fv_main_v4 (F := F) v2 := rfl
theorem br13 (v4 : C F ⟨S8192, .i32⟩) (v3 : C F ⟨S4096, .i32⟩) : kCum4 (kScat v3 v4) = Cert.ReferenceIdeal.HandRun.fv_main_v13 (F := F) v4 v3 := rfl
theorem br14 (v13 : C F ⟨S4096, .i32⟩) : kFdiv v13 (kC 1#32) = Cert.ReferenceIdeal.HandRun.fv_main_v14 (F := F) v13 := rfl
theorem br15 (v14 : C F ⟨S4096, .i32⟩) : kRem v14 (kC 8192#32) = Cert.ReferenceIdeal.HandRun.fv_main_v15 (F := F) v14 := rfl
theorem br18 (a0 : C F ⟨S8192, .i32⟩) : kCum8 (kEq 0#32 a0) = Cert.ReferenceIdeal.HandRun.fv_main_v18 (F := F) a0 := rfl
theorem br19 : kZ4 (F := F) = Cert.ReferenceIdeal.HandRun.fv_main_v19 (F := F) := rfl
theorem br20 (v2 : C F ⟨S8192, .i32⟩) : kClip (kC 0#32) v2 = Cert.ReferenceIdeal.HandRun.fv_main_v20 (F := F) v2 := rfl
theorem br29 (v4 : C F ⟨S8192, .i32⟩) (v3 : C F ⟨S4096, .i32⟩) : kCum4 (kScat v3 v4) = Cert.ReferenceIdeal.HandRun.fv_main_v29 (F := F) v4 v3 := rfl
theorem br30 (v13 : C F ⟨S4096, .i32⟩) : kFdiv v13 (kC 1#32) = Cert.ReferenceIdeal.HandRun.fv_main_v30 (F := F) v13 := rfl
theorem br31 (v14 : C F ⟨S4096, .i32⟩) : kRem v14 (kC 8192#32) = Cert.ReferenceIdeal.HandRun.fv_main_v31 (F := F) v14 := rfl
theorem br39 (v15 : C F ⟨S4096, .i32⟩) : kSel v15 = Cert.ReferenceIdeal.HandRun.fv_main_v39 (F := F) v15 := rfl
theorem br41 (a1 : C F ⟨S8192, .i32⟩) (v39 : C F ⟨S4096, .i32⟩) : kTake a1 v39 = Cert.ReferenceIdeal.HandRun.fv_main_v41 (F := F) v39 a1 := rfl
theorem br48 (a1 : C F ⟨S8192, .i32⟩) (v31 : C F ⟨S4096, .i32⟩) : kTake a1 (kSel v31) = Cert.ReferenceIdeal.HandRun.fv_main_v48 (F := F) v31 a1 := rfl
theorem br34 : kLab (F := F) = Cert.ReferenceIdeal.HandRun.fv_main_v34 (F := F) Cert.ReferenceIdeal.HandRun.fv_main_v32 Cert.ReferenceIdeal.HandRun.fv_main_v33 := rfl

end Cert.KernelIdeal.HandValue

end
-- ==== Proof.KITablesRef.lean ====
import proofs.«410613_j6055903887911_1_alg».proof.Proof.KIStages
import proofs.«410613_j6055903887911_1_alg».proof.Proof.RefRun

noncomputable section

namespace Cert.KernelIdeal.HandValue

open Cert.KernelIdeal Cert.KernelIdeal.Gen
open Idealize.ShloMosaic
open Idealize.ShloMosaic.TcCoe
open Idealize.SL.Sem

variable {F : FTy → Type} [FloatOps F]

local notation "B4" => broadcastInDim S4096 ![] bcast_S_S4096
local notation "B8" => broadcastInDim S8192 ![] bcast_S_S8192

theorem p1 (m : (ℓ : Loc nD τ sig) → Buf (Elt F) ℓ) (c : Dev nD) :
    V1 m c main_v1 = kEq (F := F) 1#32 (V0 m c main_arg0) := by
  show StableHlo.after hostOps0 (V0 m c) (Proc.devRef .tc main_v1) = _
  generalize V0 m c = W
  after_results
  try simp only [StableHlo.TRef.ofBuf, StableHlo.TRef.toBuf, cast_eq]
  rfl

theorem p2 (m : (ℓ : Loc nD τ sig) → Buf (Elt F) ℓ) (c : Dev nD) :
    V2 m c main_v2 = kCum8 (F := F) (V1 m c main_v1) := by
  show StableHlo.after hostOps0_1 (V1 m c) (Proc.devRef .tc main_v2) = _
  generalize V1 m c = W
  after_results
  try simp only [StableHlo.TRef.ofBuf, StableHlo.TRef.toBuf, cast_eq]
  rfl

theorem p3a (m : (ℓ : Loc nD τ sig) → Buf (Elt F) ℓ) (c : Dev nD) :
    V3 m c main_v3 = kZ4 (F := F) := by
  show StableHlo.after hostOps0_2 (V2 m c) (Proc.devRef .tc main_v3) = _
  generalize V2 m c = W
  after_results
  try simp only [StableHlo.TRef.ofBuf, StableHlo.TRef.toBuf, cast_eq]
  rfl

theorem p3b (m : (ℓ : Loc nD τ sig) → Buf (Elt F) ℓ) (c : Dev nD) :
    V3 m c main_c_1 = kC (F := F) 0#32 := by
  show StableHlo.after hostOps0_2 (V2 m c) (Proc.devRef .tc main_c_1) = _
  generalize V2 m c = W
  after_results
  try simp only [StableHlo.TRef.ofBuf, StableHlo.TRef.toBuf, cast_eq]
  rfl

theorem p4 (m : (ℓ : Loc nD τ sig) → Buf (Elt F) ℓ) (c : Dev nD) :
    V4 m c main_v4 = kClip (F := F) (V3 m c main_c_1) (V3 m c main_v2) := by
  show StableHlo.after hostOps0_3 (V3 m c) (Proc.devRef .tc main_v4) = _
  generalize V3 m c = W
  after_results
  try simp only [StableHlo.TRef.ofBuf, StableHlo.TRef.toBuf, cast_eq]
  rfl

theorem p5 (m : (ℓ : Loc nD τ sig) → Buf (Elt F) ℓ) (c : Dev nD) :
    V5 m c main_v12 = kScat (F := F) (V4 m c main_v3) (V4 m c main_v4) := by
  show StableHlo.after hostOps0_4 (V4 m c) (Proc.devRef .tc main_v12) = _
  generalize V4 m c = W
  after_results
  try simp only [StableHlo.TRef.ofBuf, StableHlo.TRef.toBuf, cast_eq]
  rfl

theorem p6 (m : (ℓ : Loc nD τ sig) → Buf (Elt F) ℓ) (c : Dev nD) :
    V6 m c main_v13 = kCum4 (F := F) (V5 m c main_v12) := by
  show StableHlo.after hostOps0_5 (V5 m c) (Proc.devRef .tc main_v13) = _
  generalize V5 m c = W
  after_results
  try simp only [StableHlo.TRef.ofBuf, StableHlo.TRef.toBuf, cast_eq]
  rfl

theorem p7 (m : (ℓ : Loc nD τ sig) → Buf (Elt F) ℓ) (c : Dev nD) :
    V7 m c main_c_5 = kC (F := F) 1#32 := by
  show StableHlo.after hostOps0_6 (V6 m c) (Proc.devRef .tc main_c_5) = _
  generalize V6 m c = W
  after_results
  try simp only [StableHlo.TRef.ofBuf, StableHlo.TRef.toBuf, cast_eq]
  rfl

abbrev fdAP : List (HloOp τ sig (Elt F)) :=
  [ StableHlo.TRef.unary (.of main_c_5 : StableHlo.TRef sig ⟨S_, .i32⟩) (.of main_call3_v0 : StableHlo.TRef sig ⟨S4096, .i32⟩) (broadcastInDim S4096 ![] bcast_S_S4096),
    StableHlo.TRef.binary (.of main_v13 : StableHlo.TRef sig ⟨S4096, .i32⟩) (.of main_call3_v0 : StableHlo.TRef sig ⟨S4096, .i32⟩) (.of main_call3_v1 : StableHlo.TRef sig ⟨S4096, .i32⟩) Host.divsi,
    StableHlo.TRef.unary (.of main_v13 : StableHlo.TRef sig ⟨S4096, .i32⟩) (.of main_call3_v2 : StableHlo.TRef sig ⟨S4096, .i32⟩) signi,
    StableHlo.TRef.unary (.of main_c_5 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S4096, .i32⟩) (broadcastInDim S4096 ![] bcast_S_S4096),
    StableHlo.TRef.binary (.of main_call3_v2 : StableHlo.TRef sig ⟨S4096, .i32⟩) (.of main_call3_v4 : StableHlo.TRef sig ⟨S4096, .i32⟩) (.of main_call3_v5 : StableHlo.TRef sig ⟨S4096, .i1⟩) (cmpi .ne),
    StableHlo.TRef.unary (.of main_c_5 : StableHlo.TRef sig ⟨S_, .i32⟩) (.of main_call3_v6 : StableHlo.TRef sig ⟨S4096, .i32⟩) (broadcastInDim S4096 ![] bcast_S_S4096),
    StableHlo.TRef.binary (.of main_v13 : StableHlo.TRef sig ⟨S4096, .i32⟩) (.of main_call3_v6 : StableHlo.TRef sig ⟨S4096, .i32⟩) (.of main_call3_v7 : StableHlo.TRef sig ⟨S4096, .i32⟩) Host.remsi ]

abbrev fdBP : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S4096, .i32⟩) (broadcastInDim S4096 ![] bcast_S_S4096),
    StableHlo.TRef.binary (.of main_call3_v7 : StableHlo.TRef sig ⟨S4096, .i32⟩) (.of main_call3_v8 : StableHlo.TRef sig ⟨S4096, .i32⟩) (.of main_call3_v9 : StableHlo.TRef sig ⟨S4096, .i1⟩) (cmpi .ne),
    StableHlo.TRef.binary (.of main_call3_v5 : StableHlo.TRef sig ⟨S4096, .i1⟩) (.of main_call3_v9 : StableHlo.TRef sig ⟨S4096, .i1⟩) (.of main_call3_v10 : StableHlo.TRef sig ⟨S4096, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S4096, .i32⟩) (broadcastInDim S4096 ![] bcast_S_S4096),
    StableHlo.TRef.binary (.of main_call3_v1 : StableHlo.TRef sig ⟨S4096, .i32⟩) (.of main_call3_v11 : StableHlo.TRef sig ⟨S4096, .i32⟩) (.of main_call3_v12 : StableHlo.TRef sig ⟨S4096, .i32⟩) subi,
    StableHlo.TRef.ternary (.of main_call3_v10 : StableHlo.TRef sig ⟨S4096, .i1⟩) (.of main_call3_v12 : StableHlo.TRef sig ⟨S4096, .i32⟩) (.of main_call3_v1 : StableHlo.TRef sig ⟨S4096, .i32⟩) (.of main_v14 : StableHlo.TRef sig ⟨S4096, .i32⟩) select ]

theorem fdAP_v1 (W : Valuation τ sig (Elt F)) :
    StableHlo.after fdAP W (Proc.devRef .tc main_call3_v1) = (Host.divsi (W (Proc.devRef .tc main_v13)) (B4 (W (Proc.devRef .tc main_c_5))) : C F ⟨S4096, .i32⟩) := by
  after_results
  try simp only [StableHlo.TRef.ofBuf, StableHlo.TRef.toBuf, cast_eq]
  try rfl
theorem fdAP_v5 (W : Valuation τ sig (Elt F)) :
    StableHlo.after fdAP W (Proc.devRef .tc main_call3_v5) = (cmpi .ne (signi (W (Proc.devRef .tc main_v13))) (B4 (signi (W (Proc.devRef .tc main_c_5)))) : C F ⟨S4096, .i1⟩) := by
  after_results
  try simp only [StableHlo.TRef.ofBuf, StableHlo.TRef.toBuf, cast_eq]
  try rfl
theorem fdAP_v7 (W : Valuation τ sig (Elt F)) :
    StableHlo.after fdAP W (Proc.devRef .tc main_call3_v7) = (Host.remsi (W (Proc.devRef .tc main_v13)) (B4 (W (Proc.devRef .tc main_c_5))) : C F ⟨S4096, .i32⟩) := by
  after_results
  try simp only [StableHlo.TRef.ofBuf, StableHlo.TRef.toBuf, cast_eq]
  try rfl
theorem fdBP_out (W : Valuation τ sig (Elt F)) :
    StableHlo.after fdBP W (Proc.devRef .tc main_v14) =
      (select (andi (W (Proc.devRef .tc main_call3_v5)) (cmpi .ne (W (Proc.devRef .tc main_call3_v7)) (B4 (constantI S_ 32 0#32))))
        (subi (W (Proc.devRef .tc main_call3_v1)) (B4 (constantI S_ 32 1#32))) (W (Proc.devRef .tc main_call3_v1)) : C F ⟨S4096, .i32⟩) := by
  after_results
  try simp only [StableHlo.TRef.ofBuf, StableHlo.TRef.toBuf, cast_eq]
  try rfl

theorem p8 (m : (ℓ : Loc nD τ sig) → Buf (Elt F) ℓ) (c : Dev nD) :
    V8 m c main_v14 = kFdiv (F := F) (V7 m c main_v13) (V7 m c main_c_5) := by
  show StableHlo.after hostOps0_7 (V7 m c) (Proc.devRef .tc main_v14) = _
  generalize V7 m c = W
  unfold kFdiv
  rw [show (hostOps0_7 : List (HloOp τ sig (Elt F))) = fdAP ++ fdBP from rfl, StableHlo.after_append,
    fdBP_out, fdAP_v1, fdAP_v5, fdAP_v7]

theorem p9 (m : (ℓ : Loc nD τ sig) → Buf (Elt F) ℓ) (c : Dev nD) :
    V9 m c main_c_6 = kC (F := F) 8192#32 := by
  show StableHlo.after hostOps0_8 (V8 m c) (Proc.devRef .tc main_c_6) = _
  generalize V8 m c = W
  after_results
  try simp only [StableHlo.TRef.ofBuf, StableHlo.TRef.toBuf, cast_eq]
  rfl

abbrev rmAP : List (HloOp τ sig (Elt F)) :=
  [ StableHlo.TRef.unary (.of main_c_6 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S4096, .i32⟩) (broadcastInDim S4096 ![] bcast_S_S4096),
    StableHlo.TRef.binary (.of main_v14 : StableHlo.TRef sig ⟨S4096, .i32⟩) (.of main_call4_v3 : StableHlo.TRef sig ⟨S4096, .i32⟩) (.of main_call4_v4 : StableHlo.TRef sig ⟨S4096, .i32⟩) Host.remsi ]

abbrev rmBP : List (HloOp τ sig (Elt F)) :=
  [ StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S4096, .i32⟩) (broadcastInDim S4096 ![] bcast_S_S4096),
    StableHlo.TRef.binary (.of main_call4_v4 : StableHlo.TRef sig ⟨S4096, .i32⟩) (.of main_call4_v5 : StableHlo.TRef sig ⟨S4096, .i32⟩) (.of main_call4_v6 : StableHlo.TRef sig ⟨S4096, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S4096, .i32⟩) (broadcastInDim S4096 ![] bcast_S_S4096),
    StableHlo.TRef.binary (.of main_call4_v4 : StableHlo.TRef sig ⟨S4096, .i32⟩) (.of main_call4_v7 : StableHlo.TRef sig ⟨S4096, .i32⟩) (.of main_call4_v8 : StableHlo.TRef sig ⟨S4096, .i1⟩) (cmpi .slt),
    StableHlo.TRef.nullary (.of main_call4_c_3 : StableHlo.TRef sig ⟨S_, .i32⟩) (constantI S_ 32 0#32) ]

abbrev rmCP : List (HloOp τ sig (Elt F)) :=
  [ StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S4096, .i1⟩) (broadcastInDim S4096 ![] bcast_S_S4096),
    StableHlo.TRef.binary (.of main_call4_v8 : StableHlo.TRef sig ⟨S4096, .i1⟩) (.of main_call4_v10 : StableHlo.TRef sig ⟨S4096, .i1⟩) (.of main_call4_v11 : StableHlo.TRef sig ⟨S4096, .i1⟩) (cmpi .ne),
    StableHlo.TRef.binary (.of main_call4_v11 : StableHlo.TRef sig ⟨S4096, .i1⟩) (.of main_call4_v6 : StableHlo.TRef sig ⟨S4096, .i1⟩) (.of main_call4_v12 : StableHlo.TRef sig ⟨S4096, .i1⟩) andi,
    StableHlo.TRef.unary main_call4_call0.v0 (.of main_call4_v13 : StableHlo.TRef sig ⟨S4096, .i32⟩) (broadcastInDim S4096 ![] bcast_S_S4096),
    StableHlo.TRef.binary (.of main_call4_v4 : StableHlo.TRef sig ⟨S4096, .i32⟩) (.of main_call4_v13 : StableHlo.TRef sig ⟨S4096, .i32⟩) (.of main_call4_v14 : StableHlo.TRef sig ⟨S4096, .i32⟩) addi,
    StableHlo.TRef.ternary (.of main_call4_v12 : StableHlo.TRef sig ⟨S4096, .i1⟩) (.of main_call4_v14 : StableHlo.TRef sig ⟨S4096, .i32⟩) (.of main_call4_v4 : StableHlo.TRef sig ⟨S4096, .i32⟩) (.of main_v15 : StableHlo.TRef sig ⟨S4096, .i32⟩) select ]

theorem rmAP_v2 (W : Valuation τ sig (Elt F)) :
    StableHlo.after rmAP W (Proc.devRef .tc main_call4_v2) = (kRemD (F := F) (W (Proc.devRef .tc main_c_6)) : C F ⟨S_, .i32⟩) := by
  unfold kRemD
  after_results
  try simp only [StableHlo.TRef.ofBuf, StableHlo.TRef.toBuf, cast_eq]
  try rfl
theorem rmAP_v4 (W : Valuation τ sig (Elt F)) :
    StableHlo.after rmAP W (Proc.devRef .tc main_call4_v4) = (Host.remsi (W (Proc.devRef .tc main_v14)) (B4 (kRemD (F := F) (W (Proc.devRef .tc main_c_6)))) : C F ⟨S4096, .i32⟩) := by
  unfold kRemD
  after_results
  try simp only [StableHlo.TRef.ofBuf, StableHlo.TRef.toBuf, cast_eq]
  try rfl
theorem rmBP_v6 (W : Valuation τ sig (Elt F)) :
    StableHlo.after rmBP W (Proc.devRef .tc main_call4_v6) = (cmpi .ne (W (Proc.devRef .tc main_call4_v4)) (B4 (constantI S_ 32 0#32)) : C F ⟨S4096, .i1⟩) := by
  after_results
  try simp only [StableHlo.TRef.ofBuf, StableHlo.TRef.toBuf, cast_eq]
  try rfl
theorem rmBP_v8 (W : Valuation τ sig (Elt F)) :
    StableHlo.after rmBP W (Proc.devRef .tc main_call4_v8) = (cmpi .slt (W (Proc.devRef .tc main_call4_v4)) (B4 (constantI S_ 32 0#32)) : C F ⟨S4096, .i1⟩) := by
  after_results
  try simp only [StableHlo.TRef.ofBuf, StableHlo.TRef.toBuf, cast_eq]
  try rfl
theorem rmBP_c3 (W : Valuation τ sig (Elt F)) :
    StableHlo.after rmBP W (Proc.devRef .tc main_call4_c_3) = (constantI S_ 32 0#32 : C F ⟨S_, .i32⟩) := by
  after_results
  try simp only [StableHlo.TRef.ofBuf, StableHlo.TRef.toBuf, cast_eq]
  try rfl
theorem rmBP_v4 (W : Valuation τ sig (Elt F)) : StableHlo.after rmBP W (Proc.devRef .tc main_call4_v4) = W (Proc.devRef .tc main_call4_v4) := by
  after_results
theorem rmBP_v2 (W : Valuation τ sig (Elt F)) : StableHlo.after rmBP W (Proc.devRef .tc main_call4_v2) = W (Proc.devRef .tc main_call4_v2) := by
  after_results
theorem rmCP_out (W : Valuation τ sig (Elt F)) :
    StableHlo.after rmCP W (Proc.devRef .tc main_v15) =
      (select (andi (cmpi .ne (W (Proc.devRef .tc main_call4_v8)) (B4 (cmpi .slt (W (Proc.devRef .tc main_call4_v2)) (W (Proc.devRef .tc main_call4_c_3))))) (W (Proc.devRef .tc main_call4_v6)))
        (addi (W (Proc.devRef .tc main_call4_v4)) (B4 (W (Proc.devRef .tc main_call4_v2)))) (W (Proc.devRef .tc main_call4_v4)) : C F ⟨S4096, .i32⟩) := by
  after_results
  try simp only [StableHlo.TRef.ofBuf, StableHlo.TRef.toBuf, cast_eq]
  try rfl

theorem p10 (m : (ℓ : Loc nD τ sig) → Buf (Elt F) ℓ) (c : Dev nD) :
    V10 m c main_v15 = kRem (F := F) (V9 m c main_v14) (V9 m c main_c_6) := by
  show StableHlo.after hostOps0_9 (V9 m c) (Proc.devRef .tc main_v15) = _
  generalize V9 m c = W
  unfold kRem
  rw [show (hostOps0_9 : List (HloOp τ sig (Elt F))) = rmAP ++ (rmBP ++ rmCP) from rfl, StableHlo.after_append,
    StableHlo.after_append, rmCP_out, rmBP_v8, rmBP_v6, rmBP_c3, rmBP_v4, rmBP_v2, rmAP_v4, rmAP_v2]

theorem l41 (m : (ℓ : Loc nD τ sig) → Buf (Elt F) ℓ) (c : Dev nD) :
    V21 m c main_v41 = kTake (F := F) (V20 m c main_arg1) (kSel (V20 m c main_v15)) := by
  show StableHlo.after hostOps0_20 (V20 m c) (Proc.devRef .tc main_v41) = _
  generalize V20 m c = W
  after_results
  try simp only [StableHlo.TRef.ofBuf, StableHlo.TRef.toBuf, cast_eq]
  rfl

section Chain

variable (m : (ℓ : Loc nD τ sig) → Buf (Elt F) ℓ) (c : Dev nD)

theorem c_arg1 : V20 m c main_arg1 = V0 m c main_arg1 :=
  (V20_of m c main_arg1 (by decide)).trans <| (V19_of m c main_arg1 (by decide)).trans <| (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))

theorem c_v15 : V20 m c main_v15 = V10 m c main_v15 :=
  (V20_of m c main_v15 (by decide)).trans <| (V19_of m c main_v15 (by decide)).trans <| (V18_of m c main_v15 (by decide)).trans <| (V17_of m c main_v15 (by decide)).trans <| (V16_of m c main_v15 (by decide)).trans <| (V15_of m c main_v15 (by decide)).trans <| (V14_of m c main_v15 (by decide)).trans <| (V13_of m c main_v15 (by decide)).trans <| (V12_of m c main_v15 (by decide)).trans <| (V11_of m c main_v15 (by decide))

theorem s2 : V2 m c main_v2 = Cert.ReferenceIdeal.HandRun.fv_main_v2 (V0 m c main_arg0) := by
  rw [p2, p1]; exact br2 _
theorem s3 : V3 m c main_v3 = Cert.ReferenceIdeal.HandRun.fv_main_v3 := by
  rw [p3a]; exact br3
theorem s4 : V4 m c main_v4 = Cert.ReferenceIdeal.HandRun.fv_main_v4 (V2 m c main_v2) := by
  rw [p4, p3b, V3_of m c main_v2 (by decide)]; exact br4 _
theorem s13 : V6 m c main_v13 = Cert.ReferenceIdeal.HandRun.fv_main_v13 (V4 m c main_v4) (V3 m c main_v3) := by
  rw [p6, p5, V4_of m c main_v3 (by decide)]; exact br13 _ _
theorem s14 : V8 m c main_v14 = Cert.ReferenceIdeal.HandRun.fv_main_v14 (V6 m c main_v13) := by
  rw [p8, p7, V7_of m c main_v13 (by decide)]; exact br14 _
theorem s15 : V10 m c main_v15 = Cert.ReferenceIdeal.HandRun.fv_main_v15 (V8 m c main_v14) := by
  rw [p10, p9, V9_of m c main_v14 (by decide)]; exact br15 _

theorem pos_chain : V21 m c main_v41 =
    Cert.ReferenceIdeal.HandRun.fv_main_v41 (Cert.ReferenceIdeal.HandRun.fv_main_v39 (Cert.ReferenceIdeal.HandRun.fv_main_v15 (Cert.ReferenceIdeal.HandRun.fv_main_v14 (Cert.ReferenceIdeal.HandRun.fv_main_v13
      (Cert.ReferenceIdeal.HandRun.fv_main_v4 (Cert.ReferenceIdeal.HandRun.fv_main_v2 (V0 m c main_arg0))) Cert.ReferenceIdeal.HandRun.fv_main_v3)))) (V0 m c main_arg1) := by
  rw [l41, c_arg1, c_v15, s15, s14, s13, s4, s3, s2, br39, br41]

theorem tb0_eq : V21 m c main_v41 =
    Cert.ReferenceIdeal.HandRun.posNodes (m ((c.tc : Thread nD τ).loc main_arg0)) (m ((c.tc : Thread nD τ).loc main_arg1)) :=
  pos_chain m c

end Chain

end Cert.KernelIdeal.HandValue

end
-- ==== Proof.KITablesRefNeg.lean ====
import proofs.«410613_j6055903887911_1_alg».proof.Proof.KIStages
import proofs.«410613_j6055903887911_1_alg».proof.Proof.RefRun

set_option Elab.async false

noncomputable section

namespace Cert.KernelIdeal.HandValue

open Cert.KernelIdeal Cert.KernelIdeal.Gen
open Idealize.ShloMosaic
open Idealize.ShloMosaic.TcCoe
open Idealize.SL.Sem

variable {F : FTy → Type} [FloatOps F]

local notation "B4" => broadcastInDim S4096 ![] bcast_S_S4096
local notation "B8" => broadcastInDim S8192 ![] bcast_S_S8192

theorem n1 (m : (ℓ : Loc nD τ sig) → Buf (Elt F) ℓ) (c : Dev nD) :
    V11 m c main_v17 = kEq (F := F) 0#32 (V10 m c main_arg0) := by
  show StableHlo.after hostOps0_10 (V10 m c) (Proc.devRef .tc main_v17) = _
  generalize V10 m c = W
  unfold kEq
  after_results
  try simp only [StableHlo.TRef.ofBuf, StableHlo.TRef.toBuf]
  repeat erw [cast_eq]
  try rfl

theorem n2 (m : (ℓ : Loc nD τ sig) → Buf (Elt F) ℓ) (c : Dev nD) :
    V12 m c main_v18 = kCum8 (F := F) (V11 m c main_v17) := by
  show StableHlo.after hostOps0_11 (V11 m c) (Proc.devRef .tc main_v18) = _
  generalize V11 m c = W
  unfold kCum8
  after_results
  try simp only [StableHlo.TRef.ofBuf, StableHlo.TRef.toBuf]
  repeat erw [cast_eq]
  try rfl

theorem n3a (m : (ℓ : Loc nD τ sig) → Buf (Elt F) ℓ) (c : Dev nD) :
    V13 m c main_v19 = kZ4 (F := F) := by
  show StableHlo.after hostOps0_12 (V12 m c) (Proc.devRef .tc main_v19) = _
  generalize V12 m c = W
  unfold kZ4
  after_results
  try simp only [StableHlo.TRef.ofBuf, StableHlo.TRef.toBuf]
  repeat erw [cast_eq]
  try rfl

theorem n3b (m : (ℓ : Loc nD τ sig) → Buf (Elt F) ℓ) (c : Dev nD) :
    V13 m c main_c_9 = kC (F := F) 0#32 := by
  show StableHlo.after hostOps0_12 (V12 m c) (Proc.devRef .tc main_c_9) = _
  generalize V12 m c = W
  unfold kC
  after_results
  try simp only [StableHlo.TRef.ofBuf, StableHlo.TRef.toBuf]
  repeat erw [cast_eq]
  try rfl

theorem n4 (m : (ℓ : Loc nD τ sig) → Buf (Elt F) ℓ) (c : Dev nD) :
    V14 m c main_v20 = kClip (F := F) (V13 m c main_c_9) (V13 m c main_v18) := by
  show StableHlo.after hostOps0_13 (V13 m c) (Proc.devRef .tc main_v20) = _
  generalize V13 m c = W
  unfold kClip
  after_results
  try simp only [StableHlo.TRef.ofBuf, StableHlo.TRef.toBuf]
  repeat erw [cast_eq]
  try rfl

abbrev scAN : List (HloOp τ sig (Elt F)) :=
  [ StableHlo.nullary main_c_10 (constantI S_ 32 0#32),
    StableHlo.unary main_c_10 main_v21 (broadcastInDim S8192 ![] bcast_S_S8192 : (⟨S_, .i32⟩ : BufTy).Contents (Elt F) → (⟨S8192, .i32⟩ : BufTy).Contents (Elt F)),
    StableHlo.binary main_v20 main_v21 main_v22 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 4096#32),
    StableHlo.unary main_c_11 main_v23 (broadcastInDim S8192 ![] bcast_S_S8192 : (⟨S_, .i32⟩ : BufTy).Contents (Elt F) → (⟨S8192, .i32⟩ : BufTy).Contents (Elt F)),
    StableHlo.binary main_v20 main_v23 main_v24 (addi : (⟨S8192, .i32⟩ : BufTy).Contents (Elt F) → (⟨S8192, .i32⟩ : BufTy).Contents (Elt F) → (⟨S8192, .i32⟩ : BufTy).Contents (Elt F)),
    StableHlo.ternary main_v22 main_v24 main_v20 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) ]

abbrev scBN : List (HloOp τ sig (Elt F)) :=
  [ StableHlo.unary main_v25 main_v26 (broadcastInDim S8192x1 ![0] bcast_S8192_S8192x1_0 : (⟨S8192, .i32⟩ : BufTy).Contents (Elt F) → (⟨S8192x1, .i32⟩ : BufTy).Contents (Elt F)),
    StableHlo.nullary main_c_12 (constantI S_ 32 1#32),
    StableHlo.unary main_c_12 main_v27 (broadcastInDim S8192 ![] bcast_S_S8192 : (⟨S_, .i32⟩ : BufTy).Contents (Elt F) → (⟨S8192, .i32⟩ : BufTy).Contents (Elt F)),
    StableHlo.ternary main_v19 main_v26 main_v27 main_v28 ((fun x i u => Host.scatter scatter_S4096_S8192x1_S8192_n_0_0_1 IntOp.addi x i u) : (⟨S4096, .i32⟩ : BufTy).Contents (Elt F) → (⟨S8192x1, .i32⟩ : BufTy).Contents (Elt F) → (⟨S8192, .i32⟩ : BufTy).Contents (Elt F) → (⟨S4096, .i32⟩ : BufTy).Contents (Elt F)) ]

theorem scAN_sel (W : Valuation τ sig (Elt F)) :
    StableHlo.after scAN W (Proc.devRef .tc main_v25) =
      (select (cmpi .slt (W (Proc.devRef .tc main_v20)) (B8 (constantI S_ 32 0#32))) (addi (W (Proc.devRef .tc main_v20)) (B8 (constantI S_ 32 4096#32))) (W (Proc.devRef .tc main_v20)) : C F ⟨S8192, .i32⟩) := by
  after_results
  try simp only [StableHlo.TRef.ofBuf, StableHlo.TRef.toBuf]
  repeat erw [cast_eq]
  try rfl
theorem scAN_z (W : Valuation τ sig (Elt F)) : StableHlo.after scAN W (Proc.devRef .tc main_v19) = W (Proc.devRef .tc main_v19) := by
  after_results
theorem scBN_out (W : Valuation τ sig (Elt F)) :
    StableHlo.after scBN W (Proc.devRef .tc main_v28) =
      (Host.scatter scatter_S4096_S8192x1_S8192_n_0_0_1 IntOp.addi (W (Proc.devRef .tc main_v19))
        (broadcastInDim S8192x1 ![0] bcast_S8192_S8192x1_0 (W (Proc.devRef .tc main_v25))) (B8 (constantI S_ 32 1#32)) : C F ⟨S4096, .i32⟩) := by
  after_results
  try simp only [StableHlo.TRef.ofBuf, StableHlo.TRef.toBuf]
  repeat erw [cast_eq]
  try rfl

theorem n5 (m : (ℓ : Loc nD τ sig) → Buf (Elt F) ℓ) (c : Dev nD) :
    V15 m c main_v28 = kScat (F := F) (V14 m c main_v19) (V14 m c main_v20) := by
  show StableHlo.after hostOps0_14 (V14 m c) (Proc.devRef .tc main_v28) = _
  generalize V14 m c = W
  unfold kScat
  rw [show (hostOps0_14 : List (HloOp τ sig (Elt F))) = scAN ++ scBN from rfl, StableHlo.after_append,
    scBN_out, scAN_sel, scAN_z]

theorem n6 (m : (ℓ : Loc nD τ sig) → Buf (Elt F) ℓ) (c : Dev nD) :
    V16 m c main_v29 = kCum4 (F := F) (V15 m c main_v28) := by
  show StableHlo.after hostOps0_15 (V15 m c) (Proc.devRef .tc main_v29) = _
  generalize V15 m c = W
  unfold kCum4
  after_results
  try simp only [StableHlo.TRef.ofBuf, StableHlo.TRef.toBuf]
  repeat erw [cast_eq]
  try rfl

theorem n7 (m : (ℓ : Loc nD τ sig) → Buf (Elt F) ℓ) (c : Dev nD) :
    V17 m c main_c_13 = kC (F := F) 1#32 := by
  show StableHlo.after hostOps0_16 (V16 m c) (Proc.devRef .tc main_c_13) = _
  generalize V16 m c = W
  unfold kC
  after_results
  try simp only [StableHlo.TRef.ofBuf, StableHlo.TRef.toBuf]
  repeat erw [cast_eq]
  try rfl

abbrev fdAN : List (HloOp τ sig (Elt F)) :=
  [ StableHlo.TRef.unary (.of main_c_13 : StableHlo.TRef sig ⟨S_, .i32⟩) (.of main_call8_v0 : StableHlo.TRef sig ⟨S4096, .i32⟩) (broadcastInDim S4096 ![] bcast_S_S4096),
    StableHlo.TRef.binary (.of main_v29 : StableHlo.TRef sig ⟨S4096, .i32⟩) (.of main_call8_v0 : StableHlo.TRef sig ⟨S4096, .i32⟩) (.of main_call8_v1 : StableHlo.TRef sig ⟨S4096, .i32⟩) Host.divsi,
    StableHlo.TRef.unary (.of main_v29 : StableHlo.TRef sig ⟨S4096, .i32⟩) (.of main_call8_v2 : StableHlo.TRef sig ⟨S4096, .i32⟩) signi,
    StableHlo.TRef.unary (.of main_c_13 : StableHlo.TRef sig ⟨S_, .i32⟩) (.of main_call8_v3 : StableHlo.TRef sig ⟨S_, .i32⟩) signi,
    StableHlo.TRef.unary (.of main_call8_v3 : StableHlo.TRef sig ⟨S_, .i32⟩) (.of main_call8_v4 : StableHlo.TRef sig ⟨S4096, .i32⟩) (broadcastInDim S4096 ![] bcast_S_S4096),
    StableHlo.TRef.binary (.of main_call8_v2 : StableHlo.TRef sig ⟨S4096, .i32⟩) (.of main_call8_v4 : StableHlo.TRef sig ⟨S4096, .i32⟩) (.of main_call8_v5 : StableHlo.TRef sig ⟨S4096, .i1⟩) (cmpi .ne),
    StableHlo.TRef.unary (.of main_c_13 : StableHlo.TRef sig ⟨S_, .i32⟩) (.of main_call8_v6 : StableHlo.TRef sig ⟨S4096, .i32⟩) (broadcastInDim S4096 ![] bcast_S_S4096),
    StableHlo.TRef.binary (.of main_v29 : StableHlo.TRef sig ⟨S4096, .i32⟩) (.of main_call8_v6 : StableHlo.TRef sig ⟨S4096, .i32⟩) (.of main_call8_v7 : StableHlo.TRef sig ⟨S4096, .i32⟩) Host.remsi ]

abbrev fdBN : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v8 : StableHlo.TRef sig ⟨S4096, .i32⟩) (broadcastInDim S4096 ![] bcast_S_S4096),
    StableHlo.TRef.binary (.of main_call8_v7 : StableHlo.TRef sig ⟨S4096, .i32⟩) (.of main_call8_v8 : StableHlo.TRef sig ⟨S4096, .i32⟩) (.of main_call8_v9 : StableHlo.TRef sig ⟨S4096, .i1⟩) (cmpi .ne),
    StableHlo.TRef.binary (.of main_call8_v5 : StableHlo.TRef sig ⟨S4096, .i1⟩) (.of main_call8_v9 : StableHlo.TRef sig ⟨S4096, .i1⟩) (.of main_call8_v10 : StableHlo.TRef sig ⟨S4096, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v11 : StableHlo.TRef sig ⟨S4096, .i32⟩) (broadcastInDim S4096 ![] bcast_S_S4096),
    StableHlo.TRef.binary (.of main_call8_v1 : StableHlo.TRef sig ⟨S4096, .i32⟩) (.of main_call8_v11 : StableHlo.TRef sig ⟨S4096, .i32⟩) (.of main_call8_v12 : StableHlo.TRef sig ⟨S4096, .i32⟩) subi,
    StableHlo.TRef.ternary (.of main_call8_v10 : StableHlo.TRef sig ⟨S4096, .i1⟩) (.of main_call8_v12 : StableHlo.TRef sig ⟨S4096, .i32⟩) (.of main_call8_v1 : StableHlo.TRef sig ⟨S4096, .i32⟩) (.of main_v30 : StableHlo.TRef sig ⟨S4096, .i32⟩) select ]

theorem fdAN_v1 (W : Valuation τ sig (Elt F)) :
    StableHlo.after fdAN W (Proc.devRef .tc main_call8_v1) = (Host.divsi (W (Proc.devRef .tc main_v29)) (B4 (W (Proc.devRef .tc main_c_13))) : C F ⟨S4096, .i32⟩) := by
  after_results
  try simp only [StableHlo.TRef.ofBuf, StableHlo.TRef.toBuf]
  repeat erw [cast_eq]
  try rfl
theorem fdAN_v5 (W : Valuation τ sig (Elt F)) :
    StableHlo.after fdAN W (Proc.devRef .tc main_call8_v5) = (cmpi .ne (signi (W (Proc.devRef .tc main_v29))) (B4 (signi (W (Proc.devRef .tc main_c_13)))) : C F ⟨S4096, .i1⟩) := by
  after_results
  try simp only [StableHlo.TRef.ofBuf, StableHlo.TRef.toBuf]
  repeat erw [cast_eq]
  try rfl
theorem fdAN_v7 (W : Valuation τ sig (Elt F)) :
    StableHlo.after fdAN W (Proc.devRef .tc main_call8_v7) = (Host.remsi (W (Proc.devRef .tc main_v29)) (B4 (W (Proc.devRef .tc main_c_13))) : C F ⟨S4096, .i32⟩) := by
  after_results
  try simp only [StableHlo.TRef.ofBuf, StableHlo.TRef.toBuf]
  repeat erw [cast_eq]
  try rfl
theorem fdBN_out (W : Valuation τ sig (Elt F)) :
    StableHlo.after fdBN W (Proc.devRef .tc main_v30) =
      (select (andi (W (Proc.devRef .tc main_call8_v5)) (cmpi .ne (W (Proc.devRef .tc main_call8_v7)) (B4 (constantI S_ 32 0#32))))
        (subi (W (Proc.devRef .tc main_call8_v1)) (B4 (constantI S_ 32 1#32))) (W (Proc.devRef .tc main_call8_v1)) : C F ⟨S4096, .i32⟩) := by
  after_results
  try simp only [StableHlo.TRef.ofBuf, StableHlo.TRef.toBuf]
  repeat erw [cast_eq]
  try rfl

theorem n8 (m : (ℓ : Loc nD τ sig) → Buf (Elt F) ℓ) (c : Dev nD) :
    V18 m c main_v30 = kFdiv (F := F) (V17 m c main_v29) (V17 m c main_c_13) := by
  show StableHlo.after hostOps0_17 (V17 m c) (Proc.devRef .tc main_v30) = _
  generalize V17 m c = W
  unfold kFdiv
  rw [show (hostOps0_17 : List (HloOp τ sig (Elt F))) = fdAN ++ fdBN from rfl, StableHlo.after_append,
    fdBN_out, fdAN_v1, fdAN_v5, fdAN_v7]

theorem n9 (m : (ℓ : Loc nD τ sig) → Buf (Elt F) ℓ) (c : Dev nD) :
    V19 m c main_c_14 = kC (F := F) 8192#32 := by
  show StableHlo.after hostOps0_18 (V18 m c) (Proc.devRef .tc main_c_14) = _
  generalize V18 m c = W
  unfold kC
  after_results
  try simp only [StableHlo.TRef.ofBuf, StableHlo.TRef.toBuf]
  repeat erw [cast_eq]
  try rfl

abbrev rmAN : List (HloOp τ sig (Elt F)) :=
  [ StableHlo.TRef.unary (.of main_c_14 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S4096, .i32⟩) (broadcastInDim S4096 ![] bcast_S_S4096),
    StableHlo.TRef.binary (.of main_v30 : StableHlo.TRef sig ⟨S4096, .i32⟩) (.of main_call9_v3 : StableHlo.TRef sig ⟨S4096, .i32⟩) (.of main_call9_v4 : StableHlo.TRef sig ⟨S4096, .i32⟩) Host.remsi ]

abbrev rmBN : List (HloOp τ sig (Elt F)) :=
  [ StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S4096, .i32⟩) (broadcastInDim S4096 ![] bcast_S_S4096),
    StableHlo.TRef.binary (.of main_call9_v4 : StableHlo.TRef sig ⟨S4096, .i32⟩) (.of main_call9_v5 : StableHlo.TRef sig ⟨S4096, .i32⟩) (.of main_call9_v6 : StableHlo.TRef sig ⟨S4096, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S4096, .i32⟩) (broadcastInDim S4096 ![] bcast_S_S4096),
    StableHlo.TRef.binary (.of main_call9_v4 : StableHlo.TRef sig ⟨S4096, .i32⟩) (.of main_call9_v7 : StableHlo.TRef sig ⟨S4096, .i32⟩) (.of main_call9_v8 : StableHlo.TRef sig ⟨S4096, .i1⟩) (cmpi .slt),
    StableHlo.TRef.nullary (.of main_call9_c_3 : StableHlo.TRef sig ⟨S_, .i32⟩) (constantI S_ 32 0#32) ]

abbrev rmCN : List (HloOp τ sig (Elt F)) :=
  [ StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S4096, .i1⟩) (broadcastInDim S4096 ![] bcast_S_S4096),
    StableHlo.TRef.binary (.of main_call9_v8 : StableHlo.TRef sig ⟨S4096, .i1⟩) (.of main_call9_v10 : StableHlo.TRef sig ⟨S4096, .i1⟩) (.of main_call9_v11 : StableHlo.TRef sig ⟨S4096, .i1⟩) (cmpi .ne),
    StableHlo.TRef.binary (.of main_call9_v11 : StableHlo.TRef sig ⟨S4096, .i1⟩) (.of main_call9_v6 : StableHlo.TRef sig ⟨S4096, .i1⟩) (.of main_call9_v12 : StableHlo.TRef sig ⟨S4096, .i1⟩) andi,
    StableHlo.TRef.unary main_call9_call0.v0 (.of main_call9_v13 : StableHlo.TRef sig ⟨S4096, .i32⟩) (broadcastInDim S4096 ![] bcast_S_S4096),
    StableHlo.TRef.binary (.of main_call9_v4 : StableHlo.TRef sig ⟨S4096, .i32⟩) (.of main_call9_v13 : StableHlo.TRef sig ⟨S4096, .i32⟩) (.of main_call9_v14 : StableHlo.TRef sig ⟨S4096, .i32⟩) addi,
    StableHlo.TRef.ternary (.of main_call9_v12 : StableHlo.TRef sig ⟨S4096, .i1⟩) (.of main_call9_v14 : StableHlo.TRef sig ⟨S4096, .i32⟩) (.of main_call9_v4 : StableHlo.TRef sig ⟨S4096, .i32⟩) (.of main_v31 : StableHlo.TRef sig ⟨S4096, .i32⟩) select ]

theorem rmAN_v2 (W : Valuation τ sig (Elt F)) :
    StableHlo.after rmAN W (Proc.devRef .tc main_call9_v2) = (kRemD (F := F) (W (Proc.devRef .tc main_c_14)) : C F ⟨S_, .i32⟩) := by
  unfold kRemD
  after_results
  try simp only [StableHlo.TRef.ofBuf, StableHlo.TRef.toBuf]
  repeat erw [cast_eq]
  try rfl
theorem rmAN_v4 (W : Valuation τ sig (Elt F)) :
    StableHlo.after rmAN W (Proc.devRef .tc main_call9_v4) = (Host.remsi (W (Proc.devRef .tc main_v30)) (B4 (kRemD (F := F) (W (Proc.devRef .tc main_c_14)))) : C F ⟨S4096, .i32⟩) := by
  unfold kRemD
  after_results
  try simp only [StableHlo.TRef.ofBuf, StableHlo.TRef.toBuf]
  repeat erw [cast_eq]
  try rfl
theorem rmBN_v6 (W : Valuation τ sig (Elt F)) :
    StableHlo.after rmBN W (Proc.devRef .tc main_call9_v6) = (cmpi .ne (W (Proc.devRef .tc main_call9_v4)) (B4 (constantI S_ 32 0#32)) : C F ⟨S4096, .i1⟩) := by
  after_results
  try simp only [StableHlo.TRef.ofBuf, StableHlo.TRef.toBuf]
  repeat erw [cast_eq]
  try rfl
theorem rmBN_v8 (W : Valuation τ sig (Elt F)) :
    StableHlo.after rmBN W (Proc.devRef .tc main_call9_v8) = (cmpi .slt (W (Proc.devRef .tc main_call9_v4)) (B4 (constantI S_ 32 0#32)) : C F ⟨S4096, .i1⟩) := by
  after_results
  try simp only [StableHlo.TRef.ofBuf, StableHlo.TRef.toBuf]
  repeat erw [cast_eq]
  try rfl
theorem rmBN_c3 (W : Valuation τ sig (Elt F)) :
    StableHlo.after rmBN W (Proc.devRef .tc main_call9_c_3) = (constantI S_ 32 0#32 : C F ⟨S_, .i32⟩) := by
  after_results
  try simp only [StableHlo.TRef.ofBuf, StableHlo.TRef.toBuf]
  repeat erw [cast_eq]
  try rfl
theorem rmBN_v4 (W : Valuation τ sig (Elt F)) : StableHlo.after rmBN W (Proc.devRef .tc main_call9_v4) = W (Proc.devRef .tc main_call9_v4) := by
  after_results
theorem rmBN_v2 (W : Valuation τ sig (Elt F)) : StableHlo.after rmBN W (Proc.devRef .tc main_call9_v2) = W (Proc.devRef .tc main_call9_v2) := by
  after_results
theorem rmCN_out (W : Valuation τ sig (Elt F)) :
    StableHlo.after rmCN W (Proc.devRef .tc main_v31) =
      (select (andi (cmpi .ne (W (Proc.devRef .tc main_call9_v8)) (B4 (cmpi .slt (W (Proc.devRef .tc main_call9_v2)) (W (Proc.devRef .tc main_call9_c_3))))) (W (Proc.devRef .tc main_call9_v6)))
        (addi (W (Proc.devRef .tc main_call9_v4)) (B4 (W (Proc.devRef .tc main_call9_v2)))) (W (Proc.devRef .tc main_call9_v4)) : C F ⟨S4096, .i32⟩) := by
  after_results
  try simp only [StableHlo.TRef.ofBuf, StableHlo.TRef.toBuf]
  repeat erw [cast_eq]
  try rfl

theorem n10 (m : (ℓ : Loc nD τ sig) → Buf (Elt F) ℓ) (c : Dev nD) :
    V20 m c main_v31 = kRem (F := F) (V19 m c main_v30) (V19 m c main_c_14) := by
  show StableHlo.after hostOps0_19 (V19 m c) (Proc.devRef .tc main_v31) = _
  generalize V19 m c = W
  unfold kRem
  rw [show (hostOps0_19 : List (HloOp τ sig (Elt F))) = rmAN ++ (rmBN ++ rmCN) from rfl, StableHlo.after_append,
    StableHlo.after_append, rmCN_out, rmBN_v8, rmBN_v6, rmBN_c3, rmBN_v4, rmBN_v2, rmAN_v4, rmAN_v2]

abbrev tlA : List (HloOp τ sig (Elt F)) :=
  [ StableHlo.nullary main_c_15 (constantI S_ 32 1#32),
    StableHlo.unary main_c_15 main_v32 (broadcastInDim S4096 ![] bcast_S_S4096 : (⟨S_, .i32⟩ : BufTy).Contents (Elt F) → (⟨S4096, .i32⟩ : BufTy).Contents (Elt F)),
    StableHlo.nullary main_c_16 (constantI S_ 32 0#32),
    StableHlo.unary main_c_16 main_v33 (broadcastInDim S4096 ![] bcast_S_S4096 : (⟨S_, .i32⟩ : BufTy).Contents (Elt F) → (⟨S4096, .i32⟩ : BufTy).Contents (Elt F)),
    StableHlo.binary main_v32 main_v33 main_v34 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) ]

abbrev tlB : List (HloOp τ sig (Elt F)) :=
  [ StableHlo.nullary main_c_17 (constantI S_ 32 0#32),
    StableHlo.unary main_c_17 main_v35 (broadcastInDim S4096 ![] bcast_S_S4096 : (⟨S_, .i32⟩ : BufTy).Contents (Elt F) → (⟨S4096, .i32⟩ : BufTy).Contents (Elt F)),
    StableHlo.binary main_v15 main_v35 main_v36 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 8192#32),
    StableHlo.unary main_c_18 main_v37 (broadcastInDim S4096 ![] bcast_S_S4096 : (⟨S_, .i32⟩ : BufTy).Contents (Elt F) → (⟨S4096, .i32⟩ : BufTy).Contents (Elt F)),
    StableHlo.binary main_v15 main_v37 main_v38 (addi : (⟨S4096, .i32⟩ : BufTy).Contents (Elt F) → (⟨S4096, .i32⟩ : BufTy).Contents (Elt F) → (⟨S4096, .i32⟩ : BufTy).Contents (Elt F)),
    StableHlo.ternary main_v36 main_v38 main_v15 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v39 main_v40 (broadcastInDim S4096x1 ![0] bcast_S4096_S4096x1_0 : (⟨S4096, .i32⟩ : BufTy).Contents (Elt F) → (⟨S4096x1, .i32⟩ : BufTy).Contents (Elt F)),
    StableHlo.binary main_arg1 main_v40 main_v41 ((fun x i => Host.gather gather_S8192_S4096x1_S4096_n_0_n_n_0_1_1 x i) : (⟨S8192, .i32⟩ : BufTy).Contents (Elt F) → (⟨S4096x1, .i32⟩ : BufTy).Contents (Elt F) → (⟨S4096, .i32⟩ : BufTy).Contents (Elt F)) ]

abbrev tlC : List (HloOp τ sig (Elt F)) :=
  [ StableHlo.nullary main_c_19 (constantI S_ 32 0#32),
    StableHlo.unary main_c_19 main_v42 (broadcastInDim S4096 ![] bcast_S_S4096 : (⟨S_, .i32⟩ : BufTy).Contents (Elt F) → (⟨S4096, .i32⟩ : BufTy).Contents (Elt F)),
    StableHlo.binary main_v31 main_v42 main_v43 (cmpi .slt : (⟨S4096, .i32⟩ : BufTy).Contents (Elt F) → (⟨S4096, .i32⟩ : BufTy).Contents (Elt F) → (⟨S4096, .i1⟩ : BufTy).Contents (Elt F)),
    StableHlo.nullary main_c_20 (constantI S_ 32 8192#32),
    StableHlo.unary main_c_20 main_v44 (broadcastInDim S4096 ![] bcast_S_S4096 : (⟨S_, .i32⟩ : BufTy).Contents (Elt F) → (⟨S4096, .i32⟩ : BufTy).Contents (Elt F)),
    StableHlo.binary main_v31 main_v44 main_v45 (addi : (⟨S4096, .i32⟩ : BufTy).Contents (Elt F) → (⟨S4096, .i32⟩ : BufTy).Contents (Elt F) → (⟨S4096, .i32⟩ : BufTy).Contents (Elt F)),
    StableHlo.ternary main_v43 main_v45 main_v31 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v46 main_v47 (broadcastInDim S4096x1 ![0] bcast_S4096_S4096x1_0 : (⟨S4096, .i32⟩ : BufTy).Contents (Elt F) → (⟨S4096x1, .i32⟩ : BufTy).Contents (Elt F)),
    StableHlo.binary main_arg1 main_v47 main_v48 ((fun x i => Host.gather gather_S8192_S4096x1_S4096_n_0_n_n_0_1_1 x i) : (⟨S8192, .i32⟩ : BufTy).Contents (Elt F) → (⟨S4096x1, .i32⟩ : BufTy).Contents (Elt F) → (⟨S4096, .i32⟩ : BufTy).Contents (Elt F)) ]

theorem tlA_v34 (W : Valuation τ sig (Elt F)) : StableHlo.after tlA W (Proc.devRef .tc main_v34) = kLab (F := F) := by
  unfold kLab
  after_results
  try simp only [StableHlo.TRef.ofBuf, StableHlo.TRef.toBuf]
  repeat erw [cast_eq]
  try rfl
theorem tlA_arg1 (W : Valuation τ sig (Elt F)) : StableHlo.after tlA W (Proc.devRef .tc main_arg1) = W (Proc.devRef .tc main_arg1) := by
  after_results
theorem tlA_v31 (W : Valuation τ sig (Elt F)) : StableHlo.after tlA W (Proc.devRef .tc main_v31) = W (Proc.devRef .tc main_v31) := by
  after_results
theorem tlB_v34 (W : Valuation τ sig (Elt F)) : StableHlo.after tlB W (Proc.devRef .tc main_v34) = W (Proc.devRef .tc main_v34) := by
  after_results
theorem tlB_arg1 (W : Valuation τ sig (Elt F)) : StableHlo.after tlB W (Proc.devRef .tc main_arg1) = W (Proc.devRef .tc main_arg1) := by
  after_results
theorem tlB_v31 (W : Valuation τ sig (Elt F)) : StableHlo.after tlB W (Proc.devRef .tc main_v31) = W (Proc.devRef .tc main_v31) := by
  after_results
theorem tlC_v34 (W : Valuation τ sig (Elt F)) : StableHlo.after tlC W (Proc.devRef .tc main_v34) = W (Proc.devRef .tc main_v34) := by
  after_results

theorem tlC_v48 (W : Valuation τ sig (Elt F)) :
    StableHlo.after tlC W (Proc.devRef .tc main_v48) = kTake (F := F) (W (Proc.devRef .tc main_arg1)) (kSel (W (Proc.devRef .tc main_v31))) := by
  unfold kTake kSel
  after_results
  try simp only [StableHlo.TRef.ofBuf, StableHlo.TRef.toBuf]
  repeat erw [cast_eq]
  try rfl

theorem l48 (m : (ℓ : Loc nD τ sig) → Buf (Elt F) ℓ) (c : Dev nD) :
    V21 m c main_v48 = kTake (F := F) (V20 m c main_arg1) (kSel (V20 m c main_v31)) := by
  show StableHlo.after hostOps0_20 (V20 m c) (Proc.devRef .tc main_v48) = _
  generalize V20 m c = W
  rw [show (hostOps0_20 : List (HloOp τ sig (Elt F))) = tlA ++ (tlB ++ tlC) from rfl, StableHlo.after_append,
    StableHlo.after_append, tlC_v48, tlB_arg1, tlB_v31, tlA_arg1, tlA_v31]

theorem l34 (m : (ℓ : Loc nD τ sig) → Buf (Elt F) ℓ) (c : Dev nD) :
    V21 m c main_v34 = kLab (F := F) := by
  show StableHlo.after hostOps0_20 (V20 m c) (Proc.devRef .tc main_v34) = _
  generalize V20 m c = W
  rw [show (hostOps0_20 : List (HloOp τ sig (Elt F))) = tlA ++ (tlB ++ tlC) from rfl, StableHlo.after_append,
    StableHlo.after_append, tlC_v34, tlB_v34, tlA_v34]

section Chain

variable (m : (ℓ : Loc nD τ sig) → Buf (Elt F) ℓ) (c : Dev nD)

theorem c_arg0 : V10 m c main_arg0 = V0 m c main_arg0 :=
  (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

theorem c_arg1n : V20 m c main_arg1 = V0 m c main_arg1 :=
  (V20_of m c main_arg1 (by decide)).trans <| (V19_of m c main_arg1 (by decide)).trans <| (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))

theorem s18 : V12 m c main_v18 = Cert.ReferenceIdeal.HandRun.fv_main_v18 (V10 m c main_arg0) := by
  rw [n2, n1]; exact br18 _
theorem s19 : V13 m c main_v19 = Cert.ReferenceIdeal.HandRun.fv_main_v19 := by
  rw [n3a]; exact br19
theorem s20 : V14 m c main_v20 = Cert.ReferenceIdeal.HandRun.fv_main_v20 (V12 m c main_v18) := by
  rw [n4, n3b, V13_of m c main_v18 (by decide)]; exact br20 _
theorem s29 : V16 m c main_v29 = Cert.ReferenceIdeal.HandRun.fv_main_v29 (V14 m c main_v20) (V13 m c main_v19) := by
  rw [n6, n5, V14_of m c main_v19 (by decide)]; exact br29 _ _
theorem s30 : V18 m c main_v30 = Cert.ReferenceIdeal.HandRun.fv_main_v30 (V16 m c main_v29) := by
  rw [n8, n7, V17_of m c main_v29 (by decide)]; exact br30 _
theorem s31 : V20 m c main_v31 = Cert.ReferenceIdeal.HandRun.fv_main_v31 (V18 m c main_v30) := by
  rw [n10, n9, V19_of m c main_v30 (by decide)]; exact br31 _

theorem neg_chain : V21 m c main_v48 =
    Cert.ReferenceIdeal.HandRun.fv_main_v48 (Cert.ReferenceIdeal.HandRun.fv_main_v31 (Cert.ReferenceIdeal.HandRun.fv_main_v30 (Cert.ReferenceIdeal.HandRun.fv_main_v29
      (Cert.ReferenceIdeal.HandRun.fv_main_v20 (Cert.ReferenceIdeal.HandRun.fv_main_v18 (V0 m c main_arg0))) Cert.ReferenceIdeal.HandRun.fv_main_v19))) (V0 m c main_arg1) := by
  rw [l48, c_arg1n, s31, s30, s29, s20, s19, s18, c_arg0, br48]

theorem tb1_eq : V21 m c main_v48 =
    Cert.ReferenceIdeal.HandRun.negNodes (m ((c.tc : Thread nD τ).loc main_arg0)) (m ((c.tc : Thread nD τ).loc main_arg1)) :=
  neg_chain m c

theorem v34_eq : V21 m c main_v34 = Cert.ReferenceIdeal.HandRun.res_v34 (F := F) := by
  rw [l34]; exact br34

end Chain

end Cert.KernelIdeal.HandValue

end
-- ==== Proof.Claims.lean ====
import proofs.«410613_j6055903887911_1_alg».proof.Defs
import proofs.«410613_j6055903887911_1_alg».proof.Proof.Gen.Kernel
import proofs.«410613_j6055903887911_1_alg».proof.Proof.Gen.KernelIdeal
import proofs.«410613_j6055903887911_1_alg».proof.Proof.Gen.ReferenceIdeal
import proofs.«410613_j6055903887911_1_alg».proof.Proof.Gen.Pre_finite_inputs
import proofs.«410613_j6055903887911_1_alg».proof.Proof.KFrame
import proofs.«410613_j6055903887911_1_alg».proof.Proof.KIFrame
import proofs.«410613_j6055903887911_1_alg».proof.Proof.KIFinal
import proofs.«410613_j6055903887911_1_alg».proof.Proof.RefRun
import proofs.«410613_j6055903887911_1_alg».proof.Proof.RefValue
import proofs.«410613_j6055903887911_1_alg».proof.Proof.RefRes
import proofs.«410613_j6055903887911_1_alg».proof.Proof.KITablesRef
import proofs.«410613_j6055903887911_1_alg».proof.Proof.KITablesRefNeg

noncomputable section

namespace Cert.Proof.Claims

open Idealize.ShloMosaic Idealize.SL.Sem

theorem frame_k : Cert.frame_Kernel := fun m ρ h => Cert.Kernel.Hand.frame_main m h ρ

theorem frame_ki : Cert.frame_KernelIdeal := fun m ρ h => Cert.KernelIdeal.Hand.frame_main m h ρ

theorem frame_ri : Cert.frame_ReferenceIdeal := fun m ρ _ =>
  (θ_run Cert.ReferenceIdeal.defs _ _).mono (fun _ h c => (h c).2.2)
    (Cert.ReferenceIdeal.HandRun.run (F := Ideal) m ρ)

theorem preserves : Cert.preserves_Kernel_KernelIdeal := trivial

theorem algebraic : Cert.algebraic_KernelIdeal_ReferenceIdeal := by
  intro m ρ m' ρ' hpre hagree
  refine ⟨_, _, Cert.KernelIdeal.HandValue.kernel_run m hpre ρ, ?_⟩
  refine (θ_run Cert.ReferenceIdeal.defs _ _).mono (fun _ h c => ?_)
    (Cert.ReferenceIdeal.HandRun.run (F := Ideal) m' ρ')
  obtain ⟨h34, h70, hargs⟩ := h c
  refine ⟨h34.trans (Cert.KernelIdeal.HandValue.v34_eq m c).symm, h70.trans ?_, hargs⟩
  obtain ⟨e0, e1, e2, e3, e4, e5⟩ := hagree c
  rw [e0, e1, e2, e3, e4, e5]
  refine (Cert.ReferenceIdeal.RefValue.res_v70_eq_spec _ _ (Cert.KernelIdeal.Hand.node_lt m hpre c) _ _ _ _).trans ?_
  have hp : Cert.ReferenceIdeal.RefValue.tbl _ (Cert.ReferenceIdeal.RefValue.posNodes_lt _ _ (Cert.KernelIdeal.Hand.node_lt m hpre c))
      = Cert.KernelIdeal.HandValue.ktbl _ (Cert.KernelIdeal.Hand.pos_tb_lt m hpre c) :=
    funext fun j => Fin.ext (congrArg (fun t => (t (ValueIdx.ix1 j)).toNat) (Cert.KernelIdeal.HandValue.tb0_eq m c).symm)
  have hn : Cert.ReferenceIdeal.RefValue.tbl _ (Cert.ReferenceIdeal.RefValue.negNodes_lt _ _ (Cert.KernelIdeal.Hand.node_lt m hpre c))
      = Cert.KernelIdeal.HandValue.ktbl _ (Cert.KernelIdeal.Hand.neg_tb_lt m hpre c) :=
    funext fun j => Fin.ext (congrArg (fun t => (t (ValueIdx.ix1 j)).toNat) (Cert.KernelIdeal.HandValue.tb1_eq m c).symm)
  rw [hp, hn]

end Cert.Proof.Claims

end
-- ==== Proof.lean ====
import proofs.«410613_j6055903887911_1_alg».proof.Defs
import proofs.«410613_j6055903887911_1_alg».proof.Proof.Gen.Kernel
import proofs.«410613_j6055903887911_1_alg».proof.Proof.Gen.Kernel.Skeleton
import proofs.«410613_j6055903887911_1_alg».proof.Proof.Gen.Kernel.Launch
import proofs.«410613_j6055903887911_1_alg».proof.Proof.Gen.Kernel.Regions
import proofs.«410613_j6055903887911_1_alg».proof.Proof.Gen.Kernel.Points
import proofs.«410613_j6055903887911_1_alg».proof.Proof.Gen.KernelIdeal
import proofs.«410613_j6055903887911_1_alg».proof.Proof.Gen.KernelIdeal.Skeleton
import proofs.«410613_j6055903887911_1_alg».proof.Proof.Gen.KernelIdeal.Launch
import proofs.«410613_j6055903887911_1_alg».proof.Proof.Gen.KernelIdeal.Regions
import proofs.«410613_j6055903887911_1_alg».proof.Proof.Gen.KernelIdeal.Points
import proofs.«410613_j6055903887911_1_alg».proof.Proof.Gen.ReferenceIdeal
import proofs.«410613_j6055903887911_1_alg».proof.Proof.Gen.Pre_finite_inputs
import proofs.«410613_j6055903887911_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
